-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v104)) (v1 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_v100) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_v143) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S100000 : Shape := ⟨1, ![100000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg13 : FVec F S64 .f32) (main_arg14 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg9 : FVec F S64 .f32) (main_arg10 : FVec F S64 .f32) (main_arg11 : FVec F S64x64 .f32) (main_arg12 : FVec F S64 .f32) (main_arg13 : FVec F S64 .f32) (main_arg14 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_v48 main_v49 main_v50

def fn_part1 {F : FTy → Type} [FloatOps F] (main_arg6 : FVec F S64 .f32) (main_arg7 : FVec F S64x64 .f32) (main_arg8 : FVec F S64 .f32) (main_arg9 : FVec F S64 .f32) (main_arg10 : FVec F S64 .f32) (main_arg11 : FVec F S64x64 .f32) (main_arg12 : FVec F S64 .f32) (main_arg13 : FVec F S64 .f32) (main_arg14 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x64 .f32) (main_arg1 : IVec S2x1000000 32) (main_arg2 : IVec S100000 32) (main_arg3 : FVec F S64x64 .f32) (main_arg4 : FVec F S64 .f32) (main_arg5 : FVec F S64 .f32) (main_arg6 : FVec F S64 .f32) (main_arg7 : FVec F S64x64 .f32) (main_arg8 : FVec F S64 .f32) (main_arg9 : FVec F S64 .f32) (main_arg10 : FVec F S64 .f32) (main_arg11 : FVec F S64x64 .f32) (main_arg12 : FVec F S64 .f32) (main_arg13 : FVec F S64 .f32) (main_arg14 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_v13 main_v16
-- ==== Kernel.lean ====
abbrev S100000x64 : Shape := ⟨2, ![100000, 64]⟩
abbrev S2x1000000 : Shape := ⟨2, ![2, 1000000]⟩
abbrev S100000 : Shape := ⟨1, ![100000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S100000x1 : Shape := ⟨2, ![100000, 1]⟩
abbrev S10000x64 : Shape := ⟨2, ![10000, 64]⟩
abbrev S1100000x64 : Shape := ⟨2, ![1100000, 64]⟩
abbrev S10000x1 : Shape := ⟨2, ![10000, 1]⟩
abbrev S1x64 : Shape := ⟨2, ![1, 64]⟩
abbrev S512x64 : Shape := ⟨2, ![512, 64]⟩
abbrev S2000x64 : Shape := ⟨2, ![2000, 64]⟩
abbrev S2000x1 : Shape := ⟨2, ![2000, 1]⟩
abbrev S2000x512 : Shape := ⟨2, ![2000, 512]⟩
abbrev S512x192 : Shape := ⟨2, ![512, 192]⟩

abbrev nBuf : Space → Nat
  | .hbm => 151
  | .vmem => 102
  | .smem => 0
  | _ => 0

abbrev hbmTy0_0 (i : Nat) : BufTy := match i % 128 with
  | 0 => ⟨S100000x64, .f32⟩
  | 1 => ⟨S2x1000000, .i32⟩
  | 2 => ⟨S100000, .i32⟩
  | 3 => ⟨S64x64, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S64x64, .f32⟩
  | 12 => ⟨S64, .f32⟩
  | 13 => ⟨S64, .f32⟩
  | 14 => ⟨S64, .f32⟩
  | 15 => ⟨S100000, .i32⟩
  | 16 => ⟨S1x1000000, .i32⟩
  | 17 => ⟨S1000000, .i32⟩
  | 18 => ⟨S1100000, .i32⟩
  | 19 => ⟨S1x1000000, .i32⟩
  | 20 => ⟨S1000000, .i32⟩
  | 21 => ⟨S1100000, .i32⟩
  | 22 => ⟨S_, .f32⟩
  | 23 => ⟨S1100000, .f32⟩
  | 24 => ⟨S_, .f32⟩
  | 25 => ⟨S100000, .f32⟩
  | 26 => ⟨S1100000x1, .i32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1100000, .i32⟩
  | 38 => ⟨S1100000, .i1⟩
  | 39 => ⟨S_, .i32⟩
  | 40 => ⟨S1100000, .i32⟩
  | 41 => ⟨S1100000, .i32⟩
  | 42 => ⟨S1100000, .i32⟩
  | 43 => ⟨S1100000x1, .i32⟩
  | 44 => ⟨S1100000, .f32⟩
  | 45 => ⟨S_, .i32⟩
  | 46 => ⟨S1100000, .i32⟩
  | 47 => ⟨S1100000, .i1⟩
  | 48 => ⟨S_, .i32⟩
  | 49 => ⟨S1100000, .i32⟩
  | 50 => ⟨S1100000, .i32⟩
  | 51 => ⟨S1100000, .i32⟩
  | 52 => ⟨S1100000x1, .i32⟩
  | 53 => ⟨S1100000, .f32⟩
  | 54 => ⟨S1100000, .f32⟩
  | 55 => ⟨S1100000x1, .f32⟩
  | 56 => ⟨S100000x1, .i32⟩
  | 57 => ⟨S100000x64, .f32⟩
  | 58 => ⟨S_, .i32⟩
  | 59 => ⟨S1100000, .i32⟩
  | 60 => ⟨S1100000, .i1⟩
  | 61 => ⟨S_, .i32⟩
  | 62 => ⟨S1100000, .i32⟩
  | 63 => ⟨S1100000, .i32⟩
  | 64 => ⟨S1100000, .i32⟩
  | 65 => ⟨S1100000x1, .i32⟩
  | 66 => ⟨S1100000x64, .f32⟩
  | 67 => ⟨S1100000x64, .f32⟩
  | 68 => ⟨S_, .f32⟩
  | 69 => ⟨S100000x64, .f32⟩
  | 70 => ⟨S1100000x1, .i32⟩
  | 71 => ⟨S100000x64, .f32⟩
  | 72 => ⟨S1x64, .f32⟩
  | 73 => ⟨S100000x64, .f32⟩
  | 74 => ⟨S1x64, .f32⟩
  | 75 => ⟨S1x64, .f32⟩
  | 76 => ⟨S_, .f32⟩
  | 77 => ⟨S1x64, .f32⟩
  | 78 => ⟨S1x64, .f32⟩
  | 79 => ⟨S_, .f32⟩
  | 80 => ⟨S1x64, .f32⟩
  | 81 => ⟨S1x64, .f32⟩
  | 82 => ⟨S1x64, .f32⟩
  | 83 => ⟨S1x64, .f32⟩
  | 84 => ⟨S1x64, .f32⟩
  | 85 => ⟨S1x64, .f32⟩
  | 86 => ⟨S100000x64, .f32⟩
  | 87 => ⟨S100000x64, .f32⟩
  | 88 => ⟨S_, .i32⟩
  | 89 => ⟨S1100000, .i32⟩
  | 90 => ⟨S1100000, .i1⟩
  | 91 => ⟨S_, .i32⟩
  | 92 => ⟨S1100000, .i32⟩
  | 93 => ⟨S1100000, .i32⟩
  | 94 => ⟨S1100000, .i32⟩
  | 95 => ⟨S1100000x1, .i32⟩
  | 96 => ⟨S1100000x64, .f32⟩
  | 97 => ⟨S1100000x64, .f32⟩
  | 98 => ⟨S_, .f32⟩
  | 99 => ⟨S100000x64, .f32⟩
  | 100 => ⟨S1100000x1, .i32⟩
  | 101 => ⟨S100000x64, .f32⟩
  | 102 => ⟨S1x64, .f32⟩
  | 103 => ⟨S100000x64, .f32⟩
  | 104 => ⟨S1x64, .f32⟩
  | 105 => ⟨S1x64, .f32⟩
  | 106 => ⟨S_, .f32⟩
  | 107 => ⟨S1x64, .f32⟩
  | 108 => ⟨S1x64, .f32⟩
  | 109 => ⟨S_, .f32⟩
  | 110 => ⟨S1x64, .f32⟩
  | 111 => ⟨S1x64, .f32⟩
  | 112 => ⟨S1x64, .f32⟩
  | 113 => ⟨S1x64, .f32⟩
  | 114 => ⟨S1x64, .f32⟩
  | 115 => ⟨S1x64, .f32⟩
  | 116 => ⟨S100000x64, .f32⟩
  | 117 => ⟨S100000x64, .f32⟩
  | 118 => ⟨S_, .i32⟩
  | 119 => ⟨S1100000, .i32⟩
  | 120 => ⟨S1100000, .i1⟩
  | 121 => ⟨S_, .i32⟩
  | 122 => ⟨S1100000, .i32⟩
  | 123 => ⟨S1100000, .i32⟩
  | 124 => ⟨S1100000, .i32⟩
  | 125 => ⟨S1100000x1, .i32⟩
  | 126 => ⟨S1100000x64, .f32⟩
  | 127 => ⟨S1100000x64, .f32⟩
  | _ => ⟨S100000x64, .f32⟩

abbrev hbmTy0_1 (i : Nat) : BufTy := match i % 128 with
  | 0 => ⟨S_, .f32⟩
  | 1 => ⟨S100000x64, .f32⟩
  | 2 => ⟨S1100000x1, .i32⟩
  | 3 => ⟨S100000x64, .f32⟩
  | 4 => ⟨S1x64, .f32⟩
  | 5 => ⟨S100000x64, .f32⟩
  | 6 => ⟨S1x64, .f32⟩
  | 7 => ⟨S1x64, .f32⟩
  | 8 => ⟨S_, .f32⟩
  | 9 => ⟨S1x64, .f32⟩
  | 10 => ⟨S1x64, .f32⟩
  | 11 => ⟨S_, .f32⟩
  | 12 => ⟨S1x64, .f32⟩
  | 13 => ⟨S1x64, .f32⟩
  | 14 => ⟨S1x64, .f32⟩
  | 15 => ⟨S1x64, .f32⟩
  | 16 => ⟨S1x64, .f32⟩
  | 17 => ⟨S1x64, .f32⟩
  | 18 => ⟨S100000x64, .f32⟩
  | 19 => ⟨S512x64, .f32⟩
  | 20 => ⟨S512x64, .f32⟩
  | 21 => ⟨S512x64, .f32⟩
  | 22 => ⟨S512x192, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x1, .f32⟩
  | .local _ .vmem, ⟨8, _⟩ => ⟨S10000x1, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | .local _ .vmem, ⟨22, _⟩ => ⟨S1x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S64x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x1, .f32⟩
  | .local _ .vmem, ⟨36, _⟩ => ⟨S10000x1, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S1x64, .f32⟩
  | .local _ .vmem, ⟨42, _⟩ => ⟨S10000x64, .f32⟩
  | .local _ .vmem, ⟨43, _⟩ => ⟨S10000x64, .f32⟩
  | .local _ .vmem, ⟨44, _⟩ => ⟨S1x64, .f32⟩
  | .local _ .vmem, ⟨45, _⟩ => ⟨S1x64, .f32⟩
  | .local _ .vmem, ⟨46, _⟩ => ⟨S1x64, .f32⟩
  | .local _ .vmem, ⟨47, _⟩ => ⟨S1x64, .f32⟩
  | .local _ .vmem, ⟨48, _⟩ => ⟨S10000x64, .f32⟩
  | .local _ .vmem, ⟨49, _⟩ => ⟨S10000x64, .f32⟩
  | .local _ .vmem, ⟨50, _⟩ => ⟨S1x64, .f32⟩
  | .local _ .vmem, ⟨51, _⟩ => ⟨S1x64, .f32⟩
  | .local _ .vmem, ⟨52, _⟩ => ⟨S1x64, .f32⟩
  | .local _ .vmem, ⟨53, _⟩ => ⟨S1x64, .f32⟩
  | .local _ .vmem, ⟨54, _⟩ => ⟨S10000x64, .f32⟩
  | .local _ .vmem, ⟨55, _⟩ => ⟨S10000x64, .f32⟩
  | .local _ .vmem, ⟨56, _⟩ => ⟨S10000x64, .f32⟩
  | .local _ .vmem, ⟨57, _⟩ => ⟨S10000x64, .f32⟩
  | .local _ .vmem, ⟨58, _⟩ => ⟨S64x64, .f32⟩
  | .local _ .vmem, ⟨59, _⟩ => ⟨S10000x64, .f32⟩
  | .local _ .vmem, ⟨60, _⟩ => ⟨S10000x64, .f32⟩
  | .local _ .vmem, ⟨61, _⟩ => ⟨S10000x64, .f32⟩
  | .local _ .vmem, ⟨62, _⟩ => ⟨S10000x64, .f32⟩
  | .local _ .vmem, ⟨63, _⟩ => ⟨S10000x1, .f32⟩
  | .local _ .vmem, ⟨64, _⟩ => ⟨S10000x1, .f32⟩
  | .local _ .vmem, ⟨65, _⟩ => ⟨S10000x64, .f32⟩
  | .local _ .vmem, ⟨66, _⟩ => ⟨S10000x64, .f32⟩
  | .local _ .vmem, ⟨67, _⟩ => ⟨S10000x64, .f32⟩
  | .local _ .vmem, ⟨68, _⟩ => ⟨S10000x64, .f32⟩
  | .local _ .vmem, ⟨69, _⟩ => ⟨S1x64, .f32⟩
  | .local _ .vmem, ⟨70, _⟩ => ⟨S10000x64, .f32⟩
  | .local _ .vmem, ⟨71, _⟩ => ⟨S10000x64, .f32⟩
  | .local _ .vmem, ⟨72, _⟩ => ⟨S1x64, .f32⟩
  | .local _ .vmem, ⟨73, _⟩ => ⟨S1x64, .f32⟩
  | .local _ .vmem, ⟨74, _⟩ => ⟨S1x64, .f32⟩
  | .local _ .vmem, ⟨75, _⟩ => ⟨S1x64, .f32⟩
  | .local _ .vmem, ⟨76, _⟩ => ⟨S10000x64, .f32⟩
  | .local _ .vmem, ⟨77, _⟩ => ⟨S10000x64, .f32⟩
  | .local _ .vmem, ⟨78, _⟩ => ⟨S1x64, .f32⟩
  | .local _ .vmem, ⟨79, _⟩ => ⟨S1x64, .f32⟩
  | .local _ .vmem, ⟨80, _⟩ => ⟨S1x64, .f32⟩
  | .local _ .vmem, ⟨81, _⟩ => ⟨S1x64, .f32⟩
  | .local _ .vmem, ⟨82, _⟩ => ⟨S10000x64, .f32⟩
  | .local _ .vmem, ⟨83, _⟩ => ⟨S10000x64, .f32⟩
  | .local _ .vmem, ⟨84, _⟩ => ⟨S2000x64, .f32⟩
  | .local _ .vmem, ⟨85, _⟩ => ⟨S2000x64, .f32⟩
  | .local _ .vmem, ⟨86, _⟩ => ⟨S2000x1, .i32⟩
  | .local _ .vmem, ⟨87, _⟩ => ⟨S2000x1, .i32⟩
  | .local _ .vmem, ⟨88, _⟩ => ⟨S512x64, .f32⟩
  | .local _ .vmem, ⟨89, _⟩ => ⟨S512x64, .f32⟩
  | .local _ .vmem, ⟨90, _⟩ => ⟨S2000x64, .f32⟩
  | .local _ .vmem, ⟨91, _⟩ => ⟨S2000x64, .f32⟩
  | .local _ .vmem, ⟨92, _⟩ => ⟨S2000x1, .i32⟩
  | .local _ .vmem, ⟨93, _⟩ => ⟨S2000x1, .i32⟩
  | .local _ .vmem, ⟨94, _⟩ => ⟨S512x64, .f32⟩
  | .local _ .vmem, ⟨95, _⟩ => ⟨S512x64, .f32⟩
  | .local _ .vmem, ⟨96, _⟩ => ⟨S2000x64, .f32⟩
  | .local _ .vmem, ⟨97, _⟩ => ⟨S2000x64, .f32⟩
  | .local _ .vmem, ⟨98, _⟩ => ⟨S2000x1, .i32⟩
  | .local _ .vmem, ⟨99, _⟩ => ⟨S2000x1, .i32⟩
  | .local _ .vmem, ⟨100, _⟩ => ⟨S512x64, .f32⟩
  | .local _ .vmem, ⟨101, _⟩ => ⟨S512x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | _, _ => false

abbrev semScoped : Fin 0 → Bool
  | ⟨_, h⟩ => absurd h (Nat.not_lt_zero _)

abbrev dmaSemScoped : Fin 93 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | _ => false

abbrev sig : RefSig :=
  ofTc nBuf bufTy 0 93 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_6 : Ref sig .tc := ⟨.hbm, 58, rfl⟩
abbrev main_v33 : Ref sig .tc := ⟨.hbm, 59, rfl⟩
abbrev main_v34 : Ref sig .tc := ⟨.hbm, 60, rfl⟩
abbrev main_c_7 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45_0 : Ref sig .tc := ⟨.hbm, 73, rfl⟩
abbrev main_v45_1 : Ref sig .tc := ⟨.hbm, 74, rfl⟩
abbrev main_v45_2 : Ref sig .tc := ⟨.hbm, 75, rfl⟩
abbrev main_cst_9 : Ref sig .tc := ⟨.hbm, 76, rfl⟩
abbrev main_v46 : Ref sig .tc := ⟨.hbm, 77, rfl⟩
abbrev main_v47 : Ref sig .tc := ⟨.hbm, 78, rfl⟩
abbrev main_cst_10 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_c_11 : Ref sig .tc := ⟨.hbm, 88, rfl⟩
abbrev main_v56 : Ref sig .tc := ⟨.hbm, 89, rfl⟩
abbrev main_v57 : Ref sig .tc := ⟨.hbm, 90, rfl⟩
abbrev main_c_12 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_13 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68_0 : Ref sig .tc := ⟨.hbm, 103, rfl⟩
abbrev main_v68_1 : Ref sig .tc := ⟨.hbm, 104, rfl⟩
abbrev main_v68_2 : Ref sig .tc := ⟨.hbm, 105, rfl⟩
abbrev main_cst_14 : Ref sig .tc := ⟨.hbm, 106, rfl⟩
abbrev main_v69 : Ref sig .tc := ⟨.hbm, 107, rfl⟩
abbrev main_v70 : Ref sig .tc := ⟨.hbm, 108, rfl⟩
abbrev main_cst_15 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_c_16 : Ref sig .tc := ⟨.hbm, 118, rfl⟩
abbrev main_v79 : Ref sig .tc := ⟨.hbm, 119, rfl⟩
abbrev main_v80 : Ref sig .tc := ⟨.hbm, 120, rfl⟩
abbrev main_c_17 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_18 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91_0 : Ref sig .tc := ⟨.hbm, 133, rfl⟩
abbrev main_v91_1 : Ref sig .tc := ⟨.hbm, 134, rfl⟩
abbrev main_v91_2 : Ref sig .tc := ⟨.hbm, 135, rfl⟩
abbrev main_cst_19 : Ref sig .tc := ⟨.hbm, 136, rfl⟩
abbrev main_v92 : Ref sig .tc := ⟨.hbm, 137, rfl⟩
abbrev main_v93 : Ref sig .tc := ⟨.hbm, 138, rfl⟩
abbrev main_cst_20 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_scratch0 : Ref sig .tc := ⟨.vmem, 18, rfl⟩
abbrev cc2_scratch1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg2_0 : Ref sig .tc := ⟨.vmem, 42, rfl⟩
abbrev cc6_stg2_1 : Ref sig .tc := ⟨.vmem, 43, rfl⟩
abbrev cc6_stg3_0 : Ref sig .tc := ⟨.vmem, 44, rfl⟩
abbrev cc6_stg4_0 : Ref sig .tc := ⟨.vmem, 45, rfl⟩
abbrev cc6_scratch0 : Ref sig .tc := ⟨.vmem, 46, rfl⟩
abbrev cc6_scratch1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg2_0 : Ref sig .tc := ⟨.vmem, 51, rfl⟩
abbrev cc7_stg3_0 : Ref sig .tc := ⟨.vmem, 52, rfl⟩
abbrev cc7_stg4_0 : Ref sig .tc := ⟨.vmem, 53, rfl⟩
abbrev cc7_stg5_0 : Ref sig .tc := ⟨.vmem, 54, rfl⟩
abbrev cc7_stg5_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg2_0 : Ref sig .tc := ⟨.vmem, 59, rfl⟩
abbrev cc8_stg2_1 : Ref sig .tc := ⟨.vmem, 60, rfl⟩
abbrev cc9_stg0_0 : Ref sig .tc := ⟨.vmem, 61, rfl⟩
abbrev cc9_stg0_1 : Ref sig .tc := ⟨.vmem, 62, rfl⟩
abbrev cc9_stg1_0 : Ref sig .tc := ⟨.vmem, 63, rfl⟩
abbrev cc9_stg1_1 : Ref sig .tc := ⟨.vmem, 64, rfl⟩
abbrev cc9_stg2_0 : Ref sig .tc := ⟨.vmem, 65, rfl⟩
abbrev cc9_stg2_1 : Ref sig .tc := ⟨.vmem, 66, rfl⟩
abbrev cc10_stg0_0 : Ref sig .tc := ⟨.vmem, 67, rfl⟩
abbrev cc10_stg0_1 : Ref sig .tc := ⟨.vmem, 68, rfl⟩
abbrev cc10_stg1_0 : Ref sig .tc := ⟨.vmem, 69, rfl⟩
abbrev cc10_stg2_0 : Ref sig .tc := ⟨.vmem, 70, rfl⟩
abbrev cc10_stg2_1 : Ref sig .tc := ⟨.vmem, 71, rfl⟩
abbrev cc10_stg3_0 : Ref sig .tc := ⟨.vmem, 72, rfl⟩
abbrev cc10_stg4_0 : Ref sig .tc := ⟨.vmem, 73, rfl⟩
abbrev cc10_scratch0 : Ref sig .tc := ⟨.vmem, 74, rfl⟩
abbrev cc10_scratch1 : Ref sig .tc := ⟨.vmem, 75, rfl⟩
abbrev cc11_stg0_0 : Ref sig .tc := ⟨.vmem, 76, rfl⟩
abbrev cc11_stg0_1 : Ref sig .tc := ⟨.vmem, 77, rfl⟩
abbrev cc11_stg1_0 : Ref sig .tc := ⟨.vmem, 78, rfl⟩
abbrev cc11_stg2_0 : Ref sig .tc := ⟨.vmem, 79, rfl⟩
abbrev cc11_stg3_0 : Ref sig .tc := ⟨.vmem, 80, rfl⟩
abbrev cc11_stg4_0 : Ref sig .tc := ⟨.vmem, 81, rfl⟩
abbrev cc11_stg5_0 : Ref sig .tc := ⟨.vmem, 82, rfl⟩
abbrev cc11_stg5_1 : Ref sig .tc := ⟨.vmem, 83, rfl⟩
abbrev cc12_stg0_0 : Ref sig .tc := ⟨.vmem, 84, rfl⟩
abbrev cc12_stg0_1 : Ref sig .tc := ⟨.vmem, 85, rfl⟩
abbrev cc12_stg1_0 : Ref sig .tc := ⟨.vmem, 86, rfl⟩
abbrev cc12_stg1_1 : Ref sig .tc := ⟨.vmem, 87, rfl⟩
abbrev cc12_stg2_0 : Ref sig .tc := ⟨.vmem, 88, rfl⟩
abbrev cc12_scratch0 : Ref sig .tc := ⟨.vmem, 89, rfl⟩
abbrev cc13_stg0_0 : Ref sig .tc := ⟨.vmem, 90, rfl⟩
abbrev cc13_stg0_1 : Ref sig .tc := ⟨.vmem, 91, rfl⟩
abbrev cc13_stg1_0 : Ref sig .tc := ⟨.vmem, 92, rfl⟩
abbrev cc13_stg1_1 : Ref sig .tc := ⟨.vmem, 93, rfl⟩
abbrev cc13_stg2_0 : Ref sig .tc := ⟨.vmem, 94, rfl⟩
abbrev cc13_scratch0 : Ref sig .tc := ⟨.vmem, 95, rfl⟩
abbrev cc14_stg0_0 : Ref sig .tc := ⟨.vmem, 96, rfl⟩
abbrev cc14_stg0_1 : Ref sig .tc := ⟨.vmem, 97, rfl⟩
abbrev cc14_stg1_0 : Ref sig .tc := ⟨.vmem, 98, rfl⟩
abbrev cc14_stg1_1 : Ref sig .tc := ⟨.vmem, 99, rfl⟩
abbrev cc14_stg2_0 : Ref sig .tc := ⟨.vmem, 100, rfl⟩
abbrev cc14_scratch0 : Ref sig .tc := ⟨.vmem, 101, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem4_0 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36
abbrev cc6_sem0_0 : DmaSem sig := 37
abbrev cc6_sem0_1 : DmaSem sig := 38
abbrev cc6_sem1_0 : DmaSem sig := 39
abbrev cc6_sem2_0 : DmaSem sig := 40
abbrev cc6_sem2_1 : DmaSem sig := 41
abbrev cc6_sem3_0 : DmaSem sig := 42
abbrev cc6_sem4_0 : DmaSem sig := 43
abbrev cc7_sem0_0 : DmaSem sig := 44
abbrev cc7_sem0_1 : DmaSem sig := 45
abbrev cc7_sem1_0 : DmaSem sig := 46
abbrev cc7_sem2_0 : DmaSem sig := 47
abbrev cc7_sem3_0 : DmaSem sig := 48
abbrev cc7_sem4_0 : DmaSem sig := 49
abbrev cc7_sem5_0 : DmaSem sig := 50
abbrev cc7_sem5_1 : DmaSem sig := 51
abbrev cc8_sem0_0 : DmaSem sig := 52
abbrev cc8_sem0_1 : DmaSem sig := 53
abbrev cc8_sem1_0 : DmaSem sig := 54
abbrev cc8_sem2_0 : DmaSem sig := 55
abbrev cc8_sem2_1 : DmaSem sig := 56
abbrev cc9_sem0_0 : DmaSem sig := 57
abbrev cc9_sem0_1 : DmaSem sig := 58
abbrev cc9_sem1_0 : DmaSem sig := 59
abbrev cc9_sem1_1 : DmaSem sig := 60
abbrev cc9_sem2_0 : DmaSem sig := 61
abbrev cc9_sem2_1 : DmaSem sig := 62
abbrev cc10_sem0_0 : DmaSem sig := 63
abbrev cc10_sem0_1 : DmaSem sig := 64
abbrev cc10_sem1_0 : DmaSem sig := 65
abbrev cc10_sem2_0 : DmaSem sig := 66
abbrev cc10_sem2_1 : DmaSem sig := 67
abbrev cc10_sem3_0 : DmaSem sig := 68
abbrev cc10_sem4_0 : DmaSem sig := 69
abbrev cc11_sem0_0 : DmaSem sig := 70
abbrev cc11_sem0_1 : DmaSem sig := 71
abbrev cc11_sem1_0 : DmaSem sig := 72
abbrev cc11_sem2_0 : DmaSem sig := 73
abbrev cc11_sem3_0 : DmaSem sig := 74
abbrev cc11_sem4_0 : DmaSem sig := 75
abbrev cc11_sem5_0 : DmaSem sig := 76
abbrev cc11_sem5_1 : DmaSem sig := 77
abbrev cc12_sem0_0 : DmaSem sig := 78
abbrev cc12_sem0_1 : DmaSem sig := 79
abbrev cc12_sem1_0 : DmaSem sig := 80
abbrev cc12_sem1_1 : DmaSem sig := 81
abbrev cc12_sem2_0 : DmaSem sig := 82
abbrev cc13_sem0_0 : DmaSem sig := 83
abbrev cc13_sem0_1 : DmaSem sig := 84
abbrev cc13_sem1_0 : DmaSem sig := 85
abbrev cc13_sem1_1 : DmaSem sig := 86
abbrev cc13_sem2_0 : DmaSem sig := 87
abbrev cc14_sem0_0 : DmaSem sig := 88
abbrev cc14_sem0_1 : DmaSem sig := 89
abbrev cc14_sem1_0 : DmaSem sig := 90
abbrev cc14_sem1_1 : DmaSem sig := 91
abbrev cc14_sem2_0 : DmaSem sig := 92

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![110], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v27 : BitVec 1 := Scalar.cmpi .eq arg0 c9_i32
  let v28 : BitVec 32 := Scalar.extui v27
  let c0_i32_16 : BitVec 32 := 0#32
  let v29 : BitVec 1 := Scalar.cmpi .ne v28 c0_i32_16
  v29

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![110], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def k6_cond2 (i : grid6.Coords) : BitVec 1 :=
  let arg0 : BitVec 32 := BitVec.ofNat 32 (i 0).val
  let c9_i32 : BitVec 32 := 9#32
  let v27 : BitVec 1 := Scalar.cmpi .eq arg0 c9_i32
  let v28 : BitVec 32 := Scalar.extui v27
  let c0_i32_16 : BitVec 32 := 0#32
  let v29 : BitVec 1 := Scalar.cmpi .ne v28 c0_i32_16
  v29

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S10000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S10000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![110], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S10000x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S10000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![10], ![false]⟩

def k10_cond2 (i : grid10.Coords) : BitVec 1 :=
  let arg0 : BitVec 32 := BitVec.ofNat 32 (i 0).val
  let c9_i32 : BitVec 32 := 9#32
  let v27 : BitVec 1 := Scalar.cmpi .eq arg0 c9_i32
  let v28 : BitVec 32 := Scalar.extui v27
  let c0_i32_16 : BitVec 32 := 0#32
  let v29 : BitVec 1 := Scalar.cmpi .ne v28 c0_i32_16
  v29

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S10000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S10000x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S1x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x64 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S10000x64 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![50], ![false]⟩

def k12_cond2 (i : grid12.Coords) : BitVec 1 :=
  let arg0 : BitVec 32 := BitVec.ofNat 32 (i 0).val
  let c49_i32 : BitVec 32 := 49#32
  let v20 : BitVec 1 := Scalar.cmpi .eq arg0 c49_i32
  let v21 : BitVec 32 := Scalar.extui v20
  let c0_i32_8 : BitVec 32 := 0#32
  let v22 : BitVec 1 := Scalar.cmpi .ne v21 c0_i32_8
  v22

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S2000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S2000x1 .i32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S512x64 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev grid13 : Pipeline.Grid := ⟨1, ![50], ![false]⟩

def k13_cond2 (i : grid13.Coords) : BitVec 1 :=
  let arg0 : BitVec 32 := BitVec.ofNat 32 (i 0).val
  let c49_i32 : BitVec 32 := 49#32
  let v20 : BitVec 1 := Scalar.cmpi .eq arg0 c49_i32
  let v21 : BitVec 32 := Scalar.extui v20
  let c0_i32_8 : BitVec 32 := 0#32
  let v22 : BitVec 1 := Scalar.cmpi .ne v21 c0_i32_8
  v22

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S2000x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S2000x1 .i32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S512x64 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev grid14 : Pipeline.Grid := ⟨1, ![50], ![false]⟩

def k14_cond2 (i : grid14.Coords) : BitVec 1 :=
  let arg0 : BitVec 32 := BitVec.ofNat 32 (i 0).val
  let c49_i32 : BitVec 32 := 49#32
  let v20 : BitVec 1 := Scalar.cmpi .eq arg0 c49_i32
  let v21 : BitVec 32 := Scalar.extui v20
  let c0_i32_8 : BitVec 32 := 0#32
  let v22 : BitVec 1 := Scalar.cmpi .ne v21 c0_i32_8
  v22

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage14_0 : Fin 2 → Memref sig .tc .vmem S2000x64 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S2000x1 .i32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 1 → Memref sig .tc .vmem S512x64 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  shapeCasts_S1100000_S1100000x1 : S1100000.ShapeCasts S1100000x1
  shapeCasts_S100000_S100000x1 : S100000.ShapeCasts S100000x1
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reduces_S10000x64_S64 : S10000x64.Reduces [0] S64
  bcast_S_S1x64 : S_.BroadcastsInDim S1x64 (![] : Fin 0 → Fin S1x64.rank)
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x512_d1_w32 : S2000x512.Iotas .tc 32 [1]
  broadcasts_S2000x1_S2000x512 : S2000x1.Broadcasts S2000x512
  natLt_1_32 : 1 < 32
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  concatenates_S512x64_S512x64_S512x64_S512x192_d1 : Shape.Concatenates [S512x64, S512x64, S512x64] S512x192 1
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S10000x64_S64x64_S10000x64_1_1_0_0_n_n_wf : DotDims.WF S10000x64 S64x64 S10000x64 [1] [1] [0] [0] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S2000x512_S2000x64_S512x64_0_0_1_1_n_n_wf : DotDims.WF S2000x512 S2000x64 S512x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S1100000x64.size a
  hwx1_0 : ∀ i : grid1.Coords, EltTy.bits .f32 = 32 ∨ (Rect.block (s := S1100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1100000x1.size a
  hwx1_1 : ∀ i : grid1.Coords, EltTy.bits .f32 = 32 ∨ (Rect.block (s := S1100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S1100000x64.size a
  hwx1_2 : ∀ i : grid1.Coords, EltTy.bits .f32 = 32 ∨ (Rect.block (s := S1100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S1100000x64.size a
  hwx5_0 : ∀ i : grid5.Coords, EltTy.bits .f32 = 32 ∨ (Rect.block (s := S1100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x1.size a ≤ S1100000x1.size a
  hwx5_1 : ∀ i : grid5.Coords, EltTy.bits .f32 = 32 ∨ (Rect.block (s := S1100000x1) S10000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S1100000x64.size a
  hwx5_2 : ∀ i : grid5.Coords, EltTy.bits .f32 = 32 ∨ (Rect.block (s := S1100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S100000x64.size a
  hwx6_2 : ∀ i : grid6.Coords, EltTy.bits .f32 = 32 ∨ (Rect.block (s := S100000x64) S10000x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S10000x64.size a ≤ S100000x64.size a
  hwx7_5 : ∀ i : grid7.Coords, EltTy.bits .f32 = 32 ∨ (Rect.block (s := S100000x64) S10000x64.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x64.size a ≤ S64x64.size a
  hwx8_1 : ∀ i : grid8.Coords, EltTy.bits .f32 = 32 ∨ (Rect.block (s := S64x64) S64x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x64.size a ≤ S100000x64.size a
  hwx8_2 : ∀ i : grid8.Coords, EltTy.bits .f32 = 32 ∨ (Rect.block (s := S100000x64) S10000x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S1100000x64.size a
  hwx9_0 : ∀ i : grid9.Coords, EltTy.bits .f32 = 32 ∨ (Rect.block (s := S1100000x64) S10000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S10000x1.size a ≤ S1100000x1.size a
  hwx9_1 : ∀ i : grid9.Coords, EltTy.bits .f32 = 32 ∨ (Rect.block (s := S1100000x1) S10000x1.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S10000x64.size a ≤ S1100000x64.size a
  hwx9_2 : ∀ i : grid9.Coords, EltTy.bits .f32 = 32 ∨ (Rect.block (s := S1100000x64) S10000x64.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x64.size a ≤ S100000x64.size a
  hwx10_0 : ∀ i : grid10.Coords, EltTy.bits .f32 = 32 ∨ (Rect.block (s := S100000x64) S10000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x64.size a ≤ S1x64.size a
  hwx10_1 : ∀ i : grid10.Coords, EltTy.bits .f32 = 32 ∨ (Rect.block (s := S1x64) S1x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S10000x64.size a ≤ S100000x64.size a
  hwx10_2 : ∀ i : grid10.Coords, EltTy.bits .f32 = 32 ∨ (Rect.block (s := S100000x64) S10000x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x64.size a ≤ S1x64.size a
  hwx10_3 : ∀ i : grid10.Coords, EltTy.bits .f32 = 32 ∨ (Rect.block (s := S1x64) S1x64.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x64.size a ≤ S1x64.size a
  hwx10_4 : ∀ i : grid10.Coords, EltTy.bits .f32 = 32 ∨ (Rect.block (s := S1x64) S1x64.size (cc10_transform_4 i) (hinb10_4 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x64.size a ≤ S100000x64.size a
  hwx11_0 : ∀ i : grid11.Coords, EltTy.bits .f32 = 32 ∨ (Rect.block (s := S100000x64) S10000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x64.size a ≤ S1x64.size a
  hwx11_1 : ∀ i : grid11.Coords, EltTy.bits .f32 = 32 ∨ (Rect.block (s := S1x64) S1x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x64.size a ≤ S1x64.size a
  hwx11_3 : ∀ i : grid11.Coords, EltTy.bits .f32 = 32 ∨ (Rect.block (s := S1x64) S1x64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x64.size a ≤ S1x64.size a
  hwx11_4 : ∀ i : grid11.Coords, EltTy.bits .f32 = 32 ∨ (Rect.block (s := S1x64) S1x64.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S10000x64.size a ≤ S100000x64.size a
  hwx11_5 : ∀ i : grid11.Coords, EltTy.bits .f32 = 32 ∨ (Rect.block (s := S100000x64) S10000x64.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x64.size a ≤ S100000x64.size a
  hwx12_0 : ∀ i : grid12.Coords, EltTy.bits .f32 = 32 ∨ (Rect.block (s := S100000x64) S2000x64.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S2000x1.size a ≤ S100000x1.size a
  hwx12_1 : ∀ i : grid12.Coords, EltTy.bits .i32 = 32 ∨ (Rect.block (s := S100000x1) S2000x1.size (cc12_transform_1 i) (hinb12_1 i)).WholeWords (EltTy.packing .i32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S512x64.size a ≤ S512x64.size a
  hwx12_2 : ∀ i : grid12.Coords, EltTy.bits .f32 = 32 ∨ (Rect.block (s := S512x64) S512x64.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x64.size a ≤ S100000x64.size a
  hwx13_0 : ∀ i : grid13.Coords, EltTy.bits .f32 = 32 ∨ (Rect.block (s := S100000x64) S2000x64.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S2000x1.size a ≤ S100000x1.size a
  hwx13_1 : ∀ i : grid13.Coords, EltTy.bits .i32 = 32 ∨ (Rect.block (s := S100000x1) S2000x1.size (cc13_transform_1 i) (hinb13_1 i)).WholeWords (EltTy.packing .i32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S512x64.size a ≤ S512x64.size a
  hwx13_2 : ∀ i : grid13.Coords, EltTy.bits .f32 = 32 ∨ (Rect.block (s := S512x64) S512x64.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S2000x64.size a ≤ S100000x64.size a
  hwx14_0 : ∀ i : grid14.Coords, EltTy.bits .f32 = 32 ∨ (Rect.block (s := S100000x64) S2000x64.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S2000x1.size a ≤ S100000x1.size a
  hwx14_1 : ∀ i : grid14.Coords, EltTy.bits .i32 = 32 ∨ (Rect.block (s := S100000x1) S2000x1.size (cc14_transform_1 i) (hinb14_1 i)).WholeWords (EltTy.packing .i32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S512x64.size a ≤ S512x64.size a
  hwx14_2 : ∀ i : grid14.Coords, EltTy.bits .f32 = 32 ∨ (Rect.block (s := S512x64) S512x64.size (cc14_transform_2 i) (hinb14_2 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S10000x64_S64x64_S10000x64_1_1_0_0_n_n : DotDims S10000x64 S64x64 S10000x64 where
  lhsContracting := [1]
  rhsContracting := [1]
  lhsNonContracting := [0]
  rhsNonContracting := [0]
  lhsBatch := []
  rhsBatch := []
  wf := dot_S10000x64_S64x64_S10000x64_1_1_0_0_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S2000x512_S2000x64_S512x64_0_0_1_1_n_n : DotDims S2000x512 S2000x64 S512x64 where
  lhsContracting := [0]
  rhsContracting := [0]
  lhsNonContracting := [1]
  rhsNonContracting := [1]
  lhsBatch := []
  rhsBatch := []
  wf := dot_S2000x512_S2000x64_S512x64_0_0_1_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v43) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45_0) S10000x64.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v45_1) S1x64.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45_2) S1x64.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun i => !(k2_cond2 i == 1#1) | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v45_0) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v51) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v53) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v54) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v54) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v55) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v62) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v30) S10000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v63) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v66) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v67) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v68_0) S10000x64.size cc6_transform_2 reads6_2 true false 2 stage6_2 sem6_2
    hrank6 hreads6_2 hinb6_2 nbuf6_2 (Memref.isWhole_whole _) hwx6_2 hstage6_2

abbrev win6_3 : Pipeline.Window sig grid6 :=
  Pipeline.Window.ofSpec (Memref.whole main_v68_1) S1x64.size cc6_transform_3 reads6_3 true true 1 stage6_3 sem6_3
    hrank6 hreads6_3 hinb6_3 nbuf6_3 (Memref.isWhole_whole _) hwx6_3 hstage6_3

abbrev win6_4 : Pipeline.Window sig grid6 :=
  Pipeline.Window.ofSpec (Memref.whole main_v68_2) S1x64.size cc6_transform_4 reads6_4 true true 1 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev idle6 : Fin 5 → grid6.Coords → Bool := fun | 0 => fun _ => false | 1 => fun _ => false | 2 => fun _ => false | 3 => fun i => !(k6_cond2 i == 1#1) | 4 => fun i => !(k6_cond2 i == 1#1) | ⟨_ + 5, h⟩ => absurd h (Nat.not_lt.2 (Nat.le_add_left _ _))

abbrev win7_0 : Pipeline.Window sig grid7 :=
  Pipeline.Window.ofSpec (Memref.whole main_v68_0) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v70) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v74) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v75) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v76) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v77) S10000x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v77) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg11) S64x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v78) S10000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v85) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v30) S10000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v86) S10000x64.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v89) S10000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v90) S1x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v91_0) S10000x64.size cc10_transform_2 reads10_2 true false 2 stage10_2 sem10_2
    hrank10 hreads10_2 hinb10_2 nbuf10_2 (Memref.isWhole_whole _) hwx10_2 hstage10_2

abbrev win10_3 : Pipeline.Window sig grid10 :=
  Pipeline.Window.ofSpec (Memref.whole main_v91_1) S1x64.size cc10_transform_3 reads10_3 true true 1 stage10_3 sem10_3
    hrank10 hreads10_3 hinb10_3 nbuf10_3 (Memref.isWhole_whole _) hwx10_3 hstage10_3

abbrev win10_4 : Pipeline.Window sig grid10 :=
  Pipeline.Window.ofSpec (Memref.whole main_v91_2) S1x64.size cc10_transform_4 reads10_4 true true 1 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev idle10 : Fin 5 → grid10.Coords → Bool := fun | 0 => fun _ => false | 1 => fun _ => false | 2 => fun _ => false | 3 => fun i => !(k10_cond2 i == 1#1) | 4 => fun i => !(k10_cond2 i == 1#1) | ⟨_ + 5, h⟩ => absurd h (Nat.not_lt.2 (Nat.le_add_left _ _))

abbrev win11_0 : Pipeline.Window sig grid11 :=
  Pipeline.Window.ofSpec (Memref.whole main_v91_0) S10000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v93) S1x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v97) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v98) S1x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v99) S1x64.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v100) S10000x64.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v54) S2000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v31) S2000x1.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v101) S512x64.size cc12_transform_2 reads12_2 true true 1 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev idle12 : Fin 3 → grid12.Coords → Bool := fun | 0 => fun _ => false | 1 => fun _ => false | 2 => fun i => !(k12_cond2 i == 1#1) | ⟨_ + 3, h⟩ => absurd h (Nat.not_lt.2 (Nat.le_add_left _ _))

abbrev win13_0 : Pipeline.Window sig grid13 :=
  Pipeline.Window.ofSpec (Memref.whole main_v77) S2000x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v31) S2000x1.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v102) S512x64.size cc13_transform_2 reads13_2 true true 1 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev idle13 : Fin 3 → grid13.Coords → Bool := fun | 0 => fun _ => false | 1 => fun _ => false | 2 => fun i => !(k13_cond2 i == 1#1) | ⟨_ + 3, h⟩ => absurd h (Nat.not_lt.2 (Nat.le_add_left _ _))

abbrev win14_0 : Pipeline.Window sig grid14 :=
  Pipeline.Window.ofSpec (Memref.whole main_v100) S2000x64.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v31) S2000x1.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v103) S512x64.size cc14_transform_2 reads14_2 true true 1 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev idle14 : Fin 3 → grid14.Coords → Bool := fun | 0 => fun _ => false | 1 => fun _ => false | 2 => fun i => !(k14_cond2 i == 1#1) | ⟨_ + 3, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1000000 : Shape := ⟨2, ![2, 1000000]⟩
abbrev S100000 : Shape := ⟨1, ![100000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S1100000x64 : Shape := ⟨2, ![1100000, 64]⟩
abbrev S1x64 : Shape := ⟨2, ![1, 64]⟩
abbrev S512x64 : Shape := ⟨2, ![512, 64]⟩
abbrev S100000x1 : Shape := ⟨2, ![100000, 1]⟩
abbrev S512x192 : Shape := ⟨2, ![512, 192]⟩

abbrev nBuf : Space → Nat
  | .hbm => 272
  | .vmem => 0
  | .smem => 0
  | _ => 0

abbrev hbmTy0_0 (i : Nat) : BufTy := match i % 128 with
  | 0 => ⟨S100000x64, .f32⟩
  | 1 => ⟨S2x1000000, .i32⟩
  | 2 => ⟨S100000, .i32⟩
  | 3 => ⟨S64x64, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S64x64, .f32⟩
  | 12 => ⟨S64, .f32⟩
  | 13 => ⟨S64, .f32⟩
  | 14 => ⟨S64, .f32⟩
  | 15 => ⟨S100000, .i32⟩
  | 16 => ⟨S1x1000000, .i32⟩
  | 17 => ⟨S1000000, .i32⟩
  | 18 => ⟨S1100000, .i32⟩
  | 19 => ⟨S1x1000000, .i32⟩
  | 20 => ⟨S1000000, .i32⟩
  | 21 => ⟨S1100000, .i32⟩
  | 22 => ⟨S_, .f32⟩
  | 23 => ⟨S1100000, .f32⟩
  | 24 => ⟨S_, .f32⟩
  | 25 => ⟨S100000, .f32⟩
  | 26 => ⟨S1100000x1, .i32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1100000, .i32⟩
  | 38 => ⟨S1100000, .i1⟩
  | 39 => ⟨S_, .i32⟩
  | 40 => ⟨S1100000, .i32⟩
  | 41 => ⟨S1100000, .i32⟩
  | 42 => ⟨S1100000, .i32⟩
  | 43 => ⟨S1100000x1, .i32⟩
  | 44 => ⟨S1100000, .f32⟩
  | 45 => ⟨S_, .i32⟩
  | 46 => ⟨S1100000, .i32⟩
  | 47 => ⟨S1100000, .i1⟩
  | 48 => ⟨S_, .i32⟩
  | 49 => ⟨S1100000, .i32⟩
  | 50 => ⟨S1100000, .i32⟩
  | 51 => ⟨S1100000, .i32⟩
  | 52 => ⟨S1100000x1, .i32⟩
  | 53 => ⟨S1100000, .f32⟩
  | 54 => ⟨S1100000, .f32⟩
  | 55 => ⟨S64x64, .f32⟩
  | 56 => ⟨S100000x64, .f32⟩
  | 57 => ⟨S_, .i32⟩
  | 58 => ⟨S1100000, .i32⟩
  | 59 => ⟨S1100000, .i1⟩
  | 60 => ⟨S_, .i32⟩
  | 61 => ⟨S1100000, .i32⟩
  | 62 => ⟨S1100000, .i32⟩
  | 63 => ⟨S1100000, .i32⟩
  | 64 => ⟨S1100000x1, .i32⟩
  | 65 => ⟨S1100000x64, .f32⟩
  | 66 => ⟨S1100000x1, .f32⟩
  | 67 => ⟨S1100000x64, .f32⟩
  | 68 => ⟨S1100000x64, .f32⟩
  | 69 => ⟨S_, .f32⟩
  | 70 => ⟨S100000x64, .f32⟩
  | 71 => ⟨S1100000x1, .i32⟩
  | 72 => ⟨S100000x64, .f32⟩
  | 73 => ⟨S1x64, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S_, .f32⟩
  | 80 => ⟨S64, .f32⟩
  | 81 => ⟨S_, .f32⟩
  | 82 => ⟨S64, .f32⟩
  | 83 => ⟨S64, .f32⟩
  | 84 => ⟨S_, .i32⟩
  | 85 => ⟨S_, .f32⟩
  | 86 => ⟨S64, .f32⟩
  | 87 => ⟨S1x64, .f32⟩
  | 88 => ⟨S_, .f32⟩
  | 89 => ⟨S1x64, .f32⟩
  | 90 => ⟨S1x64, .f32⟩
  | 91 => ⟨S100000x64, .f32⟩
  | 92 => ⟨S100000x64, .f32⟩
  | 93 => ⟨S100000x64, .f32⟩
  | 94 => ⟨S_, .f32⟩
  | 95 => ⟨S_, .f32⟩
  | 96 => ⟨S_, .f32⟩
  | 97 => ⟨S_, .f32⟩
  | 98 => ⟨S64, .f32⟩
  | 99 => ⟨S64, .f32⟩
  | 100 => ⟨S64, .f32⟩
  | 101 => ⟨S_, .f32⟩
  | 102 => ⟨S_, .i1⟩
  | 103 => ⟨S_, .f32⟩
  | 104 => ⟨S_, .f32⟩
  | 105 => ⟨S64, .f32⟩
  | 106 => ⟨S64, .f32⟩
  | 107 => ⟨S1x64, .f32⟩
  | 108 => ⟨S100000x64, .f32⟩
  | 109 => ⟨S100000x64, .f32⟩
  | 110 => ⟨S1x64, .f32⟩
  | 111 => ⟨S100000x64, .f32⟩
  | 112 => ⟨S100000x64, .f32⟩
  | 113 => ⟨S_, .f32⟩
  | 114 => ⟨S64, .f32⟩
  | 115 => ⟨S64, .f32⟩
  | 116 => ⟨S64, .f32⟩
  | 117 => ⟨S1x64, .f32⟩
  | 118 => ⟨S100000x64, .f32⟩
  | 119 => ⟨S100000x64, .f32⟩
  | 120 => ⟨S1x64, .f32⟩
  | 121 => ⟨S100000x64, .f32⟩
  | 122 => ⟨S100000x64, .f32⟩
  | 123 => ⟨S64x64, .f32⟩
  | 124 => ⟨S100000x64, .f32⟩
  | 125 => ⟨S_, .i32⟩
  | 126 => ⟨S1100000, .i32⟩
  | 127 => ⟨S1100000, .i1⟩
  | _ => ⟨S100000x64, .f32⟩

abbrev hbmTy0_1 (i : Nat) : BufTy := match i % 128 with
  | 0 => ⟨S_, .i32⟩
  | 1 => ⟨S1100000, .i32⟩
  | 2 => ⟨S1100000, .i32⟩
  | 3 => ⟨S1100000, .i32⟩
  | 4 => ⟨S1100000x1, .i32⟩
  | 5 => ⟨S1100000x64, .f32⟩
  | 6 => ⟨S1100000x1, .f32⟩
  | 7 => ⟨S1100000x64, .f32⟩
  | 8 => ⟨S1100000x64, .f32⟩
  | 9 => ⟨S_, .f32⟩
  | 10 => ⟨S100000x64, .f32⟩
  | 11 => ⟨S1100000x1, .i32⟩
  | 12 => ⟨S100000x64, .f32⟩
  | 13 => ⟨S1x64, .f32⟩
  | 14 => ⟨S100000x64, .f32⟩
  | 15 => ⟨S100000x64, .f32⟩
  | 16 => ⟨S_, .f32⟩
  | 17 => ⟨S100000x64, .f32⟩
  | 18 => ⟨S100000x64, .f32⟩
  | 19 => ⟨S_, .f32⟩
  | 20 => ⟨S64, .f32⟩
  | 21 => ⟨S_, .f32⟩
  | 22 => ⟨S64, .f32⟩
  | 23 => ⟨S64, .f32⟩
  | 24 => ⟨S_, .i32⟩
  | 25 => ⟨S_, .f32⟩
  | 26 => ⟨S64, .f32⟩
  | 27 => ⟨S1x64, .f32⟩
  | 28 => ⟨S_, .f32⟩
  | 29 => ⟨S1x64, .f32⟩
  | 30 => ⟨S1x64, .f32⟩
  | 31 => ⟨S100000x64, .f32⟩
  | 32 => ⟨S100000x64, .f32⟩
  | 33 => ⟨S100000x64, .f32⟩
  | 34 => ⟨S_, .f32⟩
  | 35 => ⟨S_, .f32⟩
  | 36 => ⟨S_, .f32⟩
  | 37 => ⟨S_, .f32⟩
  | 38 => ⟨S64, .f32⟩
  | 39 => ⟨S64, .f32⟩
  | 40 => ⟨S64, .f32⟩
  | 41 => ⟨S_, .f32⟩
  | 42 => ⟨S_, .i1⟩
  | 43 => ⟨S_, .f32⟩
  | 44 => ⟨S_, .f32⟩
  | 45 => ⟨S64, .f32⟩
  | 46 => ⟨S64, .f32⟩
  | 47 => ⟨S1x64, .f32⟩
  | 48 => ⟨S100000x64, .f32⟩
  | 49 => ⟨S100000x64, .f32⟩
  | 50 => ⟨S1x64, .f32⟩
  | 51 => ⟨S100000x64, .f32⟩
  | 52 => ⟨S100000x64, .f32⟩
  | 53 => ⟨S_, .f32⟩
  | 54 => ⟨S64, .f32⟩
  | 55 => ⟨S64, .f32⟩
  | 56 => ⟨S64, .f32⟩
  | 57 => ⟨S1x64, .f32⟩
  | 58 => ⟨S100000x64, .f32⟩
  | 59 => ⟨S100000x64, .f32⟩
  | 60 => ⟨S1x64, .f32⟩
  | 61 => ⟨S100000x64, .f32⟩
  | 62 => ⟨S100000x64, .f32⟩
  | 63 => ⟨S64x64, .f32⟩
  | 64 => ⟨S100000x64, .f32⟩
  | 65 => ⟨S_, .i32⟩
  | 66 => ⟨S1100000, .i32⟩
  | 67 => ⟨S1100000, .i1⟩
  | 68 => ⟨S_, .i32⟩
  | 69 => ⟨S1100000, .i32⟩
  | 70 => ⟨S1100000, .i32⟩
  | 71 => ⟨S1100000, .i32⟩
  | 72 => ⟨S1100000x1, .i32⟩
  | 73 => ⟨S1100000x64, .f32⟩
  | 74 => ⟨S1100000x1, .f32⟩
  | 75 => ⟨S1100000x64, .f32⟩
  | 76 => ⟨S1100000x64, .f32⟩
  | 77 => ⟨S_, .f32⟩
  | 78 => ⟨S100000x64, .f32⟩
  | 79 => ⟨S1100000x1, .i32⟩
  | 80 => ⟨S100000x64, .f32⟩
  | 81 => ⟨S1x64, .f32⟩
  | 82 => ⟨S100000x64, .f32⟩
  | 83 => ⟨S100000x64, .f32⟩
  | 84 => ⟨S_, .f32⟩
  | 85 => ⟨S100000x64, .f32⟩
  | 86 => ⟨S100000x64, .f32⟩
  | 87 => ⟨S_, .f32⟩
  | 88 => ⟨S64, .f32⟩
  | 89 => ⟨S_, .f32⟩
  | 90 => ⟨S64, .f32⟩
  | 91 => ⟨S64, .f32⟩
  | 92 => ⟨S_, .i32⟩
  | 93 => ⟨S_, .f32⟩
  | 94 => ⟨S64, .f32⟩
  | 95 => ⟨S1x64, .f32⟩
  | 96 => ⟨S_, .f32⟩
  | 97 => ⟨S1x64, .f32⟩
  | 98 => ⟨S1x64, .f32⟩
  | 99 => ⟨S100000x64, .f32⟩
  | 100 => ⟨S100000x64, .f32⟩
  | 101 => ⟨S100000x64, .f32⟩
  | 102 => ⟨S_, .f32⟩
  | 103 => ⟨S_, .f32⟩
  | 104 => ⟨S_, .f32⟩
  | 105 => ⟨S_, .f32⟩
  | 106 => ⟨S64, .f32⟩
  | 107 => ⟨S64, .f32⟩
  | 108 => ⟨S64, .f32⟩
  | 109 => ⟨S_, .f32⟩
  | 110 => ⟨S_, .i1⟩
  | 111 => ⟨S_, .f32⟩
  | 112 => ⟨S_, .f32⟩
  | 113 => ⟨S64, .f32⟩
  | 114 => ⟨S64, .f32⟩
  | 115 => ⟨S1x64, .f32⟩
  | 116 => ⟨S100000x64, .f32⟩
  | 117 => ⟨S100000x64, .f32⟩
  | 118 => ⟨S1x64, .f32⟩
  | 119 => ⟨S100000x64, .f32⟩
  | 120 => ⟨S100000x64, .f32⟩
  | 121 => ⟨S_, .f32⟩
  | 122 => ⟨S64, .f32⟩
  | 123 => ⟨S64, .f32⟩
  | 124 => ⟨S64, .f32⟩
  | 125 => ⟨S1x64, .f32⟩
  | 126 => ⟨S100000x64, .f32⟩
  | 127 => ⟨S100000x64, .f32⟩
  | _ => ⟨S100000x64, .f32⟩

abbrev hbmTy0_2 (i : Nat) : BufTy := match i % 128 with
  | 0 => ⟨S1x64, .f32⟩
  | 1 => ⟨S100000x64, .f32⟩
  | 2 => ⟨S100000x64, .f32⟩
  | 3 => ⟨S_, .f32⟩
  | 4 => ⟨S512x64, .f32⟩
  | 5 => ⟨S100000x1, .i32⟩
  | 6 => ⟨S512x64, .f32⟩
  | 7 => ⟨S_, .f32⟩
  | 8 => ⟨S512x64, .f32⟩
  | 9 => ⟨S100000x1, .i32⟩
  | 10 => ⟨S512x64, .f32⟩
  | 11 => ⟨S_, .f32⟩
  | 12 => ⟨S512x64, .f32⟩
  | 13 => ⟨S100000x1, .i32⟩
  | 14 => ⟨S512x64, .f32⟩
  | 15 => ⟨S512x192, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_6 : Ref sig .tc := ⟨.hbm, 57, rfl⟩
abbrev main_v32 : Ref sig .tc := ⟨.hbm, 58, rfl⟩
abbrev main_v33 : Ref sig .tc := ⟨.hbm, 59, rfl⟩
abbrev main_c_7 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_8 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call1_cst : Ref sig .tc := ⟨.hbm, 76, rfl⟩
abbrev main_call1_v0 : Ref sig .tc := ⟨.hbm, 77, rfl⟩
abbrev main_v48 : Ref sig .tc := ⟨.hbm, 78, rfl⟩
abbrev main_cst_9 : Ref sig .tc := ⟨.hbm, 79, rfl⟩
abbrev main_v49 : Ref sig .tc := ⟨.hbm, 80, rfl⟩
abbrev main_cst_10 : Ref sig .tc := ⟨.hbm, 81, rfl⟩
abbrev main_v50 : Ref sig .tc := ⟨.hbm, 82, rfl⟩
abbrev main_v51 : Ref sig .tc := ⟨.hbm, 83, rfl⟩
abbrev main_c_11 : Ref sig .tc := ⟨.hbm, 84, rfl⟩
abbrev main_call2_cst : Ref sig .tc := ⟨.hbm, 85, rfl⟩
abbrev main_call2_v0 : Ref sig .tc := ⟨.hbm, 86, rfl⟩
abbrev main_call2_v1 : Ref sig .tc := ⟨.hbm, 87, rfl⟩
abbrev main_call2_cst_0 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_v6 : Ref sig .tc := ⟨.hbm, 93, rfl⟩
abbrev main_call2_v7 : Ref sig .tc := ⟨.hbm, 94, rfl⟩
abbrev main_call2_cst_1 : Ref sig .tc := ⟨.hbm, 95, rfl⟩
abbrev main_call2_v8 : Ref sig .tc := ⟨.hbm, 96, rfl⟩
abbrev main_call2_cst_2 : Ref sig .tc := ⟨.hbm, 97, rfl⟩
abbrev main_call2_v9 : Ref sig .tc := ⟨.hbm, 98, rfl⟩
abbrev main_call2_v10 : Ref sig .tc := ⟨.hbm, 99, rfl⟩
abbrev main_call2_v11 : Ref sig .tc := ⟨.hbm, 100, rfl⟩
abbrev main_call2_cst_3 : Ref sig .tc := ⟨.hbm, 101, rfl⟩
abbrev main_call2_v12 : Ref sig .tc := ⟨.hbm, 102, rfl⟩
abbrev main_call2_cst_4 : Ref sig .tc := ⟨.hbm, 103, rfl⟩
abbrev main_call2_call0_v0 : Ref sig .tc := ⟨.hbm, 104, rfl⟩
abbrev main_call2_call0_v1 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_cst_12 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_c_13 : Ref sig .tc := ⟨.hbm, 125, rfl⟩
abbrev main_v70 : Ref sig .tc := ⟨.hbm, 126, rfl⟩
abbrev main_v71 : Ref sig .tc := ⟨.hbm, 127, rfl⟩
abbrev main_c_14 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_cst_15 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_call3_cst : Ref sig .tc := ⟨.hbm, 144, rfl⟩
abbrev main_call3_v0 : Ref sig .tc := ⟨.hbm, 145, rfl⟩
abbrev main_v86 : Ref sig .tc := ⟨.hbm, 146, rfl⟩
abbrev main_cst_16 : Ref sig .tc := ⟨.hbm, 147, rfl⟩
abbrev main_v87 : Ref sig .tc := ⟨.hbm, 148, rfl⟩
abbrev main_cst_17 : Ref sig .tc := ⟨.hbm, 149, rfl⟩
abbrev main_v88 : Ref sig .tc := ⟨.hbm, 150, rfl⟩
abbrev main_v89 : Ref sig .tc := ⟨.hbm, 151, rfl⟩
abbrev main_c_18 : Ref sig .tc := ⟨.hbm, 152, rfl⟩
abbrev main_call4_cst : Ref sig .tc := ⟨.hbm, 153, rfl⟩
abbrev main_call4_v0 : Ref sig .tc := ⟨.hbm, 154, rfl⟩
abbrev main_call4_v1 : Ref sig .tc := ⟨.hbm, 155, rfl⟩
abbrev main_call4_cst_0 : Ref sig .tc := ⟨.hbm, 156, rfl⟩
abbrev main_call4_v2 : Ref sig .tc := ⟨.hbm, 157, rfl⟩
abbrev main_call4_v3 : Ref sig .tc := ⟨.hbm, 158, rfl⟩
abbrev main_call4_v4 : Ref sig .tc := ⟨.hbm, 159, rfl⟩
abbrev main_call4_v5 : Ref sig .tc := ⟨.hbm, 160, rfl⟩
abbrev main_call4_v6 : Ref sig .tc := ⟨.hbm, 161, rfl⟩
abbrev main_call4_v7 : Ref sig .tc := ⟨.hbm, 162, rfl⟩
abbrev main_call4_cst_1 : Ref sig .tc := ⟨.hbm, 163, rfl⟩
abbrev main_call4_v8 : Ref sig .tc := ⟨.hbm, 164, rfl⟩
abbrev main_call4_cst_2 : Ref sig .tc := ⟨.hbm, 165, rfl⟩
abbrev main_call4_v9 : Ref sig .tc := ⟨.hbm, 166, rfl⟩
abbrev main_call4_v10 : Ref sig .tc := ⟨.hbm, 167, rfl⟩
abbrev main_call4_v11 : Ref sig .tc := ⟨.hbm, 168, rfl⟩
abbrev main_call4_cst_3 : Ref sig .tc := ⟨.hbm, 169, rfl⟩
abbrev main_call4_v12 : Ref sig .tc := ⟨.hbm, 170, rfl⟩
abbrev main_call4_cst_4 : Ref sig .tc := ⟨.hbm, 171, rfl⟩
abbrev main_call4_call0_v0 : Ref sig .tc := ⟨.hbm, 172, rfl⟩
abbrev main_call4_call0_v1 : Ref sig .tc := ⟨.hbm, 173, rfl⟩
abbrev main_v90 : Ref sig .tc := ⟨.hbm, 174, rfl⟩
abbrev main_v91 : Ref sig .tc := ⟨.hbm, 175, rfl⟩
abbrev main_v92 : Ref sig .tc := ⟨.hbm, 176, rfl⟩
abbrev main_v93 : Ref sig .tc := ⟨.hbm, 177, rfl⟩
abbrev main_v94 : Ref sig .tc := ⟨.hbm, 178, rfl⟩
abbrev main_v95 : Ref sig .tc := ⟨.hbm, 179, rfl⟩
abbrev main_v96 : Ref sig .tc := ⟨.hbm, 180, rfl⟩
abbrev main_cst_19 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_c_20 : Ref sig .tc := ⟨.hbm, 193, rfl⟩
abbrev main_v108 : Ref sig .tc := ⟨.hbm, 194, rfl⟩
abbrev main_v109 : Ref sig .tc := ⟨.hbm, 195, rfl⟩
abbrev main_c_21 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_cst_22 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_call5_cst : Ref sig .tc := ⟨.hbm, 212, rfl⟩
abbrev main_call5_v0 : Ref sig .tc := ⟨.hbm, 213, rfl⟩
abbrev main_v124 : Ref sig .tc := ⟨.hbm, 214, rfl⟩
abbrev main_cst_23 : Ref sig .tc := ⟨.hbm, 215, rfl⟩
abbrev main_v125 : Ref sig .tc := ⟨.hbm, 216, rfl⟩
abbrev main_cst_24 : Ref sig .tc := ⟨.hbm, 217, rfl⟩
abbrev main_v126 : Ref sig .tc := ⟨.hbm, 218, rfl⟩
abbrev main_v127 : Ref sig .tc := ⟨.hbm, 219, rfl⟩
abbrev main_c_25 : Ref sig .tc := ⟨.hbm, 220, rfl⟩
abbrev main_call6_cst : Ref sig .tc := ⟨.hbm, 221, rfl⟩
abbrev main_call6_v0 : Ref sig .tc := ⟨.hbm, 222, rfl⟩
abbrev main_call6_v1 : Ref sig .tc := ⟨.hbm, 223, rfl⟩
abbrev main_call6_cst_0 : Ref sig .tc := ⟨.hbm, 224, rfl⟩
abbrev main_call6_v2 : Ref sig .tc := ⟨.hbm, 225, rfl⟩
abbrev main_call6_v3 : Ref sig .tc := ⟨.hbm, 226, rfl⟩
abbrev main_call6_v4 : Ref sig .tc := ⟨.hbm, 227, rfl⟩
abbrev main_call6_v5 : Ref sig .tc := ⟨.hbm, 228, rfl⟩
abbrev main_call6_v6 : Ref sig .tc := ⟨.hbm, 229, rfl⟩
abbrev main_call6_v7 : Ref sig .tc := ⟨.hbm, 230, rfl⟩
abbrev main_call6_cst_1 : Ref sig .tc := ⟨.hbm, 231, rfl⟩
abbrev main_call6_v8 : Ref sig .tc := ⟨.hbm, 232, rfl⟩
abbrev main_call6_cst_2 : Ref sig .tc := ⟨.hbm, 233, rfl⟩
abbrev main_call6_v9 : Ref sig .tc := ⟨.hbm, 234, rfl⟩
abbrev main_call6_v10 : Ref sig .tc := ⟨.hbm, 235, rfl⟩
abbrev main_call6_v11 : Ref sig .tc := ⟨.hbm, 236, rfl⟩
abbrev main_call6_cst_3 : Ref sig .tc := ⟨.hbm, 237, rfl⟩
abbrev main_call6_v12 : Ref sig .tc := ⟨.hbm, 238, rfl⟩
abbrev main_call6_cst_4 : Ref sig .tc := ⟨.hbm, 239, rfl⟩
abbrev main_call6_call0_v0 : Ref sig .tc := ⟨.hbm, 240, rfl⟩
abbrev main_call6_call0_v1 : Ref sig .tc := ⟨.hbm, 241, rfl⟩
abbrev main_v128 : Ref sig .tc := ⟨.hbm, 242, rfl⟩
abbrev main_v129 : Ref sig .tc := ⟨.hbm, 243, rfl⟩
abbrev main_v130 : Ref sig .tc := ⟨.hbm, 244, rfl⟩
abbrev main_v131 : Ref sig .tc := ⟨.hbm, 245, rfl⟩
abbrev main_v132 : Ref sig .tc := ⟨.hbm, 246, rfl⟩
abbrev main_v133 : Ref sig .tc := ⟨.hbm, 247, rfl⟩
abbrev main_v134 : Ref sig .tc := ⟨.hbm, 248, rfl⟩
abbrev main_cst_26 : Ref sig .tc := ⟨.hbm, 249, rfl⟩
abbrev main_v135 : Ref sig .tc := ⟨.hbm, 250, rfl⟩
abbrev main_v136 : Ref sig .tc := ⟨.hbm, 251, rfl⟩
abbrev main_v137 : Ref sig .tc := ⟨.hbm, 252, rfl⟩
abbrev main_v138 : Ref sig .tc := ⟨.hbm, 253, rfl⟩
abbrev main_v139 : Ref sig .tc := ⟨.hbm, 254, rfl⟩
abbrev main_v140 : Ref sig .tc := ⟨.hbm, 255, rfl⟩
abbrev main_v141 : Ref sig .tc := ⟨.hbm, 256, rfl⟩
abbrev main_v142 : Ref sig .tc := ⟨.hbm, 257, rfl⟩
abbrev main_v143 : Ref sig .tc := ⟨.hbm, 258, rfl⟩
abbrev main_cst_27 : Ref sig .tc := ⟨.hbm, 259, rfl⟩
abbrev main_v144 : Ref sig .tc := ⟨.hbm, 260, rfl⟩
abbrev main_v145 : Ref sig .tc := ⟨.hbm, 261, rfl⟩
abbrev main_v146 : Ref sig .tc := ⟨.hbm, 262, rfl⟩
abbrev main_cst_28 : Ref sig .tc := ⟨.hbm, 263, rfl⟩
abbrev main_v147 : Ref sig .tc := ⟨.hbm, 264, rfl⟩
abbrev main_v148 : Ref sig .tc := ⟨.hbm, 265, rfl⟩
abbrev main_v149 : Ref sig .tc := ⟨.hbm, 266, rfl⟩
abbrev main_cst_29 : Ref sig .tc := ⟨.hbm, 267, rfl⟩
abbrev main_v150 : Ref sig .tc := ⟨.hbm, 268, rfl⟩
abbrev main_v151 : Ref sig .tc := ⟨.hbm, 269, rfl⟩
abbrev main_v152 : Ref sig .tc := ⟨.hbm, 270, rfl⟩
abbrev main_v153 : Ref sig .tc := ⟨.hbm, 271, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  transposes_S64x64_S64x64_1_0 : S64x64.Transposes [1, 0] S64x64
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S512x64 : S_.BroadcastsInDim S512x64 (![] : Fin 0 → Fin S512x64.rank)
  bcast_S100000_S100000x1_0 : S100000.BroadcastsInDim S100000x1 (![0] : Fin 1 → Fin S100000x1.rank)
  concatenates_S512x64_S512x64_S512x64_S512x192_d1 : Shape.Concatenates [S512x64, S512x64, S512x64] S512x192 1
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x64_S64x64_S100000x64_1_0_0_1_n_n_wf : DotDims.WF S100000x64 S64x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  scatter_S512x64_S100000x1_S100000x64_1_0_0_1_wf : ScatterDims.WF S512x64 S100000x1 S100000x64 [1] [0] [0] 1

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf

class Facts : Prop extends Facts₀ where

variable [Facts]
-- ==== Proof.K.Reg0.lean ====
import proofs.«424828_j6554120094214_2_alg».proof.Proof.Gen.Kernel.Launch
import proofs.«424828_j6554120094214_2_alg».proof.Proof.Gen.Kernel.Skeleton
import proofs.«424828_j6554120094214_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S10000x64 := Rect.unit (s := S10000x64) ![0, 0] S10000x64.size inb_S10000x64_S10000x64_0_0

abbrev r0_1 : Rect S64x64 := Rect.unit (s := S64x64) ![0, 0] S64x64.size inb_S64x64_S64x64_0_0

def out0_2 (x0 : Vec F S10000x64 .f32) (x1 : Vec F S64x64 .f32) : Vec F S10000x64 .f32 :=
  View.canon [⟨r0_0, k0_pay1 (View.ld x0 r0_0) (View.ld x1 r0_1)⟩]

theorem cover0_2 (p0 : Vec F S10000x64 .f32) (y : S10000x64.Idx) :
    ∃ pc ∈ ([⟨r0_0, p0⟩] : List (View.Piece (Elt F) S10000x64 .f32)), y ∈ pc.1.set :=
  View.cover_of_tiled [⟨r0_0, p0⟩] S10000x64.size (by rfl) y

set_option maxHeartbeats 1000000 in
theorem sound_kernel0 (c : Dev nD) (E : Set ℕ) (i : grid0.Coords) (arg1 : Memref sig .tc .vmem S10000x64 .f32) (harg1 : arg1.IsWhole)
    (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem Phi_in0 (c : Dev nD) : (dat0 V c).Φ 0 = Pipeline.ΦA spec0 c := rfl

theorem Phi_out0 (c : Dev nD) : (dat0 V c).Φ (Fin.last _) ⊢ Pipeline.ΦA spec0 c := .rfl

theorem owed0 (c : Dev nD) : ∀ x, (dat0 V c).owed x = 0 := fun _ => rfl

theorem share0 (c : Dev nD) : ∀ w, (dat0 V c).q w = fullShare := fun _ => rfl

theorem recorded0 (c : Dev nD) : ∀ t, (dat0 V c).recorded t = Set.univ := fun _ => rfl

theorem after0_0 (c : Dev nD) (t : Fin cfg0.N) : (dat0 V c).after 0 t = iblk0 V c 0 t := by dsimp only [dat0]

theorem after0_1 (c : Dev nD) (t : Fin cfg0.N) : (dat0 V c).after 1 t = iblk0 V c 1 t := by dsimp only [dat0]

theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

open Idealize.ShloMosaic.ValueIdx

end Cert.Kernel.Hand

end
-- ==== Proof.K.Reg1.lean ====
import proofs.«424828_j6554120094214_2_alg».proof.Proof.Gen.Kernel.Launch
import proofs.«424828_j6554120094214_2_alg».proof.Proof.Gen.Kernel.Skeleton
import proofs.«424828_j6554120094214_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic
set_option maxRecDepth 65536

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S10000x64 := Rect.unit (s := S10000x64) ![0, 0] S10000x64.size inb_S10000x64_S10000x64_0_0

abbrev r1_1 : Rect S10000x1 := Rect.unit (s := S10000x1) ![0, 0] S10000x1.size inb_S10000x1_S10000x1_0_0

theorem zeros1 : (![0, 0] : Fin 2 → Nat) = fun _ => 0 := funext fun a => by fin_cases a <;> rfl

def out1_2 (x0 : Vec F S10000x64 .f32) (x1 : Vec F S10000x1 .f32) : Vec F S10000x64 .f32 :=
  View.canon [⟨r1_0, k1_pay1 (View.ld x0 r1_0) (View.ld x1 r1_1)⟩]

theorem cover1_2 (p0 : Vec F S10000x64 .f32) (y : S10000x64.Idx) :
    ∃ pc ∈ ([⟨r1_0, p0⟩] : List (View.Piece (Elt F) S10000x64 .f32)), y ∈ pc.1.set :=
  ⟨_, List.mem_singleton_self _, View.mem_set_unit_zero zeros1 inb_S10000x64_S10000x64_0_0 y⟩

set_option maxHeartbeats 1000000 in
theorem sound_kernel1 (c : Dev nD) (E : Set ℕ) (i : grid1.Coords) (arg1 : Memref sig .tc .vmem S10000x64 .f32) (harg1 : arg1.IsWhole) (arg2 : Memref sig .tc .vmem S10000x1 .f32) (harg2 : arg2.IsWhole) (arg3 : Memref sig .tc .vmem S10000x64 .f32) (harg3 : arg3.IsWhole)
    (x0 : Vec F S10000x64 .f32) (x1 : Vec F S10000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__scale_kernel i arg1 harg1 arg2 harg2 arg3 harg3) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem Phi_in1 (c : Dev nD) : (dat1 V c).Φ 0 = Pipeline.ΦA spec1 c := by
  dsimp only [dat1]

theorem Phi_out1 (c : Dev nD) : (dat1 V c).Φ (Fin.last _) ⊢ Pipeline.ΦA spec1 c := by
  dsimp only [dat1]; exact BIBase.Entails.rfl

theorem owed1 (c : Dev nD) : ∀ x, (dat1 V c).owed x = 0 := fun _ => by dsimp only [dat1]

theorem share1 (c : Dev nD) : ∀ w, (dat1 V c).q w = fullShare := fun _ => by dsimp only [dat1]

theorem recorded1 (c : Dev nD) : ∀ t, (dat1 V c).recorded t = Set.univ := fun _ => rfl

theorem after1_0 (c : Dev nD) (t : Fin cfg1.N) : (dat1 V c).after 0 t = iblk1 V c 0 t := by dsimp only [dat1]

theorem after1_1 (c : Dev nD) (t : Fin cfg1.N) : (dat1 V c).after 1 t = iblk1 V c 1 t := by dsimp only [dat1]

theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d

theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
import proofs.«424828_j6554120094214_2_alg».proof.Proof.Gen.Kernel.Launch
import proofs.«424828_j6554120094214_2_alg».proof.Proof.Gen.Kernel.Skeleton
import proofs.«424828_j6554120094214_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.ValueIdx
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ

theorem hz2 : (![0, 0] : Fin 2 → Nat) = fun _ => 0 := funext fun a => by fin_cases a <;> rfl

theorem read_writes_whole2 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

abbrev cond2_0 (i : grid2.Coords) : Prop := (Scalar.cmpi .ne (Scalar.extui (Scalar.cmpi .eq (BitVec.ofNat 32 (i 0).val) 0#32)) 0#32) = 1#1

theorem hcond2_0 : ∀ t : Fin cfg2.N, cond2_0 (grid2.coords t) ↔ t.val = 0 :=
  (by decide +kernel : ∀ t : Fin grid2.N, cond2_0 (grid2.coords t) ↔ t.val = 0)

abbrev cond2_1 (i : grid2.Coords) : Prop := k2_cond2 i = 1#1

theorem hcond2_1 : ∀ t : Fin cfg2.N, cond2_1 (grid2.coords t) ↔ t.val = 9 :=
  (by decide +kernel : ∀ t : Fin grid2.N, cond2_1 (grid2.coords t) ↔ t.val = 9)

set_option maxHeartbeats 1000000 in
theorem sound_kernel2_A (c : Dev nD) (E : Set ℕ) (i : grid2.Coords)
    (arg1 : Memref sig .tc .vmem S10000x64 .f32) (harg1 : arg1.IsWhole) (arg2 : Memref sig .tc .vmem S1x64 .f32) (harg2 : arg2.IsWhole)
    (arg3 : Memref sig .tc .vmem S10000x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (hc0 : cond2_0 i) (hc1 : ¬cond2_1 i)
    (x0 : Vec F S10000x64 .f32) (x1 : Vec F S1x64 .f32) (xi3 : Vec F S1x64 .f32) (xi4 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ owns (c : Thread nD τ) arg5 fullShare xi4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (k2_pay3 x0 x1)
            ∗ owns (c : Thread nD τ) arg4 fullShare xi3 ∗ owns (c : Thread nD τ) arg5 fullShare xi4
            ∗ owns (c : Thread nD τ) arg6 fullShare (k2_pay4 x0 x1 (k2_pay1 (F := F))) ∗ owns (c : Thread nD τ) arg7 fullShare (k2_pay5 x0 x1 (k2_pay2 (F := F)))) -∗ K ⟨⟩))
      ⊢ wp frame (wpE (defs₀ (F := F)) Variants.none c none) E (cc2__bias_relu_stats_kernel i arg1 harg1 arg2 harg2 arg3 harg3 arg4 harg4 arg5 harg5 arg6 harg6 arg7 harg7) K := by
  simp only [cc2__bias_relu_stats_kernel_eq_skeleton]; unfold cc2__bias_relu_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%d5, %f5, -, H5⟩, ⟨%d6, %f6, -, H6⟩, Hk⟩
  subst hf0; subst hf1; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_writes_whole2 _ _ hz2 _ _ _).trans ?_
    simp only [View.readAt_eq_ld, View.ld_unit_zero (S := S10000x64) hz2, View.ld_unit_zero (S := S1x64) hz2]
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_writes_whole2 _ _ hz2 _ _ _).trans ?_
    sl_unfold_words
    simp only [View.readAt_eq_ld, View.ld_unit_zero (S := S10000x64) hz2, View.ld_unit_zero (S := S1x64) hz2, View.readCov_unit_zero (S := S1x64) _ hz2]
  iexists _; isplitr
  swap; · iexact H6
  ipureintro
  refine (read_writes_whole2 _ _ hz2 _ _ _).trans ?_
  sl_unfold_words
  simp only [View.readAt_eq_ld, View.ld_unit_zero (S := S10000x64) hz2, View.ld_unit_zero (S := S1x64) hz2, View.readCov_unit_zero (S := S1x64) _ hz2]

set_option maxHeartbeats 1000000 in
theorem sound_kernel2_B (c : Dev nD) (E : Set ℕ) (i : grid2.Coords)
    (arg1 : Memref sig .tc .vmem S10000x64 .f32) (harg1 : arg1.IsWhole) (arg2 : Memref sig .tc .vmem S1x64 .f32) (harg2 : arg2.IsWhole)
    (arg3 : Memref sig .tc .vmem S10000x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (hc0 : ¬cond2_0 i) (hc1 : ¬cond2_1 i)
    (x0 : Vec F S10000x64 .f32) (x1 : Vec F S1x64 .f32) (xi3 : Vec F S1x64 .f32) (xi4 : Vec F S1x64 .f32)
    (xs0 : Vec F S1x64 .f32) (xs1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ owns (c : Thread nD τ) arg5 fullShare xi4
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare (k2_pay3 x0 x1)
            ∗ owns (c : Thread nD τ) arg4 fullShare xi3 ∗ owns (c : Thread nD τ) arg5 fullShare xi4
            ∗ owns (c : Thread nD τ) arg6 fullShare (k2_pay4 x0 x1 xs0) ∗ owns (c : Thread nD τ) arg7 fullShare (k2_pay5 x0 x1 xs1)) -∗ K ⟨⟩))
      ⊢ wp frame (wpE (defs₀ (F := F)) Variants.none c none) E (cc2__bias_relu_stats_kernel i arg1 harg1 arg2 harg2 arg3 harg3 arg4 harg4 arg5 harg5 arg6 harg6 arg7 harg7) K := by
  simp only [cc2__bias_relu_stats_kernel_eq_skeleton]; unfold cc2__bias_relu_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%f5, %hf5, H5⟩, ⟨%f6, %hf6, H6⟩, Hk⟩
  subst hf0; subst hf1; subst hf3; subst hf4; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_writes_whole2 _ _ hz2 _ _ _).trans ?_
    simp only [View.readAt_eq_ld, View.ld_unit_zero (S := S10000x64) hz2, View.ld_unit_zero (S := S1x64) hz2, View.readCov_unit_zero (S := S1x64) _ hz2]
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_writes_whole2 _ _ hz2 _ _ _).trans ?_
    simp only [View.readAt_eq_ld, View.ld_unit_zero (S := S10000x64) hz2, View.ld_unit_zero (S := S1x64) hz2, View.readCov_unit_zero (S := S1x64) _ hz2]
  iexists _; isplitr
  swap; · iexact H6
  ipureintro
  refine (read_writes_whole2 _ _ hz2 _ _ _).trans ?_
  simp only [View.readAt_eq_ld, View.ld_unit_zero (S := S10000x64) hz2, View.ld_unit_zero (S := S1x64) hz2, View.readCov_unit_zero (S := S1x64) _ hz2]

set_option maxHeartbeats 1000000 in
theorem sound_kernel2_C (c : Dev nD) (E : Set ℕ) (i : grid2.Coords)
    (arg1 : Memref sig .tc .vmem S10000x64 .f32) (harg1 : arg1.IsWhole) (arg2 : Memref sig .tc .vmem S1x64 .f32) (harg2 : arg2.IsWhole)
    (arg3 : Memref sig .tc .vmem S10000x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (hc0 : ¬cond2_0 i) (hc1 : cond2_1 i)
    (x0 : Vec F S10000x64 .f32) (x1 : Vec F S1x64 .f32)
    (xs0 : Vec F S1x64 .f32) (xs1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare (k2_pay3 x0 x1)
            ∗ owns (c : Thread nD τ) arg4 fullShare (k2_pay4 x0 x1 xs0) ∗ owns (c : Thread nD τ) arg5 fullShare (k2_pay5 x0 x1 xs1)
            ∗ owns (c : Thread nD τ) arg6 fullShare (k2_pay4 x0 x1 xs0) ∗ owns (c : Thread nD τ) arg7 fullShare (k2_pay5 x0 x1 xs1)) -∗ K ⟨⟩))
      ⊢ wp frame (wpE (defs₀ (F := F)) Variants.none c none) E (cc2__bias_relu_stats_kernel i arg1 harg1 arg2 harg2 arg3 harg3 arg4 harg4 arg5 harg5 arg6 harg6 arg7 harg7) K := by
  simp only [cc2__bias_relu_stats_kernel_eq_skeleton]; unfold cc2__bias_relu_stats_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%f6, %hf6, H6⟩, Hk⟩
  subst hf0; subst hf1; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_writes_whole2 _ _ hz2 _ _ _).trans ?_
    simp only [View.readAt_eq_ld, View.ld_unit_zero (S := S10000x64) hz2, View.ld_unit_zero (S := S1x64) hz2, View.readCov_unit_zero (S := S1x64) _ hz2]
  isplitl [H3]
  · iexists _; isplitr
    swap; · iexact H3
    ipureintro
    refine (read_writes_whole2 _ _ hz2 _ _ _).trans ?_
    sl_unfold_words
    simp only [View.readAt_eq_ld, View.ld_unit_zero (S := S10000x64) hz2, View.ld_unit_zero (S := S1x64) hz2, View.readCov_unit_zero (S := S1x64) _ hz2]
  isplitl [H4]
  · iexists _; isplitr
    swap; · iexact H4
    ipureintro
    refine (read_writes_whole2 _ _ hz2 _ _ _).trans ?_
    sl_unfold_words
    simp only [View.readAt_eq_ld, View.ld_unit_zero (S := S10000x64) hz2, View.ld_unit_zero (S := S1x64) hz2, View.readCov_unit_zero (S := S1x64) _ hz2]
  isplitl [H5]
  · iexists _; isplitr
    swap; · iexact H5
    ipureintro
    refine (read_writes_whole2 _ _ hz2 _ _ _).trans ?_
    simp only [View.readAt_eq_ld, View.ld_unit_zero (S := S10000x64) hz2, View.ld_unit_zero (S := S1x64) hz2, View.readCov_unit_zero (S := S1x64) _ hz2]
  iexists _; isplitr
  swap; · iexact H6
  ipureintro
  refine (read_writes_whole2 _ _ hz2 _ _ _).trans ?_
  simp only [View.readAt_eq_ld, View.ld_unit_zero (S := S10000x64) hz2, View.ld_unit_zero (S := S1x64) hz2, View.readCov_unit_zero (S := S1x64) _ hz2]

theorem liveAt2_0 : ∀ t : Fin cfg2.N, cfg2.idle 0 (grid2.coords t) = false := fun _ => rfl

theorem liveAt2_1 : ∀ t : Fin cfg2.N, cfg2.idle 1 (grid2.coords t) = false := fun _ => rfl

theorem liveAt2_2 : ∀ t : Fin cfg2.N, cfg2.idle 2 (grid2.coords t) = false := fun _ => rfl

theorem idleAt2_3 : ∀ t : Fin cfg2.N, ¬cond2_1 (grid2.coords t) → cfg2.idle 3 (grid2.coords t) = true := by decide +kernel

theorem noFlush2_3 : ∀ t : Fin cfg2.N, ¬cond2_1 (grid2.coords t) → (cfg2.win 3).flush t = false := by decide +kernel

theorem liveAt2_3 : ∀ t : Fin cfg2.N, cond2_1 (grid2.coords t) → cfg2.idle 3 (grid2.coords t) = false := by decide +kernel

theorem idleAt2_4 : ∀ t : Fin cfg2.N, ¬cond2_1 (grid2.coords t) → cfg2.idle 4 (grid2.coords t) = true := by decide +kernel

theorem noFlush2_4 : ∀ t : Fin cfg2.N, ¬cond2_1 (grid2.coords t) → (cfg2.win 4).flush t = false := by decide +kernel

theorem liveAt2_4 : ∀ t : Fin cfg2.N, cond2_1 (grid2.coords t) → cfg2.idle 4 (grid2.coords t) = false := by decide +kernel

section Region2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev xb2 (c : Dev nD) (t : Fin cfg2.N) : Vec F S10000x64 .f32 := iblk2 V c 0 t

abbrev bb2 (c : Dev nD) (t : Fin cfg2.N) : Vec F S1x64 .f32 := iblk2 V c 1 t

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

def acc2_0 (c : Dev nD) : (n : ℕ) → n < cfg2.N → Vec F S1x64 .f32
  | 0, h => k2_pay4 (xb2 V c ⟨0, h⟩) (bb2 V c ⟨0, h⟩) (k2_pay1 (F := F))
  | n + 1, h => k2_pay4 (xb2 V c ⟨n + 1, h⟩) (bb2 V c ⟨n + 1, h⟩) (acc2_0 c n (Nat.lt_of_succ_lt h))

def acc2_1 (c : Dev nD) : (n : ℕ) → n < cfg2.N → Vec F S1x64 .f32
  | 0, h => k2_pay5 (xb2 V c ⟨0, h⟩) (bb2 V c ⟨0, h⟩) (k2_pay2 (F := F))
  | n + 1, h => k2_pay5 (xb2 V c ⟨n + 1, h⟩) (bb2 V c ⟨n + 1, h⟩) (acc2_1 c n (Nat.lt_of_succ_lt h))

theorem acc2_0_zero (c : Dev nD) (t : Fin cfg2.N) (h : t.val = 0) :
    acc2_0 V c t.val t.isLt = k2_pay4 (xb2 V c t) (bb2 V c t) (k2_pay1 (F := F)) := by
  obtain ⟨n, hn⟩ := t
  cases n with
  | zero => rfl
  | succ n => exact absurd h (Nat.succ_ne_zero n)

theorem acc2_0_pos (c : Dev nD) (t : Fin cfg2.N) (h : t.val ≠ 0) :
    acc2_0 V c t.val t.isLt = k2_pay4 (xb2 V c t) (bb2 V c t) (acc2_0 V c (t.val - 1) (Nat.lt_of_le_of_lt (Nat.sub_le _ _) t.isLt)) := by
  obtain ⟨n, hn⟩ := t
  cases n with
  | zero => exact absurd rfl h
  | succ n => rfl

theorem acc2_1_zero (c : Dev nD) (t : Fin cfg2.N) (h : t.val = 0) :
    acc2_1 V c t.val t.isLt = k2_pay5 (xb2 V c t) (bb2 V c t) (k2_pay2 (F := F)) := by
  obtain ⟨n, hn⟩ := t
  cases n with
  | zero => rfl
  | succ n => exact absurd h (Nat.succ_ne_zero n)

theorem acc2_1_pos (c : Dev nD) (t : Fin cfg2.N) (h : t.val ≠ 0) :
    acc2_1 V c t.val t.isLt = k2_pay5 (xb2 V c t) (bb2 V c t) (acc2_1 V c (t.val - 1) (Nat.lt_of_le_of_lt (Nat.sub_le _ _) t.isLt)) := by
  obtain ⟨n, hn⟩ := t
  cases n with
  | zero => exact absurd rfl h
  | succ n => rfl

abbrev scM2_0 : Memref sig .tc .vmem S1x64 .f32 := Memref.whole cc2_scratch0

abbrev scM2_1 : Memref sig .tc .vmem S1x64 .f32 := Memref.whole cc2_scratch1

abbrev rest2 (c : Dev nD) : sProp 𝕄 :=
  Pipeline.scopedRestBut (Ix := Unit) (Name := ℕ) (U := UR sig nD τ) (Lvl := ℕ) (Val := Elt F) spec2 c [cc2_scratch0, cc2_scratch1]

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 c) ∗ (∃ r, prngReg c r)) := by
  unfold Pipeline.ΦA; rw [scopedRest2_split]; simp only [scM2_0, scM2_1, owns_whole]; try rfl

def Phi2 (c : Dev nD) : (n : ℕ) → n ≤ cfg2.N → sProp 𝕄
  | 0, _ => Pipeline.ΦA spec2 c
  | n + 1, hn => iprop(iprop(iprop(owns (c : Thread nD τ) scM2_0 fullShare (acc2_0 V c n hn) ∗ owns (c : Thread nD τ) scM2_1 fullShare (acc2_1 V c n hn)) ∗ rest2 c) ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(iprop(iprop(owns (c : Thread nD τ) scM2_0 fullShare (acc2_0 V c n hn) ∗ owns (c : Thread nD τ) scM2_1 fullShare (acc2_1 V c n hn)) ∗ rest2 c) ∗ (∃ r, prngReg c r)) := rfl

theorem Phi2_pos (c : Dev nD) (n : ℕ) (h : n ≤ cfg2.N) (hz : n ≠ 0) :
    Phi2 V c n h = iprop(iprop(iprop(owns (c : Thread nD τ) scM2_0 fullShare (acc2_0 V c (n - 1) (by omega)) ∗ owns (c : Thread nD τ) scM2_1 fullShare (acc2_1 V c (n - 1) (by omega))) ∗ rest2 c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (xb2 V c t) (bb2 V c t)
    | ⟨3, _⟩ => acc2_0 V c t.val t.isLt
    | ⟨4, _⟩ => acc2_1 V c t.val t.isLt
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi_in2 (c : Dev nD) : (dat2 V c).Φ 0 = Pipeline.ΦA spec2 c := rfl

theorem owed2 (c : Dev nD) : ∀ x, (dat2 V c).owed x = 0 := fun _ => rfl

theorem share2 (c : Dev nD) : ∀ w, (dat2 V c).q w = fullShare := fun _ => rfl

theorem recorded2 (c : Dev nD) : ∀ t, (dat2 V c).recorded t = Set.univ := fun _ => rfl

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]

theorem after2_1 (c : Dev nD) (t : Fin cfg2.N) : (dat2 V c).after 1 t = iblk2 V c 1 t := by dsimp only [dat2]

theorem after2_2 (c : Dev nD) (t : Fin cfg2.N) : (dat2 V c).after 2 t = k2_pay3 (xb2 V c t) (bb2 V c t) := by dsimp only [dat2]

theorem after2_3 (c : Dev nD) (t : Fin cfg2.N) : (dat2 V c).after 3 t = acc2_0 V c t.val t.isLt := by dsimp only [dat2]

theorem after2_4 (c : Dev nD) (t : Fin cfg2.N) : (dat2 V c).after 4 t = acc2_1 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d

theorem before2_1 (c : Dev nD) (t : Fin cfg2.N) (d) : (dat2 V c).before 1 t d = iblk2 V c 1 t :=
  before2_1_of V (dat2 V c) (A_eq2 V c 1) (after2_1 V c) t d

theorem Phi_out2 (c : Dev nD) : (dat2 V c).Φ (Fin.last _) ⊢ Pipeline.ΦA spec2 c := by
  rw [show (dat2 V c).Φ (Fin.last _) = Phi2 V c (Fin.last cfg2.N).val (Nat.le_of_lt_succ (Fin.last cfg2.N).isLt) from rfl,
    Phi2_pos V c _ _ (by rw [Fin.val_last]; have : cfg2.N = 10 := N_2; omega), PhiA2_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = Phi2 V c (t.val + 1) t.isLt from rfl, Phi2_succ]
  have hN : t.val < 10 := lt_of_lt_of_eq t.isLt (show cfg2.N = 10 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  by_cases h0 : t.val = 0
  · have hc0 : cond2_0 (grid2.coords t) := (hcond2_0 t).mpr h0
    have hc1 : ¬cond2_1 (grid2.coords t) := fun h => by have := (hcond2_1 t).mp h; omega
    rw [Dat.leavesExact_idle (dat2 V c) 3 t (idleAt2_3 t hc1) (noFlush2_3 t hc1)]
    rw [Dat.leavesExact_idle (dat2 V c) 4 t (idleAt2_4 t hc1) (noFlush2_4 t hc1)]
    rw [acc2_0_zero V c t h0, acc2_1_zero V c t h0]
    rw [Phi2_castSucc V c t, Phi2_zero V c _ _ h0, PhiA2_eq]
    iintro ⟨⟨⟨⟨HS0, HS1⟩, HR⟩, Hg⟩, Ho, ⟨%d0, H0⟩, ⟨%d1, H1⟩, ⟨%d2, H2⟩, ⟨%d3, H3⟩, ⟨%d4, H4⟩⟩
    iapply (sound_kernel2_A c Set.univ (grid2.coords t) _ _ _ _ _ _ _ _ _ _ _ _ _ _ hc0 hc1 (xb2 V c t) (bb2 V c t) ((dat2 V c).before 3 t d3) ((dat2 V c).before 4 t d4) _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexists _; iexact H3
    iexists _; iexact H4
  · have hc0 : ¬cond2_0 (grid2.coords t) := fun h => h0 ((hcond2_0 t).mp h)
    rw [acc2_0_pos V c t h0, acc2_1_pos V c t h0]
    rw [Phi2_castSucc V c t, Phi2_pos V c _ _ h0]
    by_cases h1 : t.val = 9
    · have hc1 : cond2_1 (grid2.coords t) := (hcond2_1 t).mpr h1
      rw [show (dat2 V c).leavesExact 3 t = owns (c : Thread nD τ) (st2_3 t) fullShare ((dat2 V c).after 3 t) from by
        unfold Dat.leavesExact; rw [liveAt2_3 t hc1], after2_3, acc2_0_pos V c t h0]
      rw [show (dat2 V c).leavesExact 4 t = owns (c : Thread nD τ) (st2_4 t) fullShare ((dat2 V c).after 4 t) from by
        unfold Dat.leavesExact; rw [liveAt2_4 t hc1], after2_4, acc2_1_pos V c t h0]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (sound_kernel2_C c Set.univ (grid2.coords t) _ _ _ _ _ _ _ _ _ _ _ _ _ _ hc0 hc1 (xb2 V c t) (bb2 V c t) (acc2_0 V c (t.val - 1) (Nat.lt_of_le_of_lt (Nat.sub_le _ _) t.isLt)) (acc2_1 V c (t.val - 1) (Nat.lt_of_le_of_lt (Nat.sub_le _ _) t.isLt)) _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      iexact H4
    · have hc1 : ¬cond2_1 (grid2.coords t) := fun h => h1 ((hcond2_1 t).mp h)
      rw [Dat.leavesExact_idle (dat2 V c) 3 t (idleAt2_3 t hc1) (noFlush2_3 t hc1)]
      rw [Dat.leavesExact_idle (dat2 V c) 4 t (idleAt2_4 t hc1) (noFlush2_4 t hc1)]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (sound_kernel2_B c Set.univ (grid2.coords t) _ _ _ _ _ _ _ _ _ _ _ _ _ _ hc0 hc1 (xb2 V c t) (bb2 V c t) ((dat2 V c).before 3 t d3) ((dat2 V c).before 4 t d4) (acc2_0 V c (t.val - 1) (Nat.lt_of_le_of_lt (Nat.sub_le _ _) t.isLt)) (acc2_1 V c (t.val - 1) (Nat.lt_of_le_of_lt (Nat.sub_le _ _) t.isLt)) _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexists _; iexact H3
      iexists _; iexact H4

theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.K.Reg3.lean ====
import proofs.«424828_j6554120094214_2_alg».proof.Proof.Gen.Kernel.Launch
import proofs.«424828_j6554120094214_2_alg».proof.Proof.Gen.Kernel.Skeleton
import proofs.«424828_j6554120094214_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.ValueIdx
import Idealize.ShloMosaic.Lib.ValueLayout
import Idealize.ShloMosaic.PureOps.Ideal.Laws
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem hz3 : (![0, 0] : Fin 2 → Nat) = fun _ => 0 := funext fun a => by fin_cases a <;> rfl

abbrev r3_0 : Rect S10000x64 := Rect.unit (s := S10000x64) ![0, 0] S10000x64.size inb_S10000x64_S10000x64_0_0

def out3_5 (x0 : Vec F S10000x64 .f32) (x1 : Vec F S1x64 .f32) (x2 : Vec F S1x64 .f32) (x3 : Vec F S1x64 .f32) (x4 : Vec F S1x64 .f32) : Vec F S10000x64 .f32 :=
  View.canon [⟨r3_0, k3_pay1 (View.ld x2 (Rect.unit (s := S1x64) ![0, 0] S1x64.size inb_S1x64_S1x64_0_0)) (View.ld x3 (Rect.unit (s := S1x64) ![0, 0] S1x64.size inb_S1x64_S1x64_0_0)) (View.ld x0 r3_0) (View.ld x1 (Rect.unit (s := S1x64) ![0, 0] S1x64.size inb_S1x64_S1x64_0_0)) (View.ld x4 (Rect.unit (s := S1x64) ![0, 0] S1x64.size inb_S1x64_S1x64_0_0))⟩]

theorem cover3_5 (p0 : Vec F S10000x64 .f32) (y : S10000x64.Idx) :
    ∃ pc ∈ ([⟨r3_0, p0⟩] : List (View.Piece (Elt F) S10000x64 .f32)), y ∈ pc.1.set :=
  ⟨_, List.mem_singleton_self _, View.mem_set_unit_zero hz3 inb_S10000x64_S10000x64_0_0 y⟩

set_option maxHeartbeats 1000000 in
theorem sound_kernel3 (c : Dev nD) (E : Set ℕ) (i : grid3.Coords)
    (arg1 : Memref sig .tc .vmem S10000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S10000x64 .f32) (harg6 : arg6.IsWhole)
    (x0 : Vec F S10000x64 .f32) (x1 : Vec F S1x64 .f32) (x2 : Vec F S1x64 .f32) (x3 : Vec F S1x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__bn_apply_kernel i arg1 harg1 arg2 harg2 arg3 harg3 arg4 harg4 arg5 harg5 arg6 harg6) K := by
  simp only [cc3__bn_apply_kernel_eq_skeleton]; unfold cc3__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem Phi_in3 (c : Dev nD) : (dat3 V c).Φ 0 = Pipeline.ΦA spec3 c := by
  dsimp only [dat3]

theorem Phi_out3 (c : Dev nD) : (dat3 V c).Φ (Fin.last _) ⊢ Pipeline.ΦA spec3 c := by
  dsimp only [dat3]; exact BIBase.Entails.rfl

theorem owed3 (c : Dev nD) : ∀ x, (dat3 V c).owed x = 0 := fun _ => by
  dsimp only [dat3]

theorem share3 (c : Dev nD) : ∀ w, (dat3 V c).q w = fullShare := fun _ => by
  dsimp only [dat3]

theorem recorded3 (c : Dev nD) : ∀ t, (dat3 V c).recorded t = Set.univ := fun _ => rfl

theorem after3_0 (c : Dev nD) (t : Fin cfg3.N) : (dat3 V c).after 0 t = iblk3 V c 0 t := by dsimp only [dat3]

theorem after3_1 (c : Dev nD) (t : Fin cfg3.N) : (dat3 V c).after 1 t = iblk3 V c 1 t := by dsimp only [dat3]

theorem after3_2 (c : Dev nD) (t : Fin cfg3.N) : (dat3 V c).after 2 t = iblk3 V c 2 t := by dsimp only [dat3]

theorem after3_3 (c : Dev nD) (t : Fin cfg3.N) : (dat3 V c).after 3 t = iblk3 V c 3 t := by dsimp only [dat3]

theorem after3_4 (c : Dev nD) (t : Fin cfg3.N) : (dat3 V c).after 4 t = iblk3 V c 4 t := by dsimp only [dat3]

theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d

theorem before3_1 (c : Dev nD) (t : Fin cfg3.N) (d) : (dat3 V c).before 1 t d = iblk3 V c 1 t :=
  before3_1_of V (dat3 V c) (A_eq3 V c 1) (after3_1 V c) t d

theorem before3_2 (c : Dev nD) (t : Fin cfg3.N) (d) : (dat3 V c).before 2 t d = iblk3 V c 2 t :=
  before3_2_of V (dat3 V c) (A_eq3 V c 2) (after3_2 V c) t d

theorem before3_3 (c : Dev nD) (t : Fin cfg3.N) (d) : (dat3 V c).before 3 t d = iblk3 V c 3 t :=
  before3_3_of V (dat3 V c) (A_eq3 V c 3) (after3_3 V c) t d

theorem before3_4 (c : Dev nD) (t : Fin cfg3.N) (d) : (dat3 V c).before 4 t d = iblk3 V c 4 t :=
  before3_4_of V (dat3 V c) (A_eq3 V c 4) (after3_4 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

open Idealize.ShloMosaic.ValueIdx

end Cert.Kernel.Hand

end
-- ==== Proof.K.Reg4.lean ====
import proofs.«424828_j6554120094214_2_alg».proof.Proof.Gen.Kernel.Launch
import proofs.«424828_j6554120094214_2_alg».proof.Proof.Gen.Kernel.Skeleton
import proofs.«424828_j6554120094214_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S10000x64 := Rect.unit (s := S10000x64) ![0, 0] S10000x64.size inb_S10000x64_S10000x64_0_0

abbrev r4_1 : Rect S64x64 := Rect.unit (s := S64x64) ![0, 0] S64x64.size inb_S64x64_S64x64_0_0

def out4_2 (x0 : Vec F S10000x64 .f32) (x1 : Vec F S64x64 .f32) : Vec F S10000x64 .f32 :=
  View.canon [⟨r4_0, k4_pay1 (View.ld x0 r4_0) (View.ld x1 r4_1)⟩]

theorem cover4_2 (p0 : Vec F S10000x64 .f32) (y : S10000x64.Idx) :
    ∃ pc ∈ ([⟨r4_0, p0⟩] : List (View.Piece (Elt F) S10000x64 .f32)), y ∈ pc.1.set :=
  View.cover_of_tiled [⟨r4_0, p0⟩] S10000x64.size (by rfl) y

set_option maxHeartbeats 1000000 in
theorem sound_kernel4 (c : Dev nD) (E : Set ℕ) (i : grid4.Coords) (arg1 : Memref sig .tc .vmem S10000x64 .f32) (harg1 : arg1.IsWhole)
    (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__linear_kernel i arg1 harg1 arg2 harg2 arg3 harg3) K := by
  simp only [cc4__linear_kernel_eq_skeleton]; unfold cc4__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem Phi_in4 (c : Dev nD) : (dat4 V c).Φ 0 = Pipeline.ΦA spec4 c := rfl

theorem Phi_out4 (c : Dev nD) : (dat4 V c).Φ (Fin.last _) ⊢ Pipeline.ΦA spec4 c := .rfl

theorem owed4 (c : Dev nD) : ∀ x, (dat4 V c).owed x = 0 := fun _ => rfl

theorem share4 (c : Dev nD) : ∀ w, (dat4 V c).q w = fullShare := fun _ => rfl

theorem recorded4 (c : Dev nD) : ∀ t, (dat4 V c).recorded t = Set.univ := fun _ => rfl

theorem after4_0 (c : Dev nD) (t : Fin cfg4.N) : (dat4 V c).after 0 t = iblk4 V c 0 t := by dsimp only [dat4]

theorem after4_1 (c : Dev nD) (t : Fin cfg4.N) : (dat4 V c).after 1 t = iblk4 V c 1 t := by dsimp only [dat4]

theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d

theorem before4_1 (c : Dev nD) (t : Fin cfg4.N) (d) : (dat4 V c).before 1 t d = iblk4 V c 1 t :=
  before4_1_of V (dat4 V c) (A_eq4 V c 1) (after4_1 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

open Idealize.ShloMosaic.ValueIdx

end Cert.Kernel.Hand

end
-- ==== Proof.K.Reg5.lean ====
import proofs.«424828_j6554120094214_2_alg».proof.Proof.Gen.Kernel.Launch
import proofs.«424828_j6554120094214_2_alg».proof.Proof.Gen.Kernel.Skeleton
import proofs.«424828_j6554120094214_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic
set_option maxRecDepth 65536

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S10000x64 := Rect.unit (s := S10000x64) ![0, 0] S10000x64.size inb_S10000x64_S10000x64_0_0

abbrev r5_1 : Rect S10000x1 := Rect.unit (s := S10000x1) ![0, 0] S10000x1.size inb_S10000x1_S10000x1_0_0

theorem zeros5 : (![0, 0] : Fin 2 → Nat) = fun _ => 0 := funext fun a => by fin_cases a <;> rfl

def out5_2 (x0 : Vec F S10000x64 .f32) (x1 : Vec F S10000x1 .f32) : Vec F S10000x64 .f32 :=
  View.canon [⟨r5_0, k5_pay1 (View.ld x0 r5_0) (View.ld x1 r5_1)⟩]

theorem cover5_2 (p0 : Vec F S10000x64 .f32) (y : S10000x64.Idx) :
    ∃ pc ∈ ([⟨r5_0, p0⟩] : List (View.Piece (Elt F) S10000x64 .f32)), y ∈ pc.1.set :=
  ⟨_, List.mem_singleton_self _, View.mem_set_unit_zero zeros5 inb_S10000x64_S10000x64_0_0 y⟩

set_option maxHeartbeats 1000000 in
theorem sound_kernel5 (c : Dev nD) (E : Set ℕ) (i : grid5.Coords) (arg1 : Memref sig .tc .vmem S10000x64 .f32) (harg1 : arg1.IsWhole) (arg2 : Memref sig .tc .vmem S10000x1 .f32) (harg2 : arg2.IsWhole) (arg3 : Memref sig .tc .vmem S10000x64 .f32) (harg3 : arg3.IsWhole)
    (x0 : Vec F S10000x64 .f32) (x1 : Vec F S10000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__scale_kernel i arg1 harg1 arg2 harg2 arg3 harg3) K := by
  simp only [cc5__scale_kernel_eq_skeleton]; unfold cc5__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem Phi_in5 (c : Dev nD) : (dat5 V c).Φ 0 = Pipeline.ΦA spec5 c := by
  dsimp only [dat5]

theorem Phi_out5 (c : Dev nD) : (dat5 V c).Φ (Fin.last _) ⊢ Pipeline.ΦA spec5 c := by
  dsimp only [dat5]; exact BIBase.Entails.rfl

theorem owed5 (c : Dev nD) : ∀ x, (dat5 V c).owed x = 0 := fun _ => by dsimp only [dat5]

theorem share5 (c : Dev nD) : ∀ w, (dat5 V c).q w = fullShare := fun _ => by dsimp only [dat5]

theorem recorded5 (c : Dev nD) : ∀ t, (dat5 V c).recorded t = Set.univ := fun _ => rfl

theorem after5_0 (c : Dev nD) (t : Fin cfg5.N) : (dat5 V c).after 0 t = iblk5 V c 0 t := by dsimp only [dat5]

theorem after5_1 (c : Dev nD) (t : Fin cfg5.N) : (dat5 V c).after 1 t = iblk5 V c 1 t := by dsimp only [dat5]

theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d

theorem before5_1 (c : Dev nD) (t : Fin cfg5.N) (d) : (dat5 V c).before 1 t d = iblk5 V c 1 t :=
  before5_1_of V (dat5 V c) (A_eq5 V c 1) (after5_1 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ (grid5.coords t) _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Reg6.lean ====
import proofs.«424828_j6554120094214_2_alg».proof.Proof.Gen.Kernel.Launch
import proofs.«424828_j6554120094214_2_alg».proof.Proof.Gen.Kernel.Skeleton
import proofs.«424828_j6554120094214_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.ValueIdx
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ

theorem hz6 : (![0, 0] : Fin 2 → Nat) = fun _ => 0 := funext fun a => by fin_cases a <;> rfl

theorem read_writes_whole6 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

abbrev cond6_0 (i : grid6.Coords) : Prop := (Scalar.cmpi .ne (Scalar.extui (Scalar.cmpi .eq (BitVec.ofNat 32 (i 0).val) 0#32)) 0#32) = 1#1

theorem hcond6_0 : ∀ t : Fin cfg6.N, cond6_0 (grid6.coords t) ↔ t.val = 0 :=
  (by decide +kernel : ∀ t : Fin grid6.N, cond6_0 (grid6.coords t) ↔ t.val = 0)

abbrev cond6_1 (i : grid6.Coords) : Prop := k6_cond2 i = 1#1

theorem hcond6_1 : ∀ t : Fin cfg6.N, cond6_1 (grid6.coords t) ↔ t.val = 9 :=
  (by decide +kernel : ∀ t : Fin grid6.N, cond6_1 (grid6.coords t) ↔ t.val = 9)

set_option maxHeartbeats 1000000 in
theorem sound_kernel6_A (c : Dev nD) (E : Set ℕ) (i : grid6.Coords)
    (arg1 : Memref sig .tc .vmem S10000x64 .f32) (harg1 : arg1.IsWhole) (arg2 : Memref sig .tc .vmem S1x64 .f32) (harg2 : arg2.IsWhole)
    (arg3 : Memref sig .tc .vmem S10000x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (hc0 : cond6_0 i) (hc1 : ¬cond6_1 i)
    (x0 : Vec F S10000x64 .f32) (x1 : Vec F S1x64 .f32) (xi3 : Vec F S1x64 .f32) (xi4 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ owns (c : Thread nD τ) arg5 fullShare xi4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (k6_pay3 x0 x1)
            ∗ owns (c : Thread nD τ) arg4 fullShare xi3 ∗ owns (c : Thread nD τ) arg5 fullShare xi4
            ∗ owns (c : Thread nD τ) arg6 fullShare (k6_pay4 x0 x1 (k6_pay1 (F := F))) ∗ owns (c : Thread nD τ) arg7 fullShare (k6_pay5 x0 x1 (k6_pay2 (F := F)))) -∗ K ⟨⟩))
      ⊢ wp frame (wpE (defs₀ (F := F)) Variants.none c none) E (cc6__bias_relu_stats_kernel i arg1 harg1 arg2 harg2 arg3 harg3 arg4 harg4 arg5 harg5 arg6 harg6 arg7 harg7) K := by
  simp only [cc6__bias_relu_stats_kernel_eq_skeleton]; unfold cc6__bias_relu_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%d5, %f5, -, H5⟩, ⟨%d6, %f6, -, H6⟩, Hk⟩
  subst hf0; subst hf1; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_writes_whole6 _ _ hz6 _ _ _).trans ?_
    simp only [View.readAt_eq_ld, View.ld_unit_zero (S := S10000x64) hz6, View.ld_unit_zero (S := S1x64) hz6]
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_writes_whole6 _ _ hz6 _ _ _).trans ?_
    sl_unfold_words
    simp only [View.readAt_eq_ld, View.ld_unit_zero (S := S10000x64) hz6, View.ld_unit_zero (S := S1x64) hz6, View.readCov_unit_zero (S := S1x64) _ hz6]
  iexists _; isplitr
  swap; · iexact H6
  ipureintro
  refine (read_writes_whole6 _ _ hz6 _ _ _).trans ?_
  sl_unfold_words
  simp only [View.readAt_eq_ld, View.ld_unit_zero (S := S10000x64) hz6, View.ld_unit_zero (S := S1x64) hz6, View.readCov_unit_zero (S := S1x64) _ hz6]

set_option maxHeartbeats 1000000 in
theorem sound_kernel6_B (c : Dev nD) (E : Set ℕ) (i : grid6.Coords)
    (arg1 : Memref sig .tc .vmem S10000x64 .f32) (harg1 : arg1.IsWhole) (arg2 : Memref sig .tc .vmem S1x64 .f32) (harg2 : arg2.IsWhole)
    (arg3 : Memref sig .tc .vmem S10000x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (hc0 : ¬cond6_0 i) (hc1 : ¬cond6_1 i)
    (x0 : Vec F S10000x64 .f32) (x1 : Vec F S1x64 .f32) (xi3 : Vec F S1x64 .f32) (xi4 : Vec F S1x64 .f32)
    (xs0 : Vec F S1x64 .f32) (xs1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ owns (c : Thread nD τ) arg5 fullShare xi4
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare (k6_pay3 x0 x1)
            ∗ owns (c : Thread nD τ) arg4 fullShare xi3 ∗ owns (c : Thread nD τ) arg5 fullShare xi4
            ∗ owns (c : Thread nD τ) arg6 fullShare (k6_pay4 x0 x1 xs0) ∗ owns (c : Thread nD τ) arg7 fullShare (k6_pay5 x0 x1 xs1)) -∗ K ⟨⟩))
      ⊢ wp frame (wpE (defs₀ (F := F)) Variants.none c none) E (cc6__bias_relu_stats_kernel i arg1 harg1 arg2 harg2 arg3 harg3 arg4 harg4 arg5 harg5 arg6 harg6 arg7 harg7) K := by
  simp only [cc6__bias_relu_stats_kernel_eq_skeleton]; unfold cc6__bias_relu_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%f5, %hf5, H5⟩, ⟨%f6, %hf6, H6⟩, Hk⟩
  subst hf0; subst hf1; subst hf3; subst hf4; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_writes_whole6 _ _ hz6 _ _ _).trans ?_
    simp only [View.readAt_eq_ld, View.ld_unit_zero (S := S10000x64) hz6, View.ld_unit_zero (S := S1x64) hz6, View.readCov_unit_zero (S := S1x64) _ hz6]
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_writes_whole6 _ _ hz6 _ _ _).trans ?_
    simp only [View.readAt_eq_ld, View.ld_unit_zero (S := S10000x64) hz6, View.ld_unit_zero (S := S1x64) hz6, View.readCov_unit_zero (S := S1x64) _ hz6]
  iexists _; isplitr
  swap; · iexact H6
  ipureintro
  refine (read_writes_whole6 _ _ hz6 _ _ _).trans ?_
  simp only [View.readAt_eq_ld, View.ld_unit_zero (S := S10000x64) hz6, View.ld_unit_zero (S := S1x64) hz6, View.readCov_unit_zero (S := S1x64) _ hz6]

set_option maxHeartbeats 1000000 in
theorem sound_kernel6_C (c : Dev nD) (E : Set ℕ) (i : grid6.Coords)
    (arg1 : Memref sig .tc .vmem S10000x64 .f32) (harg1 : arg1.IsWhole) (arg2 : Memref sig .tc .vmem S1x64 .f32) (harg2 : arg2.IsWhole)
    (arg3 : Memref sig .tc .vmem S10000x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (hc0 : ¬cond6_0 i) (hc1 : cond6_1 i)
    (x0 : Vec F S10000x64 .f32) (x1 : Vec F S1x64 .f32)
    (xs0 : Vec F S1x64 .f32) (xs1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare (k6_pay3 x0 x1)
            ∗ owns (c : Thread nD τ) arg4 fullShare (k6_pay4 x0 x1 xs0) ∗ owns (c : Thread nD τ) arg5 fullShare (k6_pay5 x0 x1 xs1)
            ∗ owns (c : Thread nD τ) arg6 fullShare (k6_pay4 x0 x1 xs0) ∗ owns (c : Thread nD τ) arg7 fullShare (k6_pay5 x0 x1 xs1)) -∗ K ⟨⟩))
      ⊢ wp frame (wpE (defs₀ (F := F)) Variants.none c none) E (cc6__bias_relu_stats_kernel i arg1 harg1 arg2 harg2 arg3 harg3 arg4 harg4 arg5 harg5 arg6 harg6 arg7 harg7) K := by
  simp only [cc6__bias_relu_stats_kernel_eq_skeleton]; unfold cc6__bias_relu_stats_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%f6, %hf6, H6⟩, Hk⟩
  subst hf0; subst hf1; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_writes_whole6 _ _ hz6 _ _ _).trans ?_
    simp only [View.readAt_eq_ld, View.ld_unit_zero (S := S10000x64) hz6, View.ld_unit_zero (S := S1x64) hz6, View.readCov_unit_zero (S := S1x64) _ hz6]
  isplitl [H3]
  · iexists _; isplitr
    swap; · iexact H3
    ipureintro
    refine (read_writes_whole6 _ _ hz6 _ _ _).trans ?_
    sl_unfold_words
    simp only [View.readAt_eq_ld, View.ld_unit_zero (S := S10000x64) hz6, View.ld_unit_zero (S := S1x64) hz6, View.readCov_unit_zero (S := S1x64) _ hz6]
  isplitl [H4]
  · iexists _; isplitr
    swap; · iexact H4
    ipureintro
    refine (read_writes_whole6 _ _ hz6 _ _ _).trans ?_
    sl_unfold_words
    simp only [View.readAt_eq_ld, View.ld_unit_zero (S := S10000x64) hz6, View.ld_unit_zero (S := S1x64) hz6, View.readCov_unit_zero (S := S1x64) _ hz6]
  isplitl [H5]
  · iexists _; isplitr
    swap; · iexact H5
    ipureintro
    refine (read_writes_whole6 _ _ hz6 _ _ _).trans ?_
    simp only [View.readAt_eq_ld, View.ld_unit_zero (S := S10000x64) hz6, View.ld_unit_zero (S := S1x64) hz6, View.readCov_unit_zero (S := S1x64) _ hz6]
  iexists _; isplitr
  swap; · iexact H6
  ipureintro
  refine (read_writes_whole6 _ _ hz6 _ _ _).trans ?_
  simp only [View.readAt_eq_ld, View.ld_unit_zero (S := S10000x64) hz6, View.ld_unit_zero (S := S1x64) hz6, View.readCov_unit_zero (S := S1x64) _ hz6]

theorem liveAt6_0 : ∀ t : Fin cfg6.N, cfg6.idle 0 (grid6.coords t) = false := fun _ => rfl

theorem liveAt6_1 : ∀ t : Fin cfg6.N, cfg6.idle 1 (grid6.coords t) = false := fun _ => rfl

theorem liveAt6_2 : ∀ t : Fin cfg6.N, cfg6.idle 2 (grid6.coords t) = false := fun _ => rfl

theorem idleAt6_3 : ∀ t : Fin cfg6.N, ¬cond6_1 (grid6.coords t) → cfg6.idle 3 (grid6.coords t) = true := by decide +kernel

theorem noFlush6_3 : ∀ t : Fin cfg6.N, ¬cond6_1 (grid6.coords t) → (cfg6.win 3).flush t = false := by decide +kernel

theorem liveAt6_3 : ∀ t : Fin cfg6.N, cond6_1 (grid6.coords t) → cfg6.idle 3 (grid6.coords t) = false := by decide +kernel

theorem idleAt6_4 : ∀ t : Fin cfg6.N, ¬cond6_1 (grid6.coords t) → cfg6.idle 4 (grid6.coords t) = true := by decide +kernel

theorem noFlush6_4 : ∀ t : Fin cfg6.N, ¬cond6_1 (grid6.coords t) → (cfg6.win 4).flush t = false := by decide +kernel

theorem liveAt6_4 : ∀ t : Fin cfg6.N, cond6_1 (grid6.coords t) → cfg6.idle 4 (grid6.coords t) = false := by decide +kernel

section Region2

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev xb6 (c : Dev nD) (t : Fin cfg6.N) : Vec F S10000x64 .f32 := iblk6 V c 0 t

abbrev bb6 (c : Dev nD) (t : Fin cfg6.N) : Vec F S1x64 .f32 := iblk6 V c 1 t

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

def acc6_0 (c : Dev nD) : (n : ℕ) → n < cfg6.N → Vec F S1x64 .f32
  | 0, h => k6_pay4 (xb6 V c ⟨0, h⟩) (bb6 V c ⟨0, h⟩) (k6_pay1 (F := F))
  | n + 1, h => k6_pay4 (xb6 V c ⟨n + 1, h⟩) (bb6 V c ⟨n + 1, h⟩) (acc6_0 c n (Nat.lt_of_succ_lt h))

def acc6_1 (c : Dev nD) : (n : ℕ) → n < cfg6.N → Vec F S1x64 .f32
  | 0, h => k6_pay5 (xb6 V c ⟨0, h⟩) (bb6 V c ⟨0, h⟩) (k6_pay2 (F := F))
  | n + 1, h => k6_pay5 (xb6 V c ⟨n + 1, h⟩) (bb6 V c ⟨n + 1, h⟩) (acc6_1 c n (Nat.lt_of_succ_lt h))

theorem acc6_0_zero (c : Dev nD) (t : Fin cfg6.N) (h : t.val = 0) :
    acc6_0 V c t.val t.isLt = k6_pay4 (xb6 V c t) (bb6 V c t) (k6_pay1 (F := F)) := by
  obtain ⟨n, hn⟩ := t
  cases n with
  | zero => rfl
  | succ n => exact absurd h (Nat.succ_ne_zero n)

theorem acc6_0_pos (c : Dev nD) (t : Fin cfg6.N) (h : t.val ≠ 0) :
    acc6_0 V c t.val t.isLt = k6_pay4 (xb6 V c t) (bb6 V c t) (acc6_0 V c (t.val - 1) (Nat.lt_of_le_of_lt (Nat.sub_le _ _) t.isLt)) := by
  obtain ⟨n, hn⟩ := t
  cases n with
  | zero => exact absurd rfl h
  | succ n => rfl

theorem acc6_1_zero (c : Dev nD) (t : Fin cfg6.N) (h : t.val = 0) :
    acc6_1 V c t.val t.isLt = k6_pay5 (xb6 V c t) (bb6 V c t) (k6_pay2 (F := F)) := by
  obtain ⟨n, hn⟩ := t
  cases n with
  | zero => rfl
  | succ n => exact absurd h (Nat.succ_ne_zero n)

theorem acc6_1_pos (c : Dev nD) (t : Fin cfg6.N) (h : t.val ≠ 0) :
    acc6_1 V c t.val t.isLt = k6_pay5 (xb6 V c t) (bb6 V c t) (acc6_1 V c (t.val - 1) (Nat.lt_of_le_of_lt (Nat.sub_le _ _) t.isLt)) := by
  obtain ⟨n, hn⟩ := t
  cases n with
  | zero => exact absurd rfl h
  | succ n => rfl

abbrev scM6_0 : Memref sig .tc .vmem S1x64 .f32 := Memref.whole cc6_scratch0

abbrev scM6_1 : Memref sig .tc .vmem S1x64 .f32 := Memref.whole cc6_scratch1

abbrev rest6 (c : Dev nD) : sProp 𝕄 :=
  Pipeline.scopedRestBut (Ix := Unit) (Name := ℕ) (U := UR sig nD τ) (Lvl := ℕ) (Val := Elt F) spec6 c [cc6_scratch0, cc6_scratch1]

theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d)) ∗ rest6 c) ∗ (∃ r, prngReg c r)) := by
  unfold Pipeline.ΦA; rw [scopedRest6_split]; simp only [scM6_0, scM6_1, owns_whole]; try rfl

def Phi6 (c : Dev nD) : (n : ℕ) → n ≤ cfg6.N → sProp 𝕄
  | 0, _ => Pipeline.ΦA spec6 c
  | n + 1, hn => iprop(iprop(iprop(owns (c : Thread nD τ) scM6_0 fullShare (acc6_0 V c n hn) ∗ owns (c : Thread nD τ) scM6_1 fullShare (acc6_1 V c n hn)) ∗ rest6 c) ∗ (∃ r, prngReg c r))

theorem Phi6_zero (c : Dev nD) (n : ℕ) (h : n ≤ cfg6.N) (hz : n = 0) : Phi6 V c n h = Pipeline.ΦA spec6 c := by
  subst hz; rfl

theorem Phi6_succ (c : Dev nD) (n : ℕ) (hn : n < cfg6.N) :
    Phi6 V c (n + 1) hn = iprop(iprop(iprop(owns (c : Thread nD τ) scM6_0 fullShare (acc6_0 V c n hn) ∗ owns (c : Thread nD τ) scM6_1 fullShare (acc6_1 V c n hn)) ∗ rest6 c) ∗ (∃ r, prngReg c r)) := rfl

theorem Phi6_pos (c : Dev nD) (n : ℕ) (h : n ≤ cfg6.N) (hz : n ≠ 0) :
    Phi6 V c n h = iprop(iprop(iprop(owns (c : Thread nD τ) scM6_0 fullShare (acc6_0 V c (n - 1) (by omega)) ∗ owns (c : Thread nD τ) scM6_1 fullShare (acc6_1 V c (n - 1) (by omega))) ∗ rest6 c) ∗ (∃ r, prngReg c r)) := by
  cases n with
  | zero => exact absurd rfl hz
  | succ n => rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => k6_pay3 (xb6 V c t) (bb6 V c t)
    | ⟨3, _⟩ => acc6_0 V c t.val t.isLt
    | ⟨4, _⟩ => acc6_1 V c t.val t.isLt
  Φ t := Phi6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem Phi_in6 (c : Dev nD) : (dat6 V c).Φ 0 = Pipeline.ΦA spec6 c := rfl

theorem owed6 (c : Dev nD) : ∀ x, (dat6 V c).owed x = 0 := fun _ => rfl

theorem share6 (c : Dev nD) : ∀ w, (dat6 V c).q w = fullShare := fun _ => rfl

theorem recorded6 (c : Dev nD) : ∀ t, (dat6 V c).recorded t = Set.univ := fun _ => rfl

theorem Phi6_castSucc (c : Dev nD) (t : Fin cfg6.N) :
    (dat6 V c).Φ t.castSucc = Phi6 V c t.val (Nat.le_of_lt t.isLt) := by
  dsimp only [dat6]; simp only [Fin.coe_castSucc]

theorem after6_0 (c : Dev nD) (t : Fin cfg6.N) : (dat6 V c).after 0 t = iblk6 V c 0 t := by dsimp only [dat6]

theorem after6_1 (c : Dev nD) (t : Fin cfg6.N) : (dat6 V c).after 1 t = iblk6 V c 1 t := by dsimp only [dat6]

theorem after6_2 (c : Dev nD) (t : Fin cfg6.N) : (dat6 V c).after 2 t = k6_pay3 (xb6 V c t) (bb6 V c t) := by dsimp only [dat6]

theorem after6_3 (c : Dev nD) (t : Fin cfg6.N) : (dat6 V c).after 3 t = acc6_0 V c t.val t.isLt := by dsimp only [dat6]

theorem after6_4 (c : Dev nD) (t : Fin cfg6.N) : (dat6 V c).after 4 t = acc6_1 V c t.val t.isLt := by dsimp only [dat6]

theorem before6_0 (c : Dev nD) (t : Fin cfg6.N) (d) : (dat6 V c).before 0 t d = iblk6 V c 0 t :=
  before6_0_of V (dat6 V c) (A_eq6 V c 0) (after6_0 V c) t d

theorem before6_1 (c : Dev nD) (t : Fin cfg6.N) (d) : (dat6 V c).before 1 t d = iblk6 V c 1 t :=
  before6_1_of V (dat6 V c) (A_eq6 V c 1) (after6_1 V c) t d

theorem Phi_out6 (c : Dev nD) : (dat6 V c).Φ (Fin.last _) ⊢ Pipeline.ΦA spec6 c := by
  rw [show (dat6 V c).Φ (Fin.last _) = Phi6 V c (Fin.last cfg6.N).val (Nat.le_of_lt_succ (Fin.last cfg6.N).isLt) from rfl,
    Phi6_pos V c _ _ (by rw [Fin.val_last]; have : cfg6.N = 10 := N_6; omega), PhiA6_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t)

set_option maxHeartbeats 4800000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = Phi6 V c (t.val + 1) t.isLt from rfl, Phi6_succ]
  have hN : t.val < 10 := lt_of_lt_of_eq t.isLt (show cfg6.N = 10 from N_6)
  rw [show (dat6 V c).leavesExact 0 t = owns (c : Thread nD τ) (st6_0 t) fullShare ((dat6 V c).after 0 t) from by
    unfold Dat.leavesExact; rw [liveAt6_0 t], after6_0]
  rw [show (dat6 V c).leavesExact 1 t = owns (c : Thread nD τ) (st6_1 t) fullShare ((dat6 V c).after 1 t) from by
    unfold Dat.leavesExact; rw [liveAt6_1 t], after6_1]
  rw [show (dat6 V c).leavesExact 2 t = owns (c : Thread nD τ) (st6_2 t) fullShare ((dat6 V c).after 2 t) from by
    unfold Dat.leavesExact; rw [liveAt6_2 t], after6_2]
  by_cases h0 : t.val = 0
  · have hc0 : cond6_0 (grid6.coords t) := (hcond6_0 t).mpr h0
    have hc1 : ¬cond6_1 (grid6.coords t) := fun h => by have := (hcond6_1 t).mp h; omega
    rw [Dat.leavesExact_idle (dat6 V c) 3 t (idleAt6_3 t hc1) (noFlush6_3 t hc1)]
    rw [Dat.leavesExact_idle (dat6 V c) 4 t (idleAt6_4 t hc1) (noFlush6_4 t hc1)]
    rw [acc6_0_zero V c t h0, acc6_1_zero V c t h0]
    rw [Phi6_castSucc V c t, Phi6_zero V c _ _ h0, PhiA6_eq]
    iintro ⟨⟨⟨⟨HS0, HS1⟩, HR⟩, Hg⟩, Ho, ⟨%d0, H0⟩, ⟨%d1, H1⟩, ⟨%d2, H2⟩, ⟨%d3, H3⟩, ⟨%d4, H4⟩⟩
    iapply (sound_kernel6_A c Set.univ (grid6.coords t) _ _ _ _ _ _ _ _ _ _ _ _ _ _ hc0 hc1 (xb6 V c t) (bb6 V c t) ((dat6 V c).before 3 t d3) ((dat6 V c).before 4 t d4) _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexists _; iexact H3
    iexists _; iexact H4
  · have hc0 : ¬cond6_0 (grid6.coords t) := fun h => h0 ((hcond6_0 t).mp h)
    rw [acc6_0_pos V c t h0, acc6_1_pos V c t h0]
    rw [Phi6_castSucc V c t, Phi6_pos V c _ _ h0]
    by_cases h1 : t.val = 9
    · have hc1 : cond6_1 (grid6.coords t) := (hcond6_1 t).mpr h1
      rw [show (dat6 V c).leavesExact 3 t = owns (c : Thread nD τ) (st6_3 t) fullShare ((dat6 V c).after 3 t) from by
        unfold Dat.leavesExact; rw [liveAt6_3 t hc1], after6_3, acc6_0_pos V c t h0]
      rw [show (dat6 V c).leavesExact 4 t = owns (c : Thread nD τ) (st6_4 t) fullShare ((dat6 V c).after 4 t) from by
        unfold Dat.leavesExact; rw [liveAt6_4 t hc1], after6_4, acc6_1_pos V c t h0]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (sound_kernel6_C c Set.univ (grid6.coords t) _ _ _ _ _ _ _ _ _ _ _ _ _ _ hc0 hc1 (xb6 V c t) (bb6 V c t) (acc6_0 V c (t.val - 1) (Nat.lt_of_le_of_lt (Nat.sub_le _ _) t.isLt)) (acc6_1 V c (t.val - 1) (Nat.lt_of_le_of_lt (Nat.sub_le _ _) t.isLt)) _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      iexact H4
    · have hc1 : ¬cond6_1 (grid6.coords t) := fun h => h1 ((hcond6_1 t).mp h)
      rw [Dat.leavesExact_idle (dat6 V c) 3 t (idleAt6_3 t hc1) (noFlush6_3 t hc1)]
      rw [Dat.leavesExact_idle (dat6 V c) 4 t (idleAt6_4 t hc1) (noFlush6_4 t hc1)]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (sound_kernel6_B c Set.univ (grid6.coords t) _ _ _ _ _ _ _ _ _ _ _ _ _ _ hc0 hc1 (xb6 V c t) (bb6 V c t) ((dat6 V c).before 3 t d3) ((dat6 V c).before 4 t d4) (acc6_0 V c (t.val - 1) (Nat.lt_of_le_of_lt (Nat.sub_le _ _) t.isLt)) (acc6_1 V c (t.val - 1) (Nat.lt_of_le_of_lt (Nat.sub_le _ _) t.isLt)) _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexists _; iexact H3
      iexists _; iexact H4

theorem body_obligation6 (c : Dev nD) : BodyObligation (dat6 (F := F) V c) (defs₀ (F := F)) Variants.none () Set.univ := fun t => by
  rw [bigSep_W6, bigSep_W6]
  exact sound_body6 V c t

end Region2

end Cert.Kernel.Hand

end
-- ==== Proof.K.Reg7.lean ====
import proofs.«424828_j6554120094214_2_alg».proof.Proof.Gen.Kernel.Launch
import proofs.«424828_j6554120094214_2_alg».proof.Proof.Gen.Kernel.Skeleton
import proofs.«424828_j6554120094214_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.ValueIdx
import Idealize.ShloMosaic.Lib.ValueLayout
import Idealize.ShloMosaic.PureOps.Ideal.Laws
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

theorem hz7 : (![0, 0] : Fin 2 → Nat) = fun _ => 0 := funext fun a => by fin_cases a <;> rfl

abbrev r7_0 : Rect S10000x64 := Rect.unit (s := S10000x64) ![0, 0] S10000x64.size inb_S10000x64_S10000x64_0_0

def out7_5 (x0 : Vec F S10000x64 .f32) (x1 : Vec F S1x64 .f32) (x2 : Vec F S1x64 .f32) (x3 : Vec F S1x64 .f32) (x4 : Vec F S1x64 .f32) : Vec F S10000x64 .f32 :=
  View.canon [⟨r7_0, k7_pay1 (View.ld x2 (Rect.unit (s := S1x64) ![0, 0] S1x64.size inb_S1x64_S1x64_0_0)) (View.ld x3 (Rect.unit (s := S1x64) ![0, 0] S1x64.size inb_S1x64_S1x64_0_0)) (View.ld x0 r7_0) (View.ld x1 (Rect.unit (s := S1x64) ![0, 0] S1x64.size inb_S1x64_S1x64_0_0)) (View.ld x4 (Rect.unit (s := S1x64) ![0, 0] S1x64.size inb_S1x64_S1x64_0_0))⟩]

theorem cover7_5 (p0 : Vec F S10000x64 .f32) (y : S10000x64.Idx) :
    ∃ pc ∈ ([⟨r7_0, p0⟩] : List (View.Piece (Elt F) S10000x64 .f32)), y ∈ pc.1.set :=
  ⟨_, List.mem_singleton_self _, View.mem_set_unit_zero hz7 inb_S10000x64_S10000x64_0_0 y⟩

set_option maxHeartbeats 1000000 in
theorem sound_kernel7 (c : Dev nD) (E : Set ℕ) (i : grid7.Coords)
    (arg1 : Memref sig .tc .vmem S10000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S10000x64 .f32) (harg6 : arg6.IsWhole)
    (x0 : Vec F S10000x64 .f32) (x1 : Vec F S1x64 .f32) (x2 : Vec F S1x64 .f32) (x3 : Vec F S1x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out7_5 x0 x1 x2 x3 x4)) -∗ K ⟨⟩))
      ⊢ wp frame (wpE (defs₀ (F := F)) Variants.none c none) E (cc7__bn_apply_kernel i arg1 harg1 arg2 harg2 arg3 harg3 arg4 harg4 arg5 harg5 arg6 harg6) K := by
  simp only [cc7__bn_apply_kernel_eq_skeleton]; unfold cc7__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem Phi_in7 (c : Dev nD) : (dat7 V c).Φ 0 = Pipeline.ΦA spec7 c := by
  dsimp only [dat7]

theorem Phi_out7 (c : Dev nD) : (dat7 V c).Φ (Fin.last _) ⊢ Pipeline.ΦA spec7 c := by
  dsimp only [dat7]; exact BIBase.Entails.rfl

theorem owed7 (c : Dev nD) : ∀ x, (dat7 V c).owed x = 0 := fun _ => by
  dsimp only [dat7]

theorem share7 (c : Dev nD) : ∀ w, (dat7 V c).q w = fullShare := fun _ => by
  dsimp only [dat7]

theorem recorded7 (c : Dev nD) : ∀ t, (dat7 V c).recorded t = Set.univ := fun _ => rfl

theorem after7_0 (c : Dev nD) (t : Fin cfg7.N) : (dat7 V c).after 0 t = iblk7 V c 0 t := by dsimp only [dat7]

theorem after7_1 (c : Dev nD) (t : Fin cfg7.N) : (dat7 V c).after 1 t = iblk7 V c 1 t := by dsimp only [dat7]

theorem after7_2 (c : Dev nD) (t : Fin cfg7.N) : (dat7 V c).after 2 t = iblk7 V c 2 t := by dsimp only [dat7]

theorem after7_3 (c : Dev nD) (t : Fin cfg7.N) : (dat7 V c).after 3 t = iblk7 V c 3 t := by dsimp only [dat7]

theorem after7_4 (c : Dev nD) (t : Fin cfg7.N) : (dat7 V c).after 4 t = iblk7 V c 4 t := by dsimp only [dat7]

theorem after7_5 (c : Dev nD) (t : Fin cfg7.N) :
    (dat7 V c).after 5 t = out7_5 (iblk7 V c 0 t) (iblk7 V c 1 t) (iblk7 V c 2 t) (iblk7 V c 3 t) (iblk7 V c 4 t) := by dsimp only [dat7]

theorem before7_0 (c : Dev nD) (t : Fin cfg7.N) (d) : (dat7 V c).before 0 t d = iblk7 V c 0 t :=
  before7_0_of V (dat7 V c) (A_eq7 V c 0) (after7_0 V c) t d

theorem before7_1 (c : Dev nD) (t : Fin cfg7.N) (d) : (dat7 V c).before 1 t d = iblk7 V c 1 t :=
  before7_1_of V (dat7 V c) (A_eq7 V c 1) (after7_1 V c) t d

theorem before7_2 (c : Dev nD) (t : Fin cfg7.N) (d) : (dat7 V c).before 2 t d = iblk7 V c 2 t :=
  before7_2_of V (dat7 V c) (A_eq7 V c 2) (after7_2 V c) t d

theorem before7_3 (c : Dev nD) (t : Fin cfg7.N) (d) : (dat7 V c).before 3 t d = iblk7 V c 3 t :=
  before7_3_of V (dat7 V c) (A_eq7 V c 3) (after7_3 V c) t d

theorem before7_4 (c : Dev nD) (t : Fin cfg7.N) (d) : (dat7 V c).before 4 t d = iblk7 V c 4 t :=
  before7_4_of V (dat7 V c) (A_eq7 V c 4) (after7_4 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation7 (c : Dev nD) : BodyObligation (dat7 (F := F) V c) (defs₀ (F := F)) Variants.none () Set.univ := fun t => by
  rw [bigSep_W7, bigSep_W7]
  exact sound_body7 V c t

open Idealize.ShloMosaic.ValueIdx

end Cert.Kernel.Hand

end
-- ==== Proof.K.Reg8.lean ====
import proofs.«424828_j6554120094214_2_alg».proof.Proof.Gen.Kernel.Launch
import proofs.«424828_j6554120094214_2_alg».proof.Proof.Gen.Kernel.Skeleton
import proofs.«424828_j6554120094214_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

abbrev r8_0 : Rect S10000x64 := Rect.unit (s := S10000x64) ![0, 0] S10000x64.size inb_S10000x64_S10000x64_0_0

abbrev r8_1 : Rect S64x64 := Rect.unit (s := S64x64) ![0, 0] S64x64.size inb_S64x64_S64x64_0_0

def out8_2 (x0 : Vec F S10000x64 .f32) (x1 : Vec F S64x64 .f32) : Vec F S10000x64 .f32 :=
  View.canon [⟨r8_0, k8_pay1 (View.ld x0 r8_0) (View.ld x1 r8_1)⟩]

theorem cover8_2 (p0 : Vec F S10000x64 .f32) (y : S10000x64.Idx) :
    ∃ pc ∈ ([⟨r8_0, p0⟩] : List (View.Piece (Elt F) S10000x64 .f32)), y ∈ pc.1.set :=
  View.cover_of_tiled [⟨r8_0, p0⟩] S10000x64.size (by rfl) y

set_option maxHeartbeats 1000000 in
theorem sound_kernel8 (c : Dev nD) (E : Set ℕ) (i : grid8.Coords) (arg1 : Memref sig .tc .vmem S10000x64 .f32) (harg1 : arg1.IsWhole)
    (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out8_2 x0 x1)) -∗ K ⟨⟩))
      ⊢ wp frame (wpE (defs₀ (F := F)) Variants.none c none) E (cc8__linear_kernel i arg1 harg1 arg2 harg2 arg3 harg3) K := by
  simp only [cc8__linear_kernel_eq_skeleton]; unfold cc8__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem Phi_in8 (c : Dev nD) : (dat8 V c).Φ 0 = Pipeline.ΦA spec8 c := rfl

theorem Phi_out8 (c : Dev nD) : (dat8 V c).Φ (Fin.last _) ⊢ Pipeline.ΦA spec8 c := .rfl

theorem owed8 (c : Dev nD) : ∀ x, (dat8 V c).owed x = 0 := fun _ => rfl

theorem share8 (c : Dev nD) : ∀ w, (dat8 V c).q w = fullShare := fun _ => rfl

theorem recorded8 (c : Dev nD) : ∀ t, (dat8 V c).recorded t = Set.univ := fun _ => rfl

theorem after8_0 (c : Dev nD) (t : Fin cfg8.N) : (dat8 V c).after 0 t = iblk8 V c 0 t := by dsimp only [dat8]

theorem after8_1 (c : Dev nD) (t : Fin cfg8.N) : (dat8 V c).after 1 t = iblk8 V c 1 t := by dsimp only [dat8]

theorem after8_2 (c : Dev nD) (t : Fin cfg8.N) : (dat8 V c).after 2 t = out8_2 (iblk8 V c 0 t) (iblk8 V c 1 t) := by dsimp only [dat8]

theorem before8_0 (c : Dev nD) (t : Fin cfg8.N) (d) : (dat8 V c).before 0 t d = iblk8 V c 0 t :=
  before8_0_of V (dat8 V c) (A_eq8 V c 0) (after8_0 V c) t d

theorem before8_1 (c : Dev nD) (t : Fin cfg8.N) (d) : (dat8 V c).before 1 t d = iblk8 V c 1 t :=
  before8_1_of V (dat8 V c) (A_eq8 V c 1) (after8_1 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ _ _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation8 (c : Dev nD) : BodyObligation (dat8 (F := F) V c) (defs₀ (F := F)) Variants.none () Set.univ := fun t => by
  rw [bigSep_W8, bigSep_W8]
  exact sound_body8 V c t

open Idealize.ShloMosaic.ValueIdx

end Cert.Kernel.Hand

end
-- ==== Proof.K.Reg9.lean ====
import proofs.«424828_j6554120094214_2_alg».proof.Proof.Gen.Kernel.Launch
import proofs.«424828_j6554120094214_2_alg».proof.Proof.Gen.Kernel.Skeleton
import proofs.«424828_j6554120094214_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic
set_option maxRecDepth 65536

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

abbrev r9_0 : Rect S10000x64 := Rect.unit (s := S10000x64) ![0, 0] S10000x64.size inb_S10000x64_S10000x64_0_0

abbrev r9_1 : Rect S10000x1 := Rect.unit (s := S10000x1) ![0, 0] S10000x1.size inb_S10000x1_S10000x1_0_0

theorem zeros9 : (![0, 0] : Fin 2 → Nat) = fun _ => 0 := funext fun a => by fin_cases a <;> rfl

def out9_2 (x0 : Vec F S10000x64 .f32) (x1 : Vec F S10000x1 .f32) : Vec F S10000x64 .f32 :=
  View.canon [⟨r9_0, k9_pay1 (View.ld x0 r9_0) (View.ld x1 r9_1)⟩]

theorem cover9_2 (p0 : Vec F S10000x64 .f32) (y : S10000x64.Idx) :
    ∃ pc ∈ ([⟨r9_0, p0⟩] : List (View.Piece (Elt F) S10000x64 .f32)), y ∈ pc.1.set :=
  ⟨_, List.mem_singleton_self _, View.mem_set_unit_zero zeros9 inb_S10000x64_S10000x64_0_0 y⟩

set_option maxHeartbeats 1000000 in
theorem sound_kernel9 (c : Dev nD) (E : Set ℕ) (i : grid9.Coords) (arg1 : Memref sig .tc .vmem S10000x64 .f32) (harg1 : arg1.IsWhole) (arg2 : Memref sig .tc .vmem S10000x1 .f32) (harg2 : arg2.IsWhole) (arg3 : Memref sig .tc .vmem S10000x64 .f32) (harg3 : arg3.IsWhole)
    (x0 : Vec F S10000x64 .f32) (x1 : Vec F S10000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out9_2 x0 x1)) -∗ K ⟨⟩))
      ⊢ wp frame (wpE (defs₀ (F := F)) Variants.none c none) E (cc9__scale_kernel i arg1 harg1 arg2 harg2 arg3 harg3) K := by
  simp only [cc9__scale_kernel_eq_skeleton]; unfold cc9__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem Phi_in9 (c : Dev nD) : (dat9 V c).Φ 0 = Pipeline.ΦA spec9 c := by
  dsimp only [dat9]

theorem Phi_out9 (c : Dev nD) : (dat9 V c).Φ (Fin.last _) ⊢ Pipeline.ΦA spec9 c := by
  dsimp only [dat9]; exact BIBase.Entails.rfl

theorem owed9 (c : Dev nD) : ∀ x, (dat9 V c).owed x = 0 := fun _ => by dsimp only [dat9]

theorem share9 (c : Dev nD) : ∀ w, (dat9 V c).q w = fullShare := fun _ => by dsimp only [dat9]

theorem recorded9 (c : Dev nD) : ∀ t, (dat9 V c).recorded t = Set.univ := fun _ => rfl

theorem after9_0 (c : Dev nD) (t : Fin cfg9.N) : (dat9 V c).after 0 t = iblk9 V c 0 t := by dsimp only [dat9]

theorem after9_1 (c : Dev nD) (t : Fin cfg9.N) : (dat9 V c).after 1 t = iblk9 V c 1 t := by dsimp only [dat9]

theorem after9_2 (c : Dev nD) (t : Fin cfg9.N) : (dat9 V c).after 2 t = out9_2 (iblk9 V c 0 t) (iblk9 V c 1 t) := by dsimp only [dat9]

theorem before9_0 (c : Dev nD) (t : Fin cfg9.N) (d) : (dat9 V c).before 0 t d = iblk9 V c 0 t :=
  before9_0_of V (dat9 V c) (A_eq9 V c 0) (after9_0 V c) t d

theorem before9_1 (c : Dev nD) (t : Fin cfg9.N) (d) : (dat9 V c).before 1 t d = iblk9 V c 1 t :=
  before9_1_of V (dat9 V c) (A_eq9 V c 1) (after9_1 V c) t d

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ (grid9.coords t) _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.K.Reg10.lean ====
import proofs.«424828_j6554120094214_2_alg».proof.Proof.Gen.Kernel.Launch
import proofs.«424828_j6554120094214_2_alg».proof.Proof.Gen.Kernel.Skeleton
import proofs.«424828_j6554120094214_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.ValueIdx
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ

theorem hz10 : (![0, 0] : Fin 2 → Nat) = fun _ => 0 := funext fun a => by fin_cases a <;> rfl

theorem read_writes_whole10 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

abbrev cond10_0 (i : grid10.Coords) : Prop := (Scalar.cmpi .ne (Scalar.extui (Scalar.cmpi .eq (BitVec.ofNat 32 (i 0).val) 0#32)) 0#32) = 1#1

theorem hcond10_0 : ∀ t : Fin cfg10.N, cond10_0 (grid10.coords t) ↔ t.val = 0 :=
  (by decide +kernel : ∀ t : Fin grid10.N, cond10_0 (grid10.coords t) ↔ t.val = 0)

abbrev cond10_1 (i : grid10.Coords) : Prop := k10_cond2 i = 1#1

theorem hcond10_1 : ∀ t : Fin cfg10.N, cond10_1 (grid10.coords t) ↔ t.val = 9 :=
  (by decide +kernel : ∀ t : Fin grid10.N, cond10_1 (grid10.coords t) ↔ t.val = 9)

set_option maxHeartbeats 1000000 in
theorem sound_kernel10_A (c : Dev nD) (E : Set ℕ) (i : grid10.Coords)
    (arg1 : Memref sig .tc .vmem S10000x64 .f32) (harg1 : arg1.IsWhole) (arg2 : Memref sig .tc .vmem S1x64 .f32) (harg2 : arg2.IsWhole)
    (arg3 : Memref sig .tc .vmem S10000x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (hc0 : cond10_0 i) (hc1 : ¬cond10_1 i)
    (x0 : Vec F S10000x64 .f32) (x1 : Vec F S1x64 .f32) (xi3 : Vec F S1x64 .f32) (xi4 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ owns (c : Thread nD τ) arg5 fullShare xi4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (k10_pay3 x0 x1)
            ∗ owns (c : Thread nD τ) arg4 fullShare xi3 ∗ owns (c : Thread nD τ) arg5 fullShare xi4
            ∗ owns (c : Thread nD τ) arg6 fullShare (k10_pay4 x0 x1 (k10_pay1 (F := F))) ∗ owns (c : Thread nD τ) arg7 fullShare (k10_pay5 x0 x1 (k10_pay2 (F := F)))) -∗ K ⟨⟩))
      ⊢ wp frame (wpE (defs₀ (F := F)) Variants.none c none) E (cc10__bias_relu_stats_kernel i arg1 harg1 arg2 harg2 arg3 harg3 arg4 harg4 arg5 harg5 arg6 harg6 arg7 harg7) K := by
  simp only [cc10__bias_relu_stats_kernel_eq_skeleton]; unfold cc10__bias_relu_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%d5, %f5, -, H5⟩, ⟨%d6, %f6, -, H6⟩, Hk⟩
  subst hf0; subst hf1; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_writes_whole10 _ _ hz10 _ _ _).trans ?_
    simp only [View.readAt_eq_ld, View.ld_unit_zero (S := S10000x64) hz10, View.ld_unit_zero (S := S1x64) hz10]
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_writes_whole10 _ _ hz10 _ _ _).trans ?_
    sl_unfold_words
    simp only [View.readAt_eq_ld, View.ld_unit_zero (S := S10000x64) hz10, View.ld_unit_zero (S := S1x64) hz10, View.readCov_unit_zero (S := S1x64) _ hz10]
  iexists _; isplitr
  swap; · iexact H6
  ipureintro
  refine (read_writes_whole10 _ _ hz10 _ _ _).trans ?_
  sl_unfold_words
  simp only [View.readAt_eq_ld, View.ld_unit_zero (S := S10000x64) hz10, View.ld_unit_zero (S := S1x64) hz10, View.readCov_unit_zero (S := S1x64) _ hz10]

set_option maxHeartbeats 1000000 in
theorem sound_kernel10_B (c : Dev nD) (E : Set ℕ) (i : grid10.Coords)
    (arg1 : Memref sig .tc .vmem S10000x64 .f32) (harg1 : arg1.IsWhole) (arg2 : Memref sig .tc .vmem S1x64 .f32) (harg2 : arg2.IsWhole)
    (arg3 : Memref sig .tc .vmem S10000x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (hc0 : ¬cond10_0 i) (hc1 : ¬cond10_1 i)
    (x0 : Vec F S10000x64 .f32) (x1 : Vec F S1x64 .f32) (xi3 : Vec F S1x64 .f32) (xi4 : Vec F S1x64 .f32)
    (xs0 : Vec F S1x64 .f32) (xs1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ owns (c : Thread nD τ) arg5 fullShare xi4
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare (k10_pay3 x0 x1)
            ∗ owns (c : Thread nD τ) arg4 fullShare xi3 ∗ owns (c : Thread nD τ) arg5 fullShare xi4
            ∗ owns (c : Thread nD τ) arg6 fullShare (k10_pay4 x0 x1 xs0) ∗ owns (c : Thread nD τ) arg7 fullShare (k10_pay5 x0 x1 xs1)) -∗ K ⟨⟩))
      ⊢ wp frame (wpE (defs₀ (F := F)) Variants.none c none) E (cc10__bias_relu_stats_kernel i arg1 harg1 arg2 harg2 arg3 harg3 arg4 harg4 arg5 harg5 arg6 harg6 arg7 harg7) K := by
  simp only [cc10__bias_relu_stats_kernel_eq_skeleton]; unfold cc10__bias_relu_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%f5, %hf5, H5⟩, ⟨%f6, %hf6, H6⟩, Hk⟩
  subst hf0; subst hf1; subst hf3; subst hf4; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_writes_whole10 _ _ hz10 _ _ _).trans ?_
    simp only [View.readAt_eq_ld, View.ld_unit_zero (S := S10000x64) hz10, View.ld_unit_zero (S := S1x64) hz10, View.readCov_unit_zero (S := S1x64) _ hz10]
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_writes_whole10 _ _ hz10 _ _ _).trans ?_
    simp only [View.readAt_eq_ld, View.ld_unit_zero (S := S10000x64) hz10, View.ld_unit_zero (S := S1x64) hz10, View.readCov_unit_zero (S := S1x64) _ hz10]
  iexists _; isplitr
  swap; · iexact H6
  ipureintro
  refine (read_writes_whole10 _ _ hz10 _ _ _).trans ?_
  simp only [View.readAt_eq_ld, View.ld_unit_zero (S := S10000x64) hz10, View.ld_unit_zero (S := S1x64) hz10, View.readCov_unit_zero (S := S1x64) _ hz10]

set_option maxHeartbeats 1000000 in
theorem sound_kernel10_C (c : Dev nD) (E : Set ℕ) (i : grid10.Coords)
    (arg1 : Memref sig .tc .vmem S10000x64 .f32) (harg1 : arg1.IsWhole) (arg2 : Memref sig .tc .vmem S1x64 .f32) (harg2 : arg2.IsWhole)
    (arg3 : Memref sig .tc .vmem S10000x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (hc0 : ¬cond10_0 i) (hc1 : cond10_1 i)
    (x0 : Vec F S10000x64 .f32) (x1 : Vec F S1x64 .f32)
    (xs0 : Vec F S1x64 .f32) (xs1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare (k10_pay3 x0 x1)
            ∗ owns (c : Thread nD τ) arg4 fullShare (k10_pay4 x0 x1 xs0) ∗ owns (c : Thread nD τ) arg5 fullShare (k10_pay5 x0 x1 xs1)
            ∗ owns (c : Thread nD τ) arg6 fullShare (k10_pay4 x0 x1 xs0) ∗ owns (c : Thread nD τ) arg7 fullShare (k10_pay5 x0 x1 xs1)) -∗ K ⟨⟩))
      ⊢ wp frame (wpE (defs₀ (F := F)) Variants.none c none) E (cc10__bias_relu_stats_kernel i arg1 harg1 arg2 harg2 arg3 harg3 arg4 harg4 arg5 harg5 arg6 harg6 arg7 harg7) K := by
  simp only [cc10__bias_relu_stats_kernel_eq_skeleton]; unfold cc10__bias_relu_stats_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%f6, %hf6, H6⟩, Hk⟩
  subst hf0; subst hf1; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_writes_whole10 _ _ hz10 _ _ _).trans ?_
    simp only [View.readAt_eq_ld, View.ld_unit_zero (S := S10000x64) hz10, View.ld_unit_zero (S := S1x64) hz10, View.readCov_unit_zero (S := S1x64) _ hz10]
  isplitl [H3]
  · iexists _; isplitr
    swap; · iexact H3
    ipureintro
    refine (read_writes_whole10 _ _ hz10 _ _ _).trans ?_
    sl_unfold_words
    simp only [View.readAt_eq_ld, View.ld_unit_zero (S := S10000x64) hz10, View.ld_unit_zero (S := S1x64) hz10, View.readCov_unit_zero (S := S1x64) _ hz10]
  isplitl [H4]
  · iexists _; isplitr
    swap; · iexact H4
    ipureintro
    refine (read_writes_whole10 _ _ hz10 _ _ _).trans ?_
    sl_unfold_words
    simp only [View.readAt_eq_ld, View.ld_unit_zero (S := S10000x64) hz10, View.ld_unit_zero (S := S1x64) hz10, View.readCov_unit_zero (S := S1x64) _ hz10]
  isplitl [H5]
  · iexists _; isplitr
    swap; · iexact H5
    ipureintro
    refine (read_writes_whole10 _ _ hz10 _ _ _).trans ?_
    simp only [View.readAt_eq_ld, View.ld_unit_zero (S := S10000x64) hz10, View.ld_unit_zero (S := S1x64) hz10, View.readCov_unit_zero (S := S1x64) _ hz10]
  iexists _; isplitr
  swap; · iexact H6
  ipureintro
  refine (read_writes_whole10 _ _ hz10 _ _ _).trans ?_
  simp only [View.readAt_eq_ld, View.ld_unit_zero (S := S10000x64) hz10, View.ld_unit_zero (S := S1x64) hz10, View.readCov_unit_zero (S := S1x64) _ hz10]

theorem liveAt10_0 : ∀ t : Fin cfg10.N, cfg10.idle 0 (grid10.coords t) = false := fun _ => rfl

theorem liveAt10_1 : ∀ t : Fin cfg10.N, cfg10.idle 1 (grid10.coords t) = false := fun _ => rfl

theorem liveAt10_2 : ∀ t : Fin cfg10.N, cfg10.idle 2 (grid10.coords t) = false := fun _ => rfl

theorem idleAt10_3 : ∀ t : Fin cfg10.N, ¬cond10_1 (grid10.coords t) → cfg10.idle 3 (grid10.coords t) = true := by decide +kernel

theorem noFlush10_3 : ∀ t : Fin cfg10.N, ¬cond10_1 (grid10.coords t) → (cfg10.win 3).flush t = false := by decide +kernel

theorem liveAt10_3 : ∀ t : Fin cfg10.N, cond10_1 (grid10.coords t) → cfg10.idle 3 (grid10.coords t) = false := by decide +kernel

theorem idleAt10_4 : ∀ t : Fin cfg10.N, ¬cond10_1 (grid10.coords t) → cfg10.idle 4 (grid10.coords t) = true := by decide +kernel

theorem noFlush10_4 : ∀ t : Fin cfg10.N, ¬cond10_1 (grid10.coords t) → (cfg10.win 4).flush t = false := by decide +kernel

theorem liveAt10_4 : ∀ t : Fin cfg10.N, cond10_1 (grid10.coords t) → cfg10.idle 4 (grid10.coords t) = false := by decide +kernel

section Region2

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

abbrev xb10 (c : Dev nD) (t : Fin cfg10.N) : Vec F S10000x64 .f32 := iblk10 V c 0 t

abbrev bb10 (c : Dev nD) (t : Fin cfg10.N) : Vec F S1x64 .f32 := iblk10 V c 1 t

theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

def acc10_0 (c : Dev nD) : (n : ℕ) → n < cfg10.N → Vec F S1x64 .f32
  | 0, h => k10_pay4 (xb10 V c ⟨0, h⟩) (bb10 V c ⟨0, h⟩) (k10_pay1 (F := F))
  | n + 1, h => k10_pay4 (xb10 V c ⟨n + 1, h⟩) (bb10 V c ⟨n + 1, h⟩) (acc10_0 c n (Nat.lt_of_succ_lt h))

def acc10_1 (c : Dev nD) : (n : ℕ) → n < cfg10.N → Vec F S1x64 .f32
  | 0, h => k10_pay5 (xb10 V c ⟨0, h⟩) (bb10 V c ⟨0, h⟩) (k10_pay2 (F := F))
  | n + 1, h => k10_pay5 (xb10 V c ⟨n + 1, h⟩) (bb10 V c ⟨n + 1, h⟩) (acc10_1 c n (Nat.lt_of_succ_lt h))

theorem acc10_0_zero (c : Dev nD) (t : Fin cfg10.N) (h : t.val = 0) :
    acc10_0 V c t.val t.isLt = k10_pay4 (xb10 V c t) (bb10 V c t) (k10_pay1 (F := F)) := by
  obtain ⟨n, hn⟩ := t
  cases n with
  | zero => rfl
  | succ n => exact absurd h (Nat.succ_ne_zero n)

theorem acc10_0_pos (c : Dev nD) (t : Fin cfg10.N) (h : t.val ≠ 0) :
    acc10_0 V c t.val t.isLt = k10_pay4 (xb10 V c t) (bb10 V c t) (acc10_0 V c (t.val - 1) (Nat.lt_of_le_of_lt (Nat.sub_le _ _) t.isLt)) := by
  obtain ⟨n, hn⟩ := t
  cases n with
  | zero => exact absurd rfl h
  | succ n => rfl

theorem acc10_1_zero (c : Dev nD) (t : Fin cfg10.N) (h : t.val = 0) :
    acc10_1 V c t.val t.isLt = k10_pay5 (xb10 V c t) (bb10 V c t) (k10_pay2 (F := F)) := by
  obtain ⟨n, hn⟩ := t
  cases n with
  | zero => rfl
  | succ n => exact absurd h (Nat.succ_ne_zero n)

theorem acc10_1_pos (c : Dev nD) (t : Fin cfg10.N) (h : t.val ≠ 0) :
    acc10_1 V c t.val t.isLt = k10_pay5 (xb10 V c t) (bb10 V c t) (acc10_1 V c (t.val - 1) (Nat.lt_of_le_of_lt (Nat.sub_le _ _) t.isLt)) := by
  obtain ⟨n, hn⟩ := t
  cases n with
  | zero => exact absurd rfl h
  | succ n => rfl

abbrev scM10_0 : Memref sig .tc .vmem S1x64 .f32 := Memref.whole cc10_scratch0

abbrev scM10_1 : Memref sig .tc .vmem S1x64 .f32 := Memref.whole cc10_scratch1

abbrev rest10 (c : Dev nD) : sProp 𝕄 :=
  Pipeline.scopedRestBut (Ix := Unit) (Name := ℕ) (U := UR sig nD τ) (Lvl := ℕ) (Val := Elt F) spec10 c [cc10_scratch0, cc10_scratch1]

theorem PhiA10_eq (c : Dev nD) :
    (Pipeline.ΦA spec10 c : sProp 𝕄)
      = iprop(iprop(iprop((∃ d, owns (c : Thread nD τ) scM10_0 fullShare d) ∗ (∃ d, owns (c : Thread nD τ) scM10_1 fullShare d)) ∗ rest10 c) ∗ (∃ r, prngReg c r)) := by
  unfold Pipeline.ΦA; rw [scopedRest10_split]; simp only [scM10_0, scM10_1, owns_whole]; try rfl

def Phi10 (c : Dev nD) : (n : ℕ) → n ≤ cfg10.N → sProp 𝕄
  | 0, _ => Pipeline.ΦA spec10 c
  | n + 1, hn => iprop(iprop(iprop(owns (c : Thread nD τ) scM10_0 fullShare (acc10_0 V c n hn) ∗ owns (c : Thread nD τ) scM10_1 fullShare (acc10_1 V c n hn)) ∗ rest10 c) ∗ (∃ r, prngReg c r))

theorem Phi10_zero (c : Dev nD) (n : ℕ) (h : n ≤ cfg10.N) (hz : n = 0) : Phi10 V c n h = Pipeline.ΦA spec10 c := by
  subst hz; rfl

theorem Phi10_succ (c : Dev nD) (n : ℕ) (hn : n < cfg10.N) :
    Phi10 V c (n + 1) hn = iprop(iprop(iprop(owns (c : Thread nD τ) scM10_0 fullShare (acc10_0 V c n hn) ∗ owns (c : Thread nD τ) scM10_1 fullShare (acc10_1 V c n hn)) ∗ rest10 c) ∗ (∃ r, prngReg c r)) := rfl

theorem Phi10_pos (c : Dev nD) (n : ℕ) (h : n ≤ cfg10.N) (hz : n ≠ 0) :
    Phi10 V c n h = iprop(iprop(iprop(owns (c : Thread nD τ) scM10_0 fullShare (acc10_0 V c (n - 1) (by omega)) ∗ owns (c : Thread nD τ) scM10_1 fullShare (acc10_1 V c (n - 1) (by omega))) ∗ rest10 c) ∗ (∃ r, prngReg c r)) := by
  cases n with
  | zero => exact absurd rfl hz
  | succ n => rfl

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => k10_pay3 (xb10 V c t) (bb10 V c t)
    | ⟨3, _⟩ => acc10_0 V c t.val t.isLt
    | ⟨4, _⟩ => acc10_1 V c t.val t.isLt
  Φ t := Phi10 V c t.val (Nat.le_of_lt_succ t.isLt)
  q _ := fullShare
  owed _ := 0

theorem A_eq10 (c : Dev nD) (w : Fin cfg10.W) : (dat10 V c).A w = V c (Pipeline.arrRef spec10 w) := by
  dsimp only [dat10]

theorem Phi_in10 (c : Dev nD) : (dat10 V c).Φ 0 = Pipeline.ΦA spec10 c := rfl

theorem owed10 (c : Dev nD) : ∀ x, (dat10 V c).owed x = 0 := fun _ => rfl

theorem share10 (c : Dev nD) : ∀ w, (dat10 V c).q w = fullShare := fun _ => rfl

theorem recorded10 (c : Dev nD) : ∀ t, (dat10 V c).recorded t = Set.univ := fun _ => rfl

theorem Phi10_castSucc (c : Dev nD) (t : Fin cfg10.N) :
    (dat10 V c).Φ t.castSucc = Phi10 V c t.val (Nat.le_of_lt t.isLt) := by
  dsimp only [dat10]; simp only [Fin.coe_castSucc]

theorem after10_0 (c : Dev nD) (t : Fin cfg10.N) : (dat10 V c).after 0 t = iblk10 V c 0 t := by dsimp only [dat10]

theorem after10_1 (c : Dev nD) (t : Fin cfg10.N) : (dat10 V c).after 1 t = iblk10 V c 1 t := by dsimp only [dat10]

theorem after10_2 (c : Dev nD) (t : Fin cfg10.N) : (dat10 V c).after 2 t = k10_pay3 (xb10 V c t) (bb10 V c t) := by dsimp only [dat10]

theorem after10_3 (c : Dev nD) (t : Fin cfg10.N) : (dat10 V c).after 3 t = acc10_0 V c t.val t.isLt := by dsimp only [dat10]

theorem after10_4 (c : Dev nD) (t : Fin cfg10.N) : (dat10 V c).after 4 t = acc10_1 V c t.val t.isLt := by dsimp only [dat10]

theorem before10_0 (c : Dev nD) (t : Fin cfg10.N) (d) : (dat10 V c).before 0 t d = iblk10 V c 0 t :=
  before10_0_of V (dat10 V c) (A_eq10 V c 0) (after10_0 V c) t d

theorem before10_1 (c : Dev nD) (t : Fin cfg10.N) (d) : (dat10 V c).before 1 t d = iblk10 V c 1 t :=
  before10_1_of V (dat10 V c) (A_eq10 V c 1) (after10_1 V c) t d

theorem Phi_out10 (c : Dev nD) : (dat10 V c).Φ (Fin.last _) ⊢ Pipeline.ΦA spec10 c := by
  rw [show (dat10 V c).Φ (Fin.last _) = Phi10 V c (Fin.last cfg10.N).val (Nat.le_of_lt_succ (Fin.last cfg10.N).isLt) from rfl,
    Phi10_pos V c _ _ (by rw [Fin.val_last]; have : cfg10.N = 10 := N_10; omega), PhiA10_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d)))

def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t
    ∗ (dat10 V c).leavesExact 4 t)

set_option maxHeartbeats 4800000 in
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl]
  rw [show (dat10 V c).Φ t.succ = Phi10 V c (t.val + 1) t.isLt from rfl, Phi10_succ]
  have hN : t.val < 10 := lt_of_lt_of_eq t.isLt (show cfg10.N = 10 from N_10)
  rw [show (dat10 V c).leavesExact 0 t = owns (c : Thread nD τ) (st10_0 t) fullShare ((dat10 V c).after 0 t) from by
    unfold Dat.leavesExact; rw [liveAt10_0 t], after10_0]
  rw [show (dat10 V c).leavesExact 1 t = owns (c : Thread nD τ) (st10_1 t) fullShare ((dat10 V c).after 1 t) from by
    unfold Dat.leavesExact; rw [liveAt10_1 t], after10_1]
  rw [show (dat10 V c).leavesExact 2 t = owns (c : Thread nD τ) (st10_2 t) fullShare ((dat10 V c).after 2 t) from by
    unfold Dat.leavesExact; rw [liveAt10_2 t], after10_2]
  by_cases h0 : t.val = 0
  · have hc0 : cond10_0 (grid10.coords t) := (hcond10_0 t).mpr h0
    have hc1 : ¬cond10_1 (grid10.coords t) := fun h => by have := (hcond10_1 t).mp h; omega
    rw [Dat.leavesExact_idle (dat10 V c) 3 t (idleAt10_3 t hc1) (noFlush10_3 t hc1)]
    rw [Dat.leavesExact_idle (dat10 V c) 4 t (idleAt10_4 t hc1) (noFlush10_4 t hc1)]
    rw [acc10_0_zero V c t h0, acc10_1_zero V c t h0]
    rw [Phi10_castSucc V c t, Phi10_zero V c _ _ h0, PhiA10_eq]
    iintro ⟨⟨⟨⟨HS0, HS1⟩, HR⟩, Hg⟩, Ho, ⟨%d0, H0⟩, ⟨%d1, H1⟩, ⟨%d2, H2⟩, ⟨%d3, H3⟩, ⟨%d4, H4⟩⟩
    iapply (sound_kernel10_A c Set.univ (grid10.coords t) _ _ _ _ _ _ _ _ _ _ _ _ _ _ hc0 hc1 (xb10 V c t) (bb10 V c t) ((dat10 V c).before 3 t d3) ((dat10 V c).before 4 t d4) _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexists _; iexact H3
    iexists _; iexact H4
  · have hc0 : ¬cond10_0 (grid10.coords t) := fun h => h0 ((hcond10_0 t).mp h)
    rw [acc10_0_pos V c t h0, acc10_1_pos V c t h0]
    rw [Phi10_castSucc V c t, Phi10_pos V c _ _ h0]
    by_cases h1 : t.val = 9
    · have hc1 : cond10_1 (grid10.coords t) := (hcond10_1 t).mpr h1
      rw [show (dat10 V c).leavesExact 3 t = owns (c : Thread nD τ) (st10_3 t) fullShare ((dat10 V c).after 3 t) from by
        unfold Dat.leavesExact; rw [liveAt10_3 t hc1], after10_3, acc10_0_pos V c t h0]
      rw [show (dat10 V c).leavesExact 4 t = owns (c : Thread nD τ) (st10_4 t) fullShare ((dat10 V c).after 4 t) from by
        unfold Dat.leavesExact; rw [liveAt10_4 t hc1], after10_4, acc10_1_pos V c t h0]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (sound_kernel10_C c Set.univ (grid10.coords t) _ _ _ _ _ _ _ _ _ _ _ _ _ _ hc0 hc1 (xb10 V c t) (bb10 V c t) (acc10_0 V c (t.val - 1) (Nat.lt_of_le_of_lt (Nat.sub_le _ _) t.isLt)) (acc10_1 V c (t.val - 1) (Nat.lt_of_le_of_lt (Nat.sub_le _ _) t.isLt)) _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      iexact H4
    · have hc1 : ¬cond10_1 (grid10.coords t) := fun h => h1 ((hcond10_1 t).mp h)
      rw [Dat.leavesExact_idle (dat10 V c) 3 t (idleAt10_3 t hc1) (noFlush10_3 t hc1)]
      rw [Dat.leavesExact_idle (dat10 V c) 4 t (idleAt10_4 t hc1) (noFlush10_4 t hc1)]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (sound_kernel10_B c Set.univ (grid10.coords t) _ _ _ _ _ _ _ _ _ _ _ _ _ _ hc0 hc1 (xb10 V c t) (bb10 V c t) ((dat10 V c).before 3 t d3) ((dat10 V c).before 4 t d4) (acc10_0 V c (t.val - 1) (Nat.lt_of_le_of_lt (Nat.sub_le _ _) t.isLt)) (acc10_1 V c (t.val - 1) (Nat.lt_of_le_of_lt (Nat.sub_le _ _) t.isLt)) _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexists _; iexact H3
      iexists _; iexact H4

theorem body_obligation10 (c : Dev nD) : BodyObligation (dat10 (F := F) V c) (defs₀ (F := F)) Variants.none () Set.univ := fun t => by
  rw [bigSep_W10, bigSep_W10]
  exact sound_body10 V c t

end Region2

end Cert.Kernel.Hand

end
-- ==== Proof.K.Reg11.lean ====
import proofs.«424828_j6554120094214_2_alg».proof.Proof.Gen.Kernel.Launch
import proofs.«424828_j6554120094214_2_alg».proof.Proof.Gen.Kernel.Skeleton
import proofs.«424828_j6554120094214_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.ValueIdx
import Idealize.ShloMosaic.Lib.ValueLayout
import Idealize.ShloMosaic.PureOps.Ideal.Laws
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

theorem hz11 : (![0, 0] : Fin 2 → Nat) = fun _ => 0 := funext fun a => by fin_cases a <;> rfl

abbrev r11_0 : Rect S10000x64 := Rect.unit (s := S10000x64) ![0, 0] S10000x64.size inb_S10000x64_S10000x64_0_0

def out11_5 (x0 : Vec F S10000x64 .f32) (x1 : Vec F S1x64 .f32) (x2 : Vec F S1x64 .f32) (x3 : Vec F S1x64 .f32) (x4 : Vec F S1x64 .f32) : Vec F S10000x64 .f32 :=
  View.canon [⟨r11_0, k11_pay1 (View.ld x2 (Rect.unit (s := S1x64) ![0, 0] S1x64.size inb_S1x64_S1x64_0_0)) (View.ld x3 (Rect.unit (s := S1x64) ![0, 0] S1x64.size inb_S1x64_S1x64_0_0)) (View.ld x0 r11_0) (View.ld x1 (Rect.unit (s := S1x64) ![0, 0] S1x64.size inb_S1x64_S1x64_0_0)) (View.ld x4 (Rect.unit (s := S1x64) ![0, 0] S1x64.size inb_S1x64_S1x64_0_0))⟩]

theorem cover11_5 (p0 : Vec F S10000x64 .f32) (y : S10000x64.Idx) :
    ∃ pc ∈ ([⟨r11_0, p0⟩] : List (View.Piece (Elt F) S10000x64 .f32)), y ∈ pc.1.set :=
  ⟨_, List.mem_singleton_self _, View.mem_set_unit_zero hz11 inb_S10000x64_S10000x64_0_0 y⟩

set_option maxHeartbeats 1000000 in
theorem sound_kernel11 (c : Dev nD) (E : Set ℕ) (i : grid11.Coords)
    (arg1 : Memref sig .tc .vmem S10000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S10000x64 .f32) (harg6 : arg6.IsWhole)
    (x0 : Vec F S10000x64 .f32) (x1 : Vec F S1x64 .f32) (x2 : Vec F S1x64 .f32) (x3 : Vec F S1x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out11_5 x0 x1 x2 x3 x4)) -∗ K ⟨⟩))
      ⊢ wp frame (wpE (defs₀ (F := F)) Variants.none c none) E (cc11__bn_apply_kernel i arg1 harg1 arg2 harg2 arg3 harg3 arg4 harg4 arg5 harg5 arg6 harg6) K := by
  simp only [cc11__bn_apply_kernel_eq_skeleton]; unfold cc11__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover11_5 _)

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11_5 (iblk11 V c 0 t) (iblk11 V c 1 t) (iblk11 V c 2 t) (iblk11 V c 3 t) (iblk11 V c 4 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem Phi_in11 (c : Dev nD) : (dat11 V c).Φ 0 = Pipeline.ΦA spec11 c := by
  dsimp only [dat11]

theorem Phi_out11 (c : Dev nD) : (dat11 V c).Φ (Fin.last _) ⊢ Pipeline.ΦA spec11 c := by
  dsimp only [dat11]; exact BIBase.Entails.rfl

theorem owed11 (c : Dev nD) : ∀ x, (dat11 V c).owed x = 0 := fun _ => by
  dsimp only [dat11]

theorem share11 (c : Dev nD) : ∀ w, (dat11 V c).q w = fullShare := fun _ => by
  dsimp only [dat11]

theorem recorded11 (c : Dev nD) : ∀ t, (dat11 V c).recorded t = Set.univ := fun _ => rfl

theorem after11_0 (c : Dev nD) (t : Fin cfg11.N) : (dat11 V c).after 0 t = iblk11 V c 0 t := by dsimp only [dat11]

theorem after11_1 (c : Dev nD) (t : Fin cfg11.N) : (dat11 V c).after 1 t = iblk11 V c 1 t := by dsimp only [dat11]

theorem after11_2 (c : Dev nD) (t : Fin cfg11.N) : (dat11 V c).after 2 t = iblk11 V c 2 t := by dsimp only [dat11]

theorem after11_3 (c : Dev nD) (t : Fin cfg11.N) : (dat11 V c).after 3 t = iblk11 V c 3 t := by dsimp only [dat11]

theorem after11_4 (c : Dev nD) (t : Fin cfg11.N) : (dat11 V c).after 4 t = iblk11 V c 4 t := by dsimp only [dat11]

theorem after11_5 (c : Dev nD) (t : Fin cfg11.N) :
    (dat11 V c).after 5 t = out11_5 (iblk11 V c 0 t) (iblk11 V c 1 t) (iblk11 V c 2 t) (iblk11 V c 3 t) (iblk11 V c 4 t) := by dsimp only [dat11]

theorem before11_0 (c : Dev nD) (t : Fin cfg11.N) (d) : (dat11 V c).before 0 t d = iblk11 V c 0 t :=
  before11_0_of V (dat11 V c) (A_eq11 V c 0) (after11_0 V c) t d

theorem before11_1 (c : Dev nD) (t : Fin cfg11.N) (d) : (dat11 V c).before 1 t d = iblk11 V c 1 t :=
  before11_1_of V (dat11 V c) (A_eq11 V c 1) (after11_1 V c) t d

theorem before11_2 (c : Dev nD) (t : Fin cfg11.N) (d) : (dat11 V c).before 2 t d = iblk11 V c 2 t :=
  before11_2_of V (dat11 V c) (A_eq11 V c 2) (after11_2 V c) t d

theorem before11_3 (c : Dev nD) (t : Fin cfg11.N) (d) : (dat11 V c).before 3 t d = iblk11 V c 3 t :=
  before11_3_of V (dat11 V c) (A_eq11 V c 3) (after11_3 V c) t d

theorem before11_4 (c : Dev nD) (t : Fin cfg11.N) (d) : (dat11 V c).before 4 t d = iblk11 V c 4 t :=
  before11_4_of V (dat11 V c) (A_eq11 V c 4) (after11_4 V c) t d

def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ _ _ _ _ _ _ _ _ _ _ _ _ _ (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation11 (c : Dev nD) : BodyObligation (dat11 (F := F) V c) (defs₀ (F := F)) Variants.none () Set.univ := fun t => by
  rw [bigSep_W11, bigSep_W11]
  exact sound_body11 V c t

open Idealize.ShloMosaic.ValueIdx

end Cert.Kernel.Hand

end
-- ==== Proof.K.Reg12.lean ====
import proofs.«424828_j6554120094214_2_alg».proof.Proof.Gen.Kernel.Launch
import proofs.«424828_j6554120094214_2_alg».proof.Proof.Gen.Kernel.Skeleton
import proofs.«424828_j6554120094214_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ

abbrev cond12_1 (i : grid12.Coords) : Prop :=
  (Scalar.cmpi .ne (Scalar.extui (Scalar.cmpi .eq (BitVec.ofNat 32 (i 0).val) 0#32)) 0#32) = 1#1

abbrev cond12_2 (i : grid12.Coords) : Prop := k12_cond2 i = 1#1

theorem hcond12_1 : ∀ t : Fin cfg12.N, cond12_1 (grid12.coords t) ↔ t.val = 0 :=
  (by decide +kernel : ∀ t : Fin grid12.N, cond12_1 (grid12.coords t) ↔ t.val = 0)

theorem hcond12_2 : ∀ t : Fin cfg12.N, cond12_2 (grid12.coords t) ↔ t.val = 49 :=
  (by decide +kernel : ∀ t : Fin grid12.N, cond12_2 (grid12.coords t) ↔ t.val = 49)

theorem liveAt12_0 : ∀ t : Fin cfg12.N, cfg12.idle 0 (grid12.coords t) = false := fun _ => rfl

theorem liveAt12_1 : ∀ t : Fin cfg12.N, cfg12.idle 1 (grid12.coords t) = false := fun _ => rfl

theorem idleAt12_2 : ∀ t : Fin cfg12.N, ¬cond12_2 (grid12.coords t) → cfg12.idle 2 (grid12.coords t) = true := by decide +kernel

theorem noFlush12_2 : ∀ t : Fin cfg12.N, ¬cond12_2 (grid12.coords t) → (cfg12.win 2).flush t = false := by decide +kernel

theorem liveAt12_2 : ∀ t : Fin cfg12.N, cond12_2 (grid12.coords t) → cfg12.idle 2 (grid12.coords t) = false := by decide +kernel

theorem hz12 : (![0, 0] : Fin 2 → Nat) = fun _ => 0 := funext fun a => by fin_cases a <;> rfl

theorem read_store12 {κ : Kind} {sp : Space} (v : View sig κ sp S512x64 .f32) (f : v.ty.Contents (Elt F))
    (w : S512x64.Idx → Elt F .f32) (L : List (View.Piece (Elt F) S512x64 .f32)) :
    v.read (Elt F) (v.writes (Elt F) f ((⟨Rect.unit ![0, 0] S512x64.size inb_S512x64_S512x64_0_0, w⟩ : View.Piece (Elt F) S512x64 .f32) :: L)) = w := by
  have hc : ∀ y : S512x64.Idx, ∃ p ∈ ((⟨Rect.unit ![0, 0] S512x64.size inb_S512x64_S512x64_0_0, w⟩ : View.Piece (Elt F) S512x64 .f32) :: L), y ∈ p.1.set :=
    fun y => ⟨_, List.mem_cons_self, View.mem_set_unit_zero (S := S512x64) hz12 inb_S512x64_S512x64_0_0 y⟩
  exact (View.read_writes_eq_canon v f _ hc).trans
    (View.canon_cons_unit_zero (S := S512x64) hz12 inb_S512x64_S512x64_0_0 w L)

set_option maxHeartbeats 400000 in
theorem sound_kernel12_first (c : Dev nD) (E : Set ℕ) (i : grid12.Coords)
    (arg1 : Memref sig .tc .vmem S2000x64 .f32) (harg1 : arg1.IsWhole)
    (arg2 : Memref sig .tc .vmem S2000x1 .i32) (harg2 : arg2.IsWhole)
    (arg3 : Memref sig .tc .vmem S512x64 .f32) (harg3 : arg3.IsWhole)
    (arg4 : Memref sig .tc .vmem S512x64 .f32) (harg4 : arg4.IsWhole)
    (hc1 : cond12_1 i) (hc2 : ¬cond12_2 i)
    (x0 : Vec F S2000x64 .f32) (x1 : Vec F S2000x1 .i32) (xi : Vec F S512x64 .f32)
    (K : PUnit → sProp 𝕄) :
    iprop(owns (c : Thread nD τ) arg1 fullShare x0 ∗ owns (c : Thread nD τ) arg2 fullShare x1
        ∗ owns (c : Thread nD τ) arg3 fullShare xi ∗ (∃ d, owns (c : Thread nD τ) arg4 fullShare d)
        ∗ (iprop(owns (c : Thread nD τ) arg1 fullShare x0 ∗ owns (c : Thread nD τ) arg2 fullShare x1
            ∗ owns (c : Thread nD τ) arg3 fullShare xi ∗ owns (c : Thread nD τ) arg4 fullShare (k12_pay2 x1 x0 (k12_pay1 (F := F)))) -∗ K ⟨⟩))
      ⊢ wp frame (wpE (defs₀ (F := F)) Variants.none c none) E (cc12__pool_kernel i arg1 harg1 arg2 harg2 arg3 harg3 arg4 harg4) K := by
  simp only [cc12__pool_kernel_eq_skeleton]; unfold cc12__pool_kernel_skel
  unfold owns
  iintro ⟨⟨%f0, %hf0, H0⟩, ⟨%f1, %hf1, H1⟩, ⟨%f3, %hf3, H3⟩, ⟨%ds, %fs, -, HS⟩, Hk⟩
  subst hf0; subst hf1; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H3]
  · iexists f3; isplitr; · ipureintro; rfl
    iexact H3
  iexists _; isplitr
  swap; · iexact HS
  ipureintro
  refine (read_store12 (F := F) _ _ _ _).trans ?_
  sl_unfold_words
  simp only [View.readAt_eq_ld, View.ld_unit_zero (S := S2000x1) hz12, View.ld_unit_zero (S := S2000x64) hz12, View.ld_unit_zero (S := S512x64) hz12, View.readCov_unit_zero (Val := Elt F) (S := S512x64) _ hz12]

set_option maxHeartbeats 400000 in
theorem sound_kernel12_mid (c : Dev nD) (E : Set ℕ) (i : grid12.Coords)
    (arg1 : Memref sig .tc .vmem S2000x64 .f32) (harg1 : arg1.IsWhole)
    (arg2 : Memref sig .tc .vmem S2000x1 .i32) (harg2 : arg2.IsWhole)
    (arg3 : Memref sig .tc .vmem S512x64 .f32) (harg3 : arg3.IsWhole)
    (arg4 : Memref sig .tc .vmem S512x64 .f32) (harg4 : arg4.IsWhole)
    (hc1 : ¬cond12_1 i) (hc2 : ¬cond12_2 i)
    (x0 : Vec F S2000x64 .f32) (x1 : Vec F S2000x1 .i32) (xi : Vec F S512x64 .f32) (xs : Vec F S512x64 .f32)
    (K : PUnit → sProp 𝕄) :
    iprop(owns (c : Thread nD τ) arg1 fullShare x0 ∗ owns (c : Thread nD τ) arg2 fullShare x1
        ∗ owns (c : Thread nD τ) arg3 fullShare xi ∗ owns (c : Thread nD τ) arg4 fullShare xs
        ∗ (iprop(owns (c : Thread nD τ) arg1 fullShare x0 ∗ owns (c : Thread nD τ) arg2 fullShare x1
            ∗ owns (c : Thread nD τ) arg3 fullShare xi ∗ owns (c : Thread nD τ) arg4 fullShare (k12_pay2 x1 x0 xs)) -∗ K ⟨⟩))
      ⊢ wp frame (wpE (defs₀ (F := F)) Variants.none c none) E (cc12__pool_kernel i arg1 harg1 arg2 harg2 arg3 harg3 arg4 harg4) K := by
  simp only [cc12__pool_kernel_eq_skeleton]; unfold cc12__pool_kernel_skel
  unfold owns
  iintro ⟨⟨%f0, %hf0, H0⟩, ⟨%f1, %hf1, H1⟩, ⟨%f3, %hf3, H3⟩, ⟨%fs, %hfs, HS⟩, Hk⟩
  subst hf0; subst hf1; subst hf3; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H3]
  · iexists f3; isplitr; · ipureintro; rfl
    iexact H3
  iexists _; isplitr
  swap; · iexact HS
  ipureintro
  refine (read_store12 (F := F) _ _ _ _).trans ?_
  simp only [View.readAt_eq_ld, View.ld_unit_zero (S := S2000x1) hz12, View.ld_unit_zero (S := S2000x64) hz12, View.ld_unit_zero (S := S512x64) hz12]

set_option maxHeartbeats 400000 in
theorem sound_kernel12_last (c : Dev nD) (E : Set ℕ) (i : grid12.Coords)
    (arg1 : Memref sig .tc .vmem S2000x64 .f32) (harg1 : arg1.IsWhole)
    (arg2 : Memref sig .tc .vmem S2000x1 .i32) (harg2 : arg2.IsWhole)
    (arg3 : Memref sig .tc .vmem S512x64 .f32) (harg3 : arg3.IsWhole)
    (arg4 : Memref sig .tc .vmem S512x64 .f32) (harg4 : arg4.IsWhole)
    (hc1 : ¬cond12_1 i) (hc2 : cond12_2 i)
    (x0 : Vec F S2000x64 .f32) (x1 : Vec F S2000x1 .i32) (xs : Vec F S512x64 .f32)
    (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xs
        ∗ (iprop(owns (c : Thread nD τ) arg1 fullShare x0 ∗ owns (c : Thread nD τ) arg2 fullShare x1
            ∗ owns (c : Thread nD τ) arg3 fullShare (k12_pay2 x1 x0 xs) ∗ owns (c : Thread nD τ) arg4 fullShare (k12_pay2 x1 x0 xs)) -∗ K ⟨⟩))
      ⊢ wp frame (wpE (defs₀ (F := F)) Variants.none c none) E (cc12__pool_kernel i arg1 harg1 arg2 harg2 arg3 harg3 arg4 harg4) K := by
  simp only [cc12__pool_kernel_eq_skeleton]; unfold cc12__pool_kernel_skel
  unfold owns
  iintro ⟨⟨%f0, %hf0, H0⟩, ⟨%f1, %hf1, H1⟩, ⟨%d3, %f3, -, H3⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    refine (read_store12 (F := F) _ _ _ _).trans ?_
    sl_unfold_words
    simp only [View.readAt_eq_ld, View.ld_unit_zero (S := S2000x1) hz12, View.ld_unit_zero (S := S2000x64) hz12, View.ld_unit_zero (S := S512x64) hz12, View.readCov_unit_zero (Val := Elt F) (S := S512x64) _ hz12]
  iexists _; isplitr
  swap; · iexact HS
  ipureintro
  sl_unfold_words
  refine (read_store12 (F := F) _ _ _ _).trans ?_
  simp only [View.readAt_eq_ld, View.ld_unit_zero (S := S2000x1) hz12, View.ld_unit_zero (S := S2000x64) hz12, View.ld_unit_zero (S := S512x64) hz12]

section Regions

variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

theorem before12_0_of {c : Dev nD} (dat : Dat τ (Elt F) Unit ℕ (UR sig nD τ) ℕ cfg12 c) (hA : dat.A 0 = V c (Pipeline.arrRef spec12 0))
    (t : Fin cfg12.N) (d) : dat.before 0 t d = iblk12 V c 0 t :=
  (dat.before_fetched 0 t (fetch12_0 t) d).trans (by unfold Dat.fetched Dat.blockOf iblk12; rw [hA]; try rfl)

theorem before12_1_of {c : Dev nD} (dat : Dat τ (Elt F) Unit ℕ (UR sig nD τ) ℕ cfg12 c) (hA : dat.A 1 = V c (Pipeline.arrRef spec12 1))
    (t : Fin cfg12.N) (d) : dat.before 1 t d = iblk12 V c 1 t :=
  (dat.before_fetched 1 t (fetch12_1 t) d).trans (by unfold Dat.fetched Dat.blockOf iblk12; rw [hA]; try rfl)

def acc12 (c : Dev nD) : (n : ℕ) → n < cfg12.N → Vec F S512x64 .f32
  | 0, hn => k12_pay2 (iblk12 V c 1 ⟨0, hn⟩) (iblk12 V c 0 ⟨0, hn⟩) (k12_pay1 (F := F))
  | n + 1, hn => k12_pay2 (iblk12 V c 1 ⟨n + 1, hn⟩) (iblk12 V c 0 ⟨n + 1, hn⟩) (acc12 c n (Nat.lt_of_succ_lt hn))

theorem acc12_zero (c : Dev nD) (t : Fin cfg12.N) (h : t.val = 0) :
    acc12 V c t.val t.isLt = k12_pay2 (iblk12 V c 1 t) (iblk12 V c 0 t) (k12_pay1 (F := F)) := by
  obtain ⟨n, hn⟩ := t
  cases n with
  | zero => rfl
  | succ n => exact absurd h (Nat.succ_ne_zero n)

theorem acc12_pos (c : Dev nD) (t : Fin cfg12.N) (h : t.val ≠ 0) :
    acc12 V c t.val t.isLt = k12_pay2 (iblk12 V c 1 t) (iblk12 V c 0 t)
      (acc12 V c (t.val - 1) (Nat.lt_of_le_of_lt (Nat.sub_le _ _) t.isLt)) := by
  obtain ⟨n, hn⟩ := t
  cases n with
  | zero => exact absurd rfl h
  | succ n => rfl

abbrev scM12 : Memref sig .tc .vmem S512x64 .f32 := Memref.whole cc12_scratch0

theorem PhiA12_eq (c : Dev nD) :
    (Pipeline.ΦA spec12 c : sProp 𝕄)
      = iprop(iprop((∃ d, owns (c : Thread nD τ) scM12 fullShare d)
            ∗ Pipeline.scopedRestBut (Ix := Unit) (Name := ℕ) (U := UR sig nD τ) (Lvl := ℕ) (Val := Elt F) spec12 c [cc12_scratch0])
          ∗ (∃ r, prngReg c r)) := by
  unfold Pipeline.ΦA; rw [scopedRest12_split]; simp only [scM12, owns_whole]
  rfl

def Phi12 (c : Dev nD) : (n : ℕ) → n ≤ cfg12.N → sProp 𝕄
  | 0, _ => Pipeline.ΦA spec12 c
  | n + 1, hn => iprop(iprop(owns (c : Thread nD τ) scM12 fullShare (acc12 V c n hn)
        ∗ Pipeline.scopedRestBut (Ix := Unit) (Name := ℕ) (U := UR sig nD τ) (Lvl := ℕ) (Val := Elt F) spec12 c [cc12_scratch0])
      ∗ (∃ r, prngReg c r))

theorem Phi12_zero (c : Dev nD) (n : ℕ) (h : n ≤ cfg12.N) (hz : n = 0) : Phi12 V c n h = Pipeline.ΦA spec12 c := by
  subst hz; rfl

theorem Phi12_succ (c : Dev nD) (n : ℕ) (hn : n < cfg12.N) :
    Phi12 V c (n + 1) hn = iprop(iprop(owns (c : Thread nD τ) scM12 fullShare (acc12 V c n hn)
        ∗ Pipeline.scopedRestBut (Ix := Unit) (Name := ℕ) (U := UR sig nD τ) (Lvl := ℕ) (Val := Elt F) spec12 c [cc12_scratch0])
      ∗ (∃ r, prngReg c r)) := rfl

theorem Phi12_pos (c : Dev nD) (n : ℕ) (h : n ≤ cfg12.N) (hz : n ≠ 0) :
    Phi12 V c n h = iprop(iprop(owns (c : Thread nD τ) scM12 fullShare (acc12 V c (n - 1) (by omega))
        ∗ Pipeline.scopedRestBut (Ix := Unit) (Name := ℕ) (U := UR sig nD τ) (Lvl := ℕ) (Val := Elt F) spec12 c [cc12_scratch0])
      ∗ (∃ r, prngReg c r)) := by
  cases n with
  | zero => exact absurd rfl hz
  | succ n => rfl

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => acc12 V c t.val t.isLt
  Φ t := Phi12 V c t.val (Nat.le_of_lt_succ t.isLt)
  q _ := fullShare
  owed _ := 0

theorem A_eq12 (c : Dev nD) (w : Fin cfg12.W) : (dat12 V c).A w = V c (Pipeline.arrRef spec12 w) := by
  dsimp only [dat12]

theorem owed12 (c : Dev nD) : ∀ x, (dat12 V c).owed x = 0 := fun _ => rfl

theorem share12 (c : Dev nD) : ∀ w, (dat12 V c).q w = fullShare := fun _ => rfl

theorem recorded12 (c : Dev nD) : ∀ t, (dat12 V c).recorded t = Set.univ := fun _ => rfl

theorem after12_0 (c : Dev nD) (t : Fin cfg12.N) : (dat12 V c).after 0 t = iblk12 V c 0 t := by dsimp only [dat12]

theorem after12_1 (c : Dev nD) (t : Fin cfg12.N) : (dat12 V c).after 1 t = iblk12 V c 1 t := by dsimp only [dat12]

theorem after12_2 (c : Dev nD) (t : Fin cfg12.N) : (dat12 V c).after 2 t = acc12 V c t.val t.isLt := by dsimp only [dat12]

theorem before12_0 (c : Dev nD) (t : Fin cfg12.N) (d) : (dat12 V c).before 0 t d = iblk12 V c 0 t :=
  before12_0_of V (dat12 V c) (A_eq12 V c 0) t d

theorem before12_1 (c : Dev nD) (t : Fin cfg12.N) (d) : (dat12 V c).before 1 t d = iblk12 V c 1 t :=
  before12_1_of V (dat12 V c) (A_eq12 V c 1) t d

theorem Phi12_castSucc (c : Dev nD) (t : Fin cfg12.N) :
    (dat12 V c).Φ t.castSucc = Phi12 V c t.val (Nat.le_of_lt t.isLt) := by
  dsimp only [dat12]; simp only [Fin.coe_castSucc]

theorem Phi_in12 (c : Dev nD) : (dat12 V c).Φ 0 = Pipeline.ΦA spec12 c := by
  rw [show (dat12 V c).Φ 0 = Phi12 V c 0 (Nat.zero_le _) from rfl, Phi12_zero V c 0 _ rfl]

theorem Phi_out12 (c : Dev nD) : (dat12 V c).Φ (Fin.last _) ⊢ Pipeline.ΦA spec12 c := by
  have hN : cfg12.N = 50 := N_12
  rw [show (dat12 V c).Φ (Fin.last _) = Phi12 V c (Fin.last cfg12.N).val (Nat.le_of_lt_succ (Fin.last cfg12.N).isLt) from rfl,
    Phi12_pos V c _ _ (by rw [Fin.val_last]; omega), PhiA12_eq]
  iintro ⟨⟨HS, HR⟩, Hg⟩
  isplitl [HS HR]
  · isplitl [HS]
    · iexists _; iexact HS
    iexact HR
  iexact Hg

def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

def bodyPost12 (c : Dev nD) (t : Fin cfg12.N) : sProp 𝕄 :=
  iprop((dat12 V c).Φ t.succ ∗ (dat12 V c).owesAt () t.succ
    ∗ (dat12 V c).leavesExact 0 t
    ∗ (dat12 V c).leavesExact 1 t
    ∗ (dat12 V c).leavesExact 2 t)

set_option maxHeartbeats 1600000 in
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).owesAt () t.succ = (dat12 V c).owesAt () t.castSucc from rfl]
  rw [show (dat12 V c).Φ t.succ = Phi12 V c (t.val + 1) t.isLt from rfl, Phi12_succ]
  rw [show (dat12 V c).leavesExact 0 t = owns (c : Thread nD τ) (st12_0 t) fullShare ((dat12 V c).after 0 t) from by
    unfold Dat.leavesExact; rw [liveAt12_0 t], after12_0]
  rw [show (dat12 V c).leavesExact 1 t = owns (c : Thread nD τ) (st12_1 t) fullShare ((dat12 V c).after 1 t) from by
    unfold Dat.leavesExact; rw [liveAt12_1 t], after12_1]
  have hN : t.val < 50 := lt_of_lt_of_eq t.isLt (show cfg12.N = 50 from N_12)
  by_cases h2 : t.val = 49
  · have hz : t.val ≠ 0 := by omega
    rw [show (dat12 V c).leavesExact 2 t = owns (c : Thread nD τ) (st12_2 t) fullShare ((dat12 V c).after 2 t) from by
      unfold Dat.leavesExact; rw [liveAt12_2 t ((hcond12_2 t).mpr h2)], after12_2]
    rw [acc12_pos V c t hz]
    rw [Phi12_castSucc V c t, Phi12_pos V c _ _ hz]
    iintro ⟨⟨⟨HS, HR⟩, Hg⟩, Ho, ⟨%d0, H0⟩, ⟨%d1, H1⟩, ⟨%d2, H2⟩⟩
    iapply (sound_kernel12_last c Set.univ (grid12.coords t) _ _ _ _ _ _ _ _ (fun h => hz ((hcond12_1 t).mp h)) ((hcond12_2 t).mpr h2)
      (iblk12 V c 0 t) (iblk12 V c 1 t) _ _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · have hn2 : ¬cond12_2 (grid12.coords t) := fun h => h2 ((hcond12_2 t).mp h)
    rw [Dat.leavesExact_idle (dat12 V c) 2 t (idleAt12_2 t hn2) (noFlush12_2 t hn2)]
    by_cases h1 : t.val = 0
    · rw [acc12_zero V c t h1]
      rw [Phi12_castSucc V c t, Phi12_zero V c _ _ h1, PhiA12_eq]
      iintro ⟨⟨⟨HS, HR⟩, Hg⟩, Ho, ⟨%d0, H0⟩, ⟨%d1, H1⟩, ⟨%d2, H2⟩⟩
      iapply (sound_kernel12_first c Set.univ (grid12.coords t) _ _ _ _ _ _ _ _ ((hcond12_1 t).mpr h1) hn2
        (iblk12 V c 0 t) (iblk12 V c 1 t) _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
    · rw [acc12_pos V c t h1]
      rw [Phi12_castSucc V c t, Phi12_pos V c _ _ h1]
      iintro ⟨⟨⟨HS, HR⟩, Hg⟩, Ho, ⟨%d0, H0⟩, ⟨%d1, H1⟩, ⟨%d2, H2⟩⟩
      iapply (sound_kernel12_mid c Set.univ (grid12.coords t) _ _ _ _ _ _ _ _ (fun h => h1 ((hcond12_1 t).mp h)) hn2
        (iblk12 V c 0 t) (iblk12 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

theorem body_obligation12 (c : Dev nD) : BodyObligation (dat12 (F := F) V c) (defs₀ (F := F)) Variants.none () Set.univ := fun t => by
  rw [bigSep_W12, bigSep_W12]
  exact sound_body12 V c t

end Regions

section Value

open Idealize.ShloMosaic.ValueIdx
variable (V : (c : Dev nD) → (b : Ref sig .tc) → Buf (Elt F) ((c : Thread nD τ).loc b))

end Value

end Cert.Kernel.Hand

end
-- ==== Proof.K.Reg13.lean ====
import proofs.«424828_j6554120094214_2_alg».proof.Proof.Gen.Kernel.Launch
import proofs.«424828_j6554120094214_2_alg».proof.Proof.Gen.Kernel.Skeleton
import proofs.«424828_j6554120094214_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ

abbrev cond13_1 (i : grid13.Coords) : Prop :=
  (Scalar.cmpi .ne (Scalar.extui (Scalar.cmpi .eq (BitVec.ofNat 32 (i 0).val) 0#32)) 0#32) = 1#1

abbrev cond13_2 (i : grid13.Coords) : Prop := k13_cond2 i = 1#1

theorem hcond13_1 : ∀ t : Fin cfg13.N, cond13_1 (grid13.coords t) ↔ t.val = 0 :=
  (by decide +kernel : ∀ t : Fin grid13.N, cond13_1 (grid13.coords t) ↔ t.val = 0)

theorem hcond13_2 : ∀ t : Fin cfg13.N, cond13_2 (grid13.coords t) ↔ t.val = 49 :=
  (by decide +kernel : ∀ t : Fin grid13.N, cond13_2 (grid13.coords t) ↔ t.val = 49)

theorem liveAt13_0 : ∀ t : Fin cfg13.N, cfg13.idle 0 (grid13.coords t) = false := fun _ => rfl

theorem liveAt13_1 : ∀ t : Fin cfg13.N, cfg13.idle 1 (grid13.coords t) = false := fun _ => rfl

theorem idleAt13_2 : ∀ t : Fin cfg13.N, ¬cond13_2 (grid13.coords t) → cfg13.idle 2 (grid13.coords t) = true := by decide +kernel

theorem noFlush13_2 : ∀ t : Fin cfg13.N, ¬cond13_2 (grid13.coords t) → (cfg13.win 2).flush t = false := by decide +kernel

theorem liveAt13_2 : ∀ t : Fin cfg13.N, cond13_2 (grid13.coords t) → cfg13.idle 2 (grid13.coords t) = false := by decide +kernel

theorem hz13 : (![0, 0] : Fin 2 → Nat) = fun _ => 0 := funext fun a => by fin_cases a <;> rfl

theorem read_store13 {κ : Kind} {sp : Space} (v : View sig κ sp S512x64 .f32) (f : v.ty.Contents (Elt F))
    (w : S512x64.Idx → Elt F .f32) (L : List (View.Piece (Elt F) S512x64 .f32)) :
    v.read (Elt F) (v.writes (Elt F) f ((⟨Rect.unit ![0, 0] S512x64.size inb_S512x64_S512x64_0_0, w⟩ : View.Piece (Elt F) S512x64 .f32) :: L)) = w := by
  have hc : ∀ y : S512x64.Idx, ∃ p ∈ ((⟨Rect.unit ![0, 0] S512x64.size inb_S512x64_S512x64_0_0, w⟩ : View.Piece (Elt F) S512x64 .f32) :: L), y ∈ p.1.set :=
    fun y => ⟨_, List.mem_cons_self, View.mem_set_unit_zero (S := S512x64) hz13 inb_S512x64_S512x64_0_0 y⟩
  exact (View.read_writes_eq_canon v f _ hc).trans
    (View.canon_cons_unit_zero (S := S512x64) hz13 inb_S512x64_S512x64_0_0 w L)

set_option maxHeartbeats 400000 in
theorem sound_kernel13_first (c : Dev nD) (E : Set ℕ) (i : grid13.Coords)
    (arg1 : Memref sig .tc .vmem S2000x64 .f32) (harg1 : arg1.IsWhole)
    (arg2 : Memref sig .tc .vmem S2000x1 .i32) (harg2 : arg2.IsWhole)
    (arg3 : Memref sig .tc .vmem S512x64 .f32) (harg3 : arg3.IsWhole)
    (arg4 : Memref sig .tc .vmem S512x64 .f32) (harg4 : arg4.IsWhole)
    (hc1 : cond13_1 i) (hc2 : ¬cond13_2 i)
    (x0 : Vec F S2000x64 .f32) (x1 : Vec F S2000x1 .i32) (xi : Vec F S512x64 .f32)
    (K : PUnit → sProp 𝕄) :
    iprop(owns (c : Thread nD τ) arg1 fullShare x0 ∗ owns (c : Thread nD τ) arg2 fullShare x1
        ∗ owns (c : Thread nD τ) arg3 fullShare xi ∗ (∃ d, owns (c : Thread nD τ) arg4 fullShare d)
        ∗ (iprop(owns (c : Thread nD τ) arg1 fullShare x0 ∗ owns (c : Thread nD τ) arg2 fullShare x1
            ∗ owns (c : Thread nD τ) arg3 fullShare xi ∗ owns (c : Thread nD τ) arg4 fullShare (k13_pay2 x1 x0 (k13_pay1 (F := F)))) -∗ K ⟨⟩))
      ⊢ wp frame (wpE (defs₀ (F := F)) Variants.none c none) E (cc13__pool_kernel i arg1 harg1 arg2 harg2 arg3 harg3 arg4 harg4) K := by
  simp only [cc13__pool_kernel_eq_skeleton]; unfold cc13__pool_kernel_skel
  unfold owns
  iintro ⟨⟨%f0, %hf0, H0⟩, ⟨%f1, %hf1, H1⟩, ⟨%f3, %hf3, H3⟩, ⟨%ds, %fs, -, HS⟩, Hk⟩
  subst hf0; subst hf1; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H3]
  · iexists f3; isplitr; · ipureintro; rfl
    iexact H3
  iexists _; isplitr
  swap; · iexact HS
  ipureintro
  refine (read_store13 (F := F) _ _ _ _).trans ?_
  sl_unfold_words
  simp only [View.readAt_eq_ld, View.ld_unit_zero (S := S2000x1) hz13, View.ld_unit_zero (S := S2000x64) hz13, View.ld_unit_zero (S := S512x64) hz13, View.readCov_unit_zero (Val := Elt F) (S := S512x64) _ hz13]

set_option maxHeartbeats 400000 in
theorem sound_kernel13_mid (c : Dev nD) (E : Set ℕ) (i : grid13.Coords)
    (arg1 : Memref sig .tc .vmem S2000x64 .f32) (harg1 : arg1.IsWhole)
    (arg2 : Memref sig .tc .vmem S2000x1 .i32) (harg2 : arg2.IsWhole)
    (arg3 : Memref sig .tc .vmem S512x64 .f32) (harg3 : arg3.IsWhole)
    (arg4 : Memref sig .tc .vmem S512x64 .f32) (harg4 : arg4.IsWhole)
    (hc1 : ¬cond13_1 i) (hc2 : ¬cond13_2 i)
    (x0 : Vec F S2000x64 .f32) (x1 : Vec F S2000x1 .i32) (xi : Vec F S512x64 .f32) (xs : Vec F S512x64 .f32)
    (K : PUnit → sProp 𝕄) :
    iprop(owns (c : Thread nD τ) arg1 fullShare x0 ∗ owns (c : Thread nD τ) arg2 fullShare x1
        ∗ owns (c : Thread nD τ) arg3 fullShare xi ∗ owns (c : Thread nD τ) arg4 fullShare xs
        ∗ (iprop(owns (c : Thread nD τ) arg1 fullShare x0 ∗ owns (c : Thread nD τ) arg2 fullShare x1
            ∗ owns (c : Thread nD τ) arg3 fullShare xi ∗ owns (c : Thread nD τ) arg4 fullShare (k13_pay2 x1 x0 xs)) -∗ K ⟨⟩))
      ⊢ wp frame (wpE (defs₀ (F := F)) Variants.none c none) E (cc13__pool_kernel i arg1 harg1 arg2 harg2 arg3 harg3 arg4 harg4) K := by
  simp only [cc13__pool_kernel_eq_skeleton]; unfold cc13__pool_kernel_skel
  unfold owns
  iintro ⟨⟨%f0, %hf0, H0⟩, ⟨%f1, %hf1, H1⟩, ⟨%f3, %hf3, H3⟩, ⟨%fs, %hfs, HS⟩, Hk⟩
  subst hf0; subst hf1; subst hf3; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H3]
  · iexists f3; isplitr; · ipureintro; rfl
    iexact H3
  iexists _; isplitr
  swap; · iexact HS
  ipureintro
  refine (read_store13 (F := F) _ _ _ _).trans ?_
  simp only [View.readAt_eq_ld, View.ld_unit_zero (S := S2000x1) hz13, View.ld_unit_zero (S := S2000x64) hz13, View.ld_unit_zero (S := S512x64) hz13]

set_option maxHeartbeats 400000 in
theorem sound_kernel13_last (c : Dev nD) (E : Set ℕ) (i : grid13.Coords)
    (arg1 : Memref sig .tc .vmem S2000x64 .f32) (harg1 : arg1.IsWhole)
    (arg2 : Memref sig .tc .vmem S2000x1 .i32) (harg2 : arg2.IsWhole)
    (arg3 : Memref sig .tc .vmem S512x64 .f32) (harg3 : arg3.IsWhole)
    (arg4 : Memref sig .tc .vmem S512x64 .f32) (harg4 : arg4.IsWhole)
    (hc1 : ¬cond13_1 i) (hc2 : cond13_2 i)
    (x0 : Vec F S2000x64 .f32) (x1 : Vec F S2000x1 .i32) (xs : Vec F S512x64 .f32)
    (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xs
        ∗ (iprop(owns (c : Thread nD τ) arg1 fullShare x0 ∗ owns (c : Thread nD τ) arg2 fullShare x1
            ∗ owns (c : Thread nD τ) arg3 fullShare (k13_pay2 x1 x0 xs) ∗ owns (c : Thread nD τ) arg4 fullShare (k13_pay2 x1 x0 xs)) -∗ K ⟨⟩))
      ⊢ wp frame (wpE (defs₀ (F := F)) Variants.none c none) E (cc13__pool_kernel i arg1 harg1 arg2 harg2 arg3 harg3 arg4 harg4) K := by
  simp only [cc13__pool_kernel_eq_skeleton]; unfold cc13__pool_kernel_skel
  unfold owns
  iintro ⟨⟨%f0, %hf0, H0⟩, ⟨%f1, %hf1, H1⟩, ⟨%d3, %f3, -, H3⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    refine (read_store13 (F := F) _ _ _ _).trans ?_
    sl_unfold_words
    simp only [View.readAt_eq_ld, View.ld_unit_zero (S := S2000x1) hz13, View.ld_unit_zero (S := S2000x64) hz13, View.ld_unit_zero (S := S512x64) hz13, View.readCov_unit_zero (Val := Elt F) (S := S512x64) _ hz13]
  iexists _; isplitr
  swap; · iexact HS
  ipureintro
  sl_unfold_words
  refine (read_store13 (F := F) _ _ _ _).trans ?_
  simp only [View.readAt_eq_ld, View.ld_unit_zero (S := S2000x1) hz13, View.ld_unit_zero (S := S2000x64) hz13, View.ld_unit_zero (S := S512x64) hz13]

section Regions

variable (V : (c : Dev nD) → (b : Ref sig .tc) → Buf (Elt F) ((c : Thread nD τ).loc b))

def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

theorem before13_0_of {c : Dev nD} (dat : Dat τ (Elt F) Unit ℕ (UR sig nD τ) ℕ cfg13 c) (hA : dat.A 0 = V c (Pipeline.arrRef spec13 0))
    (t : Fin cfg13.N) (d) : dat.before 0 t d = iblk13 V c 0 t :=
  (dat.before_fetched 0 t (fetch13_0 t) d).trans (by unfold Dat.fetched Dat.blockOf iblk13; rw [hA]; try rfl)

theorem before13_1_of {c : Dev nD} (dat : Dat τ (Elt F) Unit ℕ (UR sig nD τ) ℕ cfg13 c) (hA : dat.A 1 = V c (Pipeline.arrRef spec13 1))
    (t : Fin cfg13.N) (d) : dat.before 1 t d = iblk13 V c 1 t :=
  (dat.before_fetched 1 t (fetch13_1 t) d).trans (by unfold Dat.fetched Dat.blockOf iblk13; rw [hA]; try rfl)

def acc13 (c : Dev nD) : (n : ℕ) → n < cfg13.N → Vec F S512x64 .f32
  | 0, hn => k13_pay2 (iblk13 V c 1 ⟨0, hn⟩) (iblk13 V c 0 ⟨0, hn⟩) (k13_pay1 (F := F))
  | n + 1, hn => k13_pay2 (iblk13 V c 1 ⟨n + 1, hn⟩) (iblk13 V c 0 ⟨n + 1, hn⟩) (acc13 c n (Nat.lt_of_succ_lt hn))

theorem acc13_zero (c : Dev nD) (t : Fin cfg13.N) (h : t.val = 0) :
    acc13 V c t.val t.isLt = k13_pay2 (iblk13 V c 1 t) (iblk13 V c 0 t) (k13_pay1 (F := F)) := by
  obtain ⟨n, hn⟩ := t
  cases n with
  | zero => rfl
  | succ n => exact absurd h (Nat.succ_ne_zero n)

theorem acc13_pos (c : Dev nD) (t : Fin cfg13.N) (h : t.val ≠ 0) :
    acc13 V c t.val t.isLt = k13_pay2 (iblk13 V c 1 t) (iblk13 V c 0 t)
      (acc13 V c (t.val - 1) (Nat.lt_of_le_of_lt (Nat.sub_le _ _) t.isLt)) := by
  obtain ⟨n, hn⟩ := t
  cases n with
  | zero => exact absurd rfl h
  | succ n => rfl

abbrev scM13 : Memref sig .tc .vmem S512x64 .f32 := Memref.whole cc13_scratch0

theorem PhiA13_eq (c : Dev nD) :
    (Pipeline.ΦA spec13 c : sProp 𝕄)
      = iprop(iprop((∃ d, owns (c : Thread nD τ) scM13 fullShare d)
            ∗ Pipeline.scopedRestBut (Ix := Unit) (Name := ℕ) (U := UR sig nD τ) (Lvl := ℕ) (Val := Elt F) spec13 c [cc13_scratch0])
          ∗ (∃ r, prngReg c r)) := by
  unfold Pipeline.ΦA; rw [scopedRest13_split]; simp only [scM13, owns_whole]
  rfl

def Phi13 (c : Dev nD) : (n : ℕ) → n ≤ cfg13.N → sProp 𝕄
  | 0, _ => Pipeline.ΦA spec13 c
  | n + 1, hn => iprop(iprop(owns (c : Thread nD τ) scM13 fullShare (acc13 V c n hn)
        ∗ Pipeline.scopedRestBut (Ix := Unit) (Name := ℕ) (U := UR sig nD τ) (Lvl := ℕ) (Val := Elt F) spec13 c [cc13_scratch0])
      ∗ (∃ r, prngReg c r))

theorem Phi13_zero (c : Dev nD) (n : ℕ) (h : n ≤ cfg13.N) (hz : n = 0) : Phi13 V c n h = Pipeline.ΦA spec13 c := by
  subst hz; rfl

theorem Phi13_succ (c : Dev nD) (n : ℕ) (hn : n < cfg13.N) :
    Phi13 V c (n + 1) hn = iprop(iprop(owns (c : Thread nD τ) scM13 fullShare (acc13 V c n hn)
        ∗ Pipeline.scopedRestBut (Ix := Unit) (Name := ℕ) (U := UR sig nD τ) (Lvl := ℕ) (Val := Elt F) spec13 c [cc13_scratch0])
      ∗ (∃ r, prngReg c r)) := rfl

theorem Phi13_pos (c : Dev nD) (n : ℕ) (h : n ≤ cfg13.N) (hz : n ≠ 0) :
    Phi13 V c n h = iprop(iprop(owns (c : Thread nD τ) scM13 fullShare (acc13 V c (n - 1) (by omega))
        ∗ Pipeline.scopedRestBut (Ix := Unit) (Name := ℕ) (U := UR sig nD τ) (Lvl := ℕ) (Val := Elt F) spec13 c [cc13_scratch0])
      ∗ (∃ r, prngReg c r)) := by
  cases n with
  | zero => exact absurd rfl hz
  | succ n => rfl

def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => acc13 V c t.val t.isLt
  Φ t := Phi13 V c t.val (Nat.le_of_lt_succ t.isLt)
  q _ := fullShare
  owed _ := 0

theorem A_eq13 (c : Dev nD) (w : Fin cfg13.W) : (dat13 V c).A w = V c (Pipeline.arrRef spec13 w) := by
  dsimp only [dat13]

theorem owed13 (c : Dev nD) : ∀ x, (dat13 V c).owed x = 0 := fun _ => rfl

theorem share13 (c : Dev nD) : ∀ w, (dat13 V c).q w = fullShare := fun _ => rfl

theorem recorded13 (c : Dev nD) : ∀ t, (dat13 V c).recorded t = Set.univ := fun _ => rfl

theorem after13_0 (c : Dev nD) (t : Fin cfg13.N) : (dat13 V c).after 0 t = iblk13 V c 0 t := by dsimp only [dat13]

theorem after13_1 (c : Dev nD) (t : Fin cfg13.N) : (dat13 V c).after 1 t = iblk13 V c 1 t := by dsimp only [dat13]

theorem after13_2 (c : Dev nD) (t : Fin cfg13.N) : (dat13 V c).after 2 t = acc13 V c t.val t.isLt := by dsimp only [dat13]

theorem before13_0 (c : Dev nD) (t : Fin cfg13.N) (d) : (dat13 V c).before 0 t d = iblk13 V c 0 t :=
  before13_0_of V (dat13 V c) (A_eq13 V c 0) t d

theorem before13_1 (c : Dev nD) (t : Fin cfg13.N) (d) : (dat13 V c).before 1 t d = iblk13 V c 1 t :=
  before13_1_of V (dat13 V c) (A_eq13 V c 1) t d

theorem Phi13_castSucc (c : Dev nD) (t : Fin cfg13.N) :
    (dat13 V c).Φ t.castSucc = Phi13 V c t.val (Nat.le_of_lt t.isLt) := by
  dsimp only [dat13]; simp only [Fin.coe_castSucc]

theorem Phi_in13 (c : Dev nD) : (dat13 V c).Φ 0 = Pipeline.ΦA spec13 c := by
  rw [show (dat13 V c).Φ 0 = Phi13 V c 0 (Nat.zero_le _) from rfl, Phi13_zero V c 0 _ rfl]

theorem Phi_out13 (c : Dev nD) : (dat13 V c).Φ (Fin.last _) ⊢ Pipeline.ΦA spec13 c := by
  have hN : cfg13.N = 50 := N_13
  rw [show (dat13 V c).Φ (Fin.last _) = Phi13 V c (Fin.last cfg13.N).val (Nat.le_of_lt_succ (Fin.last cfg13.N).isLt) from rfl,
    Phi13_pos V c _ _ (by rw [Fin.val_last]; omega), PhiA13_eq]
  iintro ⟨⟨HS, HR⟩, Hg⟩
  isplitl [HS HR]
  · isplitl [HS]
    · iexists _; iexact HS
    iexact HR
  iexact Hg

def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d)))

def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t)

set_option maxHeartbeats 1600000 in
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).owesAt () t.succ = (dat13 V c).owesAt () t.castSucc from rfl]
  rw [show (dat13 V c).Φ t.succ = Phi13 V c (t.val + 1) t.isLt from rfl, Phi13_succ]
  rw [show (dat13 V c).leavesExact 0 t = owns (c : Thread nD τ) (st13_0 t) fullShare ((dat13 V c).after 0 t) from by
    unfold Dat.leavesExact; rw [liveAt13_0 t], after13_0]
  rw [show (dat13 V c).leavesExact 1 t = owns (c : Thread nD τ) (st13_1 t) fullShare ((dat13 V c).after 1 t) from by
    unfold Dat.leavesExact; rw [liveAt13_1 t], after13_1]
  have hN : t.val < 50 := lt_of_lt_of_eq t.isLt (show cfg13.N = 50 from N_13)
  by_cases h2 : t.val = 49
  · have hz : t.val ≠ 0 := by omega
    rw [show (dat13 V c).leavesExact 2 t = owns (c : Thread nD τ) (st13_2 t) fullShare ((dat13 V c).after 2 t) from by
      unfold Dat.leavesExact; rw [liveAt13_2 t ((hcond13_2 t).mpr h2)], after13_2]
    rw [acc13_pos V c t hz]
    rw [Phi13_castSucc V c t, Phi13_pos V c _ _ hz]
    iintro ⟨⟨⟨HS, HR⟩, Hg⟩, Ho, ⟨%d0, H0⟩, ⟨%d1, H1⟩, ⟨%d2, H2⟩⟩
    iapply (sound_kernel13_last c Set.univ (grid13.coords t) _ _ _ _ _ _ _ _ (fun h => hz ((hcond13_1 t).mp h)) ((hcond13_2 t).mpr h2)
      (iblk13 V c 0 t) (iblk13 V c 1 t) _ _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · have hn2 : ¬cond13_2 (grid13.coords t) := fun h => h2 ((hcond13_2 t).mp h)
    rw [Dat.leavesExact_idle (dat13 V c) 2 t (idleAt13_2 t hn2) (noFlush13_2 t hn2)]
    by_cases h1 : t.val = 0
    · rw [acc13_zero V c t h1]
      rw [Phi13_castSucc V c t, Phi13_zero V c _ _ h1, PhiA13_eq]
      iintro ⟨⟨⟨HS, HR⟩, Hg⟩, Ho, ⟨%d0, H0⟩, ⟨%d1, H1⟩, ⟨%d2, H2⟩⟩
      iapply (sound_kernel13_first c Set.univ (grid13.coords t) _ _ _ _ _ _ _ _ ((hcond13_1 t).mpr h1) hn2
        (iblk13 V c 0 t) (iblk13 V c 1 t) _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
    · rw [acc13_pos V c t h1]
      rw [Phi13_castSucc V c t, Phi13_pos V c _ _ h1]
      iintro ⟨⟨⟨HS, HR⟩, Hg⟩, Ho, ⟨%d0, H0⟩, ⟨%d1, H1⟩, ⟨%d2, H2⟩⟩
      iapply (sound_kernel13_mid c Set.univ (grid13.coords t) _ _ _ _ _ _ _ _ (fun h => h1 ((hcond13_1 t).mp h)) hn2
        (iblk13 V c 0 t) (iblk13 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

theorem body_obligation13 (c : Dev nD) : BodyObligation (dat13 (F := F) V c) (defs₀ (F := F)) Variants.none () Set.univ := fun t => by
  rw [bigSep_W13, bigSep_W13]
  exact sound_body13 V c t

end Regions

section Value

open Idealize.ShloMosaic.ValueIdx
variable (V : (c : Dev nD) → (b : Ref sig .tc) → Buf (Elt F) ((c : Thread nD τ).loc b))

end Value

end Cert.Kernel.Hand

end
-- ==== Proof.K.Reg14.lean ====
import proofs.«424828_j6554120094214_2_alg».proof.Proof.Gen.Kernel.Launch
import proofs.«424828_j6554120094214_2_alg».proof.Proof.Gen.Kernel.Skeleton
import proofs.«424828_j6554120094214_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ

abbrev cond14_1 (i : grid14.Coords) : Prop :=
  (Scalar.cmpi .ne (Scalar.extui (Scalar.cmpi .eq (BitVec.ofNat 32 (i 0).val) 0#32)) 0#32) = 1#1

abbrev cond14_2 (i : grid14.Coords) : Prop := k14_cond2 i = 1#1

theorem hcond14_1 : ∀ t : Fin cfg14.N, cond14_1 (grid14.coords t) ↔ t.val = 0 :=
  (by decide +kernel : ∀ t : Fin grid14.N, cond14_1 (grid14.coords t) ↔ t.val = 0)

theorem hcond14_2 : ∀ t : Fin cfg14.N, cond14_2 (grid14.coords t) ↔ t.val = 49 :=
  (by decide +kernel : ∀ t : Fin grid14.N, cond14_2 (grid14.coords t) ↔ t.val = 49)

theorem liveAt14_0 : ∀ t : Fin cfg14.N, cfg14.idle 0 (grid14.coords t) = false := fun _ => rfl

theorem liveAt14_1 : ∀ t : Fin cfg14.N, cfg14.idle 1 (grid14.coords t) = false := fun _ => rfl

theorem idleAt14_2 : ∀ t : Fin cfg14.N, ¬cond14_2 (grid14.coords t) → cfg14.idle 2 (grid14.coords t) = true := by decide +kernel

theorem noFlush14_2 : ∀ t : Fin cfg14.N, ¬cond14_2 (grid14.coords t) → (cfg14.win 2).flush t = false := by decide +kernel

theorem liveAt14_2 : ∀ t : Fin cfg14.N, cond14_2 (grid14.coords t) → cfg14.idle 2 (grid14.coords t) = false := by decide +kernel

theorem hz14 : (![0, 0] : Fin 2 → Nat) = fun _ => 0 := funext fun a => by fin_cases a <;> rfl

theorem read_store14 {κ : Kind} {sp : Space} (v : View sig κ sp S512x64 .f32) (f : v.ty.Contents (Elt F))
    (w : S512x64.Idx → Elt F .f32) (L : List (View.Piece (Elt F) S512x64 .f32)) :
    v.read (Elt F) (v.writes (Elt F) f ((⟨Rect.unit ![0, 0] S512x64.size inb_S512x64_S512x64_0_0, w⟩ : View.Piece (Elt F) S512x64 .f32) :: L)) = w := by
  have hc : ∀ y : S512x64.Idx, ∃ p ∈ ((⟨Rect.unit ![0, 0] S512x64.size inb_S512x64_S512x64_0_0, w⟩ : View.Piece (Elt F) S512x64 .f32) :: L), y ∈ p.1.set :=
    fun y => ⟨_, List.mem_cons_self, View.mem_set_unit_zero (S := S512x64) hz14 inb_S512x64_S512x64_0_0 y⟩
  exact (View.read_writes_eq_canon v f _ hc).trans
    (View.canon_cons_unit_zero (S := S512x64) hz14 inb_S512x64_S512x64_0_0 w L)

set_option maxHeartbeats 400000 in
theorem sound_kernel14_first (c : Dev nD) (E : Set ℕ) (i : grid14.Coords)
    (arg1 : Memref sig .tc .vmem S2000x64 .f32) (harg1 : arg1.IsWhole)
    (arg2 : Memref sig .tc .vmem S2000x1 .i32) (harg2 : arg2.IsWhole)
    (arg3 : Memref sig .tc .vmem S512x64 .f32) (harg3 : arg3.IsWhole)
    (arg4 : Memref sig .tc .vmem S512x64 .f32) (harg4 : arg4.IsWhole)
    (hc1 : cond14_1 i) (hc2 : ¬cond14_2 i)
    (x0 : Vec F S2000x64 .f32) (x1 : Vec F S2000x1 .i32) (xi : Vec F S512x64 .f32)
    (K : PUnit → sProp 𝕄) :
    iprop(owns (c : Thread nD τ) arg1 fullShare x0 ∗ owns (c : Thread nD τ) arg2 fullShare x1
        ∗ owns (c : Thread nD τ) arg3 fullShare xi ∗ (∃ d, owns (c : Thread nD τ) arg4 fullShare d)
        ∗ (iprop(owns (c : Thread nD τ) arg1 fullShare x0 ∗ owns (c : Thread nD τ) arg2 fullShare x1
            ∗ owns (c : Thread nD τ) arg3 fullShare xi ∗ owns (c : Thread nD τ) arg4 fullShare (k14_pay2 x1 x0 (k14_pay1 (F := F)))) -∗ K ⟨⟩))
      ⊢ wp frame (wpE (defs₀ (F := F)) Variants.none c none) E (cc14__pool_kernel i arg1 harg1 arg2 harg2 arg3 harg3 arg4 harg4) K := by
  simp only [cc14__pool_kernel_eq_skeleton]; unfold cc14__pool_kernel_skel
  unfold owns
  iintro ⟨⟨%f0, %hf0, H0⟩, ⟨%f1, %hf1, H1⟩, ⟨%f3, %hf3, H3⟩, ⟨%ds, %fs, -, HS⟩, Hk⟩
  subst hf0; subst hf1; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H3]
  · iexists f3; isplitr; · ipureintro; rfl
    iexact H3
  iexists _; isplitr
  swap; · iexact HS
  ipureintro
  refine (read_store14 (F := F) _ _ _ _).trans ?_
  sl_unfold_words
  simp only [View.readAt_eq_ld, View.ld_unit_zero (S := S2000x1) hz14, View.ld_unit_zero (S := S2000x64) hz14, View.ld_unit_zero (S := S512x64) hz14, View.readCov_unit_zero (Val := Elt F) (S := S512x64) _ hz14]

set_option maxHeartbeats 400000 in
theorem sound_kernel14_mid (c : Dev nD) (E : Set ℕ) (i : grid14.Coords)
    (arg1 : Memref sig .tc .vmem S2000x64 .f32) (harg1 : arg1.IsWhole)
    (arg2 : Memref sig .tc .vmem S2000x1 .i32) (harg2 : arg2.IsWhole)
    (arg3 : Memref sig .tc .vmem S512x64 .f32) (harg3 : arg3.IsWhole)
    (arg4 : Memref sig .tc .vmem S512x64 .f32) (harg4 : arg4.IsWhole)
    (hc1 : ¬cond14_1 i) (hc2 : ¬cond14_2 i)
    (x0 : Vec F S2000x64 .f32) (x1 : Vec F S2000x1 .i32) (xi : Vec F S512x64 .f32) (xs : Vec F S512x64 .f32)
    (K : PUnit → sProp 𝕄) :
    iprop(owns (c : Thread nD τ) arg1 fullShare x0 ∗ owns (c : Thread nD τ) arg2 fullShare x1
        ∗ owns (c : Thread nD τ) arg3 fullShare xi ∗ owns (c : Thread nD τ) arg4 fullShare xs
        ∗ (iprop(owns (c : Thread nD τ) arg1 fullShare x0 ∗ owns (c : Thread nD τ) arg2 fullShare x1
            ∗ owns (c : Thread nD τ) arg3 fullShare xi ∗ owns (c : Thread nD τ) arg4 fullShare (k14_pay2 x1 x0 xs)) -∗ K ⟨⟩))
      ⊢ wp frame (wpE (defs₀ (F := F)) Variants.none c none) E (cc14__pool_kernel i arg1 harg1 arg2 harg2 arg3 harg3 arg4 harg4) K := by
  simp only [cc14__pool_kernel_eq_skeleton]; unfold cc14__pool_kernel_skel
  unfold owns
  iintro ⟨⟨%f0, %hf0, H0⟩, ⟨%f1, %hf1, H1⟩, ⟨%f3, %hf3, H3⟩, ⟨%fs, %hfs, HS⟩, Hk⟩
  subst hf0; subst hf1; subst hf3; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H3]
  · iexists f3; isplitr; · ipureintro; rfl
    iexact H3
  iexists _; isplitr
  swap; · iexact HS
  ipureintro
  refine (read_store14 (F := F) _ _ _ _).trans ?_
  simp only [View.readAt_eq_ld, View.ld_unit_zero (S := S2000x1) hz14, View.ld_unit_zero (S := S2000x64) hz14, View.ld_unit_zero (S := S512x64) hz14]

set_option maxHeartbeats 400000 in
theorem sound_kernel14_last (c : Dev nD) (E : Set ℕ) (i : grid14.Coords)
    (arg1 : Memref sig .tc .vmem S2000x64 .f32) (harg1 : arg1.IsWhole)
    (arg2 : Memref sig .tc .vmem S2000x1 .i32) (harg2 : arg2.IsWhole)
    (arg3 : Memref sig .tc .vmem S512x64 .f32) (harg3 : arg3.IsWhole)
    (arg4 : Memref sig .tc .vmem S512x64 .f32) (harg4 : arg4.IsWhole)
    (hc1 : ¬cond14_1 i) (hc2 : cond14_2 i)
    (x0 : Vec F S2000x64 .f32) (x1 : Vec F S2000x1 .i32) (xs : Vec F S512x64 .f32)
    (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xs
        ∗ (iprop(owns (c : Thread nD τ) arg1 fullShare x0 ∗ owns (c : Thread nD τ) arg2 fullShare x1
            ∗ owns (c : Thread nD τ) arg3 fullShare (k14_pay2 x1 x0 xs) ∗ owns (c : Thread nD τ) arg4 fullShare (k14_pay2 x1 x0 xs)) -∗ K ⟨⟩))
      ⊢ wp frame (wpE (defs₀ (F := F)) Variants.none c none) E (cc14__pool_kernel i arg1 harg1 arg2 harg2 arg3 harg3 arg4 harg4) K := by
  simp only [cc14__pool_kernel_eq_skeleton]; unfold cc14__pool_kernel_skel
  unfold owns
  iintro ⟨⟨%f0, %hf0, H0⟩, ⟨%f1, %hf1, H1⟩, ⟨%d3, %f3, -, H3⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    refine (read_store14 (F := F) _ _ _ _).trans ?_
    sl_unfold_words
    simp only [View.readAt_eq_ld, View.ld_unit_zero (S := S2000x1) hz14, View.ld_unit_zero (S := S2000x64) hz14, View.ld_unit_zero (S := S512x64) hz14, View.readCov_unit_zero (Val := Elt F) (S := S512x64) _ hz14]
  iexists _; isplitr
  swap; · iexact HS
  ipureintro
  sl_unfold_words
  refine (read_store14 (F := F) _ _ _ _).trans ?_
  simp only [View.readAt_eq_ld, View.ld_unit_zero (S := S2000x1) hz14, View.ld_unit_zero (S := S2000x64) hz14, View.ld_unit_zero (S := S512x64) hz14]

section Regions

variable (V : (c : Dev nD) → (b : Ref sig .tc) → Buf (Elt F) ((c : Thread nD τ).loc b))

def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

theorem before14_0_of {c : Dev nD} (dat : Dat τ (Elt F) Unit ℕ (UR sig nD τ) ℕ cfg14 c) (hA : dat.A 0 = V c (Pipeline.arrRef spec14 0))
    (t : Fin cfg14.N) (d) : dat.before 0 t d = iblk14 V c 0 t :=
  (dat.before_fetched 0 t (fetch14_0 t) d).trans (by unfold Dat.fetched Dat.blockOf iblk14; rw [hA]; try rfl)

theorem before14_1_of {c : Dev nD} (dat : Dat τ (Elt F) Unit ℕ (UR sig nD τ) ℕ cfg14 c) (hA : dat.A 1 = V c (Pipeline.arrRef spec14 1))
    (t : Fin cfg14.N) (d) : dat.before 1 t d = iblk14 V c 1 t :=
  (dat.before_fetched 1 t (fetch14_1 t) d).trans (by unfold Dat.fetched Dat.blockOf iblk14; rw [hA]; try rfl)

def acc14 (c : Dev nD) : (n : ℕ) → n < cfg14.N → Vec F S512x64 .f32
  | 0, hn => k14_pay2 (iblk14 V c 1 ⟨0, hn⟩) (iblk14 V c 0 ⟨0, hn⟩) (k14_pay1 (F := F))
  | n + 1, hn => k14_pay2 (iblk14 V c 1 ⟨n + 1, hn⟩) (iblk14 V c 0 ⟨n + 1, hn⟩) (acc14 c n (Nat.lt_of_succ_lt hn))

theorem acc14_zero (c : Dev nD) (t : Fin cfg14.N) (h : t.val = 0) :
    acc14 V c t.val t.isLt = k14_pay2 (iblk14 V c 1 t) (iblk14 V c 0 t) (k14_pay1 (F := F)) := by
  obtain ⟨n, hn⟩ := t
  cases n with
  | zero => rfl
  | succ n => exact absurd h (Nat.succ_ne_zero n)

theorem acc14_pos (c : Dev nD) (t : Fin cfg14.N) (h : t.val ≠ 0) :
    acc14 V c t.val t.isLt = k14_pay2 (iblk14 V c 1 t) (iblk14 V c 0 t)
      (acc14 V c (t.val - 1) (Nat.lt_of_le_of_lt (Nat.sub_le _ _) t.isLt)) := by
  obtain ⟨n, hn⟩ := t
  cases n with
  | zero => exact absurd rfl h
  | succ n => rfl

abbrev scM14 : Memref sig .tc .vmem S512x64 .f32 := Memref.whole cc14_scratch0

theorem PhiA14_eq (c : Dev nD) :
    (Pipeline.ΦA spec14 c : sProp 𝕄)
      = iprop(iprop((∃ d, owns (c : Thread nD τ) scM14 fullShare d)
            ∗ Pipeline.scopedRestBut (Ix := Unit) (Name := ℕ) (U := UR sig nD τ) (Lvl := ℕ) (Val := Elt F) spec14 c [cc14_scratch0])
          ∗ (∃ r, prngReg c r)) := by
  unfold Pipeline.ΦA; rw [scopedRest14_split]; simp only [scM14, owns_whole]
  rfl

def Phi14 (c : Dev nD) : (n : ℕ) → n ≤ cfg14.N → sProp 𝕄
  | 0, _ => Pipeline.ΦA spec14 c
  | n + 1, hn => iprop(iprop(owns (c : Thread nD τ) scM14 fullShare (acc14 V c n hn)
        ∗ Pipeline.scopedRestBut (Ix := Unit) (Name := ℕ) (U := UR sig nD τ) (Lvl := ℕ) (Val := Elt F) spec14 c [cc14_scratch0])
      ∗ (∃ r, prngReg c r))

theorem Phi14_zero (c : Dev nD) (n : ℕ) (h : n ≤ cfg14.N) (hz : n = 0) : Phi14 V c n h = Pipeline.ΦA spec14 c := by
  subst hz; rfl

theorem Phi14_succ (c : Dev nD) (n : ℕ) (hn : n < cfg14.N) :
    Phi14 V c (n + 1) hn = iprop(iprop(owns (c : Thread nD τ) scM14 fullShare (acc14 V c n hn)
        ∗ Pipeline.scopedRestBut (Ix := Unit) (Name := ℕ) (U := UR sig nD τ) (Lvl := ℕ) (Val := Elt F) spec14 c [cc14_scratch0])
      ∗ (∃ r, prngReg c r)) := rfl

theorem Phi14_pos (c : Dev nD) (n : ℕ) (h : n ≤ cfg14.N) (hz : n ≠ 0) :
    Phi14 V c n h = iprop(iprop(owns (c : Thread nD τ) scM14 fullShare (acc14 V c (n - 1) (by omega))
        ∗ Pipeline.scopedRestBut (Ix := Unit) (Name := ℕ) (U := UR sig nD τ) (Lvl := ℕ) (Val := Elt F) spec14 c [cc14_scratch0])
      ∗ (∃ r, prngReg c r)) := by
  cases n with
  | zero => exact absurd rfl hz
  | succ n => rfl

def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => acc14 V c t.val t.isLt
  Φ t := Phi14 V c t.val (Nat.le_of_lt_succ t.isLt)
  q _ := fullShare
  owed _ := 0

theorem A_eq14 (c : Dev nD) (w : Fin cfg14.W) : (dat14 V c).A w = V c (Pipeline.arrRef spec14 w) := by
  dsimp only [dat14]

theorem owed14 (c : Dev nD) : ∀ x, (dat14 V c).owed x = 0 := fun _ => rfl

theorem share14 (c : Dev nD) : ∀ w, (dat14 V c).q w = fullShare := fun _ => rfl

theorem recorded14 (c : Dev nD) : ∀ t, (dat14 V c).recorded t = Set.univ := fun _ => rfl

theorem after14_0 (c : Dev nD) (t : Fin cfg14.N) : (dat14 V c).after 0 t = iblk14 V c 0 t := by dsimp only [dat14]

theorem after14_1 (c : Dev nD) (t : Fin cfg14.N) : (dat14 V c).after 1 t = iblk14 V c 1 t := by dsimp only [dat14]

theorem after14_2 (c : Dev nD) (t : Fin cfg14.N) : (dat14 V c).after 2 t = acc14 V c t.val t.isLt := by dsimp only [dat14]

theorem before14_0 (c : Dev nD) (t : Fin cfg14.N) (d) : (dat14 V c).before 0 t d = iblk14 V c 0 t :=
  before14_0_of V (dat14 V c) (A_eq14 V c 0) t d

theorem before14_1 (c : Dev nD) (t : Fin cfg14.N) (d) : (dat14 V c).before 1 t d = iblk14 V c 1 t :=
  before14_1_of V (dat14 V c) (A_eq14 V c 1) t d

theorem Phi14_castSucc (c : Dev nD) (t : Fin cfg14.N) :
    (dat14 V c).Φ t.castSucc = Phi14 V c t.val (Nat.le_of_lt t.isLt) := by
  dsimp only [dat14]; simp only [Fin.coe_castSucc]

theorem Phi_in14 (c : Dev nD) : (dat14 V c).Φ 0 = Pipeline.ΦA spec14 c := by
  rw [show (dat14 V c).Φ 0 = Phi14 V c 0 (Nat.zero_le _) from rfl, Phi14_zero V c 0 _ rfl]

theorem Phi_out14 (c : Dev nD) : (dat14 V c).Φ (Fin.last _) ⊢ Pipeline.ΦA spec14 c := by
  have hN : cfg14.N = 50 := N_14
  rw [show (dat14 V c).Φ (Fin.last _) = Phi14 V c (Fin.last cfg14.N).val (Nat.le_of_lt_succ (Fin.last cfg14.N).isLt) from rfl,
    Phi14_pos V c _ _ (by rw [Fin.val_last]; omega), PhiA14_eq]
  iintro ⟨⟨HS, HR⟩, Hg⟩
  isplitl [HS HR]
  · isplitl [HS]
    · iexists _; iexact HS
    iexact HR
  iexact Hg

def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d)))

def bodyPost14 (c : Dev nD) (t : Fin cfg14.N) : sProp 𝕄 :=
  iprop((dat14 V c).Φ t.succ ∗ (dat14 V c).owesAt () t.succ
    ∗ (dat14 V c).leavesExact 0 t
    ∗ (dat14 V c).leavesExact 1 t
    ∗ (dat14 V c).leavesExact 2 t)

set_option maxHeartbeats 1600000 in
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1]
  rw [show (dat14 V c).owesAt () t.succ = (dat14 V c).owesAt () t.castSucc from rfl]
  rw [show (dat14 V c).Φ t.succ = Phi14 V c (t.val + 1) t.isLt from rfl, Phi14_succ]
  rw [show (dat14 V c).leavesExact 0 t = owns (c : Thread nD τ) (st14_0 t) fullShare ((dat14 V c).after 0 t) from by
    unfold Dat.leavesExact; rw [liveAt14_0 t], after14_0]
  rw [show (dat14 V c).leavesExact 1 t = owns (c : Thread nD τ) (st14_1 t) fullShare ((dat14 V c).after 1 t) from by
    unfold Dat.leavesExact; rw [liveAt14_1 t], after14_1]
  have hN : t.val < 50 := lt_of_lt_of_eq t.isLt (show cfg14.N = 50 from N_14)
  by_cases h2 : t.val = 49
  · have hz : t.val ≠ 0 := by omega
    rw [show (dat14 V c).leavesExact 2 t = owns (c : Thread nD τ) (st14_2 t) fullShare ((dat14 V c).after 2 t) from by
      unfold Dat.leavesExact; rw [liveAt14_2 t ((hcond14_2 t).mpr h2)], after14_2]
    rw [acc14_pos V c t hz]
    rw [Phi14_castSucc V c t, Phi14_pos V c _ _ hz]
    iintro ⟨⟨⟨HS, HR⟩, Hg⟩, Ho, ⟨%d0, H0⟩, ⟨%d1, H1⟩, ⟨%d2, H2⟩⟩
    iapply (sound_kernel14_last c Set.univ (grid14.coords t) _ _ _ _ _ _ _ _ (fun h => hz ((hcond14_1 t).mp h)) ((hcond14_2 t).mpr h2)
      (iblk14 V c 0 t) (iblk14 V c 1 t) _ _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · have hn2 : ¬cond14_2 (grid14.coords t) := fun h => h2 ((hcond14_2 t).mp h)
    rw [Dat.leavesExact_idle (dat14 V c) 2 t (idleAt14_2 t hn2) (noFlush14_2 t hn2)]
    by_cases h1 : t.val = 0
    · rw [acc14_zero V c t h1]
      rw [Phi14_castSucc V c t, Phi14_zero V c _ _ h1, PhiA14_eq]
      iintro ⟨⟨⟨HS, HR⟩, Hg⟩, Ho, ⟨%d0, H0⟩, ⟨%d1, H1⟩, ⟨%d2, H2⟩⟩
      iapply (sound_kernel14_first c Set.univ (grid14.coords t) _ _ _ _ _ _ _ _ ((hcond14_1 t).mpr h1) hn2
        (iblk14 V c 0 t) (iblk14 V c 1 t) _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
    · rw [acc14_pos V c t h1]
      rw [Phi14_castSucc V c t, Phi14_pos V c _ _ h1]
      iintro ⟨⟨⟨HS, HR⟩, Hg⟩, Ho, ⟨%d0, H0⟩, ⟨%d1, H1⟩, ⟨%d2, H2⟩⟩
      iapply (sound_kernel14_mid c Set.univ (grid14.coords t) _ _ _ _ _ _ _ _ (fun h => h1 ((hcond14_1 t).mp h)) hn2
        (iblk14 V c 0 t) (iblk14 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

theorem body_obligation14 (c : Dev nD) : BodyObligation (dat14 (F := F) V c) (defs₀ (F := F)) Variants.none () Set.univ := fun t => by
  rw [bigSep_W14, bigSep_W14]
  exact sound_body14 V c t

end Regions

section Value

open Idealize.ShloMosaic.ValueIdx
variable (V : (c : Dev nD) → (b : Ref sig .tc) → Buf (Elt F) ((c : Thread nD τ).loc b))

end Value

end Cert.Kernel.Hand

end
-- ==== Proof.K.RunFold.lean ====
import proofs.«424828_j6554120094214_2_alg».proof.Proof.K.Reg0
import proofs.«424828_j6554120094214_2_alg».proof.Proof.K.Reg1
import proofs.«424828_j6554120094214_2_alg».proof.Proof.K.Reg2
import proofs.«424828_j6554120094214_2_alg».proof.Proof.K.Reg3
import proofs.«424828_j6554120094214_2_alg».proof.Proof.K.Reg4
import proofs.«424828_j6554120094214_2_alg».proof.Proof.K.Reg5
import proofs.«424828_j6554120094214_2_alg».proof.Proof.K.Reg6
import proofs.«424828_j6554120094214_2_alg».proof.Proof.K.Reg7
import proofs.«424828_j6554120094214_2_alg».proof.Proof.K.Reg8
import proofs.«424828_j6554120094214_2_alg».proof.Proof.K.Reg9
import proofs.«424828_j6554120094214_2_alg».proof.Proof.K.Reg10
import proofs.«424828_j6554120094214_2_alg».proof.Proof.K.Reg11
import proofs.«424828_j6554120094214_2_alg».proof.Proof.K.Reg12
import proofs.«424828_j6554120094214_2_alg».proof.Proof.K.Reg13
import proofs.«424828_j6554120094214_2_alg».proof.Proof.K.Reg14
import proofs.«424828_j6554120094214_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ

variable (m : (ℓ : Loc nD τ sig) → Buf (Elt F) ℓ) (ρ : Dev nD → PrngReg)

omit m ρ in
/-- A buffer that is none of the windows' arrays, or whose window hands back what it found, is as it was. -/
theorem withArrays_keep {gr W : Nat} (win : Fin W → Pipeline.WinSpec sig gr) (hinj : Function.Injective (Pipeline.arrRef win))
    (c : Dev nD) (V : Valuation τ sig (Elt F)) (A : (w : Fin W) → Buf (Elt F) ((win w).arr.view.loc (c.tc : Thread nD τ)))
    (b : Ref sig .tc) (hb : ∀ w, Pipeline.arrRef win w = b → A w = V (Proc.devRef .tc (Pipeline.arrRef win w))) :
    Pipeline.withArrays win c V A (Proc.devRef .tc b) = V (Proc.devRef .tc b) := by
  by_cases h : ∃ w, Pipeline.arrRef win w = b
  · obtain ⟨w, rfl⟩ := h
    exact (Pipeline.withArrays_arr win hinj c V A w).trans (hb w rfl)
  · exact Pipeline.withArrays_of_ne win c V A b fun w e => h ⟨w, e⟩

abbrev W0 : Dev nD → Valuation τ sig (Elt F) := fun c b => (s₀ m ρ).mem ((c : Dev nD), b)

abbrev W1 : Dev nD → Valuation τ sig (Elt F) := fun c => StableHlo.after hostOps0 (W0 m ρ c)

theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h

abbrev W2 : Dev nD → Valuation τ sig (Elt F) := fun c => StableHlo.after hostOps0_1 (W1 m ρ c)

theorem W2_keep (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h

abbrev W3 : Dev nD → Valuation τ sig (Elt F) := fun c => StableHlo.after hostOps0_2 (W2 m ρ c)

theorem W3_keep (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h

abbrev VW3 : (c : Dev nD) → (b : Ref sig .tc) → Buf (Elt F) ((c : Thread nD τ).loc b) := fun c b => W3 m ρ c b

def W4 (c : Dev nD) : Valuation τ sig (Elt F) :=
  Pipeline.withArrays spec0 c (W3 m ρ c) fun w => (dat0 (VW3 m ρ) c).arrAt w cfg0.N

theorem W4_arr (c : Dev nD) (w : Fin cfg0.W) :
    W4 m ρ c (Proc.devRef .tc (Pipeline.arrRef spec0 w)) = (dat0 (VW3 m ρ) c).arrAt w cfg0.N := by
  unfold W4; exact Pipeline.withArrays_arr spec0 launch0.win.arr_inj c _ _ w

abbrev VW4 : (c : Dev nD) → (b : Ref sig .tc) → Buf (Elt F) ((c : Thread nD τ).loc b) := fun c b => W4 m ρ c b

theorem W4_keep (c : Dev nD) (b : Ref sig .tc) (hb : ∀ w, Pipeline.arrRef spec0 w = b → (cfg0.win w).isOut = false) :
    W4 m ρ c (Proc.devRef .tc b) = W3 m ρ c (Proc.devRef .tc b) := by
  unfold W4
  exact withArrays_keep spec0 launch0.win.arr_inj c _ _ b fun w e =>
    ((dat0 (VW3 m ρ) c).arrAt_in w (hb w e) _).trans (A_eq0 (VW3 m ρ) c w)

abbrev W5 : Dev nD → Valuation τ sig (Elt F) := fun c => StableHlo.after hostOps1 (W4 m ρ c)

theorem W5_keep (c : Dev nD) (r : Ref sig .tc) (h : r ∉ hostOps1_W) :
    W5 m ρ c (Proc.devRef .tc r) = W4 m ρ c (Proc.devRef .tc r) :=
  StableHlo.after_of_writes_sub hostOps1 _ hostOps1_writes h

abbrev VW5 : (c : Dev nD) → (b : Ref sig .tc) → Buf (Elt F) ((c : Thread nD τ).loc b) := fun c b => W5 m ρ c b

def W6 (c : Dev nD) : Valuation τ sig (Elt F) :=
  Pipeline.withArrays spec1 c (W5 m ρ c) fun w => (dat1 (VW5 m ρ) c).arrAt w cfg1.N

theorem W6_arr (c : Dev nD) (w : Fin cfg1.W) :
    W6 m ρ c (Proc.devRef .tc (Pipeline.arrRef spec1 w)) = (dat1 (VW5 m ρ) c).arrAt w cfg1.N := by
  unfold W6; exact Pipeline.withArrays_arr spec1 launch1.win.arr_inj c _ _ w

abbrev VW6 : (c : Dev nD) → (b : Ref sig .tc) → Buf (Elt F) ((c : Thread nD τ).loc b) := fun c b => W6 m ρ c b

theorem W6_keep (c : Dev nD) (b : Ref sig .tc) (hb : ∀ w, Pipeline.arrRef spec1 w = b → (cfg1.win w).isOut = false) :
    W6 m ρ c (Proc.devRef .tc b) = W5 m ρ c (Proc.devRef .tc b) := by
  unfold W6
  exact withArrays_keep spec1 launch1.win.arr_inj c _ _ b fun w e =>
    ((dat1 (VW5 m ρ) c).arrAt_in w (hb w e) _).trans (A_eq1 (VW5 m ρ) c w)

abbrev W7 : Dev nD → Valuation τ sig (Elt F) := fun c => StableHlo.after hostOps2 (W6 m ρ c)

theorem W7_keep (c : Dev nD) (r : Ref sig .tc) (h : r ∉ hostOps2_W) :
    W7 m ρ c (Proc.devRef .tc r) = W6 m ρ c (Proc.devRef .tc r) :=
  StableHlo.after_of_writes_sub hostOps2 _ hostOps2_writes h

abbrev VW7 : (c : Dev nD) → (b : Ref sig .tc) → Buf (Elt F) ((c : Thread nD τ).loc b) := fun c b => W7 m ρ c b

def W8 (c : Dev nD) : Valuation τ sig (Elt F) :=
  Pipeline.withArrays spec2 c (W7 m ρ c) fun w => (dat2 (VW7 m ρ) c).arrAt w cfg2.N

theorem W8_arr (c : Dev nD) (w : Fin cfg2.W) :
    W8 m ρ c (Proc.devRef .tc (Pipeline.arrRef spec2 w)) = (dat2 (VW7 m ρ) c).arrAt w cfg2.N := by
  unfold W8; exact Pipeline.withArrays_arr spec2 launch2.win.arr_inj c _ _ w

abbrev VW8 : (c : Dev nD) → (b : Ref sig .tc) → Buf (Elt F) ((c : Thread nD τ).loc b) := fun c b => W8 m ρ c b

theorem W8_keep (c : Dev nD) (b : Ref sig .tc) (hb : ∀ w, Pipeline.arrRef spec2 w = b → (cfg2.win w).isOut = false) :
    W8 m ρ c (Proc.devRef .tc b) = W7 m ρ c (Proc.devRef .tc b) := by
  unfold W8
  exact withArrays_keep spec2 launch2.win.arr_inj c _ _ b fun w e =>
    ((dat2 (VW7 m ρ) c).arrAt_in w (hb w e) _).trans (A_eq2 (VW7 m ρ) c w)

abbrev W9 : Dev nD → Valuation τ sig (Elt F) := fun c => StableHlo.after hostOps3 (W8 m ρ c)

theorem W9_keep (c : Dev nD) (r : Ref sig .tc) (h : r ∉ hostOps3_W) :
    W9 m ρ c (Proc.devRef .tc r) = W8 m ρ c (Proc.devRef .tc r) :=
  StableHlo.after_of_writes_sub hostOps3 _ hostOps3_writes h

abbrev VW9 : (c : Dev nD) → (b : Ref sig .tc) → Buf (Elt F) ((c : Thread nD τ).loc b) := fun c b => W9 m ρ c b

def W10 (c : Dev nD) : Valuation τ sig (Elt F) :=
  Pipeline.withArrays spec3 c (W9 m ρ c) fun w => (dat3 (VW9 m ρ) c).arrAt w cfg3.N

theorem W10_arr (c : Dev nD) (w : Fin cfg3.W) :
    W10 m ρ c (Proc.devRef .tc (Pipeline.arrRef spec3 w)) = (dat3 (VW9 m ρ) c).arrAt w cfg3.N := by
  unfold W10; exact Pipeline.withArrays_arr spec3 launch3.win.arr_inj c _ _ w

abbrev VW10 : (c : Dev nD) → (b : Ref sig .tc) → Buf (Elt F) ((c : Thread nD τ).loc b) := fun c b => W10 m ρ c b

theorem W10_keep (c : Dev nD) (b : Ref sig .tc) (hb : ∀ w, Pipeline.arrRef spec3 w = b → (cfg3.win w).isOut = false) :
    W10 m ρ c (Proc.devRef .tc b) = W9 m ρ c (Proc.devRef .tc b) := by
  unfold W10
  exact withArrays_keep spec3 launch3.win.arr_inj c _ _ b fun w e =>
    ((dat3 (VW9 m ρ) c).arrAt_in w (hb w e) _).trans (A_eq3 (VW9 m ρ) c w)

def W11 (c : Dev nD) : Valuation τ sig (Elt F) :=
  Pipeline.withArrays spec4 c (W10 m ρ c) fun w => (dat4 (VW10 m ρ) c).arrAt w cfg4.N

theorem W11_arr (c : Dev nD) (w : Fin cfg4.W) :
    W11 m ρ c (Proc.devRef .tc (Pipeline.arrRef spec4 w)) = (dat4 (VW10 m ρ) c).arrAt w cfg4.N := by
  unfold W11; exact Pipeline.withArrays_arr spec4 launch4.win.arr_inj c _ _ w

abbrev VW11 : (c : Dev nD) → (b : Ref sig .tc) → Buf (Elt F) ((c : Thread nD τ).loc b) := fun c b => W11 m ρ c b

theorem W11_keep (c : Dev nD) (b : Ref sig .tc) (hb : ∀ w, Pipeline.arrRef spec4 w = b → (cfg4.win w).isOut = false) :
    W11 m ρ c (Proc.devRef .tc b) = W10 m ρ c (Proc.devRef .tc b) := by
  unfold W11
  exact withArrays_keep spec4 launch4.win.arr_inj c _ _ b fun w e =>
    ((dat4 (VW10 m ρ) c).arrAt_in w (hb w e) _).trans (A_eq4 (VW10 m ρ) c w)

abbrev W12 : Dev nD → Valuation τ sig (Elt F) := fun c => StableHlo.after hostOps5 (W11 m ρ c)

theorem W12_keep (c : Dev nD) (r : Ref sig .tc) (h : r ∉ hostOps5_W) :
    W12 m ρ c (Proc.devRef .tc r) = W11 m ρ c (Proc.devRef .tc r) :=
  StableHlo.after_of_writes_sub hostOps5 _ hostOps5_writes h

abbrev VW12 : (c : Dev nD) → (b : Ref sig .tc) → Buf (Elt F) ((c : Thread nD τ).loc b) := fun c b => W12 m ρ c b

def W13 (c : Dev nD) : Valuation τ sig (Elt F) :=
  Pipeline.withArrays spec5 c (W12 m ρ c) fun w => (dat5 (VW12 m ρ) c).arrAt w cfg5.N

theorem W13_arr (c : Dev nD) (w : Fin cfg5.W) :
    W13 m ρ c (Proc.devRef .tc (Pipeline.arrRef spec5 w)) = (dat5 (VW12 m ρ) c).arrAt w cfg5.N := by
  unfold W13; exact Pipeline.withArrays_arr spec5 launch5.win.arr_inj c _ _ w

abbrev VW13 : (c : Dev nD) → (b : Ref sig .tc) → Buf (Elt F) ((c : Thread nD τ).loc b) := fun c b => W13 m ρ c b

theorem W13_keep (c : Dev nD) (b : Ref sig .tc) (hb : ∀ w, Pipeline.arrRef spec5 w = b → (cfg5.win w).isOut = false) :
    W13 m ρ c (Proc.devRef .tc b) = W12 m ρ c (Proc.devRef .tc b) := by
  unfold W13
  exact withArrays_keep spec5 launch5.win.arr_inj c _ _ b fun w e =>
    ((dat5 (VW12 m ρ) c).arrAt_in w (hb w e) _).trans (A_eq5 (VW12 m ρ) c w)

abbrev W14 : Dev nD → Valuation τ sig (Elt F) := fun c => StableHlo.after hostOps6 (W13 m ρ c)

theorem W14_keep (c : Dev nD) (r : Ref sig .tc) (h : r ∉ hostOps6_W) :
    W14 m ρ c (Proc.devRef .tc r) = W13 m ρ c (Proc.devRef .tc r) :=
  StableHlo.after_of_writes_sub hostOps6 _ hostOps6_writes h

abbrev VW14 : (c : Dev nD) → (b : Ref sig .tc) → Buf (Elt F) ((c : Thread nD τ).loc b) := fun c b => W14 m ρ c b

def W15 (c : Dev nD) : Valuation τ sig (Elt F) :=
  Pipeline.withArrays spec6 c (W14 m ρ c) fun w => (dat6 (VW14 m ρ) c).arrAt w cfg6.N

theorem W15_arr (c : Dev nD) (w : Fin cfg6.W) :
    W15 m ρ c (Proc.devRef .tc (Pipeline.arrRef spec6 w)) = (dat6 (VW14 m ρ) c).arrAt w cfg6.N := by
  unfold W15; exact Pipeline.withArrays_arr spec6 launch6.win.arr_inj c _ _ w

abbrev VW15 : (c : Dev nD) → (b : Ref sig .tc) → Buf (Elt F) ((c : Thread nD τ).loc b) := fun c b => W15 m ρ c b

theorem W15_keep (c : Dev nD) (b : Ref sig .tc) (hb : ∀ w, Pipeline.arrRef spec6 w = b → (cfg6.win w).isOut = false) :
    W15 m ρ c (Proc.devRef .tc b) = W14 m ρ c (Proc.devRef .tc b) := by
  unfold W15
  exact withArrays_keep spec6 launch6.win.arr_inj c _ _ b fun w e =>
    ((dat6 (VW14 m ρ) c).arrAt_in w (hb w e) _).trans (A_eq6 (VW14 m ρ) c w)

abbrev W16 : Dev nD → Valuation τ sig (Elt F) := fun c => StableHlo.after hostOps7 (W15 m ρ c)

theorem W16_keep (c : Dev nD) (r : Ref sig .tc) (h : r ∉ hostOps7_W) :
    W16 m ρ c (Proc.devRef .tc r) = W15 m ρ c (Proc.devRef .tc r) :=
  StableHlo.after_of_writes_sub hostOps7 _ hostOps7_writes h

abbrev VW16 : (c : Dev nD) → (b : Ref sig .tc) → Buf (Elt F) ((c : Thread nD τ).loc b) := fun c b => W16 m ρ c b

def W17 (c : Dev nD) : Valuation τ sig (Elt F) :=
  Pipeline.withArrays spec7 c (W16 m ρ c) fun w => (dat7 (VW16 m ρ) c).arrAt w cfg7.N

theorem W17_arr (c : Dev nD) (w : Fin cfg7.W) :
    W17 m ρ c (Proc.devRef .tc (Pipeline.arrRef spec7 w)) = (dat7 (VW16 m ρ) c).arrAt w cfg7.N := by
  unfold W17; exact Pipeline.withArrays_arr spec7 launch7.win.arr_inj c _ _ w

abbrev VW17 : (c : Dev nD) → (b : Ref sig .tc) → Buf (Elt F) ((c : Thread nD τ).loc b) := fun c b => W17 m ρ c b

theorem W17_keep (c : Dev nD) (b : Ref sig .tc) (hb : ∀ w, Pipeline.arrRef spec7 w = b → (cfg7.win w).isOut = false) :
    W17 m ρ c (Proc.devRef .tc b) = W16 m ρ c (Proc.devRef .tc b) := by
  unfold W17
  exact withArrays_keep spec7 launch7.win.arr_inj c _ _ b fun w e =>
    ((dat7 (VW16 m ρ) c).arrAt_in w (hb w e) _).trans (A_eq7 (VW16 m ρ) c w)

def W18 (c : Dev nD) : Valuation τ sig (Elt F) :=
  Pipeline.withArrays spec8 c (W17 m ρ c) fun w => (dat8 (VW17 m ρ) c).arrAt w cfg8.N

theorem W18_arr (c : Dev nD) (w : Fin cfg8.W) :
    W18 m ρ c (Proc.devRef .tc (Pipeline.arrRef spec8 w)) = (dat8 (VW17 m ρ) c).arrAt w cfg8.N := by
  unfold W18; exact Pipeline.withArrays_arr spec8 launch8.win.arr_inj c _ _ w

abbrev VW18 : (c : Dev nD) → (b : Ref sig .tc) → Buf (Elt F) ((c : Thread nD τ).loc b) := fun c b => W18 m ρ c b

theorem W18_keep (c : Dev nD) (b : Ref sig .tc) (hb : ∀ w, Pipeline.arrRef spec8 w = b → (cfg8.win w).isOut = false) :
    W18 m ρ c (Proc.devRef .tc b) = W17 m ρ c (Proc.devRef .tc b) := by
  unfold W18
  exact withArrays_keep spec8 launch8.win.arr_inj c _ _ b fun w e =>
    ((dat8 (VW17 m ρ) c).arrAt_in w (hb w e) _).trans (A_eq8 (VW17 m ρ) c w)

abbrev W19 : Dev nD → Valuation τ sig (Elt F) := fun c => StableHlo.after hostOps9 (W18 m ρ c)

theorem W19_keep (c : Dev nD) (r : Ref sig .tc) (h : r ∉ hostOps9_W) :
    W19 m ρ c (Proc.devRef .tc r) = W18 m ρ c (Proc.devRef .tc r) :=
  StableHlo.after_of_writes_sub hostOps9 _ hostOps9_writes h

abbrev VW19 : (c : Dev nD) → (b : Ref sig .tc) → Buf (Elt F) ((c : Thread nD τ).loc b) := fun c b => W19 m ρ c b

def W20 (c : Dev nD) : Valuation τ sig (Elt F) :=
  Pipeline.withArrays spec9 c (W19 m ρ c) fun w => (dat9 (VW19 m ρ) c).arrAt w cfg9.N

theorem W20_arr (c : Dev nD) (w : Fin cfg9.W) :
    W20 m ρ c (Proc.devRef .tc (Pipeline.arrRef spec9 w)) = (dat9 (VW19 m ρ) c).arrAt w cfg9.N := by
  unfold W20; exact Pipeline.withArrays_arr spec9 launch9.win.arr_inj c _ _ w

abbrev VW20 : (c : Dev nD) → (b : Ref sig .tc) → Buf (Elt F) ((c : Thread nD τ).loc b) := fun c b => W20 m ρ c b

theorem W20_keep (c : Dev nD) (b : Ref sig .tc) (hb : ∀ w, Pipeline.arrRef spec9 w = b → (cfg9.win w).isOut = false) :
    W20 m ρ c (Proc.devRef .tc b) = W19 m ρ c (Proc.devRef .tc b) := by
  unfold W20
  exact withArrays_keep spec9 launch9.win.arr_inj c _ _ b fun w e =>
    ((dat9 (VW19 m ρ) c).arrAt_in w (hb w e) _).trans (A_eq9 (VW19 m ρ) c w)

abbrev W21 : Dev nD → Valuation τ sig (Elt F) := fun c => StableHlo.after hostOps10 (W20 m ρ c)

theorem W21_keep (c : Dev nD) (r : Ref sig .tc) (h : r ∉ hostOps10_W) :
    W21 m ρ c (Proc.devRef .tc r) = W20 m ρ c (Proc.devRef .tc r) :=
  StableHlo.after_of_writes_sub hostOps10 _ hostOps10_writes h

abbrev VW21 : (c : Dev nD) → (b : Ref sig .tc) → Buf (Elt F) ((c : Thread nD τ).loc b) := fun c b => W21 m ρ c b

def W22 (c : Dev nD) : Valuation τ sig (Elt F) :=
  Pipeline.withArrays spec10 c (W21 m ρ c) fun w => (dat10 (VW21 m ρ) c).arrAt w cfg10.N

theorem W22_arr (c : Dev nD) (w : Fin cfg10.W) :
    W22 m ρ c (Proc.devRef .tc (Pipeline.arrRef spec10 w)) = (dat10 (VW21 m ρ) c).arrAt w cfg10.N := by
  unfold W22; exact Pipeline.withArrays_arr spec10 launch10.win.arr_inj c _ _ w

abbrev VW22 : (c : Dev nD) → (b : Ref sig .tc) → Buf (Elt F) ((c : Thread nD τ).loc b) := fun c b => W22 m ρ c b

theorem W22_keep (c : Dev nD) (b : Ref sig .tc) (hb : ∀ w, Pipeline.arrRef spec10 w = b → (cfg10.win w).isOut = false) :
    W22 m ρ c (Proc.devRef .tc b) = W21 m ρ c (Proc.devRef .tc b) := by
  unfold W22
  exact withArrays_keep spec10 launch10.win.arr_inj c _ _ b fun w e =>
    ((dat10 (VW21 m ρ) c).arrAt_in w (hb w e) _).trans (A_eq10 (VW21 m ρ) c w)

abbrev W23 : Dev nD → Valuation τ sig (Elt F) := fun c => StableHlo.after hostOps11 (W22 m ρ c)

theorem W23_keep (c : Dev nD) (r : Ref sig .tc) (h : r ∉ hostOps11_W) :
    W23 m ρ c (Proc.devRef .tc r) = W22 m ρ c (Proc.devRef .tc r) :=
  StableHlo.after_of_writes_sub hostOps11 _ hostOps11_writes h

abbrev VW23 : (c : Dev nD) → (b : Ref sig .tc) → Buf (Elt F) ((c : Thread nD τ).loc b) := fun c b => W23 m ρ c b

def W24 (c : Dev nD) : Valuation τ sig (Elt F) :=
  Pipeline.withArrays spec11 c (W23 m ρ c) fun w => (dat11 (VW23 m ρ) c).arrAt w cfg11.N

theorem W24_arr (c : Dev nD) (w : Fin cfg11.W) :
    W24 m ρ c (Proc.devRef .tc (Pipeline.arrRef spec11 w)) = (dat11 (VW23 m ρ) c).arrAt w cfg11.N := by
  unfold W24; exact Pipeline.withArrays_arr spec11 launch11.win.arr_inj c _ _ w

abbrev VW24 : (c : Dev nD) → (b : Ref sig .tc) → Buf (Elt F) ((c : Thread nD τ).loc b) := fun c b => W24 m ρ c b

theorem W24_keep (c : Dev nD) (b : Ref sig .tc) (hb : ∀ w, Pipeline.arrRef spec11 w = b → (cfg11.win w).isOut = false) :
    W24 m ρ c (Proc.devRef .tc b) = W23 m ρ c (Proc.devRef .tc b) := by
  unfold W24
  exact withArrays_keep spec11 launch11.win.arr_inj c _ _ b fun w e =>
    ((dat11 (VW23 m ρ) c).arrAt_in w (hb w e) _).trans (A_eq11 (VW23 m ρ) c w)

def W25 (c : Dev nD) : Valuation τ sig (Elt F) :=
  Pipeline.withArrays spec12 c (W24 m ρ c) fun w => (dat12 (VW24 m ρ) c).arrAt w cfg12.N

theorem W25_arr (c : Dev nD) (w : Fin cfg12.W) :
    W25 m ρ c (Proc.devRef .tc (Pipeline.arrRef spec12 w)) = (dat12 (VW24 m ρ) c).arrAt w cfg12.N := by
  unfold W25; exact Pipeline.withArrays_arr spec12 launch12.win.arr_inj c _ _ w

abbrev VW25 : (c : Dev nD) → (b : Ref sig .tc) → Buf (Elt F) ((c : Thread nD τ).loc b) := fun c b => W25 m ρ c b

theorem W25_keep (c : Dev nD) (b : Ref sig .tc) (hb : ∀ w, Pipeline.arrRef spec12 w = b → (cfg12.win w).isOut = false) :
    W25 m ρ c (Proc.devRef .tc b) = W24 m ρ c (Proc.devRef .tc b) := by
  unfold W25
  exact withArrays_keep spec12 launch12.win.arr_inj c _ _ b fun w e =>
    ((dat12 (VW24 m ρ) c).arrAt_in w (hb w e) _).trans (A_eq12 (VW24 m ρ) c w)

def W26 (c : Dev nD) : Valuation τ sig (Elt F) :=
  Pipeline.withArrays spec13 c (W25 m ρ c) fun w => (dat13 (VW25 m ρ) c).arrAt w cfg13.N

theorem W26_arr (c : Dev nD) (w : Fin cfg13.W) :
    W26 m ρ c (Proc.devRef .tc (Pipeline.arrRef spec13 w)) = (dat13 (VW25 m ρ) c).arrAt w cfg13.N := by
  unfold W26; exact Pipeline.withArrays_arr spec13 launch13.win.arr_inj c _ _ w

abbrev VW26 : (c : Dev nD) → (b : Ref sig .tc) → Buf (Elt F) ((c : Thread nD τ).loc b) := fun c b => W26 m ρ c b

theorem W26_keep (c : Dev nD) (b : Ref sig .tc) (hb : ∀ w, Pipeline.arrRef spec13 w = b → (cfg13.win w).isOut = false) :
    W26 m ρ c (Proc.devRef .tc b) = W25 m ρ c (Proc.devRef .tc b) := by
  unfold W26
  exact withArrays_keep spec13 launch13.win.arr_inj c _ _ b fun w e =>
    ((dat13 (VW25 m ρ) c).arrAt_in w (hb w e) _).trans (A_eq13 (VW25 m ρ) c w)

def W27 (c : Dev nD) : Valuation τ sig (Elt F) :=
  Pipeline.withArrays spec14 c (W26 m ρ c) fun w => (dat14 (VW26 m ρ) c).arrAt w cfg14.N

theorem W27_arr (c : Dev nD) (w : Fin cfg14.W) :
    W27 m ρ c (Proc.devRef .tc (Pipeline.arrRef spec14 w)) = (dat14 (VW26 m ρ) c).arrAt w cfg14.N := by
  unfold W27; exact Pipeline.withArrays_arr spec14 launch14.win.arr_inj c _ _ w

abbrev VW27 : (c : Dev nD) → (b : Ref sig .tc) → Buf (Elt F) ((c : Thread nD τ).loc b) := fun c b => W27 m ρ c b

theorem W27_keep (c : Dev nD) (b : Ref sig .tc) (hb : ∀ w, Pipeline.arrRef spec14 w = b → (cfg14.win w).isOut = false) :
    W27 m ρ c (Proc.devRef .tc b) = W26 m ρ c (Proc.devRef .tc b) := by
  unfold W27
  exact withArrays_keep spec14 launch14.win.arr_inj c _ _ b fun w e =>
    ((dat14 (VW26 m ρ) c).arrAt_in w (hb w e) _).trans (A_eq14 (VW26 m ρ) c w)

abbrev W28 : Dev nD → Valuation τ sig (Elt F) := fun c => StableHlo.after hostOps15 (W27 m ρ c)

theorem W28_keep (c : Dev nD) (r : Ref sig .tc) (h : r ∉ hostOps15_W) :
    W28 m ρ c (Proc.devRef .tc r) = W27 m ρ c (Proc.devRef .tc r) :=
  StableHlo.after_of_writes_sub hostOps15 _ hostOps15_writes h

def pdats : (p : Fin 15) → (c : Dev nD) → Dat τ (Elt F) Unit ℕ (UR sig nD τ) ℕ (Pipeline.pin (pcfgs (F := F)) adm p) c
  | ⟨0, _⟩ => fun c => dat0 (VW3 m ρ) c
  | ⟨1, _⟩ => fun c => dat1 (VW5 m ρ) c
  | ⟨2, _⟩ => fun c => dat2 (VW7 m ρ) c
  | ⟨3, _⟩ => fun c => dat3 (VW9 m ρ) c
  | ⟨4, _⟩ => fun c => dat4 (VW10 m ρ) c
  | ⟨5, _⟩ => fun c => dat5 (VW12 m ρ) c
  | ⟨6, _⟩ => fun c => dat6 (VW14 m ρ) c
  | ⟨7, _⟩ => fun c => dat7 (VW16 m ρ) c
  | ⟨8, _⟩ => fun c => dat8 (VW17 m ρ) c
  | ⟨9, _⟩ => fun c => dat9 (VW19 m ρ) c
  | ⟨10, _⟩ => fun c => dat10 (VW21 m ρ) c
  | ⟨11, _⟩ => fun c => dat11 (VW23 m ρ) c
  | ⟨12, _⟩ => fun c => dat12 (VW24 m ρ) c
  | ⟨13, _⟩ => fun c => dat13 (VW25 m ρ) c
  | ⟨14, _⟩ => fun c => dat14 (VW26 m ρ) c

abbrev 𝒱₀ : Variants := Variants.none

abbrev L : GSem nD τ sig → Finset Unit := fun _ => ∅

abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W28 m ρ c) ∗ ∃ r, prngReg c r)

omit m ρ in
theorem owesAt_in {cfg : Cfg sig Λ₀} {c : Dev nD} (dat : Dat τ (Elt F) Unit ℕ (UR sig nD τ) ℕ cfg c)
    (h : ∀ t, dat.owed t = 0) (hr : ∀ t, dat.recorded t = Set.univ) (t : Fin (cfg.N + 1)) :
    (iprop(∃ W, owes (c : Thread nD τ) (0 : CellTallies nD τ sig Unit) W) : sProp 𝕄) ⊢ dat.owesAt () t := by
  unfold Pipeline.Dat.owesAt Pipeline.owesWithin Pipeline.Dat.bound
  rw [h t, hr t]
  iintro ⟨%W, HO⟩; iexists W; isplitr; · ipureintro; exact fun _ _ => Or.inl trivial
  iexact HO

omit m ρ in
theorem owesAt_out {cfg : Cfg sig Λ₀} {c : Dev nD} (dat : Dat τ (Elt F) Unit ℕ (UR sig nD τ) ℕ cfg c)
    (h : ∀ t, dat.owed t = 0) (t : Fin (cfg.N + 1)) :
    dat.owesAt () t ⊢ (iprop(∃ W, owes (c : Thread nD τ) (0 : CellTallies nD τ sig Unit) W) : sProp 𝕄) := by
  unfold Pipeline.Dat.owesAt Pipeline.owesWithin
  rw [h t]
  iintro ⟨%W, -, HO⟩; iexists W; iexact HO

theorem prefHeld_none (p : Fin 15) (c : Dev nD) :
    (BI.emp : sProp 𝕄) ⊢ Pipeline.prefHeld (pcfgs (F := F) p).pre c (fun _ => fullShare) (adm p).1 := by
  unfold Pipeline.prefHeld
  rw [show (Finset.univ : Finset (Fin 0)) = ∅ from rfl, BI.bigSep_empty]

set_option backward.isDefEq.respectTransparency.types false in
/-- One region of @main as a step of the run from buffer contents `Wi` to `Wo`, where `Wo` differs from `Wi` only on the region's arrays. -/
def regOf (p : Fin 15) (launch : Pipeline.LaunchFacts (nD := nD) (τ := τ) cfgs p) (Wi Wo : Dev nD → Valuation τ sig (Elt F))
    (hbody : ∀ c, BodyObligation (pdats m ρ p c) (defs₀ (F := F)) Variants.none () Set.univ)
    (howed : ∀ c t, (pdats m ρ p c).owed t = 0) (hshare : ∀ c w, (pdats m ρ p c).q w = fullShare)
    (hrec : ∀ c t, (pdats m ρ p c).recorded t = Set.univ)
    (hA : ∀ c w, (pdats m ρ p c).A w = Wi c (Proc.devRef .tc (Pipeline.arrRef (cfgs p).spec w)))
    (hΦi : ∀ c, (pdats m ρ p c).Φ 0 = Pipeline.ΦA (cfgs p).spec c)
    (hΦo : ∀ c, (pdats m ρ p c).Φ (Fin.last _) ⊢ Pipeline.ΦA (cfgs p).spec c)
    (hWo : ∀ c, Wo c = Pipeline.withArrays (cfgs p).spec c (Wi c) fun w => (pdats m ρ p c).arrAt w (cfgs p).N) :
    Pipeline.RegionSeg (pcfgs (F := F)) adm (pdats m ρ) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Wi c b)
  hentry c := by
    rw [Pipeline.ownSems0_none]
    have hsplit := Pipeline.arrays_of_unscopedBufs (p := p) (pcfgs (F := F)) adm (pdats m ρ) launch.win launch.arr_whole c
      ((pdats m ρ p c).share_full (hshare c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iapply (prefHeld_none p c); iempintro
    isplitl [HO]
    · iapply (owesAt_in (pdats m ρ p c) (howed c) (hrec c) 0); iexact HO
    isplitl [Hp]; · iexact Hp
    iexact Hrest
  hin c := by
    rw [hΦi c]; unfold Pipeline.ΦA
    iintro ⟨Hp, -, Hr⟩
    isplitl [Hr]; · iexact Hr
    iexact Hp
  hout c := by
    refine (hΦo c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m ρ) ((pdats m ρ p c).share_full (hshare c))
      (fun b => Wi c b) (fun b => Wo c b) ((pdats m ρ p c).arrAt · (cfgs p).N)
      (fun w => by
        rw [hWo c]
        exact (Pipeline.withArrays_arr (cfgs p).spec launch.win.arr_inj c (Wi c) (fun w => (pdats m ρ p c).arrAt w (cfgs p).N) w).symm)
      (fun b hb => by
        rw [hWo c]
        exact Pipeline.withArrays_of_ne (cfgs p).spec c (Wi c) (fun w => (pdats m ρ p c).arrAt w (cfgs p).N) b
          fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_out (pdats m ρ p c) (howed c) (Fin.last _)); iexact HO

end Cert.Kernel.Hand

end
-- ==== Proof.K.Run.lean ====
import proofs.«424828_j6554120094214_2_alg».proof.Proof.K.RunFold
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ

variable (m : (ℓ : Loc nD τ sig) → Buf (Elt F) ℓ) (ρ : Dev nD → PrngReg)

def reg0 : Pipeline.RegionSeg (pcfgs (F := F)) adm (pdats m ρ) () defs₀ 𝒱₀ L lv 0 :=
  regOf m ρ 0 launch0 (W3 m ρ) (W4 m ρ) (body_obligation0 (VW3 m ρ)) (owed0 (VW3 m ρ)) (share0 (VW3 m ρ))
    (recorded0 (VW3 m ρ)) (A_eq0 (VW3 m ρ)) (Phi_in0 (VW3 m ρ)) (Phi_out0 (VW3 m ρ)) fun _ => rfl

def reg1 : Pipeline.RegionSeg (pcfgs (F := F)) adm (pdats m ρ) () defs₀ 𝒱₀ L lv 1 :=
  regOf m ρ 1 launch1 (W5 m ρ) (W6 m ρ) (body_obligation1 (VW5 m ρ)) (owed1 (VW5 m ρ)) (share1 (VW5 m ρ))
    (recorded1 (VW5 m ρ)) (A_eq1 (VW5 m ρ)) (Phi_in1 (VW5 m ρ)) (Phi_out1 (VW5 m ρ)) fun _ => rfl

def reg2 : Pipeline.RegionSeg (pcfgs (F := F)) adm (pdats m ρ) () defs₀ 𝒱₀ L lv 2 :=
  regOf m ρ 2 launch2 (W7 m ρ) (W8 m ρ) (body_obligation2 (VW7 m ρ)) (owed2 (VW7 m ρ)) (share2 (VW7 m ρ))
    (recorded2 (VW7 m ρ)) (A_eq2 (VW7 m ρ)) (Phi_in2 (VW7 m ρ)) (Phi_out2 (VW7 m ρ)) fun _ => rfl

def reg3 : Pipeline.RegionSeg (pcfgs (F := F)) adm (pdats m ρ) () defs₀ 𝒱₀ L lv 3 :=
  regOf m ρ 3 launch3 (W9 m ρ) (W10 m ρ) (body_obligation3 (VW9 m ρ)) (owed3 (VW9 m ρ)) (share3 (VW9 m ρ))
    (recorded3 (VW9 m ρ)) (A_eq3 (VW9 m ρ)) (Phi_in3 (VW9 m ρ)) (Phi_out3 (VW9 m ρ)) fun _ => rfl

def reg4 : Pipeline.RegionSeg (pcfgs (F := F)) adm (pdats m ρ) () defs₀ 𝒱₀ L lv 4 :=
  regOf m ρ 4 launch4 (W10 m ρ) (W11 m ρ) (body_obligation4 (VW10 m ρ)) (owed4 (VW10 m ρ)) (share4 (VW10 m ρ))
    (recorded4 (VW10 m ρ)) (A_eq4 (VW10 m ρ)) (Phi_in4 (VW10 m ρ)) (Phi_out4 (VW10 m ρ)) fun _ => rfl

def reg5 : Pipeline.RegionSeg (pcfgs (F := F)) adm (pdats m ρ) () defs₀ 𝒱₀ L lv 5 :=
  regOf m ρ 5 launch5 (W12 m ρ) (W13 m ρ) (body_obligation5 (VW12 m ρ)) (owed5 (VW12 m ρ)) (share5 (VW12 m ρ))
    (recorded5 (VW12 m ρ)) (A_eq5 (VW12 m ρ)) (Phi_in5 (VW12 m ρ)) (Phi_out5 (VW12 m ρ)) fun _ => rfl

def reg6 : Pipeline.RegionSeg (pcfgs (F := F)) adm (pdats m ρ) () defs₀ 𝒱₀ L lv 6 :=
  regOf m ρ 6 launch6 (W14 m ρ) (W15 m ρ) (body_obligation6 (VW14 m ρ)) (owed6 (VW14 m ρ)) (share6 (VW14 m ρ))
    (recorded6 (VW14 m ρ)) (A_eq6 (VW14 m ρ)) (Phi_in6 (VW14 m ρ)) (Phi_out6 (VW14 m ρ)) fun _ => rfl

def reg7 : Pipeline.RegionSeg (pcfgs (F := F)) adm (pdats m ρ) () defs₀ 𝒱₀ L lv 7 :=
  regOf m ρ 7 launch7 (W16 m ρ) (W17 m ρ) (body_obligation7 (VW16 m ρ)) (owed7 (VW16 m ρ)) (share7 (VW16 m ρ))
    (recorded7 (VW16 m ρ)) (A_eq7 (VW16 m ρ)) (Phi_in7 (VW16 m ρ)) (Phi_out7 (VW16 m ρ)) fun _ => rfl

def reg8 : Pipeline.RegionSeg (pcfgs (F := F)) adm (pdats m ρ) () defs₀ 𝒱₀ L lv 8 :=
  regOf m ρ 8 launch8 (W17 m ρ) (W18 m ρ) (body_obligation8 (VW17 m ρ)) (owed8 (VW17 m ρ)) (share8 (VW17 m ρ))
    (recorded8 (VW17 m ρ)) (A_eq8 (VW17 m ρ)) (Phi_in8 (VW17 m ρ)) (Phi_out8 (VW17 m ρ)) fun _ => rfl

def reg9 : Pipeline.RegionSeg (pcfgs (F := F)) adm (pdats m ρ) () defs₀ 𝒱₀ L lv 9 :=
  regOf m ρ 9 launch9 (W19 m ρ) (W20 m ρ) (body_obligation9 (VW19 m ρ)) (owed9 (VW19 m ρ)) (share9 (VW19 m ρ))
    (recorded9 (VW19 m ρ)) (A_eq9 (VW19 m ρ)) (Phi_in9 (VW19 m ρ)) (Phi_out9 (VW19 m ρ)) fun _ => rfl

def reg10 : Pipeline.RegionSeg (pcfgs (F := F)) adm (pdats m ρ) () defs₀ 𝒱₀ L lv 10 :=
  regOf m ρ 10 launch10 (W21 m ρ) (W22 m ρ) (body_obligation10 (VW21 m ρ)) (owed10 (VW21 m ρ)) (share10 (VW21 m ρ))
    (recorded10 (VW21 m ρ)) (A_eq10 (VW21 m ρ)) (Phi_in10 (VW21 m ρ)) (Phi_out10 (VW21 m ρ)) fun _ => rfl

def reg11 : Pipeline.RegionSeg (pcfgs (F := F)) adm (pdats m ρ) () defs₀ 𝒱₀ L lv 11 :=
  regOf m ρ 11 launch11 (W23 m ρ) (W24 m ρ) (body_obligation11 (VW23 m ρ)) (owed11 (VW23 m ρ)) (share11 (VW23 m ρ))
    (recorded11 (VW23 m ρ)) (A_eq11 (VW23 m ρ)) (Phi_in11 (VW23 m ρ)) (Phi_out11 (VW23 m ρ)) fun _ => rfl

def reg12 : Pipeline.RegionSeg (pcfgs (F := F)) adm (pdats m ρ) () defs₀ 𝒱₀ L lv 12 :=
  regOf m ρ 12 launch12 (W24 m ρ) (W25 m ρ) (body_obligation12 (VW24 m ρ)) (owed12 (VW24 m ρ)) (share12 (VW24 m ρ))
    (recorded12 (VW24 m ρ)) (A_eq12 (VW24 m ρ)) (Phi_in12 (VW24 m ρ)) (Phi_out12 (VW24 m ρ)) fun _ => rfl

def reg13 : Pipeline.RegionSeg (pcfgs (F := F)) adm (pdats m ρ) () defs₀ 𝒱₀ L lv 13 :=
  regOf m ρ 13 launch13 (W25 m ρ) (W26 m ρ) (body_obligation13 (VW25 m ρ)) (owed13 (VW25 m ρ)) (share13 (VW25 m ρ))
    (recorded13 (VW25 m ρ)) (A_eq13 (VW25 m ρ)) (Phi_in13 (VW25 m ρ)) (Phi_out13 (VW25 m ρ)) fun _ => rfl

def reg14 : Pipeline.RegionSeg (pcfgs (F := F)) adm (pdats m ρ) () defs₀ 𝒱₀ L lv 14 :=
  regOf m ρ 14 launch14 (W26 m ρ) (W27 m ρ) (body_obligation14 (VW26 m ρ)) (owed14 (VW26 m ρ)) (share14 (VW26 m ρ))
    (recorded14 (VW26 m ρ)) (A_eq14 (VW26 m ρ)) (Phi_in14 (VW26 m ρ)) (Phi_out14 (VW26 m ρ)) fun _ => rfl

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .region (reg4 m ρ),
    .host (hseg hostOps5 hostOps5_sub hostOps5_fresh (W11 m ρ)),
    .region (reg5 m ρ),
    .host (hseg hostOps6 hostOps6_sub hostOps6_fresh (W13 m ρ)),
    .region (reg6 m ρ),
    .host (hseg hostOps7 hostOps7_sub hostOps7_fresh (W15 m ρ)),
    .region (reg7 m ρ),
    .region (reg8 m ρ),
    .host (hseg hostOps9 hostOps9_sub hostOps9_fresh (W18 m ρ)),
    .region (reg9 m ρ),
    .host (hseg hostOps10 hostOps10_sub hostOps10_fresh (W20 m ρ)),
    .region (reg10 m ρ),
    .host (hseg hostOps11 hostOps11_sub hostOps11_fresh (W22 m ρ)),
    .region (reg11 m ρ),
    .region (reg12 m ρ),
    .region (reg13 m ρ),
    .region (reg14 m ρ),
    .host (hseg hostOps15 hostOps15_sub hostOps15_fresh (W27 m ρ)) ]

/-- A buffer no host stretch writes and no region has as an output array: the later half of the run, -/
abbrev KeptB (r : Ref sig .tc) : Prop :=
  (r ∉ hostOps15_W) ∧
  (∀ w, Pipeline.arrRef spec14 w = r → (cfg14.win w).isOut = false) ∧
  (∀ w, Pipeline.arrRef spec13 w = r → (cfg13.win w).isOut = false) ∧
  (∀ w, Pipeline.arrRef spec12 w = r → (cfg12.win w).isOut = false) ∧
  (∀ w, Pipeline.arrRef spec11 w = r → (cfg11.win w).isOut = false) ∧
  (r ∉ hostOps11_W) ∧
  (∀ w, Pipeline.arrRef spec10 w = r → (cfg10.win w).isOut = false) ∧
  (r ∉ hostOps10_W) ∧
  (∀ w, Pipeline.arrRef spec9 w = r → (cfg9.win w).isOut = false) ∧
  (r ∉ hostOps9_W) ∧
  (∀ w, Pipeline.arrRef spec8 w = r → (cfg8.win w).isOut = false) ∧
  (∀ w, Pipeline.arrRef spec7 w = r → (cfg7.win w).isOut = false) ∧
  (r ∉ hostOps7_W) ∧
  (∀ w, Pipeline.arrRef spec6 w = r → (cfg6.win w).isOut = false)

/-- and the earlier half. -/
abbrev KeptA (r : Ref sig .tc) : Prop :=
  (r ∉ hostOps6_W) ∧
  (∀ w, Pipeline.arrRef spec5 w = r → (cfg5.win w).isOut = false) ∧
  (r ∉ hostOps5_W) ∧
  (∀ w, Pipeline.arrRef spec4 w = r → (cfg4.win w).isOut = false) ∧
  (∀ w, Pipeline.arrRef spec3 w = r → (cfg3.win w).isOut = false) ∧
  (r ∉ hostOps3_W) ∧
  (∀ w, Pipeline.arrRef spec2 w = r → (cfg2.win w).isOut = false) ∧
  (r ∉ hostOps2_W) ∧
  (∀ w, Pipeline.arrRef spec1 w = r → (cfg1.win w).isOut = false) ∧
  (r ∉ hostOps1_W) ∧
  (∀ w, Pipeline.arrRef spec0 w = r → (cfg0.win w).isOut = false) ∧
  (r ∉ hostOps0_2_W) ∧
  (r ∉ hostOps0_1_W) ∧
  (r ∉ hostOps0_W)

/-- Such a buffer ends the run as the launch found it: every stretch and every region keeps it. -/
theorem W28_arg (c : Dev nD) (r : Ref sig .tc) (hB : KeptB r) (hA : KeptA r) :
    W28 m ρ c (Proc.devRef .tc r) = m ((c : Thread nD τ).loc r) := by
  obtain ⟨h28, h27, h26, h25, h24, h23, h22, h21, h20, h19, h18, h17, h16, h15⟩ := hB
  obtain ⟨h14, h13, h12, h11, h10, h9, h8, h7, h6, h5, h4, h3, h2, h1⟩ := hA
  exact (W28_keep m ρ c r h28).trans <|
    (W27_keep m ρ c r h27).trans <|
    (W26_keep m ρ c r h26).trans <|
    (W25_keep m ρ c r h25).trans <|
    (W24_keep m ρ c r h24).trans <|
    (W23_keep m ρ c r h23).trans <|
    (W22_keep m ρ c r h22).trans <|
    (W21_keep m ρ c r h21).trans <|
    (W20_keep m ρ c r h20).trans <|
    (W19_keep m ρ c r h19).trans <|
    (W18_keep m ρ c r h18).trans <|
    (W17_keep m ρ c r h17).trans <|
    (W16_keep m ρ c r h16).trans <|
    (W15_keep m ρ c r h15).trans <|
    (W14_keep m ρ c r h14).trans <|
    (W13_keep m ρ c r h13).trans <|
    (W12_keep m ρ c r h12).trans <|
    (W11_keep m ρ c r h11).trans <|
    (W10_keep m ρ c r h10).trans <|
    (W9_keep m ρ c r h9).trans <|
    (W8_keep m ρ c r h8).trans <|
    (W7_keep m ρ c r h7).trans <|
    (W6_keep m ρ c r h6).trans <|
    (W5_keep m ρ c r h5).trans <|
    (W4_keep m ρ c r h4).trans <|
    (W3_keep m ρ c r h3).trans <|
    (W2_keep m ρ c r h2).trans <|
    (W1_keep m ρ c r h1).trans <| rfl

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem ((c : Thread nD τ).1, b) = W28 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          Prog.lift (.customCall (Pipeline.entry 12) ()),
          Prog.lift (.customCall (Pipeline.entry 13) ()),
          Prog.lift (.customCall (Pipeline.entry 14) ()),
          StableHlo.seq hostOps15 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W28 m ρ c) ∗ R c) ⊢ iprop(Tₙ m ρ c ∗ ∃ W, owes (c : Thread nD τ) (0 : CellTallies nD τ sig Unit) W)
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W28 m ρ c b)
    (hfin := fun c s' => by
      iintro ⟨⟨Hh, -⟩, HSI⟩
      unfold StableHlo.held
      imodintro
      iapply (pointsTo_read_all (Pipeline.ucRefs τ sig) (fun b => (((c : Thread nD τ)).1, b)) (W28 m ρ c) s')
      isplitl [Hh] <;> iassumption)
    (hQ := fun s h c => h c)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (W28_arg m ρ c main_arg0 (by decide) (by decide)),
     (h c _ (mem_uc main_arg1 (by decide))).trans (W28_arg m ρ c main_arg1 (by decide) (by decide)),
     (h c _ (mem_uc main_arg2 (by decide))).trans (W28_arg m ρ c main_arg2 (by decide) (by decide)),
     (h c _ (mem_uc main_arg3 (by decide))).trans (W28_arg m ρ c main_arg3 (by decide) (by decide)),
     (h c _ (mem_uc main_arg4 (by decide))).trans (W28_arg m ρ c main_arg4 (by decide) (by decide)),
     (h c _ (mem_uc main_arg5 (by decide))).trans (W28_arg m ρ c main_arg5 (by decide) (by decide)),
     (h c _ (mem_uc main_arg6 (by decide))).trans (W28_arg m ρ c main_arg6 (by decide) (by decide)),
     (h c _ (mem_uc main_arg7 (by decide))).trans (W28_arg m ρ c main_arg7 (by decide) (by decide)),
     (h c _ (mem_uc main_arg8 (by decide))).trans (W28_arg m ρ c main_arg8 (by decide) (by decide)),
     (h c _ (mem_uc main_arg9 (by decide))).trans (W28_arg m ρ c main_arg9 (by decide) (by decide)),
     (h c _ (mem_uc main_arg10 (by decide))).trans (W28_arg m ρ c main_arg10 (by decide) (by decide)),
     (h c _ (mem_uc main_arg11 (by decide))).trans (W28_arg m ρ c main_arg11 (by decide) (by decide)),
     (h c _ (mem_uc main_arg12 (by decide))).trans (W28_arg m ρ c main_arg12 (by decide) (by decide)),
     (h c _ (mem_uc main_arg13 (by decide))).trans (W28_arg m ρ c main_arg13 (by decide) (by decide)),
     (h c _ (mem_uc main_arg14 (by decide))).trans (W28_arg m ρ c main_arg14 (by decide) (by decide))⟩) (run_all m ρ)

end Cert.Kernel.Hand

end
-- ==== Proof.KI.Reg0.lean ====
import proofs.«424828_j6554120094214_2_alg».proof.Proof.Gen.KernelIdeal.Launch
import proofs.«424828_j6554120094214_2_alg».proof.Proof.Gen.KernelIdeal.Skeleton
import proofs.«424828_j6554120094214_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S10000x64 := Rect.unit (s := S10000x64) ![0, 0] S10000x64.size inb_S10000x64_S10000x64_0_0

abbrev r0_1 : Rect S64x64 := Rect.unit (s := S64x64) ![0, 0] S64x64.size inb_S64x64_S64x64_0_0

def out0_2 (x0 : Vec F S10000x64 .f32) (x1 : Vec F S64x64 .f32) : Vec F S10000x64 .f32 :=
  View.canon [⟨r0_0, k0_pay1 (View.ld x0 r0_0) (View.ld x1 r0_1)⟩]

theorem cover0_2 (p0 : Vec F S10000x64 .f32) (y : S10000x64.Idx) :
    ∃ pc ∈ ([⟨r0_0, p0⟩] : List (View.Piece (Elt F) S10000x64 .f32)), y ∈ pc.1.set :=
  View.cover_of_tiled [⟨r0_0, p0⟩] S10000x64.size (by rfl) y

set_option maxHeartbeats 1000000 in
theorem sound_kernel0 (c : Dev nD) (E : Set ℕ) (i : grid0.Coords) (arg1 : Memref sig .tc .vmem S10000x64 .f32) (harg1 : arg1.IsWhole)
    (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem Phi_in0 (c : Dev nD) : (dat0 V c).Φ 0 = Pipeline.ΦA spec0 c := rfl

theorem Phi_out0 (c : Dev nD) : (dat0 V c).Φ (Fin.last _) ⊢ Pipeline.ΦA spec0 c := .rfl

theorem owed0 (c : Dev nD) : ∀ x, (dat0 V c).owed x = 0 := fun _ => rfl

theorem share0 (c : Dev nD) : ∀ w, (dat0 V c).q w = fullShare := fun _ => rfl

theorem recorded0 (c : Dev nD) : ∀ t, (dat0 V c).recorded t = Set.univ := fun _ => rfl

theorem after0_0 (c : Dev nD) (t : Fin cfg0.N) : (dat0 V c).after 0 t = iblk0 V c 0 t := by dsimp only [dat0]

theorem after0_1 (c : Dev nD) (t : Fin cfg0.N) : (dat0 V c).after 1 t = iblk0 V c 1 t := by dsimp only [dat0]

theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

open Idealize.ShloMosaic.ValueIdx

theorem hz0 : (![0, 0] : Fin 2 → Nat) = fun _ => 0 := funext fun a => by fin_cases a <;> rfl

def rows0 (b : Fin 10) (x : Vec F S100000x64 .f32) : Vec F S10000x64 .f32 :=
  fun j => x (ix2 (⟨b.val * 10000 + (j 0).val, by have h := idx2_lt0 j; have hb := b.isLt; omega⟩ : Fin 100000) (j 1 : Fin 64))

def res0_2 (x : Vec F S100000x64 .f32) (w : Vec F S64x64 .f32) : Vec F S100000x64 .f32 :=
  fun i => k0_pay1 (rows0 ⟨(i 0).val / 10000, by have h := idx2_lt0 i; omega⟩ x) w
    (ix2 (⟨(i 0).val % 10000, Nat.mod_lt _ (by decide)⟩ : Fin 10000) (i 1 : Fin 64))

theorem res0_2_blk (x : Vec F S100000x64 .f32) (w : Vec F S64x64 .f32) (b : Fin 10) (j : S10000x64.Idx) (i : S100000x64.Idx)
    (h0 : (i 0).val = b.val * 10000 + (j 0).val) (h1 : (i 1).val = (j 1).val) :
    res0_2 x w i = k0_pay1 (rows0 b x) w j := by
  unfold res0_2
  have hj0 := idx2_lt0 j
  have hb : (⟨(i 0).val / 10000, by have h := idx2_lt0 i; omega⟩ : Fin 10) = b := Fin.ext (by show (i 0).val / 10000 = b.val; omega)
  have hj : ix2 (⟨(i 0).val % 10000, Nat.mod_lt _ (by decide)⟩ : Fin 10000) (i 1 : Fin 64) = j := by
    funext a
    match a with
    | ⟨0, _⟩ => exact Fin.ext (by show (i 0).val % 10000 = (j 0).val; omega)
    | ⟨1, _⟩ => exact Fin.ext h1
  exact congrArg₂ (fun b' j' => k0_pay1 (rows0 b' x) w j') hb hj

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem flushed0_2_eq (c : Dev nD) (t : Fin cfg0.N) :
    (dat0 V c).flushed 2 t = ((cfg0.win 2).blk t).view.read (Elt F)
      (res0_2 (V c (Pipeline.arrRef spec0 0)) (V c (Pipeline.arrRef spec0 1))) := by
  show (cfg0.win 2).cut (grid0.coords t) ((dat0 V c).after 2 t) = _
  rw [after0_2]
  unfold out0_2
  rw [View.canon_unit_zero hz0]
  simp only [View.ld_unit_zero (S := S10000x64) hz0, View.ld_unit_zero (S := S64x64) hz0]
  obtain ⟨e0, e1, e2, e3, e4, e5⟩ := idx_facts0 t
  have hN : t.val < 10 := Nat.lt_of_lt_of_eq t.isLt (show cfg0.N = 10 from N_0)
  have hx : iblk0 V c 0 t = rows0 ⟨t.val, hN⟩ (V c (Pipeline.arrRef spec0 0)) := by
    funext j
    show V c (Pipeline.arrRef spec0 0) (((cfg0.win 0).blk t).view.emb j) = V c (Pipeline.arrRef spec0 0) (ix2 _ _)
    refine congrArg _ ?_
    funext a; apply Fin.ext
    match a with
    | ⟨0, _⟩ => show win0_0.index t (0 : Fin 2) * 10000 + 1 * (j 0).val = t.val * 10000 + (j 0).val; omega
    | ⟨1, _⟩ => show win0_0.index t (1 : Fin 2) * 64 + 1 * (j 1).val = (j 1).val; omega
  have hw : iblk0 V c 1 t = V c (Pipeline.arrRef spec0 1) := by
    funext j
    show V c (Pipeline.arrRef spec0 1) (((cfg0.win 1).blk t).view.emb j) = V c (Pipeline.arrRef spec0 1) j
    refine congrArg _ ?_
    funext a; apply Fin.ext
    match a with
    | ⟨0, _⟩ => show win0_1.index t (0 : Fin 2) * 64 + 1 * (j 0).val = (j 0).val; omega
    | ⟨1, _⟩ => show win0_1.index t (1 : Fin 2) * 64 + 1 * (j 1).val = (j 1).val; omega
  rw [hx, hw]
  funext j
  refine (res0_2_blk _ _ ⟨t.val, hN⟩ j _ ?_ ?_).symm
  · show win0_2.index t (0 : Fin 2) * 10000 + 1 * (j 0).val = t.val * 10000 + (j 0).val; omega
  · show win0_2.index t (1 : Fin 2) * 64 + 1 * (j 1).val = (j 1).val; omega

theorem mem_blk0_2 (t : Fin cfg0.N) (i : S100000x64.Idx) :
    Iff (i ∈ ((cfg0.win 2).blk t).view.set) (∀ a : Fin 2, win0_2.index t a * S10000x64.size a ≤ (i a).val ∧ (i a).val < win0_2.index t a * S10000x64.size a + S10000x64.size a) := by
  show Iff (i ∈ ((View.whole (Pipeline.arrRef spec0 2)).slice (win0_2.rect t)).set) _
  rw [View.set_slice_whole, Rect.mem_set_unit]
  exact Iff.rfl

theorem covered0_2 (i : S100000x64.Idx) : ∃ t : Fin cfg0.N, (cfg0.win 2).flush t = true ∧ i ∈ ((cfg0.win 2).blk t).view.set := by
  have hi0 := idx2_lt0 i
  have hi1 := idx2_lt1 i
  have hN : (i 0).val / 10000 < cfg0.N := Nat.lt_of_lt_of_eq (by omega : (i 0).val / 10000 < 10) (show 10 = cfg0.N from N_0.symm)
  refine ⟨⟨(i 0).val / 10000, hN⟩, flush0_2 _, ?_⟩
  rw [mem_blk0_2]
  obtain ⟨-, -, -, -, e4, e5⟩ := idx_facts0 ⟨(i 0).val / 10000, hN⟩
  intro a
  match a with
  | ⟨0, _⟩ =>
    show win0_2.index ⟨(i 0).val / 10000, hN⟩ (0 : Fin 2) * 10000 ≤ (i 0).val ∧ (i 0).val < win0_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, hN⟩ (1 : Fin 2) * 64 ≤ (i 1).val ∧ (i 1).val < win0_2.index ⟨(i 0).val / 10000, hN⟩ (1 : Fin 2) * 64 + 64
    rw [e5]; omega

theorem final0_2 (c : Dev nD) : (dat0 V c).arrAt 2 cfg0.N = res0_2 (V c (Pipeline.arrRef spec0 0)) (V c (Pipeline.arrRef spec0 1)) :=
  (dat0 V c).arrAt_eq_of_cover 2 _ (fun t _ => flushed0_2_eq V c t) covered0_2

section AtIdeal

theorem lhs0_0 (j : S10000x64.Idx) (k : dot_S10000x64_S64x64_S10000x64_1_1_0_0_n_n.contr.Idx) :
    ((dot_S10000x64_S64x64_S10000x64_1_1_0_0_n_n.lhsIdx j k) (0 : Fin S10000x64.rank)).val = (j (0 : Fin S10000x64.rank)).val := by
  unfold DotDims.lhsIdx
  rw [dif_neg (show ¬(0 : Fin S10000x64.rank) ∈ dot_S10000x64_S64x64_S10000x64_1_1_0_0_n_n.lhsBatch by decide),
    dif_pos (show (0 : Fin S10000x64.rank) ∈ dot_S10000x64_S64x64_S10000x64_1_1_0_0_n_n.lhsNonContracting by decide)]
  rfl

theorem lhs0_1 (j : S10000x64.Idx) (k : dot_S10000x64_S64x64_S10000x64_1_1_0_0_n_n.contr.Idx) :
    ((dot_S10000x64_S64x64_S10000x64_1_1_0_0_n_n.lhsIdx j k) (1 : Fin S10000x64.rank)).val = (k ⟨0, by decide⟩).val :=
  dot_S10000x64_S64x64_S10000x64_1_1_0_0_n_n.lhsIdx_val_of_single rfl j k

theorem rhs0_0 (j : S10000x64.Idx) (k : dot_S10000x64_S64x64_S10000x64_1_1_0_0_n_n.contr.Idx) :
    ((dot_S10000x64_S64x64_S10000x64_1_1_0_0_n_n.rhsIdx j k) (0 : Fin S64x64.rank)).val = (j (1 : Fin S10000x64.rank)).val := by
  unfold DotDims.rhsIdx
  rw [dif_neg (show ¬(0 : Fin S64x64.rank) ∈ dot_S10000x64_S64x64_S10000x64_1_1_0_0_n_n.rhsBatch by decide),
    dif_pos (show (0 : Fin S64x64.rank) ∈ dot_S10000x64_S64x64_S10000x64_1_1_0_0_n_n.rhsNonContracting by decide)]
  rfl

theorem rhs0_1 (j : S10000x64.Idx) (k : dot_S10000x64_S64x64_S10000x64_1_1_0_0_n_n.contr.Idx) :
    ((dot_S10000x64_S64x64_S10000x64_1_1_0_0_n_n.rhsIdx j k) (1 : Fin S64x64.rank)).val = (k ⟨0, by decide⟩).val :=
  dot_S10000x64_S64x64_S10000x64_1_1_0_0_n_n.rhsIdx_val_of_single rfl j k

theorem k0_pay1_apply (v0 : FVec Ideal S10000x64 .f32) (v2 : FVec Ideal S64x64 .f32) (p : Fin 10000) (q : Fin 64) :
    k0_pay1 v0 v2 (ix2 p q) = ∑ k : Fin 64, v0 (ix2 p k) * v2 (ix2 q k) := by
  unfold k0_pay1
  (try simp only [shapeCast_self])
  show FloatOps.matmul dot_S10000x64_S64x64_S10000x64_1_1_0_0_n_n none (truncf .bf16 v0 bitsLt_bf16_f32) (truncf .bf16 v2 bitsLt_bf16_f32)
    (constant (F := Ideal) S10000x64 .f32 0x00000000#32) (ix2 p q) = _
  rw [Ideal.matmul_constant_zero_apply]
  refine (Equiv.sum_comp (contrEquiv1 dot_S10000x64_S64x64_S10000x64_1_1_0_0_n_n 64 rfl rfl).symm _).symm.trans ?_
  refine Finset.sum_congr rfl fun k _ => ?_
  have hl : dot_S10000x64_S64x64_S10000x64_1_1_0_0_n_n.lhsIdx (ix2 p q) ((contrEquiv1 dot_S10000x64_S64x64_S10000x64_1_1_0_0_n_n 64 rfl rfl).symm k) = ix2 p k := by
    funext a; apply Fin.ext
    match a with
    | ⟨0, _⟩ => exact lhs0_0 _ _
    | ⟨1, _⟩ => exact (lhs0_1 _ _).trans (contrEquiv1_symm_val _ 64 rfl rfl k)
  have hr : dot_S10000x64_S64x64_S10000x64_1_1_0_0_n_n.rhsIdx (ix2 p q) ((contrEquiv1 dot_S10000x64_S64x64_S10000x64_1_1_0_0_n_n 64 rfl rfl).symm k) = ix2 q k := by
    funext a; apply Fin.ext
    match a with
    | ⟨0, _⟩ => exact rhs0_0 _ _
    | ⟨1, _⟩ => exact (rhs0_1 _ _).trans (contrEquiv1_symm_val _ 64 rfl rfl k)
  rw [hl, hr]
  rfl

theorem res0_2_apply (x : Vec Ideal S100000x64 .f32) (w : Vec Ideal S64x64 .f32) (n : Fin 100000) (o : Fin 64) :
    res0_2 x w (ix2 n o) = ∑ k : Fin 64, x (ix2 n k) * w (ix2 o k) := by
  unfold res0_2
  refine (k0_pay1_apply _ _ _ _).trans ?_
  refine Finset.sum_congr rfl fun k _ => ?_
  unfold rows0
  refine congrArg (fun r => x (ix2 r k) * w (ix2 o k)) (Fin.ext ?_)
  show n.val / 10000 * 10000 + n.val % 10000 = n.val
  omega

end AtIdeal

end Cert.KernelIdeal.Hand
-- ==== Proof.KI.Reg1.lean ====
import proofs.«424828_j6554120094214_2_alg».proof.Proof.Gen.KernelIdeal.Launch
import proofs.«424828_j6554120094214_2_alg».proof.Proof.Gen.KernelIdeal.Skeleton
import proofs.«424828_j6554120094214_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic
set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S10000x64 := Rect.unit (s := S10000x64) ![0, 0] S10000x64.size inb_S10000x64_S10000x64_0_0

abbrev r1_1 : Rect S10000x1 := Rect.unit (s := S10000x1) ![0, 0] S10000x1.size inb_S10000x1_S10000x1_0_0

theorem zeros1 : (![0, 0] : Fin 2 → Nat) = fun _ => 0 := funext fun a => by fin_cases a <;> rfl

def out1_2 (x0 : Vec F S10000x64 .f32) (x1 : Vec F S10000x1 .f32) : Vec F S10000x64 .f32 :=
  View.canon [⟨r1_0, k1_pay1 (View.ld x0 r1_0) (View.ld x1 r1_1)⟩]

theorem cover1_2 (p0 : Vec F S10000x64 .f32) (y : S10000x64.Idx) :
    ∃ pc ∈ ([⟨r1_0, p0⟩] : List (View.Piece (Elt F) S10000x64 .f32)), y ∈ pc.1.set :=
  ⟨_, List.mem_singleton_self _, View.mem_set_unit_zero zeros1 inb_S10000x64_S10000x64_0_0 y⟩

set_option maxHeartbeats 1000000 in
theorem sound_kernel1 (c : Dev nD) (E : Set ℕ) (i : grid1.Coords) (arg1 : Memref sig .tc .vmem S10000x64 .f32) (harg1 : arg1.IsWhole) (arg2 : Memref sig .tc .vmem S10000x1 .f32) (harg2 : arg2.IsWhole) (arg3 : Memref sig .tc .vmem S10000x64 .f32) (harg3 : arg3.IsWhole)
    (x0 : Vec F S10000x64 .f32) (x1 : Vec F S10000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__scale_kernel i arg1 harg1 arg2 harg2 arg3 harg3) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem Phi_in1 (c : Dev nD) : (dat1 V c).Φ 0 = Pipeline.ΦA spec1 c := by
  dsimp only [dat1]

theorem Phi_out1 (c : Dev nD) : (dat1 V c).Φ (Fin.last _) ⊢ Pipeline.ΦA spec1 c := by
  dsimp only [dat1]; exact BIBase.Entails.rfl

theorem owed1 (c : Dev nD) : ∀ x, (dat1 V c).owed x = 0 := fun _ => by dsimp only [dat1]

theorem share1 (c : Dev nD) : ∀ w, (dat1 V c).q w = fullShare := fun _ => by dsimp only [dat1]

theorem recorded1 (c : Dev nD) : ∀ t, (dat1 V c).recorded t = Set.univ := fun _ => rfl

theorem after1_0 (c : Dev nD) (t : Fin cfg1.N) : (dat1 V c).after 0 t = iblk1 V c 0 t := by dsimp only [dat1]

theorem after1_1 (c : Dev nD) (t : Fin cfg1.N) : (dat1 V c).after 1 t = iblk1 V c 1 t := by dsimp only [dat1]

theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d

theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

def res1_2 (h : Vec F S1100000x64 .f32) (n : Vec F S1100000x1 .f32) : Vec F S1100000x64 .f32 :=
  fun i => FloatOps.mulf (h i) (n (ValueIdx.ix2 (i 0) (0 : Fin 1)))

theorem pay1_apply (x0 : Vec F S10000x64 .f32) (x1 : Vec F S10000x1 .f32) (j : S10000x64.Idx) :
    k1_pay1 x0 x1 j = FloatOps.mulf (x0 j) (x1 (ValueIdx.ix2 (j 0) (0 : Fin 1))) := by
  unfold k1_pay1
  simp only [shapeCast_self]
  show FloatOps.mulf (x0 j) (broadcastTo S10000x64 x1 broadcasts_S10000x1_S10000x64 j) = _
  refine congrArg (FloatOps.mulf (x0 j)) ?_
  refine broadcastTo_apply x1 _ j _ (fun a => ?_)
  match a with
  | ⟨0, _⟩ => rfl
  | ⟨1, _⟩ => rfl

theorem block_read1 (A0 : Vec F S1100000x64 .f32) (A1 : Vec F S1100000x1 .f32)
    (x0 : Vec F S10000x64 .f32) (x1 : Vec F S10000x1 .f32) (b : ℕ)
    (h0 : ∀ (j : S10000x64.Idx) (k : S1100000x64.Idx), (k 0).val = b * 10000 + (j 0).val → (k 1).val = (j 1).val → x0 j = A0 k)
    (h1 : ∀ (j : S10000x1.Idx) (k : S1100000x1.Idx), (k 0).val = b * 10000 + (j 0).val → x1 j = A1 k)
    (j : S10000x64.Idx) (k : S1100000x64.Idx) (hk0 : (k 0).val = b * 10000 + (j 0).val) (hk1 : (k 1).val = (j 1).val) :
    k1_pay1 x0 x1 j = res1_2 A0 A1 k := by
  rw [pay1_apply]
  unfold res1_2
  rw [h0 j k hk0 hk1, h1 (ValueIdx.ix2 (j 0) (0 : Fin 1)) (ValueIdx.ix2 (k 0) (0 : Fin 1)) hk0]

theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

theorem iblk1_0_apply (c : Dev nD) (t : Fin cfg1.N) (j : S10000x64.Idx) (k : S1100000x64.Idx)
    (hk0 : (k 0).val = t.val * 10000 + (j 0).val) (hk1 : (k 1).val = (j 1).val) :
    (iblk1 V c 0 t : Vec F S10000x64 .f32) j = (V c (Pipeline.arrRef spec1 0) : Vec F S1100000x64 .f32) k := by
  obtain ⟨e0, e1, -⟩ := idx_facts1 t
  show (V c (Pipeline.arrRef spec1 0) : Vec F S1100000x64 .f32) (((cfg1.win 0).blk t).view.emb j) = _
  refine congrArg (V c (Pipeline.arrRef spec1 0) : Vec F S1100000x64 .f32) ?_
  funext a
  apply Fin.ext
  match a with
  | ⟨0, _⟩ => show win1_0.index t (0 : Fin 2) * 10000 + 1 * (j 0).val = (k 0).val; rw [e0, hk0]; omega
  | ⟨1, _⟩ => show win1_0.index t (1 : Fin 2) * 64 + 1 * (j 1).val = (k 1).val; rw [e1, hk1]; omega

theorem iblk1_1_apply (c : Dev nD) (t : Fin cfg1.N) (j : S10000x1.Idx) (k : S1100000x1.Idx)
    (hk0 : (k 0).val = t.val * 10000 + (j 0).val) :
    (iblk1 V c 1 t : Vec F S10000x1 .f32) j = (V c (Pipeline.arrRef spec1 1) : Vec F S1100000x1 .f32) k := by
  obtain ⟨-, -, e2, e3, -⟩ := idx_facts1 t
  show (V c (Pipeline.arrRef spec1 1) : Vec F S1100000x1 .f32) (((cfg1.win 1).blk t).view.emb j) = _
  refine congrArg (V c (Pipeline.arrRef spec1 1) : Vec F S1100000x1 .f32) ?_
  funext a
  apply Fin.ext
  have hj1 : (j 1).val < 1 := (j 1).isLt
  have hk1 : (k 1).val < 1 := (k 1).isLt
  match a with
  | ⟨0, _⟩ => show win1_1.index t (0 : Fin 2) * 10000 + 1 * (j 0).val = (k 0).val; rw [e2, hk0]; omega
  | ⟨1, _⟩ => show win1_1.index t (1 : Fin 2) * 1 + 1 * (j 1).val = (k 1).val; rw [e3]; omega

theorem flushed1_2_eq (c : Dev nD) (t : Fin cfg1.N) :
    (dat1 V c).flushed 2 t = ((cfg1.win 2).blk t).view.read (Elt F) (res1_2 (V c (Pipeline.arrRef spec1 0)) (V c (Pipeline.arrRef spec1 1))) := by
  show (cfg1.win 2).cut (grid1.coords t) ((dat1 V c).after 2 t) = _
  rw [after1_2]
  unfold out1_2
  rw [View.canon_unit_zero zeros1]
  simp only [View.ld_unit_zero (S := S10000x64) zeros1, View.ld_unit_zero (S := S10000x1) zeros1]
  obtain ⟨-, -, -, -, e4, e5⟩ := idx_facts1 t
  funext j
  show k1_pay1 (iblk1 V c 0 t) (iblk1 V c 1 t) j = res1_2 (V c (Pipeline.arrRef spec1 0)) (V c (Pipeline.arrRef spec1 1)) (((cfg1.win 2).blk t).view.emb j)
  refine block_read1 _ _ _ _ t.val (fun j k => iblk1_0_apply V c t j k) (fun j k => iblk1_1_apply V c t j k) _ _ ?_ ?_
  · show win1_2.index t (0 : Fin 2) * 10000 + 1 * (j 0).val = _; rw [e4]; omega
  · show win1_2.index t (1 : Fin 2) * 64 + 1 * (j 1).val = _; rw [e5]; omega

theorem mem_blk1_2 (t : Fin cfg1.N) (i : S1100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole (Pipeline.arrRef spec1 2)).slice (win1_2.rect t)).set ↔ _
  rw [View.set_slice_whole, Rect.mem_set_unit]
  exact Iff.rfl

theorem tiled1_2 (i : S1100000x64.Idx) :
    ∃ t : Fin cfg1.N, (cfg1.win 2).flush t = true ∧ i ∈ ((cfg1.win 2).blk t).view.set := by
  have hi0 : (i 0).val < 1100000 := (i 0).isLt
  have hi1 : (i 1).val < 64 := (i 1).isLt
  have hN : cfg1.N = 110 := N_1
  have ht : (i 0).val / 10000 < cfg1.N := by rw [hN]; omega
  obtain ⟨-, -, -, -, e4, e5⟩ := idx_facts1 ⟨(i 0).val / 10000, ht⟩
  refine ⟨⟨(i 0).val / 10000, ht⟩, flush1_2 _, ?_⟩
  rw [mem_blk1_2]
  intro a
  match a with
  | ⟨0, _⟩ =>
    show win1_2.index ⟨(i 0).val / 10000, ht⟩ (0 : Fin 2) * 10000 ≤ (i 0).val ∧ (i 0).val < win1_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, ht⟩ (1 : Fin 2) * 64 ≤ (i 1).val ∧ (i 1).val < win1_2.index ⟨(i 0).val / 10000, ht⟩ (1 : Fin 2) * 64 + 64
    rw [e5]; omega

theorem final1_2 (c : Dev nD) :
    (dat1 V c).arrAt 2 cfg1.N = res1_2 (V c (Pipeline.arrRef spec1 0)) (V c (Pipeline.arrRef spec1 1)) :=
  (dat1 V c).arrAt_eq_of_cover 2 _ (fun t _ => flushed1_2_eq V c t) tiled1_2

theorem res1_2_apply (h : Vec Ideal S1100000x64 .f32) (n : Vec Ideal S1100000x1 .f32) (e : Fin 1100000) (f : Fin 64) :
    res1_2 h n (ValueIdx.ix2 e f) = h (ValueIdx.ix2 e f) * n (ValueIdx.ix2 e (0 : Fin 1)) := rfl

end Cert.KernelIdeal.Hand

end
-- ==== Proof.KI.Reg2.lean ====
import proofs.«424828_j6554120094214_2_alg».proof.Proof.Gen.KernelIdeal.Launch
import proofs.«424828_j6554120094214_2_alg».proof.Proof.Gen.KernelIdeal.Skeleton
import proofs.«424828_j6554120094214_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.ValueIdx
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ

theorem hz2 : (![0, 0] : Fin 2 → Nat) = fun _ => 0 := funext fun a => by fin_cases a <;> rfl

theorem read_writes_whole2 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

abbrev cond2_0 (i : grid2.Coords) : Prop := (Scalar.cmpi .ne (Scalar.extui (Scalar.cmpi .eq (BitVec.ofNat 32 (i 0).val) 0#32)) 0#32) = 1#1

theorem hcond2_0 : ∀ t : Fin cfg2.N, cond2_0 (grid2.coords t) ↔ t.val = 0 :=
  (by decide +kernel : ∀ t : Fin grid2.N, cond2_0 (grid2.coords t) ↔ t.val = 0)

abbrev cond2_1 (i : grid2.Coords) : Prop := k2_cond2 i = 1#1

theorem hcond2_1 : ∀ t : Fin cfg2.N, cond2_1 (grid2.coords t) ↔ t.val = 9 :=
  (by decide +kernel : ∀ t : Fin grid2.N, cond2_1 (grid2.coords t) ↔ t.val = 9)

set_option maxHeartbeats 1000000 in
theorem sound_kernel2_A (c : Dev nD) (E : Set ℕ) (i : grid2.Coords)
    (arg1 : Memref sig .tc .vmem S10000x64 .f32) (harg1 : arg1.IsWhole) (arg2 : Memref sig .tc .vmem S1x64 .f32) (harg2 : arg2.IsWhole)
    (arg3 : Memref sig .tc .vmem S10000x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (hc0 : cond2_0 i) (hc1 : ¬cond2_1 i)
    (x0 : Vec F S10000x64 .f32) (x1 : Vec F S1x64 .f32) (xi3 : Vec F S1x64 .f32) (xi4 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ owns (c : Thread nD τ) arg5 fullShare xi4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (k2_pay3 x0 x1)
            ∗ owns (c : Thread nD τ) arg4 fullShare xi3 ∗ owns (c : Thread nD τ) arg5 fullShare xi4
            ∗ owns (c : Thread nD τ) arg6 fullShare (k2_pay4 x0 x1 (k2_pay1 (F := F))) ∗ owns (c : Thread nD τ) arg7 fullShare (k2_pay5 x0 x1 (k2_pay2 (F := F)))) -∗ K ⟨⟩))
      ⊢ wp frame (wpE (defs₀ (F := F)) Variants.none c none) E (cc2__bias_relu_stats_kernel i arg1 harg1 arg2 harg2 arg3 harg3 arg4 harg4 arg5 harg5 arg6 harg6 arg7 harg7) K := by
  simp only [cc2__bias_relu_stats_kernel_eq_skeleton]; unfold cc2__bias_relu_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%d5, %f5, -, H5⟩, ⟨%d6, %f6, -, H6⟩, Hk⟩
  subst hf0; subst hf1; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_writes_whole2 _ _ hz2 _ _ _).trans ?_
    simp only [View.readAt_eq_ld, View.ld_unit_zero (S := S10000x64) hz2, View.ld_unit_zero (S := S1x64) hz2]
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_writes_whole2 _ _ hz2 _ _ _).trans ?_
    sl_unfold_words
    simp only [View.readAt_eq_ld, View.ld_unit_zero (S := S10000x64) hz2, View.ld_unit_zero (S := S1x64) hz2, View.readCov_unit_zero (S := S1x64) _ hz2]
  iexists _; isplitr
  swap; · iexact H6
  ipureintro
  refine (read_writes_whole2 _ _ hz2 _ _ _).trans ?_
  sl_unfold_words
  simp only [View.readAt_eq_ld, View.ld_unit_zero (S := S10000x64) hz2, View.ld_unit_zero (S := S1x64) hz2, View.readCov_unit_zero (S := S1x64) _ hz2]

set_option maxHeartbeats 1000000 in
theorem sound_kernel2_B (c : Dev nD) (E : Set ℕ) (i : grid2.Coords)
    (arg1 : Memref sig .tc .vmem S10000x64 .f32) (harg1 : arg1.IsWhole) (arg2 : Memref sig .tc .vmem S1x64 .f32) (harg2 : arg2.IsWhole)
    (arg3 : Memref sig .tc .vmem S10000x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (hc0 : ¬cond2_0 i) (hc1 : ¬cond2_1 i)
    (x0 : Vec F S10000x64 .f32) (x1 : Vec F S1x64 .f32) (xi3 : Vec F S1x64 .f32) (xi4 : Vec F S1x64 .f32)
    (xs0 : Vec F S1x64 .f32) (xs1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ owns (c : Thread nD τ) arg5 fullShare xi4
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare (k2_pay3 x0 x1)
            ∗ owns (c : Thread nD τ) arg4 fullShare xi3 ∗ owns (c : Thread nD τ) arg5 fullShare xi4
            ∗ owns (c : Thread nD τ) arg6 fullShare (k2_pay4 x0 x1 xs0) ∗ owns (c : Thread nD τ) arg7 fullShare (k2_pay5 x0 x1 xs1)) -∗ K ⟨⟩))
      ⊢ wp frame (wpE (defs₀ (F := F)) Variants.none c none) E (cc2__bias_relu_stats_kernel i arg1 harg1 arg2 harg2 arg3 harg3 arg4 harg4 arg5 harg5 arg6 harg6 arg7 harg7) K := by
  simp only [cc2__bias_relu_stats_kernel_eq_skeleton]; unfold cc2__bias_relu_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%f5, %hf5, H5⟩, ⟨%f6, %hf6, H6⟩, Hk⟩
  subst hf0; subst hf1; subst hf3; subst hf4; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_writes_whole2 _ _ hz2 _ _ _).trans ?_
    simp only [View.readAt_eq_ld, View.ld_unit_zero (S := S10000x64) hz2, View.ld_unit_zero (S := S1x64) hz2, View.readCov_unit_zero (S := S1x64) _ hz2]
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_writes_whole2 _ _ hz2 _ _ _).trans ?_
    simp only [View.readAt_eq_ld, View.ld_unit_zero (S := S10000x64) hz2, View.ld_unit_zero (S := S1x64) hz2, View.readCov_unit_zero (S := S1x64) _ hz2]
  iexists _; isplitr
  swap; · iexact H6
  ipureintro
  refine (read_writes_whole2 _ _ hz2 _ _ _).trans ?_
  simp only [View.readAt_eq_ld, View.ld_unit_zero (S := S10000x64) hz2, View.ld_unit_zero (S := S1x64) hz2, View.readCov_unit_zero (S := S1x64) _ hz2]

set_option maxHeartbeats 1000000 in
theorem sound_kernel2_C (c : Dev nD) (E : Set ℕ) (i : grid2.Coords)
    (arg1 : Memref sig .tc .vmem S10000x64 .f32) (harg1 : arg1.IsWhole) (arg2 : Memref sig .tc .vmem S1x64 .f32) (harg2 : arg2.IsWhole)
    (arg3 : Memref sig .tc .vmem S10000x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (hc0 : ¬cond2_0 i) (hc1 : cond2_1 i)
    (x0 : Vec F S10000x64 .f32) (x1 : Vec F S1x64 .f32)
    (xs0 : Vec F S1x64 .f32) (xs1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare (k2_pay3 x0 x1)
            ∗ owns (c : Thread nD τ) arg4 fullShare (k2_pay4 x0 x1 xs0) ∗ owns (c : Thread nD τ) arg5 fullShare (k2_pay5 x0 x1 xs1)
            ∗ owns (c : Thread nD τ) arg6 fullShare (k2_pay4 x0 x1 xs0) ∗ owns (c : Thread nD τ) arg7 fullShare (k2_pay5 x0 x1 xs1)) -∗ K ⟨⟩))
      ⊢ wp frame (wpE (defs₀ (F := F)) Variants.none c none) E (cc2__bias_relu_stats_kernel i arg1 harg1 arg2 harg2 arg3 harg3 arg4 harg4 arg5 harg5 arg6 harg6 arg7 harg7) K := by
  simp only [cc2__bias_relu_stats_kernel_eq_skeleton]; unfold cc2__bias_relu_stats_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%f6, %hf6, H6⟩, Hk⟩
  subst hf0; subst hf1; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_writes_whole2 _ _ hz2 _ _ _).trans ?_
    simp only [View.readAt_eq_ld, View.ld_unit_zero (S := S10000x64) hz2, View.ld_unit_zero (S := S1x64) hz2, View.readCov_unit_zero (S := S1x64) _ hz2]
  isplitl [H3]
  · iexists _; isplitr
    swap; · iexact H3
    ipureintro
    refine (read_writes_whole2 _ _ hz2 _ _ _).trans ?_
    sl_unfold_words
    simp only [View.readAt_eq_ld, View.ld_unit_zero (S := S10000x64) hz2, View.ld_unit_zero (S := S1x64) hz2, View.readCov_unit_zero (S := S1x64) _ hz2]
  isplitl [H4]
  · iexists _; isplitr
    swap; · iexact H4
    ipureintro
    refine (read_writes_whole2 _ _ hz2 _ _ _).trans ?_
    sl_unfold_words
    simp only [View.readAt_eq_ld, View.ld_unit_zero (S := S10000x64) hz2, View.ld_unit_zero (S := S1x64) hz2, View.readCov_unit_zero (S := S1x64) _ hz2]
  isplitl [H5]
  · iexists _; isplitr
    swap; · iexact H5
    ipureintro
    refine (read_writes_whole2 _ _ hz2 _ _ _).trans ?_
    simp only [View.readAt_eq_ld, View.ld_unit_zero (S := S10000x64) hz2, View.ld_unit_zero (S := S1x64) hz2, View.readCov_unit_zero (S := S1x64) _ hz2]
  iexists _; isplitr
  swap; · iexact H6
  ipureintro
  refine (read_writes_whole2 _ _ hz2 _ _ _).trans ?_
  simp only [View.readAt_eq_ld, View.ld_unit_zero (S := S10000x64) hz2, View.ld_unit_zero (S := S1x64) hz2, View.readCov_unit_zero (S := S1x64) _ hz2]

theorem liveAt2_0 : ∀ t : Fin cfg2.N, cfg2.idle 0 (grid2.coords t) = false := fun _ => rfl

theorem liveAt2_1 : ∀ t : Fin cfg2.N, cfg2.idle 1 (grid2.coords t) = false := fun _ => rfl

theorem liveAt2_2 : ∀ t : Fin cfg2.N, cfg2.idle 2 (grid2.coords t) = false := fun _ => rfl

theorem idleAt2_3 : ∀ t : Fin cfg2.N, ¬cond2_1 (grid2.coords t) → cfg2.idle 3 (grid2.coords t) = true := by decide +kernel

theorem noFlush2_3 : ∀ t : Fin cfg2.N, ¬cond2_1 (grid2.coords t) → (cfg2.win 3).flush t = false := by decide +kernel

theorem liveAt2_3 : ∀ t : Fin cfg2.N, cond2_1 (grid2.coords t) → cfg2.idle 3 (grid2.coords t) = false := by decide +kernel

theorem idleAt2_4 : ∀ t : Fin cfg2.N, ¬cond2_1 (grid2.coords t) → cfg2.idle 4 (grid2.coords t) = true := by decide +kernel

theorem noFlush2_4 : ∀ t : Fin cfg2.N, ¬cond2_1 (grid2.coords t) → (cfg2.win 4).flush t = false := by decide +kernel

theorem liveAt2_4 : ∀ t : Fin cfg2.N, cond2_1 (grid2.coords t) → cfg2.idle 4 (grid2.coords t) = false := by decide +kernel

def rows2 (agg : Vec F S100000x64 .f32) (t : Fin 10) : Vec F S10000x64 .f32 :=
  fun y => agg (ValueIdx.ix2 (⟨10000 * t.val + (y 0).val, by
    have h0 : (y 0).val < 10000 := (y 0).isLt
    have ht : t.val < 10 := t.isLt
    omega⟩ : Fin 100000) (y 1))

def res2_2 (agg : Vec F S100000x64 .f32) (b : Vec F S1x64 .f32) : Vec F S100000x64 .f32 :=
  fun i => k2_pay3 (rows2 agg ⟨(i 0).val / 10000, by
      have h0 : (i 0).val < 100000 := (i 0).isLt
      omega⟩) b
    (ValueIdx.ix2 (⟨(i 0).val % 10000, Nat.mod_lt _ (by decide)⟩ : Fin 10000) (i 1))

def accR2_0 (agg : Vec F S100000x64 .f32) (b : Vec F S1x64 .f32) : (n : ℕ) → n < 10 → Vec F S1x64 .f32
  | 0, h => k2_pay4 (rows2 agg ⟨0, h⟩) b (k2_pay1 (F := F))
  | n + 1, h => k2_pay4 (rows2 agg ⟨n + 1, h⟩) b (accR2_0 agg b n (Nat.lt_of_succ_lt h))

def accR2_1 (agg : Vec F S100000x64 .f32) (b : Vec F S1x64 .f32) : (n : ℕ) → n < 10 → Vec F S1x64 .f32
  | 0, h => k2_pay5 (rows2 agg ⟨0, h⟩) b (k2_pay2 (F := F))
  | n + 1, h => k2_pay5 (rows2 agg ⟨n + 1, h⟩) b (accR2_1 agg b n (Nat.lt_of_succ_lt h))

theorem accR2_0_zero (agg : Vec F S100000x64 .f32) (b : Vec F S1x64 .f32) (h : 0 < 10) :
    accR2_0 agg b 0 h = k2_pay4 (rows2 agg ⟨0, h⟩) b (k2_pay1 (F := F)) := rfl

theorem accR2_0_succ (agg : Vec F S100000x64 .f32) (b : Vec F S1x64 .f32) (n : ℕ) (h : n + 1 < 10) :
    accR2_0 agg b (n + 1) h = k2_pay4 (rows2 agg ⟨n + 1, h⟩) b (accR2_0 agg b n (Nat.lt_of_succ_lt h)) := rfl

theorem accR2_1_zero (agg : Vec F S100000x64 .f32) (b : Vec F S1x64 .f32) (h : 0 < 10) :
    accR2_1 agg b 0 h = k2_pay5 (rows2 agg ⟨0, h⟩) b (k2_pay2 (F := F)) := rfl

theorem accR2_1_succ (agg : Vec F S100000x64 .f32) (b : Vec F S1x64 .f32) (n : ℕ) (h : n + 1 < 10) :
    accR2_1 agg b (n + 1) h = k2_pay5 (rows2 agg ⟨n + 1, h⟩) b (accR2_1 agg b n (Nat.lt_of_succ_lt h)) := rfl

def res2_3 (agg : Vec F S100000x64 .f32) (b : Vec F S1x64 .f32) : Vec F S1x64 .f32 := accR2_0 agg b 9 (by decide)

def res2_4 (agg : Vec F S100000x64 .f32) (b : Vec F S1x64 .f32) : Vec F S1x64 .f32 := accR2_1 agg b 9 (by decide)

theorem res2_2_at (agg : Vec F S100000x64 .f32) (b : Vec F S1x64 .f32) (t : Fin 10) (y : S10000x64.Idx) (i : S100000x64.Idx)
    (h0 : (i 0).val = 10000 * t.val + (y 0).val) (h1 : (i 1).val = (y 1).val) :
    res2_2 agg b i = k2_pay3 (rows2 agg t) b y := by
  have hy : (y 0).val < 10000 := (y 0).isLt
  have hq : (⟨(i 0).val / 10000, by have h0 : (i 0).val < 100000 := (i 0).isLt; omega⟩ : Fin 10) = t := Fin.ext (by show (i 0).val / 10000 = t.val; omega)
  have hr : ValueIdx.ix2 (⟨(i 0).val % 10000, Nat.mod_lt _ (by decide)⟩ : Fin 10000) (i 1) = y := by
    funext a
    match a with
    | ⟨0, _⟩ => exact Fin.ext (by show (i 0).val % 10000 = (y 0).val; omega)
    | ⟨1, _⟩ => exact Fin.ext h1
  show k2_pay3 (rows2 agg _) b _ = _
  rw [hq]
  exact congrArg (k2_pay3 (rows2 agg t) b) hr

theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

section Region2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev xb2 (c : Dev nD) (t : Fin cfg2.N) : Vec F S10000x64 .f32 := iblk2 V c 0 t

abbrev bb2 (c : Dev nD) (t : Fin cfg2.N) : Vec F S1x64 .f32 := iblk2 V c 1 t

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

def acc2_0 (c : Dev nD) : (n : ℕ) → n < cfg2.N → Vec F S1x64 .f32
  | 0, h => k2_pay4 (xb2 V c ⟨0, h⟩) (bb2 V c ⟨0, h⟩) (k2_pay1 (F := F))
  | n + 1, h => k2_pay4 (xb2 V c ⟨n + 1, h⟩) (bb2 V c ⟨n + 1, h⟩) (acc2_0 c n (Nat.lt_of_succ_lt h))

def acc2_1 (c : Dev nD) : (n : ℕ) → n < cfg2.N → Vec F S1x64 .f32
  | 0, h => k2_pay5 (xb2 V c ⟨0, h⟩) (bb2 V c ⟨0, h⟩) (k2_pay2 (F := F))
  | n + 1, h => k2_pay5 (xb2 V c ⟨n + 1, h⟩) (bb2 V c ⟨n + 1, h⟩) (acc2_1 c n (Nat.lt_of_succ_lt h))

theorem acc2_0_zero (c : Dev nD) (t : Fin cfg2.N) (h : t.val = 0) :
    acc2_0 V c t.val t.isLt = k2_pay4 (xb2 V c t) (bb2 V c t) (k2_pay1 (F := F)) := by
  obtain ⟨n, hn⟩ := t
  cases n with
  | zero => rfl
  | succ n => exact absurd h (Nat.succ_ne_zero n)

theorem acc2_0_pos (c : Dev nD) (t : Fin cfg2.N) (h : t.val ≠ 0) :
    acc2_0 V c t.val t.isLt = k2_pay4 (xb2 V c t) (bb2 V c t) (acc2_0 V c (t.val - 1) (Nat.lt_of_le_of_lt (Nat.sub_le _ _) t.isLt)) := by
  obtain ⟨n, hn⟩ := t
  cases n with
  | zero => exact absurd rfl h
  | succ n => rfl

theorem acc2_1_zero (c : Dev nD) (t : Fin cfg2.N) (h : t.val = 0) :
    acc2_1 V c t.val t.isLt = k2_pay5 (xb2 V c t) (bb2 V c t) (k2_pay2 (F := F)) := by
  obtain ⟨n, hn⟩ := t
  cases n with
  | zero => rfl
  | succ n => exact absurd h (Nat.succ_ne_zero n)

theorem acc2_1_pos (c : Dev nD) (t : Fin cfg2.N) (h : t.val ≠ 0) :
    acc2_1 V c t.val t.isLt = k2_pay5 (xb2 V c t) (bb2 V c t) (acc2_1 V c (t.val - 1) (Nat.lt_of_le_of_lt (Nat.sub_le _ _) t.isLt)) := by
  obtain ⟨n, hn⟩ := t
  cases n with
  | zero => exact absurd rfl h
  | succ n => rfl

abbrev scM2_0 : Memref sig .tc .vmem S1x64 .f32 := Memref.whole cc2_scratch0

abbrev scM2_1 : Memref sig .tc .vmem S1x64 .f32 := Memref.whole cc2_scratch1

abbrev rest2 (c : Dev nD) : sProp 𝕄 :=
  Pipeline.scopedRestBut (Ix := Unit) (Name := ℕ) (U := UR sig nD τ) (Lvl := ℕ) (Val := Elt F) spec2 c [cc2_scratch0, cc2_scratch1]

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 c) ∗ (∃ r, prngReg c r)) := by
  unfold Pipeline.ΦA; rw [scopedRest2_split]; simp only [scM2_0, scM2_1, owns_whole]; try rfl

def Phi2 (c : Dev nD) : (n : ℕ) → n ≤ cfg2.N → sProp 𝕄
  | 0, _ => Pipeline.ΦA spec2 c
  | n + 1, hn => iprop(iprop(iprop(owns (c : Thread nD τ) scM2_0 fullShare (acc2_0 V c n hn) ∗ owns (c : Thread nD τ) scM2_1 fullShare (acc2_1 V c n hn)) ∗ rest2 c) ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(iprop(iprop(owns (c : Thread nD τ) scM2_0 fullShare (acc2_0 V c n hn) ∗ owns (c : Thread nD τ) scM2_1 fullShare (acc2_1 V c n hn)) ∗ rest2 c) ∗ (∃ r, prngReg c r)) := rfl

theorem Phi2_pos (c : Dev nD) (n : ℕ) (h : n ≤ cfg2.N) (hz : n ≠ 0) :
    Phi2 V c n h = iprop(iprop(iprop(owns (c : Thread nD τ) scM2_0 fullShare (acc2_0 V c (n - 1) (by omega)) ∗ owns (c : Thread nD τ) scM2_1 fullShare (acc2_1 V c (n - 1) (by omega))) ∗ rest2 c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (xb2 V c t) (bb2 V c t)
    | ⟨3, _⟩ => acc2_0 V c t.val t.isLt
    | ⟨4, _⟩ => acc2_1 V c t.val t.isLt
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi_in2 (c : Dev nD) : (dat2 V c).Φ 0 = Pipeline.ΦA spec2 c := rfl

theorem owed2 (c : Dev nD) : ∀ x, (dat2 V c).owed x = 0 := fun _ => rfl

theorem share2 (c : Dev nD) : ∀ w, (dat2 V c).q w = fullShare := fun _ => rfl

theorem recorded2 (c : Dev nD) : ∀ t, (dat2 V c).recorded t = Set.univ := fun _ => rfl

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]

theorem after2_1 (c : Dev nD) (t : Fin cfg2.N) : (dat2 V c).after 1 t = iblk2 V c 1 t := by dsimp only [dat2]

theorem after2_2 (c : Dev nD) (t : Fin cfg2.N) : (dat2 V c).after 2 t = k2_pay3 (xb2 V c t) (bb2 V c t) := by dsimp only [dat2]

theorem after2_3 (c : Dev nD) (t : Fin cfg2.N) : (dat2 V c).after 3 t = acc2_0 V c t.val t.isLt := by dsimp only [dat2]

theorem after2_4 (c : Dev nD) (t : Fin cfg2.N) : (dat2 V c).after 4 t = acc2_1 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d

theorem before2_1 (c : Dev nD) (t : Fin cfg2.N) (d) : (dat2 V c).before 1 t d = iblk2 V c 1 t :=
  before2_1_of V (dat2 V c) (A_eq2 V c 1) (after2_1 V c) t d

theorem Phi_out2 (c : Dev nD) : (dat2 V c).Φ (Fin.last _) ⊢ Pipeline.ΦA spec2 c := by
  rw [show (dat2 V c).Φ (Fin.last _) = Phi2 V c (Fin.last cfg2.N).val (Nat.le_of_lt_succ (Fin.last cfg2.N).isLt) from rfl,
    Phi2_pos V c _ _ (by rw [Fin.val_last]; have : cfg2.N = 10 := N_2; omega), PhiA2_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = Phi2 V c (t.val + 1) t.isLt from rfl, Phi2_succ]
  have hN : t.val < 10 := lt_of_lt_of_eq t.isLt (show cfg2.N = 10 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  by_cases h0 : t.val = 0
  · have hc0 : cond2_0 (grid2.coords t) := (hcond2_0 t).mpr h0
    have hc1 : ¬cond2_1 (grid2.coords t) := fun h => by have := (hcond2_1 t).mp h; omega
    rw [Dat.leavesExact_idle (dat2 V c) 3 t (idleAt2_3 t hc1) (noFlush2_3 t hc1)]
    rw [Dat.leavesExact_idle (dat2 V c) 4 t (idleAt2_4 t hc1) (noFlush2_4 t hc1)]
    rw [acc2_0_zero V c t h0, acc2_1_zero V c t h0]
    rw [Phi2_castSucc V c t, Phi2_zero V c _ _ h0, PhiA2_eq]
    iintro ⟨⟨⟨⟨HS0, HS1⟩, HR⟩, Hg⟩, Ho, ⟨%d0, H0⟩, ⟨%d1, H1⟩, ⟨%d2, H2⟩, ⟨%d3, H3⟩, ⟨%d4, H4⟩⟩
    iapply (sound_kernel2_A c Set.univ (grid2.coords t) _ _ _ _ _ _ _ _ _ _ _ _ _ _ hc0 hc1 (xb2 V c t) (bb2 V c t) ((dat2 V c).before 3 t d3) ((dat2 V c).before 4 t d4) _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexists _; iexact H3
    iexists _; iexact H4
  · have hc0 : ¬cond2_0 (grid2.coords t) := fun h => h0 ((hcond2_0 t).mp h)
    rw [acc2_0_pos V c t h0, acc2_1_pos V c t h0]
    rw [Phi2_castSucc V c t, Phi2_pos V c _ _ h0]
    by_cases h1 : t.val = 9
    · have hc1 : cond2_1 (grid2.coords t) := (hcond2_1 t).mpr h1
      rw [show (dat2 V c).leavesExact 3 t = owns (c : Thread nD τ) (st2_3 t) fullShare ((dat2 V c).after 3 t) from by
        unfold Dat.leavesExact; rw [liveAt2_3 t hc1], after2_3, acc2_0_pos V c t h0]
      rw [show (dat2 V c).leavesExact 4 t = owns (c : Thread nD τ) (st2_4 t) fullShare ((dat2 V c).after 4 t) from by
        unfold Dat.leavesExact; rw [liveAt2_4 t hc1], after2_4, acc2_1_pos V c t h0]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (sound_kernel2_C c Set.univ (grid2.coords t) _ _ _ _ _ _ _ _ _ _ _ _ _ _ hc0 hc1 (xb2 V c t) (bb2 V c t) (acc2_0 V c (t.val - 1) (Nat.lt_of_le_of_lt (Nat.sub_le _ _) t.isLt)) (acc2_1 V c (t.val - 1) (Nat.lt_of_le_of_lt (Nat.sub_le _ _) t.isLt)) _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      iexact H4
    · have hc1 : ¬cond2_1 (grid2.coords t) := fun h => h1 ((hcond2_1 t).mp h)
      rw [Dat.leavesExact_idle (dat2 V c) 3 t (idleAt2_3 t hc1) (noFlush2_3 t hc1)]
      rw [Dat.leavesExact_idle (dat2 V c) 4 t (idleAt2_4 t hc1) (noFlush2_4 t hc1)]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (sound_kernel2_B c Set.univ (grid2.coords t) _ _ _ _ _ _ _ _ _ _ _ _ _ _ hc0 hc1 (xb2 V c t) (bb2 V c t) ((dat2 V c).before 3 t d3) ((dat2 V c).before 4 t d4) (acc2_0 V c (t.val - 1) (Nat.lt_of_le_of_lt (Nat.sub_le _ _) t.isLt)) (acc2_1 V c (t.val - 1) (Nat.lt_of_le_of_lt (Nat.sub_le _ _) t.isLt)) _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexists _; iexact H3
      iexists _; iexact H4

theorem body_obligation2 (c : Dev nD) : BodyObligation (dat2 (F := F) V c) (defs₀ (F := F)) Variants.none () Set.univ := fun t => by
  rw [bigSep_W2, bigSep_W2]
  exact sound_body2 V c t

abbrev aggA2 (c : Dev nD) : Vec F S100000x64 .f32 := V c (Pipeline.arrRef spec2 0)

abbrev biasA2 (c : Dev nD) : Vec F S1x64 .f32 := V c (Pipeline.arrRef spec2 1)

theorem xb2_eq (c : Dev nD) (t : Fin cfg2.N) : xb2 V c t = rows2 (aggA2 V c) ⟨t.val, lt_of_lt_of_eq t.isLt N_2⟩ := by
  obtain ⟨e0, e1, -⟩ := idx_facts2 t
  funext y
  show V c (Pipeline.arrRef spec2 0) (((cfg2.win 0).blk t).view.emb y) = V c (Pipeline.arrRef spec2 0) (ValueIdx.ix2 (⟨10000 * t.val + (y 0).val, _⟩ : Fin 100000) (y 1))
  refine congrArg _ ?_
  funext a; apply Fin.ext
  match a with
  | ⟨0, _⟩ => show win2_0.index t (0 : Fin 2) * 10000 + 1 * (y 0).val = 10000 * t.val + (y 0).val; omega
  | ⟨1, _⟩ => show win2_0.index t (1 : Fin 2) * 64 + 1 * (y 1).val = (y 1).val; omega

theorem bb2_eq (c : Dev nD) (t : Fin cfg2.N) : bb2 V c t = biasA2 V c := by
  obtain ⟨-, -, e2, e3, -⟩ := idx_facts2 t
  funext y
  show V c (Pipeline.arrRef spec2 1) (((cfg2.win 1).blk t).view.emb y) = V c (Pipeline.arrRef spec2 1) y
  refine congrArg _ ?_
  funext a; apply Fin.ext
  match a with
  | ⟨0, _⟩ => show win2_1.index t (0 : Fin 2) * 1 + 1 * (y 0).val = (y 0).val; omega
  | ⟨1, _⟩ => show win2_1.index t (1 : Fin 2) * 64 + 1 * (y 1).val = (y 1).val; omega

theorem acc2_0_eq (c : Dev nD) : ∀ (n : ℕ) (hn : n < cfg2.N) (hn' : n < 10),
    acc2_0 V c n hn = accR2_0 (aggA2 V c) (biasA2 V c) n hn'
  | 0, hn, hn' => by
    show k2_pay4 (xb2 V c ⟨0, hn⟩) (bb2 V c ⟨0, hn⟩) (k2_pay1 (F := F)) = k2_pay4 (rows2 (aggA2 V c) ⟨0, hn'⟩) (biasA2 V c) (k2_pay1 (F := F))
    rw [xb2_eq, bb2_eq]
  | n + 1, hn, hn' => by
    show k2_pay4 (xb2 V c ⟨n + 1, hn⟩) (bb2 V c ⟨n + 1, hn⟩) (acc2_0 V c n (Nat.lt_of_succ_lt hn))
      = k2_pay4 (rows2 (aggA2 V c) ⟨n + 1, hn'⟩) (biasA2 V c) (accR2_0 (aggA2 V c) (biasA2 V c) n (Nat.lt_of_succ_lt hn'))
    rw [xb2_eq, bb2_eq, acc2_0_eq c n (Nat.lt_of_succ_lt hn) (Nat.lt_of_succ_lt hn')]

theorem acc2_1_eq (c : Dev nD) : ∀ (n : ℕ) (hn : n < cfg2.N) (hn' : n < 10),
    acc2_1 V c n hn = accR2_1 (aggA2 V c) (biasA2 V c) n hn'
  | 0, hn, hn' => by
    show k2_pay5 (xb2 V c ⟨0, hn⟩) (bb2 V c ⟨0, hn⟩) (k2_pay2 (F := F)) = k2_pay5 (rows2 (aggA2 V c) ⟨0, hn'⟩) (biasA2 V c) (k2_pay2 (F := F))
    rw [xb2_eq, bb2_eq]
  | n + 1, hn, hn' => by
    show k2_pay5 (xb2 V c ⟨n + 1, hn⟩) (bb2 V c ⟨n + 1, hn⟩) (acc2_1 V c n (Nat.lt_of_succ_lt hn))
      = k2_pay5 (rows2 (aggA2 V c) ⟨n + 1, hn'⟩) (biasA2 V c) (accR2_1 (aggA2 V c) (biasA2 V c) n (Nat.lt_of_succ_lt hn'))
    rw [xb2_eq, bb2_eq, acc2_1_eq c n (Nat.lt_of_succ_lt hn) (Nat.lt_of_succ_lt hn')]

theorem flushed2_2_eq (c : Dev nD) (t : Fin cfg2.N) :
    (dat2 V c).flushed 2 t = ((cfg2.win 2).blk t).view.read (Elt F) (res2_2 (aggA2 V c) (biasA2 V c)) := by
  obtain ⟨-, -, -, -, e4, e5, -⟩ := idx_facts2 t
  show (cfg2.win 2).cut (grid2.coords t) ((dat2 V c).after 2 t) = _
  rw [after2_2, xb2_eq, bb2_eq]
  funext y
  show k2_pay3 (rows2 (aggA2 V c) ⟨t.val, lt_of_lt_of_eq t.isLt N_2⟩) (biasA2 V c) y
    = res2_2 (aggA2 V c) (biasA2 V c) (((cfg2.win 2).blk t).view.emb y)
  refine (res2_2_at (aggA2 V c) (biasA2 V c) ⟨t.val, lt_of_lt_of_eq t.isLt N_2⟩ y (((cfg2.win 2).blk t).view.emb y) ?_ ?_).symm
  · show win2_2.index t (0 : Fin 2) * 10000 + 1 * (y 0).val = 10000 * t.val + (y 0).val; omega
  · show win2_2.index t (1 : Fin 2) * 64 + 1 * (y 1).val = (y 1).val; omega

theorem mem_blk2_2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole (Pipeline.arrRef spec2 2)).slice (win2_2.rect t)).set ↔ _
  rw [View.set_slice_whole, Rect.mem_set_unit]
  exact Iff.rfl

theorem cover2_2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  refine ⟨⟨(i 0).val / 10000, by show _ < grid2.N; rw [N_2]; omega⟩, flush2_2 _, ?_⟩
  rw [mem_blk2_2]
  obtain ⟨-, -, -, -, e4, e5, -⟩ := idx_facts2 ⟨(i 0).val / 10000, by show _ < grid2.N; rw [N_2]; omega⟩
  intro a
  match a with
  | ⟨0, _⟩ =>
    show win2_2.index _ (0 : Fin 2) * 10000 ≤ (i 0).val ∧ (i 0).val < win2_2.index _ (0 : Fin 2) * 10000 + 10000
    rw [e4]; show (i 0).val / 10000 * 10000 ≤ (i 0).val ∧ (i 0).val < (i 0).val / 10000 * 10000 + 10000; omega
  | ⟨1, _⟩ =>
    show win2_2.index _ (1 : Fin 2) * 64 ≤ (i 1).val ∧ (i 1).val < win2_2.index _ (1 : Fin 2) * 64 + 64
    rw [e5]; omega

theorem final2_2 (c : Dev nD) : (dat2 V c).arrAt 2 cfg2.N = res2_2 (V c (Pipeline.arrRef spec2 0)) (V c (Pipeline.arrRef spec2 1)) :=
  (dat2 V c).arrAt_eq_of_cover 2 (res2_2 (aggA2 V c) (biasA2 V c)) (fun t _ => flushed2_2_eq V c t) cover2_2

theorem accR2_0_congr (agg : Vec F S100000x64 .f32) (b : Vec F S1x64 .f32) {n m : ℕ} (h : n = m) (hn : n < 10) (hm : m < 10) :
    accR2_0 agg b n hn = accR2_0 agg b m hm := by subst h; rfl

theorem accR2_1_congr (agg : Vec F S100000x64 .f32) (b : Vec F S1x64 .f32) {n m : ℕ} (h : n = m) (hn : n < 10) (hm : m < 10) :
    accR2_1 agg b n hn = accR2_1 agg b m hm := by subst h; rfl

theorem emb_blk2_3 (t : Fin cfg2.N) (y : S1x64.Idx) : ((cfg2.win 3).blk t).view.emb y = y := by
  obtain ⟨-, -, -, -, -, -, e6, e7, -⟩ := idx_facts2 t
  funext a; apply Fin.ext
  match a with
  | ⟨0, _⟩ => show win2_3.index t (0 : Fin 2) * 1 + 1 * (y 0).val = (y 0).val; omega
  | ⟨1, _⟩ => show win2_3.index t (1 : Fin 2) * 64 + 1 * (y 1).val = (y 1).val; omega

theorem emb_blk2_4 (t : Fin cfg2.N) (y : S1x64.Idx) : ((cfg2.win 4).blk t).view.emb y = y := by
  obtain ⟨-, -, -, -, -, -, -, -, e8, e9⟩ := idx_facts2 t
  funext a; apply Fin.ext
  match a with
  | ⟨0, _⟩ => show win2_4.index t (0 : Fin 2) * 1 + 1 * (y 0).val = (y 0).val; omega
  | ⟨1, _⟩ => show win2_4.index t (1 : Fin 2) * 64 + 1 * (y 1).val = (y 1).val; omega

theorem flushed2_3_eq (c : Dev nD) (t : Fin cfg2.N) (hf : (cfg2.win 3).flush t = true) :
    (dat2 V c).flushed 3 t = ((cfg2.win 3).blk t).view.read (Elt F) (res2_3 (aggA2 V c) (biasA2 V c)) := by
  have hN : t.val < 10 := lt_of_lt_of_eq t.isLt N_2
  have h9 : t.val = 9 := by have := (flush2_3 t).mp hf; omega
  show (cfg2.win 3).cut (grid2.coords t) ((dat2 V c).after 3 t) = _
  rw [after2_3]
  funext y
  show acc2_0 V c t.val t.isLt y = res2_3 (aggA2 V c) (biasA2 V c) (((cfg2.win 3).blk t).view.emb y)
  refine Eq.trans ?_ (congrArg (res2_3 (aggA2 V c) (biasA2 V c)) (emb_blk2_3 t y).symm)
  exact congrFun ((acc2_0_eq V c t.val t.isLt hN).trans (accR2_0_congr _ _ h9 hN (by decide))) y

theorem flushed2_4_eq (c : Dev nD) (t : Fin cfg2.N) (hf : (cfg2.win 4).flush t = true) :
    (dat2 V c).flushed 4 t = ((cfg2.win 4).blk t).view.read (Elt F) (res2_4 (aggA2 V c) (biasA2 V c)) := by
  have hN : t.val < 10 := lt_of_lt_of_eq t.isLt N_2
  have h9 : t.val = 9 := by have := (flush2_4 t).mp hf; omega
  show (cfg2.win 4).cut (grid2.coords t) ((dat2 V c).after 4 t) = _
  rw [after2_4]
  funext y
  show acc2_1 V c t.val t.isLt y = res2_4 (aggA2 V c) (biasA2 V c) (((cfg2.win 4).blk t).view.emb y)
  refine Eq.trans ?_ (congrArg (res2_4 (aggA2 V c) (biasA2 V c)) (emb_blk2_4 t y).symm)
  exact congrFun ((acc2_1_eq V c t.val t.isLt hN).trans (accR2_1_congr _ _ h9 hN (by decide))) y

theorem mem_blk2_3 (t : Fin cfg2.N) (i : S1x64.Idx) :
    i ∈ ((cfg2.win 3).blk t).view.set ↔ ∀ a : Fin 2, win2_3.index t a * S1x64.size a ≤ (i a).val ∧ (i a).val < win2_3.index t a * S1x64.size a + S1x64.size a := by
  show i ∈ ((View.whole (Pipeline.arrRef spec2 3)).slice (win2_3.rect t)).set ↔ _
  rw [View.set_slice_whole, Rect.mem_set_unit]
  exact Iff.rfl

theorem mem_blk2_4 (t : Fin cfg2.N) (i : S1x64.Idx) :
    i ∈ ((cfg2.win 4).blk t).view.set ↔ ∀ a : Fin 2, win2_4.index t a * S1x64.size a ≤ (i a).val ∧ (i a).val < win2_4.index t a * S1x64.size a + S1x64.size a := by
  show i ∈ ((View.whole (Pipeline.arrRef spec2 4)).slice (win2_4.rect t)).set ↔ _
  rw [View.set_slice_whole, Rect.mem_set_unit]
  exact Iff.rfl

theorem cover2_3 (i : S1x64.Idx) : ∃ t : Fin cfg2.N, (cfg2.win 3).flush t = true ∧ i ∈ ((cfg2.win 3).blk t).view.set := by
  have hi0 : (i 0).val < 1 := (i 0).isLt
  have hi1 : (i 1).val < 64 := (i 1).isLt
  refine ⟨t2_9, (flush2_3 t2_9).mpr rfl, ?_⟩
  rw [mem_blk2_3]
  obtain ⟨-, -, -, -, -, -, e6, e7, -⟩ := idx_facts2 t2_9
  intro a
  match a with
  | ⟨0, _⟩ => show win2_3.index t2_9 (0 : Fin 2) * 1 ≤ (i 0).val ∧ (i 0).val < win2_3.index t2_9 (0 : Fin 2) * 1 + 1; omega
  | ⟨1, _⟩ => show win2_3.index t2_9 (1 : Fin 2) * 64 ≤ (i 1).val ∧ (i 1).val < win2_3.index t2_9 (1 : Fin 2) * 64 + 64; omega

theorem cover2_4 (i : S1x64.Idx) : ∃ t : Fin cfg2.N, (cfg2.win 4).flush t = true ∧ i ∈ ((cfg2.win 4).blk t).view.set := by
  have hi0 : (i 0).val < 1 := (i 0).isLt
  have hi1 : (i 1).val < 64 := (i 1).isLt
  refine ⟨t2_9, (flush2_4 t2_9).mpr rfl, ?_⟩
  rw [mem_blk2_4]
  obtain ⟨-, -, -, -, -, -, -, -, e8, e9⟩ := idx_facts2 t2_9
  intro a
  match a with
  | ⟨0, _⟩ => show win2_4.index t2_9 (0 : Fin 2) * 1 ≤ (i 0).val ∧ (i 0).val < win2_4.index t2_9 (0 : Fin 2) * 1 + 1; omega
  | ⟨1, _⟩ => show win2_4.index t2_9 (1 : Fin 2) * 64 ≤ (i 1).val ∧ (i 1).val < win2_4.index t2_9 (1 : Fin 2) * 64 + 64; omega

theorem final2_3 (c : Dev nD) : (dat2 V c).arrAt 3 cfg2.N = res2_3 (V c (Pipeline.arrRef spec2 0)) (V c (Pipeline.arrRef spec2 1)) :=
  (dat2 V c).arrAt_eq_of_cover 3 (res2_3 (aggA2 V c) (biasA2 V c)) (fun t hf => flushed2_3_eq V c t hf) cover2_3

theorem final2_4 (c : Dev nD) : (dat2 V c).arrAt 4 cfg2.N = res2_4 (V c (Pipeline.arrRef spec2 0)) (V c (Pipeline.arrRef spec2 1)) :=
  (dat2 V c).arrAt_eq_of_cover 4 (res2_4 (aggA2 V c) (biasA2 V c)) (fun t hf => flushed2_4_eq V c t hf) cover2_4

end Region2

end Cert.KernelIdeal.Hand

end
-- ==== Proof.KI.Reg3.lean ====
import proofs.«424828_j6554120094214_2_alg».proof.Proof.Gen.KernelIdeal.Launch
import proofs.«424828_j6554120094214_2_alg».proof.Proof.Gen.KernelIdeal.Skeleton
import proofs.«424828_j6554120094214_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.ValueIdx
import Idealize.ShloMosaic.Lib.ValueLayout
import Idealize.ShloMosaic.PureOps.Ideal.Laws
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem hz3 : (![0, 0] : Fin 2 → Nat) = fun _ => 0 := funext fun a => by fin_cases a <;> rfl

abbrev r3_0 : Rect S10000x64 := Rect.unit (s := S10000x64) ![0, 0] S10000x64.size inb_S10000x64_S10000x64_0_0

def out3_5 (x0 : Vec F S10000x64 .f32) (x1 : Vec F S1x64 .f32) (x2 : Vec F S1x64 .f32) (x3 : Vec F S1x64 .f32) (x4 : Vec F S1x64 .f32) : Vec F S10000x64 .f32 :=
  View.canon [⟨r3_0, k3_pay1 (View.ld x2 (Rect.unit (s := S1x64) ![0, 0] S1x64.size inb_S1x64_S1x64_0_0)) (View.ld x3 (Rect.unit (s := S1x64) ![0, 0] S1x64.size inb_S1x64_S1x64_0_0)) (View.ld x0 r3_0) (View.ld x1 (Rect.unit (s := S1x64) ![0, 0] S1x64.size inb_S1x64_S1x64_0_0)) (View.ld x4 (Rect.unit (s := S1x64) ![0, 0] S1x64.size inb_S1x64_S1x64_0_0))⟩]

theorem cover3_5 (p0 : Vec F S10000x64 .f32) (y : S10000x64.Idx) :
    ∃ pc ∈ ([⟨r3_0, p0⟩] : List (View.Piece (Elt F) S10000x64 .f32)), y ∈ pc.1.set :=
  ⟨_, List.mem_singleton_self _, View.mem_set_unit_zero hz3 inb_S10000x64_S10000x64_0_0 y⟩

set_option maxHeartbeats 1000000 in
theorem sound_kernel3 (c : Dev nD) (E : Set ℕ) (i : grid3.Coords)
    (arg1 : Memref sig .tc .vmem S10000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S10000x64 .f32) (harg6 : arg6.IsWhole)
    (x0 : Vec F S10000x64 .f32) (x1 : Vec F S1x64 .f32) (x2 : Vec F S1x64 .f32) (x3 : Vec F S1x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__bn_apply_kernel i arg1 harg1 arg2 harg2 arg3 harg3 arg4 harg4 arg5 harg5 arg6 harg6) K := by
  simp only [cc3__bn_apply_kernel_eq_skeleton]; unfold cc3__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem Phi_in3 (c : Dev nD) : (dat3 V c).Φ 0 = Pipeline.ΦA spec3 c := by
  dsimp only [dat3]

theorem Phi_out3 (c : Dev nD) : (dat3 V c).Φ (Fin.last _) ⊢ Pipeline.ΦA spec3 c := by
  dsimp only [dat3]; exact BIBase.Entails.rfl

theorem owed3 (c : Dev nD) : ∀ x, (dat3 V c).owed x = 0 := fun _ => by
  dsimp only [dat3]

theorem share3 (c : Dev nD) : ∀ w, (dat3 V c).q w = fullShare := fun _ => by
  dsimp only [dat3]

theorem recorded3 (c : Dev nD) : ∀ t, (dat3 V c).recorded t = Set.univ := fun _ => rfl

theorem after3_0 (c : Dev nD) (t : Fin cfg3.N) : (dat3 V c).after 0 t = iblk3 V c 0 t := by dsimp only [dat3]

theorem after3_1 (c : Dev nD) (t : Fin cfg3.N) : (dat3 V c).after 1 t = iblk3 V c 1 t := by dsimp only [dat3]

theorem after3_2 (c : Dev nD) (t : Fin cfg3.N) : (dat3 V c).after 2 t = iblk3 V c 2 t := by dsimp only [dat3]

theorem after3_3 (c : Dev nD) (t : Fin cfg3.N) : (dat3 V c).after 3 t = iblk3 V c 3 t := by dsimp only [dat3]

theorem after3_4 (c : Dev nD) (t : Fin cfg3.N) : (dat3 V c).after 4 t = iblk3 V c 4 t := by dsimp only [dat3]

theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d

theorem before3_1 (c : Dev nD) (t : Fin cfg3.N) (d) : (dat3 V c).before 1 t d = iblk3 V c 1 t :=
  before3_1_of V (dat3 V c) (A_eq3 V c 1) (after3_1 V c) t d

theorem before3_2 (c : Dev nD) (t : Fin cfg3.N) (d) : (dat3 V c).before 2 t d = iblk3 V c 2 t :=
  before3_2_of V (dat3 V c) (A_eq3 V c 2) (after3_2 V c) t d

theorem before3_3 (c : Dev nD) (t : Fin cfg3.N) (d) : (dat3 V c).before 3 t d = iblk3 V c 3 t :=
  before3_3_of V (dat3 V c) (A_eq3 V c 3) (after3_3 V c) t d

theorem before3_4 (c : Dev nD) (t : Fin cfg3.N) (d) : (dat3 V c).before 4 t d = iblk3 V c 4 t :=
  before3_4_of V (dat3 V c) (A_eq3 V c 4) (after3_4 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

open Idealize.ShloMosaic.ValueIdx

def res3_5 (h : Vec F S100000x64 .f32) (mean : Vec F S1x64 .f32) (var : Vec F S1x64 .f32) (g : Vec F S1x64 .f32) (beta : Vec F S1x64 .f32) :
    Vec F S100000x64 .f32 :=
  fun i => FloatOps.addf (FloatOps.mulf (FloatOps.mulf (g (ix2 (0 : Fin 1) (i 1))) (FloatOps.subf (h i) (mean (ix2 (0 : Fin 1) (i 1)))))
      (FloatOps.rsqrt (FloatOps.addf (var (ix2 (0 : Fin 1) (i 1))) (Scalar.ofBits .f32 0x3727C5AC#32)))) (beta (ix2 (0 : Fin 1) (i 1)))

theorem res3_5_at (h : Vec F S100000x64 .f32) (mean : Vec F S1x64 .f32) (var : Vec F S1x64 .f32) (g : Vec F S1x64 .f32) (beta : Vec F S1x64 .f32)
    (i : S100000x64.Idx) (f : Fin 64) (hf : (i 1).val = f.val) :
    res3_5 h mean var g beta i
      = FloatOps.addf (FloatOps.mulf (FloatOps.mulf (g (ix2 (0 : Fin 1) f)) (FloatOps.subf (h i) (mean (ix2 (0 : Fin 1) f))))
          (FloatOps.rsqrt (FloatOps.addf (var (ix2 (0 : Fin 1) f)) (Scalar.ofBits .f32 0x3727C5AC#32)))) (beta (ix2 (0 : Fin 1) f)) := by
  obtain rfl : (i 1 : Fin 64) = f := Fin.ext hf
  rfl

theorem k3_pay1_apply (var : Vec F S1x64 .f32) (g : Vec F S1x64 .f32) (h : Vec F S10000x64 .f32) (mean : Vec F S1x64 .f32) (beta : Vec F S1x64 .f32)
    (j : S10000x64.Idx) (f : Fin 64) (hf : (j 1).val = f.val) :
    k3_pay1 var g h mean beta j
      = FloatOps.addf (FloatOps.mulf (FloatOps.mulf (g (ix2 (0 : Fin 1) f)) (FloatOps.subf (h j) (mean (ix2 (0 : Fin 1) f))))
          (FloatOps.rsqrt (FloatOps.addf (var (ix2 (0 : Fin 1) f)) (Scalar.ofBits .f32 0x3727C5AC#32)))) (beta (ix2 (0 : Fin 1) f)) := by
  obtain rfl : (j 1 : Fin 64) = f := Fin.ext hf
  have hb : ∀ x : FVec F S1x64 .f32, broadcastTo S10000x64 x broadcasts_S1x64_S10000x64 j = x (ix2 (0 : Fin 1) (j 1)) := fun x =>
    broadcastTo_apply x broadcasts_S1x64_S10000x64 j (ix2 (0 : Fin 1) (j 1)) (fun a => by
      match a with
      | ⟨0, _⟩ => rfl
      | ⟨1, _⟩ => rfl)
  unfold k3_pay1
  simp only [shapeCast_self]
  show FloatOps.addf (FloatOps.mulf (FloatOps.mulf (broadcastTo S10000x64 g broadcasts_S1x64_S10000x64 j)
        (FloatOps.subf (h j) (broadcastTo S10000x64 mean broadcasts_S1x64_S10000x64 j)))
      (broadcastTo S10000x64 (rsqrt (addf var (broadcast S1x64 (Scalar.ofBits .f32 0x3727C5AC#32)))) broadcasts_S1x64_S10000x64 j))
    (broadcastTo S10000x64 beta broadcasts_S1x64_S10000x64 j) = _
  rw [hb g, hb mean, hb beta, hb (rsqrt (addf var (broadcast S1x64 (Scalar.ofBits .f32 0x3727C5AC#32))))]
  rfl

theorem idx_facts3 : ∀ t : Fin cfg3.N, win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

theorem iblk3_0_apply (c : Dev nD) (t : Fin cfg3.N) (x : S10000x64.Idx) (k : S100000x64.Idx)
    (hk0 : (k 0).val = 10000 * t.val + (x 0).val) (hk1 : (k 1).val = (x 1).val) :
    (iblk3 V c 0 t : Vec F S10000x64 .f32) x = (V c (Pipeline.arrRef spec3 0) : S100000x64.Idx → Elt F .f32) k := by
  obtain ⟨e0, e1, -⟩ := idx_facts3 t
  unfold iblk3
  rw [View.read_apply]
  show (V c (Pipeline.arrRef spec3 0) : S100000x64.Idx → Elt F .f32) _ = (V c (Pipeline.arrRef spec3 0) : S100000x64.Idx → Elt F .f32) _
  congr 1
  funext a
  apply Fin.ext
  match a with
  | ⟨0, _⟩ => show win3_0.index t 0 * 10000 + 1 * (x 0).val = (k 0).val; rw [e0, hk0]; omega
  | ⟨1, _⟩ => show win3_0.index t 1 * 64 + 1 * (x 1).val = (k 1).val; rw [e1, hk1]; omega

theorem iblk3_1_apply (c : Dev nD) (t : Fin cfg3.N) (x : S1x64.Idx) :
    (iblk3 V c 1 t : Vec F S1x64 .f32) x = (V c (Pipeline.arrRef spec3 1) : S1x64.Idx → Elt F .f32) x := by
  obtain ⟨-, -, -, -, e0, e1, -⟩ := idx_facts3 t
  unfold iblk3
  rw [View.read_apply]
  show (V c (Pipeline.arrRef spec3 1) : S1x64.Idx → Elt F .f32) _ = (V c (Pipeline.arrRef spec3 1) : S1x64.Idx → Elt F .f32) _
  congr 1
  funext a
  apply Fin.ext
  match a with
  | ⟨0, _⟩ => show win3_1.index t 0 * 1 + 1 * (x 0).val = (x 0).val; rw [e0]; omega
  | ⟨1, _⟩ => show win3_1.index t 1 * 64 + 1 * (x 1).val = (x 1).val; rw [e1]; omega

theorem iblk3_2_apply (c : Dev nD) (t : Fin cfg3.N) (x : S1x64.Idx) :
    (iblk3 V c 2 t : Vec F S1x64 .f32) x = (V c (Pipeline.arrRef spec3 2) : S1x64.Idx → Elt F .f32) x := by
  obtain ⟨-, -, -, -, -, -, e0, e1, -⟩ := idx_facts3 t
  unfold iblk3
  rw [View.read_apply]
  show (V c (Pipeline.arrRef spec3 2) : S1x64.Idx → Elt F .f32) _ = (V c (Pipeline.arrRef spec3 2) : S1x64.Idx → Elt F .f32) _
  congr 1
  funext a
  apply Fin.ext
  match a with
  | ⟨0, _⟩ => show win3_2.index t 0 * 1 + 1 * (x 0).val = (x 0).val; rw [e0]; omega
  | ⟨1, _⟩ => show win3_2.index t 1 * 64 + 1 * (x 1).val = (x 1).val; rw [e1]; omega

theorem iblk3_3_apply (c : Dev nD) (t : Fin cfg3.N) (x : S1x64.Idx) :
    (iblk3 V c 3 t : Vec F S1x64 .f32) x = (V c (Pipeline.arrRef spec3 3) : S1x64.Idx → Elt F .f32) x := by
  obtain ⟨-, -, -, -, -, -, -, -, e0, e1, -⟩ := idx_facts3 t
  unfold iblk3
  rw [View.read_apply]
  show (V c (Pipeline.arrRef spec3 3) : S1x64.Idx → Elt F .f32) _ = (V c (Pipeline.arrRef spec3 3) : S1x64.Idx → Elt F .f32) _
  congr 1
  funext a
  apply Fin.ext
  match a with
  | ⟨0, _⟩ => show win3_3.index t 0 * 1 + 1 * (x 0).val = (x 0).val; rw [e0]; omega
  | ⟨1, _⟩ => show win3_3.index t 1 * 64 + 1 * (x 1).val = (x 1).val; rw [e1]; omega

theorem iblk3_4_apply (c : Dev nD) (t : Fin cfg3.N) (x : S1x64.Idx) :
    (iblk3 V c 4 t : Vec F S1x64 .f32) x = (V c (Pipeline.arrRef spec3 4) : S1x64.Idx → Elt F .f32) x := by
  obtain ⟨-, -, -, -, -, -, -, -, -, -, e0, e1⟩ := idx_facts3 t
  unfold iblk3
  rw [View.read_apply]
  show (V c (Pipeline.arrRef spec3 4) : S1x64.Idx → Elt F .f32) _ = (V c (Pipeline.arrRef spec3 4) : S1x64.Idx → Elt F .f32) _
  congr 1
  funext a
  apply Fin.ext
  match a with
  | ⟨0, _⟩ => show win3_4.index t 0 * 1 + 1 * (x 0).val = (x 0).val; rw [e0]; omega
  | ⟨1, _⟩ => show win3_4.index t 1 * 64 + 1 * (x 1).val = (x 1).val; rw [e1]; omega

theorem block3_5_apply (c : Dev nD) (t : Fin cfg3.N) (j : S10000x64.Idx) (i : S100000x64.Idx)
    (hi0 : (i 0).val = 10000 * t.val + (j 0).val) (hi1 : (i 1).val = (j 1).val) :
    k3_pay1 (iblk3 V c 2 t) (iblk3 V c 3 t) (iblk3 V c 0 t) (iblk3 V c 1 t) (iblk3 V c 4 t) j
      = res3_5 (V c (Pipeline.arrRef spec3 0)) (V c (Pipeline.arrRef spec3 1)) (V c (Pipeline.arrRef spec3 2)) (V c (Pipeline.arrRef spec3 3)) (V c (Pipeline.arrRef spec3 4)) i := by
  refine (k3_pay1_apply (iblk3 V c 2 t) (iblk3 V c 3 t) (iblk3 V c 0 t) (iblk3 V c 1 t) (iblk3 V c 4 t) j (j 1) rfl).trans ?_
  refine Eq.trans ?_ (res3_5_at (V c (Pipeline.arrRef spec3 0)) (V c (Pipeline.arrRef spec3 1)) (V c (Pipeline.arrRef spec3 2)) (V c (Pipeline.arrRef spec3 3)) (V c (Pipeline.arrRef spec3 4)) i (j 1) hi1).symm
  rw [iblk3_0_apply V c t j i hi0 hi1, iblk3_1_apply, iblk3_2_apply, iblk3_3_apply, iblk3_4_apply]

theorem flushed3_5_eq (c : Dev nD) (t : Fin cfg3.N) :
    (dat3 V c).flushed 5 t = ((cfg3.win 5).blk t).view.read (Elt F)
      (res3_5 (V c (Pipeline.arrRef spec3 0)) (V c (Pipeline.arrRef spec3 1)) (V c (Pipeline.arrRef spec3 2)) (V c (Pipeline.arrRef spec3 3)) (V c (Pipeline.arrRef spec3 4))) := by
  show (cfg3.win 5).cut (grid3.coords t) ((dat3 V c).after 5 t) = _
  rw [after3_5]
  unfold out3_5
  rw [View.canon_unit_zero hz3]
  simp only [View.ld_unit_zero (S := S10000x64) hz3, View.ld_unit_zero (S := S1x64) hz3]
  obtain ⟨-, -, e0, e1, -⟩ := idx_facts3 t
  funext j
  exact block3_5_apply V c t j (((cfg3.win 5).blk t).view.emb j)
    (by show win3_5.index t 0 * 10000 + 1 * (j 0).val = 10000 * t.val + (j 0).val; rw [e0]; omega)
    (by show win3_5.index t 1 * 64 + 1 * (j 1).val = (j 1).val; rw [e1]; omega)

theorem mem_blk3_5 (t : Fin cfg3.N) (i : S100000x64.Idx) :
    i ∈ ((cfg3.win 5).blk t).view.set ↔ ∀ a : Fin 2, win3_5.index t a * S10000x64.size a ≤ (i a).val ∧ (i a).val < win3_5.index t a * S10000x64.size a + S10000x64.size a := by
  show i ∈ ((View.whole (Pipeline.arrRef spec3 5)).slice (win3_5.rect t)).set ↔ _
  rw [View.set_slice_whole, Rect.mem_set_unit]
  exact Iff.rfl

theorem covered3_5 (i : S100000x64.Idx) : ∃ t : Fin cfg3.N, (cfg3.win 5).flush t = true ∧ i ∈ ((cfg3.win 5).blk t).view.set := by
  have hi0 : (i 0).val < 100000 := (i 0).isLt
  have hi1 : (i 1).val < 64 := (i 1).isLt
  have hN : cfg3.N = 10 := N_3
  have ht : (i 0).val / 10000 < cfg3.N := by omega
  obtain ⟨-, -, e0, e1, -⟩ := idx_facts3 ⟨(i 0).val / 10000, ht⟩
  refine ⟨⟨(i 0).val / 10000, ht⟩, flush3_5 _, ?_⟩
  rw [mem_blk3_5]
  intro a
  match a with
  | ⟨0, _⟩ =>
    show win3_5.index ⟨(i 0).val / 10000, ht⟩ 0 * 10000 ≤ (i 0).val ∧ (i 0).val < win3_5.index ⟨(i 0).val / 10000, ht⟩ 0 * 10000 + 10000
    rw [e0]; show (i 0).val / 10000 * 10000 ≤ (i 0).val ∧ (i 0).val < (i 0).val / 10000 * 10000 + 10000; omega
  | ⟨1, _⟩ =>
    show win3_5.index ⟨(i 0).val / 10000, ht⟩ 1 * 64 ≤ (i 1).val ∧ (i 1).val < win3_5.index ⟨(i 0).val / 10000, ht⟩ 1 * 64 + 64
    rw [e1]; omega

theorem final3_5 (c : Dev nD) : (dat3 V c).arrAt 5 cfg3.N
    = res3_5 (V c (Pipeline.arrRef spec3 0)) (V c (Pipeline.arrRef spec3 1)) (V c (Pipeline.arrRef spec3 2)) (V c (Pipeline.arrRef spec3 3)) (V c (Pipeline.arrRef spec3 4)) :=
  (dat3 V c).arrAt_eq_of_cover 5
    (res3_5 (V c (Pipeline.arrRef spec3 0)) (V c (Pipeline.arrRef spec3 1)) (V c (Pipeline.arrRef spec3 2)) (V c (Pipeline.arrRef spec3 3)) (V c (Pipeline.arrRef spec3 4)))
    (fun t _ => flushed3_5_eq V c t) (fun i => covered3_5 i)

theorem res3_5_apply (h : FVec Ideal S100000x64 .f32) (mean : FVec Ideal S1x64 .f32) (var : FVec Ideal S1x64 .f32) (g : FVec Ideal S1x64 .f32)
    (beta : FVec Ideal S1x64 .f32) (n : Fin 100000) (f : Fin 64) :
    res3_5 (F := Ideal) h mean var g beta (ix2 n f)
      = g (ix2 (0 : Fin 1) f) * (h (ix2 n f) - mean (ix2 (0 : Fin 1) f)) * Ideal.rsqrt (var (ix2 (0 : Fin 1) f) + Ideal.ofBits .f32 0x3727C5AC#32)
        + beta (ix2 (0 : Fin 1) f) := rfl

end Cert.KernelIdeal.Hand

end
-- ==== Proof.KI.Reg4.lean ====
import proofs.«424828_j6554120094214_2_alg».proof.Proof.Gen.KernelIdeal.Launch
import proofs.«424828_j6554120094214_2_alg».proof.Proof.Gen.KernelIdeal.Skeleton
import proofs.«424828_j6554120094214_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S10000x64 := Rect.unit (s := S10000x64) ![0, 0] S10000x64.size inb_S10000x64_S10000x64_0_0

abbrev r4_1 : Rect S64x64 := Rect.unit (s := S64x64) ![0, 0] S64x64.size inb_S64x64_S64x64_0_0

def out4_2 (x0 : Vec F S10000x64 .f32) (x1 : Vec F S64x64 .f32) : Vec F S10000x64 .f32 :=
  View.canon [⟨r4_0, k4_pay1 (View.ld x0 r4_0) (View.ld x1 r4_1)⟩]

theorem cover4_2 (p0 : Vec F S10000x64 .f32) (y : S10000x64.Idx) :
    ∃ pc ∈ ([⟨r4_0, p0⟩] : List (View.Piece (Elt F) S10000x64 .f32)), y ∈ pc.1.set :=
  View.cover_of_tiled [⟨r4_0, p0⟩] S10000x64.size (by rfl) y

set_option maxHeartbeats 1000000 in
theorem sound_kernel4 (c : Dev nD) (E : Set ℕ) (i : grid4.Coords) (arg1 : Memref sig .tc .vmem S10000x64 .f32) (harg1 : arg1.IsWhole)
    (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__linear_kernel i arg1 harg1 arg2 harg2 arg3 harg3) K := by
  simp only [cc4__linear_kernel_eq_skeleton]; unfold cc4__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem Phi_in4 (c : Dev nD) : (dat4 V c).Φ 0 = Pipeline.ΦA spec4 c := rfl

theorem Phi_out4 (c : Dev nD) : (dat4 V c).Φ (Fin.last _) ⊢ Pipeline.ΦA spec4 c := .rfl

theorem owed4 (c : Dev nD) : ∀ x, (dat4 V c).owed x = 0 := fun _ => rfl

theorem share4 (c : Dev nD) : ∀ w, (dat4 V c).q w = fullShare := fun _ => rfl

theorem recorded4 (c : Dev nD) : ∀ t, (dat4 V c).recorded t = Set.univ := fun _ => rfl

theorem after4_0 (c : Dev nD) (t : Fin cfg4.N) : (dat4 V c).after 0 t = iblk4 V c 0 t := by dsimp only [dat4]

theorem after4_1 (c : Dev nD) (t : Fin cfg4.N) : (dat4 V c).after 1 t = iblk4 V c 1 t := by dsimp only [dat4]

theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d

theorem before4_1 (c : Dev nD) (t : Fin cfg4.N) (d) : (dat4 V c).before 1 t d = iblk4 V c 1 t :=
  before4_1_of V (dat4 V c) (A_eq4 V c 1) (after4_1 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

open Idealize.ShloMosaic.ValueIdx

theorem hz4 : (![0, 0] : Fin 2 → Nat) = fun _ => 0 := funext fun a => by fin_cases a <;> rfl

def rows4 (b : Fin 10) (x : Vec F S100000x64 .f32) : Vec F S10000x64 .f32 :=
  fun j => x (ix2 (⟨b.val * 10000 + (j 0).val, by have h := idx2_lt0 j; have hb := b.isLt; omega⟩ : Fin 100000) (j 1 : Fin 64))

def res4_2 (x : Vec F S100000x64 .f32) (w : Vec F S64x64 .f32) : Vec F S100000x64 .f32 :=
  fun i => k4_pay1 (rows4 ⟨(i 0).val / 10000, by have h := idx2_lt0 i; omega⟩ x) w
    (ix2 (⟨(i 0).val % 10000, Nat.mod_lt _ (by decide)⟩ : Fin 10000) (i 1 : Fin 64))

theorem res4_2_blk (x : Vec F S100000x64 .f32) (w : Vec F S64x64 .f32) (b : Fin 10) (j : S10000x64.Idx) (i : S100000x64.Idx)
    (h0 : (i 0).val = b.val * 10000 + (j 0).val) (h1 : (i 1).val = (j 1).val) :
    res4_2 x w i = k4_pay1 (rows4 b x) w j := by
  unfold res4_2
  have hj0 := idx2_lt0 j
  have hb : (⟨(i 0).val / 10000, by have h := idx2_lt0 i; omega⟩ : Fin 10) = b := Fin.ext (by show (i 0).val / 10000 = b.val; omega)
  have hj : ix2 (⟨(i 0).val % 10000, Nat.mod_lt _ (by decide)⟩ : Fin 10000) (i 1 : Fin 64) = j := by
    funext a
    match a with
    | ⟨0, _⟩ => exact Fin.ext (by show (i 0).val % 10000 = (j 0).val; omega)
    | ⟨1, _⟩ => exact Fin.ext h1
  exact congrArg₂ (fun b' j' => k4_pay1 (rows4 b' x) w j') hb hj

theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem flushed4_2_eq (c : Dev nD) (t : Fin cfg4.N) :
    (dat4 V c).flushed 2 t = ((cfg4.win 2).blk t).view.read (Elt F)
      (res4_2 (V c (Pipeline.arrRef spec4 0)) (V c (Pipeline.arrRef spec4 1))) := by
  show (cfg4.win 2).cut (grid4.coords t) ((dat4 V c).after 2 t) = _
  rw [after4_2]
  unfold out4_2
  rw [View.canon_unit_zero hz4]
  simp only [View.ld_unit_zero (S := S10000x64) hz4, View.ld_unit_zero (S := S64x64) hz4]
  obtain ⟨e0, e1, e2, e3, e4, e5⟩ := idx_facts4 t
  have hN : t.val < 10 := Nat.lt_of_lt_of_eq t.isLt (show cfg4.N = 10 from N_4)
  have hx : iblk4 V c 0 t = rows4 ⟨t.val, hN⟩ (V c (Pipeline.arrRef spec4 0)) := by
    funext j
    show V c (Pipeline.arrRef spec4 0) (((cfg4.win 0).blk t).view.emb j) = V c (Pipeline.arrRef spec4 0) (ix2 _ _)
    refine congrArg _ ?_
    funext a; apply Fin.ext
    match a with
    | ⟨0, _⟩ => show win4_0.index t (0 : Fin 2) * 10000 + 1 * (j 0).val = t.val * 10000 + (j 0).val; omega
    | ⟨1, _⟩ => show win4_0.index t (1 : Fin 2) * 64 + 1 * (j 1).val = (j 1).val; omega
  have hw : iblk4 V c 1 t = V c (Pipeline.arrRef spec4 1) := by
    funext j
    show V c (Pipeline.arrRef spec4 1) (((cfg4.win 1).blk t).view.emb j) = V c (Pipeline.arrRef spec4 1) j
    refine congrArg _ ?_
    funext a; apply Fin.ext
    match a with
    | ⟨0, _⟩ => show win4_1.index t (0 : Fin 2) * 64 + 1 * (j 0).val = (j 0).val; omega
    | ⟨1, _⟩ => show win4_1.index t (1 : Fin 2) * 64 + 1 * (j 1).val = (j 1).val; omega
  rw [hx, hw]
  funext j
  refine (res4_2_blk _ _ ⟨t.val, hN⟩ j _ ?_ ?_).symm
  · show win4_2.index t (0 : Fin 2) * 10000 + 1 * (j 0).val = t.val * 10000 + (j 0).val; omega
  · show win4_2.index t (1 : Fin 2) * 64 + 1 * (j 1).val = (j 1).val; omega

theorem mem_blk4_2 (t : Fin cfg4.N) (i : S100000x64.Idx) :
    Iff (i ∈ ((cfg4.win 2).blk t).view.set) (∀ a : Fin 2, win4_2.index t a * S10000x64.size a ≤ (i a).val ∧ (i a).val < win4_2.index t a * S10000x64.size a + S10000x64.size a) := by
  show Iff (i ∈ ((View.whole (Pipeline.arrRef spec4 2)).slice (win4_2.rect t)).set) _
  rw [View.set_slice_whole, Rect.mem_set_unit]
  exact Iff.rfl

theorem covered4_2 (i : S100000x64.Idx) : ∃ t : Fin cfg4.N, (cfg4.win 2).flush t = true ∧ i ∈ ((cfg4.win 2).blk t).view.set := by
  have hi0 := idx2_lt0 i
  have hi1 := idx2_lt1 i
  have hN : (i 0).val / 10000 < cfg4.N := Nat.lt_of_lt_of_eq (by omega : (i 0).val / 10000 < 10) (show 10 = cfg4.N from N_4.symm)
  refine ⟨⟨(i 0).val / 10000, hN⟩, flush4_2 _, ?_⟩
  rw [mem_blk4_2]
  obtain ⟨-, -, -, -, e4, e5⟩ := idx_facts4 ⟨(i 0).val / 10000, hN⟩
  intro a
  match a with
  | ⟨0, _⟩ =>
    show win4_2.index ⟨(i 0).val / 10000, hN⟩ (0 : Fin 2) * 10000 ≤ (i 0).val ∧ (i 0).val < win4_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win4_2.index ⟨(i 0).val / 10000, hN⟩ (1 : Fin 2) * 64 ≤ (i 1).val ∧ (i 1).val < win4_2.index ⟨(i 0).val / 10000, hN⟩ (1 : Fin 2) * 64 + 64
    rw [e5]; omega

theorem final4_2 (c : Dev nD) : (dat4 V c).arrAt 2 cfg4.N = res4_2 (V c (Pipeline.arrRef spec4 0)) (V c (Pipeline.arrRef spec4 1)) :=
  (dat4 V c).arrAt_eq_of_cover 2 _ (fun t _ => flushed4_2_eq V c t) covered4_2

section AtIdeal

theorem lhs4_0 (j : S10000x64.Idx) (k : dot_S10000x64_S64x64_S10000x64_1_1_0_0_n_n.contr.Idx) :
    ((dot_S10000x64_S64x64_S10000x64_1_1_0_0_n_n.lhsIdx j k) (0 : Fin S10000x64.rank)).val = (j (0 : Fin S10000x64.rank)).val := by
  unfold DotDims.lhsIdx
  rw [dif_neg (show ¬(0 : Fin S10000x64.rank) ∈ dot_S10000x64_S64x64_S10000x64_1_1_0_0_n_n.lhsBatch by decide),
    dif_pos (show (0 : Fin S10000x64.rank) ∈ dot_S10000x64_S64x64_S10000x64_1_1_0_0_n_n.lhsNonContracting by decide)]
  rfl

theorem lhs4_1 (j : S10000x64.Idx) (k : dot_S10000x64_S64x64_S10000x64_1_1_0_0_n_n.contr.Idx) :
    ((dot_S10000x64_S64x64_S10000x64_1_1_0_0_n_n.lhsIdx j k) (1 : Fin S10000x64.rank)).val = (k ⟨0, by decide⟩).val :=
  dot_S10000x64_S64x64_S10000x64_1_1_0_0_n_n.lhsIdx_val_of_single rfl j k

theorem rhs4_0 (j : S10000x64.Idx) (k : dot_S10000x64_S64x64_S10000x64_1_1_0_0_n_n.contr.Idx) :
    ((dot_S10000x64_S64x64_S10000x64_1_1_0_0_n_n.rhsIdx j k) (0 : Fin S64x64.rank)).val = (j (1 : Fin S10000x64.rank)).val := by
  unfold DotDims.rhsIdx
  rw [dif_neg (show ¬(0 : Fin S64x64.rank) ∈ dot_S10000x64_S64x64_S10000x64_1_1_0_0_n_n.rhsBatch by decide),
    dif_pos (show (0 : Fin S64x64.rank) ∈ dot_S10000x64_S64x64_S10000x64_1_1_0_0_n_n.rhsNonContracting by decide)]
  rfl

theorem rhs4_1 (j : S10000x64.Idx) (k : dot_S10000x64_S64x64_S10000x64_1_1_0_0_n_n.contr.Idx) :
    ((dot_S10000x64_S64x64_S10000x64_1_1_0_0_n_n.rhsIdx j k) (1 : Fin S64x64.rank)).val = (k ⟨0, by decide⟩).val :=
  dot_S10000x64_S64x64_S10000x64_1_1_0_0_n_n.rhsIdx_val_of_single rfl j k

theorem k4_pay1_apply (v0 : FVec Ideal S10000x64 .f32) (v2 : FVec Ideal S64x64 .f32) (p : Fin 10000) (q : Fin 64) :
    k4_pay1 v0 v2 (ix2 p q) = ∑ k : Fin 64, v0 (ix2 p k) * v2 (ix2 q k) := by
  unfold k4_pay1
  (try simp only [shapeCast_self])
  show FloatOps.matmul dot_S10000x64_S64x64_S10000x64_1_1_0_0_n_n none (truncf .bf16 v0 bitsLt_bf16_f32) (truncf .bf16 v2 bitsLt_bf16_f32)
    (constant (F := Ideal) S10000x64 .f32 0x00000000#32) (ix2 p q) = _
  rw [Ideal.matmul_constant_zero_apply]
  refine (Equiv.sum_comp (contrEquiv1 dot_S10000x64_S64x64_S10000x64_1_1_0_0_n_n 64 rfl rfl).symm _).symm.trans ?_
  refine Finset.sum_congr rfl fun k _ => ?_
  have hl : dot_S10000x64_S64x64_S10000x64_1_1_0_0_n_n.lhsIdx (ix2 p q) ((contrEquiv1 dot_S10000x64_S64x64_S10000x64_1_1_0_0_n_n 64 rfl rfl).symm k) = ix2 p k := by
    funext a; apply Fin.ext
    match a with
    | ⟨0, _⟩ => exact lhs4_0 _ _
    | ⟨1, _⟩ => exact (lhs4_1 _ _).trans (contrEquiv1_symm_val _ 64 rfl rfl k)
  have hr : dot_S10000x64_S64x64_S10000x64_1_1_0_0_n_n.rhsIdx (ix2 p q) ((contrEquiv1 dot_S10000x64_S64x64_S10000x64_1_1_0_0_n_n 64 rfl rfl).symm k) = ix2 q k := by
    funext a; apply Fin.ext
    match a with
    | ⟨0, _⟩ => exact rhs4_0 _ _
    | ⟨1, _⟩ => exact (rhs4_1 _ _).trans (contrEquiv1_symm_val _ 64 rfl rfl k)
  rw [hl, hr]
  rfl

theorem res4_2_apply (x : Vec Ideal S100000x64 .f32) (w : Vec Ideal S64x64 .f32) (n : Fin 100000) (o : Fin 64) :
    res4_2 x w (ix2 n o) = ∑ k : Fin 64, x (ix2 n k) * w (ix2 o k) := by
  unfold res4_2
  refine (k4_pay1_apply _ _ _ _).trans ?_
  refine Finset.sum_congr rfl fun k _ => ?_
  unfold rows4
  refine congrArg (fun r => x (ix2 r k) * w (ix2 o k)) (Fin.ext ?_)
  show n.val / 10000 * 10000 + n.val % 10000 = n.val
  omega

end AtIdeal

end Cert.KernelIdeal.Hand
-- ==== Proof.KI.Reg5.lean ====
import proofs.«424828_j6554120094214_2_alg».proof.Proof.Gen.KernelIdeal.Launch
import proofs.«424828_j6554120094214_2_alg».proof.Proof.Gen.KernelIdeal.Skeleton
import proofs.«424828_j6554120094214_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic
set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S10000x64 := Rect.unit (s := S10000x64) ![0, 0] S10000x64.size inb_S10000x64_S10000x64_0_0

abbrev r5_1 : Rect S10000x1 := Rect.unit (s := S10000x1) ![0, 0] S10000x1.size inb_S10000x1_S10000x1_0_0

theorem zeros5 : (![0, 0] : Fin 2 → Nat) = fun _ => 0 := funext fun a => by fin_cases a <;> rfl

def out5_2 (x0 : Vec F S10000x64 .f32) (x1 : Vec F S10000x1 .f32) : Vec F S10000x64 .f32 :=
  View.canon [⟨r5_0, k5_pay1 (View.ld x0 r5_0) (View.ld x1 r5_1)⟩]

theorem cover5_2 (p0 : Vec F S10000x64 .f32) (y : S10000x64.Idx) :
    ∃ pc ∈ ([⟨r5_0, p0⟩] : List (View.Piece (Elt F) S10000x64 .f32)), y ∈ pc.1.set :=
  ⟨_, List.mem_singleton_self _, View.mem_set_unit_zero zeros5 inb_S10000x64_S10000x64_0_0 y⟩

set_option maxHeartbeats 1000000 in
theorem sound_kernel5 (c : Dev nD) (E : Set ℕ) (i : grid5.Coords) (arg1 : Memref sig .tc .vmem S10000x64 .f32) (harg1 : arg1.IsWhole) (arg2 : Memref sig .tc .vmem S10000x1 .f32) (harg2 : arg2.IsWhole) (arg3 : Memref sig .tc .vmem S10000x64 .f32) (harg3 : arg3.IsWhole)
    (x0 : Vec F S10000x64 .f32) (x1 : Vec F S10000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__scale_kernel i arg1 harg1 arg2 harg2 arg3 harg3) K := by
  simp only [cc5__scale_kernel_eq_skeleton]; unfold cc5__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem Phi_in5 (c : Dev nD) : (dat5 V c).Φ 0 = Pipeline.ΦA spec5 c := by
  dsimp only [dat5]

theorem Phi_out5 (c : Dev nD) : (dat5 V c).Φ (Fin.last _) ⊢ Pipeline.ΦA spec5 c := by
  dsimp only [dat5]; exact BIBase.Entails.rfl

theorem owed5 (c : Dev nD) : ∀ x, (dat5 V c).owed x = 0 := fun _ => by dsimp only [dat5]

theorem share5 (c : Dev nD) : ∀ w, (dat5 V c).q w = fullShare := fun _ => by dsimp only [dat5]

theorem recorded5 (c : Dev nD) : ∀ t, (dat5 V c).recorded t = Set.univ := fun _ => rfl

theorem after5_0 (c : Dev nD) (t : Fin cfg5.N) : (dat5 V c).after 0 t = iblk5 V c 0 t := by dsimp only [dat5]

theorem after5_1 (c : Dev nD) (t : Fin cfg5.N) : (dat5 V c).after 1 t = iblk5 V c 1 t := by dsimp only [dat5]

theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d

theorem before5_1 (c : Dev nD) (t : Fin cfg5.N) (d) : (dat5 V c).before 1 t d = iblk5 V c 1 t :=
  before5_1_of V (dat5 V c) (A_eq5 V c 1) (after5_1 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ (grid5.coords t) _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation5 (c : Dev nD) : BodyObligation (dat5 (F := F) V c) (defs₀ (F := F)) Variants.none () Set.univ := fun t => by
  rw [bigSep_W5, bigSep_W5]
  exact sound_body5 V c t

def res5_2 (h : Vec F S1100000x64 .f32) (n : Vec F S1100000x1 .f32) : Vec F S1100000x64 .f32 :=
  fun i => FloatOps.mulf (h i) (n (ValueIdx.ix2 (i 0) (0 : Fin 1)))

theorem pay5_apply (x0 : Vec F S10000x64 .f32) (x1 : Vec F S10000x1 .f32) (j : S10000x64.Idx) :
    k5_pay1 x0 x1 j = FloatOps.mulf (x0 j) (x1 (ValueIdx.ix2 (j 0) (0 : Fin 1))) := by
  unfold k5_pay1
  simp only [shapeCast_self]
  show FloatOps.mulf (x0 j) (broadcastTo S10000x64 x1 broadcasts_S10000x1_S10000x64 j) = _
  refine congrArg (FloatOps.mulf (x0 j)) ?_
  refine broadcastTo_apply x1 _ j _ (fun a => ?_)
  match a with
  | ⟨0, _⟩ => rfl
  | ⟨1, _⟩ => rfl

theorem block_read5 (A0 : Vec F S1100000x64 .f32) (A1 : Vec F S1100000x1 .f32)
    (x0 : Vec F S10000x64 .f32) (x1 : Vec F S10000x1 .f32) (b : ℕ)
    (h0 : ∀ (j : S10000x64.Idx) (k : S1100000x64.Idx), (k 0).val = b * 10000 + (j 0).val → (k 1).val = (j 1).val → x0 j = A0 k)
    (h1 : ∀ (j : S10000x1.Idx) (k : S1100000x1.Idx), (k 0).val = b * 10000 + (j 0).val → x1 j = A1 k)
    (j : S10000x64.Idx) (k : S1100000x64.Idx) (hk0 : (k 0).val = b * 10000 + (j 0).val) (hk1 : (k 1).val = (j 1).val) :
    k5_pay1 x0 x1 j = res5_2 A0 A1 k := by
  rw [pay5_apply]
  unfold res5_2
  rw [h0 j k hk0 hk1, h1 (ValueIdx.ix2 (j 0) (0 : Fin 1)) (ValueIdx.ix2 (k 0) (0 : Fin 1)) hk0]

theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

theorem iblk5_0_apply (c : Dev nD) (t : Fin cfg5.N) (j : S10000x64.Idx) (k : S1100000x64.Idx)
    (hk0 : (k 0).val = t.val * 10000 + (j 0).val) (hk1 : (k 1).val = (j 1).val) :
    (iblk5 V c 0 t : Vec F S10000x64 .f32) j = (V c (Pipeline.arrRef spec5 0) : Vec F S1100000x64 .f32) k := by
  obtain ⟨e0, e1, -⟩ := idx_facts5 t
  show (V c (Pipeline.arrRef spec5 0) : Vec F S1100000x64 .f32) (((cfg5.win 0).blk t).view.emb j) = _
  refine congrArg (V c (Pipeline.arrRef spec5 0) : Vec F S1100000x64 .f32) ?_
  funext a
  apply Fin.ext
  match a with
  | ⟨0, _⟩ => show win5_0.index t (0 : Fin 2) * 10000 + 1 * (j 0).val = (k 0).val; rw [e0, hk0]; omega
  | ⟨1, _⟩ => show win5_0.index t (1 : Fin 2) * 64 + 1 * (j 1).val = (k 1).val; rw [e1, hk1]; omega

theorem iblk5_1_apply (c : Dev nD) (t : Fin cfg5.N) (j : S10000x1.Idx) (k : S1100000x1.Idx)
    (hk0 : (k 0).val = t.val * 10000 + (j 0).val) :
    (iblk5 V c 1 t : Vec F S10000x1 .f32) j = (V c (Pipeline.arrRef spec5 1) : Vec F S1100000x1 .f32) k := by
  obtain ⟨-, -, e2, e3, -⟩ := idx_facts5 t
  show (V c (Pipeline.arrRef spec5 1) : Vec F S1100000x1 .f32) (((cfg5.win 1).blk t).view.emb j) = _
  refine congrArg (V c (Pipeline.arrRef spec5 1) : Vec F S1100000x1 .f32) ?_
  funext a
  apply Fin.ext
  have hj1 : (j 1).val < 1 := (j 1).isLt
  have hk1 : (k 1).val < 1 := (k 1).isLt
  match a with
  | ⟨0, _⟩ => show win5_1.index t (0 : Fin 2) * 10000 + 1 * (j 0).val = (k 0).val; rw [e2, hk0]; omega
  | ⟨1, _⟩ => show win5_1.index t (1 : Fin 2) * 1 + 1 * (j 1).val = (k 1).val; rw [e3]; omega

theorem flushed5_2_eq (c : Dev nD) (t : Fin cfg5.N) :
    (dat5 V c).flushed 2 t = ((cfg5.win 2).blk t).view.read (Elt F) (res5_2 (V c (Pipeline.arrRef spec5 0)) (V c (Pipeline.arrRef spec5 1))) := by
  show (cfg5.win 2).cut (grid5.coords t) ((dat5 V c).after 2 t) = _
  rw [after5_2]
  unfold out5_2
  rw [View.canon_unit_zero zeros5]
  simp only [View.ld_unit_zero (S := S10000x64) zeros5, View.ld_unit_zero (S := S10000x1) zeros5]
  obtain ⟨-, -, -, -, e4, e5⟩ := idx_facts5 t
  funext j
  show k5_pay1 (iblk5 V c 0 t) (iblk5 V c 1 t) j = res5_2 (V c (Pipeline.arrRef spec5 0)) (V c (Pipeline.arrRef spec5 1)) (((cfg5.win 2).blk t).view.emb j)
  refine block_read5 _ _ _ _ t.val (fun j k => iblk5_0_apply V c t j k) (fun j k => iblk5_1_apply V c t j k) _ _ ?_ ?_
  · show win5_2.index t (0 : Fin 2) * 10000 + 1 * (j 0).val = _; rw [e4]; omega
  · show win5_2.index t (1 : Fin 2) * 64 + 1 * (j 1).val = _; rw [e5]; omega

theorem mem_blk5_2 (t : Fin cfg5.N) (i : S1100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole (Pipeline.arrRef spec5 2)).slice (win5_2.rect t)).set ↔ _
  rw [View.set_slice_whole, Rect.mem_set_unit]
  exact Iff.rfl

theorem tiled5_2 (i : S1100000x64.Idx) :
    ∃ t : Fin cfg5.N, (cfg5.win 2).flush t = true ∧ i ∈ ((cfg5.win 2).blk t).view.set := by
  have hi0 : (i 0).val < 1100000 := (i 0).isLt
  have hi1 : (i 1).val < 64 := (i 1).isLt
  have hN : cfg5.N = 110 := N_5
  have ht : (i 0).val / 10000 < cfg5.N := by rw [hN]; omega
  obtain ⟨-, -, -, -, e4, e5⟩ := idx_facts5 ⟨(i 0).val / 10000, ht⟩
  refine ⟨⟨(i 0).val / 10000, ht⟩, flush5_2 _, ?_⟩
  rw [mem_blk5_2]
  intro a
  match a with
  | ⟨0, _⟩ =>
    show win5_2.index ⟨(i 0).val / 10000, ht⟩ (0 : Fin 2) * 10000 ≤ (i 0).val ∧ (i 0).val < win5_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win5_2.index ⟨(i 0).val / 10000, ht⟩ (1 : Fin 2) * 64 ≤ (i 1).val ∧ (i 1).val < win5_2.index ⟨(i 0).val / 10000, ht⟩ (1 : Fin 2) * 64 + 64
    rw [e5]; omega

theorem final5_2 (c : Dev nD) :
    (dat5 V c).arrAt 2 cfg5.N = res5_2 (V c (Pipeline.arrRef spec5 0)) (V c (Pipeline.arrRef spec5 1)) :=
  (dat5 V c).arrAt_eq_of_cover 2 _ (fun t _ => flushed5_2_eq V c t) tiled5_2

theorem res5_2_apply (h : Vec Ideal S1100000x64 .f32) (n : Vec Ideal S1100000x1 .f32) (e : Fin 1100000) (f : Fin 64) :
    res5_2 h n (ValueIdx.ix2 e f) = h (ValueIdx.ix2 e f) * n (ValueIdx.ix2 e (0 : Fin 1)) := rfl

end Cert.KernelIdeal.Hand

end
-- ==== Proof.KI.Reg6.lean ====
import proofs.«424828_j6554120094214_2_alg».proof.Proof.Gen.KernelIdeal.Launch
import proofs.«424828_j6554120094214_2_alg».proof.Proof.Gen.KernelIdeal.Skeleton
import proofs.«424828_j6554120094214_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.ValueIdx
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ

theorem hz6 : (![0, 0] : Fin 2 → Nat) = fun _ => 0 := funext fun a => by fin_cases a <;> rfl

theorem read_writes_whole6 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

abbrev cond6_0 (i : grid6.Coords) : Prop := (Scalar.cmpi .ne (Scalar.extui (Scalar.cmpi .eq (BitVec.ofNat 32 (i 0).val) 0#32)) 0#32) = 1#1

theorem hcond6_0 : ∀ t : Fin cfg6.N, cond6_0 (grid6.coords t) ↔ t.val = 0 :=
  (by decide +kernel : ∀ t : Fin grid6.N, cond6_0 (grid6.coords t) ↔ t.val = 0)

abbrev cond6_1 (i : grid6.Coords) : Prop := k6_cond2 i = 1#1

theorem hcond6_1 : ∀ t : Fin cfg6.N, cond6_1 (grid6.coords t) ↔ t.val = 9 :=
  (by decide +kernel : ∀ t : Fin grid6.N, cond6_1 (grid6.coords t) ↔ t.val = 9)

set_option maxHeartbeats 1000000 in
theorem sound_kernel6_A (c : Dev nD) (E : Set ℕ) (i : grid6.Coords)
    (arg1 : Memref sig .tc .vmem S10000x64 .f32) (harg1 : arg1.IsWhole) (arg2 : Memref sig .tc .vmem S1x64 .f32) (harg2 : arg2.IsWhole)
    (arg3 : Memref sig .tc .vmem S10000x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (hc0 : cond6_0 i) (hc1 : ¬cond6_1 i)
    (x0 : Vec F S10000x64 .f32) (x1 : Vec F S1x64 .f32) (xi3 : Vec F S1x64 .f32) (xi4 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ owns (c : Thread nD τ) arg5 fullShare xi4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (k6_pay3 x0 x1)
            ∗ owns (c : Thread nD τ) arg4 fullShare xi3 ∗ owns (c : Thread nD τ) arg5 fullShare xi4
            ∗ owns (c : Thread nD τ) arg6 fullShare (k6_pay4 x0 x1 (k6_pay1 (F := F))) ∗ owns (c : Thread nD τ) arg7 fullShare (k6_pay5 x0 x1 (k6_pay2 (F := F)))) -∗ K ⟨⟩))
      ⊢ wp frame (wpE (defs₀ (F := F)) Variants.none c none) E (cc6__bias_relu_stats_kernel i arg1 harg1 arg2 harg2 arg3 harg3 arg4 harg4 arg5 harg5 arg6 harg6 arg7 harg7) K := by
  simp only [cc6__bias_relu_stats_kernel_eq_skeleton]; unfold cc6__bias_relu_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%d5, %f5, -, H5⟩, ⟨%d6, %f6, -, H6⟩, Hk⟩
  subst hf0; subst hf1; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_writes_whole6 _ _ hz6 _ _ _).trans ?_
    simp only [View.readAt_eq_ld, View.ld_unit_zero (S := S10000x64) hz6, View.ld_unit_zero (S := S1x64) hz6]
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_writes_whole6 _ _ hz6 _ _ _).trans ?_
    sl_unfold_words
    simp only [View.readAt_eq_ld, View.ld_unit_zero (S := S10000x64) hz6, View.ld_unit_zero (S := S1x64) hz6, View.readCov_unit_zero (S := S1x64) _ hz6]
  iexists _; isplitr
  swap; · iexact H6
  ipureintro
  refine (read_writes_whole6 _ _ hz6 _ _ _).trans ?_
  sl_unfold_words
  simp only [View.readAt_eq_ld, View.ld_unit_zero (S := S10000x64) hz6, View.ld_unit_zero (S := S1x64) hz6, View.readCov_unit_zero (S := S1x64) _ hz6]

set_option maxHeartbeats 1000000 in
theorem sound_kernel6_B (c : Dev nD) (E : Set ℕ) (i : grid6.Coords)
    (arg1 : Memref sig .tc .vmem S10000x64 .f32) (harg1 : arg1.IsWhole) (arg2 : Memref sig .tc .vmem S1x64 .f32) (harg2 : arg2.IsWhole)
    (arg3 : Memref sig .tc .vmem S10000x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (hc0 : ¬cond6_0 i) (hc1 : ¬cond6_1 i)
    (x0 : Vec F S10000x64 .f32) (x1 : Vec F S1x64 .f32) (xi3 : Vec F S1x64 .f32) (xi4 : Vec F S1x64 .f32)
    (xs0 : Vec F S1x64 .f32) (xs1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ owns (c : Thread nD τ) arg5 fullShare xi4
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare (k6_pay3 x0 x1)
            ∗ owns (c : Thread nD τ) arg4 fullShare xi3 ∗ owns (c : Thread nD τ) arg5 fullShare xi4
            ∗ owns (c : Thread nD τ) arg6 fullShare (k6_pay4 x0 x1 xs0) ∗ owns (c : Thread nD τ) arg7 fullShare (k6_pay5 x0 x1 xs1)) -∗ K ⟨⟩))
      ⊢ wp frame (wpE (defs₀ (F := F)) Variants.none c none) E (cc6__bias_relu_stats_kernel i arg1 harg1 arg2 harg2 arg3 harg3 arg4 harg4 arg5 harg5 arg6 harg6 arg7 harg7) K := by
  simp only [cc6__bias_relu_stats_kernel_eq_skeleton]; unfold cc6__bias_relu_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%f5, %hf5, H5⟩, ⟨%f6, %hf6, H6⟩, Hk⟩
  subst hf0; subst hf1; subst hf3; subst hf4; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_writes_whole6 _ _ hz6 _ _ _).trans ?_
    simp only [View.readAt_eq_ld, View.ld_unit_zero (S := S10000x64) hz6, View.ld_unit_zero (S := S1x64) hz6, View.readCov_unit_zero (S := S1x64) _ hz6]
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_writes_whole6 _ _ hz6 _ _ _).trans ?_
    simp only [View.readAt_eq_ld, View.ld_unit_zero (S := S10000x64) hz6, View.ld_unit_zero (S := S1x64) hz6, View.readCov_unit_zero (S := S1x64) _ hz6]
  iexists _; isplitr
  swap; · iexact H6
  ipureintro
  refine (read_writes_whole6 _ _ hz6 _ _ _).trans ?_
  simp only [View.readAt_eq_ld, View.ld_unit_zero (S := S10000x64) hz6, View.ld_unit_zero (S := S1x64) hz6, View.readCov_unit_zero (S := S1x64) _ hz6]

set_option maxHeartbeats 1000000 in
theorem sound_kernel6_C (c : Dev nD) (E : Set ℕ) (i : grid6.Coords)
    (arg1 : Memref sig .tc .vmem S10000x64 .f32) (harg1 : arg1.IsWhole) (arg2 : Memref sig .tc .vmem S1x64 .f32) (harg2 : arg2.IsWhole)
    (arg3 : Memref sig .tc .vmem S10000x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (hc0 : ¬cond6_0 i) (hc1 : cond6_1 i)
    (x0 : Vec F S10000x64 .f32) (x1 : Vec F S1x64 .f32)
    (xs0 : Vec F S1x64 .f32) (xs1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare (k6_pay3 x0 x1)
            ∗ owns (c : Thread nD τ) arg4 fullShare (k6_pay4 x0 x1 xs0) ∗ owns (c : Thread nD τ) arg5 fullShare (k6_pay5 x0 x1 xs1)
            ∗ owns (c : Thread nD τ) arg6 fullShare (k6_pay4 x0 x1 xs0) ∗ owns (c : Thread nD τ) arg7 fullShare (k6_pay5 x0 x1 xs1)) -∗ K ⟨⟩))
      ⊢ wp frame (wpE (defs₀ (F := F)) Variants.none c none) E (cc6__bias_relu_stats_kernel i arg1 harg1 arg2 harg2 arg3 harg3 arg4 harg4 arg5 harg5 arg6 harg6 arg7 harg7) K := by
  simp only [cc6__bias_relu_stats_kernel_eq_skeleton]; unfold cc6__bias_relu_stats_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%f6, %hf6, H6⟩, Hk⟩
  subst hf0; subst hf1; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_writes_whole6 _ _ hz6 _ _ _).trans ?_
    simp only [View.readAt_eq_ld, View.ld_unit_zero (S := S10000x64) hz6, View.ld_unit_zero (S := S1x64) hz6, View.readCov_unit_zero (S := S1x64) _ hz6]
  isplitl [H3]
  · iexists _; isplitr
    swap; · iexact H3
    ipureintro
    refine (read_writes_whole6 _ _ hz6 _ _ _).trans ?_
    sl_unfold_words
    simp only [View.readAt_eq_ld, View.ld_unit_zero (S := S10000x64) hz6, View.ld_unit_zero (S := S1x64) hz6, View.readCov_unit_zero (S := S1x64) _ hz6]
  isplitl [H4]
  · iexists _; isplitr
    swap; · iexact H4
    ipureintro
    refine (read_writes_whole6 _ _ hz6 _ _ _).trans ?_
    sl_unfold_words
    simp only [View.readAt_eq_ld, View.ld_unit_zero (S := S10000x64) hz6, View.ld_unit_zero (S := S1x64) hz6, View.readCov_unit_zero (S := S1x64) _ hz6]
  isplitl [H5]
  · iexists _; isplitr
    swap; · iexact H5
    ipureintro
    refine (read_writes_whole6 _ _ hz6 _ _ _).trans ?_
    simp only [View.readAt_eq_ld, View.ld_unit_zero (S := S10000x64) hz6, View.ld_unit_zero (S := S1x64) hz6, View.readCov_unit_zero (S := S1x64) _ hz6]
  iexists _; isplitr
  swap; · iexact H6
  ipureintro
  refine (read_writes_whole6 _ _ hz6 _ _ _).trans ?_
  simp only [View.readAt_eq_ld, View.ld_unit_zero (S := S10000x64) hz6, View.ld_unit_zero (S := S1x64) hz6, View.readCov_unit_zero (S := S1x64) _ hz6]

theorem liveAt6_0 : ∀ t : Fin cfg6.N, cfg6.idle 0 (grid6.coords t) = false := fun _ => rfl

theorem liveAt6_1 : ∀ t : Fin cfg6.N, cfg6.idle 1 (grid6.coords t) = false := fun _ => rfl

theorem liveAt6_2 : ∀ t : Fin cfg6.N, cfg6.idle 2 (grid6.coords t) = false := fun _ => rfl

theorem idleAt6_3 : ∀ t : Fin cfg6.N, ¬cond6_1 (grid6.coords t) → cfg6.idle 3 (grid6.coords t) = true := by decide +kernel

theorem noFlush6_3 : ∀ t : Fin cfg6.N, ¬cond6_1 (grid6.coords t) → (cfg6.win 3).flush t = false := by decide +kernel

theorem liveAt6_3 : ∀ t : Fin cfg6.N, cond6_1 (grid6.coords t) → cfg6.idle 3 (grid6.coords t) = false := by decide +kernel

theorem idleAt6_4 : ∀ t : Fin cfg6.N, ¬cond6_1 (grid6.coords t) → cfg6.idle 4 (grid6.coords t) = true := by decide +kernel

theorem noFlush6_4 : ∀ t : Fin cfg6.N, ¬cond6_1 (grid6.coords t) → (cfg6.win 4).flush t = false := by decide +kernel

theorem liveAt6_4 : ∀ t : Fin cfg6.N, cond6_1 (grid6.coords t) → cfg6.idle 4 (grid6.coords t) = false := by decide +kernel

def rows6 (agg : Vec F S100000x64 .f32) (t : Fin 10) : Vec F S10000x64 .f32 :=
  fun y => agg (ValueIdx.ix2 (⟨10000 * t.val + (y 0).val, by
    have h0 : (y 0).val < 10000 := (y 0).isLt
    have ht : t.val < 10 := t.isLt
    omega⟩ : Fin 100000) (y 1))

def res6_2 (agg : Vec F S100000x64 .f32) (b : Vec F S1x64 .f32) : Vec F S100000x64 .f32 :=
  fun i => k6_pay3 (rows6 agg ⟨(i 0).val / 10000, by
      have h0 : (i 0).val < 100000 := (i 0).isLt
      omega⟩) b
    (ValueIdx.ix2 (⟨(i 0).val % 10000, Nat.mod_lt _ (by decide)⟩ : Fin 10000) (i 1))

def accR6_0 (agg : Vec F S100000x64 .f32) (b : Vec F S1x64 .f32) : (n : ℕ) → n < 10 → Vec F S1x64 .f32
  | 0, h => k6_pay4 (rows6 agg ⟨0, h⟩) b (k6_pay1 (F := F))
  | n + 1, h => k6_pay4 (rows6 agg ⟨n + 1, h⟩) b (accR6_0 agg b n (Nat.lt_of_succ_lt h))

def accR6_1 (agg : Vec F S100000x64 .f32) (b : Vec F S1x64 .f32) : (n : ℕ) → n < 10 → Vec F S1x64 .f32
  | 0, h => k6_pay5 (rows6 agg ⟨0, h⟩) b (k6_pay2 (F := F))
  | n + 1, h => k6_pay5 (rows6 agg ⟨n + 1, h⟩) b (accR6_1 agg b n (Nat.lt_of_succ_lt h))

theorem accR6_0_succ (agg : Vec F S100000x64 .f32) (b : Vec F S1x64 .f32) (n : ℕ) (h : n + 1 < 10) :
    accR6_0 agg b (n + 1) h = k6_pay4 (rows6 agg ⟨n + 1, h⟩) b (accR6_0 agg b n (Nat.lt_of_succ_lt h)) := rfl

theorem accR6_1_succ (agg : Vec F S100000x64 .f32) (b : Vec F S1x64 .f32) (n : ℕ) (h : n + 1 < 10) :
    accR6_1 agg b (n + 1) h = k6_pay5 (rows6 agg ⟨n + 1, h⟩) b (accR6_1 agg b n (Nat.lt_of_succ_lt h)) := rfl

def res6_3 (agg : Vec F S100000x64 .f32) (b : Vec F S1x64 .f32) : Vec F S1x64 .f32 := accR6_0 agg b 9 (by decide)

def res6_4 (agg : Vec F S100000x64 .f32) (b : Vec F S1x64 .f32) : Vec F S1x64 .f32 := accR6_1 agg b 9 (by decide)

theorem res6_2_at (agg : Vec F S100000x64 .f32) (b : Vec F S1x64 .f32) (t : Fin 10) (y : S10000x64.Idx) (i : S100000x64.Idx)
    (h0 : (i 0).val = 10000 * t.val + (y 0).val) (h1 : (i 1).val = (y 1).val) :
    res6_2 agg b i = k6_pay3 (rows6 agg t) b y := by
  have hy : (y 0).val < 10000 := (y 0).isLt
  have hq : (⟨(i 0).val / 10000, by have h0 : (i 0).val < 100000 := (i 0).isLt; omega⟩ : Fin 10) = t := Fin.ext (by show (i 0).val / 10000 = t.val; omega)
  have hr : ValueIdx.ix2 (⟨(i 0).val % 10000, Nat.mod_lt _ (by decide)⟩ : Fin 10000) (i 1) = y := by
    funext a
    match a with
    | ⟨0, _⟩ => exact Fin.ext (by show (i 0).val % 10000 = (y 0).val; omega)
    | ⟨1, _⟩ => exact Fin.ext h1
  show k6_pay3 (rows6 agg _) b _ = _
  rw [hq]
  exact congrArg (k6_pay3 (rows6 agg t) b) hr

theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0 :=
  (by decide +kernel : ∀ t : Fin grid6.N, _)

section Region2

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev xb6 (c : Dev nD) (t : Fin cfg6.N) : Vec F S10000x64 .f32 := iblk6 V c 0 t

abbrev bb6 (c : Dev nD) (t : Fin cfg6.N) : Vec F S1x64 .f32 := iblk6 V c 1 t

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

def acc6_0 (c : Dev nD) : (n : ℕ) → n < cfg6.N → Vec F S1x64 .f32
  | 0, h => k6_pay4 (xb6 V c ⟨0, h⟩) (bb6 V c ⟨0, h⟩) (k6_pay1 (F := F))
  | n + 1, h => k6_pay4 (xb6 V c ⟨n + 1, h⟩) (bb6 V c ⟨n + 1, h⟩) (acc6_0 c n (Nat.lt_of_succ_lt h))

def acc6_1 (c : Dev nD) : (n : ℕ) → n < cfg6.N → Vec F S1x64 .f32
  | 0, h => k6_pay5 (xb6 V c ⟨0, h⟩) (bb6 V c ⟨0, h⟩) (k6_pay2 (F := F))
  | n + 1, h => k6_pay5 (xb6 V c ⟨n + 1, h⟩) (bb6 V c ⟨n + 1, h⟩) (acc6_1 c n (Nat.lt_of_succ_lt h))

theorem acc6_0_zero (c : Dev nD) (t : Fin cfg6.N) (h : t.val = 0) :
    acc6_0 V c t.val t.isLt = k6_pay4 (xb6 V c t) (bb6 V c t) (k6_pay1 (F := F)) := by
  obtain ⟨n, hn⟩ := t
  cases n with
  | zero => rfl
  | succ n => exact absurd h (Nat.succ_ne_zero n)

theorem acc6_0_pos (c : Dev nD) (t : Fin cfg6.N) (h : t.val ≠ 0) :
    acc6_0 V c t.val t.isLt = k6_pay4 (xb6 V c t) (bb6 V c t) (acc6_0 V c (t.val - 1) (Nat.lt_of_le_of_lt (Nat.sub_le _ _) t.isLt)) := by
  obtain ⟨n, hn⟩ := t
  cases n with
  | zero => exact absurd rfl h
  | succ n => rfl

theorem acc6_1_zero (c : Dev nD) (t : Fin cfg6.N) (h : t.val = 0) :
    acc6_1 V c t.val t.isLt = k6_pay5 (xb6 V c t) (bb6 V c t) (k6_pay2 (F := F)) := by
  obtain ⟨n, hn⟩ := t
  cases n with
  | zero => rfl
  | succ n => exact absurd h (Nat.succ_ne_zero n)

theorem acc6_1_pos (c : Dev nD) (t : Fin cfg6.N) (h : t.val ≠ 0) :
    acc6_1 V c t.val t.isLt = k6_pay5 (xb6 V c t) (bb6 V c t) (acc6_1 V c (t.val - 1) (Nat.lt_of_le_of_lt (Nat.sub_le _ _) t.isLt)) := by
  obtain ⟨n, hn⟩ := t
  cases n with
  | zero => exact absurd rfl h
  | succ n => rfl

abbrev scM6_0 : Memref sig .tc .vmem S1x64 .f32 := Memref.whole cc6_scratch0

abbrev scM6_1 : Memref sig .tc .vmem S1x64 .f32 := Memref.whole cc6_scratch1

abbrev rest6 (c : Dev nD) : sProp 𝕄 :=
  Pipeline.scopedRestBut (Ix := Unit) (Name := ℕ) (U := UR sig nD τ) (Lvl := ℕ) (Val := Elt F) spec6 c [cc6_scratch0, cc6_scratch1]

theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d)) ∗ rest6 c) ∗ (∃ r, prngReg c r)) := by
  unfold Pipeline.ΦA; rw [scopedRest6_split]; simp only [scM6_0, scM6_1, owns_whole]; try rfl

def Phi6 (c : Dev nD) : (n : ℕ) → n ≤ cfg6.N → sProp 𝕄
  | 0, _ => Pipeline.ΦA spec6 c
  | n + 1, hn => iprop(iprop(iprop(owns (c : Thread nD τ) scM6_0 fullShare (acc6_0 V c n hn) ∗ owns (c : Thread nD τ) scM6_1 fullShare (acc6_1 V c n hn)) ∗ rest6 c) ∗ (∃ r, prngReg c r))

theorem Phi6_zero (c : Dev nD) (n : ℕ) (h : n ≤ cfg6.N) (hz : n = 0) : Phi6 V c n h = Pipeline.ΦA spec6 c := by
  subst hz; rfl

theorem Phi6_succ (c : Dev nD) (n : ℕ) (hn : n < cfg6.N) :
    Phi6 V c (n + 1) hn = iprop(iprop(iprop(owns (c : Thread nD τ) scM6_0 fullShare (acc6_0 V c n hn) ∗ owns (c : Thread nD τ) scM6_1 fullShare (acc6_1 V c n hn)) ∗ rest6 c) ∗ (∃ r, prngReg c r)) := rfl

theorem Phi6_pos (c : Dev nD) (n : ℕ) (h : n ≤ cfg6.N) (hz : n ≠ 0) :
    Phi6 V c n h = iprop(iprop(iprop(owns (c : Thread nD τ) scM6_0 fullShare (acc6_0 V c (n - 1) (by omega)) ∗ owns (c : Thread nD τ) scM6_1 fullShare (acc6_1 V c (n - 1) (by omega))) ∗ rest6 c) ∗ (∃ r, prngReg c r)) := by
  cases n with
  | zero => exact absurd rfl hz
  | succ n => rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => k6_pay3 (xb6 V c t) (bb6 V c t)
    | ⟨3, _⟩ => acc6_0 V c t.val t.isLt
    | ⟨4, _⟩ => acc6_1 V c t.val t.isLt
  Φ t := Phi6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem Phi_in6 (c : Dev nD) : (dat6 V c).Φ 0 = Pipeline.ΦA spec6 c := rfl

theorem owed6 (c : Dev nD) : ∀ x, (dat6 V c).owed x = 0 := fun _ => rfl

theorem share6 (c : Dev nD) : ∀ w, (dat6 V c).q w = fullShare := fun _ => rfl

theorem recorded6 (c : Dev nD) : ∀ t, (dat6 V c).recorded t = Set.univ := fun _ => rfl

theorem Phi6_castSucc (c : Dev nD) (t : Fin cfg6.N) :
    (dat6 V c).Φ t.castSucc = Phi6 V c t.val (Nat.le_of_lt t.isLt) := by
  dsimp only [dat6]; simp only [Fin.coe_castSucc]

theorem after6_0 (c : Dev nD) (t : Fin cfg6.N) : (dat6 V c).after 0 t = iblk6 V c 0 t := by dsimp only [dat6]

theorem after6_1 (c : Dev nD) (t : Fin cfg6.N) : (dat6 V c).after 1 t = iblk6 V c 1 t := by dsimp only [dat6]

theorem after6_2 (c : Dev nD) (t : Fin cfg6.N) : (dat6 V c).after 2 t = k6_pay3 (xb6 V c t) (bb6 V c t) := by dsimp only [dat6]

theorem after6_3 (c : Dev nD) (t : Fin cfg6.N) : (dat6 V c).after 3 t = acc6_0 V c t.val t.isLt := by dsimp only [dat6]

theorem after6_4 (c : Dev nD) (t : Fin cfg6.N) : (dat6 V c).after 4 t = acc6_1 V c t.val t.isLt := by dsimp only [dat6]

theorem before6_0 (c : Dev nD) (t : Fin cfg6.N) (d) : (dat6 V c).before 0 t d = iblk6 V c 0 t :=
  before6_0_of V (dat6 V c) (A_eq6 V c 0) (after6_0 V c) t d

theorem before6_1 (c : Dev nD) (t : Fin cfg6.N) (d) : (dat6 V c).before 1 t d = iblk6 V c 1 t :=
  before6_1_of V (dat6 V c) (A_eq6 V c 1) (after6_1 V c) t d

theorem Phi_out6 (c : Dev nD) : (dat6 V c).Φ (Fin.last _) ⊢ Pipeline.ΦA spec6 c := by
  rw [show (dat6 V c).Φ (Fin.last _) = Phi6 V c (Fin.last cfg6.N).val (Nat.le_of_lt_succ (Fin.last cfg6.N).isLt) from rfl,
    Phi6_pos V c _ _ (by rw [Fin.val_last]; have : cfg6.N = 10 := N_6; omega), PhiA6_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t)

set_option maxHeartbeats 4800000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = Phi6 V c (t.val + 1) t.isLt from rfl, Phi6_succ]
  have hN : t.val < 10 := lt_of_lt_of_eq t.isLt (show cfg6.N = 10 from N_6)
  rw [show (dat6 V c).leavesExact 0 t = owns (c : Thread nD τ) (st6_0 t) fullShare ((dat6 V c).after 0 t) from by
    unfold Dat.leavesExact; rw [liveAt6_0 t], after6_0]
  rw [show (dat6 V c).leavesExact 1 t = owns (c : Thread nD τ) (st6_1 t) fullShare ((dat6 V c).after 1 t) from by
    unfold Dat.leavesExact; rw [liveAt6_1 t], after6_1]
  rw [show (dat6 V c).leavesExact 2 t = owns (c : Thread nD τ) (st6_2 t) fullShare ((dat6 V c).after 2 t) from by
    unfold Dat.leavesExact; rw [liveAt6_2 t], after6_2]
  by_cases h0 : t.val = 0
  · have hc0 : cond6_0 (grid6.coords t) := (hcond6_0 t).mpr h0
    have hc1 : ¬cond6_1 (grid6.coords t) := fun h => by have := (hcond6_1 t).mp h; omega
    rw [Dat.leavesExact_idle (dat6 V c) 3 t (idleAt6_3 t hc1) (noFlush6_3 t hc1)]
    rw [Dat.leavesExact_idle (dat6 V c) 4 t (idleAt6_4 t hc1) (noFlush6_4 t hc1)]
    rw [acc6_0_zero V c t h0, acc6_1_zero V c t h0]
    rw [Phi6_castSucc V c t, Phi6_zero V c _ _ h0, PhiA6_eq]
    iintro ⟨⟨⟨⟨HS0, HS1⟩, HR⟩, Hg⟩, Ho, ⟨%d0, H0⟩, ⟨%d1, H1⟩, ⟨%d2, H2⟩, ⟨%d3, H3⟩, ⟨%d4, H4⟩⟩
    iapply (sound_kernel6_A c Set.univ (grid6.coords t) _ _ _ _ _ _ _ _ _ _ _ _ _ _ hc0 hc1 (xb6 V c t) (bb6 V c t) ((dat6 V c).before 3 t d3) ((dat6 V c).before 4 t d4) _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexists _; iexact H3
    iexists _; iexact H4
  · have hc0 : ¬cond6_0 (grid6.coords t) := fun h => h0 ((hcond6_0 t).mp h)
    rw [acc6_0_pos V c t h0, acc6_1_pos V c t h0]
    rw [Phi6_castSucc V c t, Phi6_pos V c _ _ h0]
    by_cases h1 : t.val = 9
    · have hc1 : cond6_1 (grid6.coords t) := (hcond6_1 t).mpr h1
      rw [show (dat6 V c).leavesExact 3 t = owns (c : Thread nD τ) (st6_3 t) fullShare ((dat6 V c).after 3 t) from by
        unfold Dat.leavesExact; rw [liveAt6_3 t hc1], after6_3, acc6_0_pos V c t h0]
      rw [show (dat6 V c).leavesExact 4 t = owns (c : Thread nD τ) (st6_4 t) fullShare ((dat6 V c).after 4 t) from by
        unfold Dat.leavesExact; rw [liveAt6_4 t hc1], after6_4, acc6_1_pos V c t h0]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (sound_kernel6_C c Set.univ (grid6.coords t) _ _ _ _ _ _ _ _ _ _ _ _ _ _ hc0 hc1 (xb6 V c t) (bb6 V c t) (acc6_0 V c (t.val - 1) (Nat.lt_of_le_of_lt (Nat.sub_le _ _) t.isLt)) (acc6_1 V c (t.val - 1) (Nat.lt_of_le_of_lt (Nat.sub_le _ _) t.isLt)) _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      iexact H4
    · have hc1 : ¬cond6_1 (grid6.coords t) := fun h => h1 ((hcond6_1 t).mp h)
      rw [Dat.leavesExact_idle (dat6 V c) 3 t (idleAt6_3 t hc1) (noFlush6_3 t hc1)]
      rw [Dat.leavesExact_idle (dat6 V c) 4 t (idleAt6_4 t hc1) (noFlush6_4 t hc1)]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (sound_kernel6_B c Set.univ (grid6.coords t) _ _ _ _ _ _ _ _ _ _ _ _ _ _ hc0 hc1 (xb6 V c t) (bb6 V c t) ((dat6 V c).before 3 t d3) ((dat6 V c).before 4 t d4) (acc6_0 V c (t.val - 1) (Nat.lt_of_le_of_lt (Nat.sub_le _ _) t.isLt)) (acc6_1 V c (t.val - 1) (Nat.lt_of_le_of_lt (Nat.sub_le _ _) t.isLt)) _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexists _; iexact H3
      iexists _; iexact H4

theorem body_obligation6 (c : Dev nD) : BodyObligation (dat6 (F := F) V c) (defs₀ (F := F)) Variants.none () Set.univ := fun t => by
  rw [bigSep_W6, bigSep_W6]
  exact sound_body6 V c t

abbrev aggA6 (c : Dev nD) : Vec F S100000x64 .f32 := V c (Pipeline.arrRef spec6 0)

abbrev biasA6 (c : Dev nD) : Vec F S1x64 .f32 := V c (Pipeline.arrRef spec6 1)

theorem xb6_eq (c : Dev nD) (t : Fin cfg6.N) : xb6 V c t = rows6 (aggA6 V c) ⟨t.val, lt_of_lt_of_eq t.isLt N_6⟩ := by
  obtain ⟨e0, e1, -⟩ := idx_facts6 t
  funext y
  show V c (Pipeline.arrRef spec6 0) (((cfg6.win 0).blk t).view.emb y) = V c (Pipeline.arrRef spec6 0) (ValueIdx.ix2 (⟨10000 * t.val + (y 0).val, _⟩ : Fin 100000) (y 1))
  refine congrArg _ ?_
  funext a; apply Fin.ext
  match a with
  | ⟨0, _⟩ => show win6_0.index t (0 : Fin 2) * 10000 + 1 * (y 0).val = 10000 * t.val + (y 0).val; omega
  | ⟨1, _⟩ => show win6_0.index t (1 : Fin 2) * 64 + 1 * (y 1).val = (y 1).val; omega

theorem bb6_eq (c : Dev nD) (t : Fin cfg6.N) : bb6 V c t = biasA6 V c := by
  obtain ⟨-, -, e2, e3, -⟩ := idx_facts6 t
  funext y
  show V c (Pipeline.arrRef spec6 1) (((cfg6.win 1).blk t).view.emb y) = V c (Pipeline.arrRef spec6 1) y
  refine congrArg _ ?_
  funext a; apply Fin.ext
  match a with
  | ⟨0, _⟩ => show win6_1.index t (0 : Fin 2) * 1 + 1 * (y 0).val = (y 0).val; omega
  | ⟨1, _⟩ => show win6_1.index t (1 : Fin 2) * 64 + 1 * (y 1).val = (y 1).val; omega

theorem acc6_0_eq (c : Dev nD) : ∀ (n : ℕ) (hn : n < cfg6.N) (hn' : n < 10),
    acc6_0 V c n hn = accR6_0 (aggA6 V c) (biasA6 V c) n hn'
  | 0, hn, hn' => by
    show k6_pay4 (xb6 V c ⟨0, hn⟩) (bb6 V c ⟨0, hn⟩) (k6_pay1 (F := F)) = k6_pay4 (rows6 (aggA6 V c) ⟨0, hn'⟩) (biasA6 V c) (k6_pay1 (F := F))
    rw [xb6_eq, bb6_eq]
  | n + 1, hn, hn' => by
    show k6_pay4 (xb6 V c ⟨n + 1, hn⟩) (bb6 V c ⟨n + 1, hn⟩) (acc6_0 V c n (Nat.lt_of_succ_lt hn))
      = k6_pay4 (rows6 (aggA6 V c) ⟨n + 1, hn'⟩) (biasA6 V c) (accR6_0 (aggA6 V c) (biasA6 V c) n (Nat.lt_of_succ_lt hn'))
    rw [xb6_eq, bb6_eq, acc6_0_eq c n (Nat.lt_of_succ_lt hn) (Nat.lt_of_succ_lt hn')]

theorem acc6_1_eq (c : Dev nD) : ∀ (n : ℕ) (hn : n < cfg6.N) (hn' : n < 10),
    acc6_1 V c n hn = accR6_1 (aggA6 V c) (biasA6 V c) n hn'
  | 0, hn, hn' => by
    show k6_pay5 (xb6 V c ⟨0, hn⟩) (bb6 V c ⟨0, hn⟩) (k6_pay2 (F := F)) = k6_pay5 (rows6 (aggA6 V c) ⟨0, hn'⟩) (biasA6 V c) (k6_pay2 (F := F))
    rw [xb6_eq, bb6_eq]
  | n + 1, hn, hn' => by
    show k6_pay5 (xb6 V c ⟨n + 1, hn⟩) (bb6 V c ⟨n + 1, hn⟩) (acc6_1 V c n (Nat.lt_of_succ_lt hn))
      = k6_pay5 (rows6 (aggA6 V c) ⟨n + 1, hn'⟩) (biasA6 V c) (accR6_1 (aggA6 V c) (biasA6 V c) n (Nat.lt_of_succ_lt hn'))
    rw [xb6_eq, bb6_eq, acc6_1_eq c n (Nat.lt_of_succ_lt hn) (Nat.lt_of_succ_lt hn')]

theorem flushed6_2_eq (c : Dev nD) (t : Fin cfg6.N) :
    (dat6 V c).flushed 2 t = ((cfg6.win 2).blk t).view.read (Elt F) (res6_2 (aggA6 V c) (biasA6 V c)) := by
  obtain ⟨-, -, -, -, e4, e5, -⟩ := idx_facts6 t
  show (cfg6.win 2).cut (grid6.coords t) ((dat6 V c).after 2 t) = _
  rw [after6_2, xb6_eq, bb6_eq]
  funext y
  show k6_pay3 (rows6 (aggA6 V c) ⟨t.val, lt_of_lt_of_eq t.isLt N_6⟩) (biasA6 V c) y
    = res6_2 (aggA6 V c) (biasA6 V c) (((cfg6.win 2).blk t).view.emb y)
  refine (res6_2_at (aggA6 V c) (biasA6 V c) ⟨t.val, lt_of_lt_of_eq t.isLt N_6⟩ y (((cfg6.win 2).blk t).view.emb y) ?_ ?_).symm
  · show win6_2.index t (0 : Fin 2) * 10000 + 1 * (y 0).val = 10000 * t.val + (y 0).val; omega
  · show win6_2.index t (1 : Fin 2) * 64 + 1 * (y 1).val = (y 1).val; omega

theorem mem_blk6_2 (t : Fin cfg6.N) (i : S100000x64.Idx) :
    i ∈ ((cfg6.win 2).blk t).view.set ↔ ∀ a : Fin 2, win6_2.index t a * S10000x64.size a ≤ (i a).val ∧ (i a).val < win6_2.index t a * S10000x64.size a + S10000x64.size a := by
  show i ∈ ((View.whole (Pipeline.arrRef spec6 2)).slice (win6_2.rect t)).set ↔ _
  rw [View.set_slice_whole, Rect.mem_set_unit]
  exact Iff.rfl

theorem cover6_2 (i : S100000x64.Idx) : ∃ t : Fin cfg6.N, (cfg6.win 2).flush t = true ∧ i ∈ ((cfg6.win 2).blk t).view.set := by
  have hi0 : (i 0).val < 100000 := (i 0).isLt
  have hi1 : (i 1).val < 64 := (i 1).isLt
  refine ⟨⟨(i 0).val / 10000, by show _ < grid6.N; rw [N_6]; omega⟩, flush6_2 _, ?_⟩
  rw [mem_blk6_2]
  obtain ⟨-, -, -, -, e4, e5, -⟩ := idx_facts6 ⟨(i 0).val / 10000, by show _ < grid6.N; rw [N_6]; omega⟩
  intro a
  match a with
  | ⟨0, _⟩ =>
    show win6_2.index _ (0 : Fin 2) * 10000 ≤ (i 0).val ∧ (i 0).val < win6_2.index _ (0 : Fin 2) * 10000 + 10000
    rw [e4]; show (i 0).val / 10000 * 10000 ≤ (i 0).val ∧ (i 0).val < (i 0).val / 10000 * 10000 + 10000; omega
  | ⟨1, _⟩ =>
    show win6_2.index _ (1 : Fin 2) * 64 ≤ (i 1).val ∧ (i 1).val < win6_2.index _ (1 : Fin 2) * 64 + 64
    rw [e5]; omega

theorem final6_2 (c : Dev nD) : (dat6 V c).arrAt 2 cfg6.N = res6_2 (V c (Pipeline.arrRef spec6 0)) (V c (Pipeline.arrRef spec6 1)) :=
  (dat6 V c).arrAt_eq_of_cover 2 (res6_2 (aggA6 V c) (biasA6 V c)) (fun t _ => flushed6_2_eq V c t) cover6_2

theorem accR6_0_congr (agg : Vec F S100000x64 .f32) (b : Vec F S1x64 .f32) {n m : ℕ} (h : n = m) (hn : n < 10) (hm : m < 10) :
    accR6_0 agg b n hn = accR6_0 agg b m hm := by subst h; rfl

theorem accR6_1_congr (agg : Vec F S100000x64 .f32) (b : Vec F S1x64 .f32) {n m : ℕ} (h : n = m) (hn : n < 10) (hm : m < 10) :
    accR6_1 agg b n hn = accR6_1 agg b m hm := by subst h; rfl

theorem emb_blk6_3 (t : Fin cfg6.N) (y : S1x64.Idx) : ((cfg6.win 3).blk t).view.emb y = y := by
  obtain ⟨-, -, -, -, -, -, e6, e7, -⟩ := idx_facts6 t
  funext a; apply Fin.ext
  match a with
  | ⟨0, _⟩ => show win6_3.index t (0 : Fin 2) * 1 + 1 * (y 0).val = (y 0).val; omega
  | ⟨1, _⟩ => show win6_3.index t (1 : Fin 2) * 64 + 1 * (y 1).val = (y 1).val; omega

theorem emb_blk6_4 (t : Fin cfg6.N) (y : S1x64.Idx) : ((cfg6.win 4).blk t).view.emb y = y := by
  obtain ⟨-, -, -, -, -, -, -, -, e8, e9⟩ := idx_facts6 t
  funext a; apply Fin.ext
  match a with
  | ⟨0, _⟩ => show win6_4.index t (0 : Fin 2) * 1 + 1 * (y 0).val = (y 0).val; omega
  | ⟨1, _⟩ => show win6_4.index t (1 : Fin 2) * 64 + 1 * (y 1).val = (y 1).val; omega

theorem flushed6_3_eq (c : Dev nD) (t : Fin cfg6.N) (hf : (cfg6.win 3).flush t = true) :
    (dat6 V c).flushed 3 t = ((cfg6.win 3).blk t).view.read (Elt F) (res6_3 (aggA6 V c) (biasA6 V c)) := by
  have hN : t.val < 10 := lt_of_lt_of_eq t.isLt N_6
  have h9 : t.val = 9 := by have := (flush6_3 t).mp hf; omega
  show (cfg6.win 3).cut (grid6.coords t) ((dat6 V c).after 3 t) = _
  rw [after6_3]
  funext y
  show acc6_0 V c t.val t.isLt y = res6_3 (aggA6 V c) (biasA6 V c) (((cfg6.win 3).blk t).view.emb y)
  refine Eq.trans ?_ (congrArg (res6_3 (aggA6 V c) (biasA6 V c)) (emb_blk6_3 t y).symm)
  exact congrFun ((acc6_0_eq V c t.val t.isLt hN).trans (accR6_0_congr _ _ h9 hN (by decide))) y

theorem flushed6_4_eq (c : Dev nD) (t : Fin cfg6.N) (hf : (cfg6.win 4).flush t = true) :
    (dat6 V c).flushed 4 t = ((cfg6.win 4).blk t).view.read (Elt F) (res6_4 (aggA6 V c) (biasA6 V c)) := by
  have hN : t.val < 10 := lt_of_lt_of_eq t.isLt N_6
  have h9 : t.val = 9 := by have := (flush6_4 t).mp hf; omega
  show (cfg6.win 4).cut (grid6.coords t) ((dat6 V c).after 4 t) = _
  rw [after6_4]
  funext y
  show acc6_1 V c t.val t.isLt y = res6_4 (aggA6 V c) (biasA6 V c) (((cfg6.win 4).blk t).view.emb y)
  refine Eq.trans ?_ (congrArg (res6_4 (aggA6 V c) (biasA6 V c)) (emb_blk6_4 t y).symm)
  exact congrFun ((acc6_1_eq V c t.val t.isLt hN).trans (accR6_1_congr _ _ h9 hN (by decide))) y

theorem mem_blk6_3 (t : Fin cfg6.N) (i : S1x64.Idx) :
    i ∈ ((cfg6.win 3).blk t).view.set ↔ ∀ a : Fin 2, win6_3.index t a * S1x64.size a ≤ (i a).val ∧ (i a).val < win6_3.index t a * S1x64.size a + S1x64.size a := by
  show i ∈ ((View.whole (Pipeline.arrRef spec6 3)).slice (win6_3.rect t)).set ↔ _
  rw [View.set_slice_whole, Rect.mem_set_unit]
  exact Iff.rfl

theorem mem_blk6_4 (t : Fin cfg6.N) (i : S1x64.Idx) :
    i ∈ ((cfg6.win 4).blk t).view.set ↔ ∀ a : Fin 2, win6_4.index t a * S1x64.size a ≤ (i a).val ∧ (i a).val < win6_4.index t a * S1x64.size a + S1x64.size a := by
  show i ∈ ((View.whole (Pipeline.arrRef spec6 4)).slice (win6_4.rect t)).set ↔ _
  rw [View.set_slice_whole, Rect.mem_set_unit]
  exact Iff.rfl

theorem cover6_3 (i : S1x64.Idx) : ∃ t : Fin cfg6.N, (cfg6.win 3).flush t = true ∧ i ∈ ((cfg6.win 3).blk t).view.set := by
  have hi0 : (i 0).val < 1 := (i 0).isLt
  have hi1 : (i 1).val < 64 := (i 1).isLt
  refine ⟨t6_9, (flush6_3 t6_9).mpr rfl, ?_⟩
  rw [mem_blk6_3]
  obtain ⟨-, -, -, -, -, -, e6, e7, -⟩ := idx_facts6 t6_9
  intro a
  match a with
  | ⟨0, _⟩ => show win6_3.index t6_9 (0 : Fin 2) * 1 ≤ (i 0).val ∧ (i 0).val < win6_3.index t6_9 (0 : Fin 2) * 1 + 1; omega
  | ⟨1, _⟩ => show win6_3.index t6_9 (1 : Fin 2) * 64 ≤ (i 1).val ∧ (i 1).val < win6_3.index t6_9 (1 : Fin 2) * 64 + 64; omega

theorem cover6_4 (i : S1x64.Idx) : ∃ t : Fin cfg6.N, (cfg6.win 4).flush t = true ∧ i ∈ ((cfg6.win 4).blk t).view.set := by
  have hi0 : (i 0).val < 1 := (i 0).isLt
  have hi1 : (i 1).val < 64 := (i 1).isLt
  refine ⟨t6_9, (flush6_4 t6_9).mpr rfl, ?_⟩
  rw [mem_blk6_4]
  obtain ⟨-, -, -, -, -, -, -, -, e8, e9⟩ := idx_facts6 t6_9
  intro a
  match a with
  | ⟨0, _⟩ => show win6_4.index t6_9 (0 : Fin 2) * 1 ≤ (i 0).val ∧ (i 0).val < win6_4.index t6_9 (0 : Fin 2) * 1 + 1; omega
  | ⟨1, _⟩ => show win6_4.index t6_9 (1 : Fin 2) * 64 ≤ (i 1).val ∧ (i 1).val < win6_4.index t6_9 (1 : Fin 2) * 64 + 64; omega

theorem final6_3 (c : Dev nD) : (dat6 V c).arrAt 3 cfg6.N = res6_3 (V c (Pipeline.arrRef spec6 0)) (V c (Pipeline.arrRef spec6 1)) :=
  (dat6 V c).arrAt_eq_of_cover 3 (res6_3 (aggA6 V c) (biasA6 V c)) (fun t hf => flushed6_3_eq V c t hf) cover6_3

theorem final6_4 (c : Dev nD) : (dat6 V c).arrAt 4 cfg6.N = res6_4 (V c (Pipeline.arrRef spec6 0)) (V c (Pipeline.arrRef spec6 1)) :=
  (dat6 V c).arrAt_eq_of_cover 4 (res6_4 (aggA6 V c) (biasA6 V c)) (fun t hf => flushed6_4_eq V c t hf) cover6_4

end Region2

end Cert.KernelIdeal.Hand

end
-- ==== Proof.KI.Reg7.lean ====
import proofs.«424828_j6554120094214_2_alg».proof.Proof.Gen.KernelIdeal.Launch
import proofs.«424828_j6554120094214_2_alg».proof.Proof.Gen.KernelIdeal.Skeleton
import proofs.«424828_j6554120094214_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.ValueIdx
import Idealize.ShloMosaic.Lib.ValueLayout
import Idealize.ShloMosaic.PureOps.Ideal.Laws
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

theorem hz7 : (![0, 0] : Fin 2 → Nat) = fun _ => 0 := funext fun a => by fin_cases a <;> rfl

abbrev r7_0 : Rect S10000x64 := Rect.unit (s := S10000x64) ![0, 0] S10000x64.size inb_S10000x64_S10000x64_0_0

def out7_5 (x0 : Vec F S10000x64 .f32) (x1 : Vec F S1x64 .f32) (x2 : Vec F S1x64 .f32) (x3 : Vec F S1x64 .f32) (x4 : Vec F S1x64 .f32) : Vec F S10000x64 .f32 :=
  View.canon [⟨r7_0, k7_pay1 (View.ld x2 (Rect.unit (s := S1x64) ![0, 0] S1x64.size inb_S1x64_S1x64_0_0)) (View.ld x3 (Rect.unit (s := S1x64) ![0, 0] S1x64.size inb_S1x64_S1x64_0_0)) (View.ld x0 r7_0) (View.ld x1 (Rect.unit (s := S1x64) ![0, 0] S1x64.size inb_S1x64_S1x64_0_0)) (View.ld x4 (Rect.unit (s := S1x64) ![0, 0] S1x64.size inb_S1x64_S1x64_0_0))⟩]

theorem cover7_5 (p0 : Vec F S10000x64 .f32) (y : S10000x64.Idx) :
    ∃ pc ∈ ([⟨r7_0, p0⟩] : List (View.Piece (Elt F) S10000x64 .f32)), y ∈ pc.1.set :=
  ⟨_, List.mem_singleton_self _, View.mem_set_unit_zero hz7 inb_S10000x64_S10000x64_0_0 y⟩

set_option maxHeartbeats 1000000 in
theorem sound_kernel7 (c : Dev nD) (E : Set ℕ) (i : grid7.Coords)
    (arg1 : Memref sig .tc .vmem S10000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S10000x64 .f32) (harg6 : arg6.IsWhole)
    (x0 : Vec F S10000x64 .f32) (x1 : Vec F S1x64 .f32) (x2 : Vec F S1x64 .f32) (x3 : Vec F S1x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out7_5 x0 x1 x2 x3 x4)) -∗ K ⟨⟩))
      ⊢ wp frame (wpE (defs₀ (F := F)) Variants.none c none) E (cc7__bn_apply_kernel i arg1 harg1 arg2 harg2 arg3 harg3 arg4 harg4 arg5 harg5 arg6 harg6) K := by
  simp only [cc7__bn_apply_kernel_eq_skeleton]; unfold cc7__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem Phi_in7 (c : Dev nD) : (dat7 V c).Φ 0 = Pipeline.ΦA spec7 c := by
  dsimp only [dat7]

theorem Phi_out7 (c : Dev nD) : (dat7 V c).Φ (Fin.last _) ⊢ Pipeline.ΦA spec7 c := by
  dsimp only [dat7]; exact BIBase.Entails.rfl

theorem owed7 (c : Dev nD) : ∀ x, (dat7 V c).owed x = 0 := fun _ => by
  dsimp only [dat7]

theorem share7 (c : Dev nD) : ∀ w, (dat7 V c).q w = fullShare := fun _ => by
  dsimp only [dat7]

theorem recorded7 (c : Dev nD) : ∀ t, (dat7 V c).recorded t = Set.univ := fun _ => rfl

theorem after7_0 (c : Dev nD) (t : Fin cfg7.N) : (dat7 V c).after 0 t = iblk7 V c 0 t := by dsimp only [dat7]

theorem after7_1 (c : Dev nD) (t : Fin cfg7.N) : (dat7 V c).after 1 t = iblk7 V c 1 t := by dsimp only [dat7]

theorem after7_2 (c : Dev nD) (t : Fin cfg7.N) : (dat7 V c).after 2 t = iblk7 V c 2 t := by dsimp only [dat7]

theorem after7_3 (c : Dev nD) (t : Fin cfg7.N) : (dat7 V c).after 3 t = iblk7 V c 3 t := by dsimp only [dat7]

theorem after7_4 (c : Dev nD) (t : Fin cfg7.N) : (dat7 V c).after 4 t = iblk7 V c 4 t := by dsimp only [dat7]

theorem after7_5 (c : Dev nD) (t : Fin cfg7.N) :
    (dat7 V c).after 5 t = out7_5 (iblk7 V c 0 t) (iblk7 V c 1 t) (iblk7 V c 2 t) (iblk7 V c 3 t) (iblk7 V c 4 t) := by dsimp only [dat7]

theorem before7_0 (c : Dev nD) (t : Fin cfg7.N) (d) : (dat7 V c).before 0 t d = iblk7 V c 0 t :=
  before7_0_of V (dat7 V c) (A_eq7 V c 0) (after7_0 V c) t d

theorem before7_1 (c : Dev nD) (t : Fin cfg7.N) (d) : (dat7 V c).before 1 t d = iblk7 V c 1 t :=
  before7_1_of V (dat7 V c) (A_eq7 V c 1) (after7_1 V c) t d

theorem before7_2 (c : Dev nD) (t : Fin cfg7.N) (d) : (dat7 V c).before 2 t d = iblk7 V c 2 t :=
  before7_2_of V (dat7 V c) (A_eq7 V c 2) (after7_2 V c) t d

theorem before7_3 (c : Dev nD) (t : Fin cfg7.N) (d) : (dat7 V c).before 3 t d = iblk7 V c 3 t :=
  before7_3_of V (dat7 V c) (A_eq7 V c 3) (after7_3 V c) t d

theorem before7_4 (c : Dev nD) (t : Fin cfg7.N) (d) : (dat7 V c).before 4 t d = iblk7 V c 4 t :=
  before7_4_of V (dat7 V c) (A_eq7 V c 4) (after7_4 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation7 (c : Dev nD) : BodyObligation (dat7 (F := F) V c) (defs₀ (F := F)) Variants.none () Set.univ := fun t => by
  rw [bigSep_W7, bigSep_W7]
  exact sound_body7 V c t

open Idealize.ShloMosaic.ValueIdx

def res7_5 (h : Vec F S100000x64 .f32) (mean : Vec F S1x64 .f32) (var : Vec F S1x64 .f32) (g : Vec F S1x64 .f32) (beta : Vec F S1x64 .f32) :
    Vec F S100000x64 .f32 :=
  fun i => FloatOps.addf (FloatOps.mulf (FloatOps.mulf (g (ix2 (0 : Fin 1) (i 1))) (FloatOps.subf (h i) (mean (ix2 (0 : Fin 1) (i 1)))))
      (FloatOps.rsqrt (FloatOps.addf (var (ix2 (0 : Fin 1) (i 1))) (Scalar.ofBits .f32 0x3727C5AC#32)))) (beta (ix2 (0 : Fin 1) (i 1)))

theorem res7_5_at (h : Vec F S100000x64 .f32) (mean : Vec F S1x64 .f32) (var : Vec F S1x64 .f32) (g : Vec F S1x64 .f32) (beta : Vec F S1x64 .f32)
    (i : S100000x64.Idx) (f : Fin 64) (hf : (i 1).val = f.val) :
    res7_5 h mean var g beta i
      = FloatOps.addf (FloatOps.mulf (FloatOps.mulf (g (ix2 (0 : Fin 1) f)) (FloatOps.subf (h i) (mean (ix2 (0 : Fin 1) f))))
          (FloatOps.rsqrt (FloatOps.addf (var (ix2 (0 : Fin 1) f)) (Scalar.ofBits .f32 0x3727C5AC#32)))) (beta (ix2 (0 : Fin 1) f)) := by
  obtain rfl : (i 1 : Fin 64) = f := Fin.ext hf
  rfl

theorem k7_pay1_apply (var : Vec F S1x64 .f32) (g : Vec F S1x64 .f32) (h : Vec F S10000x64 .f32) (mean : Vec F S1x64 .f32) (beta : Vec F S1x64 .f32)
    (j : S10000x64.Idx) (f : Fin 64) (hf : (j 1).val = f.val) :
    k7_pay1 var g h mean beta j
      = FloatOps.addf (FloatOps.mulf (FloatOps.mulf (g (ix2 (0 : Fin 1) f)) (FloatOps.subf (h j) (mean (ix2 (0 : Fin 1) f))))
          (FloatOps.rsqrt (FloatOps.addf (var (ix2 (0 : Fin 1) f)) (Scalar.ofBits .f32 0x3727C5AC#32)))) (beta (ix2 (0 : Fin 1) f)) := by
  obtain rfl : (j 1 : Fin 64) = f := Fin.ext hf
  have hb : ∀ x : FVec F S1x64 .f32, broadcastTo S10000x64 x broadcasts_S1x64_S10000x64 j = x (ix2 (0 : Fin 1) (j 1)) := fun x =>
    broadcastTo_apply x broadcasts_S1x64_S10000x64 j (ix2 (0 : Fin 1) (j 1)) (fun a => by
      match a with
      | ⟨0, _⟩ => rfl
      | ⟨1, _⟩ => rfl)
  unfold k7_pay1
  simp only [shapeCast_self]
  show FloatOps.addf (FloatOps.mulf (FloatOps.mulf (broadcastTo S10000x64 g broadcasts_S1x64_S10000x64 j)
        (FloatOps.subf (h j) (broadcastTo S10000x64 mean broadcasts_S1x64_S10000x64 j)))
      (broadcastTo S10000x64 (rsqrt (addf var (broadcast S1x64 (Scalar.ofBits .f32 0x3727C5AC#32)))) broadcasts_S1x64_S10000x64 j))
    (broadcastTo S10000x64 beta broadcasts_S1x64_S10000x64 j) = _
  rw [hb g, hb mean, hb beta, hb (rsqrt (addf var (broadcast S1x64 (Scalar.ofBits .f32 0x3727C5AC#32))))]
  rfl

theorem idx_facts7 : ∀ t : Fin cfg7.N, win7_0.index t (0 : Fin 2) = t.val ∧ win7_0.index t (1 : Fin 2) = 0
    ∧ win7_5.index t (0 : Fin 2) = t.val ∧ win7_5.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0 :=
  (by decide +kernel : ∀ t : Fin grid7.N, _)

theorem iblk7_0_apply (c : Dev nD) (t : Fin cfg7.N) (x : S10000x64.Idx) (k : S100000x64.Idx)
    (hk0 : (k 0).val = 10000 * t.val + (x 0).val) (hk1 : (k 1).val = (x 1).val) :
    (iblk7 V c 0 t : Vec F S10000x64 .f32) x = (V c (Pipeline.arrRef spec7 0) : S100000x64.Idx → Elt F .f32) k := by
  obtain ⟨e0, e1, -⟩ := idx_facts7 t
  unfold iblk7
  rw [View.read_apply]
  show (V c (Pipeline.arrRef spec7 0) : S100000x64.Idx → Elt F .f32) _ = (V c (Pipeline.arrRef spec7 0) : S100000x64.Idx → Elt F .f32) _
  congr 1
  funext a
  apply Fin.ext
  match a with
  | ⟨0, _⟩ => show win7_0.index t 0 * 10000 + 1 * (x 0).val = (k 0).val; rw [e0, hk0]; omega
  | ⟨1, _⟩ => show win7_0.index t 1 * 64 + 1 * (x 1).val = (k 1).val; rw [e1, hk1]; omega

theorem iblk7_1_apply (c : Dev nD) (t : Fin cfg7.N) (x : S1x64.Idx) :
    (iblk7 V c 1 t : Vec F S1x64 .f32) x = (V c (Pipeline.arrRef spec7 1) : S1x64.Idx → Elt F .f32) x := by
  obtain ⟨-, -, -, -, e0, e1, -⟩ := idx_facts7 t
  unfold iblk7
  rw [View.read_apply]
  show (V c (Pipeline.arrRef spec7 1) : S1x64.Idx → Elt F .f32) _ = (V c (Pipeline.arrRef spec7 1) : S1x64.Idx → Elt F .f32) _
  congr 1
  funext a
  apply Fin.ext
  match a with
  | ⟨0, _⟩ => show win7_1.index t 0 * 1 + 1 * (x 0).val = (x 0).val; rw [e0]; omega
  | ⟨1, _⟩ => show win7_1.index t 1 * 64 + 1 * (x 1).val = (x 1).val; rw [e1]; omega

theorem iblk7_2_apply (c : Dev nD) (t : Fin cfg7.N) (x : S1x64.Idx) :
    (iblk7 V c 2 t : Vec F S1x64 .f32) x = (V c (Pipeline.arrRef spec7 2) : S1x64.Idx → Elt F .f32) x := by
  obtain ⟨-, -, -, -, -, -, e0, e1, -⟩ := idx_facts7 t
  unfold iblk7
  rw [View.read_apply]
  show (V c (Pipeline.arrRef spec7 2) : S1x64.Idx → Elt F .f32) _ = (V c (Pipeline.arrRef spec7 2) : S1x64.Idx → Elt F .f32) _
  congr 1
  funext a
  apply Fin.ext
  match a with
  | ⟨0, _⟩ => show win7_2.index t 0 * 1 + 1 * (x 0).val = (x 0).val; rw [e0]; omega
  | ⟨1, _⟩ => show win7_2.index t 1 * 64 + 1 * (x 1).val = (x 1).val; rw [e1]; omega

theorem iblk7_3_apply (c : Dev nD) (t : Fin cfg7.N) (x : S1x64.Idx) :
    (iblk7 V c 3 t : Vec F S1x64 .f32) x = (V c (Pipeline.arrRef spec7 3) : S1x64.Idx → Elt F .f32) x := by
  obtain ⟨-, -, -, -, -, -, -, -, e0, e1, -⟩ := idx_facts7 t
  unfold iblk7
  rw [View.read_apply]
  show (V c (Pipeline.arrRef spec7 3) : S1x64.Idx → Elt F .f32) _ = (V c (Pipeline.arrRef spec7 3) : S1x64.Idx → Elt F .f32) _
  congr 1
  funext a
  apply Fin.ext
  match a with
  | ⟨0, _⟩ => show win7_3.index t 0 * 1 + 1 * (x 0).val = (x 0).val; rw [e0]; omega
  | ⟨1, _⟩ => show win7_3.index t 1 * 64 + 1 * (x 1).val = (x 1).val; rw [e1]; omega

theorem iblk7_4_apply (c : Dev nD) (t : Fin cfg7.N) (x : S1x64.Idx) :
    (iblk7 V c 4 t : Vec F S1x64 .f32) x = (V c (Pipeline.arrRef spec7 4) : S1x64.Idx → Elt F .f32) x := by
  obtain ⟨-, -, -, -, -, -, -, -, -, -, e0, e1⟩ := idx_facts7 t
  unfold iblk7
  rw [View.read_apply]
  show (V c (Pipeline.arrRef spec7 4) : S1x64.Idx → Elt F .f32) _ = (V c (Pipeline.arrRef spec7 4) : S1x64.Idx → Elt F .f32) _
  congr 1
  funext a
  apply Fin.ext
  match a with
  | ⟨0, _⟩ => show win7_4.index t 0 * 1 + 1 * (x 0).val = (x 0).val; rw [e0]; omega
  | ⟨1, _⟩ => show win7_4.index t 1 * 64 + 1 * (x 1).val = (x 1).val; rw [e1]; omega

theorem block7_5_apply (c : Dev nD) (t : Fin cfg7.N) (j : S10000x64.Idx) (i : S100000x64.Idx)
    (hi0 : (i 0).val = 10000 * t.val + (j 0).val) (hi1 : (i 1).val = (j 1).val) :
    k7_pay1 (iblk7 V c 2 t) (iblk7 V c 3 t) (iblk7 V c 0 t) (iblk7 V c 1 t) (iblk7 V c 4 t) j
      = res7_5 (V c (Pipeline.arrRef spec7 0)) (V c (Pipeline.arrRef spec7 1)) (V c (Pipeline.arrRef spec7 2)) (V c (Pipeline.arrRef spec7 3)) (V c (Pipeline.arrRef spec7 4)) i := by
  refine (k7_pay1_apply (iblk7 V c 2 t) (iblk7 V c 3 t) (iblk7 V c 0 t) (iblk7 V c 1 t) (iblk7 V c 4 t) j (j 1) rfl).trans ?_
  refine Eq.trans ?_ (res7_5_at (V c (Pipeline.arrRef spec7 0)) (V c (Pipeline.arrRef spec7 1)) (V c (Pipeline.arrRef spec7 2)) (V c (Pipeline.arrRef spec7 3)) (V c (Pipeline.arrRef spec7 4)) i (j 1) hi1).symm
  rw [iblk7_0_apply V c t j i hi0 hi1, iblk7_1_apply, iblk7_2_apply, iblk7_3_apply, iblk7_4_apply]

theorem flushed7_5_eq (c : Dev nD) (t : Fin cfg7.N) :
    (dat7 V c).flushed 5 t = ((cfg7.win 5).blk t).view.read (Elt F)
      (res7_5 (V c (Pipeline.arrRef spec7 0)) (V c (Pipeline.arrRef spec7 1)) (V c (Pipeline.arrRef spec7 2)) (V c (Pipeline.arrRef spec7 3)) (V c (Pipeline.arrRef spec7 4))) := by
  show (cfg7.win 5).cut (grid7.coords t) ((dat7 V c).after 5 t) = _
  rw [after7_5]
  unfold out7_5
  rw [View.canon_unit_zero hz7]
  simp only [View.ld_unit_zero (S := S10000x64) hz7, View.ld_unit_zero (S := S1x64) hz7]
  obtain ⟨-, -, e0, e1, -⟩ := idx_facts7 t
  funext j
  exact block7_5_apply V c t j (((cfg7.win 5).blk t).view.emb j)
    (by show win7_5.index t 0 * 10000 + 1 * (j 0).val = 10000 * t.val + (j 0).val; rw [e0]; omega)
    (by show win7_5.index t 1 * 64 + 1 * (j 1).val = (j 1).val; rw [e1]; omega)

theorem mem_blk7_5 (t : Fin cfg7.N) (i : S100000x64.Idx) :
    i ∈ ((cfg7.win 5).blk t).view.set ↔ ∀ a : Fin 2, win7_5.index t a * S10000x64.size a ≤ (i a).val ∧ (i a).val < win7_5.index t a * S10000x64.size a + S10000x64.size a := by
  show i ∈ ((View.whole (Pipeline.arrRef spec7 5)).slice (win7_5.rect t)).set ↔ _
  rw [View.set_slice_whole, Rect.mem_set_unit]
  exact Iff.rfl

theorem covered7_5 (i : S100000x64.Idx) : ∃ t : Fin cfg7.N, (cfg7.win 5).flush t = true ∧ i ∈ ((cfg7.win 5).blk t).view.set := by
  have hi0 : (i 0).val < 100000 := (i 0).isLt
  have hi1 : (i 1).val < 64 := (i 1).isLt
  have hN : cfg7.N = 10 := N_7
  have ht : (i 0).val / 10000 < cfg7.N := by omega
  obtain ⟨-, -, e0, e1, -⟩ := idx_facts7 ⟨(i 0).val / 10000, ht⟩
  refine ⟨⟨(i 0).val / 10000, ht⟩, flush7_5 _, ?_⟩
  rw [mem_blk7_5]
  intro a
  match a with
  | ⟨0, _⟩ =>
    show win7_5.index ⟨(i 0).val / 10000, ht⟩ 0 * 10000 ≤ (i 0).val ∧ (i 0).val < win7_5.index ⟨(i 0).val / 10000, ht⟩ 0 * 10000 + 10000
    rw [e0]; show (i 0).val / 10000 * 10000 ≤ (i 0).val ∧ (i 0).val < (i 0).val / 10000 * 10000 + 10000; omega
  | ⟨1, _⟩ =>
    show win7_5.index ⟨(i 0).val / 10000, ht⟩ 1 * 64 ≤ (i 1).val ∧ (i 1).val < win7_5.index ⟨(i 0).val / 10000, ht⟩ 1 * 64 + 64
    rw [e1]; omega

theorem final7_5 (c : Dev nD) : (dat7 V c).arrAt 5 cfg7.N
    = res7_5 (V c (Pipeline.arrRef spec7 0)) (V c (Pipeline.arrRef spec7 1)) (V c (Pipeline.arrRef spec7 2)) (V c (Pipeline.arrRef spec7 3)) (V c (Pipeline.arrRef spec7 4)) :=
  (dat7 V c).arrAt_eq_of_cover 5
    (res7_5 (V c (Pipeline.arrRef spec7 0)) (V c (Pipeline.arrRef spec7 1)) (V c (Pipeline.arrRef spec7 2)) (V c (Pipeline.arrRef spec7 3)) (V c (Pipeline.arrRef spec7 4)))
    (fun t _ => flushed7_5_eq V c t) (fun i => covered7_5 i)

theorem res7_5_apply (h : FVec Ideal S100000x64 .f32) (mean : FVec Ideal S1x64 .f32) (var : FVec Ideal S1x64 .f32) (g : FVec Ideal S1x64 .f32)
    (beta : FVec Ideal S1x64 .f32) (n : Fin 100000) (f : Fin 64) :
    res7_5 (F := Ideal) h mean var g beta (ix2 n f)
      = g (ix2 (0 : Fin 1) f) * (h (ix2 n f) - mean (ix2 (0 : Fin 1) f)) * Ideal.rsqrt (var (ix2 (0 : Fin 1) f) + Ideal.ofBits .f32 0x3727C5AC#32)
        + beta (ix2 (0 : Fin 1) f) := rfl

end Cert.KernelIdeal.Hand

end
-- ==== Proof.KI.Reg8.lean ====
import proofs.«424828_j6554120094214_2_alg».proof.Proof.Gen.KernelIdeal.Launch
import proofs.«424828_j6554120094214_2_alg».proof.Proof.Gen.KernelIdeal.Skeleton
import proofs.«424828_j6554120094214_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

abbrev r8_0 : Rect S10000x64 := Rect.unit (s := S10000x64) ![0, 0] S10000x64.size inb_S10000x64_S10000x64_0_0

abbrev r8_1 : Rect S64x64 := Rect.unit (s := S64x64) ![0, 0] S64x64.size inb_S64x64_S64x64_0_0

def out8_2 (x0 : Vec F S10000x64 .f32) (x1 : Vec F S64x64 .f32) : Vec F S10000x64 .f32 :=
  View.canon [⟨r8_0, k8_pay1 (View.ld x0 r8_0) (View.ld x1 r8_1)⟩]

theorem cover8_2 (p0 : Vec F S10000x64 .f32) (y : S10000x64.Idx) :
    ∃ pc ∈ ([⟨r8_0, p0⟩] : List (View.Piece (Elt F) S10000x64 .f32)), y ∈ pc.1.set :=
  View.cover_of_tiled [⟨r8_0, p0⟩] S10000x64.size (by rfl) y

set_option maxHeartbeats 1000000 in
theorem sound_kernel8 (c : Dev nD) (E : Set ℕ) (i : grid8.Coords) (arg1 : Memref sig .tc .vmem S10000x64 .f32) (harg1 : arg1.IsWhole)
    (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out8_2 x0 x1)) -∗ K ⟨⟩))
      ⊢ wp frame (wpE (defs₀ (F := F)) Variants.none c none) E (cc8__linear_kernel i arg1 harg1 arg2 harg2 arg3 harg3) K := by
  simp only [cc8__linear_kernel_eq_skeleton]; unfold cc8__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem Phi_in8 (c : Dev nD) : (dat8 V c).Φ 0 = Pipeline.ΦA spec8 c := rfl

theorem Phi_out8 (c : Dev nD) : (dat8 V c).Φ (Fin.last _) ⊢ Pipeline.ΦA spec8 c := .rfl

theorem owed8 (c : Dev nD) : ∀ x, (dat8 V c).owed x = 0 := fun _ => rfl

theorem share8 (c : Dev nD) : ∀ w, (dat8 V c).q w = fullShare := fun _ => rfl

theorem recorded8 (c : Dev nD) : ∀ t, (dat8 V c).recorded t = Set.univ := fun _ => rfl

theorem after8_0 (c : Dev nD) (t : Fin cfg8.N) : (dat8 V c).after 0 t = iblk8 V c 0 t := by dsimp only [dat8]

theorem after8_1 (c : Dev nD) (t : Fin cfg8.N) : (dat8 V c).after 1 t = iblk8 V c 1 t := by dsimp only [dat8]

theorem after8_2 (c : Dev nD) (t : Fin cfg8.N) : (dat8 V c).after 2 t = out8_2 (iblk8 V c 0 t) (iblk8 V c 1 t) := by dsimp only [dat8]

theorem before8_0 (c : Dev nD) (t : Fin cfg8.N) (d) : (dat8 V c).before 0 t d = iblk8 V c 0 t :=
  before8_0_of V (dat8 V c) (A_eq8 V c 0) (after8_0 V c) t d

theorem before8_1 (c : Dev nD) (t : Fin cfg8.N) (d) : (dat8 V c).before 1 t d = iblk8 V c 1 t :=
  before8_1_of V (dat8 V c) (A_eq8 V c 1) (after8_1 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ _ _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation8 (c : Dev nD) : BodyObligation (dat8 (F := F) V c) (defs₀ (F := F)) Variants.none () Set.univ := fun t => by
  rw [bigSep_W8, bigSep_W8]
  exact sound_body8 V c t

open Idealize.ShloMosaic.ValueIdx

theorem hz8 : (![0, 0] : Fin 2 → Nat) = fun _ => 0 := funext fun a => by fin_cases a <;> rfl

def rows8 (b : Fin 10) (x : Vec F S100000x64 .f32) : Vec F S10000x64 .f32 :=
  fun j => x (ix2 (⟨b.val * 10000 + (j 0).val, by have h := idx2_lt0 j; have hb := b.isLt; omega⟩ : Fin 100000) (j 1 : Fin 64))

def res8_2 (x : Vec F S100000x64 .f32) (w : Vec F S64x64 .f32) : Vec F S100000x64 .f32 :=
  fun i => k8_pay1 (rows8 ⟨(i 0).val / 10000, by have h := idx2_lt0 i; omega⟩ x) w
    (ix2 (⟨(i 0).val % 10000, Nat.mod_lt _ (by decide)⟩ : Fin 10000) (i 1 : Fin 64))

theorem res8_2_blk (x : Vec F S100000x64 .f32) (w : Vec F S64x64 .f32) (b : Fin 10) (j : S10000x64.Idx) (i : S100000x64.Idx)
    (h0 : (i 0).val = b.val * 10000 + (j 0).val) (h1 : (i 1).val = (j 1).val) :
    res8_2 x w i = k8_pay1 (rows8 b x) w j := by
  unfold res8_2
  have hj0 := idx2_lt0 j
  have hb : (⟨(i 0).val / 10000, by have h := idx2_lt0 i; omega⟩ : Fin 10) = b := Fin.ext (by show (i 0).val / 10000 = b.val; omega)
  have hj : ix2 (⟨(i 0).val % 10000, Nat.mod_lt _ (by decide)⟩ : Fin 10000) (i 1 : Fin 64) = j := by
    funext a
    match a with
    | ⟨0, _⟩ => exact Fin.ext (by show (i 0).val % 10000 = (j 0).val; omega)
    | ⟨1, _⟩ => exact Fin.ext h1
  exact congrArg₂ (fun b' j' => k8_pay1 (rows8 b' x) w j') hb hj

theorem idx_facts8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

theorem flushed8_2_eq (c : Dev nD) (t : Fin cfg8.N) :
    (dat8 V c).flushed 2 t = ((cfg8.win 2).blk t).view.read (Elt F)
      (res8_2 (V c (Pipeline.arrRef spec8 0)) (V c (Pipeline.arrRef spec8 1))) := by
  show (cfg8.win 2).cut (grid8.coords t) ((dat8 V c).after 2 t) = _
  rw [after8_2]
  unfold out8_2
  rw [View.canon_unit_zero hz8]
  simp only [View.ld_unit_zero (S := S10000x64) hz8, View.ld_unit_zero (S := S64x64) hz8]
  obtain ⟨e0, e1, e2, e3, e4, e5⟩ := idx_facts8 t
  have hN : t.val < 10 := Nat.lt_of_lt_of_eq t.isLt (show cfg8.N = 10 from N_8)
  have hx : iblk8 V c 0 t = rows8 ⟨t.val, hN⟩ (V c (Pipeline.arrRef spec8 0)) := by
    funext j
    show V c (Pipeline.arrRef spec8 0) (((cfg8.win 0).blk t).view.emb j) = V c (Pipeline.arrRef spec8 0) (ix2 _ _)
    refine congrArg _ ?_
    funext a; apply Fin.ext
    match a with
    | ⟨0, _⟩ => show win8_0.index t (0 : Fin 2) * 10000 + 1 * (j 0).val = t.val * 10000 + (j 0).val; omega
    | ⟨1, _⟩ => show win8_0.index t (1 : Fin 2) * 64 + 1 * (j 1).val = (j 1).val; omega
  have hw : iblk8 V c 1 t = V c (Pipeline.arrRef spec8 1) := by
    funext j
    show V c (Pipeline.arrRef spec8 1) (((cfg8.win 1).blk t).view.emb j) = V c (Pipeline.arrRef spec8 1) j
    refine congrArg _ ?_
    funext a; apply Fin.ext
    match a with
    | ⟨0, _⟩ => show win8_1.index t (0 : Fin 2) * 64 + 1 * (j 0).val = (j 0).val; omega
    | ⟨1, _⟩ => show win8_1.index t (1 : Fin 2) * 64 + 1 * (j 1).val = (j 1).val; omega
  rw [hx, hw]
  funext j
  refine (res8_2_blk _ _ ⟨t.val, hN⟩ j _ ?_ ?_).symm
  · show win8_2.index t (0 : Fin 2) * 10000 + 1 * (j 0).val = t.val * 10000 + (j 0).val; omega
  · show win8_2.index t (1 : Fin 2) * 64 + 1 * (j 1).val = (j 1).val; omega

theorem mem_blk8_2 (t : Fin cfg8.N) (i : S100000x64.Idx) :
    Iff (i ∈ ((cfg8.win 2).blk t).view.set) (∀ a : Fin 2, win8_2.index t a * S10000x64.size a ≤ (i a).val ∧ (i a).val < win8_2.index t a * S10000x64.size a + S10000x64.size a) := by
  show Iff (i ∈ ((View.whole (Pipeline.arrRef spec8 2)).slice (win8_2.rect t)).set) _
  rw [View.set_slice_whole, Rect.mem_set_unit]
  exact Iff.rfl

theorem covered8_2 (i : S100000x64.Idx) : ∃ t : Fin cfg8.N, (cfg8.win 2).flush t = true ∧ i ∈ ((cfg8.win 2).blk t).view.set := by
  have hi0 := idx2_lt0 i
  have hi1 := idx2_lt1 i
  have hN : (i 0).val / 10000 < cfg8.N := Nat.lt_of_lt_of_eq (by omega : (i 0).val / 10000 < 10) (show 10 = cfg8.N from N_8.symm)
  refine ⟨⟨(i 0).val / 10000, hN⟩, flush8_2 _, ?_⟩
  rw [mem_blk8_2]
  obtain ⟨-, -, -, -, e4, e5⟩ := idx_facts8 ⟨(i 0).val / 10000, hN⟩
  intro a
  match a with
  | ⟨0, _⟩ =>
    show win8_2.index ⟨(i 0).val / 10000, hN⟩ (0 : Fin 2) * 10000 ≤ (i 0).val ∧ (i 0).val < win8_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win8_2.index ⟨(i 0).val / 10000, hN⟩ (1 : Fin 2) * 64 ≤ (i 1).val ∧ (i 1).val < win8_2.index ⟨(i 0).val / 10000, hN⟩ (1 : Fin 2) * 64 + 64
    rw [e5]; omega

theorem final8_2 (c : Dev nD) : (dat8 V c).arrAt 2 cfg8.N = res8_2 (V c (Pipeline.arrRef spec8 0)) (V c (Pipeline.arrRef spec8 1)) :=
  (dat8 V c).arrAt_eq_of_cover 2 _ (fun t _ => flushed8_2_eq V c t) covered8_2

section AtIdeal

theorem lhs8_0 (j : S10000x64.Idx) (k : dot_S10000x64_S64x64_S10000x64_1_1_0_0_n_n.contr.Idx) :
    ((dot_S10000x64_S64x64_S10000x64_1_1_0_0_n_n.lhsIdx j k) (0 : Fin S10000x64.rank)).val = (j (0 : Fin S10000x64.rank)).val := by
  unfold DotDims.lhsIdx
  rw [dif_neg (show ¬(0 : Fin S10000x64.rank) ∈ dot_S10000x64_S64x64_S10000x64_1_1_0_0_n_n.lhsBatch by decide),
    dif_pos (show (0 : Fin S10000x64.rank) ∈ dot_S10000x64_S64x64_S10000x64_1_1_0_0_n_n.lhsNonContracting by decide)]
  rfl

theorem lhs8_1 (j : S10000x64.Idx) (k : dot_S10000x64_S64x64_S10000x64_1_1_0_0_n_n.contr.Idx) :
    ((dot_S10000x64_S64x64_S10000x64_1_1_0_0_n_n.lhsIdx j k) (1 : Fin S10000x64.rank)).val = (k ⟨0, by decide⟩).val :=
  dot_S10000x64_S64x64_S10000x64_1_1_0_0_n_n.lhsIdx_val_of_single rfl j k

theorem rhs8_0 (j : S10000x64.Idx) (k : dot_S10000x64_S64x64_S10000x64_1_1_0_0_n_n.contr.Idx) :
    ((dot_S10000x64_S64x64_S10000x64_1_1_0_0_n_n.rhsIdx j k) (0 : Fin S64x64.rank)).val = (j (1 : Fin S10000x64.rank)).val := by
  unfold DotDims.rhsIdx
  rw [dif_neg (show ¬(0 : Fin S64x64.rank) ∈ dot_S10000x64_S64x64_S10000x64_1_1_0_0_n_n.rhsBatch by decide),
    dif_pos (show (0 : Fin S64x64.rank) ∈ dot_S10000x64_S64x64_S10000x64_1_1_0_0_n_n.rhsNonContracting by decide)]
  rfl

theorem rhs8_1 (j : S10000x64.Idx) (k : dot_S10000x64_S64x64_S10000x64_1_1_0_0_n_n.contr.Idx) :
    ((dot_S10000x64_S64x64_S10000x64_1_1_0_0_n_n.rhsIdx j k) (1 : Fin S64x64.rank)).val = (k ⟨0, by decide⟩).val :=
  dot_S10000x64_S64x64_S10000x64_1_1_0_0_n_n.rhsIdx_val_of_single rfl j k

theorem k8_pay1_apply (v0 : FVec Ideal S10000x64 .f32) (v2 : FVec Ideal S64x64 .f32) (p : Fin 10000) (q : Fin 64) :
    k8_pay1 v0 v2 (ix2 p q) = ∑ k : Fin 64, v0 (ix2 p k) * v2 (ix2 q k) := by
  unfold k8_pay1
  (try simp only [shapeCast_self])
  show FloatOps.matmul dot_S10000x64_S64x64_S10000x64_1_1_0_0_n_n none (truncf .bf16 v0 bitsLt_bf16_f32) (truncf .bf16 v2 bitsLt_bf16_f32)
    (constant (F := Ideal) S10000x64 .f32 0x00000000#32) (ix2 p q) = _
  rw [Ideal.matmul_constant_zero_apply]
  refine (Equiv.sum_comp (contrEquiv1 dot_S10000x64_S64x64_S10000x64_1_1_0_0_n_n 64 rfl rfl).symm _).symm.trans ?_
  refine Finset.sum_congr rfl fun k _ => ?_
  have hl : dot_S10000x64_S64x64_S10000x64_1_1_0_0_n_n.lhsIdx (ix2 p q) ((contrEquiv1 dot_S10000x64_S64x64_S10000x64_1_1_0_0_n_n 64 rfl rfl).symm k) = ix2 p k := by
    funext a; apply Fin.ext
    match a with
    | ⟨0, _⟩ => exact lhs8_0 _ _
    | ⟨1, _⟩ => exact (lhs8_1 _ _).trans (contrEquiv1_symm_val _ 64 rfl rfl k)
  have hr : dot_S10000x64_S64x64_S10000x64_1_1_0_0_n_n.rhsIdx (ix2 p q) ((contrEquiv1 dot_S10000x64_S64x64_S10000x64_1_1_0_0_n_n 64 rfl rfl).symm k) = ix2 q k := by
    funext a; apply Fin.ext
    match a with
    | ⟨0, _⟩ => exact rhs8_0 _ _
    | ⟨1, _⟩ => exact (rhs8_1 _ _).trans (contrEquiv1_symm_val _ 64 rfl rfl k)
  rw [hl, hr]
  rfl

theorem res8_2_apply (x : Vec Ideal S100000x64 .f32) (w : Vec Ideal S64x64 .f32) (n : Fin 100000) (o : Fin 64) :
    res8_2 x w (ix2 n o) = ∑ k : Fin 64, x (ix2 n k) * w (ix2 o k) := by
  unfold res8_2
  refine (k8_pay1_apply _ _ _ _).trans ?_
  refine Finset.sum_congr rfl fun k _ => ?_
  unfold rows8
  refine congrArg (fun r => x (ix2 r k) * w (ix2 o k)) (Fin.ext ?_)
  show n.val / 10000 * 10000 + n.val % 10000 = n.val
  omega

end AtIdeal

end Cert.KernelIdeal.Hand
-- ==== Proof.KI.Reg9.lean ====
import proofs.«424828_j6554120094214_2_alg».proof.Proof.Gen.KernelIdeal.Launch
import proofs.«424828_j6554120094214_2_alg».proof.Proof.Gen.KernelIdeal.Skeleton
import proofs.«424828_j6554120094214_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic
set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

abbrev r9_0 : Rect S10000x64 := Rect.unit (s := S10000x64) ![0, 0] S10000x64.size inb_S10000x64_S10000x64_0_0

abbrev r9_1 : Rect S10000x1 := Rect.unit (s := S10000x1) ![0, 0] S10000x1.size inb_S10000x1_S10000x1_0_0

theorem zeros9 : (![0, 0] : Fin 2 → Nat) = fun _ => 0 := funext fun a => by fin_cases a <;> rfl

def out9_2 (x0 : Vec F S10000x64 .f32) (x1 : Vec F S10000x1 .f32) : Vec F S10000x64 .f32 :=
  View.canon [⟨r9_0, k9_pay1 (View.ld x0 r9_0) (View.ld x1 r9_1)⟩]

theorem cover9_2 (p0 : Vec F S10000x64 .f32) (y : S10000x64.Idx) :
    ∃ pc ∈ ([⟨r9_0, p0⟩] : List (View.Piece (Elt F) S10000x64 .f32)), y ∈ pc.1.set :=
  ⟨_, List.mem_singleton_self _, View.mem_set_unit_zero zeros9 inb_S10000x64_S10000x64_0_0 y⟩

set_option maxHeartbeats 1000000 in
theorem sound_kernel9 (c : Dev nD) (E : Set ℕ) (i : grid9.Coords) (arg1 : Memref sig .tc .vmem S10000x64 .f32) (harg1 : arg1.IsWhole) (arg2 : Memref sig .tc .vmem S10000x1 .f32) (harg2 : arg2.IsWhole) (arg3 : Memref sig .tc .vmem S10000x64 .f32) (harg3 : arg3.IsWhole)
    (x0 : Vec F S10000x64 .f32) (x1 : Vec F S10000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out9_2 x0 x1)) -∗ K ⟨⟩))
      ⊢ wp frame (wpE (defs₀ (F := F)) Variants.none c none) E (cc9__scale_kernel i arg1 harg1 arg2 harg2 arg3 harg3) K := by
  simp only [cc9__scale_kernel_eq_skeleton]; unfold cc9__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem Phi_in9 (c : Dev nD) : (dat9 V c).Φ 0 = Pipeline.ΦA spec9 c := by
  dsimp only [dat9]

theorem Phi_out9 (c : Dev nD) : (dat9 V c).Φ (Fin.last _) ⊢ Pipeline.ΦA spec9 c := by
  dsimp only [dat9]; exact BIBase.Entails.rfl

theorem owed9 (c : Dev nD) : ∀ x, (dat9 V c).owed x = 0 := fun _ => by dsimp only [dat9]

theorem share9 (c : Dev nD) : ∀ w, (dat9 V c).q w = fullShare := fun _ => by dsimp only [dat9]

theorem recorded9 (c : Dev nD) : ∀ t, (dat9 V c).recorded t = Set.univ := fun _ => rfl

theorem after9_0 (c : Dev nD) (t : Fin cfg9.N) : (dat9 V c).after 0 t = iblk9 V c 0 t := by dsimp only [dat9]

theorem after9_1 (c : Dev nD) (t : Fin cfg9.N) : (dat9 V c).after 1 t = iblk9 V c 1 t := by dsimp only [dat9]

theorem after9_2 (c : Dev nD) (t : Fin cfg9.N) : (dat9 V c).after 2 t = out9_2 (iblk9 V c 0 t) (iblk9 V c 1 t) := by dsimp only [dat9]

theorem before9_0 (c : Dev nD) (t : Fin cfg9.N) (d) : (dat9 V c).before 0 t d = iblk9 V c 0 t :=
  before9_0_of V (dat9 V c) (A_eq9 V c 0) (after9_0 V c) t d

theorem before9_1 (c : Dev nD) (t : Fin cfg9.N) (d) : (dat9 V c).before 1 t d = iblk9 V c 1 t :=
  before9_1_of V (dat9 V c) (A_eq9 V c 1) (after9_1 V c) t d

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ (grid9.coords t) _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation9 (c : Dev nD) : BodyObligation (dat9 (F := F) V c) (defs₀ (F := F)) Variants.none () Set.univ := fun t => by
  rw [bigSep_W9, bigSep_W9]
  exact sound_body9 V c t

def res9_2 (h : Vec F S1100000x64 .f32) (n : Vec F S1100000x1 .f32) : Vec F S1100000x64 .f32 :=
  fun i => FloatOps.mulf (h i) (n (ValueIdx.ix2 (i 0) (0 : Fin 1)))

theorem pay9_apply (x0 : Vec F S10000x64 .f32) (x1 : Vec F S10000x1 .f32) (j : S10000x64.Idx) :
    k9_pay1 x0 x1 j = FloatOps.mulf (x0 j) (x1 (ValueIdx.ix2 (j 0) (0 : Fin 1))) := by
  unfold k9_pay1
  simp only [shapeCast_self]
  show FloatOps.mulf (x0 j) (broadcastTo S10000x64 x1 broadcasts_S10000x1_S10000x64 j) = _
  refine congrArg (FloatOps.mulf (x0 j)) ?_
  refine broadcastTo_apply x1 _ j _ (fun a => ?_)
  match a with
  | ⟨0, _⟩ => rfl
  | ⟨1, _⟩ => rfl

theorem block_read9 (A0 : Vec F S1100000x64 .f32) (A1 : Vec F S1100000x1 .f32)
    (x0 : Vec F S10000x64 .f32) (x1 : Vec F S10000x1 .f32) (b : ℕ)
    (h0 : ∀ (j : S10000x64.Idx) (k : S1100000x64.Idx), (k 0).val = b * 10000 + (j 0).val → (k 1).val = (j 1).val → x0 j = A0 k)
    (h1 : ∀ (j : S10000x1.Idx) (k : S1100000x1.Idx), (k 0).val = b * 10000 + (j 0).val → x1 j = A1 k)
    (j : S10000x64.Idx) (k : S1100000x64.Idx) (hk0 : (k 0).val = b * 10000 + (j 0).val) (hk1 : (k 1).val = (j 1).val) :
    k9_pay1 x0 x1 j = res9_2 A0 A1 k := by
  rw [pay9_apply]
  unfold res9_2
  rw [h0 j k hk0 hk1, h1 (ValueIdx.ix2 (j 0) (0 : Fin 1)) (ValueIdx.ix2 (k 0) (0 : Fin 1)) hk0]

theorem idx_facts9 : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0 :=
  (by decide +kernel : ∀ t : Fin grid9.N, _)

theorem iblk9_0_apply (c : Dev nD) (t : Fin cfg9.N) (j : S10000x64.Idx) (k : S1100000x64.Idx)
    (hk0 : (k 0).val = t.val * 10000 + (j 0).val) (hk1 : (k 1).val = (j 1).val) :
    (iblk9 V c 0 t : Vec F S10000x64 .f32) j = (V c (Pipeline.arrRef spec9 0) : Vec F S1100000x64 .f32) k := by
  obtain ⟨e0, e1, -⟩ := idx_facts9 t
  show (V c (Pipeline.arrRef spec9 0) : Vec F S1100000x64 .f32) (((cfg9.win 0).blk t).view.emb j) = _
  refine congrArg (V c (Pipeline.arrRef spec9 0) : Vec F S1100000x64 .f32) ?_
  funext a
  apply Fin.ext
  match a with
  | ⟨0, _⟩ => show win9_0.index t (0 : Fin 2) * 10000 + 1 * (j 0).val = (k 0).val; rw [e0, hk0]; omega
  | ⟨1, _⟩ => show win9_0.index t (1 : Fin 2) * 64 + 1 * (j 1).val = (k 1).val; rw [e1, hk1]; omega

theorem iblk9_1_apply (c : Dev nD) (t : Fin cfg9.N) (j : S10000x1.Idx) (k : S1100000x1.Idx)
    (hk0 : (k 0).val = t.val * 10000 + (j 0).val) :
    (iblk9 V c 1 t : Vec F S10000x1 .f32) j = (V c (Pipeline.arrRef spec9 1) : Vec F S1100000x1 .f32) k := by
  obtain ⟨-, -, e2, e3, -⟩ := idx_facts9 t
  show (V c (Pipeline.arrRef spec9 1) : Vec F S1100000x1 .f32) (((cfg9.win 1).blk t).view.emb j) = _
  refine congrArg (V c (Pipeline.arrRef spec9 1) : Vec F S1100000x1 .f32) ?_
  funext a
  apply Fin.ext
  have hj1 : (j 1).val < 1 := (j 1).isLt
  have hk1 : (k 1).val < 1 := (k 1).isLt
  match a with
  | ⟨0, _⟩ => show win9_1.index t (0 : Fin 2) * 10000 + 1 * (j 0).val = (k 0).val; rw [e2, hk0]; omega
  | ⟨1, _⟩ => show win9_1.index t (1 : Fin 2) * 1 + 1 * (j 1).val = (k 1).val; rw [e3]; omega

theorem flushed9_2_eq (c : Dev nD) (t : Fin cfg9.N) :
    (dat9 V c).flushed 2 t = ((cfg9.win 2).blk t).view.read (Elt F) (res9_2 (V c (Pipeline.arrRef spec9 0)) (V c (Pipeline.arrRef spec9 1))) := by
  show (cfg9.win 2).cut (grid9.coords t) ((dat9 V c).after 2 t) = _
  rw [after9_2]
  unfold out9_2
  rw [View.canon_unit_zero zeros9]
  simp only [View.ld_unit_zero (S := S10000x64) zeros9, View.ld_unit_zero (S := S10000x1) zeros9]
  obtain ⟨-, -, -, -, e4, e5⟩ := idx_facts9 t
  funext j
  show k9_pay1 (iblk9 V c 0 t) (iblk9 V c 1 t) j = res9_2 (V c (Pipeline.arrRef spec9 0)) (V c (Pipeline.arrRef spec9 1)) (((cfg9.win 2).blk t).view.emb j)
  refine block_read9 _ _ _ _ t.val (fun j k => iblk9_0_apply V c t j k) (fun j k => iblk9_1_apply V c t j k) _ _ ?_ ?_
  · show win9_2.index t (0 : Fin 2) * 10000 + 1 * (j 0).val = _; rw [e4]; omega
  · show win9_2.index t (1 : Fin 2) * 64 + 1 * (j 1).val = _; rw [e5]; omega

theorem mem_blk9_2 (t : Fin cfg9.N) (i : S1100000x64.Idx) :
    i ∈ ((cfg9.win 2).blk t).view.set ↔ ∀ a : Fin 2, win9_2.index t a * S10000x64.size a ≤ (i a).val ∧ (i a).val < win9_2.index t a * S10000x64.size a + S10000x64.size a := by
  show i ∈ ((View.whole (Pipeline.arrRef spec9 2)).slice (win9_2.rect t)).set ↔ _
  rw [View.set_slice_whole, Rect.mem_set_unit]
  exact Iff.rfl

theorem tiled9_2 (i : S1100000x64.Idx) :
    ∃ t : Fin cfg9.N, (cfg9.win 2).flush t = true ∧ i ∈ ((cfg9.win 2).blk t).view.set := by
  have hi0 : (i 0).val < 1100000 := (i 0).isLt
  have hi1 : (i 1).val < 64 := (i 1).isLt
  have hN : cfg9.N = 110 := N_9
  have ht : (i 0).val / 10000 < cfg9.N := by rw [hN]; omega
  obtain ⟨-, -, -, -, e4, e5⟩ := idx_facts9 ⟨(i 0).val / 10000, ht⟩
  refine ⟨⟨(i 0).val / 10000, ht⟩, flush9_2 _, ?_⟩
  rw [mem_blk9_2]
  intro a
  match a with
  | ⟨0, _⟩ =>
    show win9_2.index ⟨(i 0).val / 10000, ht⟩ (0 : Fin 2) * 10000 ≤ (i 0).val ∧ (i 0).val < win9_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win9_2.index ⟨(i 0).val / 10000, ht⟩ (1 : Fin 2) * 64 ≤ (i 1).val ∧ (i 1).val < win9_2.index ⟨(i 0).val / 10000, ht⟩ (1 : Fin 2) * 64 + 64
    rw [e5]; omega

theorem final9_2 (c : Dev nD) :
    (dat9 V c).arrAt 2 cfg9.N = res9_2 (V c (Pipeline.arrRef spec9 0)) (V c (Pipeline.arrRef spec9 1)) :=
  (dat9 V c).arrAt_eq_of_cover 2 _ (fun t _ => flushed9_2_eq V c t) tiled9_2

theorem res9_2_apply (h : Vec Ideal S1100000x64 .f32) (n : Vec Ideal S1100000x1 .f32) (e : Fin 1100000) (f : Fin 64) :
    res9_2 h n (ValueIdx.ix2 e f) = h (ValueIdx.ix2 e f) * n (ValueIdx.ix2 e (0 : Fin 1)) := rfl

end Cert.KernelIdeal.Hand

end
-- ==== Proof.KI.Reg10.lean ====
import proofs.«424828_j6554120094214_2_alg».proof.Proof.Gen.KernelIdeal.Launch
import proofs.«424828_j6554120094214_2_alg».proof.Proof.Gen.KernelIdeal.Skeleton
import proofs.«424828_j6554120094214_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.ValueIdx
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ

theorem hz10 : (![0, 0] : Fin 2 → Nat) = fun _ => 0 := funext fun a => by fin_cases a <;> rfl

theorem read_writes_whole10 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

abbrev cond10_0 (i : grid10.Coords) : Prop := (Scalar.cmpi .ne (Scalar.extui (Scalar.cmpi .eq (BitVec.ofNat 32 (i 0).val) 0#32)) 0#32) = 1#1

theorem hcond10_0 : ∀ t : Fin cfg10.N, cond10_0 (grid10.coords t) ↔ t.val = 0 :=
  (by decide +kernel : ∀ t : Fin grid10.N, cond10_0 (grid10.coords t) ↔ t.val = 0)

abbrev cond10_1 (i : grid10.Coords) : Prop := k10_cond2 i = 1#1

theorem hcond10_1 : ∀ t : Fin cfg10.N, cond10_1 (grid10.coords t) ↔ t.val = 9 :=
  (by decide +kernel : ∀ t : Fin grid10.N, cond10_1 (grid10.coords t) ↔ t.val = 9)

set_option maxHeartbeats 1000000 in
theorem sound_kernel10_A (c : Dev nD) (E : Set ℕ) (i : grid10.Coords)
    (arg1 : Memref sig .tc .vmem S10000x64 .f32) (harg1 : arg1.IsWhole) (arg2 : Memref sig .tc .vmem S1x64 .f32) (harg2 : arg2.IsWhole)
    (arg3 : Memref sig .tc .vmem S10000x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (hc0 : cond10_0 i) (hc1 : ¬cond10_1 i)
    (x0 : Vec F S10000x64 .f32) (x1 : Vec F S1x64 .f32) (xi3 : Vec F S1x64 .f32) (xi4 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ owns (c : Thread nD τ) arg5 fullShare xi4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (k10_pay3 x0 x1)
            ∗ owns (c : Thread nD τ) arg4 fullShare xi3 ∗ owns (c : Thread nD τ) arg5 fullShare xi4
            ∗ owns (c : Thread nD τ) arg6 fullShare (k10_pay4 x0 x1 (k10_pay1 (F := F))) ∗ owns (c : Thread nD τ) arg7 fullShare (k10_pay5 x0 x1 (k10_pay2 (F := F)))) -∗ K ⟨⟩))
      ⊢ wp frame (wpE (defs₀ (F := F)) Variants.none c none) E (cc10__bias_relu_stats_kernel i arg1 harg1 arg2 harg2 arg3 harg3 arg4 harg4 arg5 harg5 arg6 harg6 arg7 harg7) K := by
  simp only [cc10__bias_relu_stats_kernel_eq_skeleton]; unfold cc10__bias_relu_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%d5, %f5, -, H5⟩, ⟨%d6, %f6, -, H6⟩, Hk⟩
  subst hf0; subst hf1; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_writes_whole10 _ _ hz10 _ _ _).trans ?_
    simp only [View.readAt_eq_ld, View.ld_unit_zero (S := S10000x64) hz10, View.ld_unit_zero (S := S1x64) hz10]
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_writes_whole10 _ _ hz10 _ _ _).trans ?_
    sl_unfold_words
    simp only [View.readAt_eq_ld, View.ld_unit_zero (S := S10000x64) hz10, View.ld_unit_zero (S := S1x64) hz10, View.readCov_unit_zero (S := S1x64) _ hz10]
  iexists _; isplitr
  swap; · iexact H6
  ipureintro
  refine (read_writes_whole10 _ _ hz10 _ _ _).trans ?_
  sl_unfold_words
  simp only [View.readAt_eq_ld, View.ld_unit_zero (S := S10000x64) hz10, View.ld_unit_zero (S := S1x64) hz10, View.readCov_unit_zero (S := S1x64) _ hz10]

set_option maxHeartbeats 1000000 in
theorem sound_kernel10_B (c : Dev nD) (E : Set ℕ) (i : grid10.Coords)
    (arg1 : Memref sig .tc .vmem S10000x64 .f32) (harg1 : arg1.IsWhole) (arg2 : Memref sig .tc .vmem S1x64 .f32) (harg2 : arg2.IsWhole)
    (arg3 : Memref sig .tc .vmem S10000x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (hc0 : ¬cond10_0 i) (hc1 : ¬cond10_1 i)
    (x0 : Vec F S10000x64 .f32) (x1 : Vec F S1x64 .f32) (xi3 : Vec F S1x64 .f32) (xi4 : Vec F S1x64 .f32)
    (xs0 : Vec F S1x64 .f32) (xs1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ owns (c : Thread nD τ) arg5 fullShare xi4
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare (k10_pay3 x0 x1)
            ∗ owns (c : Thread nD τ) arg4 fullShare xi3 ∗ owns (c : Thread nD τ) arg5 fullShare xi4
            ∗ owns (c : Thread nD τ) arg6 fullShare (k10_pay4 x0 x1 xs0) ∗ owns (c : Thread nD τ) arg7 fullShare (k10_pay5 x0 x1 xs1)) -∗ K ⟨⟩))
      ⊢ wp frame (wpE (defs₀ (F := F)) Variants.none c none) E (cc10__bias_relu_stats_kernel i arg1 harg1 arg2 harg2 arg3 harg3 arg4 harg4 arg5 harg5 arg6 harg6 arg7 harg7) K := by
  simp only [cc10__bias_relu_stats_kernel_eq_skeleton]; unfold cc10__bias_relu_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%f5, %hf5, H5⟩, ⟨%f6, %hf6, H6⟩, Hk⟩
  subst hf0; subst hf1; subst hf3; subst hf4; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_writes_whole10 _ _ hz10 _ _ _).trans ?_
    simp only [View.readAt_eq_ld, View.ld_unit_zero (S := S10000x64) hz10, View.ld_unit_zero (S := S1x64) hz10, View.readCov_unit_zero (S := S1x64) _ hz10]
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_writes_whole10 _ _ hz10 _ _ _).trans ?_
    simp only [View.readAt_eq_ld, View.ld_unit_zero (S := S10000x64) hz10, View.ld_unit_zero (S := S1x64) hz10, View.readCov_unit_zero (S := S1x64) _ hz10]
  iexists _; isplitr
  swap; · iexact H6
  ipureintro
  refine (read_writes_whole10 _ _ hz10 _ _ _).trans ?_
  simp only [View.readAt_eq_ld, View.ld_unit_zero (S := S10000x64) hz10, View.ld_unit_zero (S := S1x64) hz10, View.readCov_unit_zero (S := S1x64) _ hz10]

set_option maxHeartbeats 1000000 in
theorem sound_kernel10_C (c : Dev nD) (E : Set ℕ) (i : grid10.Coords)
    (arg1 : Memref sig .tc .vmem S10000x64 .f32) (harg1 : arg1.IsWhole) (arg2 : Memref sig .tc .vmem S1x64 .f32) (harg2 : arg2.IsWhole)
    (arg3 : Memref sig .tc .vmem S10000x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (hc0 : ¬cond10_0 i) (hc1 : cond10_1 i)
    (x0 : Vec F S10000x64 .f32) (x1 : Vec F S1x64 .f32)
    (xs0 : Vec F S1x64 .f32) (xs1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare (k10_pay3 x0 x1)
            ∗ owns (c : Thread nD τ) arg4 fullShare (k10_pay4 x0 x1 xs0) ∗ owns (c : Thread nD τ) arg5 fullShare (k10_pay5 x0 x1 xs1)
            ∗ owns (c : Thread nD τ) arg6 fullShare (k10_pay4 x0 x1 xs0) ∗ owns (c : Thread nD τ) arg7 fullShare (k10_pay5 x0 x1 xs1)) -∗ K ⟨⟩))
      ⊢ wp frame (wpE (defs₀ (F := F)) Variants.none c none) E (cc10__bias_relu_stats_kernel i arg1 harg1 arg2 harg2 arg3 harg3 arg4 harg4 arg5 harg5 arg6 harg6 arg7 harg7) K := by
  simp only [cc10__bias_relu_stats_kernel_eq_skeleton]; unfold cc10__bias_relu_stats_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%f6, %hf6, H6⟩, Hk⟩
  subst hf0; subst hf1; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_writes_whole10 _ _ hz10 _ _ _).trans ?_
    simp only [View.readAt_eq_ld, View.ld_unit_zero (S := S10000x64) hz10, View.ld_unit_zero (S := S1x64) hz10, View.readCov_unit_zero (S := S1x64) _ hz10]
  isplitl [H3]
  · iexists _; isplitr
    swap; · iexact H3
    ipureintro
    refine (read_writes_whole10 _ _ hz10 _ _ _).trans ?_
    sl_unfold_words
    simp only [View.readAt_eq_ld, View.ld_unit_zero (S := S10000x64) hz10, View.ld_unit_zero (S := S1x64) hz10, View.readCov_unit_zero (S := S1x64) _ hz10]
  isplitl [H4]
  · iexists _; isplitr
    swap; · iexact H4
    ipureintro
    refine (read_writes_whole10 _ _ hz10 _ _ _).trans ?_
    sl_unfold_words
    simp only [View.readAt_eq_ld, View.ld_unit_zero (S := S10000x64) hz10, View.ld_unit_zero (S := S1x64) hz10, View.readCov_unit_zero (S := S1x64) _ hz10]
  isplitl [H5]
  · iexists _; isplitr
    swap; · iexact H5
    ipureintro
    refine (read_writes_whole10 _ _ hz10 _ _ _).trans ?_
    simp only [View.readAt_eq_ld, View.ld_unit_zero (S := S10000x64) hz10, View.ld_unit_zero (S := S1x64) hz10, View.readCov_unit_zero (S := S1x64) _ hz10]
  iexists _; isplitr
  swap; · iexact H6
  ipureintro
  refine (read_writes_whole10 _ _ hz10 _ _ _).trans ?_
  simp only [View.readAt_eq_ld, View.ld_unit_zero (S := S10000x64) hz10, View.ld_unit_zero (S := S1x64) hz10, View.readCov_unit_zero (S := S1x64) _ hz10]

theorem liveAt10_0 : ∀ t : Fin cfg10.N, cfg10.idle 0 (grid10.coords t) = false := fun _ => rfl

theorem liveAt10_1 : ∀ t : Fin cfg10.N, cfg10.idle 1 (grid10.coords t) = false := fun _ => rfl

theorem liveAt10_2 : ∀ t : Fin cfg10.N, cfg10.idle 2 (grid10.coords t) = false := fun _ => rfl

theorem idleAt10_3 : ∀ t : Fin cfg10.N, ¬cond10_1 (grid10.coords t) → cfg10.idle 3 (grid10.coords t) = true := by decide +kernel

theorem noFlush10_3 : ∀ t : Fin cfg10.N, ¬cond10_1 (grid10.coords t) → (cfg10.win 3).flush t = false := by decide +kernel

theorem liveAt10_3 : ∀ t : Fin cfg10.N, cond10_1 (grid10.coords t) → cfg10.idle 3 (grid10.coords t) = false := by decide +kernel

theorem idleAt10_4 : ∀ t : Fin cfg10.N, ¬cond10_1 (grid10.coords t) → cfg10.idle 4 (grid10.coords t) = true := by decide +kernel

theorem noFlush10_4 : ∀ t : Fin cfg10.N, ¬cond10_1 (grid10.coords t) → (cfg10.win 4).flush t = false := by decide +kernel

theorem liveAt10_4 : ∀ t : Fin cfg10.N, cond10_1 (grid10.coords t) → cfg10.idle 4 (grid10.coords t) = false := by decide +kernel

def rows10 (agg : Vec F S100000x64 .f32) (t : Fin 10) : Vec F S10000x64 .f32 :=
  fun y => agg (ValueIdx.ix2 (⟨10000 * t.val + (y 0).val, by
    have h0 : (y 0).val < 10000 := (y 0).isLt
    have ht : t.val < 10 := t.isLt
    omega⟩ : Fin 100000) (y 1))

def res10_2 (agg : Vec F S100000x64 .f32) (b : Vec F S1x64 .f32) : Vec F S100000x64 .f32 :=
  fun i => k10_pay3 (rows10 agg ⟨(i 0).val / 10000, by
      have h0 : (i 0).val < 100000 := (i 0).isLt
      omega⟩) b
    (ValueIdx.ix2 (⟨(i 0).val % 10000, Nat.mod_lt _ (by decide)⟩ : Fin 10000) (i 1))

def accR10_0 (agg : Vec F S100000x64 .f32) (b : Vec F S1x64 .f32) : (n : ℕ) → n < 10 → Vec F S1x64 .f32
  | 0, h => k10_pay4 (rows10 agg ⟨0, h⟩) b (k10_pay1 (F := F))
  | n + 1, h => k10_pay4 (rows10 agg ⟨n + 1, h⟩) b (accR10_0 agg b n (Nat.lt_of_succ_lt h))

def accR10_1 (agg : Vec F S100000x64 .f32) (b : Vec F S1x64 .f32) : (n : ℕ) → n < 10 → Vec F S1x64 .f32
  | 0, h => k10_pay5 (rows10 agg ⟨0, h⟩) b (k10_pay2 (F := F))
  | n + 1, h => k10_pay5 (rows10 agg ⟨n + 1, h⟩) b (accR10_1 agg b n (Nat.lt_of_succ_lt h))

theorem accR10_0_succ (agg : Vec F S100000x64 .f32) (b : Vec F S1x64 .f32) (n : ℕ) (h : n + 1 < 10) :
    accR10_0 agg b (n + 1) h = k10_pay4 (rows10 agg ⟨n + 1, h⟩) b (accR10_0 agg b n (Nat.lt_of_succ_lt h)) := rfl

theorem accR10_1_succ (agg : Vec F S100000x64 .f32) (b : Vec F S1x64 .f32) (n : ℕ) (h : n + 1 < 10) :
    accR10_1 agg b (n + 1) h = k10_pay5 (rows10 agg ⟨n + 1, h⟩) b (accR10_1 agg b n (Nat.lt_of_succ_lt h)) := rfl

def res10_3 (agg : Vec F S100000x64 .f32) (b : Vec F S1x64 .f32) : Vec F S1x64 .f32 := accR10_0 agg b 9 (by decide)

def res10_4 (agg : Vec F S100000x64 .f32) (b : Vec F S1x64 .f32) : Vec F S1x64 .f32 := accR10_1 agg b 9 (by decide)

theorem res10_2_at (agg : Vec F S100000x64 .f32) (b : Vec F S1x64 .f32) (t : Fin 10) (y : S10000x64.Idx) (i : S100000x64.Idx)
    (h0 : (i 0).val = 10000 * t.val + (y 0).val) (h1 : (i 1).val = (y 1).val) :
    res10_2 agg b i = k10_pay3 (rows10 agg t) b y := by
  have hy : (y 0).val < 10000 := (y 0).isLt
  have hq : (⟨(i 0).val / 10000, by have h0 : (i 0).val < 100000 := (i 0).isLt; omega⟩ : Fin 10) = t := Fin.ext (by show (i 0).val / 10000 = t.val; omega)
  have hr : ValueIdx.ix2 (⟨(i 0).val % 10000, Nat.mod_lt _ (by decide)⟩ : Fin 10000) (i 1) = y := by
    funext a
    match a with
    | ⟨0, _⟩ => exact Fin.ext (by show (i 0).val % 10000 = (y 0).val; omega)
    | ⟨1, _⟩ => exact Fin.ext h1
  show k10_pay3 (rows10 agg _) b _ = _
  rw [hq]
  exact congrArg (k10_pay3 (rows10 agg t) b) hr

theorem idx_facts10 : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0 :=
  (by decide +kernel : ∀ t : Fin grid10.N, _)

section Region2

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

abbrev xb10 (c : Dev nD) (t : Fin cfg10.N) : Vec F S10000x64 .f32 := iblk10 V c 0 t

abbrev bb10 (c : Dev nD) (t : Fin cfg10.N) : Vec F S1x64 .f32 := iblk10 V c 1 t

theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

def acc10_0 (c : Dev nD) : (n : ℕ) → n < cfg10.N → Vec F S1x64 .f32
  | 0, h => k10_pay4 (xb10 V c ⟨0, h⟩) (bb10 V c ⟨0, h⟩) (k10_pay1 (F := F))
  | n + 1, h => k10_pay4 (xb10 V c ⟨n + 1, h⟩) (bb10 V c ⟨n + 1, h⟩) (acc10_0 c n (Nat.lt_of_succ_lt h))

def acc10_1 (c : Dev nD) : (n : ℕ) → n < cfg10.N → Vec F S1x64 .f32
  | 0, h => k10_pay5 (xb10 V c ⟨0, h⟩) (bb10 V c ⟨0, h⟩) (k10_pay2 (F := F))
  | n + 1, h => k10_pay5 (xb10 V c ⟨n + 1, h⟩) (bb10 V c ⟨n + 1, h⟩) (acc10_1 c n (Nat.lt_of_succ_lt h))

theorem acc10_0_zero (c : Dev nD) (t : Fin cfg10.N) (h : t.val = 0) :
    acc10_0 V c t.val t.isLt = k10_pay4 (xb10 V c t) (bb10 V c t) (k10_pay1 (F := F)) := by
  obtain ⟨n, hn⟩ := t
  cases n with
  | zero => rfl
  | succ n => exact absurd h (Nat.succ_ne_zero n)

theorem acc10_0_pos (c : Dev nD) (t : Fin cfg10.N) (h : t.val ≠ 0) :
    acc10_0 V c t.val t.isLt = k10_pay4 (xb10 V c t) (bb10 V c t) (acc10_0 V c (t.val - 1) (Nat.lt_of_le_of_lt (Nat.sub_le _ _) t.isLt)) := by
  obtain ⟨n, hn⟩ := t
  cases n with
  | zero => exact absurd rfl h
  | succ n => rfl

theorem acc10_1_zero (c : Dev nD) (t : Fin cfg10.N) (h : t.val = 0) :
    acc10_1 V c t.val t.isLt = k10_pay5 (xb10 V c t) (bb10 V c t) (k10_pay2 (F := F)) := by
  obtain ⟨n, hn⟩ := t
  cases n with
  | zero => rfl
  | succ n => exact absurd h (Nat.succ_ne_zero n)

theorem acc10_1_pos (c : Dev nD) (t : Fin cfg10.N) (h : t.val ≠ 0) :
    acc10_1 V c t.val t.isLt = k10_pay5 (xb10 V c t) (bb10 V c t) (acc10_1 V c (t.val - 1) (Nat.lt_of_le_of_lt (Nat.sub_le _ _) t.isLt)) := by
  obtain ⟨n, hn⟩ := t
  cases n with
  | zero => exact absurd rfl h
  | succ n => rfl

abbrev scM10_0 : Memref sig .tc .vmem S1x64 .f32 := Memref.whole cc10_scratch0

abbrev scM10_1 : Memref sig .tc .vmem S1x64 .f32 := Memref.whole cc10_scratch1

abbrev rest10 (c : Dev nD) : sProp 𝕄 :=
  Pipeline.scopedRestBut (Ix := Unit) (Name := ℕ) (U := UR sig nD τ) (Lvl := ℕ) (Val := Elt F) spec10 c [cc10_scratch0, cc10_scratch1]

theorem PhiA10_eq (c : Dev nD) :
    (Pipeline.ΦA spec10 c : sProp 𝕄)
      = iprop(iprop(iprop((∃ d, owns (c : Thread nD τ) scM10_0 fullShare d) ∗ (∃ d, owns (c : Thread nD τ) scM10_1 fullShare d)) ∗ rest10 c) ∗ (∃ r, prngReg c r)) := by
  unfold Pipeline.ΦA; rw [scopedRest10_split]; simp only [scM10_0, scM10_1, owns_whole]; try rfl

def Phi10 (c : Dev nD) : (n : ℕ) → n ≤ cfg10.N → sProp 𝕄
  | 0, _ => Pipeline.ΦA spec10 c
  | n + 1, hn => iprop(iprop(iprop(owns (c : Thread nD τ) scM10_0 fullShare (acc10_0 V c n hn) ∗ owns (c : Thread nD τ) scM10_1 fullShare (acc10_1 V c n hn)) ∗ rest10 c) ∗ (∃ r, prngReg c r))

theorem Phi10_zero (c : Dev nD) (n : ℕ) (h : n ≤ cfg10.N) (hz : n = 0) : Phi10 V c n h = Pipeline.ΦA spec10 c := by
  subst hz; rfl

theorem Phi10_succ (c : Dev nD) (n : ℕ) (hn : n < cfg10.N) :
    Phi10 V c (n + 1) hn = iprop(iprop(iprop(owns (c : Thread nD τ) scM10_0 fullShare (acc10_0 V c n hn) ∗ owns (c : Thread nD τ) scM10_1 fullShare (acc10_1 V c n hn)) ∗ rest10 c) ∗ (∃ r, prngReg c r)) := rfl

theorem Phi10_pos (c : Dev nD) (n : ℕ) (h : n ≤ cfg10.N) (hz : n ≠ 0) :
    Phi10 V c n h = iprop(iprop(iprop(owns (c : Thread nD τ) scM10_0 fullShare (acc10_0 V c (n - 1) (by omega)) ∗ owns (c : Thread nD τ) scM10_1 fullShare (acc10_1 V c (n - 1) (by omega))) ∗ rest10 c) ∗ (∃ r, prngReg c r)) := by
  cases n with
  | zero => exact absurd rfl hz
  | succ n => rfl

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => k10_pay3 (xb10 V c t) (bb10 V c t)
    | ⟨3, _⟩ => acc10_0 V c t.val t.isLt
    | ⟨4, _⟩ => acc10_1 V c t.val t.isLt
  Φ t := Phi10 V c t.val (Nat.le_of_lt_succ t.isLt)
  q _ := fullShare
  owed _ := 0

theorem A_eq10 (c : Dev nD) (w : Fin cfg10.W) : (dat10 V c).A w = V c (Pipeline.arrRef spec10 w) := by
  dsimp only [dat10]

theorem Phi_in10 (c : Dev nD) : (dat10 V c).Φ 0 = Pipeline.ΦA spec10 c := rfl

theorem owed10 (c : Dev nD) : ∀ x, (dat10 V c).owed x = 0 := fun _ => rfl

theorem share10 (c : Dev nD) : ∀ w, (dat10 V c).q w = fullShare := fun _ => rfl

theorem recorded10 (c : Dev nD) : ∀ t, (dat10 V c).recorded t = Set.univ := fun _ => rfl

theorem Phi10_castSucc (c : Dev nD) (t : Fin cfg10.N) :
    (dat10 V c).Φ t.castSucc = Phi10 V c t.val (Nat.le_of_lt t.isLt) := by
  dsimp only [dat10]; simp only [Fin.coe_castSucc]

theorem after10_0 (c : Dev nD) (t : Fin cfg10.N) : (dat10 V c).after 0 t = iblk10 V c 0 t := by dsimp only [dat10]

theorem after10_1 (c : Dev nD) (t : Fin cfg10.N) : (dat10 V c).after 1 t = iblk10 V c 1 t := by dsimp only [dat10]

theorem after10_2 (c : Dev nD) (t : Fin cfg10.N) : (dat10 V c).after 2 t = k10_pay3 (xb10 V c t) (bb10 V c t) := by dsimp only [dat10]

theorem after10_3 (c : Dev nD) (t : Fin cfg10.N) : (dat10 V c).after 3 t = acc10_0 V c t.val t.isLt := by dsimp only [dat10]

theorem after10_4 (c : Dev nD) (t : Fin cfg10.N) : (dat10 V c).after 4 t = acc10_1 V c t.val t.isLt := by dsimp only [dat10]

theorem before10_0 (c : Dev nD) (t : Fin cfg10.N) (d) : (dat10 V c).before 0 t d = iblk10 V c 0 t :=
  before10_0_of V (dat10 V c) (A_eq10 V c 0) (after10_0 V c) t d

theorem before10_1 (c : Dev nD) (t : Fin cfg10.N) (d) : (dat10 V c).before 1 t d = iblk10 V c 1 t :=
  before10_1_of V (dat10 V c) (A_eq10 V c 1) (after10_1 V c) t d

theorem Phi_out10 (c : Dev nD) : (dat10 V c).Φ (Fin.last _) ⊢ Pipeline.ΦA spec10 c := by
  rw [show (dat10 V c).Φ (Fin.last _) = Phi10 V c (Fin.last cfg10.N).val (Nat.le_of_lt_succ (Fin.last cfg10.N).isLt) from rfl,
    Phi10_pos V c _ _ (by rw [Fin.val_last]; have : cfg10.N = 10 := N_10; omega), PhiA10_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d)))

def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t
    ∗ (dat10 V c).leavesExact 4 t)

set_option maxHeartbeats 4800000 in
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl]
  rw [show (dat10 V c).Φ t.succ = Phi10 V c (t.val + 1) t.isLt from rfl, Phi10_succ]
  have hN : t.val < 10 := lt_of_lt_of_eq t.isLt (show cfg10.N = 10 from N_10)
  rw [show (dat10 V c).leavesExact 0 t = owns (c : Thread nD τ) (st10_0 t) fullShare ((dat10 V c).after 0 t) from by
    unfold Dat.leavesExact; rw [liveAt10_0 t], after10_0]
  rw [show (dat10 V c).leavesExact 1 t = owns (c : Thread nD τ) (st10_1 t) fullShare ((dat10 V c).after 1 t) from by
    unfold Dat.leavesExact; rw [liveAt10_1 t], after10_1]
  rw [show (dat10 V c).leavesExact 2 t = owns (c : Thread nD τ) (st10_2 t) fullShare ((dat10 V c).after 2 t) from by
    unfold Dat.leavesExact; rw [liveAt10_2 t], after10_2]
  by_cases h0 : t.val = 0
  · have hc0 : cond10_0 (grid10.coords t) := (hcond10_0 t).mpr h0
    have hc1 : ¬cond10_1 (grid10.coords t) := fun h => by have := (hcond10_1 t).mp h; omega
    rw [Dat.leavesExact_idle (dat10 V c) 3 t (idleAt10_3 t hc1) (noFlush10_3 t hc1)]
    rw [Dat.leavesExact_idle (dat10 V c) 4 t (idleAt10_4 t hc1) (noFlush10_4 t hc1)]
    rw [acc10_0_zero V c t h0, acc10_1_zero V c t h0]
    rw [Phi10_castSucc V c t, Phi10_zero V c _ _ h0, PhiA10_eq]
    iintro ⟨⟨⟨⟨HS0, HS1⟩, HR⟩, Hg⟩, Ho, ⟨%d0, H0⟩, ⟨%d1, H1⟩, ⟨%d2, H2⟩, ⟨%d3, H3⟩, ⟨%d4, H4⟩⟩
    iapply (sound_kernel10_A c Set.univ (grid10.coords t) _ _ _ _ _ _ _ _ _ _ _ _ _ _ hc0 hc1 (xb10 V c t) (bb10 V c t) ((dat10 V c).before 3 t d3) ((dat10 V c).before 4 t d4) _)
    isplitl [H0]; · iexact H0
    isplitl [H1]; · iexact H1
    isplitl [H2]; · iexists _; iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexists _; iexact H3
    iexists _; iexact H4
  · have hc0 : ¬cond10_0 (grid10.coords t) := fun h => h0 ((hcond10_0 t).mp h)
    rw [acc10_0_pos V c t h0, acc10_1_pos V c t h0]
    rw [Phi10_castSucc V c t, Phi10_pos V c _ _ h0]
    by_cases h1 : t.val = 9
    · have hc1 : cond10_1 (grid10.coords t) := (hcond10_1 t).mpr h1
      rw [show (dat10 V c).leavesExact 3 t = owns (c : Thread nD τ) (st10_3 t) fullShare ((dat10 V c).after 3 t) from by
        unfold Dat.leavesExact; rw [liveAt10_3 t hc1], after10_3, acc10_0_pos V c t h0]
      rw [show (dat10 V c).leavesExact 4 t = owns (c : Thread nD τ) (st10_4 t) fullShare ((dat10 V c).after 4 t) from by
        unfold Dat.leavesExact; rw [liveAt10_4 t hc1], after10_4, acc10_1_pos V c t h0]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (sound_kernel10_C c Set.univ (grid10.coords t) _ _ _ _ _ _ _ _ _ _ _ _ _ _ hc0 hc1 (xb10 V c t) (bb10 V c t) (acc10_0 V c (t.val - 1) (Nat.lt_of_le_of_lt (Nat.sub_le _ _) t.isLt)) (acc10_1 V c (t.val - 1) (Nat.lt_of_le_of_lt (Nat.sub_le _ _) t.isLt)) _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      iexact H4
    · have hc1 : ¬cond10_1 (grid10.coords t) := fun h => h1 ((hcond10_1 t).mp h)
      rw [Dat.leavesExact_idle (dat10 V c) 3 t (idleAt10_3 t hc1) (noFlush10_3 t hc1)]
      rw [Dat.leavesExact_idle (dat10 V c) 4 t (idleAt10_4 t hc1) (noFlush10_4 t hc1)]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (sound_kernel10_B c Set.univ (grid10.coords t) _ _ _ _ _ _ _ _ _ _ _ _ _ _ hc0 hc1 (xb10 V c t) (bb10 V c t) ((dat10 V c).before 3 t d3) ((dat10 V c).before 4 t d4) (acc10_0 V c (t.val - 1) (Nat.lt_of_le_of_lt (Nat.sub_le _ _) t.isLt)) (acc10_1 V c (t.val - 1) (Nat.lt_of_le_of_lt (Nat.sub_le _ _) t.isLt)) _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexists _; iexact H3
      iexists _; iexact H4

theorem body_obligation10 (c : Dev nD) : BodyObligation (dat10 (F := F) V c) (defs₀ (F := F)) Variants.none () Set.univ := fun t => by
  rw [bigSep_W10, bigSep_W10]
  exact sound_body10 V c t

abbrev aggA10 (c : Dev nD) : Vec F S100000x64 .f32 := V c (Pipeline.arrRef spec10 0)

abbrev biasA10 (c : Dev nD) : Vec F S1x64 .f32 := V c (Pipeline.arrRef spec10 1)

theorem xb10_eq (c : Dev nD) (t : Fin cfg10.N) : xb10 V c t = rows10 (aggA10 V c) ⟨t.val, lt_of_lt_of_eq t.isLt N_10⟩ := by
  obtain ⟨e0, e1, -⟩ := idx_facts10 t
  funext y
  show V c (Pipeline.arrRef spec10 0) (((cfg10.win 0).blk t).view.emb y) = V c (Pipeline.arrRef spec10 0) (ValueIdx.ix2 (⟨10000 * t.val + (y 0).val, _⟩ : Fin 100000) (y 1))
  refine congrArg _ ?_
  funext a; apply Fin.ext
  match a with
  | ⟨0, _⟩ => show win10_0.index t (0 : Fin 2) * 10000 + 1 * (y 0).val = 10000 * t.val + (y 0).val; omega
  | ⟨1, _⟩ => show win10_0.index t (1 : Fin 2) * 64 + 1 * (y 1).val = (y 1).val; omega

theorem bb10_eq (c : Dev nD) (t : Fin cfg10.N) : bb10 V c t = biasA10 V c := by
  obtain ⟨-, -, e2, e3, -⟩ := idx_facts10 t
  funext y
  show V c (Pipeline.arrRef spec10 1) (((cfg10.win 1).blk t).view.emb y) = V c (Pipeline.arrRef spec10 1) y
  refine congrArg _ ?_
  funext a; apply Fin.ext
  match a with
  | ⟨0, _⟩ => show win10_1.index t (0 : Fin 2) * 1 + 1 * (y 0).val = (y 0).val; omega
  | ⟨1, _⟩ => show win10_1.index t (1 : Fin 2) * 64 + 1 * (y 1).val = (y 1).val; omega

theorem acc10_0_eq (c : Dev nD) : ∀ (n : ℕ) (hn : n < cfg10.N) (hn' : n < 10),
    acc10_0 V c n hn = accR10_0 (aggA10 V c) (biasA10 V c) n hn'
  | 0, hn, hn' => by
    show k10_pay4 (xb10 V c ⟨0, hn⟩) (bb10 V c ⟨0, hn⟩) (k10_pay1 (F := F)) = k10_pay4 (rows10 (aggA10 V c) ⟨0, hn'⟩) (biasA10 V c) (k10_pay1 (F := F))
    rw [xb10_eq, bb10_eq]
  | n + 1, hn, hn' => by
    show k10_pay4 (xb10 V c ⟨n + 1, hn⟩) (bb10 V c ⟨n + 1, hn⟩) (acc10_0 V c n (Nat.lt_of_succ_lt hn))
      = k10_pay4 (rows10 (aggA10 V c) ⟨n + 1, hn'⟩) (biasA10 V c) (accR10_0 (aggA10 V c) (biasA10 V c) n (Nat.lt_of_succ_lt hn'))
    rw [xb10_eq, bb10_eq, acc10_0_eq c n (Nat.lt_of_succ_lt hn) (Nat.lt_of_succ_lt hn')]

theorem acc10_1_eq (c : Dev nD) : ∀ (n : ℕ) (hn : n < cfg10.N) (hn' : n < 10),
    acc10_1 V c n hn = accR10_1 (aggA10 V c) (biasA10 V c) n hn'
  | 0, hn, hn' => by
    show k10_pay5 (xb10 V c ⟨0, hn⟩) (bb10 V c ⟨0, hn⟩) (k10_pay2 (F := F)) = k10_pay5 (rows10 (aggA10 V c) ⟨0, hn'⟩) (biasA10 V c) (k10_pay2 (F := F))
    rw [xb10_eq, bb10_eq]
  | n + 1, hn, hn' => by
    show k10_pay5 (xb10 V c ⟨n + 1, hn⟩) (bb10 V c ⟨n + 1, hn⟩) (acc10_1 V c n (Nat.lt_of_succ_lt hn))
      = k10_pay5 (rows10 (aggA10 V c) ⟨n + 1, hn'⟩) (biasA10 V c) (accR10_1 (aggA10 V c) (biasA10 V c) n (Nat.lt_of_succ_lt hn'))
    rw [xb10_eq, bb10_eq, acc10_1_eq c n (Nat.lt_of_succ_lt hn) (Nat.lt_of_succ_lt hn')]

theorem flushed10_2_eq (c : Dev nD) (t : Fin cfg10.N) :
    (dat10 V c).flushed 2 t = ((cfg10.win 2).blk t).view.read (Elt F) (res10_2 (aggA10 V c) (biasA10 V c)) := by
  obtain ⟨-, -, -, -, e4, e5, -⟩ := idx_facts10 t
  show (cfg10.win 2).cut (grid10.coords t) ((dat10 V c).after 2 t) = _
  rw [after10_2, xb10_eq, bb10_eq]
  funext y
  show k10_pay3 (rows10 (aggA10 V c) ⟨t.val, lt_of_lt_of_eq t.isLt N_10⟩) (biasA10 V c) y
    = res10_2 (aggA10 V c) (biasA10 V c) (((cfg10.win 2).blk t).view.emb y)
  refine (res10_2_at (aggA10 V c) (biasA10 V c) ⟨t.val, lt_of_lt_of_eq t.isLt N_10⟩ y (((cfg10.win 2).blk t).view.emb y) ?_ ?_).symm
  · show win10_2.index t (0 : Fin 2) * 10000 + 1 * (y 0).val = 10000 * t.val + (y 0).val; omega
  · show win10_2.index t (1 : Fin 2) * 64 + 1 * (y 1).val = (y 1).val; omega

theorem mem_blk10_2 (t : Fin cfg10.N) (i : S100000x64.Idx) :
    i ∈ ((cfg10.win 2).blk t).view.set ↔ ∀ a : Fin 2, win10_2.index t a * S10000x64.size a ≤ (i a).val ∧ (i a).val < win10_2.index t a * S10000x64.size a + S10000x64.size a := by
  show i ∈ ((View.whole (Pipeline.arrRef spec10 2)).slice (win10_2.rect t)).set ↔ _
  rw [View.set_slice_whole, Rect.mem_set_unit]
  exact Iff.rfl

theorem cover10_2 (i : S100000x64.Idx) : ∃ t : Fin cfg10.N, (cfg10.win 2).flush t = true ∧ i ∈ ((cfg10.win 2).blk t).view.set := by
  have hi0 : (i 0).val < 100000 := (i 0).isLt
  have hi1 : (i 1).val < 64 := (i 1).isLt
  refine ⟨⟨(i 0).val / 10000, by show _ < grid10.N; rw [N_10]; omega⟩, flush10_2 _, ?_⟩
  rw [mem_blk10_2]
  obtain ⟨-, -, -, -, e4, e5, -⟩ := idx_facts10 ⟨(i 0).val / 10000, by show _ < grid10.N; rw [N_10]; omega⟩
  intro a
  match a with
  | ⟨0, _⟩ =>
    show win10_2.index _ (0 : Fin 2) * 10000 ≤ (i 0).val ∧ (i 0).val < win10_2.index _ (0 : Fin 2) * 10000 + 10000
    rw [e4]; show (i 0).val / 10000 * 10000 ≤ (i 0).val ∧ (i 0).val < (i 0).val / 10000 * 10000 + 10000; omega
  | ⟨1, _⟩ =>
    show win10_2.index _ (1 : Fin 2) * 64 ≤ (i 1).val ∧ (i 1).val < win10_2.index _ (1 : Fin 2) * 64 + 64
    rw [e5]; omega

theorem final10_2 (c : Dev nD) : (dat10 V c).arrAt 2 cfg10.N = res10_2 (V c (Pipeline.arrRef spec10 0)) (V c (Pipeline.arrRef spec10 1)) :=
  (dat10 V c).arrAt_eq_of_cover 2 (res10_2 (aggA10 V c) (biasA10 V c)) (fun t _ => flushed10_2_eq V c t) cover10_2

theorem accR10_0_congr (agg : Vec F S100000x64 .f32) (b : Vec F S1x64 .f32) {n m : ℕ} (h : n = m) (hn : n < 10) (hm : m < 10) :
    accR10_0 agg b n hn = accR10_0 agg b m hm := by subst h; rfl

theorem accR10_1_congr (agg : Vec F S100000x64 .f32) (b : Vec F S1x64 .f32) {n m : ℕ} (h : n = m) (hn : n < 10) (hm : m < 10) :
    accR10_1 agg b n hn = accR10_1 agg b m hm := by subst h; rfl

theorem emb_blk10_3 (t : Fin cfg10.N) (y : S1x64.Idx) : ((cfg10.win 3).blk t).view.emb y = y := by
  obtain ⟨-, -, -, -, -, -, e6, e7, -⟩ := idx_facts10 t
  funext a; apply Fin.ext
  match a with
  | ⟨0, _⟩ => show win10_3.index t (0 : Fin 2) * 1 + 1 * (y 0).val = (y 0).val; omega
  | ⟨1, _⟩ => show win10_3.index t (1 : Fin 2) * 64 + 1 * (y 1).val = (y 1).val; omega

theorem emb_blk10_4 (t : Fin cfg10.N) (y : S1x64.Idx) : ((cfg10.win 4).blk t).view.emb y = y := by
  obtain ⟨-, -, -, -, -, -, -, -, e8, e9⟩ := idx_facts10 t
  funext a; apply Fin.ext
  match a with
  | ⟨0, _⟩ => show win10_4.index t (0 : Fin 2) * 1 + 1 * (y 0).val = (y 0).val; omega
  | ⟨1, _⟩ => show win10_4.index t (1 : Fin 2) * 64 + 1 * (y 1).val = (y 1).val; omega

theorem flushed10_3_eq (c : Dev nD) (t : Fin cfg10.N) (hf : (cfg10.win 3).flush t = true) :
    (dat10 V c).flushed 3 t = ((cfg10.win 3).blk t).view.read (Elt F) (res10_3 (aggA10 V c) (biasA10 V c)) := by
  have hN : t.val < 10 := lt_of_lt_of_eq t.isLt N_10
  have h9 : t.val = 9 := by have := (flush10_3 t).mp hf; omega
  show (cfg10.win 3).cut (grid10.coords t) ((dat10 V c).after 3 t) = _
  rw [after10_3]
  funext y
  show acc10_0 V c t.val t.isLt y = res10_3 (aggA10 V c) (biasA10 V c) (((cfg10.win 3).blk t).view.emb y)
  refine Eq.trans ?_ (congrArg (res10_3 (aggA10 V c) (biasA10 V c)) (emb_blk10_3 t y).symm)
  exact congrFun ((acc10_0_eq V c t.val t.isLt hN).trans (accR10_0_congr _ _ h9 hN (by decide))) y

theorem flushed10_4_eq (c : Dev nD) (t : Fin cfg10.N) (hf : (cfg10.win 4).flush t = true) :
    (dat10 V c).flushed 4 t = ((cfg10.win 4).blk t).view.read (Elt F) (res10_4 (aggA10 V c) (biasA10 V c)) := by
  have hN : t.val < 10 := lt_of_lt_of_eq t.isLt N_10
  have h9 : t.val = 9 := by have := (flush10_4 t).mp hf; omega
  show (cfg10.win 4).cut (grid10.coords t) ((dat10 V c).after 4 t) = _
  rw [after10_4]
  funext y
  show acc10_1 V c t.val t.isLt y = res10_4 (aggA10 V c) (biasA10 V c) (((cfg10.win 4).blk t).view.emb y)
  refine Eq.trans ?_ (congrArg (res10_4 (aggA10 V c) (biasA10 V c)) (emb_blk10_4 t y).symm)
  exact congrFun ((acc10_1_eq V c t.val t.isLt hN).trans (accR10_1_congr _ _ h9 hN (by decide))) y

theorem mem_blk10_3 (t : Fin cfg10.N) (i : S1x64.Idx) :
    i ∈ ((cfg10.win 3).blk t).view.set ↔ ∀ a : Fin 2, win10_3.index t a * S1x64.size a ≤ (i a).val ∧ (i a).val < win10_3.index t a * S1x64.size a + S1x64.size a := by
  show i ∈ ((View.whole (Pipeline.arrRef spec10 3)).slice (win10_3.rect t)).set ↔ _
  rw [View.set_slice_whole, Rect.mem_set_unit]
  exact Iff.rfl

theorem mem_blk10_4 (t : Fin cfg10.N) (i : S1x64.Idx) :
    i ∈ ((cfg10.win 4).blk t).view.set ↔ ∀ a : Fin 2, win10_4.index t a * S1x64.size a ≤ (i a).val ∧ (i a).val < win10_4.index t a * S1x64.size a + S1x64.size a := by
  show i ∈ ((View.whole (Pipeline.arrRef spec10 4)).slice (win10_4.rect t)).set ↔ _
  rw [View.set_slice_whole, Rect.mem_set_unit]
  exact Iff.rfl

theorem cover10_3 (i : S1x64.Idx) : ∃ t : Fin cfg10.N, (cfg10.win 3).flush t = true ∧ i ∈ ((cfg10.win 3).blk t).view.set := by
  have hi0 : (i 0).val < 1 := (i 0).isLt
  have hi1 : (i 1).val < 64 := (i 1).isLt
  refine ⟨t10_9, (flush10_3 t10_9).mpr rfl, ?_⟩
  rw [mem_blk10_3]
  obtain ⟨-, -, -, -, -, -, e6, e7, -⟩ := idx_facts10 t10_9
  intro a
  match a with
  | ⟨0, _⟩ => show win10_3.index t10_9 (0 : Fin 2) * 1 ≤ (i 0).val ∧ (i 0).val < win10_3.index t10_9 (0 : Fin 2) * 1 + 1; omega
  | ⟨1, _⟩ => show win10_3.index t10_9 (1 : Fin 2) * 64 ≤ (i 1).val ∧ (i 1).val < win10_3.index t10_9 (1 : Fin 2) * 64 + 64; omega

theorem cover10_4 (i : S1x64.Idx) : ∃ t : Fin cfg10.N, (cfg10.win 4).flush t = true ∧ i ∈ ((cfg10.win 4).blk t).view.set := by
  have hi0 : (i 0).val < 1 := (i 0).isLt
  have hi1 : (i 1).val < 64 := (i 1).isLt
  refine ⟨t10_9, (flush10_4 t10_9).mpr rfl, ?_⟩
  rw [mem_blk10_4]
  obtain ⟨-, -, -, -, -, -, -, -, e8, e9⟩ := idx_facts10 t10_9
  intro a
  match a with
  | ⟨0, _⟩ => show win10_4.index t10_9 (0 : Fin 2) * 1 ≤ (i 0).val ∧ (i 0).val < win10_4.index t10_9 (0 : Fin 2) * 1 + 1; omega
  | ⟨1, _⟩ => show win10_4.index t10_9 (1 : Fin 2) * 64 ≤ (i 1).val ∧ (i 1).val < win10_4.index t10_9 (1 : Fin 2) * 64 + 64; omega

theorem final10_3 (c : Dev nD) : (dat10 V c).arrAt 3 cfg10.N = res10_3 (V c (Pipeline.arrRef spec10 0)) (V c (Pipeline.arrRef spec10 1)) :=
  (dat10 V c).arrAt_eq_of_cover 3 (res10_3 (aggA10 V c) (biasA10 V c)) (fun t hf => flushed10_3_eq V c t hf) cover10_3

theorem final10_4 (c : Dev nD) : (dat10 V c).arrAt 4 cfg10.N = res10_4 (V c (Pipeline.arrRef spec10 0)) (V c (Pipeline.arrRef spec10 1)) :=
  (dat10 V c).arrAt_eq_of_cover 4 (res10_4 (aggA10 V c) (biasA10 V c)) (fun t hf => flushed10_4_eq V c t hf) cover10_4

end Region2

end Cert.KernelIdeal.Hand

end
-- ==== Proof.KI.Reg11.lean ====
import proofs.«424828_j6554120094214_2_alg».proof.Proof.Gen.KernelIdeal.Launch
import proofs.«424828_j6554120094214_2_alg».proof.Proof.Gen.KernelIdeal.Skeleton
import proofs.«424828_j6554120094214_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.ValueIdx
import Idealize.ShloMosaic.Lib.ValueLayout
import Idealize.ShloMosaic.PureOps.Ideal.Laws
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

theorem hz11 : (![0, 0] : Fin 2 → Nat) = fun _ => 0 := funext fun a => by fin_cases a <;> rfl

abbrev r11_0 : Rect S10000x64 := Rect.unit (s := S10000x64) ![0, 0] S10000x64.size inb_S10000x64_S10000x64_0_0

def out11_5 (x0 : Vec F S10000x64 .f32) (x1 : Vec F S1x64 .f32) (x2 : Vec F S1x64 .f32) (x3 : Vec F S1x64 .f32) (x4 : Vec F S1x64 .f32) : Vec F S10000x64 .f32 :=
  View.canon [⟨r11_0, k11_pay1 (View.ld x2 (Rect.unit (s := S1x64) ![0, 0] S1x64.size inb_S1x64_S1x64_0_0)) (View.ld x3 (Rect.unit (s := S1x64) ![0, 0] S1x64.size inb_S1x64_S1x64_0_0)) (View.ld x0 r11_0) (View.ld x1 (Rect.unit (s := S1x64) ![0, 0] S1x64.size inb_S1x64_S1x64_0_0)) (View.ld x4 (Rect.unit (s := S1x64) ![0, 0] S1x64.size inb_S1x64_S1x64_0_0))⟩]

theorem cover11_5 (p0 : Vec F S10000x64 .f32) (y : S10000x64.Idx) :
    ∃ pc ∈ ([⟨r11_0, p0⟩] : List (View.Piece (Elt F) S10000x64 .f32)), y ∈ pc.1.set :=
  ⟨_, List.mem_singleton_self _, View.mem_set_unit_zero hz11 inb_S10000x64_S10000x64_0_0 y⟩

set_option maxHeartbeats 1000000 in
theorem sound_kernel11 (c : Dev nD) (E : Set ℕ) (i : grid11.Coords)
    (arg1 : Memref sig .tc .vmem S10000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S10000x64 .f32) (harg6 : arg6.IsWhole)
    (x0 : Vec F S10000x64 .f32) (x1 : Vec F S1x64 .f32) (x2 : Vec F S1x64 .f32) (x3 : Vec F S1x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out11_5 x0 x1 x2 x3 x4)) -∗ K ⟨⟩))
      ⊢ wp frame (wpE (defs₀ (F := F)) Variants.none c none) E (cc11__bn_apply_kernel i arg1 harg1 arg2 harg2 arg3 harg3 arg4 harg4 arg5 harg5 arg6 harg6) K := by
  simp only [cc11__bn_apply_kernel_eq_skeleton]; unfold cc11__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover11_5 _)

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11_5 (iblk11 V c 0 t) (iblk11 V c 1 t) (iblk11 V c 2 t) (iblk11 V c 3 t) (iblk11 V c 4 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem Phi_in11 (c : Dev nD) : (dat11 V c).Φ 0 = Pipeline.ΦA spec11 c := by
  dsimp only [dat11]

theorem Phi_out11 (c : Dev nD) : (dat11 V c).Φ (Fin.last _) ⊢ Pipeline.ΦA spec11 c := by
  dsimp only [dat11]; exact BIBase.Entails.rfl

theorem owed11 (c : Dev nD) : ∀ x, (dat11 V c).owed x = 0 := fun _ => by
  dsimp only [dat11]

theorem share11 (c : Dev nD) : ∀ w, (dat11 V c).q w = fullShare := fun _ => by
  dsimp only [dat11]

theorem recorded11 (c : Dev nD) : ∀ t, (dat11 V c).recorded t = Set.univ := fun _ => rfl

theorem after11_0 (c : Dev nD) (t : Fin cfg11.N) : (dat11 V c).after 0 t = iblk11 V c 0 t := by dsimp only [dat11]

theorem after11_1 (c : Dev nD) (t : Fin cfg11.N) : (dat11 V c).after 1 t = iblk11 V c 1 t := by dsimp only [dat11]

theorem after11_2 (c : Dev nD) (t : Fin cfg11.N) : (dat11 V c).after 2 t = iblk11 V c 2 t := by dsimp only [dat11]

theorem after11_3 (c : Dev nD) (t : Fin cfg11.N) : (dat11 V c).after 3 t = iblk11 V c 3 t := by dsimp only [dat11]

theorem after11_4 (c : Dev nD) (t : Fin cfg11.N) : (dat11 V c).after 4 t = iblk11 V c 4 t := by dsimp only [dat11]

theorem after11_5 (c : Dev nD) (t : Fin cfg11.N) :
    (dat11 V c).after 5 t = out11_5 (iblk11 V c 0 t) (iblk11 V c 1 t) (iblk11 V c 2 t) (iblk11 V c 3 t) (iblk11 V c 4 t) := by dsimp only [dat11]

theorem before11_0 (c : Dev nD) (t : Fin cfg11.N) (d) : (dat11 V c).before 0 t d = iblk11 V c 0 t :=
  before11_0_of V (dat11 V c) (A_eq11 V c 0) (after11_0 V c) t d

theorem before11_1 (c : Dev nD) (t : Fin cfg11.N) (d) : (dat11 V c).before 1 t d = iblk11 V c 1 t :=
  before11_1_of V (dat11 V c) (A_eq11 V c 1) (after11_1 V c) t d

theorem before11_2 (c : Dev nD) (t : Fin cfg11.N) (d) : (dat11 V c).before 2 t d = iblk11 V c 2 t :=
  before11_2_of V (dat11 V c) (A_eq11 V c 2) (after11_2 V c) t d

theorem before11_3 (c : Dev nD) (t : Fin cfg11.N) (d) : (dat11 V c).before 3 t d = iblk11 V c 3 t :=
  before11_3_of V (dat11 V c) (A_eq11 V c 3) (after11_3 V c) t d

theorem before11_4 (c : Dev nD) (t : Fin cfg11.N) (d) : (dat11 V c).before 4 t d = iblk11 V c 4 t :=
  before11_4_of V (dat11 V c) (A_eq11 V c 4) (after11_4 V c) t d

def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ _ _ _ _ _ _ _ _ _ _ _ _ _ (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation11 (c : Dev nD) : BodyObligation (dat11 (F := F) V c) (defs₀ (F := F)) Variants.none () Set.univ := fun t => by
  rw [bigSep_W11, bigSep_W11]
  exact sound_body11 V c t

open Idealize.ShloMosaic.ValueIdx

def res11_5 (h : Vec F S100000x64 .f32) (mean : Vec F S1x64 .f32) (var : Vec F S1x64 .f32) (g : Vec F S1x64 .f32) (beta : Vec F S1x64 .f32) :
    Vec F S100000x64 .f32 :=
  fun i => FloatOps.addf (FloatOps.mulf (FloatOps.mulf (g (ix2 (0 : Fin 1) (i 1))) (FloatOps.subf (h i) (mean (ix2 (0 : Fin 1) (i 1)))))
      (FloatOps.rsqrt (FloatOps.addf (var (ix2 (0 : Fin 1) (i 1))) (Scalar.ofBits .f32 0x3727C5AC#32)))) (beta (ix2 (0 : Fin 1) (i 1)))

theorem res11_5_at (h : Vec F S100000x64 .f32) (mean : Vec F S1x64 .f32) (var : Vec F S1x64 .f32) (g : Vec F S1x64 .f32) (beta : Vec F S1x64 .f32)
    (i : S100000x64.Idx) (f : Fin 64) (hf : (i 1).val = f.val) :
    res11_5 h mean var g beta i
      = FloatOps.addf (FloatOps.mulf (FloatOps.mulf (g (ix2 (0 : Fin 1) f)) (FloatOps.subf (h i) (mean (ix2 (0 : Fin 1) f))))
          (FloatOps.rsqrt (FloatOps.addf (var (ix2 (0 : Fin 1) f)) (Scalar.ofBits .f32 0x3727C5AC#32)))) (beta (ix2 (0 : Fin 1) f)) := by
  obtain rfl : (i 1 : Fin 64) = f := Fin.ext hf
  rfl

theorem k11_pay1_apply (var : Vec F S1x64 .f32) (g : Vec F S1x64 .f32) (h : Vec F S10000x64 .f32) (mean : Vec F S1x64 .f32) (beta : Vec F S1x64 .f32)
    (j : S10000x64.Idx) (f : Fin 64) (hf : (j 1).val = f.val) :
    k11_pay1 var g h mean beta j
      = FloatOps.addf (FloatOps.mulf (FloatOps.mulf (g (ix2 (0 : Fin 1) f)) (FloatOps.subf (h j) (mean (ix2 (0 : Fin 1) f))))
          (FloatOps.rsqrt (FloatOps.addf (var (ix2 (0 : Fin 1) f)) (Scalar.ofBits .f32 0x3727C5AC#32)))) (beta (ix2 (0 : Fin 1) f)) := by
  obtain rfl : (j 1 : Fin 64) = f := Fin.ext hf
  have hb : ∀ x : FVec F S1x64 .f32, broadcastTo S10000x64 x broadcasts_S1x64_S10000x64 j = x (ix2 (0 : Fin 1) (j 1)) := fun x =>
    broadcastTo_apply x broadcasts_S1x64_S10000x64 j (ix2 (0 : Fin 1) (j 1)) (fun a => by
      match a with
      | ⟨0, _⟩ => rfl
      | ⟨1, _⟩ => rfl)
  unfold k11_pay1
  simp only [shapeCast_self]
  show FloatOps.addf (FloatOps.mulf (FloatOps.mulf (broadcastTo S10000x64 g broadcasts_S1x64_S10000x64 j)
        (FloatOps.subf (h j) (broadcastTo S10000x64 mean broadcasts_S1x64_S10000x64 j)))
      (broadcastTo S10000x64 (rsqrt (addf var (broadcast S1x64 (Scalar.ofBits .f32 0x3727C5AC#32)))) broadcasts_S1x64_S10000x64 j))
    (broadcastTo S10000x64 beta broadcasts_S1x64_S10000x64 j) = _
  rw [hb g, hb mean, hb beta, hb (rsqrt (addf var (broadcast S1x64 (Scalar.ofBits .f32 0x3727C5AC#32))))]
  rfl

theorem idx_facts11 : ∀ t : Fin cfg11.N, win11_0.index t (0 : Fin 2) = t.val ∧ win11_0.index t (1 : Fin 2) = 0
    ∧ win11_5.index t (0 : Fin 2) = t.val ∧ win11_5.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0 :=
  (by decide +kernel : ∀ t : Fin grid11.N, _)

theorem iblk11_0_apply (c : Dev nD) (t : Fin cfg11.N) (x : S10000x64.Idx) (k : S100000x64.Idx)
    (hk0 : (k 0).val = 10000 * t.val + (x 0).val) (hk1 : (k 1).val = (x 1).val) :
    (iblk11 V c 0 t : Vec F S10000x64 .f32) x = (V c (Pipeline.arrRef spec11 0) : S100000x64.Idx → Elt F .f32) k := by
  obtain ⟨e0, e1, -⟩ := idx_facts11 t
  unfold iblk11
  rw [View.read_apply]
  show (V c (Pipeline.arrRef spec11 0) : S100000x64.Idx → Elt F .f32) _ = (V c (Pipeline.arrRef spec11 0) : S100000x64.Idx → Elt F .f32) _
  congr 1
  funext a
  apply Fin.ext
  match a with
  | ⟨0, _⟩ => show win11_0.index t 0 * 10000 + 1 * (x 0).val = (k 0).val; rw [e0, hk0]; omega
  | ⟨1, _⟩ => show win11_0.index t 1 * 64 + 1 * (x 1).val = (k 1).val; rw [e1, hk1]; omega

theorem iblk11_1_apply (c : Dev nD) (t : Fin cfg11.N) (x : S1x64.Idx) :
    (iblk11 V c 1 t : Vec F S1x64 .f32) x = (V c (Pipeline.arrRef spec11 1) : S1x64.Idx → Elt F .f32) x := by
  obtain ⟨-, -, -, -, e0, e1, -⟩ := idx_facts11 t
  unfold iblk11
  rw [View.read_apply]
  show (V c (Pipeline.arrRef spec11 1) : S1x64.Idx → Elt F .f32) _ = (V c (Pipeline.arrRef spec11 1) : S1x64.Idx → Elt F .f32) _
  congr 1
  funext a
  apply Fin.ext
  match a with
  | ⟨0, _⟩ => show win11_1.index t 0 * 1 + 1 * (x 0).val = (x 0).val; rw [e0]; omega
  | ⟨1, _⟩ => show win11_1.index t 1 * 64 + 1 * (x 1).val = (x 1).val; rw [e1]; omega

theorem iblk11_2_apply (c : Dev nD) (t : Fin cfg11.N) (x : S1x64.Idx) :
    (iblk11 V c 2 t : Vec F S1x64 .f32) x = (V c (Pipeline.arrRef spec11 2) : S1x64.Idx → Elt F .f32) x := by
  obtain ⟨-, -, -, -, -, -, e0, e1, -⟩ := idx_facts11 t
  unfold iblk11
  rw [View.read_apply]
  show (V c (Pipeline.arrRef spec11 2) : S1x64.Idx → Elt F .f32) _ = (V c (Pipeline.arrRef spec11 2) : S1x64.Idx → Elt F .f32) _
  congr 1
  funext a
  apply Fin.ext
  match a with
  | ⟨0, _⟩ => show win11_2.index t 0 * 1 + 1 * (x 0).val = (x 0).val; rw [e0]; omega
  | ⟨1, _⟩ => show win11_2.index t 1 * 64 + 1 * (x 1).val = (x 1).val; rw [e1]; omega

theorem iblk11_3_apply (c : Dev nD) (t : Fin cfg11.N) (x : S1x64.Idx) :
    (iblk11 V c 3 t : Vec F S1x64 .f32) x = (V c (Pipeline.arrRef spec11 3) : S1x64.Idx → Elt F .f32) x := by
  obtain ⟨-, -, -, -, -, -, -, -, e0, e1, -⟩ := idx_facts11 t
  unfold iblk11
  rw [View.read_apply]
  show (V c (Pipeline.arrRef spec11 3) : S1x64.Idx → Elt F .f32) _ = (V c (Pipeline.arrRef spec11 3) : S1x64.Idx → Elt F .f32) _
  congr 1
  funext a
  apply Fin.ext
  match a with
  | ⟨0, _⟩ => show win11_3.index t 0 * 1 + 1 * (x 0).val = (x 0).val; rw [e0]; omega
  | ⟨1, _⟩ => show win11_3.index t 1 * 64 + 1 * (x 1).val = (x 1).val; rw [e1]; omega

theorem iblk11_4_apply (c : Dev nD) (t : Fin cfg11.N) (x : S1x64.Idx) :
    (iblk11 V c 4 t : Vec F S1x64 .f32) x = (V c (Pipeline.arrRef spec11 4) : S1x64.Idx → Elt F .f32) x := by
  obtain ⟨-, -, -, -, -, -, -, -, -, -, e0, e1⟩ := idx_facts11 t
  unfold iblk11
  rw [View.read_apply]
  show (V c (Pipeline.arrRef spec11 4) : S1x64.Idx → Elt F .f32) _ = (V c (Pipeline.arrRef spec11 4) : S1x64.Idx → Elt F .f32) _
  congr 1
  funext a
  apply Fin.ext
  match a with
  | ⟨0, _⟩ => show win11_4.index t 0 * 1 + 1 * (x 0).val = (x 0).val; rw [e0]; omega
  | ⟨1, _⟩ => show win11_4.index t 1 * 64 + 1 * (x 1).val = (x 1).val; rw [e1]; omega

theorem block11_5_apply (c : Dev nD) (t : Fin cfg11.N) (j : S10000x64.Idx) (i : S100000x64.Idx)
    (hi0 : (i 0).val = 10000 * t.val + (j 0).val) (hi1 : (i 1).val = (j 1).val) :
    k11_pay1 (iblk11 V c 2 t) (iblk11 V c 3 t) (iblk11 V c 0 t) (iblk11 V c 1 t) (iblk11 V c 4 t) j
      = res11_5 (V c (Pipeline.arrRef spec11 0)) (V c (Pipeline.arrRef spec11 1)) (V c (Pipeline.arrRef spec11 2)) (V c (Pipeline.arrRef spec11 3)) (V c (Pipeline.arrRef spec11 4)) i := by
  refine (k11_pay1_apply (iblk11 V c 2 t) (iblk11 V c 3 t) (iblk11 V c 0 t) (iblk11 V c 1 t) (iblk11 V c 4 t) j (j 1) rfl).trans ?_
  refine Eq.trans ?_ (res11_5_at (V c (Pipeline.arrRef spec11 0)) (V c (Pipeline.arrRef spec11 1)) (V c (Pipeline.arrRef spec11 2)) (V c (Pipeline.arrRef spec11 3)) (V c (Pipeline.arrRef spec11 4)) i (j 1) hi1).symm
  rw [iblk11_0_apply V c t j i hi0 hi1, iblk11_1_apply, iblk11_2_apply, iblk11_3_apply, iblk11_4_apply]

theorem flushed11_5_eq (c : Dev nD) (t : Fin cfg11.N) :
    (dat11 V c).flushed 5 t = ((cfg11.win 5).blk t).view.read (Elt F)
      (res11_5 (V c (Pipeline.arrRef spec11 0)) (V c (Pipeline.arrRef spec11 1)) (V c (Pipeline.arrRef spec11 2)) (V c (Pipeline.arrRef spec11 3)) (V c (Pipeline.arrRef spec11 4))) := by
  show (cfg11.win 5).cut (grid11.coords t) ((dat11 V c).after 5 t) = _
  rw [after11_5]
  unfold out11_5
  rw [View.canon_unit_zero hz11]
  simp only [View.ld_unit_zero (S := S10000x64) hz11, View.ld_unit_zero (S := S1x64) hz11]
  obtain ⟨-, -, e0, e1, -⟩ := idx_facts11 t
  funext j
  exact block11_5_apply V c t j (((cfg11.win 5).blk t).view.emb j)
    (by show win11_5.index t 0 * 10000 + 1 * (j 0).val = 10000 * t.val + (j 0).val; rw [e0]; omega)
    (by show win11_5.index t 1 * 64 + 1 * (j 1).val = (j 1).val; rw [e1]; omega)

theorem mem_blk11_5 (t : Fin cfg11.N) (i : S100000x64.Idx) :
    i ∈ ((cfg11.win 5).blk t).view.set ↔ ∀ a : Fin 2, win11_5.index t a * S10000x64.size a ≤ (i a).val ∧ (i a).val < win11_5.index t a * S10000x64.size a + S10000x64.size a := by
  show i ∈ ((View.whole (Pipeline.arrRef spec11 5)).slice (win11_5.rect t)).set ↔ _
  rw [View.set_slice_whole, Rect.mem_set_unit]
  exact Iff.rfl

theorem covered11_5 (i : S100000x64.Idx) : ∃ t : Fin cfg11.N, (cfg11.win 5).flush t = true ∧ i ∈ ((cfg11.win 5).blk t).view.set := by
  have hi0 : (i 0).val < 100000 := (i 0).isLt
  have hi1 : (i 1).val < 64 := (i 1).isLt
  have hN : cfg11.N = 10 := N_11
  have ht : (i 0).val / 10000 < cfg11.N := by omega
  obtain ⟨-, -, e0, e1, -⟩ := idx_facts11 ⟨(i 0).val / 10000, ht⟩
  refine ⟨⟨(i 0).val / 10000, ht⟩, flush11_5 _, ?_⟩
  rw [mem_blk11_5]
  intro a
  match a with
  | ⟨0, _⟩ =>
    show win11_5.index ⟨(i 0).val / 10000, ht⟩ 0 * 10000 ≤ (i 0).val ∧ (i 0).val < win11_5.index ⟨(i 0).val / 10000, ht⟩ 0 * 10000 + 10000
    rw [e0]; show (i 0).val / 10000 * 10000 ≤ (i 0).val ∧ (i 0).val < (i 0).val / 10000 * 10000 + 10000; omega
  | ⟨1, _⟩ =>
    show win11_5.index ⟨(i 0).val / 10000, ht⟩ 1 * 64 ≤ (i 1).val ∧ (i 1).val < win11_5.index ⟨(i 0).val / 10000, ht⟩ 1 * 64 + 64
    rw [e1]; omega

theorem final11_5 (c : Dev nD) : (dat11 V c).arrAt 5 cfg11.N
    = res11_5 (V c (Pipeline.arrRef spec11 0)) (V c (Pipeline.arrRef spec11 1)) (V c (Pipeline.arrRef spec11 2)) (V c (Pipeline.arrRef spec11 3)) (V c (Pipeline.arrRef spec11 4)) :=
  (dat11 V c).arrAt_eq_of_cover 5
    (res11_5 (V c (Pipeline.arrRef spec11 0)) (V c (Pipeline.arrRef spec11 1)) (V c (Pipeline.arrRef spec11 2)) (V c (Pipeline.arrRef spec11 3)) (V c (Pipeline.arrRef spec11 4)))
    (fun t _ => flushed11_5_eq V c t) (fun i => covered11_5 i)

theorem res11_5_apply (h : FVec Ideal S100000x64 .f32) (mean : FVec Ideal S1x64 .f32) (var : FVec Ideal S1x64 .f32) (g : FVec Ideal S1x64 .f32)
    (beta : FVec Ideal S1x64 .f32) (n : Fin 100000) (f : Fin 64) :
    res11_5 (F := Ideal) h mean var g beta (ix2 n f)
      = g (ix2 (0 : Fin 1) f) * (h (ix2 n f) - mean (ix2 (0 : Fin 1) f)) * Ideal.rsqrt (var (ix2 (0 : Fin 1) f) + Ideal.ofBits .f32 0x3727C5AC#32)
        + beta (ix2 (0 : Fin 1) f) := rfl

end Cert.KernelIdeal.Hand

end
-- ==== Proof.KI.Reg12.lean ====
import proofs.«424828_j6554120094214_2_alg».proof.Proof.Gen.KernelIdeal.Launch
import proofs.«424828_j6554120094214_2_alg».proof.Proof.Gen.KernelIdeal.Skeleton
import proofs.«424828_j6554120094214_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ

abbrev cond12_1 (i : grid12.Coords) : Prop :=
  (Scalar.cmpi .ne (Scalar.extui (Scalar.cmpi .eq (BitVec.ofNat 32 (i 0).val) 0#32)) 0#32) = 1#1

abbrev cond12_2 (i : grid12.Coords) : Prop := k12_cond2 i = 1#1

theorem hcond12_1 : ∀ t : Fin cfg12.N, cond12_1 (grid12.coords t) ↔ t.val = 0 :=
  (by decide +kernel : ∀ t : Fin grid12.N, cond12_1 (grid12.coords t) ↔ t.val = 0)

theorem hcond12_2 : ∀ t : Fin cfg12.N, cond12_2 (grid12.coords t) ↔ t.val = 49 :=
  (by decide +kernel : ∀ t : Fin grid12.N, cond12_2 (grid12.coords t) ↔ t.val = 49)

theorem liveAt12_0 : ∀ t : Fin cfg12.N, cfg12.idle 0 (grid12.coords t) = false := fun _ => rfl

theorem liveAt12_1 : ∀ t : Fin cfg12.N, cfg12.idle 1 (grid12.coords t) = false := fun _ => rfl

theorem idleAt12_2 : ∀ t : Fin cfg12.N, ¬cond12_2 (grid12.coords t) → cfg12.idle 2 (grid12.coords t) = true := by decide +kernel

theorem noFlush12_2 : ∀ t : Fin cfg12.N, ¬cond12_2 (grid12.coords t) → (cfg12.win 2).flush t = false := by decide +kernel

theorem liveAt12_2 : ∀ t : Fin cfg12.N, cond12_2 (grid12.coords t) → cfg12.idle 2 (grid12.coords t) = false := by decide +kernel

theorem hz12 : (![0, 0] : Fin 2 → Nat) = fun _ => 0 := funext fun a => by fin_cases a <;> rfl

theorem read_store12 {κ : Kind} {sp : Space} (v : View sig κ sp S512x64 .f32) (f : v.ty.Contents (Elt F))
    (w : S512x64.Idx → Elt F .f32) (L : List (View.Piece (Elt F) S512x64 .f32)) :
    v.read (Elt F) (v.writes (Elt F) f ((⟨Rect.unit ![0, 0] S512x64.size inb_S512x64_S512x64_0_0, w⟩ : View.Piece (Elt F) S512x64 .f32) :: L)) = w := by
  have hc : ∀ y : S512x64.Idx, ∃ p ∈ ((⟨Rect.unit ![0, 0] S512x64.size inb_S512x64_S512x64_0_0, w⟩ : View.Piece (Elt F) S512x64 .f32) :: L), y ∈ p.1.set :=
    fun y => ⟨_, List.mem_cons_self, View.mem_set_unit_zero (S := S512x64) hz12 inb_S512x64_S512x64_0_0 y⟩
  exact (View.read_writes_eq_canon v f _ hc).trans
    (View.canon_cons_unit_zero (S := S512x64) hz12 inb_S512x64_S512x64_0_0 w L)

set_option maxHeartbeats 400000 in
theorem sound_kernel12_first (c : Dev nD) (E : Set ℕ) (i : grid12.Coords)
    (arg1 : Memref sig .tc .vmem S2000x64 .f32) (harg1 : arg1.IsWhole)
    (arg2 : Memref sig .tc .vmem S2000x1 .i32) (harg2 : arg2.IsWhole)
    (arg3 : Memref sig .tc .vmem S512x64 .f32) (harg3 : arg3.IsWhole)
    (arg4 : Memref sig .tc .vmem S512x64 .f32) (harg4 : arg4.IsWhole)
    (hc1 : cond12_1 i) (hc2 : ¬cond12_2 i)
    (x0 : Vec F S2000x64 .f32) (x1 : Vec F S2000x1 .i32) (xi : Vec F S512x64 .f32)
    (K : PUnit → sProp 𝕄) :
    iprop(owns (c : Thread nD τ) arg1 fullShare x0 ∗ owns (c : Thread nD τ) arg2 fullShare x1
        ∗ owns (c : Thread nD τ) arg3 fullShare xi ∗ (∃ d, owns (c : Thread nD τ) arg4 fullShare d)
        ∗ (iprop(owns (c : Thread nD τ) arg1 fullShare x0 ∗ owns (c : Thread nD τ) arg2 fullShare x1
            ∗ owns (c : Thread nD τ) arg3 fullShare xi ∗ owns (c : Thread nD τ) arg4 fullShare (k12_pay2 x1 x0 (k12_pay1 (F := F)))) -∗ K ⟨⟩))
      ⊢ wp frame (wpE (defs₀ (F := F)) Variants.none c none) E (cc12__pool_kernel i arg1 harg1 arg2 harg2 arg3 harg3 arg4 harg4) K := by
  simp only [cc12__pool_kernel_eq_skeleton]; unfold cc12__pool_kernel_skel
  unfold owns
  iintro ⟨⟨%f0, %hf0, H0⟩, ⟨%f1, %hf1, H1⟩, ⟨%f3, %hf3, H3⟩, ⟨%ds, %fs, -, HS⟩, Hk⟩
  subst hf0; subst hf1; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H3]
  · iexists f3; isplitr; · ipureintro; rfl
    iexact H3
  iexists _; isplitr
  swap; · iexact HS
  ipureintro
  refine (read_store12 (F := F) _ _ _ _).trans ?_
  sl_unfold_words
  simp only [View.readAt_eq_ld, View.ld_unit_zero (S := S2000x1) hz12, View.ld_unit_zero (S := S2000x64) hz12, View.ld_unit_zero (S := S512x64) hz12, View.readCov_unit_zero (Val := Elt F) (S := S512x64) _ hz12]

set_option maxHeartbeats 400000 in
theorem sound_kernel12_mid (c : Dev nD) (E : Set ℕ) (i : grid12.Coords)
    (arg1 : Memref sig .tc .vmem S2000x64 .f32) (harg1 : arg1.IsWhole)
    (arg2 : Memref sig .tc .vmem S2000x1 .i32) (harg2 : arg2.IsWhole)
    (arg3 : Memref sig .tc .vmem S512x64 .f32) (harg3 : arg3.IsWhole)
    (arg4 : Memref sig .tc .vmem S512x64 .f32) (harg4 : arg4.IsWhole)
    (hc1 : ¬cond12_1 i) (hc2 : ¬cond12_2 i)
    (x0 : Vec F S2000x64 .f32) (x1 : Vec F S2000x1 .i32) (xi : Vec F S512x64 .f32) (xs : Vec F S512x64 .f32)
    (K : PUnit → sProp 𝕄) :
    iprop(owns (c : Thread nD τ) arg1 fullShare x0 ∗ owns (c : Thread nD τ) arg2 fullShare x1
        ∗ owns (c : Thread nD τ) arg3 fullShare xi ∗ owns (c : Thread nD τ) arg4 fullShare xs
        ∗ (iprop(owns (c : Thread nD τ) arg1 fullShare x0 ∗ owns (c : Thread nD τ) arg2 fullShare x1
            ∗ owns (c : Thread nD τ) arg3 fullShare xi ∗ owns (c : Thread nD τ) arg4 fullShare (k12_pay2 x1 x0 xs)) -∗ K ⟨⟩))
      ⊢ wp frame (wpE (defs₀ (F := F)) Variants.none c none) E (cc12__pool_kernel i arg1 harg1 arg2 harg2 arg3 harg3 arg4 harg4) K := by
  simp only [cc12__pool_kernel_eq_skeleton]; unfold cc12__pool_kernel_skel
  unfold owns
  iintro ⟨⟨%f0, %hf0, H0⟩, ⟨%f1, %hf1, H1⟩, ⟨%f3, %hf3, H3⟩, ⟨%fs, %hfs, HS⟩, Hk⟩
  subst hf0; subst hf1; subst hf3; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H3]
  · iexists f3; isplitr; · ipureintro; rfl
    iexact H3
  iexists _; isplitr
  swap; · iexact HS
  ipureintro
  refine (read_store12 (F := F) _ _ _ _).trans ?_
  simp only [View.readAt_eq_ld, View.ld_unit_zero (S := S2000x1) hz12, View.ld_unit_zero (S := S2000x64) hz12, View.ld_unit_zero (S := S512x64) hz12]

set_option maxHeartbeats 400000 in
theorem sound_kernel12_last (c : Dev nD) (E : Set ℕ) (i : grid12.Coords)
    (arg1 : Memref sig .tc .vmem S2000x64 .f32) (harg1 : arg1.IsWhole)
    (arg2 : Memref sig .tc .vmem S2000x1 .i32) (harg2 : arg2.IsWhole)
    (arg3 : Memref sig .tc .vmem S512x64 .f32) (harg3 : arg3.IsWhole)
    (arg4 : Memref sig .tc .vmem S512x64 .f32) (harg4 : arg4.IsWhole)
    (hc1 : ¬cond12_1 i) (hc2 : cond12_2 i)
    (x0 : Vec F S2000x64 .f32) (x1 : Vec F S2000x1 .i32) (xs : Vec F S512x64 .f32)
    (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xs
        ∗ (iprop(owns (c : Thread nD τ) arg1 fullShare x0 ∗ owns (c : Thread nD τ) arg2 fullShare x1
            ∗ owns (c : Thread nD τ) arg3 fullShare (k12_pay2 x1 x0 xs) ∗ owns (c : Thread nD τ) arg4 fullShare (k12_pay2 x1 x0 xs)) -∗ K ⟨⟩))
      ⊢ wp frame (wpE (defs₀ (F := F)) Variants.none c none) E (cc12__pool_kernel i arg1 harg1 arg2 harg2 arg3 harg3 arg4 harg4) K := by
  simp only [cc12__pool_kernel_eq_skeleton]; unfold cc12__pool_kernel_skel
  unfold owns
  iintro ⟨⟨%f0, %hf0, H0⟩, ⟨%f1, %hf1, H1⟩, ⟨%d3, %f3, -, H3⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    refine (read_store12 (F := F) _ _ _ _).trans ?_
    sl_unfold_words
    simp only [View.readAt_eq_ld, View.ld_unit_zero (S := S2000x1) hz12, View.ld_unit_zero (S := S2000x64) hz12, View.ld_unit_zero (S := S512x64) hz12, View.readCov_unit_zero (Val := Elt F) (S := S512x64) _ hz12]
  iexists _; isplitr
  swap; · iexact HS
  ipureintro
  sl_unfold_words
  refine (read_store12 (F := F) _ _ _ _).trans ?_
  simp only [View.readAt_eq_ld, View.ld_unit_zero (S := S2000x1) hz12, View.ld_unit_zero (S := S2000x64) hz12, View.ld_unit_zero (S := S512x64) hz12]

section Regions

variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

theorem before12_0_of {c : Dev nD} (dat : Dat τ (Elt F) Unit ℕ (UR sig nD τ) ℕ cfg12 c) (hA : dat.A 0 = V c (Pipeline.arrRef spec12 0))
    (t : Fin cfg12.N) (d) : dat.before 0 t d = iblk12 V c 0 t :=
  (dat.before_fetched 0 t (fetch12_0 t) d).trans (by unfold Dat.fetched Dat.blockOf iblk12; rw [hA]; try rfl)

theorem before12_1_of {c : Dev nD} (dat : Dat τ (Elt F) Unit ℕ (UR sig nD τ) ℕ cfg12 c) (hA : dat.A 1 = V c (Pipeline.arrRef spec12 1))
    (t : Fin cfg12.N) (d) : dat.before 1 t d = iblk12 V c 1 t :=
  (dat.before_fetched 1 t (fetch12_1 t) d).trans (by unfold Dat.fetched Dat.blockOf iblk12; rw [hA]; try rfl)

def acc12 (c : Dev nD) : (n : ℕ) → n < cfg12.N → Vec F S512x64 .f32
  | 0, hn => k12_pay2 (iblk12 V c 1 ⟨0, hn⟩) (iblk12 V c 0 ⟨0, hn⟩) (k12_pay1 (F := F))
  | n + 1, hn => k12_pay2 (iblk12 V c 1 ⟨n + 1, hn⟩) (iblk12 V c 0 ⟨n + 1, hn⟩) (acc12 c n (Nat.lt_of_succ_lt hn))

theorem acc12_zero (c : Dev nD) (t : Fin cfg12.N) (h : t.val = 0) :
    acc12 V c t.val t.isLt = k12_pay2 (iblk12 V c 1 t) (iblk12 V c 0 t) (k12_pay1 (F := F)) := by
  obtain ⟨n, hn⟩ := t
  cases n with
  | zero => rfl
  | succ n => exact absurd h (Nat.succ_ne_zero n)

theorem acc12_pos (c : Dev nD) (t : Fin cfg12.N) (h : t.val ≠ 0) :
    acc12 V c t.val t.isLt = k12_pay2 (iblk12 V c 1 t) (iblk12 V c 0 t)
      (acc12 V c (t.val - 1) (Nat.lt_of_le_of_lt (Nat.sub_le _ _) t.isLt)) := by
  obtain ⟨n, hn⟩ := t
  cases n with
  | zero => exact absurd rfl h
  | succ n => rfl

abbrev scM12 : Memref sig .tc .vmem S512x64 .f32 := Memref.whole cc12_scratch0

theorem PhiA12_eq (c : Dev nD) :
    (Pipeline.ΦA spec12 c : sProp 𝕄)
      = iprop(iprop((∃ d, owns (c : Thread nD τ) scM12 fullShare d)
            ∗ Pipeline.scopedRestBut (Ix := Unit) (Name := ℕ) (U := UR sig nD τ) (Lvl := ℕ) (Val := Elt F) spec12 c [cc12_scratch0])
          ∗ (∃ r, prngReg c r)) := by
  unfold Pipeline.ΦA; rw [scopedRest12_split]; simp only [scM12, owns_whole]
  rfl

def Phi12 (c : Dev nD) : (n : ℕ) → n ≤ cfg12.N → sProp 𝕄
  | 0, _ => Pipeline.ΦA spec12 c
  | n + 1, hn => iprop(iprop(owns (c : Thread nD τ) scM12 fullShare (acc12 V c n hn)
        ∗ Pipeline.scopedRestBut (Ix := Unit) (Name := ℕ) (U := UR sig nD τ) (Lvl := ℕ) (Val := Elt F) spec12 c [cc12_scratch0])
      ∗ (∃ r, prngReg c r))

theorem Phi12_zero (c : Dev nD) (n : ℕ) (h : n ≤ cfg12.N) (hz : n = 0) : Phi12 V c n h = Pipeline.ΦA spec12 c := by
  subst hz; rfl

theorem Phi12_succ (c : Dev nD) (n : ℕ) (hn : n < cfg12.N) :
    Phi12 V c (n + 1) hn = iprop(iprop(owns (c : Thread nD τ) scM12 fullShare (acc12 V c n hn)
        ∗ Pipeline.scopedRestBut (Ix := Unit) (Name := ℕ) (U := UR sig nD τ) (Lvl := ℕ) (Val := Elt F) spec12 c [cc12_scratch0])
      ∗ (∃ r, prngReg c r)) := rfl

theorem Phi12_pos (c : Dev nD) (n : ℕ) (h : n ≤ cfg12.N) (hz : n ≠ 0) :
    Phi12 V c n h = iprop(iprop(owns (c : Thread nD τ) scM12 fullShare (acc12 V c (n - 1) (by omega))
        ∗ Pipeline.scopedRestBut (Ix := Unit) (Name := ℕ) (U := UR sig nD τ) (Lvl := ℕ) (Val := Elt F) spec12 c [cc12_scratch0])
      ∗ (∃ r, prngReg c r)) := by
  cases n with
  | zero => exact absurd rfl hz
  | succ n => rfl

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => acc12 V c t.val t.isLt
  Φ t := Phi12 V c t.val (Nat.le_of_lt_succ t.isLt)
  q _ := fullShare
  owed _ := 0

theorem A_eq12 (c : Dev nD) (w : Fin cfg12.W) : (dat12 V c).A w = V c (Pipeline.arrRef spec12 w) := by
  dsimp only [dat12]

theorem owed12 (c : Dev nD) : ∀ x, (dat12 V c).owed x = 0 := fun _ => rfl

theorem share12 (c : Dev nD) : ∀ w, (dat12 V c).q w = fullShare := fun _ => rfl

theorem recorded12 (c : Dev nD) : ∀ t, (dat12 V c).recorded t = Set.univ := fun _ => rfl

theorem after12_0 (c : Dev nD) (t : Fin cfg12.N) : (dat12 V c).after 0 t = iblk12 V c 0 t := by dsimp only [dat12]

theorem after12_1 (c : Dev nD) (t : Fin cfg12.N) : (dat12 V c).after 1 t = iblk12 V c 1 t := by dsimp only [dat12]

theorem after12_2 (c : Dev nD) (t : Fin cfg12.N) : (dat12 V c).after 2 t = acc12 V c t.val t.isLt := by dsimp only [dat12]

theorem before12_0 (c : Dev nD) (t : Fin cfg12.N) (d) : (dat12 V c).before 0 t d = iblk12 V c 0 t :=
  before12_0_of V (dat12 V c) (A_eq12 V c 0) t d

theorem before12_1 (c : Dev nD) (t : Fin cfg12.N) (d) : (dat12 V c).before 1 t d = iblk12 V c 1 t :=
  before12_1_of V (dat12 V c) (A_eq12 V c 1) t d

theorem Phi12_castSucc (c : Dev nD) (t : Fin cfg12.N) :
    (dat12 V c).Φ t.castSucc = Phi12 V c t.val (Nat.le_of_lt t.isLt) := by
  dsimp only [dat12]; simp only [Fin.coe_castSucc]

theorem Phi_in12 (c : Dev nD) : (dat12 V c).Φ 0 = Pipeline.ΦA spec12 c := by
  rw [show (dat12 V c).Φ 0 = Phi12 V c 0 (Nat.zero_le _) from rfl, Phi12_zero V c 0 _ rfl]

theorem Phi_out12 (c : Dev nD) : (dat12 V c).Φ (Fin.last _) ⊢ Pipeline.ΦA spec12 c := by
  have hN : cfg12.N = 50 := N_12
  rw [show (dat12 V c).Φ (Fin.last _) = Phi12 V c (Fin.last cfg12.N).val (Nat.le_of_lt_succ (Fin.last cfg12.N).isLt) from rfl,
    Phi12_pos V c _ _ (by rw [Fin.val_last]; omega), PhiA12_eq]
  iintro ⟨⟨HS, HR⟩, Hg⟩
  isplitl [HS HR]
  · isplitl [HS]
    · iexists _; iexact HS
    iexact HR
  iexact Hg

def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

def bodyPost12 (c : Dev nD) (t : Fin cfg12.N) : sProp 𝕄 :=
  iprop((dat12 V c).Φ t.succ ∗ (dat12 V c).owesAt () t.succ
    ∗ (dat12 V c).leavesExact 0 t
    ∗ (dat12 V c).leavesExact 1 t
    ∗ (dat12 V c).leavesExact 2 t)

set_option maxHeartbeats 1600000 in
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).owesAt () t.succ = (dat12 V c).owesAt () t.castSucc from rfl]
  rw [show (dat12 V c).Φ t.succ = Phi12 V c (t.val + 1) t.isLt from rfl, Phi12_succ]
  rw [show (dat12 V c).leavesExact 0 t = owns (c : Thread nD τ) (st12_0 t) fullShare ((dat12 V c).after 0 t) from by
    unfold Dat.leavesExact; rw [liveAt12_0 t], after12_0]
  rw [show (dat12 V c).leavesExact 1 t = owns (c : Thread nD τ) (st12_1 t) fullShare ((dat12 V c).after 1 t) from by
    unfold Dat.leavesExact; rw [liveAt12_1 t], after12_1]
  have hN : t.val < 50 := lt_of_lt_of_eq t.isLt (show cfg12.N = 50 from N_12)
  by_cases h2 : t.val = 49
  · have hz : t.val ≠ 0 := by omega
    rw [show (dat12 V c).leavesExact 2 t = owns (c : Thread nD τ) (st12_2 t) fullShare ((dat12 V c).after 2 t) from by
      unfold Dat.leavesExact; rw [liveAt12_2 t ((hcond12_2 t).mpr h2)], after12_2]
    rw [acc12_pos V c t hz]
    rw [Phi12_castSucc V c t, Phi12_pos V c _ _ hz]
    iintro ⟨⟨⟨HS, HR⟩, Hg⟩, Ho, ⟨%d0, H0⟩, ⟨%d1, H1⟩, ⟨%d2, H2⟩⟩
    iapply (sound_kernel12_last c Set.univ (grid12.coords t) _ _ _ _ _ _ _ _ (fun h => hz ((hcond12_1 t).mp h)) ((hcond12_2 t).mpr h2)
      (iblk12 V c 0 t) (iblk12 V c 1 t) _ _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · have hn2 : ¬cond12_2 (grid12.coords t) := fun h => h2 ((hcond12_2 t).mp h)
    rw [Dat.leavesExact_idle (dat12 V c) 2 t (idleAt12_2 t hn2) (noFlush12_2 t hn2)]
    by_cases h1 : t.val = 0
    · rw [acc12_zero V c t h1]
      rw [Phi12_castSucc V c t, Phi12_zero V c _ _ h1, PhiA12_eq]
      iintro ⟨⟨⟨HS, HR⟩, Hg⟩, Ho, ⟨%d0, H0⟩, ⟨%d1, H1⟩, ⟨%d2, H2⟩⟩
      iapply (sound_kernel12_first c Set.univ (grid12.coords t) _ _ _ _ _ _ _ _ ((hcond12_1 t).mpr h1) hn2
        (iblk12 V c 0 t) (iblk12 V c 1 t) _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
    · rw [acc12_pos V c t h1]
      rw [Phi12_castSucc V c t, Phi12_pos V c _ _ h1]
      iintro ⟨⟨⟨HS, HR⟩, Hg⟩, Ho, ⟨%d0, H0⟩, ⟨%d1, H1⟩, ⟨%d2, H2⟩⟩
      iapply (sound_kernel12_mid c Set.univ (grid12.coords t) _ _ _ _ _ _ _ _ (fun h => h1 ((hcond12_1 t).mp h)) hn2
        (iblk12 V c 0 t) (iblk12 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

theorem body_obligation12 (c : Dev nD) : BodyObligation (dat12 (F := F) V c) (defs₀ (F := F)) Variants.none () Set.univ := fun t => by
  rw [bigSep_W12, bigSep_W12]
  exact sound_body12 V c t

end Regions

section Value

open Idealize.ShloMosaic.ValueIdx

def hrows12 (h : Vec F S100000x64 .f32) (n : ℕ) (hn : n < 50) : Vec F S2000x64 .f32 :=
  fun y => h (ix2 (⟨2000 * n + (y 0).val, by have := idx2_lt0 y; omega⟩ : Fin 100000) (y 1))

def brows12 (b : Vec F S100000x1 .i32) (n : ℕ) (hn : n < 50) : Vec F S2000x1 .i32 :=
  fun y => b (ix2 (⟨2000 * n + (y 0).val, by have := idx2_lt0 y; omega⟩ : Fin 100000) (y 1))

def fold12 (h : Vec F S100000x64 .f32) (b : Vec F S100000x1 .i32) : (n : ℕ) → n < 50 → Vec F S512x64 .f32
  | 0, hn => k12_pay2 (brows12 b 0 hn) (hrows12 h 0 hn) (k12_pay1 (F := F))
  | n + 1, hn => k12_pay2 (brows12 b (n + 1) hn) (hrows12 h (n + 1) hn) (fold12 h b n (Nat.lt_of_succ_lt hn))

theorem fold12_zero (h : Vec F S100000x64 .f32) (b : Vec F S100000x1 .i32) (hn : 0 < 50) :
    fold12 h b 0 hn = k12_pay2 (brows12 b 0 hn) (hrows12 h 0 hn) (k12_pay1 (F := F)) := rfl

theorem fold12_succ (h : Vec F S100000x64 .f32) (b : Vec F S100000x1 .i32) (n : ℕ) (hn : n + 1 < 50) :
    fold12 h b (n + 1) hn = k12_pay2 (brows12 b (n + 1) hn) (hrows12 h (n + 1) hn) (fold12 h b n (Nat.lt_of_succ_lt hn)) := rfl

def res12_2 (h : Vec F S100000x64 .f32) (b : Vec F S100000x1 .i32) : Vec F S512x64 .f32 :=
  fold12 h b 49 (by omega)

theorem idx12 : ∀ t : Fin cfg12.N,
    win12_0.index t (0 : Fin 2) = t.val ∧ win12_0.index t (1 : Fin 2) = 0
    ∧ win12_1.index t (0 : Fin 2) = t.val ∧ win12_1.index t (1 : Fin 2) = 0
    ∧ win12_2.index t (0 : Fin 2) = 0 ∧ win12_2.index t (1 : Fin 2) = 0 :=
  (by decide +kernel : ∀ t : Fin grid12.N, _)

variable (V : (c : Dev nD) → (b : Ref sig .tc) → Buf (Elt F) ((c : Thread nD τ).loc b))

theorem iblk12_0_eq (c : Dev nD) (t : Fin cfg12.N) :
    iblk12 V c 0 t = hrows12 (V c (Pipeline.arrRef spec12 0)) t.val (lt_of_lt_of_eq t.isLt N_12) := by
  obtain ⟨e0, e1, -⟩ := idx12 t
  funext y
  have hy0 : (y 0).val < 2000 := idx2_lt0 y
  have e : ((cfg12.win 0).blk t).view.emb y
      = ix2 (⟨2000 * t.val + (y 0).val, by have := lt_of_lt_of_eq t.isLt N_12; omega⟩ : Fin 100000) (y 1) := by
    funext a; apply Fin.ext
    match a with
    | ⟨0, _⟩ => show win12_0.index t (0 : Fin 2) * 2000 + 1 * (y 0).val = 2000 * t.val + (y 0).val; omega
    | ⟨1, _⟩ => show win12_0.index t (1 : Fin 2) * 64 + 1 * (y 1).val = (y 1).val; omega
  exact congrArg (V c (Pipeline.arrRef spec12 0)) e

theorem iblk12_1_eq (c : Dev nD) (t : Fin cfg12.N) :
    iblk12 V c 1 t = brows12 (V c (Pipeline.arrRef spec12 1)) t.val (lt_of_lt_of_eq t.isLt N_12) := by
  obtain ⟨-, -, e2, e3, -⟩ := idx12 t
  funext y
  have hy0 : (y 0).val < 2000 := idx2_lt0 y
  have e : ((cfg12.win 1).blk t).view.emb y
      = ix2 (⟨2000 * t.val + (y 0).val, by have := lt_of_lt_of_eq t.isLt N_12; omega⟩ : Fin 100000) (y 1) := by
    funext a; apply Fin.ext
    match a with
    | ⟨0, _⟩ => show win12_1.index t (0 : Fin 2) * 2000 + 1 * (y 0).val = 2000 * t.val + (y 0).val; omega
    | ⟨1, _⟩ => show win12_1.index t (1 : Fin 2) * 1 + 1 * (y 1).val = (y 1).val; omega
  exact congrArg (V c (Pipeline.arrRef spec12 1)) e

theorem k12_pay2_congr {a a' : Vec F S2000x1 .i32} {x x' : Vec F S2000x64 .f32} {s s' : Vec F S512x64 .f32}
    (ha : a = a') (hx : x = x') (hs : s = s') : k12_pay2 a x s = k12_pay2 a' x' s' := by
  subst ha; subst hx; subst hs; rfl

theorem acc12_eq_fold (c : Dev nD) : ∀ (n : ℕ) (hn : n < cfg12.N),
    acc12 V c n hn = fold12 (V c (Pipeline.arrRef spec12 0)) (V c (Pipeline.arrRef spec12 1)) n (lt_of_lt_of_eq hn N_12)
  | 0, hn => k12_pay2_congr (iblk12_1_eq V c ⟨0, hn⟩) (iblk12_0_eq V c ⟨0, hn⟩) rfl
  | n + 1, hn => k12_pay2_congr (iblk12_1_eq V c ⟨n + 1, hn⟩) (iblk12_0_eq V c ⟨n + 1, hn⟩)
      (acc12_eq_fold c n (Nat.lt_of_succ_lt hn))

theorem flushed12_2_eq (c : Dev nD) (t : Fin cfg12.N) (hf : (cfg12.win 2).flush t = true) :
    (dat12 V c).flushed 2 t
      = ((cfg12.win 2).blk t).view.read (Elt F) (res12_2 (V c (Pipeline.arrRef spec12 0)) (V c (Pipeline.arrRef spec12 1))) := by
  have hN : t.val < 50 := lt_of_lt_of_eq t.isLt N_12
  have h49 : t.val = 49 := by have := (flush12_2 t).mp hf; omega
  obtain ⟨-, -, -, -, e4, e5⟩ := idx12 t
  show (cfg12.win 2).cut (grid12.coords t) ((dat12 V c).after 2 t) = _
  rw [after12_2]
  funext y
  have e : ((cfg12.win 2).blk t).view.emb y = y := by
    funext a; apply Fin.ext
    match a with
    | ⟨0, _⟩ => show win12_2.index t (0 : Fin 2) * 512 + 1 * (y 0).val = (y 0).val; omega
    | ⟨1, _⟩ => show win12_2.index t (1 : Fin 2) * 64 + 1 * (y 1).val = (y 1).val; omega
  refine Eq.trans ?_ (congrArg (res12_2 (V c (Pipeline.arrRef spec12 0)) (V c (Pipeline.arrRef spec12 1))) e).symm
  obtain ⟨n, hn⟩ := t
  obtain rfl : n = 49 := h49
  exact congrFun (acc12_eq_fold V c 49 hn) y

theorem cover12_2 (i : S512x64.Idx) :
    ∃ t : Fin cfg12.N, (cfg12.win 2).flush t = true ∧ i ∈ ((cfg12.win 2).blk t).view.set := by
  have hi0 : (i 0).val < 512 := idx2_lt0 i
  have hi1 : (i 1).val < 64 := idx2_lt1 i
  obtain ⟨t, ht⟩ : ∃ t : Fin cfg12.N, t.val = 49 := ⟨⟨49, by rw [show cfg12.N = 50 from N_12]; omega⟩, rfl⟩
  refine ⟨t, (flush12_2 t).mpr (by rw [ht]), ?_⟩
  obtain ⟨-, -, -, -, e4, e5⟩ := idx12 t
  show i ∈ ((View.whole main_v101).slice (win12_2.rect t)).set
  rw [View.set_slice_whole, Rect.mem_set_unit]
  intro a
  match a with
  | ⟨0, _⟩ => show win12_2.index t (0 : Fin 2) * 512 ≤ (i 0).val ∧ (i 0).val < win12_2.index t (0 : Fin 2) * 512 + 512; omega
  | ⟨1, _⟩ => show win12_2.index t (1 : Fin 2) * 64 ≤ (i 1).val ∧ (i 1).val < win12_2.index t (1 : Fin 2) * 64 + 64; omega

theorem final12_2 (c : Dev nD) :
    (dat12 V c).arrAt 2 cfg12.N = res12_2 (V c (Pipeline.arrRef spec12 0)) (V c (Pipeline.arrRef spec12 1)) :=
  (dat12 V c).arrAt_eq_of_cover 2 (res12_2 (V c (Pipeline.arrRef spec12 0)) (V c (Pipeline.arrRef spec12 1)))
    (fun t hf => flushed12_2_eq V c t hf) cover12_2

end Value

end Cert.KernelIdeal.Hand

end
-- ==== Proof.KI.Reg13.lean ====
import proofs.«424828_j6554120094214_2_alg».proof.Proof.Gen.KernelIdeal.Launch
import proofs.«424828_j6554120094214_2_alg».proof.Proof.Gen.KernelIdeal.Skeleton
import proofs.«424828_j6554120094214_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ

abbrev cond13_1 (i : grid13.Coords) : Prop :=
  (Scalar.cmpi .ne (Scalar.extui (Scalar.cmpi .eq (BitVec.ofNat 32 (i 0).val) 0#32)) 0#32) = 1#1

abbrev cond13_2 (i : grid13.Coords) : Prop := k13_cond2 i = 1#1

theorem hcond13_1 : ∀ t : Fin cfg13.N, cond13_1 (grid13.coords t) ↔ t.val = 0 :=
  (by decide +kernel : ∀ t : Fin grid13.N, cond13_1 (grid13.coords t) ↔ t.val = 0)

theorem hcond13_2 : ∀ t : Fin cfg13.N, cond13_2 (grid13.coords t) ↔ t.val = 49 :=
  (by decide +kernel : ∀ t : Fin grid13.N, cond13_2 (grid13.coords t) ↔ t.val = 49)

theorem liveAt13_0 : ∀ t : Fin cfg13.N, cfg13.idle 0 (grid13.coords t) = false := fun _ => rfl

theorem liveAt13_1 : ∀ t : Fin cfg13.N, cfg13.idle 1 (grid13.coords t) = false := fun _ => rfl

theorem idleAt13_2 : ∀ t : Fin cfg13.N, ¬cond13_2 (grid13.coords t) → cfg13.idle 2 (grid13.coords t) = true := by decide +kernel

theorem noFlush13_2 : ∀ t : Fin cfg13.N, ¬cond13_2 (grid13.coords t) → (cfg13.win 2).flush t = false := by decide +kernel

theorem liveAt13_2 : ∀ t : Fin cfg13.N, cond13_2 (grid13.coords t) → cfg13.idle 2 (grid13.coords t) = false := by decide +kernel

theorem hz13 : (![0, 0] : Fin 2 → Nat) = fun _ => 0 := funext fun a => by fin_cases a <;> rfl

theorem read_store13 {κ : Kind} {sp : Space} (v : View sig κ sp S512x64 .f32) (f : v.ty.Contents (Elt F))
    (w : S512x64.Idx → Elt F .f32) (L : List (View.Piece (Elt F) S512x64 .f32)) :
    v.read (Elt F) (v.writes (Elt F) f ((⟨Rect.unit ![0, 0] S512x64.size inb_S512x64_S512x64_0_0, w⟩ : View.Piece (Elt F) S512x64 .f32) :: L)) = w := by
  have hc : ∀ y : S512x64.Idx, ∃ p ∈ ((⟨Rect.unit ![0, 0] S512x64.size inb_S512x64_S512x64_0_0, w⟩ : View.Piece (Elt F) S512x64 .f32) :: L), y ∈ p.1.set :=
    fun y => ⟨_, List.mem_cons_self, View.mem_set_unit_zero (S := S512x64) hz13 inb_S512x64_S512x64_0_0 y⟩
  exact (View.read_writes_eq_canon v f _ hc).trans
    (View.canon_cons_unit_zero (S := S512x64) hz13 inb_S512x64_S512x64_0_0 w L)

set_option maxHeartbeats 400000 in
theorem sound_kernel13_first (c : Dev nD) (E : Set ℕ) (i : grid13.Coords)
    (arg1 : Memref sig .tc .vmem S2000x64 .f32) (harg1 : arg1.IsWhole)
    (arg2 : Memref sig .tc .vmem S2000x1 .i32) (harg2 : arg2.IsWhole)
    (arg3 : Memref sig .tc .vmem S512x64 .f32) (harg3 : arg3.IsWhole)
    (arg4 : Memref sig .tc .vmem S512x64 .f32) (harg4 : arg4.IsWhole)
    (hc1 : cond13_1 i) (hc2 : ¬cond13_2 i)
    (x0 : Vec F S2000x64 .f32) (x1 : Vec F S2000x1 .i32) (xi : Vec F S512x64 .f32)
    (K : PUnit → sProp 𝕄) :
    iprop(owns (c : Thread nD τ) arg1 fullShare x0 ∗ owns (c : Thread nD τ) arg2 fullShare x1
        ∗ owns (c : Thread nD τ) arg3 fullShare xi ∗ (∃ d, owns (c : Thread nD τ) arg4 fullShare d)
        ∗ (iprop(owns (c : Thread nD τ) arg1 fullShare x0 ∗ owns (c : Thread nD τ) arg2 fullShare x1
            ∗ owns (c : Thread nD τ) arg3 fullShare xi ∗ owns (c : Thread nD τ) arg4 fullShare (k13_pay2 x1 x0 (k13_pay1 (F := F)))) -∗ K ⟨⟩))
      ⊢ wp frame (wpE (defs₀ (F := F)) Variants.none c none) E (cc13__pool_kernel i arg1 harg1 arg2 harg2 arg3 harg3 arg4 harg4) K := by
  simp only [cc13__pool_kernel_eq_skeleton]; unfold cc13__pool_kernel_skel
  unfold owns
  iintro ⟨⟨%f0, %hf0, H0⟩, ⟨%f1, %hf1, H1⟩, ⟨%f3, %hf3, H3⟩, ⟨%ds, %fs, -, HS⟩, Hk⟩
  subst hf0; subst hf1; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H3]
  · iexists f3; isplitr; · ipureintro; rfl
    iexact H3
  iexists _; isplitr
  swap; · iexact HS
  ipureintro
  refine (read_store13 (F := F) _ _ _ _).trans ?_
  sl_unfold_words
  simp only [View.readAt_eq_ld, View.ld_unit_zero (S := S2000x1) hz13, View.ld_unit_zero (S := S2000x64) hz13, View.ld_unit_zero (S := S512x64) hz13, View.readCov_unit_zero (Val := Elt F) (S := S512x64) _ hz13]

set_option maxHeartbeats 400000 in
theorem sound_kernel13_mid (c : Dev nD) (E : Set ℕ) (i : grid13.Coords)
    (arg1 : Memref sig .tc .vmem S2000x64 .f32) (harg1 : arg1.IsWhole)
    (arg2 : Memref sig .tc .vmem S2000x1 .i32) (harg2 : arg2.IsWhole)
    (arg3 : Memref sig .tc .vmem S512x64 .f32) (harg3 : arg3.IsWhole)
    (arg4 : Memref sig .tc .vmem S512x64 .f32) (harg4 : arg4.IsWhole)
    (hc1 : ¬cond13_1 i) (hc2 : ¬cond13_2 i)
    (x0 : Vec F S2000x64 .f32) (x1 : Vec F S2000x1 .i32) (xi : Vec F S512x64 .f32) (xs : Vec F S512x64 .f32)
    (K : PUnit → sProp 𝕄) :
    iprop(owns (c : Thread nD τ) arg1 fullShare x0 ∗ owns (c : Thread nD τ) arg2 fullShare x1
        ∗ owns (c : Thread nD τ) arg3 fullShare xi ∗ owns (c : Thread nD τ) arg4 fullShare xs
        ∗ (iprop(owns (c : Thread nD τ) arg1 fullShare x0 ∗ owns (c : Thread nD τ) arg2 fullShare x1
            ∗ owns (c : Thread nD τ) arg3 fullShare xi ∗ owns (c : Thread nD τ) arg4 fullShare (k13_pay2 x1 x0 xs)) -∗ K ⟨⟩))
      ⊢ wp frame (wpE (defs₀ (F := F)) Variants.none c none) E (cc13__pool_kernel i arg1 harg1 arg2 harg2 arg3 harg3 arg4 harg4) K := by
  simp only [cc13__pool_kernel_eq_skeleton]; unfold cc13__pool_kernel_skel
  unfold owns
  iintro ⟨⟨%f0, %hf0, H0⟩, ⟨%f1, %hf1, H1⟩, ⟨%f3, %hf3, H3⟩, ⟨%fs, %hfs, HS⟩, Hk⟩
  subst hf0; subst hf1; subst hf3; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H3]
  · iexists f3; isplitr; · ipureintro; rfl
    iexact H3
  iexists _; isplitr
  swap; · iexact HS
  ipureintro
  refine (read_store13 (F := F) _ _ _ _).trans ?_
  simp only [View.readAt_eq_ld, View.ld_unit_zero (S := S2000x1) hz13, View.ld_unit_zero (S := S2000x64) hz13, View.ld_unit_zero (S := S512x64) hz13]

set_option maxHeartbeats 400000 in
theorem sound_kernel13_last (c : Dev nD) (E : Set ℕ) (i : grid13.Coords)
    (arg1 : Memref sig .tc .vmem S2000x64 .f32) (harg1 : arg1.IsWhole)
    (arg2 : Memref sig .tc .vmem S2000x1 .i32) (harg2 : arg2.IsWhole)
    (arg3 : Memref sig .tc .vmem S512x64 .f32) (harg3 : arg3.IsWhole)
    (arg4 : Memref sig .tc .vmem S512x64 .f32) (harg4 : arg4.IsWhole)
    (hc1 : ¬cond13_1 i) (hc2 : cond13_2 i)
    (x0 : Vec F S2000x64 .f32) (x1 : Vec F S2000x1 .i32) (xs : Vec F S512x64 .f32)
    (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xs
        ∗ (iprop(owns (c : Thread nD τ) arg1 fullShare x0 ∗ owns (c : Thread nD τ) arg2 fullShare x1
            ∗ owns (c : Thread nD τ) arg3 fullShare (k13_pay2 x1 x0 xs) ∗ owns (c : Thread nD τ) arg4 fullShare (k13_pay2 x1 x0 xs)) -∗ K ⟨⟩))
      ⊢ wp frame (wpE (defs₀ (F := F)) Variants.none c none) E (cc13__pool_kernel i arg1 harg1 arg2 harg2 arg3 harg3 arg4 harg4) K := by
  simp only [cc13__pool_kernel_eq_skeleton]; unfold cc13__pool_kernel_skel
  unfold owns
  iintro ⟨⟨%f0, %hf0, H0⟩, ⟨%f1, %hf1, H1⟩, ⟨%d3, %f3, -, H3⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    refine (read_store13 (F := F) _ _ _ _).trans ?_
    sl_unfold_words
    simp only [View.readAt_eq_ld, View.ld_unit_zero (S := S2000x1) hz13, View.ld_unit_zero (S := S2000x64) hz13, View.ld_unit_zero (S := S512x64) hz13, View.readCov_unit_zero (Val := Elt F) (S := S512x64) _ hz13]
  iexists _; isplitr
  swap; · iexact HS
  ipureintro
  sl_unfold_words
  refine (read_store13 (F := F) _ _ _ _).trans ?_
  simp only [View.readAt_eq_ld, View.ld_unit_zero (S := S2000x1) hz13, View.ld_unit_zero (S := S2000x64) hz13, View.ld_unit_zero (S := S512x64) hz13]

section Regions

variable (V : (c : Dev nD) → (b : Ref sig .tc) → Buf (Elt F) ((c : Thread nD τ).loc b))

def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

theorem before13_0_of {c : Dev nD} (dat : Dat τ (Elt F) Unit ℕ (UR sig nD τ) ℕ cfg13 c) (hA : dat.A 0 = V c (Pipeline.arrRef spec13 0))
    (t : Fin cfg13.N) (d) : dat.before 0 t d = iblk13 V c 0 t :=
  (dat.before_fetched 0 t (fetch13_0 t) d).trans (by unfold Dat.fetched Dat.blockOf iblk13; rw [hA]; try rfl)

theorem before13_1_of {c : Dev nD} (dat : Dat τ (Elt F) Unit ℕ (UR sig nD τ) ℕ cfg13 c) (hA : dat.A 1 = V c (Pipeline.arrRef spec13 1))
    (t : Fin cfg13.N) (d) : dat.before 1 t d = iblk13 V c 1 t :=
  (dat.before_fetched 1 t (fetch13_1 t) d).trans (by unfold Dat.fetched Dat.blockOf iblk13; rw [hA]; try rfl)

def acc13 (c : Dev nD) : (n : ℕ) → n < cfg13.N → Vec F S512x64 .f32
  | 0, hn => k13_pay2 (iblk13 V c 1 ⟨0, hn⟩) (iblk13 V c 0 ⟨0, hn⟩) (k13_pay1 (F := F))
  | n + 1, hn => k13_pay2 (iblk13 V c 1 ⟨n + 1, hn⟩) (iblk13 V c 0 ⟨n + 1, hn⟩) (acc13 c n (Nat.lt_of_succ_lt hn))

theorem acc13_zero (c : Dev nD) (t : Fin cfg13.N) (h : t.val = 0) :
    acc13 V c t.val t.isLt = k13_pay2 (iblk13 V c 1 t) (iblk13 V c 0 t) (k13_pay1 (F := F)) := by
  obtain ⟨n, hn⟩ := t
  cases n with
  | zero => rfl
  | succ n => exact absurd h (Nat.succ_ne_zero n)

theorem acc13_pos (c : Dev nD) (t : Fin cfg13.N) (h : t.val ≠ 0) :
    acc13 V c t.val t.isLt = k13_pay2 (iblk13 V c 1 t) (iblk13 V c 0 t)
      (acc13 V c (t.val - 1) (Nat.lt_of_le_of_lt (Nat.sub_le _ _) t.isLt)) := by
  obtain ⟨n, hn⟩ := t
  cases n with
  | zero => exact absurd rfl h
  | succ n => rfl

abbrev scM13 : Memref sig .tc .vmem S512x64 .f32 := Memref.whole cc13_scratch0

theorem PhiA13_eq (c : Dev nD) :
    (Pipeline.ΦA spec13 c : sProp 𝕄)
      = iprop(iprop((∃ d, owns (c : Thread nD τ) scM13 fullShare d)
            ∗ Pipeline.scopedRestBut (Ix := Unit) (Name := ℕ) (U := UR sig nD τ) (Lvl := ℕ) (Val := Elt F) spec13 c [cc13_scratch0])
          ∗ (∃ r, prngReg c r)) := by
  unfold Pipeline.ΦA; rw [scopedRest13_split]; simp only [scM13, owns_whole]
  rfl

def Phi13 (c : Dev nD) : (n : ℕ) → n ≤ cfg13.N → sProp 𝕄
  | 0, _ => Pipeline.ΦA spec13 c
  | n + 1, hn => iprop(iprop(owns (c : Thread nD τ) scM13 fullShare (acc13 V c n hn)
        ∗ Pipeline.scopedRestBut (Ix := Unit) (Name := ℕ) (U := UR sig nD τ) (Lvl := ℕ) (Val := Elt F) spec13 c [cc13_scratch0])
      ∗ (∃ r, prngReg c r))

theorem Phi13_zero (c : Dev nD) (n : ℕ) (h : n ≤ cfg13.N) (hz : n = 0) : Phi13 V c n h = Pipeline.ΦA spec13 c := by
  subst hz; rfl

theorem Phi13_succ (c : Dev nD) (n : ℕ) (hn : n < cfg13.N) :
    Phi13 V c (n + 1) hn = iprop(iprop(owns (c : Thread nD τ) scM13 fullShare (acc13 V c n hn)
        ∗ Pipeline.scopedRestBut (Ix := Unit) (Name := ℕ) (U := UR sig nD τ) (Lvl := ℕ) (Val := Elt F) spec13 c [cc13_scratch0])
      ∗ (∃ r, prngReg c r)) := rfl

theorem Phi13_pos (c : Dev nD) (n : ℕ) (h : n ≤ cfg13.N) (hz : n ≠ 0) :
    Phi13 V c n h = iprop(iprop(owns (c : Thread nD τ) scM13 fullShare (acc13 V c (n - 1) (by omega))
        ∗ Pipeline.scopedRestBut (Ix := Unit) (Name := ℕ) (U := UR sig nD τ) (Lvl := ℕ) (Val := Elt F) spec13 c [cc13_scratch0])
      ∗ (∃ r, prngReg c r)) := by
  cases n with
  | zero => exact absurd rfl hz
  | succ n => rfl

def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => acc13 V c t.val t.isLt
  Φ t := Phi13 V c t.val (Nat.le_of_lt_succ t.isLt)
  q _ := fullShare
  owed _ := 0

theorem A_eq13 (c : Dev nD) (w : Fin cfg13.W) : (dat13 V c).A w = V c (Pipeline.arrRef spec13 w) := by
  dsimp only [dat13]

theorem owed13 (c : Dev nD) : ∀ x, (dat13 V c).owed x = 0 := fun _ => rfl

theorem share13 (c : Dev nD) : ∀ w, (dat13 V c).q w = fullShare := fun _ => rfl

theorem recorded13 (c : Dev nD) : ∀ t, (dat13 V c).recorded t = Set.univ := fun _ => rfl

theorem after13_0 (c : Dev nD) (t : Fin cfg13.N) : (dat13 V c).after 0 t = iblk13 V c 0 t := by dsimp only [dat13]

theorem after13_1 (c : Dev nD) (t : Fin cfg13.N) : (dat13 V c).after 1 t = iblk13 V c 1 t := by dsimp only [dat13]

theorem after13_2 (c : Dev nD) (t : Fin cfg13.N) : (dat13 V c).after 2 t = acc13 V c t.val t.isLt := by dsimp only [dat13]

theorem before13_0 (c : Dev nD) (t : Fin cfg13.N) (d) : (dat13 V c).before 0 t d = iblk13 V c 0 t :=
  before13_0_of V (dat13 V c) (A_eq13 V c 0) t d

theorem before13_1 (c : Dev nD) (t : Fin cfg13.N) (d) : (dat13 V c).before 1 t d = iblk13 V c 1 t :=
  before13_1_of V (dat13 V c) (A_eq13 V c 1) t d

theorem Phi13_castSucc (c : Dev nD) (t : Fin cfg13.N) :
    (dat13 V c).Φ t.castSucc = Phi13 V c t.val (Nat.le_of_lt t.isLt) := by
  dsimp only [dat13]; simp only [Fin.coe_castSucc]

theorem Phi_in13 (c : Dev nD) : (dat13 V c).Φ 0 = Pipeline.ΦA spec13 c := by
  rw [show (dat13 V c).Φ 0 = Phi13 V c 0 (Nat.zero_le _) from rfl, Phi13_zero V c 0 _ rfl]

theorem Phi_out13 (c : Dev nD) : (dat13 V c).Φ (Fin.last _) ⊢ Pipeline.ΦA spec13 c := by
  have hN : cfg13.N = 50 := N_13
  rw [show (dat13 V c).Φ (Fin.last _) = Phi13 V c (Fin.last cfg13.N).val (Nat.le_of_lt_succ (Fin.last cfg13.N).isLt) from rfl,
    Phi13_pos V c _ _ (by rw [Fin.val_last]; omega), PhiA13_eq]
  iintro ⟨⟨HS, HR⟩, Hg⟩
  isplitl [HS HR]
  · isplitl [HS]
    · iexists _; iexact HS
    iexact HR
  iexact Hg

def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d)))

def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t)

set_option maxHeartbeats 1600000 in
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).owesAt () t.succ = (dat13 V c).owesAt () t.castSucc from rfl]
  rw [show (dat13 V c).Φ t.succ = Phi13 V c (t.val + 1) t.isLt from rfl, Phi13_succ]
  rw [show (dat13 V c).leavesExact 0 t = owns (c : Thread nD τ) (st13_0 t) fullShare ((dat13 V c).after 0 t) from by
    unfold Dat.leavesExact; rw [liveAt13_0 t], after13_0]
  rw [show (dat13 V c).leavesExact 1 t = owns (c : Thread nD τ) (st13_1 t) fullShare ((dat13 V c).after 1 t) from by
    unfold Dat.leavesExact; rw [liveAt13_1 t], after13_1]
  have hN : t.val < 50 := lt_of_lt_of_eq t.isLt (show cfg13.N = 50 from N_13)
  by_cases h2 : t.val = 49
  · have hz : t.val ≠ 0 := by omega
    rw [show (dat13 V c).leavesExact 2 t = owns (c : Thread nD τ) (st13_2 t) fullShare ((dat13 V c).after 2 t) from by
      unfold Dat.leavesExact; rw [liveAt13_2 t ((hcond13_2 t).mpr h2)], after13_2]
    rw [acc13_pos V c t hz]
    rw [Phi13_castSucc V c t, Phi13_pos V c _ _ hz]
    iintro ⟨⟨⟨HS, HR⟩, Hg⟩, Ho, ⟨%d0, H0⟩, ⟨%d1, H1⟩, ⟨%d2, H2⟩⟩
    iapply (sound_kernel13_last c Set.univ (grid13.coords t) _ _ _ _ _ _ _ _ (fun h => hz ((hcond13_1 t).mp h)) ((hcond13_2 t).mpr h2)
      (iblk13 V c 0 t) (iblk13 V c 1 t) _ _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · have hn2 : ¬cond13_2 (grid13.coords t) := fun h => h2 ((hcond13_2 t).mp h)
    rw [Dat.leavesExact_idle (dat13 V c) 2 t (idleAt13_2 t hn2) (noFlush13_2 t hn2)]
    by_cases h1 : t.val = 0
    · rw [acc13_zero V c t h1]
      rw [Phi13_castSucc V c t, Phi13_zero V c _ _ h1, PhiA13_eq]
      iintro ⟨⟨⟨HS, HR⟩, Hg⟩, Ho, ⟨%d0, H0⟩, ⟨%d1, H1⟩, ⟨%d2, H2⟩⟩
      iapply (sound_kernel13_first c Set.univ (grid13.coords t) _ _ _ _ _ _ _ _ ((hcond13_1 t).mpr h1) hn2
        (iblk13 V c 0 t) (iblk13 V c 1 t) _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
    · rw [acc13_pos V c t h1]
      rw [Phi13_castSucc V c t, Phi13_pos V c _ _ h1]
      iintro ⟨⟨⟨HS, HR⟩, Hg⟩, Ho, ⟨%d0, H0⟩, ⟨%d1, H1⟩, ⟨%d2, H2⟩⟩
      iapply (sound_kernel13_mid c Set.univ (grid13.coords t) _ _ _ _ _ _ _ _ (fun h => h1 ((hcond13_1 t).mp h)) hn2
        (iblk13 V c 0 t) (iblk13 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

theorem body_obligation13 (c : Dev nD) : BodyObligation (dat13 (F := F) V c) (defs₀ (F := F)) Variants.none () Set.univ := fun t => by
  rw [bigSep_W13, bigSep_W13]
  exact sound_body13 V c t

end Regions

section Value

open Idealize.ShloMosaic.ValueIdx

def hrows13 (h : Vec F S100000x64 .f32) (n : ℕ) (hn : n < 50) : Vec F S2000x64 .f32 :=
  fun y => h (ix2 (⟨2000 * n + (y 0).val, by have := idx2_lt0 y; omega⟩ : Fin 100000) (y 1))

def brows13 (b : Vec F S100000x1 .i32) (n : ℕ) (hn : n < 50) : Vec F S2000x1 .i32 :=
  fun y => b (ix2 (⟨2000 * n + (y 0).val, by have := idx2_lt0 y; omega⟩ : Fin 100000) (y 1))

def fold13 (h : Vec F S100000x64 .f32) (b : Vec F S100000x1 .i32) : (n : ℕ) → n < 50 → Vec F S512x64 .f32
  | 0, hn => k13_pay2 (brows13 b 0 hn) (hrows13 h 0 hn) (k13_pay1 (F := F))
  | n + 1, hn => k13_pay2 (brows13 b (n + 1) hn) (hrows13 h (n + 1) hn) (fold13 h b n (Nat.lt_of_succ_lt hn))

theorem fold13_succ (h : Vec F S100000x64 .f32) (b : Vec F S100000x1 .i32) (n : ℕ) (hn : n + 1 < 50) :
    fold13 h b (n + 1) hn = k13_pay2 (brows13 b (n + 1) hn) (hrows13 h (n + 1) hn) (fold13 h b n (Nat.lt_of_succ_lt hn)) := rfl

def res13_2 (h : Vec F S100000x64 .f32) (b : Vec F S100000x1 .i32) : Vec F S512x64 .f32 :=
  fold13 h b 49 (by omega)

theorem idx13 : ∀ t : Fin cfg13.N,
    win13_0.index t (0 : Fin 2) = t.val ∧ win13_0.index t (1 : Fin 2) = 0
    ∧ win13_1.index t (0 : Fin 2) = t.val ∧ win13_1.index t (1 : Fin 2) = 0
    ∧ win13_2.index t (0 : Fin 2) = 0 ∧ win13_2.index t (1 : Fin 2) = 0 :=
  (by decide +kernel : ∀ t : Fin grid13.N, _)

variable (V : (c : Dev nD) → (b : Ref sig .tc) → Buf (Elt F) ((c : Thread nD τ).loc b))

theorem iblk13_0_eq (c : Dev nD) (t : Fin cfg13.N) :
    iblk13 V c 0 t = hrows13 (V c (Pipeline.arrRef spec13 0)) t.val (lt_of_lt_of_eq t.isLt N_13) := by
  obtain ⟨e0, e1, -⟩ := idx13 t
  funext y
  have hy0 : (y 0).val < 2000 := idx2_lt0 y
  have e : ((cfg13.win 0).blk t).view.emb y
      = ix2 (⟨2000 * t.val + (y 0).val, by have := lt_of_lt_of_eq t.isLt N_13; omega⟩ : Fin 100000) (y 1) := by
    funext a; apply Fin.ext
    match a with
    | ⟨0, _⟩ => show win13_0.index t (0 : Fin 2) * 2000 + 1 * (y 0).val = 2000 * t.val + (y 0).val; omega
    | ⟨1, _⟩ => show win13_0.index t (1 : Fin 2) * 64 + 1 * (y 1).val = (y 1).val; omega
  exact congrArg (V c (Pipeline.arrRef spec13 0)) e

theorem iblk13_1_eq (c : Dev nD) (t : Fin cfg13.N) :
    iblk13 V c 1 t = brows13 (V c (Pipeline.arrRef spec13 1)) t.val (lt_of_lt_of_eq t.isLt N_13) := by
  obtain ⟨-, -, e2, e3, -⟩ := idx13 t
  funext y
  have hy0 : (y 0).val < 2000 := idx2_lt0 y
  have e : ((cfg13.win 1).blk t).view.emb y
      = ix2 (⟨2000 * t.val + (y 0).val, by have := lt_of_lt_of_eq t.isLt N_13; omega⟩ : Fin 100000) (y 1) := by
    funext a; apply Fin.ext
    match a with
    | ⟨0, _⟩ => show win13_1.index t (0 : Fin 2) * 2000 + 1 * (y 0).val = 2000 * t.val + (y 0).val; omega
    | ⟨1, _⟩ => show win13_1.index t (1 : Fin 2) * 1 + 1 * (y 1).val = (y 1).val; omega
  exact congrArg (V c (Pipeline.arrRef spec13 1)) e

theorem k13_pay2_congr {a a' : Vec F S2000x1 .i32} {x x' : Vec F S2000x64 .f32} {s s' : Vec F S512x64 .f32}
    (ha : a = a') (hx : x = x') (hs : s = s') : k13_pay2 a x s = k13_pay2 a' x' s' := by
  subst ha; subst hx; subst hs; rfl

theorem acc13_eq_fold (c : Dev nD) : ∀ (n : ℕ) (hn : n < cfg13.N),
    acc13 V c n hn = fold13 (V c (Pipeline.arrRef spec13 0)) (V c (Pipeline.arrRef spec13 1)) n (lt_of_lt_of_eq hn N_13)
  | 0, hn => k13_pay2_congr (iblk13_1_eq V c ⟨0, hn⟩) (iblk13_0_eq V c ⟨0, hn⟩) rfl
  | n + 1, hn => k13_pay2_congr (iblk13_1_eq V c ⟨n + 1, hn⟩) (iblk13_0_eq V c ⟨n + 1, hn⟩)
      (acc13_eq_fold c n (Nat.lt_of_succ_lt hn))

theorem flushed13_2_eq (c : Dev nD) (t : Fin cfg13.N) (hf : (cfg13.win 2).flush t = true) :
    (dat13 V c).flushed 2 t
      = ((cfg13.win 2).blk t).view.read (Elt F) (res13_2 (V c (Pipeline.arrRef spec13 0)) (V c (Pipeline.arrRef spec13 1))) := by
  have hN : t.val < 50 := lt_of_lt_of_eq t.isLt N_13
  have h49 : t.val = 49 := by have := (flush13_2 t).mp hf; omega
  obtain ⟨-, -, -, -, e4, e5⟩ := idx13 t
  show (cfg13.win 2).cut (grid13.coords t) ((dat13 V c).after 2 t) = _
  rw [after13_2]
  funext y
  have e : ((cfg13.win 2).blk t).view.emb y = y := by
    funext a; apply Fin.ext
    match a with
    | ⟨0, _⟩ => show win13_2.index t (0 : Fin 2) * 512 + 1 * (y 0).val = (y 0).val; omega
    | ⟨1, _⟩ => show win13_2.index t (1 : Fin 2) * 64 + 1 * (y 1).val = (y 1).val; omega
  refine Eq.trans ?_ (congrArg (res13_2 (V c (Pipeline.arrRef spec13 0)) (V c (Pipeline.arrRef spec13 1))) e).symm
  obtain ⟨n, hn⟩ := t
  obtain rfl : n = 49 := h49
  exact congrFun (acc13_eq_fold V c 49 hn) y

theorem cover13_2 (i : S512x64.Idx) :
    ∃ t : Fin cfg13.N, (cfg13.win 2).flush t = true ∧ i ∈ ((cfg13.win 2).blk t).view.set := by
  have hi0 : (i 0).val < 512 := idx2_lt0 i
  have hi1 : (i 1).val < 64 := idx2_lt1 i
  obtain ⟨t, ht⟩ : ∃ t : Fin cfg13.N, t.val = 49 := ⟨⟨49, by rw [show cfg13.N = 50 from N_13]; omega⟩, rfl⟩
  refine ⟨t, (flush13_2 t).mpr (by rw [ht]), ?_⟩
  obtain ⟨-, -, -, -, e4, e5⟩ := idx13 t
  show i ∈ ((View.whole main_v102).slice (win13_2.rect t)).set
  rw [View.set_slice_whole, Rect.mem_set_unit]
  intro a
  match a with
  | ⟨0, _⟩ => show win13_2.index t (0 : Fin 2) * 512 ≤ (i 0).val ∧ (i 0).val < win13_2.index t (0 : Fin 2) * 512 + 512; omega
  | ⟨1, _⟩ => show win13_2.index t (1 : Fin 2) * 64 ≤ (i 1).val ∧ (i 1).val < win13_2.index t (1 : Fin 2) * 64 + 64; omega

theorem final13_2 (c : Dev nD) :
    (dat13 V c).arrAt 2 cfg13.N = res13_2 (V c (Pipeline.arrRef spec13 0)) (V c (Pipeline.arrRef spec13 1)) :=
  (dat13 V c).arrAt_eq_of_cover 2 (res13_2 (V c (Pipeline.arrRef spec13 0)) (V c (Pipeline.arrRef spec13 1)))
    (fun t hf => flushed13_2_eq V c t hf) cover13_2

end Value

end Cert.KernelIdeal.Hand

end
-- ==== Proof.KI.Reg14.lean ====
import proofs.«424828_j6554120094214_2_alg».proof.Proof.Gen.KernelIdeal.Launch
import proofs.«424828_j6554120094214_2_alg».proof.Proof.Gen.KernelIdeal.Skeleton
import proofs.«424828_j6554120094214_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ

abbrev cond14_1 (i : grid14.Coords) : Prop :=
  (Scalar.cmpi .ne (Scalar.extui (Scalar.cmpi .eq (BitVec.ofNat 32 (i 0).val) 0#32)) 0#32) = 1#1

abbrev cond14_2 (i : grid14.Coords) : Prop := k14_cond2 i = 1#1

theorem hcond14_1 : ∀ t : Fin cfg14.N, cond14_1 (grid14.coords t) ↔ t.val = 0 :=
  (by decide +kernel : ∀ t : Fin grid14.N, cond14_1 (grid14.coords t) ↔ t.val = 0)

theorem hcond14_2 : ∀ t : Fin cfg14.N, cond14_2 (grid14.coords t) ↔ t.val = 49 :=
  (by decide +kernel : ∀ t : Fin grid14.N, cond14_2 (grid14.coords t) ↔ t.val = 49)

theorem liveAt14_0 : ∀ t : Fin cfg14.N, cfg14.idle 0 (grid14.coords t) = false := fun _ => rfl

theorem liveAt14_1 : ∀ t : Fin cfg14.N, cfg14.idle 1 (grid14.coords t) = false := fun _ => rfl

theorem idleAt14_2 : ∀ t : Fin cfg14.N, ¬cond14_2 (grid14.coords t) → cfg14.idle 2 (grid14.coords t) = true := by decide +kernel

theorem noFlush14_2 : ∀ t : Fin cfg14.N, ¬cond14_2 (grid14.coords t) → (cfg14.win 2).flush t = false := by decide +kernel

theorem liveAt14_2 : ∀ t : Fin cfg14.N, cond14_2 (grid14.coords t) → cfg14.idle 2 (grid14.coords t) = false := by decide +kernel

theorem hz14 : (![0, 0] : Fin 2 → Nat) = fun _ => 0 := funext fun a => by fin_cases a <;> rfl

theorem read_store14 {κ : Kind} {sp : Space} (v : View sig κ sp S512x64 .f32) (f : v.ty.Contents (Elt F))
    (w : S512x64.Idx → Elt F .f32) (L : List (View.Piece (Elt F) S512x64 .f32)) :
    v.read (Elt F) (v.writes (Elt F) f ((⟨Rect.unit ![0, 0] S512x64.size inb_S512x64_S512x64_0_0, w⟩ : View.Piece (Elt F) S512x64 .f32) :: L)) = w := by
  have hc : ∀ y : S512x64.Idx, ∃ p ∈ ((⟨Rect.unit ![0, 0] S512x64.size inb_S512x64_S512x64_0_0, w⟩ : View.Piece (Elt F) S512x64 .f32) :: L), y ∈ p.1.set :=
    fun y => ⟨_, List.mem_cons_self, View.mem_set_unit_zero (S := S512x64) hz14 inb_S512x64_S512x64_0_0 y⟩
  exact (View.read_writes_eq_canon v f _ hc).trans
    (View.canon_cons_unit_zero (S := S512x64) hz14 inb_S512x64_S512x64_0_0 w L)

set_option maxHeartbeats 400000 in
theorem sound_kernel14_first (c : Dev nD) (E : Set ℕ) (i : grid14.Coords)
    (arg1 : Memref sig .tc .vmem S2000x64 .f32) (harg1 : arg1.IsWhole)
    (arg2 : Memref sig .tc .vmem S2000x1 .i32) (harg2 : arg2.IsWhole)
    (arg3 : Memref sig .tc .vmem S512x64 .f32) (harg3 : arg3.IsWhole)
    (arg4 : Memref sig .tc .vmem S512x64 .f32) (harg4 : arg4.IsWhole)
    (hc1 : cond14_1 i) (hc2 : ¬cond14_2 i)
    (x0 : Vec F S2000x64 .f32) (x1 : Vec F S2000x1 .i32) (xi : Vec F S512x64 .f32)
    (K : PUnit → sProp 𝕄) :
    iprop(owns (c : Thread nD τ) arg1 fullShare x0 ∗ owns (c : Thread nD τ) arg2 fullShare x1
        ∗ owns (c : Thread nD τ) arg3 fullShare xi ∗ (∃ d, owns (c : Thread nD τ) arg4 fullShare d)
        ∗ (iprop(owns (c : Thread nD τ) arg1 fullShare x0 ∗ owns (c : Thread nD τ) arg2 fullShare x1
            ∗ owns (c : Thread nD τ) arg3 fullShare xi ∗ owns (c : Thread nD τ) arg4 fullShare (k14_pay2 x1 x0 (k14_pay1 (F := F)))) -∗ K ⟨⟩))
      ⊢ wp frame (wpE (defs₀ (F := F)) Variants.none c none) E (cc14__pool_kernel i arg1 harg1 arg2 harg2 arg3 harg3 arg4 harg4) K := by
  simp only [cc14__pool_kernel_eq_skeleton]; unfold cc14__pool_kernel_skel
  unfold owns
  iintro ⟨⟨%f0, %hf0, H0⟩, ⟨%f1, %hf1, H1⟩, ⟨%f3, %hf3, H3⟩, ⟨%ds, %fs, -, HS⟩, Hk⟩
  subst hf0; subst hf1; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H3]
  · iexists f3; isplitr; · ipureintro; rfl
    iexact H3
  iexists _; isplitr
  swap; · iexact HS
  ipureintro
  refine (read_store14 (F := F) _ _ _ _).trans ?_
  sl_unfold_words
  simp only [View.readAt_eq_ld, View.ld_unit_zero (S := S2000x1) hz14, View.ld_unit_zero (S := S2000x64) hz14, View.ld_unit_zero (S := S512x64) hz14, View.readCov_unit_zero (Val := Elt F) (S := S512x64) _ hz14]

set_option maxHeartbeats 400000 in
theorem sound_kernel14_mid (c : Dev nD) (E : Set ℕ) (i : grid14.Coords)
    (arg1 : Memref sig .tc .vmem S2000x64 .f32) (harg1 : arg1.IsWhole)
    (arg2 : Memref sig .tc .vmem S2000x1 .i32) (harg2 : arg2.IsWhole)
    (arg3 : Memref sig .tc .vmem S512x64 .f32) (harg3 : arg3.IsWhole)
    (arg4 : Memref sig .tc .vmem S512x64 .f32) (harg4 : arg4.IsWhole)
    (hc1 : ¬cond14_1 i) (hc2 : ¬cond14_2 i)
    (x0 : Vec F S2000x64 .f32) (x1 : Vec F S2000x1 .i32) (xi : Vec F S512x64 .f32) (xs : Vec F S512x64 .f32)
    (K : PUnit → sProp 𝕄) :
    iprop(owns (c : Thread nD τ) arg1 fullShare x0 ∗ owns (c : Thread nD τ) arg2 fullShare x1
        ∗ owns (c : Thread nD τ) arg3 fullShare xi ∗ owns (c : Thread nD τ) arg4 fullShare xs
        ∗ (iprop(owns (c : Thread nD τ) arg1 fullShare x0 ∗ owns (c : Thread nD τ) arg2 fullShare x1
            ∗ owns (c : Thread nD τ) arg3 fullShare xi ∗ owns (c : Thread nD τ) arg4 fullShare (k14_pay2 x1 x0 xs)) -∗ K ⟨⟩))
      ⊢ wp frame (wpE (defs₀ (F := F)) Variants.none c none) E (cc14__pool_kernel i arg1 harg1 arg2 harg2 arg3 harg3 arg4 harg4) K := by
  simp only [cc14__pool_kernel_eq_skeleton]; unfold cc14__pool_kernel_skel
  unfold owns
  iintro ⟨⟨%f0, %hf0, H0⟩, ⟨%f1, %hf1, H1⟩, ⟨%f3, %hf3, H3⟩, ⟨%fs, %hfs, HS⟩, Hk⟩
  subst hf0; subst hf1; subst hf3; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H3]
  · iexists f3; isplitr; · ipureintro; rfl
    iexact H3
  iexists _; isplitr
  swap; · iexact HS
  ipureintro
  refine (read_store14 (F := F) _ _ _ _).trans ?_
  simp only [View.readAt_eq_ld, View.ld_unit_zero (S := S2000x1) hz14, View.ld_unit_zero (S := S2000x64) hz14, View.ld_unit_zero (S := S512x64) hz14]

set_option maxHeartbeats 400000 in
theorem sound_kernel14_last (c : Dev nD) (E : Set ℕ) (i : grid14.Coords)
    (arg1 : Memref sig .tc .vmem S2000x64 .f32) (harg1 : arg1.IsWhole)
    (arg2 : Memref sig .tc .vmem S2000x1 .i32) (harg2 : arg2.IsWhole)
    (arg3 : Memref sig .tc .vmem S512x64 .f32) (harg3 : arg3.IsWhole)
    (arg4 : Memref sig .tc .vmem S512x64 .f32) (harg4 : arg4.IsWhole)
    (hc1 : ¬cond14_1 i) (hc2 : cond14_2 i)
    (x0 : Vec F S2000x64 .f32) (x1 : Vec F S2000x1 .i32) (xs : Vec F S512x64 .f32)
    (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xs
        ∗ (iprop(owns (c : Thread nD τ) arg1 fullShare x0 ∗ owns (c : Thread nD τ) arg2 fullShare x1
            ∗ owns (c : Thread nD τ) arg3 fullShare (k14_pay2 x1 x0 xs) ∗ owns (c : Thread nD τ) arg4 fullShare (k14_pay2 x1 x0 xs)) -∗ K ⟨⟩))
      ⊢ wp frame (wpE (defs₀ (F := F)) Variants.none c none) E (cc14__pool_kernel i arg1 harg1 arg2 harg2 arg3 harg3 arg4 harg4) K := by
  simp only [cc14__pool_kernel_eq_skeleton]; unfold cc14__pool_kernel_skel
  unfold owns
  iintro ⟨⟨%f0, %hf0, H0⟩, ⟨%f1, %hf1, H1⟩, ⟨%d3, %f3, -, H3⟩, ⟨%fs, %hfs, HS⟩, Hk⟩
  subst hf0; subst hf1; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    refine (read_store14 (F := F) _ _ _ _).trans ?_
    sl_unfold_words
    simp only [View.readAt_eq_ld, View.ld_unit_zero (S := S2000x1) hz14, View.ld_unit_zero (S := S2000x64) hz14, View.ld_unit_zero (S := S512x64) hz14, View.readCov_unit_zero (Val := Elt F) (S := S512x64) _ hz14]
  iexists _; isplitr
  swap; · iexact HS
  ipureintro
  sl_unfold_words
  refine (read_store14 (F := F) _ _ _ _).trans ?_
  simp only [View.readAt_eq_ld, View.ld_unit_zero (S := S2000x1) hz14, View.ld_unit_zero (S := S2000x64) hz14, View.ld_unit_zero (S := S512x64) hz14]

section Regions

variable (V : (c : Dev nD) → (b : Ref sig .tc) → Buf (Elt F) ((c : Thread nD τ).loc b))

def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

theorem before14_0_of {c : Dev nD} (dat : Dat τ (Elt F) Unit ℕ (UR sig nD τ) ℕ cfg14 c) (hA : dat.A 0 = V c (Pipeline.arrRef spec14 0))
    (t : Fin cfg14.N) (d) : dat.before 0 t d = iblk14 V c 0 t :=
  (dat.before_fetched 0 t (fetch14_0 t) d).trans (by unfold Dat.fetched Dat.blockOf iblk14; rw [hA]; try rfl)

theorem before14_1_of {c : Dev nD} (dat : Dat τ (Elt F) Unit ℕ (UR sig nD τ) ℕ cfg14 c) (hA : dat.A 1 = V c (Pipeline.arrRef spec14 1))
    (t : Fin cfg14.N) (d) : dat.before 1 t d = iblk14 V c 1 t :=
  (dat.before_fetched 1 t (fetch14_1 t) d).trans (by unfold Dat.fetched Dat.blockOf iblk14; rw [hA]; try rfl)

def acc14 (c : Dev nD) : (n : ℕ) → n < cfg14.N → Vec F S512x64 .f32
  | 0, hn => k14_pay2 (iblk14 V c 1 ⟨0, hn⟩) (iblk14 V c 0 ⟨0, hn⟩) (k14_pay1 (F := F))
  | n + 1, hn => k14_pay2 (iblk14 V c 1 ⟨n + 1, hn⟩) (iblk14 V c 0 ⟨n + 1, hn⟩) (acc14 c n (Nat.lt_of_succ_lt hn))

theorem acc14_zero (c : Dev nD) (t : Fin cfg14.N) (h : t.val = 0) :
    acc14 V c t.val t.isLt = k14_pay2 (iblk14 V c 1 t) (iblk14 V c 0 t) (k14_pay1 (F := F)) := by
  obtain ⟨n, hn⟩ := t
  cases n with
  | zero => rfl
  | succ n => exact absurd h (Nat.succ_ne_zero n)

theorem acc14_pos (c : Dev nD) (t : Fin cfg14.N) (h : t.val ≠ 0) :
    acc14 V c t.val t.isLt = k14_pay2 (iblk14 V c 1 t) (iblk14 V c 0 t)
      (acc14 V c (t.val - 1) (Nat.lt_of_le_of_lt (Nat.sub_le _ _) t.isLt)) := by
  obtain ⟨n, hn⟩ := t
  cases n with
  | zero => exact absurd rfl h
  | succ n => rfl

abbrev scM14 : Memref sig .tc .vmem S512x64 .f32 := Memref.whole cc14_scratch0

theorem PhiA14_eq (c : Dev nD) :
    (Pipeline.ΦA spec14 c : sProp 𝕄)
      = iprop(iprop((∃ d, owns (c : Thread nD τ) scM14 fullShare d)
            ∗ Pipeline.scopedRestBut (Ix := Unit) (Name := ℕ) (U := UR sig nD τ) (Lvl := ℕ) (Val := Elt F) spec14 c [cc14_scratch0])
          ∗ (∃ r, prngReg c r)) := by
  unfold Pipeline.ΦA; rw [scopedRest14_split]; simp only [scM14, owns_whole]
  rfl

def Phi14 (c : Dev nD) : (n : ℕ) → n ≤ cfg14.N → sProp 𝕄
  | 0, _ => Pipeline.ΦA spec14 c
  | n + 1, hn => iprop(iprop(owns (c : Thread nD τ) scM14 fullShare (acc14 V c n hn)
        ∗ Pipeline.scopedRestBut (Ix := Unit) (Name := ℕ) (U := UR sig nD τ) (Lvl := ℕ) (Val := Elt F) spec14 c [cc14_scratch0])
      ∗ (∃ r, prngReg c r))

theorem Phi14_zero (c : Dev nD) (n : ℕ) (h : n ≤ cfg14.N) (hz : n = 0) : Phi14 V c n h = Pipeline.ΦA spec14 c := by
  subst hz; rfl

theorem Phi14_succ (c : Dev nD) (n : ℕ) (hn : n < cfg14.N) :
    Phi14 V c (n + 1) hn = iprop(iprop(owns (c : Thread nD τ) scM14 fullShare (acc14 V c n hn)
        ∗ Pipeline.scopedRestBut (Ix := Unit) (Name := ℕ) (U := UR sig nD τ) (Lvl := ℕ) (Val := Elt F) spec14 c [cc14_scratch0])
      ∗ (∃ r, prngReg c r)) := rfl

theorem Phi14_pos (c : Dev nD) (n : ℕ) (h : n ≤ cfg14.N) (hz : n ≠ 0) :
    Phi14 V c n h = iprop(iprop(owns (c : Thread nD τ) scM14 fullShare (acc14 V c (n - 1) (by omega))
        ∗ Pipeline.scopedRestBut (Ix := Unit) (Name := ℕ) (U := UR sig nD τ) (Lvl := ℕ) (Val := Elt F) spec14 c [cc14_scratch0])
      ∗ (∃ r, prngReg c r)) := by
  cases n with
  | zero => exact absurd rfl hz
  | succ n => rfl

def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => acc14 V c t.val t.isLt
  Φ t := Phi14 V c t.val (Nat.le_of_lt_succ t.isLt)
  q _ := fullShare
  owed _ := 0

theorem A_eq14 (c : Dev nD) (w : Fin cfg14.W) : (dat14 V c).A w = V c (Pipeline.arrRef spec14 w) := by
  dsimp only [dat14]

theorem owed14 (c : Dev nD) : ∀ x, (dat14 V c).owed x = 0 := fun _ => rfl

theorem share14 (c : Dev nD) : ∀ w, (dat14 V c).q w = fullShare := fun _ => rfl

theorem recorded14 (c : Dev nD) : ∀ t, (dat14 V c).recorded t = Set.univ := fun _ => rfl

theorem after14_0 (c : Dev nD) (t : Fin cfg14.N) : (dat14 V c).after 0 t = iblk14 V c 0 t := by dsimp only [dat14]

theorem after14_1 (c : Dev nD) (t : Fin cfg14.N) : (dat14 V c).after 1 t = iblk14 V c 1 t := by dsimp only [dat14]

theorem after14_2 (c : Dev nD) (t : Fin cfg14.N) : (dat14 V c).after 2 t = acc14 V c t.val t.isLt := by dsimp only [dat14]

theorem before14_0 (c : Dev nD) (t : Fin cfg14.N) (d) : (dat14 V c).before 0 t d = iblk14 V c 0 t :=
  before14_0_of V (dat14 V c) (A_eq14 V c 0) t d

theorem before14_1 (c : Dev nD) (t : Fin cfg14.N) (d) : (dat14 V c).before 1 t d = iblk14 V c 1 t :=
  before14_1_of V (dat14 V c) (A_eq14 V c 1) t d

theorem Phi14_castSucc (c : Dev nD) (t : Fin cfg14.N) :
    (dat14 V c).Φ t.castSucc = Phi14 V c t.val (Nat.le_of_lt t.isLt) := by
  dsimp only [dat14]; simp only [Fin.coe_castSucc]

theorem Phi_in14 (c : Dev nD) : (dat14 V c).Φ 0 = Pipeline.ΦA spec14 c := by
  rw [show (dat14 V c).Φ 0 = Phi14 V c 0 (Nat.zero_le _) from rfl, Phi14_zero V c 0 _ rfl]

theorem Phi_out14 (c : Dev nD) : (dat14 V c).Φ (Fin.last _) ⊢ Pipeline.ΦA spec14 c := by
  have hN : cfg14.N = 50 := N_14
  rw [show (dat14 V c).Φ (Fin.last _) = Phi14 V c (Fin.last cfg14.N).val (Nat.le_of_lt_succ (Fin.last cfg14.N).isLt) from rfl,
    Phi14_pos V c _ _ (by rw [Fin.val_last]; omega), PhiA14_eq]
  iintro ⟨⟨HS, HR⟩, Hg⟩
  isplitl [HS HR]
  · isplitl [HS]
    · iexists _; iexact HS
    iexact HR
  iexact Hg

def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d)))

def bodyPost14 (c : Dev nD) (t : Fin cfg14.N) : sProp 𝕄 :=
  iprop((dat14 V c).Φ t.succ ∗ (dat14 V c).owesAt () t.succ
    ∗ (dat14 V c).leavesExact 0 t
    ∗ (dat14 V c).leavesExact 1 t
    ∗ (dat14 V c).leavesExact 2 t)

set_option maxHeartbeats 1600000 in
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1]
  rw [show (dat14 V c).owesAt () t.succ = (dat14 V c).owesAt () t.castSucc from rfl]
  rw [show (dat14 V c).Φ t.succ = Phi14 V c (t.val + 1) t.isLt from rfl, Phi14_succ]
  rw [show (dat14 V c).leavesExact 0 t = owns (c : Thread nD τ) (st14_0 t) fullShare ((dat14 V c).after 0 t) from by
    unfold Dat.leavesExact; rw [liveAt14_0 t], after14_0]
  rw [show (dat14 V c).leavesExact 1 t = owns (c : Thread nD τ) (st14_1 t) fullShare ((dat14 V c).after 1 t) from by
    unfold Dat.leavesExact; rw [liveAt14_1 t], after14_1]
  have hN : t.val < 50 := lt_of_lt_of_eq t.isLt (show cfg14.N = 50 from N_14)
  by_cases h2 : t.val = 49
  · have hz : t.val ≠ 0 := by omega
    rw [show (dat14 V c).leavesExact 2 t = owns (c : Thread nD τ) (st14_2 t) fullShare ((dat14 V c).after 2 t) from by
      unfold Dat.leavesExact; rw [liveAt14_2 t ((hcond14_2 t).mpr h2)], after14_2]
    rw [acc14_pos V c t hz]
    rw [Phi14_castSucc V c t, Phi14_pos V c _ _ hz]
    iintro ⟨⟨⟨HS, HR⟩, Hg⟩, Ho, ⟨%d0, H0⟩, ⟨%d1, H1⟩, ⟨%d2, H2⟩⟩
    iapply (sound_kernel14_last c Set.univ (grid14.coords t) _ _ _ _ _ _ _ _ (fun h => hz ((hcond14_1 t).mp h)) ((hcond14_2 t).mpr h2)
      (iblk14 V c 0 t) (iblk14 V c 1 t) _ _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · have hn2 : ¬cond14_2 (grid14.coords t) := fun h => h2 ((hcond14_2 t).mp h)
    rw [Dat.leavesExact_idle (dat14 V c) 2 t (idleAt14_2 t hn2) (noFlush14_2 t hn2)]
    by_cases h1 : t.val = 0
    · rw [acc14_zero V c t h1]
      rw [Phi14_castSucc V c t, Phi14_zero V c _ _ h1, PhiA14_eq]
      iintro ⟨⟨⟨HS, HR⟩, Hg⟩, Ho, ⟨%d0, H0⟩, ⟨%d1, H1⟩, ⟨%d2, H2⟩⟩
      iapply (sound_kernel14_first c Set.univ (grid14.coords t) _ _ _ _ _ _ _ _ ((hcond14_1 t).mpr h1) hn2
        (iblk14 V c 0 t) (iblk14 V c 1 t) _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
    · rw [acc14_pos V c t h1]
      rw [Phi14_castSucc V c t, Phi14_pos V c _ _ h1]
      iintro ⟨⟨⟨HS, HR⟩, Hg⟩, Ho, ⟨%d0, H0⟩, ⟨%d1, H1⟩, ⟨%d2, H2⟩⟩
      iapply (sound_kernel14_mid c Set.univ (grid14.coords t) _ _ _ _ _ _ _ _ (fun h => h1 ((hcond14_1 t).mp h)) hn2
        (iblk14 V c 0 t) (iblk14 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

theorem body_obligation14 (c : Dev nD) : BodyObligation (dat14 (F := F) V c) (defs₀ (F := F)) Variants.none () Set.univ := fun t => by
  rw [bigSep_W14, bigSep_W14]
  exact sound_body14 V c t

end Regions

section Value

open Idealize.ShloMosaic.ValueIdx

def hrows14 (h : Vec F S100000x64 .f32) (n : ℕ) (hn : n < 50) : Vec F S2000x64 .f32 :=
  fun y => h (ix2 (⟨2000 * n + (y 0).val, by have := idx2_lt0 y; omega⟩ : Fin 100000) (y 1))

def brows14 (b : Vec F S100000x1 .i32) (n : ℕ) (hn : n < 50) : Vec F S2000x1 .i32 :=
  fun y => b (ix2 (⟨2000 * n + (y 0).val, by have := idx2_lt0 y; omega⟩ : Fin 100000) (y 1))

def fold14 (h : Vec F S100000x64 .f32) (b : Vec F S100000x1 .i32) : (n : ℕ) → n < 50 → Vec F S512x64 .f32
  | 0, hn => k14_pay2 (brows14 b 0 hn) (hrows14 h 0 hn) (k14_pay1 (F := F))
  | n + 1, hn => k14_pay2 (brows14 b (n + 1) hn) (hrows14 h (n + 1) hn) (fold14 h b n (Nat.lt_of_succ_lt hn))

theorem fold14_succ (h : Vec F S100000x64 .f32) (b : Vec F S100000x1 .i32) (n : ℕ) (hn : n + 1 < 50) :
    fold14 h b (n + 1) hn = k14_pay2 (brows14 b (n + 1) hn) (hrows14 h (n + 1) hn) (fold14 h b n (Nat.lt_of_succ_lt hn)) := rfl

def res14_2 (h : Vec F S100000x64 .f32) (b : Vec F S100000x1 .i32) : Vec F S512x64 .f32 :=
  fold14 h b 49 (by omega)

theorem idx14 : ∀ t : Fin cfg14.N,
    win14_0.index t (0 : Fin 2) = t.val ∧ win14_0.index t (1 : Fin 2) = 0
    ∧ win14_1.index t (0 : Fin 2) = t.val ∧ win14_1.index t (1 : Fin 2) = 0
    ∧ win14_2.index t (0 : Fin 2) = 0 ∧ win14_2.index t (1 : Fin 2) = 0 :=
  (by decide +kernel : ∀ t : Fin grid14.N, _)

variable (V : (c : Dev nD) → (b : Ref sig .tc) → Buf (Elt F) ((c : Thread nD τ).loc b))

theorem iblk14_0_eq (c : Dev nD) (t : Fin cfg14.N) :
    iblk14 V c 0 t = hrows14 (V c (Pipeline.arrRef spec14 0)) t.val (lt_of_lt_of_eq t.isLt N_14) := by
  obtain ⟨e0, e1, -⟩ := idx14 t
  funext y
  have hy0 : (y 0).val < 2000 := idx2_lt0 y
  have e : ((cfg14.win 0).blk t).view.emb y
      = ix2 (⟨2000 * t.val + (y 0).val, by have := lt_of_lt_of_eq t.isLt N_14; omega⟩ : Fin 100000) (y 1) := by
    funext a; apply Fin.ext
    match a with
    | ⟨0, _⟩ => show win14_0.index t (0 : Fin 2) * 2000 + 1 * (y 0).val = 2000 * t.val + (y 0).val; omega
    | ⟨1, _⟩ => show win14_0.index t (1 : Fin 2) * 64 + 1 * (y 1).val = (y 1).val; omega
  exact congrArg (V c (Pipeline.arrRef spec14 0)) e

theorem iblk14_1_eq (c : Dev nD) (t : Fin cfg14.N) :
    iblk14 V c 1 t = brows14 (V c (Pipeline.arrRef spec14 1)) t.val (lt_of_lt_of_eq t.isLt N_14) := by
  obtain ⟨-, -, e2, e3, -⟩ := idx14 t
  funext y
  have hy0 : (y 0).val < 2000 := idx2_lt0 y
  have e : ((cfg14.win 1).blk t).view.emb y
      = ix2 (⟨2000 * t.val + (y 0).val, by have := lt_of_lt_of_eq t.isLt N_14; omega⟩ : Fin 100000) (y 1) := by
    funext a; apply Fin.ext
    match a with
    | ⟨0, _⟩ => show win14_1.index t (0 : Fin 2) * 2000 + 1 * (y 0).val = 2000 * t.val + (y 0).val; omega
    | ⟨1, _⟩ => show win14_1.index t (1 : Fin 2) * 1 + 1 * (y 1).val = (y 1).val; omega
  exact congrArg (V c (Pipeline.arrRef spec14 1)) e

theorem k14_pay2_congr {a a' : Vec F S2000x1 .i32} {x x' : Vec F S2000x64 .f32} {s s' : Vec F S512x64 .f32}
    (ha : a = a') (hx : x = x') (hs : s = s') : k14_pay2 a x s = k14_pay2 a' x' s' := by
  subst ha; subst hx; subst hs; rfl

theorem acc14_eq_fold (c : Dev nD) : ∀ (n : ℕ) (hn : n < cfg14.N),
    acc14 V c n hn = fold14 (V c (Pipeline.arrRef spec14 0)) (V c (Pipeline.arrRef spec14 1)) n (lt_of_lt_of_eq hn N_14)
  | 0, hn => k14_pay2_congr (iblk14_1_eq V c ⟨0, hn⟩) (iblk14_0_eq V c ⟨0, hn⟩) rfl
  | n + 1, hn => k14_pay2_congr (iblk14_1_eq V c ⟨n + 1, hn⟩) (iblk14_0_eq V c ⟨n + 1, hn⟩)
      (acc14_eq_fold c n (Nat.lt_of_succ_lt hn))

theorem flushed14_2_eq (c : Dev nD) (t : Fin cfg14.N) (hf : (cfg14.win 2).flush t = true) :
    (dat14 V c).flushed 2 t
      = ((cfg14.win 2).blk t).view.read (Elt F) (res14_2 (V c (Pipeline.arrRef spec14 0)) (V c (Pipeline.arrRef spec14 1))) := by
  have hN : t.val < 50 := lt_of_lt_of_eq t.isLt N_14
  have h49 : t.val = 49 := by have := (flush14_2 t).mp hf; omega
  obtain ⟨-, -, -, -, e4, e5⟩ := idx14 t
  show (cfg14.win 2).cut (grid14.coords t) ((dat14 V c).after 2 t) = _
  rw [after14_2]
  funext y
  have e : ((cfg14.win 2).blk t).view.emb y = y := by
    funext a; apply Fin.ext
    match a with
    | ⟨0, _⟩ => show win14_2.index t (0 : Fin 2) * 512 + 1 * (y 0).val = (y 0).val; omega
    | ⟨1, _⟩ => show win14_2.index t (1 : Fin 2) * 64 + 1 * (y 1).val = (y 1).val; omega
  refine Eq.trans ?_ (congrArg (res14_2 (V c (Pipeline.arrRef spec14 0)) (V c (Pipeline.arrRef spec14 1))) e).symm
  obtain ⟨n, hn⟩ := t
  obtain rfl : n = 49 := h49
  exact congrFun (acc14_eq_fold V c 49 hn) y

theorem cover14_2 (i : S512x64.Idx) :
    ∃ t : Fin cfg14.N, (cfg14.win 2).flush t = true ∧ i ∈ ((cfg14.win 2).blk t).view.set := by
  have hi0 : (i 0).val < 512 := idx2_lt0 i
  have hi1 : (i 1).val < 64 := idx2_lt1 i
  obtain ⟨t, ht⟩ : ∃ t : Fin cfg14.N, t.val = 49 := ⟨⟨49, by rw [show cfg14.N = 50 from N_14]; omega⟩, rfl⟩
  refine ⟨t, (flush14_2 t).mpr (by rw [ht]), ?_⟩
  obtain ⟨-, -, -, -, e4, e5⟩ := idx14 t
  show i ∈ ((View.whole main_v103).slice (win14_2.rect t)).set
  rw [View.set_slice_whole, Rect.mem_set_unit]
  intro a
  match a with
  | ⟨0, _⟩ => show win14_2.index t (0 : Fin 2) * 512 ≤ (i 0).val ∧ (i 0).val < win14_2.index t (0 : Fin 2) * 512 + 512; omega
  | ⟨1, _⟩ => show win14_2.index t (1 : Fin 2) * 64 ≤ (i 1).val ∧ (i 1).val < win14_2.index t (1 : Fin 2) * 64 + 64; omega

theorem final14_2 (c : Dev nD) :
    (dat14 V c).arrAt 2 cfg14.N = res14_2 (V c (Pipeline.arrRef spec14 0)) (V c (Pipeline.arrRef spec14 1)) :=
  (dat14 V c).arrAt_eq_of_cover 2 (res14_2 (V c (Pipeline.arrRef spec14 0)) (V c (Pipeline.arrRef spec14 1)))
    (fun t hf => flushed14_2_eq V c t hf) cover14_2

end Value

end Cert.KernelIdeal.Hand

end
-- ==== Proof.KI.RunFold.lean ====
import proofs.«424828_j6554120094214_2_alg».proof.Proof.KI.Reg0
import proofs.«424828_j6554120094214_2_alg».proof.Proof.KI.Reg1
import proofs.«424828_j6554120094214_2_alg».proof.Proof.KI.Reg2
import proofs.«424828_j6554120094214_2_alg».proof.Proof.KI.Reg3
import proofs.«424828_j6554120094214_2_alg».proof.Proof.KI.Reg4
import proofs.«424828_j6554120094214_2_alg».proof.Proof.KI.Reg5
import proofs.«424828_j6554120094214_2_alg».proof.Proof.KI.Reg6
import proofs.«424828_j6554120094214_2_alg».proof.Proof.KI.Reg7
import proofs.«424828_j6554120094214_2_alg».proof.Proof.KI.Reg8
import proofs.«424828_j6554120094214_2_alg».proof.Proof.KI.Reg9
import proofs.«424828_j6554120094214_2_alg».proof.Proof.KI.Reg10
import proofs.«424828_j6554120094214_2_alg».proof.Proof.KI.Reg11
import proofs.«424828_j6554120094214_2_alg».proof.Proof.KI.Reg12
import proofs.«424828_j6554120094214_2_alg».proof.Proof.KI.Reg13
import proofs.«424828_j6554120094214_2_alg».proof.Proof.KI.Reg14
import proofs.«424828_j6554120094214_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ

variable (m : (ℓ : Loc nD τ sig) → Buf (Elt F) ℓ) (ρ : Dev nD → PrngReg)

omit m ρ in
/-- A buffer that is none of the windows' arrays, or whose window hands back what it found, is as it was. -/
theorem withArrays_keep {gr W : Nat} (win : Fin W → Pipeline.WinSpec sig gr) (hinj : Function.Injective (Pipeline.arrRef win))
    (c : Dev nD) (V : Valuation τ sig (Elt F)) (A : (w : Fin W) → Buf (Elt F) ((win w).arr.view.loc (c.tc : Thread nD τ)))
    (b : Ref sig .tc) (hb : ∀ w, Pipeline.arrRef win w = b → A w = V (Proc.devRef .tc (Pipeline.arrRef win w))) :
    Pipeline.withArrays win c V A (Proc.devRef .tc b) = V (Proc.devRef .tc b) := by
  by_cases h : ∃ w, Pipeline.arrRef win w = b
  · obtain ⟨w, rfl⟩ := h
    exact (Pipeline.withArrays_arr win hinj c V A w).trans (hb w rfl)
  · exact Pipeline.withArrays_of_ne win c V A b fun w e => h ⟨w, e⟩

abbrev W0 : Dev nD → Valuation τ sig (Elt F) := fun c b => (s₀ m ρ).mem ((c : Dev nD), b)

abbrev W1 : Dev nD → Valuation τ sig (Elt F) := fun c => StableHlo.after hostOps0 (W0 m ρ c)

theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h

abbrev W2 : Dev nD → Valuation τ sig (Elt F) := fun c => StableHlo.after hostOps0_1 (W1 m ρ c)

theorem W2_keep (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h

abbrev W3 : Dev nD → Valuation τ sig (Elt F) := fun c => StableHlo.after hostOps0_2 (W2 m ρ c)

theorem W3_keep (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h

abbrev VW3 : (c : Dev nD) → (b : Ref sig .tc) → Buf (Elt F) ((c : Thread nD τ).loc b) := fun c b => W3 m ρ c b

def W4 (c : Dev nD) : Valuation τ sig (Elt F) :=
  Pipeline.withArrays spec0 c (W3 m ρ c) fun w => (dat0 (VW3 m ρ) c).arrAt w cfg0.N

theorem W4_arr (c : Dev nD) (w : Fin cfg0.W) :
    W4 m ρ c (Proc.devRef .tc (Pipeline.arrRef spec0 w)) = (dat0 (VW3 m ρ) c).arrAt w cfg0.N := by
  unfold W4; exact Pipeline.withArrays_arr spec0 launch0.win.arr_inj c _ _ w

abbrev VW4 : (c : Dev nD) → (b : Ref sig .tc) → Buf (Elt F) ((c : Thread nD τ).loc b) := fun c b => W4 m ρ c b

theorem W4_keep (c : Dev nD) (b : Ref sig .tc) (hb : ∀ w, Pipeline.arrRef spec0 w = b → (cfg0.win w).isOut = false) :
    W4 m ρ c (Proc.devRef .tc b) = W3 m ρ c (Proc.devRef .tc b) := by
  unfold W4
  exact withArrays_keep spec0 launch0.win.arr_inj c _ _ b fun w e =>
    ((dat0 (VW3 m ρ) c).arrAt_in w (hb w e) _).trans (A_eq0 (VW3 m ρ) c w)

abbrev W5 : Dev nD → Valuation τ sig (Elt F) := fun c => StableHlo.after hostOps1 (W4 m ρ c)

theorem W5_keep (c : Dev nD) (r : Ref sig .tc) (h : r ∉ hostOps1_W) :
    W5 m ρ c (Proc.devRef .tc r) = W4 m ρ c (Proc.devRef .tc r) :=
  StableHlo.after_of_writes_sub hostOps1 _ hostOps1_writes h

abbrev VW5 : (c : Dev nD) → (b : Ref sig .tc) → Buf (Elt F) ((c : Thread nD τ).loc b) := fun c b => W5 m ρ c b

def W6 (c : Dev nD) : Valuation τ sig (Elt F) :=
  Pipeline.withArrays spec1 c (W5 m ρ c) fun w => (dat1 (VW5 m ρ) c).arrAt w cfg1.N

theorem W6_arr (c : Dev nD) (w : Fin cfg1.W) :
    W6 m ρ c (Proc.devRef .tc (Pipeline.arrRef spec1 w)) = (dat1 (VW5 m ρ) c).arrAt w cfg1.N := by
  unfold W6; exact Pipeline.withArrays_arr spec1 launch1.win.arr_inj c _ _ w

abbrev VW6 : (c : Dev nD) → (b : Ref sig .tc) → Buf (Elt F) ((c : Thread nD τ).loc b) := fun c b => W6 m ρ c b

theorem W6_keep (c : Dev nD) (b : Ref sig .tc) (hb : ∀ w, Pipeline.arrRef spec1 w = b → (cfg1.win w).isOut = false) :
    W6 m ρ c (Proc.devRef .tc b) = W5 m ρ c (Proc.devRef .tc b) := by
  unfold W6
  exact withArrays_keep spec1 launch1.win.arr_inj c _ _ b fun w e =>
    ((dat1 (VW5 m ρ) c).arrAt_in w (hb w e) _).trans (A_eq1 (VW5 m ρ) c w)

abbrev W7 : Dev nD → Valuation τ sig (Elt F) := fun c => StableHlo.after hostOps2 (W6 m ρ c)

theorem W7_keep (c : Dev nD) (r : Ref sig .tc) (h : r ∉ hostOps2_W) :
    W7 m ρ c (Proc.devRef .tc r) = W6 m ρ c (Proc.devRef .tc r) :=
  StableHlo.after_of_writes_sub hostOps2 _ hostOps2_writes h

abbrev VW7 : (c : Dev nD) → (b : Ref sig .tc) → Buf (Elt F) ((c : Thread nD τ).loc b) := fun c b => W7 m ρ c b

def W8 (c : Dev nD) : Valuation τ sig (Elt F) :=
  Pipeline.withArrays spec2 c (W7 m ρ c) fun w => (dat2 (VW7 m ρ) c).arrAt w cfg2.N

theorem W8_arr (c : Dev nD) (w : Fin cfg2.W) :
    W8 m ρ c (Proc.devRef .tc (Pipeline.arrRef spec2 w)) = (dat2 (VW7 m ρ) c).arrAt w cfg2.N := by
  unfold W8; exact Pipeline.withArrays_arr spec2 launch2.win.arr_inj c _ _ w

abbrev VW8 : (c : Dev nD) → (b : Ref sig .tc) → Buf (Elt F) ((c : Thread nD τ).loc b) := fun c b => W8 m ρ c b

theorem W8_keep (c : Dev nD) (b : Ref sig .tc) (hb : ∀ w, Pipeline.arrRef spec2 w = b → (cfg2.win w).isOut = false) :
    W8 m ρ c (Proc.devRef .tc b) = W7 m ρ c (Proc.devRef .tc b) := by
  unfold W8
  exact withArrays_keep spec2 launch2.win.arr_inj c _ _ b fun w e =>
    ((dat2 (VW7 m ρ) c).arrAt_in w (hb w e) _).trans (A_eq2 (VW7 m ρ) c w)

abbrev W9 : Dev nD → Valuation τ sig (Elt F) := fun c => StableHlo.after hostOps3 (W8 m ρ c)

theorem W9_keep (c : Dev nD) (r : Ref sig .tc) (h : r ∉ hostOps3_W) :
    W9 m ρ c (Proc.devRef .tc r) = W8 m ρ c (Proc.devRef .tc r) :=
  StableHlo.after_of_writes_sub hostOps3 _ hostOps3_writes h

abbrev VW9 : (c : Dev nD) → (b : Ref sig .tc) → Buf (Elt F) ((c : Thread nD τ).loc b) := fun c b => W9 m ρ c b

def W10 (c : Dev nD) : Valuation τ sig (Elt F) :=
  Pipeline.withArrays spec3 c (W9 m ρ c) fun w => (dat3 (VW9 m ρ) c).arrAt w cfg3.N

theorem W10_arr (c : Dev nD) (w : Fin cfg3.W) :
    W10 m ρ c (Proc.devRef .tc (Pipeline.arrRef spec3 w)) = (dat3 (VW9 m ρ) c).arrAt w cfg3.N := by
  unfold W10; exact Pipeline.withArrays_arr spec3 launch3.win.arr_inj c _ _ w

abbrev VW10 : (c : Dev nD) → (b : Ref sig .tc) → Buf (Elt F) ((c : Thread nD τ).loc b) := fun c b => W10 m ρ c b

theorem W10_keep (c : Dev nD) (b : Ref sig .tc) (hb : ∀ w, Pipeline.arrRef spec3 w = b → (cfg3.win w).isOut = false) :
    W10 m ρ c (Proc.devRef .tc b) = W9 m ρ c (Proc.devRef .tc b) := by
  unfold W10
  exact withArrays_keep spec3 launch3.win.arr_inj c _ _ b fun w e =>
    ((dat3 (VW9 m ρ) c).arrAt_in w (hb w e) _).trans (A_eq3 (VW9 m ρ) c w)

def W11 (c : Dev nD) : Valuation τ sig (Elt F) :=
  Pipeline.withArrays spec4 c (W10 m ρ c) fun w => (dat4 (VW10 m ρ) c).arrAt w cfg4.N

theorem W11_arr (c : Dev nD) (w : Fin cfg4.W) :
    W11 m ρ c (Proc.devRef .tc (Pipeline.arrRef spec4 w)) = (dat4 (VW10 m ρ) c).arrAt w cfg4.N := by
  unfold W11; exact Pipeline.withArrays_arr spec4 launch4.win.arr_inj c _ _ w

abbrev VW11 : (c : Dev nD) → (b : Ref sig .tc) → Buf (Elt F) ((c : Thread nD τ).loc b) := fun c b => W11 m ρ c b

theorem W11_keep (c : Dev nD) (b : Ref sig .tc) (hb : ∀ w, Pipeline.arrRef spec4 w = b → (cfg4.win w).isOut = false) :
    W11 m ρ c (Proc.devRef .tc b) = W10 m ρ c (Proc.devRef .tc b) := by
  unfold W11
  exact withArrays_keep spec4 launch4.win.arr_inj c _ _ b fun w e =>
    ((dat4 (VW10 m ρ) c).arrAt_in w (hb w e) _).trans (A_eq4 (VW10 m ρ) c w)

abbrev W12 : Dev nD → Valuation τ sig (Elt F) := fun c => StableHlo.after hostOps5 (W11 m ρ c)

theorem W12_keep (c : Dev nD) (r : Ref sig .tc) (h : r ∉ hostOps5_W) :
    W12 m ρ c (Proc.devRef .tc r) = W11 m ρ c (Proc.devRef .tc r) :=
  StableHlo.after_of_writes_sub hostOps5 _ hostOps5_writes h

abbrev VW12 : (c : Dev nD) → (b : Ref sig .tc) → Buf (Elt F) ((c : Thread nD τ).loc b) := fun c b => W12 m ρ c b

def W13 (c : Dev nD) : Valuation τ sig (Elt F) :=
  Pipeline.withArrays spec5 c (W12 m ρ c) fun w => (dat5 (VW12 m ρ) c).arrAt w cfg5.N

theorem W13_arr (c : Dev nD) (w : Fin cfg5.W) :
    W13 m ρ c (Proc.devRef .tc (Pipeline.arrRef spec5 w)) = (dat5 (VW12 m ρ) c).arrAt w cfg5.N := by
  unfold W13; exact Pipeline.withArrays_arr spec5 launch5.win.arr_inj c _ _ w

abbrev VW13 : (c : Dev nD) → (b : Ref sig .tc) → Buf (Elt F) ((c : Thread nD τ).loc b) := fun c b => W13 m ρ c b

theorem W13_keep (c : Dev nD) (b : Ref sig .tc) (hb : ∀ w, Pipeline.arrRef spec5 w = b → (cfg5.win w).isOut = false) :
    W13 m ρ c (Proc.devRef .tc b) = W12 m ρ c (Proc.devRef .tc b) := by
  unfold W13
  exact withArrays_keep spec5 launch5.win.arr_inj c _ _ b fun w e =>
    ((dat5 (VW12 m ρ) c).arrAt_in w (hb w e) _).trans (A_eq5 (VW12 m ρ) c w)

abbrev W14 : Dev nD → Valuation τ sig (Elt F) := fun c => StableHlo.after hostOps6 (W13 m ρ c)

theorem W14_keep (c : Dev nD) (r : Ref sig .tc) (h : r ∉ hostOps6_W) :
    W14 m ρ c (Proc.devRef .tc r) = W13 m ρ c (Proc.devRef .tc r) :=
  StableHlo.after_of_writes_sub hostOps6 _ hostOps6_writes h

abbrev VW14 : (c : Dev nD) → (b : Ref sig .tc) → Buf (Elt F) ((c : Thread nD τ).loc b) := fun c b => W14 m ρ c b

def W15 (c : Dev nD) : Valuation τ sig (Elt F) :=
  Pipeline.withArrays spec6 c (W14 m ρ c) fun w => (dat6 (VW14 m ρ) c).arrAt w cfg6.N

theorem W15_arr (c : Dev nD) (w : Fin cfg6.W) :
    W15 m ρ c (Proc.devRef .tc (Pipeline.arrRef spec6 w)) = (dat6 (VW14 m ρ) c).arrAt w cfg6.N := by
  unfold W15; exact Pipeline.withArrays_arr spec6 launch6.win.arr_inj c _ _ w

abbrev VW15 : (c : Dev nD) → (b : Ref sig .tc) → Buf (Elt F) ((c : Thread nD τ).loc b) := fun c b => W15 m ρ c b

theorem W15_keep (c : Dev nD) (b : Ref sig .tc) (hb : ∀ w, Pipeline.arrRef spec6 w = b → (cfg6.win w).isOut = false) :
    W15 m ρ c (Proc.devRef .tc b) = W14 m ρ c (Proc.devRef .tc b) := by
  unfold W15
  exact withArrays_keep spec6 launch6.win.arr_inj c _ _ b fun w e =>
    ((dat6 (VW14 m ρ) c).arrAt_in w (hb w e) _).trans (A_eq6 (VW14 m ρ) c w)

abbrev W16 : Dev nD → Valuation τ sig (Elt F) := fun c => StableHlo.after hostOps7 (W15 m ρ c)

theorem W16_keep (c : Dev nD) (r : Ref sig .tc) (h : r ∉ hostOps7_W) :
    W16 m ρ c (Proc.devRef .tc r) = W15 m ρ c (Proc.devRef .tc r) :=
  StableHlo.after_of_writes_sub hostOps7 _ hostOps7_writes h

abbrev VW16 : (c : Dev nD) → (b : Ref sig .tc) → Buf (Elt F) ((c : Thread nD τ).loc b) := fun c b => W16 m ρ c b

def W17 (c : Dev nD) : Valuation τ sig (Elt F) :=
  Pipeline.withArrays spec7 c (W16 m ρ c) fun w => (dat7 (VW16 m ρ) c).arrAt w cfg7.N

theorem W17_arr (c : Dev nD) (w : Fin cfg7.W) :
    W17 m ρ c (Proc.devRef .tc (Pipeline.arrRef spec7 w)) = (dat7 (VW16 m ρ) c).arrAt w cfg7.N := by
  unfold W17; exact Pipeline.withArrays_arr spec7 launch7.win.arr_inj c _ _ w

abbrev VW17 : (c : Dev nD) → (b : Ref sig .tc) → Buf (Elt F) ((c : Thread nD τ).loc b) := fun c b => W17 m ρ c b

theorem W17_keep (c : Dev nD) (b : Ref sig .tc) (hb : ∀ w, Pipeline.arrRef spec7 w = b → (cfg7.win w).isOut = false) :
    W17 m ρ c (Proc.devRef .tc b) = W16 m ρ c (Proc.devRef .tc b) := by
  unfold W17
  exact withArrays_keep spec7 launch7.win.arr_inj c _ _ b fun w e =>
    ((dat7 (VW16 m ρ) c).arrAt_in w (hb w e) _).trans (A_eq7 (VW16 m ρ) c w)

def W18 (c : Dev nD) : Valuation τ sig (Elt F) :=
  Pipeline.withArrays spec8 c (W17 m ρ c) fun w => (dat8 (VW17 m ρ) c).arrAt w cfg8.N

theorem W18_arr (c : Dev nD) (w : Fin cfg8.W) :
    W18 m ρ c (Proc.devRef .tc (Pipeline.arrRef spec8 w)) = (dat8 (VW17 m ρ) c).arrAt w cfg8.N := by
  unfold W18; exact Pipeline.withArrays_arr spec8 launch8.win.arr_inj c _ _ w

abbrev VW18 : (c : Dev nD) → (b : Ref sig .tc) → Buf (Elt F) ((c : Thread nD τ).loc b) := fun c b => W18 m ρ c b

theorem W18_keep (c : Dev nD) (b : Ref sig .tc) (hb : ∀ w, Pipeline.arrRef spec8 w = b → (cfg8.win w).isOut = false) :
    W18 m ρ c (Proc.devRef .tc b) = W17 m ρ c (Proc.devRef .tc b) := by
  unfold W18
  exact withArrays_keep spec8 launch8.win.arr_inj c _ _ b fun w e =>
    ((dat8 (VW17 m ρ) c).arrAt_in w (hb w e) _).trans (A_eq8 (VW17 m ρ) c w)

abbrev W19 : Dev nD → Valuation τ sig (Elt F) := fun c => StableHlo.after hostOps9 (W18 m ρ c)

theorem W19_keep (c : Dev nD) (r : Ref sig .tc) (h : r ∉ hostOps9_W) :
    W19 m ρ c (Proc.devRef .tc r) = W18 m ρ c (Proc.devRef .tc r) :=
  StableHlo.after_of_writes_sub hostOps9 _ hostOps9_writes h

abbrev VW19 : (c : Dev nD) → (b : Ref sig .tc) → Buf (Elt F) ((c : Thread nD τ).loc b) := fun c b => W19 m ρ c b

def W20 (c : Dev nD) : Valuation τ sig (Elt F) :=
  Pipeline.withArrays spec9 c (W19 m ρ c) fun w => (dat9 (VW19 m ρ) c).arrAt w cfg9.N

theorem W20_arr (c : Dev nD) (w : Fin cfg9.W) :
    W20 m ρ c (Proc.devRef .tc (Pipeline.arrRef spec9 w)) = (dat9 (VW19 m ρ) c).arrAt w cfg9.N := by
  unfold W20; exact Pipeline.withArrays_arr spec9 launch9.win.arr_inj c _ _ w

abbrev VW20 : (c : Dev nD) → (b : Ref sig .tc) → Buf (Elt F) ((c : Thread nD τ).loc b) := fun c b => W20 m ρ c b

theorem W20_keep (c : Dev nD) (b : Ref sig .tc) (hb : ∀ w, Pipeline.arrRef spec9 w = b → (cfg9.win w).isOut = false) :
    W20 m ρ c (Proc.devRef .tc b) = W19 m ρ c (Proc.devRef .tc b) := by
  unfold W20
  exact withArrays_keep spec9 launch9.win.arr_inj c _ _ b fun w e =>
    ((dat9 (VW19 m ρ) c).arrAt_in w (hb w e) _).trans (A_eq9 (VW19 m ρ) c w)

abbrev W21 : Dev nD → Valuation τ sig (Elt F) := fun c => StableHlo.after hostOps10 (W20 m ρ c)

theorem W21_keep (c : Dev nD) (r : Ref sig .tc) (h : r ∉ hostOps10_W) :
    W21 m ρ c (Proc.devRef .tc r) = W20 m ρ c (Proc.devRef .tc r) :=
  StableHlo.after_of_writes_sub hostOps10 _ hostOps10_writes h

abbrev VW21 : (c : Dev nD) → (b : Ref sig .tc) → Buf (Elt F) ((c : Thread nD τ).loc b) := fun c b => W21 m ρ c b

def W22 (c : Dev nD) : Valuation τ sig (Elt F) :=
  Pipeline.withArrays spec10 c (W21 m ρ c) fun w => (dat10 (VW21 m ρ) c).arrAt w cfg10.N

theorem W22_arr (c : Dev nD) (w : Fin cfg10.W) :
    W22 m ρ c (Proc.devRef .tc (Pipeline.arrRef spec10 w)) = (dat10 (VW21 m ρ) c).arrAt w cfg10.N := by
  unfold W22; exact Pipeline.withArrays_arr spec10 launch10.win.arr_inj c _ _ w

abbrev VW22 : (c : Dev nD) → (b : Ref sig .tc) → Buf (Elt F) ((c : Thread nD τ).loc b) := fun c b => W22 m ρ c b

theorem W22_keep (c : Dev nD) (b : Ref sig .tc) (hb : ∀ w, Pipeline.arrRef spec10 w = b → (cfg10.win w).isOut = false) :
    W22 m ρ c (Proc.devRef .tc b) = W21 m ρ c (Proc.devRef .tc b) := by
  unfold W22
  exact withArrays_keep spec10 launch10.win.arr_inj c _ _ b fun w e =>
    ((dat10 (VW21 m ρ) c).arrAt_in w (hb w e) _).trans (A_eq10 (VW21 m ρ) c w)

abbrev W23 : Dev nD → Valuation τ sig (Elt F) := fun c => StableHlo.after hostOps11 (W22 m ρ c)

theorem W23_keep (c : Dev nD) (r : Ref sig .tc) (h : r ∉ hostOps11_W) :
    W23 m ρ c (Proc.devRef .tc r) = W22 m ρ c (Proc.devRef .tc r) :=
  StableHlo.after_of_writes_sub hostOps11 _ hostOps11_writes h

abbrev VW23 : (c : Dev nD) → (b : Ref sig .tc) → Buf (Elt F) ((c : Thread nD τ).loc b) := fun c b => W23 m ρ c b

def W24 (c : Dev nD) : Valuation τ sig (Elt F) :=
  Pipeline.withArrays spec11 c (W23 m ρ c) fun w => (dat11 (VW23 m ρ) c).arrAt w cfg11.N

theorem W24_arr (c : Dev nD) (w : Fin cfg11.W) :
    W24 m ρ c (Proc.devRef .tc (Pipeline.arrRef spec11 w)) = (dat11 (VW23 m ρ) c).arrAt w cfg11.N := by
  unfold W24; exact Pipeline.withArrays_arr spec11 launch11.win.arr_inj c _ _ w

abbrev VW24 : (c : Dev nD) → (b : Ref sig .tc) → Buf (Elt F) ((c : Thread nD τ).loc b) := fun c b => W24 m ρ c b

theorem W24_keep (c : Dev nD) (b : Ref sig .tc) (hb : ∀ w, Pipeline.arrRef spec11 w = b → (cfg11.win w).isOut = false) :
    W24 m ρ c (Proc.devRef .tc b) = W23 m ρ c (Proc.devRef .tc b) := by
  unfold W24
  exact withArrays_keep spec11 launch11.win.arr_inj c _ _ b fun w e =>
    ((dat11 (VW23 m ρ) c).arrAt_in w (hb w e) _).trans (A_eq11 (VW23 m ρ) c w)

def W25 (c : Dev nD) : Valuation τ sig (Elt F) :=
  Pipeline.withArrays spec12 c (W24 m ρ c) fun w => (dat12 (VW24 m ρ) c).arrAt w cfg12.N

theorem W25_arr (c : Dev nD) (w : Fin cfg12.W) :
    W25 m ρ c (Proc.devRef .tc (Pipeline.arrRef spec12 w)) = (dat12 (VW24 m ρ) c).arrAt w cfg12.N := by
  unfold W25; exact Pipeline.withArrays_arr spec12 launch12.win.arr_inj c _ _ w

abbrev VW25 : (c : Dev nD) → (b : Ref sig .tc) → Buf (Elt F) ((c : Thread nD τ).loc b) := fun c b => W25 m ρ c b

theorem W25_keep (c : Dev nD) (b : Ref sig .tc) (hb : ∀ w, Pipeline.arrRef spec12 w = b → (cfg12.win w).isOut = false) :
    W25 m ρ c (Proc.devRef .tc b) = W24 m ρ c (Proc.devRef .tc b) := by
  unfold W25
  exact withArrays_keep spec12 launch12.win.arr_inj c _ _ b fun w e =>
    ((dat12 (VW24 m ρ) c).arrAt_in w (hb w e) _).trans (A_eq12 (VW24 m ρ) c w)

def W26 (c : Dev nD) : Valuation τ sig (Elt F) :=
  Pipeline.withArrays spec13 c (W25 m ρ c) fun w => (dat13 (VW25 m ρ) c).arrAt w cfg13.N

theorem W26_arr (c : Dev nD) (w : Fin cfg13.W) :
    W26 m ρ c (Proc.devRef .tc (Pipeline.arrRef spec13 w)) = (dat13 (VW25 m ρ) c).arrAt w cfg13.N := by
  unfold W26; exact Pipeline.withArrays_arr spec13 launch13.win.arr_inj c _ _ w

abbrev VW26 : (c : Dev nD) → (b : Ref sig .tc) → Buf (Elt F) ((c : Thread nD τ).loc b) := fun c b => W26 m ρ c b

theorem W26_keep (c : Dev nD) (b : Ref sig .tc) (hb : ∀ w, Pipeline.arrRef spec13 w = b → (cfg13.win w).isOut = false) :
    W26 m ρ c (Proc.devRef .tc b) = W25 m ρ c (Proc.devRef .tc b) := by
  unfold W26
  exact withArrays_keep spec13 launch13.win.arr_inj c _ _ b fun w e =>
    ((dat13 (VW25 m ρ) c).arrAt_in w (hb w e) _).trans (A_eq13 (VW25 m ρ) c w)

def W27 (c : Dev nD) : Valuation τ sig (Elt F) :=
  Pipeline.withArrays spec14 c (W26 m ρ c) fun w => (dat14 (VW26 m ρ) c).arrAt w cfg14.N

theorem W27_arr (c : Dev nD) (w : Fin cfg14.W) :
    W27 m ρ c (Proc.devRef .tc (Pipeline.arrRef spec14 w)) = (dat14 (VW26 m ρ) c).arrAt w cfg14.N := by
  unfold W27; exact Pipeline.withArrays_arr spec14 launch14.win.arr_inj c _ _ w

abbrev VW27 : (c : Dev nD) → (b : Ref sig .tc) → Buf (Elt F) ((c : Thread nD τ).loc b) := fun c b => W27 m ρ c b

theorem W27_keep (c : Dev nD) (b : Ref sig .tc) (hb : ∀ w, Pipeline.arrRef spec14 w = b → (cfg14.win w).isOut = false) :
    W27 m ρ c (Proc.devRef .tc b) = W26 m ρ c (Proc.devRef .tc b) := by
  unfold W27
  exact withArrays_keep spec14 launch14.win.arr_inj c _ _ b fun w e =>
    ((dat14 (VW26 m ρ) c).arrAt_in w (hb w e) _).trans (A_eq14 (VW26 m ρ) c w)

abbrev W28 : Dev nD → Valuation τ sig (Elt F) := fun c => StableHlo.after hostOps15 (W27 m ρ c)

theorem W28_keep (c : Dev nD) (r : Ref sig .tc) (h : r ∉ hostOps15_W) :
    W28 m ρ c (Proc.devRef .tc r) = W27 m ρ c (Proc.devRef .tc r) :=
  StableHlo.after_of_writes_sub hostOps15 _ hostOps15_writes h

def pdats : (p : Fin 15) → (c : Dev nD) → Dat τ (Elt F) Unit ℕ (UR sig nD τ) ℕ (Pipeline.pin (pcfgs (F := F)) adm p) c
  | ⟨0, _⟩ => fun c => dat0 (VW3 m ρ) c
  | ⟨1, _⟩ => fun c => dat1 (VW5 m ρ) c
  | ⟨2, _⟩ => fun c => dat2 (VW7 m ρ) c
  | ⟨3, _⟩ => fun c => dat3 (VW9 m ρ) c
  | ⟨4, _⟩ => fun c => dat4 (VW10 m ρ) c
  | ⟨5, _⟩ => fun c => dat5 (VW12 m ρ) c
  | ⟨6, _⟩ => fun c => dat6 (VW14 m ρ) c
  | ⟨7, _⟩ => fun c => dat7 (VW16 m ρ) c
  | ⟨8, _⟩ => fun c => dat8 (VW17 m ρ) c
  | ⟨9, _⟩ => fun c => dat9 (VW19 m ρ) c
  | ⟨10, _⟩ => fun c => dat10 (VW21 m ρ) c
  | ⟨11, _⟩ => fun c => dat11 (VW23 m ρ) c
  | ⟨12, _⟩ => fun c => dat12 (VW24 m ρ) c
  | ⟨13, _⟩ => fun c => dat13 (VW25 m ρ) c
  | ⟨14, _⟩ => fun c => dat14 (VW26 m ρ) c

abbrev 𝒱₀ : Variants := Variants.none

abbrev L : GSem nD τ sig → Finset Unit := fun _ => ∅

abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W28 m ρ c) ∗ ∃ r, prngReg c r)

omit m ρ in
theorem owesAt_in {cfg : Cfg sig Λ₀} {c : Dev nD} (dat : Dat τ (Elt F) Unit ℕ (UR sig nD τ) ℕ cfg c)
    (h : ∀ t, dat.owed t = 0) (hr : ∀ t, dat.recorded t = Set.univ) (t : Fin (cfg.N + 1)) :
    (iprop(∃ W, owes (c : Thread nD τ) (0 : CellTallies nD τ sig Unit) W) : sProp 𝕄) ⊢ dat.owesAt () t := by
  unfold Pipeline.Dat.owesAt Pipeline.owesWithin Pipeline.Dat.bound
  rw [h t, hr t]
  iintro ⟨%W, HO⟩; iexists W; isplitr; · ipureintro; exact fun _ _ => Or.inl trivial
  iexact HO

omit m ρ in
theorem owesAt_out {cfg : Cfg sig Λ₀} {c : Dev nD} (dat : Dat τ (Elt F) Unit ℕ (UR sig nD τ) ℕ cfg c)
    (h : ∀ t, dat.owed t = 0) (t : Fin (cfg.N + 1)) :
    dat.owesAt () t ⊢ (iprop(∃ W, owes (c : Thread nD τ) (0 : CellTallies nD τ sig Unit) W) : sProp 𝕄) := by
  unfold Pipeline.Dat.owesAt Pipeline.owesWithin
  rw [h t]
  iintro ⟨%W, -, HO⟩; iexists W; iexact HO

theorem prefHeld_none (p : Fin 15) (c : Dev nD) :
    (BI.emp : sProp 𝕄) ⊢ Pipeline.prefHeld (pcfgs (F := F) p).pre c (fun _ => fullShare) (adm p).1 := by
  unfold Pipeline.prefHeld
  rw [show (Finset.univ : Finset (Fin 0)) = ∅ from rfl, BI.bigSep_empty]

set_option backward.isDefEq.respectTransparency.types false in
/-- One region of @main as a step of the run from buffer contents `Wi` to `Wo`, where `Wo` differs from `Wi` only on the region's arrays. -/
def regOf (p : Fin 15) (launch : Pipeline.LaunchFacts (nD := nD) (τ := τ) cfgs p) (Wi Wo : Dev nD → Valuation τ sig (Elt F))
    (hbody : ∀ c, BodyObligation (pdats m ρ p c) (defs₀ (F := F)) Variants.none () Set.univ)
    (howed : ∀ c t, (pdats m ρ p c).owed t = 0) (hshare : ∀ c w, (pdats m ρ p c).q w = fullShare)
    (hrec : ∀ c t, (pdats m ρ p c).recorded t = Set.univ)
    (hA : ∀ c w, (pdats m ρ p c).A w = Wi c (Proc.devRef .tc (Pipeline.arrRef (cfgs p).spec w)))
    (hΦi : ∀ c, (pdats m ρ p c).Φ 0 = Pipeline.ΦA (cfgs p).spec c)
    (hΦo : ∀ c, (pdats m ρ p c).Φ (Fin.last _) ⊢ Pipeline.ΦA (cfgs p).spec c)
    (hWo : ∀ c, Wo c = Pipeline.withArrays (cfgs p).spec c (Wi c) fun w => (pdats m ρ p c).arrAt w (cfgs p).N) :
    Pipeline.RegionSeg (pcfgs (F := F)) adm (pdats m ρ) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Wi c b)
  hentry c := by
    rw [Pipeline.ownSems0_none]
    have hsplit := Pipeline.arrays_of_unscopedBufs (p := p) (pcfgs (F := F)) adm (pdats m ρ) launch.win launch.arr_whole c
      ((pdats m ρ p c).share_full (hshare c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iapply (prefHeld_none p c); iempintro
    isplitl [HO]
    · iapply (owesAt_in (pdats m ρ p c) (howed c) (hrec c) 0); iexact HO
    isplitl [Hp]; · iexact Hp
    iexact Hrest
  hin c := by
    rw [hΦi c]; unfold Pipeline.ΦA
    iintro ⟨Hp, -, Hr⟩
    isplitl [Hr]; · iexact Hr
    iexact Hp
  hout c := by
    refine (hΦo c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m ρ) ((pdats m ρ p c).share_full (hshare c))
      (fun b => Wi c b) (fun b => Wo c b) ((pdats m ρ p c).arrAt · (cfgs p).N)
      (fun w => by
        rw [hWo c]
        exact (Pipeline.withArrays_arr (cfgs p).spec launch.win.arr_inj c (Wi c) (fun w => (pdats m ρ p c).arrAt w (cfgs p).N) w).symm)
      (fun b hb => by
        rw [hWo c]
        exact Pipeline.withArrays_of_ne (cfgs p).spec c (Wi c) (fun w => (pdats m ρ p c).arrAt w (cfgs p).N) b
          fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_out (pdats m ρ p c) (howed c) (Fin.last _)); iexact HO

end Cert.KernelIdeal.Hand

end
-- ==== Proof.KI.Run.lean ====
import proofs.«424828_j6554120094214_2_alg».proof.Proof.KI.RunFold
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ

variable (m : (ℓ : Loc nD τ sig) → Buf (Elt F) ℓ) (ρ : Dev nD → PrngReg)

def reg0 : Pipeline.RegionSeg (pcfgs (F := F)) adm (pdats m ρ) () defs₀ 𝒱₀ L lv 0 :=
  regOf m ρ 0 launch0 (W3 m ρ) (W4 m ρ) (body_obligation0 (VW3 m ρ)) (owed0 (VW3 m ρ)) (share0 (VW3 m ρ))
    (recorded0 (VW3 m ρ)) (A_eq0 (VW3 m ρ)) (Phi_in0 (VW3 m ρ)) (Phi_out0 (VW3 m ρ)) fun _ => rfl

def reg1 : Pipeline.RegionSeg (pcfgs (F := F)) adm (pdats m ρ) () defs₀ 𝒱₀ L lv 1 :=
  regOf m ρ 1 launch1 (W5 m ρ) (W6 m ρ) (body_obligation1 (VW5 m ρ)) (owed1 (VW5 m ρ)) (share1 (VW5 m ρ))
    (recorded1 (VW5 m ρ)) (A_eq1 (VW5 m ρ)) (Phi_in1 (VW5 m ρ)) (Phi_out1 (VW5 m ρ)) fun _ => rfl

def reg2 : Pipeline.RegionSeg (pcfgs (F := F)) adm (pdats m ρ) () defs₀ 𝒱₀ L lv 2 :=
  regOf m ρ 2 launch2 (W7 m ρ) (W8 m ρ) (body_obligation2 (VW7 m ρ)) (owed2 (VW7 m ρ)) (share2 (VW7 m ρ))
    (recorded2 (VW7 m ρ)) (A_eq2 (VW7 m ρ)) (Phi_in2 (VW7 m ρ)) (Phi_out2 (VW7 m ρ)) fun _ => rfl

def reg3 : Pipeline.RegionSeg (pcfgs (F := F)) adm (pdats m ρ) () defs₀ 𝒱₀ L lv 3 :=
  regOf m ρ 3 launch3 (W9 m ρ) (W10 m ρ) (body_obligation3 (VW9 m ρ)) (owed3 (VW9 m ρ)) (share3 (VW9 m ρ))
    (recorded3 (VW9 m ρ)) (A_eq3 (VW9 m ρ)) (Phi_in3 (VW9 m ρ)) (Phi_out3 (VW9 m ρ)) fun _ => rfl

def reg4 : Pipeline.RegionSeg (pcfgs (F := F)) adm (pdats m ρ) () defs₀ 𝒱₀ L lv 4 :=
  regOf m ρ 4 launch4 (W10 m ρ) (W11 m ρ) (body_obligation4 (VW10 m ρ)) (owed4 (VW10 m ρ)) (share4 (VW10 m ρ))
    (recorded4 (VW10 m ρ)) (A_eq4 (VW10 m ρ)) (Phi_in4 (VW10 m ρ)) (Phi_out4 (VW10 m ρ)) fun _ => rfl

def reg5 : Pipeline.RegionSeg (pcfgs (F := F)) adm (pdats m ρ) () defs₀ 𝒱₀ L lv 5 :=
  regOf m ρ 5 launch5 (W12 m ρ) (W13 m ρ) (body_obligation5 (VW12 m ρ)) (owed5 (VW12 m ρ)) (share5 (VW12 m ρ))
    (recorded5 (VW12 m ρ)) (A_eq5 (VW12 m ρ)) (Phi_in5 (VW12 m ρ)) (Phi_out5 (VW12 m ρ)) fun _ => rfl

def reg6 : Pipeline.RegionSeg (pcfgs (F := F)) adm (pdats m ρ) () defs₀ 𝒱₀ L lv 6 :=
  regOf m ρ 6 launch6 (W14 m ρ) (W15 m ρ) (body_obligation6 (VW14 m ρ)) (owed6 (VW14 m ρ)) (share6 (VW14 m ρ))
    (recorded6 (VW14 m ρ)) (A_eq6 (VW14 m ρ)) (Phi_in6 (VW14 m ρ)) (Phi_out6 (VW14 m ρ)) fun _ => rfl

def reg7 : Pipeline.RegionSeg (pcfgs (F := F)) adm (pdats m ρ) () defs₀ 𝒱₀ L lv 7 :=
  regOf m ρ 7 launch7 (W16 m ρ) (W17 m ρ) (body_obligation7 (VW16 m ρ)) (owed7 (VW16 m ρ)) (share7 (VW16 m ρ))
    (recorded7 (VW16 m ρ)) (A_eq7 (VW16 m ρ)) (Phi_in7 (VW16 m ρ)) (Phi_out7 (VW16 m ρ)) fun _ => rfl

def reg8 : Pipeline.RegionSeg (pcfgs (F := F)) adm (pdats m ρ) () defs₀ 𝒱₀ L lv 8 :=
  regOf m ρ 8 launch8 (W17 m ρ) (W18 m ρ) (body_obligation8 (VW17 m ρ)) (owed8 (VW17 m ρ)) (share8 (VW17 m ρ))
    (recorded8 (VW17 m ρ)) (A_eq8 (VW17 m ρ)) (Phi_in8 (VW17 m ρ)) (Phi_out8 (VW17 m ρ)) fun _ => rfl

def reg9 : Pipeline.RegionSeg (pcfgs (F := F)) adm (pdats m ρ) () defs₀ 𝒱₀ L lv 9 :=
  regOf m ρ 9 launch9 (W19 m ρ) (W20 m ρ) (body_obligation9 (VW19 m ρ)) (owed9 (VW19 m ρ)) (share9 (VW19 m ρ))
    (recorded9 (VW19 m ρ)) (A_eq9 (VW19 m ρ)) (Phi_in9 (VW19 m ρ)) (Phi_out9 (VW19 m ρ)) fun _ => rfl

def reg10 : Pipeline.RegionSeg (pcfgs (F := F)) adm (pdats m ρ) () defs₀ 𝒱₀ L lv 10 :=
  regOf m ρ 10 launch10 (W21 m ρ) (W22 m ρ) (body_obligation10 (VW21 m ρ)) (owed10 (VW21 m ρ)) (share10 (VW21 m ρ))
    (recorded10 (VW21 m ρ)) (A_eq10 (VW21 m ρ)) (Phi_in10 (VW21 m ρ)) (Phi_out10 (VW21 m ρ)) fun _ => rfl

def reg11 : Pipeline.RegionSeg (pcfgs (F := F)) adm (pdats m ρ) () defs₀ 𝒱₀ L lv 11 :=
  regOf m ρ 11 launch11 (W23 m ρ) (W24 m ρ) (body_obligation11 (VW23 m ρ)) (owed11 (VW23 m ρ)) (share11 (VW23 m ρ))
    (recorded11 (VW23 m ρ)) (A_eq11 (VW23 m ρ)) (Phi_in11 (VW23 m ρ)) (Phi_out11 (VW23 m ρ)) fun _ => rfl

def reg12 : Pipeline.RegionSeg (pcfgs (F := F)) adm (pdats m ρ) () defs₀ 𝒱₀ L lv 12 :=
  regOf m ρ 12 launch12 (W24 m ρ) (W25 m ρ) (body_obligation12 (VW24 m ρ)) (owed12 (VW24 m ρ)) (share12 (VW24 m ρ))
    (recorded12 (VW24 m ρ)) (A_eq12 (VW24 m ρ)) (Phi_in12 (VW24 m ρ)) (Phi_out12 (VW24 m ρ)) fun _ => rfl

def reg13 : Pipeline.RegionSeg (pcfgs (F := F)) adm (pdats m ρ) () defs₀ 𝒱₀ L lv 13 :=
  regOf m ρ 13 launch13 (W25 m ρ) (W26 m ρ) (body_obligation13 (VW25 m ρ)) (owed13 (VW25 m ρ)) (share13 (VW25 m ρ))
    (recorded13 (VW25 m ρ)) (A_eq13 (VW25 m ρ)) (Phi_in13 (VW25 m ρ)) (Phi_out13 (VW25 m ρ)) fun _ => rfl

def reg14 : Pipeline.RegionSeg (pcfgs (F := F)) adm (pdats m ρ) () defs₀ 𝒱₀ L lv 14 :=
  regOf m ρ 14 launch14 (W26 m ρ) (W27 m ρ) (body_obligation14 (VW26 m ρ)) (owed14 (VW26 m ρ)) (share14 (VW26 m ρ))
    (recorded14 (VW26 m ρ)) (A_eq14 (VW26 m ρ)) (Phi_in14 (VW26 m ρ)) (Phi_out14 (VW26 m ρ)) fun _ => rfl

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .region (reg4 m ρ),
    .host (hseg hostOps5 hostOps5_sub hostOps5_fresh (W11 m ρ)),
    .region (reg5 m ρ),
    .host (hseg hostOps6 hostOps6_sub hostOps6_fresh (W13 m ρ)),
    .region (reg6 m ρ),
    .host (hseg hostOps7 hostOps7_sub hostOps7_fresh (W15 m ρ)),
    .region (reg7 m ρ),
    .region (reg8 m ρ),
    .host (hseg hostOps9 hostOps9_sub hostOps9_fresh (W18 m ρ)),
    .region (reg9 m ρ),
    .host (hseg hostOps10 hostOps10_sub hostOps10_fresh (W20 m ρ)),
    .region (reg10 m ρ),
    .host (hseg hostOps11 hostOps11_sub hostOps11_fresh (W22 m ρ)),
    .region (reg11 m ρ),
    .region (reg12 m ρ),
    .region (reg13 m ρ),
    .region (reg14 m ρ),
    .host (hseg hostOps15 hostOps15_sub hostOps15_fresh (W27 m ρ)) ]

/-- A buffer no host stretch writes and no region has as an output array: the later half of the run, -/
abbrev KeptB (r : Ref sig .tc) : Prop :=
  (r ∉ hostOps15_W) ∧
  (∀ w, Pipeline.arrRef spec14 w = r → (cfg14.win w).isOut = false) ∧
  (∀ w, Pipeline.arrRef spec13 w = r → (cfg13.win w).isOut = false) ∧
  (∀ w, Pipeline.arrRef spec12 w = r → (cfg12.win w).isOut = false) ∧
  (∀ w, Pipeline.arrRef spec11 w = r → (cfg11.win w).isOut = false) ∧
  (r ∉ hostOps11_W) ∧
  (∀ w, Pipeline.arrRef spec10 w = r → (cfg10.win w).isOut = false) ∧
  (r ∉ hostOps10_W) ∧
  (∀ w, Pipeline.arrRef spec9 w = r → (cfg9.win w).isOut = false) ∧
  (r ∉ hostOps9_W) ∧
  (∀ w, Pipeline.arrRef spec8 w = r → (cfg8.win w).isOut = false) ∧
  (∀ w, Pipeline.arrRef spec7 w = r → (cfg7.win w).isOut = false) ∧
  (r ∉ hostOps7_W) ∧
  (∀ w, Pipeline.arrRef spec6 w = r → (cfg6.win w).isOut = false)

/-- and the earlier half. -/
abbrev KeptA (r : Ref sig .tc) : Prop :=
  (r ∉ hostOps6_W) ∧
  (∀ w, Pipeline.arrRef spec5 w = r → (cfg5.win w).isOut = false) ∧
  (r ∉ hostOps5_W) ∧
  (∀ w, Pipeline.arrRef spec4 w = r → (cfg4.win w).isOut = false) ∧
  (∀ w, Pipeline.arrRef spec3 w = r → (cfg3.win w).isOut = false) ∧
  (r ∉ hostOps3_W) ∧
  (∀ w, Pipeline.arrRef spec2 w = r → (cfg2.win w).isOut = false) ∧
  (r ∉ hostOps2_W) ∧
  (∀ w, Pipeline.arrRef spec1 w = r → (cfg1.win w).isOut = false) ∧
  (r ∉ hostOps1_W) ∧
  (∀ w, Pipeline.arrRef spec0 w = r → (cfg0.win w).isOut = false) ∧
  (r ∉ hostOps0_2_W) ∧
  (r ∉ hostOps0_1_W) ∧
  (r ∉ hostOps0_W)

/-- Such a buffer ends the run as the launch found it: every stretch and every region keeps it. -/
theorem W28_arg (c : Dev nD) (r : Ref sig .tc) (hB : KeptB r) (hA : KeptA r) :
    W28 m ρ c (Proc.devRef .tc r) = m ((c : Thread nD τ).loc r) := by
  obtain ⟨h28, h27, h26, h25, h24, h23, h22, h21, h20, h19, h18, h17, h16, h15⟩ := hB
  obtain ⟨h14, h13, h12, h11, h10, h9, h8, h7, h6, h5, h4, h3, h2, h1⟩ := hA
  exact (W28_keep m ρ c r h28).trans <|
    (W27_keep m ρ c r h27).trans <|
    (W26_keep m ρ c r h26).trans <|
    (W25_keep m ρ c r h25).trans <|
    (W24_keep m ρ c r h24).trans <|
    (W23_keep m ρ c r h23).trans <|
    (W22_keep m ρ c r h22).trans <|
    (W21_keep m ρ c r h21).trans <|
    (W20_keep m ρ c r h20).trans <|
    (W19_keep m ρ c r h19).trans <|
    (W18_keep m ρ c r h18).trans <|
    (W17_keep m ρ c r h17).trans <|
    (W16_keep m ρ c r h16).trans <|
    (W15_keep m ρ c r h15).trans <|
    (W14_keep m ρ c r h14).trans <|
    (W13_keep m ρ c r h13).trans <|
    (W12_keep m ρ c r h12).trans <|
    (W11_keep m ρ c r h11).trans <|
    (W10_keep m ρ c r h10).trans <|
    (W9_keep m ρ c r h9).trans <|
    (W8_keep m ρ c r h8).trans <|
    (W7_keep m ρ c r h7).trans <|
    (W6_keep m ρ c r h6).trans <|
    (W5_keep m ρ c r h5).trans <|
    (W4_keep m ρ c r h4).trans <|
    (W3_keep m ρ c r h3).trans <|
    (W2_keep m ρ c r h2).trans <|
    (W1_keep m ρ c r h1).trans <| rfl

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem ((c : Thread nD τ).1, b) = W28 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          Prog.lift (.customCall (Pipeline.entry 12) ()),
          Prog.lift (.customCall (Pipeline.entry 13) ()),
          Prog.lift (.customCall (Pipeline.entry 14) ()),
          StableHlo.seq hostOps15 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W28 m ρ c) ∗ R c) ⊢ iprop(Tₙ m ρ c ∗ ∃ W, owes (c : Thread nD τ) (0 : CellTallies nD τ sig Unit) W)
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W28 m ρ c b)
    (hfin := fun c s' => by
      iintro ⟨⟨Hh, -⟩, HSI⟩
      unfold StableHlo.held
      imodintro
      iapply (pointsTo_read_all (Pipeline.ucRefs τ sig) (fun b => (((c : Thread nD τ)).1, b)) (W28 m ρ c) s')
      isplitl [Hh] <;> iassumption)
    (hQ := fun s h c => h c)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (W28_arg m ρ c main_arg0 (by decide) (by decide)),
     (h c _ (mem_uc main_arg1 (by decide))).trans (W28_arg m ρ c main_arg1 (by decide) (by decide)),
     (h c _ (mem_uc main_arg2 (by decide))).trans (W28_arg m ρ c main_arg2 (by decide) (by decide)),
     (h c _ (mem_uc main_arg3 (by decide))).trans (W28_arg m ρ c main_arg3 (by decide) (by decide)),
     (h c _ (mem_uc main_arg4 (by decide))).trans (W28_arg m ρ c main_arg4 (by decide) (by decide)),
     (h c _ (mem_uc main_arg5 (by decide))).trans (W28_arg m ρ c main_arg5 (by decide) (by decide)),
     (h c _ (mem_uc main_arg6 (by decide))).trans (W28_arg m ρ c main_arg6 (by decide) (by decide)),
     (h c _ (mem_uc main_arg7 (by decide))).trans (W28_arg m ρ c main_arg7 (by decide) (by decide)),
     (h c _ (mem_uc main_arg8 (by decide))).trans (W28_arg m ρ c main_arg8 (by decide) (by decide)),
     (h c _ (mem_uc main_arg9 (by decide))).trans (W28_arg m ρ c main_arg9 (by decide) (by decide)),
     (h c _ (mem_uc main_arg10 (by decide))).trans (W28_arg m ρ c main_arg10 (by decide) (by decide)),
     (h c _ (mem_uc main_arg11 (by decide))).trans (W28_arg m ρ c main_arg11 (by decide) (by decide)),
     (h c _ (mem_uc main_arg12 (by decide))).trans (W28_arg m ρ c main_arg12 (by decide) (by decide)),
     (h c _ (mem_uc main_arg13 (by decide))).trans (W28_arg m ρ c main_arg13 (by decide) (by decide)),
     (h c _ (mem_uc main_arg14 (by decide))).trans (W28_arg m ρ c main_arg14 (by decide) (by decide))⟩) (run_all m ρ)

end Cert.KernelIdeal.Hand

end
-- ==== Proof.Ref.Ops.lean ====
import proofs.«424828_j6554120094214_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo
variable {F : FTy → Type} [FloatOps F]
set_option maxHeartbeats 4000000 in
abbrev opsPre : List (HloOp τ sig (Elt F)) :=
  [ StableHlo.nullary main_v0 (iotaInDim S100000 32 0),
    StableHlo.unary main_arg1 main_v1 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v1 main_v2 rfl shapeCasts_S1x1000000_S1000000,
    StableHlo.binary main_v2 main_v0 main_v3 ((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F)),
    StableHlo.unary main_arg1 main_v4 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v4 main_v5 rfl shapeCasts_S1x1000000_S1000000,
    StableHlo.binary main_v5 main_v0 main_v6 ((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F)),
    StableHlo.nullary main_cst (constant S_ .f32 0x3F800000#32),
    StableHlo.unary main_cst main_v7 (broadcastInDim S1100000 ![] bcast_S_S1100000 : (⟨S_, .f32⟩ : BufTy).Contents (Elt F) → (⟨S1100000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1100000x1 ![0] bcast_S1100000_S1100000x1_0 : (⟨S1100000, .i32⟩ : BufTy).Contents (Elt F) → (⟨S1100000x1, .i32⟩ : BufTy).Contents (Elt F)),
    StableHlo.ternary main_v8 main_v9 main_v7 main_v10 ((fun x i u => Host.scatterAdd scatter_S100000_S1100000x1_S1100000_n_0_0_1 x i u) : (⟨S100000, .f32⟩ : BufTy).Contents (Elt F) → (⟨S1100000x1, .i32⟩ : BufTy).Contents (Elt F) → (⟨S1100000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32),
    StableHlo.TRef.unary ((.of main_cst_2) : StableHlo.TRef sig ⟨S_, .f32⟩) main_call0.v0 id,
    StableHlo.TRef.unary main_call0.v0 main_call0.v1 (broadcastInDim S100000 ![] bcast_S_S100000),
    StableHlo.TRef.ternary ((.of main_v12) : StableHlo.TRef sig ⟨S100000, .i1⟩) ((.of main_v13) : StableHlo.TRef sig ⟨S100000, .f32⟩) main_call0.v1 main_call0.v2 select,
    StableHlo.nullary main_c (constantI S_ 32 0#32),
    StableHlo.unary main_c main_v15 (broadcastInDim S1100000 ![] bcast_S_S1100000 : (⟨S_, .i32⟩ : BufTy).Contents (Elt F) → (⟨S1100000, .i32⟩ : BufTy).Contents (Elt F)),
    StableHlo.binary main_v3 main_v15 main_v16 (cmpi .slt : (⟨S1100000, .i32⟩ : BufTy).Contents (Elt F) → (⟨S1100000, .i32⟩ : BufTy).Contents (Elt F) → (⟨S1100000, .i1⟩ : BufTy).Contents (Elt F)),
    StableHlo.nullary main_c_3 (constantI S_ 32 100000#32),
    StableHlo.unary main_c_3 main_v17 (broadcastInDim S1100000 ![] bcast_S_S1100000 : (⟨S_, .i32⟩ : BufTy).Contents (Elt F) → (⟨S1100000, .i32⟩ : BufTy).Contents (Elt F)),
    StableHlo.binary main_v3 main_v17 main_v18 (addi : (⟨S1100000, .i32⟩ : BufTy).Contents (Elt F) → (⟨S1100000, .i32⟩ : BufTy).Contents (Elt F) → (⟨S1100000, .i32⟩ : BufTy).Contents (Elt F)),
    StableHlo.ternary main_v16 main_v18 main_v3 main_v19 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    StableHlo.unary main_v19 main_v20 (broadcastInDim S1100000x1 ![0] bcast_S1100000_S1100000x1_0 : (⟨S1100000, .i32⟩ : BufTy).Contents (Elt F) → (⟨S1100000x1, .i32⟩ : BufTy).Contents (Elt F)),
    StableHlo.binary main_v14 main_v20 main_v21 ((fun x i => Host.gather gather_S100000_S1100000x1_S1100000_n_0_n_n_0_1_1 x i) : (⟨S100000, .f32⟩ : BufTy).Contents (Elt F) → (⟨S1100000x1, .i32⟩ : BufTy).Contents (Elt F) → (⟨S1100000, .f32⟩ : BufTy).Contents (Elt F)),
    StableHlo.nullary main_c_4 (constantI S_ 32 0#32),
    StableHlo.unary main_c_4 main_v22 (broadcastInDim S1100000 ![] bcast_S_S1100000 : (⟨S_, .i32⟩ : BufTy).Contents (Elt F) → (⟨S1100000, .i32⟩ : BufTy).Contents (Elt F)),
    StableHlo.binary main_v6 main_v22 main_v23 (cmpi .slt : (⟨S1100000, .i32⟩ : BufTy).Contents (Elt F) → (⟨S1100000, .i32⟩ : BufTy).Contents (Elt F) → (⟨S1100000, .i1⟩ : BufTy).Contents (Elt F)),
    StableHlo.nullary main_c_5 (constantI S_ 32 100000#32),
    StableHlo.unary main_c_5 main_v24 (broadcastInDim S1100000 ![] bcast_S_S1100000 : (⟨S_, .i32⟩ : BufTy).Contents (Elt F) → (⟨S1100000, .i32⟩ : BufTy).Contents (Elt F)),
    StableHlo.binary main_v6 main_v24 main_v25 (addi : (⟨S1100000, .i32⟩ : BufTy).Contents (Elt F) → (⟨S1100000, .i32⟩ : BufTy).Contents (Elt F) → (⟨S1100000, .i32⟩ : BufTy).Contents (Elt F)),
    StableHlo.ternary main_v23 main_v25 main_v6 main_v26 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    StableHlo.unary main_v26 main_v27 (broadcastInDim S1100000x1 ![0] bcast_S1100000_S1100000x1_0 : (⟨S1100000, .i32⟩ : BufTy).Contents (Elt F) → (⟨S1100000x1, .i32⟩ : BufTy).Contents (Elt F)),
    StableHlo.binary main_v14 main_v27 main_v28 ((fun x i => Host.gather gather_S100000_S1100000x1_S1100000_n_0_n_n_0_1_1 x i) : (⟨S100000, .f32⟩ : BufTy).Contents (Elt F) → (⟨S1100000x1, .i32⟩ : BufTy).Contents (Elt F) → (⟨S1100000, .f32⟩ : BufTy).Contents (Elt F)),
    StableHlo.binary main_v21 main_v28 main_v29 (mulf : (⟨S1100000, .f32⟩ : BufTy).Contents (Elt F) → (⟨S1100000, .f32⟩ : BufTy).Contents (Elt F) → (⟨S1100000, .f32⟩ : BufTy).Contents (Elt F)) ]

set_option maxHeartbeats 4000000 in
abbrev opsL0 : List (HloOp τ sig (Elt F)) :=
  [ StableHlo.unary main_arg3 main_v30 ((transpose S64x64 [1, 0] · transposes_S64x64_S64x64_1_0) : (⟨S64x64, .f32⟩ : BufTy).Contents (Elt F) → (⟨S64x64, .f32⟩ : BufTy).Contents (Elt F)),
    StableHlo.binary main_arg0 main_v30 main_v31 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_6 (constantI S_ 32 0#32),
    StableHlo.unary main_c_6 main_v32 (broadcastInDim S1100000 ![] bcast_S_S1100000 : (⟨S_, .i32⟩ : BufTy).Contents (Elt F) → (⟨S1100000, .i32⟩ : BufTy).Contents (Elt F)),
    StableHlo.binary main_v3 main_v32 main_v33 (cmpi .slt : (⟨S1100000, .i32⟩ : BufTy).Contents (Elt F) → (⟨S1100000, .i32⟩ : BufTy).Contents (Elt F) → (⟨S1100000, .i1⟩ : BufTy).Contents (Elt F)),
    StableHlo.nullary main_c_7 (constantI S_ 32 100000#32),
    StableHlo.unary main_c_7 main_v34 (broadcastInDim S1100000 ![] bcast_S_S1100000 : (⟨S_, .i32⟩ : BufTy).Contents (Elt F) → (⟨S1100000, .i32⟩ : BufTy).Contents (Elt F)),
    StableHlo.binary main_v3 main_v34 main_v35 (addi : (⟨S1100000, .i32⟩ : BufTy).Contents (Elt F) → (⟨S1100000, .i32⟩ : BufTy).Contents (Elt F) → (⟨S1100000, .i32⟩ : BufTy).Contents (Elt F)),
    StableHlo.ternary main_v33 main_v35 main_v3 main_v36 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    StableHlo.unary main_v36 main_v37 (broadcastInDim S1100000x1 ![0] bcast_S1100000_S1100000x1_0 : (⟨S1100000, .i32⟩ : BufTy).Contents (Elt F) → (⟨S1100000x1, .i32⟩ : BufTy).Contents (Elt F)),
    StableHlo.binary main_v31 main_v37 main_v38 ((fun x i => Host.gather gather_S100000x64_S1100000x1_S1100000x64_1_0_n_n_0_1_164 x i) : (⟨S100000x64, .f32⟩ : BufTy).Contents (Elt F) → (⟨S1100000x1, .i32⟩ : BufTy).Contents (Elt F) → (⟨S1100000x64, .f32⟩ : BufTy).Contents (Elt F)),
    StableHlo.unary main_v29 main_v39 (broadcastInDim S1100000x1 ![0] bcast_S1100000_S1100000x1_0 : (⟨S1100000, .f32⟩ : BufTy).Contents (Elt F) → (⟨S1100000x1, .f32⟩ : BufTy).Contents (Elt F)),
    StableHlo.unary main_v39 main_v40 (broadcastInDim S1100000x64 ![0, 1] bcast_S1100000x1_S1100000x64_0_1 : (⟨S1100000x1, .f32⟩ : BufTy).Contents (Elt F) → (⟨S1100000x64, .f32⟩ : BufTy).Contents (Elt F)),
    StableHlo.binary main_v38 main_v40 main_v41 (mulf : (⟨S1100000x64, .f32⟩ : BufTy).Contents (Elt F) → (⟨S1100000x64, .f32⟩ : BufTy).Contents (Elt F) → (⟨S1100000x64, .f32⟩ : BufTy).Contents (Elt F)),
    StableHlo.nullary main_cst_8 (constant S_ .f32 0x00000000#32),
    StableHlo.unary main_cst_8 main_v42 (broadcastInDim S100000x64 ![] bcast_S_S100000x64 : (⟨S_, .f32⟩ : BufTy).Contents (Elt F) → (⟨S100000x64, .f32⟩ : BufTy).Contents (Elt F)),
    StableHlo.unary main_v6 main_v43 (broadcastInDim S1100000x1 ![0] bcast_S1100000_S1100000x1_0 : (⟨S1100000, .i32⟩ : BufTy).Contents (Elt F) → (⟨S1100000x1, .i32⟩ : BufTy).Contents (Elt F)),
    StableHlo.ternary main_v42 main_v43 main_v41 main_v44 ((fun x i u => Host.scatterAdd scatter_S100000x64_S1100000x1_S1100000x64_1_0_0_1 x i u) : (⟨S100000x64, .f32⟩ : BufTy).Contents (Elt F) → (⟨S1100000x1, .i32⟩ : BufTy).Contents (Elt F) → (⟨S1100000x64, .f32⟩ : BufTy).Contents (Elt F) → (⟨S100000x64, .f32⟩ : BufTy).Contents (Elt F)),
    StableHlo.unary main_arg4 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S100000x64 ![0, 1] bcast_S1x64_S100000x64_0_1 : (⟨S1x64, .f32⟩ : BufTy).Contents (Elt F) → (⟨S100000x64, .f32⟩ : BufTy).Contents (Elt F)),
    StableHlo.binary main_v44 main_v46 main_v47 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary ((.of main_v47) : StableHlo.TRef sig ⟨S100000x64, .f32⟩) main_call1.v0 main_call1.v1 maximumf,
    StableHlo.nullary main_cst_9 (constant S_ .f32 0x00000000#32),
    StableHlo.binary main_v48 main_cst_9 main_v49 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_10 (constant S_ .f32 0x47C35000#32),
    StableHlo.unary main_cst_10 main_v50 (broadcastInDim S64 ![] bcast_S_S64 : (⟨S_, .f32⟩ : BufTy).Contents (Elt F) → (⟨S64, .f32⟩ : BufTy).Contents (Elt F)),
    StableHlo.binary main_v49 main_v50 main_v51 (Host.divf : (⟨S64, .f32⟩ : BufTy).Contents (Elt F) → (⟨S64, .f32⟩ : BufTy).Contents (Elt F) → (⟨S64, .f32⟩ : BufTy).Contents (Elt F)),
    StableHlo.nullary main_c_11 (constantI S_ 32 0#32),
    StableHlo.TRef.nullary main_call2.cst (constant S_ .f32 0x00000000#32),
    StableHlo.TRef.binary ((.of main_v48) : StableHlo.TRef sig ⟨S100000x64, .f32⟩) main_call2.cst main_call2.v0 (fun x v => Host.reduceAdd x v reducesTo_S100000x64_S64_d0 h_S_),
    StableHlo.TRef.unary main_call2.v0 main_call2.v1 (broadcastInDim S1x64 ![1] bcast_S64_S1x64_1),
    StableHlo.TRef.nullary main_call2.cst_0 (constant S_ .f32 0x47C35000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S100000x64 ![0, 1] bcast_S1x64_S100000x64_0_1),
    StableHlo.TRef.binary ((.of main_v48) : StableHlo.TRef sig ⟨S100000x64, .f32⟩) main_call2.v4 main_call2.v5 subf,
    StableHlo.TRef.binary main_call2.v5 main_call2.v5 main_call2.v6 mulf,
    StableHlo.TRef.unary ((.of main_c_11) : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary (main_call2.cst_4 : StableHlo.TRef sig ⟨S_, .f32⟩) main_call2.call0.v0 id,
    StableHlo.TRef.unary main_call2.call0.v0 main_call2.call0.v1 (broadcastInDim S64 ![] bcast_S_S64),
    StableHlo.TRef.ternary (main_call2.v12 : StableHlo.TRef sig ⟨S_, .i1⟩) (main_call2.v11 : StableHlo.TRef sig ⟨S64, .f32⟩) main_call2.call0.v1 main_call2.call0.v2 (fun p a b => select (broadcastInDim S64 ![] bcast_S_S64 p) a b),
    StableHlo.unary main_v51 main_v53 (broadcastInDim S1x64 ![1] bcast_S64_S1x64_1 : (⟨S64, .f32⟩ : BufTy).Contents (Elt F) → (⟨S1x64, .f32⟩ : BufTy).Contents (Elt F)),
    StableHlo.unary main_v53 main_v54 (broadcastInDim S100000x64 ![0, 1] bcast_S1x64_S100000x64_0_1 : (⟨S1x64, .f32⟩ : BufTy).Contents (Elt F) → (⟨S100000x64, .f32⟩ : BufTy).Contents (Elt F)),
    StableHlo.binary main_v48 main_v54 main_v55 (subf : (⟨S100000x64, .f32⟩ : BufTy).Contents (Elt F) → (⟨S100000x64, .f32⟩ : BufTy).Contents (Elt F) → (⟨S100000x64, .f32⟩ : BufTy).Contents (Elt F)),
    StableHlo.unary main_arg5 main_v56 (broadcastInDim S1x64 ![1] bcast_S64_S1x64_1 : (⟨S64, .f32⟩ : BufTy).Contents (Elt F) → (⟨S1x64, .f32⟩ : BufTy).Contents (Elt F)),
    StableHlo.unary main_v56 main_v57 (broadcastInDim S100000x64 ![0, 1] bcast_S1x64_S100000x64_0_1 : (⟨S1x64, .f32⟩ : BufTy).Contents (Elt F) → (⟨S100000x64, .f32⟩ : BufTy).Contents (Elt F)),
    StableHlo.binary main_v57 main_v55 main_v58 (mulf : (⟨S100000x64, .f32⟩ : BufTy).Contents (Elt F) → (⟨S100000x64, .f32⟩ : BufTy).Contents (Elt F) → (⟨S100000x64, .f32⟩ : BufTy).Contents (Elt F)),
    StableHlo.nullary main_cst_12 (constant S_ .f32 0x3727C5AC#32),
    StableHlo.unary main_cst_12 main_v59 (broadcastInDim S64 ![] bcast_S_S64 : (⟨S_, .f32⟩ : BufTy).Contents (Elt F) → (⟨S64, .f32⟩ : BufTy).Contents (Elt F)),
    StableHlo.binary main_v52 main_v59 main_v60 (addf : (⟨S64, .f32⟩ : BufTy).Contents (Elt F) → (⟨S64, .f32⟩ : BufTy).Contents (Elt F) → (⟨S64, .f32⟩ : BufTy).Contents (Elt F)),
    StableHlo.unary main_v60 main_v61 (Host.rsqrt : (⟨S64, .f32⟩ : BufTy).Contents (Elt F) → (⟨S64, .f32⟩ : BufTy).Contents (Elt F)),
    StableHlo.unary main_v61 main_v62 (broadcastInDim S1x64 ![1] bcast_S64_S1x64_1 : (⟨S64, .f32⟩ : BufTy).Contents (Elt F) → (⟨S1x64, .f32⟩ : BufTy).Contents (Elt F)),
    StableHlo.unary main_v62 main_v63 (broadcastInDim S100000x64 ![0, 1] bcast_S1x64_S100000x64_0_1 : (⟨S1x64, .f32⟩ : BufTy).Contents (Elt F) → (⟨S100000x64, .f32⟩ : BufTy).Contents (Elt F)),
    StableHlo.binary main_v58 main_v63 main_v64 (mulf : (⟨S100000x64, .f32⟩ : BufTy).Contents (Elt F) → (⟨S100000x64, .f32⟩ : BufTy).Contents (Elt F) → (⟨S100000x64, .f32⟩ : BufTy).Contents (Elt F)),
    StableHlo.unary main_arg6 main_v65 (broadcastInDim S1x64 ![1] bcast_S64_S1x64_1 : (⟨S64, .f32⟩ : BufTy).Contents (Elt F) → (⟨S1x64, .f32⟩ : BufTy).Contents (Elt F)),
    StableHlo.unary main_v65 main_v66 (broadcastInDim S100000x64 ![0, 1] bcast_S1x64_S100000x64_0_1 : (⟨S1x64, .f32⟩ : BufTy).Contents (Elt F) → (⟨S100000x64, .f32⟩ : BufTy).Contents (Elt F)),
    StableHlo.binary main_v64 main_v66 main_v67 (addf : (⟨S100000x64, .f32⟩ : BufTy).Contents (Elt F) → (⟨S100000x64, .f32⟩ : BufTy).Contents (Elt F) → (⟨S100000x64, .f32⟩ : BufTy).Contents (Elt F)) ]

set_option maxHeartbeats 4000000 in
abbrev opsL1 : List (HloOp τ sig (Elt F)) :=
  [ StableHlo.unary main_arg7 main_v68 ((transpose S64x64 [1, 0] · transposes_S64x64_S64x64_1_0) : (⟨S64x64, .f32⟩ : BufTy).Contents (Elt F) → (⟨S64x64, .f32⟩ : BufTy).Contents (Elt F)),
    StableHlo.binary main_v67 main_v68 main_v69 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_13 (constantI S_ 32 0#32),
    StableHlo.unary main_c_13 main_v70 (broadcastInDim S1100000 ![] bcast_S_S1100000 : (⟨S_, .i32⟩ : BufTy).Contents (Elt F) → (⟨S1100000, .i32⟩ : BufTy).Contents (Elt F)),
    StableHlo.binary main_v3 main_v70 main_v71 (cmpi .slt : (⟨S1100000, .i32⟩ : BufTy).Contents (Elt F) → (⟨S1100000, .i32⟩ : BufTy).Contents (Elt F) → (⟨S1100000, .i1⟩ : BufTy).Contents (Elt F)),
    StableHlo.nullary main_c_14 (constantI S_ 32 100000#32),
    StableHlo.unary main_c_14 main_v72 (broadcastInDim S1100000 ![] bcast_S_S1100000 : (⟨S_, .i32⟩ : BufTy).Contents (Elt F) → (⟨S1100000, .i32⟩ : BufTy).Contents (Elt F)),
    StableHlo.binary main_v3 main_v72 main_v73 (addi : (⟨S1100000, .i32⟩ : BufTy).Contents (Elt F) → (⟨S1100000, .i32⟩ : BufTy).Contents (Elt F) → (⟨S1100000, .i32⟩ : BufTy).Contents (Elt F)),
    StableHlo.ternary main_v71 main_v73 main_v3 main_v74 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    StableHlo.unary main_v74 main_v75 (broadcastInDim S1100000x1 ![0] bcast_S1100000_S1100000x1_0 : (⟨S1100000, .i32⟩ : BufTy).Contents (Elt F) → (⟨S1100000x1, .i32⟩ : BufTy).Contents (Elt F)),
    StableHlo.binary main_v69 main_v75 main_v76 ((fun x i => Host.gather gather_S100000x64_S1100000x1_S1100000x64_1_0_n_n_0_1_164 x i) : (⟨S100000x64, .f32⟩ : BufTy).Contents (Elt F) → (⟨S1100000x1, .i32⟩ : BufTy).Contents (Elt F) → (⟨S1100000x64, .f32⟩ : BufTy).Contents (Elt F)),
    StableHlo.unary main_v29 main_v77 (broadcastInDim S1100000x1 ![0] bcast_S1100000_S1100000x1_0 : (⟨S1100000, .f32⟩ : BufTy).Contents (Elt F) → (⟨S1100000x1, .f32⟩ : BufTy).Contents (Elt F)),
    StableHlo.unary main_v77 main_v78 (broadcastInDim S1100000x64 ![0, 1] bcast_S1100000x1_S1100000x64_0_1 : (⟨S1100000x1, .f32⟩ : BufTy).Contents (Elt F) → (⟨S1100000x64, .f32⟩ : BufTy).Contents (Elt F)),
    StableHlo.binary main_v76 main_v78 main_v79 (mulf : (⟨S1100000x64, .f32⟩ : BufTy).Contents (Elt F) → (⟨S1100000x64, .f32⟩ : BufTy).Contents (Elt F) → (⟨S1100000x64, .f32⟩ : BufTy).Contents (Elt F)),
    StableHlo.nullary main_cst_15 (constant S_ .f32 0x00000000#32),
    StableHlo.unary main_cst_15 main_v80 (broadcastInDim S100000x64 ![] bcast_S_S100000x64 : (⟨S_, .f32⟩ : BufTy).Contents (Elt F) → (⟨S100000x64, .f32⟩ : BufTy).Contents (Elt F)),
    StableHlo.unary main_v6 main_v81 (broadcastInDim S1100000x1 ![0] bcast_S1100000_S1100000x1_0 : (⟨S1100000, .i32⟩ : BufTy).Contents (Elt F) → (⟨S1100000x1, .i32⟩ : BufTy).Contents (Elt F)),
    StableHlo.ternary main_v80 main_v81 main_v79 main_v82 ((fun x i u => Host.scatterAdd scatter_S100000x64_S1100000x1_S1100000x64_1_0_0_1 x i u) : (⟨S100000x64, .f32⟩ : BufTy).Contents (Elt F) → (⟨S1100000x1, .i32⟩ : BufTy).Contents (Elt F) → (⟨S1100000x64, .f32⟩ : BufTy).Contents (Elt F) → (⟨S100000x64, .f32⟩ : BufTy).Contents (Elt F)),
    StableHlo.unary main_arg8 main_v83 (broadcastInDim S1x64 ![1] bcast_S64_S1x64_1 : (⟨S64, .f32⟩ : BufTy).Contents (Elt F) → (⟨S1x64, .f32⟩ : BufTy).Contents (Elt F)),
    StableHlo.unary main_v83 main_v84 (broadcastInDim S100000x64 ![0, 1] bcast_S1x64_S100000x64_0_1 : (⟨S1x64, .f32⟩ : BufTy).Contents (Elt F) → (⟨S100000x64, .f32⟩ : BufTy).Contents (Elt F)),
    StableHlo.binary main_v82 main_v84 main_v85 (addf : (⟨S100000x64, .f32⟩ : BufTy).Contents (Elt F) → (⟨S100000x64, .f32⟩ : BufTy).Contents (Elt F) → (⟨S100000x64, .f32⟩ : BufTy).Contents (Elt F)),
    StableHlo.TRef.nullary main_call3.cst (constant S_ .f32 0x00000000#32),
    StableHlo.TRef.unary main_call3.cst main_call3.v0 (broadcastInDim S100000x64 ![] bcast_S_S100000x64),
    StableHlo.TRef.binary ((.of main_v85) : StableHlo.TRef sig ⟨S100000x64, .f32⟩) main_call3.v0 main_call3.v1 maximumf,
    StableHlo.nullary main_cst_16 (constant S_ .f32 0x00000000#32),
    StableHlo.binary main_v86 main_cst_16 main_v87 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_17 (constant S_ .f32 0x47C35000#32),
    StableHlo.unary main_cst_17 main_v88 (broadcastInDim S64 ![] bcast_S_S64 : (⟨S_, .f32⟩ : BufTy).Contents (Elt F) → (⟨S64, .f32⟩ : BufTy).Contents (Elt F)),
    StableHlo.binary main_v87 main_v88 main_v89 (Host.divf : (⟨S64, .f32⟩ : BufTy).Contents (Elt F) → (⟨S64, .f32⟩ : BufTy).Contents (Elt F) → (⟨S64, .f32⟩ : BufTy).Contents (Elt F)),
    StableHlo.nullary main_c_18 (constantI S_ 32 0#32),
    StableHlo.TRef.nullary main_call4.cst (constant S_ .f32 0x00000000#32),
    StableHlo.TRef.binary ((.of main_v86) : StableHlo.TRef sig ⟨S100000x64, .f32⟩) main_call4.cst main_call4.v0 (fun x v => Host.reduceAdd x v reducesTo_S100000x64_S64_d0 h_S_),
    StableHlo.TRef.unary main_call4.v0 main_call4.v1 (broadcastInDim S1x64 ![1] bcast_S64_S1x64_1),
    StableHlo.TRef.nullary main_call4.cst_0 (constant S_ .f32 0x47C35000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S100000x64 ![0, 1] bcast_S1x64_S100000x64_0_1),
    StableHlo.TRef.binary ((.of main_v86) : StableHlo.TRef sig ⟨S100000x64, .f32⟩) main_call4.v4 main_call4.v5 subf,
    StableHlo.TRef.binary main_call4.v5 main_call4.v5 main_call4.v6 mulf,
    StableHlo.TRef.unary ((.of main_c_18) : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary (main_call4.cst_4 : StableHlo.TRef sig ⟨S_, .f32⟩) main_call4.call0.v0 id,
    StableHlo.TRef.unary main_call4.call0.v0 main_call4.call0.v1 (broadcastInDim S64 ![] bcast_S_S64),
    StableHlo.TRef.ternary (main_call4.v12 : StableHlo.TRef sig ⟨S_, .i1⟩) (main_call4.v11 : StableHlo.TRef sig ⟨S64, .f32⟩) main_call4.call0.v1 main_call4.call0.v2 (fun p a b => select (broadcastInDim S64 ![] bcast_S_S64 p) a b),
    StableHlo.unary main_v89 main_v91 (broadcastInDim S1x64 ![1] bcast_S64_S1x64_1 : (⟨S64, .f32⟩ : BufTy).Contents (Elt F) → (⟨S1x64, .f32⟩ : BufTy).Contents (Elt F)),
    StableHlo.unary main_v91 main_v92 (broadcastInDim S100000x64 ![0, 1] bcast_S1x64_S100000x64_0_1 : (⟨S1x64, .f32⟩ : BufTy).Contents (Elt F) → (⟨S100000x64, .f32⟩ : BufTy).Contents (Elt F)),
    StableHlo.binary main_v86 main_v92 main_v93 (subf : (⟨S100000x64, .f32⟩ : BufTy).Contents (Elt F) → (⟨S100000x64, .f32⟩ : BufTy).Contents (Elt F) → (⟨S100000x64, .f32⟩ : BufTy).Contents (Elt F)),
    StableHlo.unary main_arg9 main_v94 (broadcastInDim S1x64 ![1] bcast_S64_S1x64_1 : (⟨S64, .f32⟩ : BufTy).Contents (Elt F) → (⟨S1x64, .f32⟩ : BufTy).Contents (Elt F)),
    StableHlo.unary main_v94 main_v95 (broadcastInDim S100000x64 ![0, 1] bcast_S1x64_S100000x64_0_1 : (⟨S1x64, .f32⟩ : BufTy).Contents (Elt F) → (⟨S100000x64, .f32⟩ : BufTy).Contents (Elt F)),
    StableHlo.binary main_v95 main_v93 main_v96 (mulf : (⟨S100000x64, .f32⟩ : BufTy).Contents (Elt F) → (⟨S100000x64, .f32⟩ : BufTy).Contents (Elt F) → (⟨S100000x64, .f32⟩ : BufTy).Contents (Elt F)),
    StableHlo.nullary main_cst_19 (constant S_ .f32 0x3727C5AC#32),
    StableHlo.unary main_cst_19 main_v97 (broadcastInDim S64 ![] bcast_S_S64 : (⟨S_, .f32⟩ : BufTy).Contents (Elt F) → (⟨S64, .f32⟩ : BufTy).Contents (Elt F)),
    StableHlo.binary main_v90 main_v97 main_v98 (addf : (⟨S64, .f32⟩ : BufTy).Contents (Elt F) → (⟨S64, .f32⟩ : BufTy).Contents (Elt F) → (⟨S64, .f32⟩ : BufTy).Contents (Elt F)),
    StableHlo.unary main_v98 main_v99 (Host.rsqrt : (⟨S64, .f32⟩ : BufTy).Contents (Elt F) → (⟨S64, .f32⟩ : BufTy).Contents (Elt F)),
    StableHlo.unary main_v99 main_v100 (broadcastInDim S1x64 ![1] bcast_S64_S1x64_1 : (⟨S64, .f32⟩ : BufTy).Contents (Elt F) → (⟨S1x64, .f32⟩ : BufTy).Contents (Elt F)),
    StableHlo.unary main_v100 main_v101 (broadcastInDim S100000x64 ![0, 1] bcast_S1x64_S100000x64_0_1 : (⟨S1x64, .f32⟩ : BufTy).Contents (Elt F) → (⟨S100000x64, .f32⟩ : BufTy).Contents (Elt F)),
    StableHlo.binary main_v96 main_v101 main_v102 (mulf : (⟨S100000x64, .f32⟩ : BufTy).Contents (Elt F) → (⟨S100000x64, .f32⟩ : BufTy).Contents (Elt F) → (⟨S100000x64, .f32⟩ : BufTy).Contents (Elt F)),
    StableHlo.unary main_arg10 main_v103 (broadcastInDim S1x64 ![1] bcast_S64_S1x64_1 : (⟨S64, .f32⟩ : BufTy).Contents (Elt F) → (⟨S1x64, .f32⟩ : BufTy).Contents (Elt F)),
    StableHlo.unary main_v103 main_v104 (broadcastInDim S100000x64 ![0, 1] bcast_S1x64_S100000x64_0_1 : (⟨S1x64, .f32⟩ : BufTy).Contents (Elt F) → (⟨S100000x64, .f32⟩ : BufTy).Contents (Elt F)),
    StableHlo.binary main_v102 main_v104 main_v105 (addf : (⟨S100000x64, .f32⟩ : BufTy).Contents (Elt F) → (⟨S100000x64, .f32⟩ : BufTy).Contents (Elt F) → (⟨S100000x64, .f32⟩ : BufTy).Contents (Elt F)) ]

set_option maxHeartbeats 4000000 in
abbrev opsL2 : List (HloOp τ sig (Elt F)) :=
  [ StableHlo.unary main_arg11 main_v106 ((transpose S64x64 [1, 0] · transposes_S64x64_S64x64_1_0) : (⟨S64x64, .f32⟩ : BufTy).Contents (Elt F) → (⟨S64x64, .f32⟩ : BufTy).Contents (Elt F)),
    StableHlo.binary main_v105 main_v106 main_v107 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_20 (constantI S_ 32 0#32),
    StableHlo.unary main_c_20 main_v108 (broadcastInDim S1100000 ![] bcast_S_S1100000 : (⟨S_, .i32⟩ : BufTy).Contents (Elt F) → (⟨S1100000, .i32⟩ : BufTy).Contents (Elt F)),
    StableHlo.binary main_v3 main_v108 main_v109 (cmpi .slt : (⟨S1100000, .i32⟩ : BufTy).Contents (Elt F) → (⟨S1100000, .i32⟩ : BufTy).Contents (Elt F) → (⟨S1100000, .i1⟩ : BufTy).Contents (Elt F)),
    StableHlo.nullary main_c_21 (constantI S_ 32 100000#32),
    StableHlo.unary main_c_21 main_v110 (broadcastInDim S1100000 ![] bcast_S_S1100000 : (⟨S_, .i32⟩ : BufTy).Contents (Elt F) → (⟨S1100000, .i32⟩ : BufTy).Contents (Elt F)),
    StableHlo.binary main_v3 main_v110 main_v111 (addi : (⟨S1100000, .i32⟩ : BufTy).Contents (Elt F) → (⟨S1100000, .i32⟩ : BufTy).Contents (Elt F) → (⟨S1100000, .i32⟩ : BufTy).Contents (Elt F)),
    StableHlo.ternary main_v109 main_v111 main_v3 main_v112 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    StableHlo.unary main_v112 main_v113 (broadcastInDim S1100000x1 ![0] bcast_S1100000_S1100000x1_0 : (⟨S1100000, .i32⟩ : BufTy).Contents (Elt F) → (⟨S1100000x1, .i32⟩ : BufTy).Contents (Elt F)),
    StableHlo.binary main_v107 main_v113 main_v114 ((fun x i => Host.gather gather_S100000x64_S1100000x1_S1100000x64_1_0_n_n_0_1_164 x i) : (⟨S100000x64, .f32⟩ : BufTy).Contents (Elt F) → (⟨S1100000x1, .i32⟩ : BufTy).Contents (Elt F) → (⟨S1100000x64, .f32⟩ : BufTy).Contents (Elt F)),
    StableHlo.unary main_v29 main_v115 (broadcastInDim S1100000x1 ![0] bcast_S1100000_S1100000x1_0 : (⟨S1100000, .f32⟩ : BufTy).Contents (Elt F) → (⟨S1100000x1, .f32⟩ : BufTy).Contents (Elt F)),
    StableHlo.unary main_v115 main_v116 (broadcastInDim S1100000x64 ![0, 1] bcast_S1100000x1_S1100000x64_0_1 : (⟨S1100000x1, .f32⟩ : BufTy).Contents (Elt F) → (⟨S1100000x64, .f32⟩ : BufTy).Contents (Elt F)),
    StableHlo.binary main_v114 main_v116 main_v117 (mulf : (⟨S1100000x64, .f32⟩ : BufTy).Contents (Elt F) → (⟨S1100000x64, .f32⟩ : BufTy).Contents (Elt F) → (⟨S1100000x64, .f32⟩ : BufTy).Contents (Elt F)),
    StableHlo.nullary main_cst_22 (constant S_ .f32 0x00000000#32),
    StableHlo.unary main_cst_22 main_v118 (broadcastInDim S100000x64 ![] bcast_S_S100000x64 : (⟨S_, .f32⟩ : BufTy).Contents (Elt F) → (⟨S100000x64, .f32⟩ : BufTy).Contents (Elt F)),
    StableHlo.unary main_v6 main_v119 (broadcastInDim S1100000x1 ![0] bcast_S1100000_S1100000x1_0 : (⟨S1100000, .i32⟩ : BufTy).Contents (Elt F) → (⟨S1100000x1, .i32⟩ : BufTy).Contents (Elt F)),
    StableHlo.ternary main_v118 main_v119 main_v117 main_v120 ((fun x i u => Host.scatterAdd scatter_S100000x64_S1100000x1_S1100000x64_1_0_0_1 x i u) : (⟨S100000x64, .f32⟩ : BufTy).Contents (Elt F) → (⟨S1100000x1, .i32⟩ : BufTy).Contents (Elt F) → (⟨S1100000x64, .f32⟩ : BufTy).Contents (Elt F) → (⟨S100000x64, .f32⟩ : BufTy).Contents (Elt F)),
    StableHlo.unary main_arg12 main_v121 (broadcastInDim S1x64 ![1] bcast_S64_S1x64_1 : (⟨S64, .f32⟩ : BufTy).Contents (Elt F) → (⟨S1x64, .f32⟩ : BufTy).Contents (Elt F)),
    StableHlo.unary main_v121 main_v122 (broadcastInDim S100000x64 ![0, 1] bcast_S1x64_S100000x64_0_1 : (⟨S1x64, .f32⟩ : BufTy).Contents (Elt F) → (⟨S100000x64, .f32⟩ : BufTy).Contents (Elt F)),
    StableHlo.binary main_v120 main_v122 main_v123 (addf : (⟨S100000x64, .f32⟩ : BufTy).Contents (Elt F) → (⟨S100000x64, .f32⟩ : BufTy).Contents (Elt F) → (⟨S100000x64, .f32⟩ : BufTy).Contents (Elt F)),
    StableHlo.TRef.nullary main_call5.cst (constant S_ .f32 0x00000000#32),
    StableHlo.TRef.unary main_call5.cst main_call5.v0 (broadcastInDim S100000x64 ![] bcast_S_S100000x64),
    StableHlo.TRef.binary ((.of main_v123) : StableHlo.TRef sig ⟨S100000x64, .f32⟩) main_call5.v0 main_call5.v1 maximumf,
    StableHlo.nullary main_cst_23 (constant S_ .f32 0x00000000#32),
    StableHlo.binary main_v124 main_cst_23 main_v125 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_24 (constant S_ .f32 0x47C35000#32),
    StableHlo.unary main_cst_24 main_v126 (broadcastInDim S64 ![] bcast_S_S64 : (⟨S_, .f32⟩ : BufTy).Contents (Elt F) → (⟨S64, .f32⟩ : BufTy).Contents (Elt F)),
    StableHlo.binary main_v125 main_v126 main_v127 (Host.divf : (⟨S64, .f32⟩ : BufTy).Contents (Elt F) → (⟨S64, .f32⟩ : BufTy).Contents (Elt F) → (⟨S64, .f32⟩ : BufTy).Contents (Elt F)),
    StableHlo.nullary main_c_25 (constantI S_ 32 0#32),
    StableHlo.TRef.nullary main_call6.cst (constant S_ .f32 0x00000000#32),
    StableHlo.TRef.binary ((.of main_v124) : StableHlo.TRef sig ⟨S100000x64, .f32⟩) main_call6.cst main_call6.v0 (fun x v => Host.reduceAdd x v reducesTo_S100000x64_S64_d0 h_S_),
    StableHlo.TRef.unary main_call6.v0 main_call6.v1 (broadcastInDim S1x64 ![1] bcast_S64_S1x64_1),
    StableHlo.TRef.nullary main_call6.cst_0 (constant S_ .f32 0x47C35000#32),
    StableHlo.TRef.unary main_call6.cst_0 main_call6.v2 (broadcastInDim S1x64 ![] bcast_S_S1x64),
    StableHlo.TRef.binary main_call6.v1 main_call6.v2 main_call6.v3 Host.divf,
    StableHlo.TRef.unary main_call6.v3 main_call6.v4 (broadcastInDim S100000x64 ![0, 1] bcast_S1x64_S100000x64_0_1),
    StableHlo.TRef.binary ((.of main_v124) : StableHlo.TRef sig ⟨S100000x64, .f32⟩) main_call6.v4 main_call6.v5 subf,
    StableHlo.TRef.binary main_call6.v5 main_call6.v5 main_call6.v6 mulf,
    StableHlo.TRef.unary ((.of main_c_25) : StableHlo.TRef sig ⟨S_, .i32⟩) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x64_S64_d0 h_S_),
    StableHlo.TRef.unary main_call6.v8 main_call6.v10 (broadcastInDim S64 ![] bcast_S_S64),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary (main_call6.cst_4 : StableHlo.TRef sig ⟨S_, .f32⟩) main_call6.call0.v0 id,
    StableHlo.TRef.unary main_call6.call0.v0 main_call6.call0.v1 (broadcastInDim S64 ![] bcast_S_S64),
    StableHlo.TRef.ternary (main_call6.v12 : StableHlo.TRef sig ⟨S_, .i1⟩) (main_call6.v11 : StableHlo.TRef sig ⟨S64, .f32⟩) main_call6.call0.v1 main_call6.call0.v2 (fun p a b => select (broadcastInDim S64 ![] bcast_S_S64 p) a b),
    StableHlo.unary main_v127 main_v129 (broadcastInDim S1x64 ![1] bcast_S64_S1x64_1 : (⟨S64, .f32⟩ : BufTy).Contents (Elt F) → (⟨S1x64, .f32⟩ : BufTy).Contents (Elt F)),
    StableHlo.unary main_v129 main_v130 (broadcastInDim S100000x64 ![0, 1] bcast_S1x64_S100000x64_0_1 : (⟨S1x64, .f32⟩ : BufTy).Contents (Elt F) → (⟨S100000x64, .f32⟩ : BufTy).Contents (Elt F)),
    StableHlo.binary main_v124 main_v130 main_v131 (subf : (⟨S100000x64, .f32⟩ : BufTy).Contents (Elt F) → (⟨S100000x64, .f32⟩ : BufTy).Contents (Elt F) → (⟨S100000x64, .f32⟩ : BufTy).Contents (Elt F)),
    StableHlo.unary main_arg13 main_v132 (broadcastInDim S1x64 ![1] bcast_S64_S1x64_1 : (⟨S64, .f32⟩ : BufTy).Contents (Elt F) → (⟨S1x64, .f32⟩ : BufTy).Contents (Elt F)),
    StableHlo.unary main_v132 main_v133 (broadcastInDim S100000x64 ![0, 1] bcast_S1x64_S100000x64_0_1 : (⟨S1x64, .f32⟩ : BufTy).Contents (Elt F) → (⟨S100000x64, .f32⟩ : BufTy).Contents (Elt F)),
    StableHlo.binary main_v133 main_v131 main_v134 (mulf : (⟨S100000x64, .f32⟩ : BufTy).Contents (Elt F) → (⟨S100000x64, .f32⟩ : BufTy).Contents (Elt F) → (⟨S100000x64, .f32⟩ : BufTy).Contents (Elt F)),
    StableHlo.nullary main_cst_26 (constant S_ .f32 0x3727C5AC#32),
    StableHlo.unary main_cst_26 main_v135 (broadcastInDim S64 ![] bcast_S_S64 : (⟨S_, .f32⟩ : BufTy).Contents (Elt F) → (⟨S64, .f32⟩ : BufTy).Contents (Elt F)),
    StableHlo.binary main_v128 main_v135 main_v136 (addf : (⟨S64, .f32⟩ : BufTy).Contents (Elt F) → (⟨S64, .f32⟩ : BufTy).Contents (Elt F) → (⟨S64, .f32⟩ : BufTy).Contents (Elt F)),
    StableHlo.unary main_v136 main_v137 (Host.rsqrt : (⟨S64, .f32⟩ : BufTy).Contents (Elt F) → (⟨S64, .f32⟩ : BufTy).Contents (Elt F)),
    StableHlo.unary main_v137 main_v138 (broadcastInDim S1x64 ![1] bcast_S64_S1x64_1 : (⟨S64, .f32⟩ : BufTy).Contents (Elt F) → (⟨S1x64, .f32⟩ : BufTy).Contents (Elt F)),
    StableHlo.unary main_v138 main_v139 (broadcastInDim S100000x64 ![0, 1] bcast_S1x64_S100000x64_0_1 : (⟨S1x64, .f32⟩ : BufTy).Contents (Elt F) → (⟨S100000x64, .f32⟩ : BufTy).Contents (Elt F)),
    StableHlo.binary main_v134 main_v139 main_v140 (mulf : (⟨S100000x64, .f32⟩ : BufTy).Contents (Elt F) → (⟨S100000x64, .f32⟩ : BufTy).Contents (Elt F) → (⟨S100000x64, .f32⟩ : BufTy).Contents (Elt F)),
    StableHlo.unary main_arg14 main_v141 (broadcastInDim S1x64 ![1] bcast_S64_S1x64_1 : (⟨S64, .f32⟩ : BufTy).Contents (Elt F) → (⟨S1x64, .f32⟩ : BufTy).Contents (Elt F)),
    StableHlo.unary main_v141 main_v142 (broadcastInDim S100000x64 ![0, 1] bcast_S1x64_S100000x64_0_1 : (⟨S1x64, .f32⟩ : BufTy).Contents (Elt F) → (⟨S100000x64, .f32⟩ : BufTy).Contents (Elt F)),
    StableHlo.binary main_v140 main_v142 main_v143 (addf : (⟨S100000x64, .f32⟩ : BufTy).Contents (Elt F) → (⟨S100000x64, .f32⟩ : BufTy).Contents (Elt F) → (⟨S100000x64, .f32⟩ : BufTy).Contents (Elt F)) ]

set_option maxHeartbeats 4000000 in
abbrev opsPool : List (HloOp τ sig (Elt F)) :=
  [ StableHlo.nullary main_cst_27 (constant S_ .f32 0x00000000#32),
    StableHlo.unary main_cst_27 main_v144 (broadcastInDim S512x64 ![] bcast_S_S512x64 : (⟨S_, .f32⟩ : BufTy).Contents (Elt F) → (⟨S512x64, .f32⟩ : BufTy).Contents (Elt F)),
    StableHlo.unary main_arg2 main_v145 (broadcastInDim S100000x1 ![0] bcast_S100000_S100000x1_0 : (⟨S100000, .i32⟩ : BufTy).Contents (Elt F) → (⟨S100000x1, .i32⟩ : BufTy).Contents (Elt F)),
    StableHlo.ternary main_v144 main_v145 main_v67 main_v146 ((fun x i u => Host.scatterAdd scatter_S512x64_S100000x1_S100000x64_1_0_0_1 x i u) : (⟨S512x64, .f32⟩ : BufTy).Contents (Elt F) → (⟨S100000x1, .i32⟩ : BufTy).Contents (Elt F) → (⟨S100000x64, .f32⟩ : BufTy).Contents (Elt F) → (⟨S512x64, .f32⟩ : BufTy).Contents (Elt F)),
    StableHlo.nullary main_cst_28 (constant S_ .f32 0x00000000#32),
    StableHlo.unary main_cst_28 main_v147 (broadcastInDim S512x64 ![] bcast_S_S512x64 : (⟨S_, .f32⟩ : BufTy).Contents (Elt F) → (⟨S512x64, .f32⟩ : BufTy).Contents (Elt F)),
    StableHlo.unary main_arg2 main_v148 (broadcastInDim S100000x1 ![0] bcast_S100000_S100000x1_0 : (⟨S100000, .i32⟩ : BufTy).Contents (Elt F) → (⟨S100000x1, .i32⟩ : BufTy).Contents (Elt F)),
    StableHlo.ternary main_v147 main_v148 main_v105 main_v149 ((fun x i u => Host.scatterAdd scatter_S512x64_S100000x1_S100000x64_1_0_0_1 x i u) : (⟨S512x64, .f32⟩ : BufTy).Contents (Elt F) → (⟨S100000x1, .i32⟩ : BufTy).Contents (Elt F) → (⟨S100000x64, .f32⟩ : BufTy).Contents (Elt F) → (⟨S512x64, .f32⟩ : BufTy).Contents (Elt F)),
    StableHlo.nullary main_cst_29 (constant S_ .f32 0x00000000#32),
    StableHlo.unary main_cst_29 main_v150 (broadcastInDim S512x64 ![] bcast_S_S512x64 : (⟨S_, .f32⟩ : BufTy).Contents (Elt F) → (⟨S512x64, .f32⟩ : BufTy).Contents (Elt F)),
    StableHlo.unary main_arg2 main_v151 (broadcastInDim S100000x1 ![0] bcast_S100000_S100000x1_0 : (⟨S100000, .i32⟩ : BufTy).Contents (Elt F) → (⟨S100000x1, .i32⟩ : BufTy).Contents (Elt F)),
    StableHlo.ternary main_v150 main_v151 main_v143 main_v152 ((fun x i u => Host.scatterAdd scatter_S512x64_S100000x1_S100000x64_1_0_0_1 x i u) : (⟨S512x64, .f32⟩ : BufTy).Contents (Elt F) → (⟨S100000x1, .i32⟩ : BufTy).Contents (Elt F) → (⟨S100000x64, .f32⟩ : BufTy).Contents (Elt F) → (⟨S512x64, .f32⟩ : BufTy).Contents (Elt F)),
    StableHlo.nary ![main_v146, main_v149, main_v152] main_v153 (fun u => concatenate S512x192 1 [⟨S512x64, u 0⟩, ⟨S512x64, u 1⟩, ⟨S512x64, u 2⟩] concatenates_S512x64_S512x64_S512x64_S512x192_d1) ]

abbrev ops : List (HloOp τ sig (Elt F)) := opsPre ++ opsL0 ++ opsL1 ++ opsL2 ++ opsPool

set_option maxHeartbeats 4000000 in
theorem opsPre_sub : (opsPre : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub ..⟩

set_option maxHeartbeats 4000000 in
theorem opsPre_fresh : ∀ op ∈ (opsPre : List (HloOp τ sig (Elt F))), op.fresh = ∅ :=
  List.forall_iff_forall_mem.1 (⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩ :
    (opsPre : List (HloOp τ sig (Elt F))).Forall fun op => op.fresh = ∅)

set_option maxHeartbeats 4000000 in
theorem opsL0_sub : (opsL0 : List (HloOp τ sig (Elt F))).Forall fun op => op.bufs ⊆ tcRefs τ sig :=
  ⟨unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub ..⟩

set_option maxHeartbeats 4000000 in
theorem opsL0_fresh : ∀ op ∈ (opsL0 : List (HloOp τ sig (Elt F))), op.fresh = ∅ :=
  List.forall_iff_forall_mem.1 (⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl⟩ :
    (opsL0 : List (HloOp τ sig (Elt F))).Forall fun op => op.fresh = ∅)

set_option maxHeartbeats 4000000 in
theorem opsL1_sub : (opsL1 : List (HloOp τ sig (Elt F))).Forall fun op => op.bufs ⊆ tcRefs τ sig :=
  ⟨unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub ..⟩

set_option maxHeartbeats 4000000 in
theorem opsL1_fresh : ∀ op ∈ (opsL1 : List (HloOp τ sig (Elt F))), op.fresh = ∅ :=
  List.forall_iff_forall_mem.1 (⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl⟩ :
    (opsL1 : List (HloOp τ sig (Elt F))).Forall fun op => op.fresh = ∅)

set_option maxHeartbeats 4000000 in
theorem opsL2_sub : (opsL2 : List (HloOp τ sig (Elt F))).Forall fun op => op.bufs ⊆ tcRefs τ sig :=
  ⟨unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub ..⟩

set_option maxHeartbeats 4000000 in
theorem opsL2_fresh : ∀ op ∈ (opsL2 : List (HloOp τ sig (Elt F))), op.fresh = ∅ :=
  List.forall_iff_forall_mem.1 (⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl⟩ :
    (opsL2 : List (HloOp τ sig (Elt F))).Forall fun op => op.fresh = ∅)

set_option maxHeartbeats 4000000 in
theorem opsPool_sub : (opsPool : List (HloOp τ sig (Elt F))).Forall fun op => op.bufs ⊆ tcRefs τ sig :=
  ⟨nullary_bufs_sub .., unary_bufs_sub .., unary_bufs_sub .., ternary_bufs_sub .., nullary_bufs_sub .., unary_bufs_sub ..,
    unary_bufs_sub .., ternary_bufs_sub .., nullary_bufs_sub .., unary_bufs_sub .., unary_bufs_sub .., ternary_bufs_sub ..,
    nary_bufs_sub ..⟩

set_option maxHeartbeats 4000000 in
theorem opsPool_fresh : ∀ op ∈ (opsPool : List (HloOp τ sig (Elt F))), op.fresh = ∅ :=
  List.forall_iff_forall_mem.1 (⟨rfl, rfl, rfl, rfl, rfl, rfl, rfl, rfl, rfl, rfl, rfl, rfl, rfl⟩ :
    (opsPool : List (HloOp τ sig (Elt F))).Forall fun op => op.fresh = ∅)

theorem ops_sub : (ops : List (HloOp τ sig (Elt F))).Forall fun op => op.bufs ⊆ tcRefs τ sig :=
  List.forall_iff_forall_mem.2 fun op h => by
    simp only [ops, List.mem_append] at h
    rcases h with (((h | h) | h) | h) | h
    · exact List.forall_iff_forall_mem.1 opsPre_sub op h
    · exact List.forall_iff_forall_mem.1 opsL0_sub op h
    · exact List.forall_iff_forall_mem.1 opsL1_sub op h
    · exact List.forall_iff_forall_mem.1 opsL2_sub op h
    · exact List.forall_iff_forall_mem.1 opsPool_sub op h

theorem ops_fresh : ∀ op ∈ (ops : List (HloOp τ sig (Elt F))), op.fresh = ∅ := fun op h => by
  simp only [ops, List.mem_append] at h
  rcases h with (((h | h) | h) | h) | h
  · exact opsPre_fresh op h
  · exact opsL0_fresh op h
  · exact opsL1_fresh op h
  · exact opsL2_fresh op h
  · exact opsPool_fresh op h

end Cert.ReferenceIdeal.Hand

end
-- ==== Proof.Ref.Writes.lean ====
import proofs.«424828_j6554120094214_2_alg».proof.Proof.Ref.Ops
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo
variable {F : FTy → Type} [FloatOps F]

theorem writes_sub_of_mem {t : Topo} {s : RefSig} {Val : EltTy → Type} {op : HloOp t s Val} (y : Ref s .tc) {W : List (Ref s .tc)}
    (hw : op.writes = {Proc.devRef (τ := t) .tc y}) (hy : y ∈ W) : op.writes ⊆ (W.map (Proc.devRef (τ := t) .tc)).toFinset := by
  rw [hw]; exact Finset.singleton_subset_iff.2 (List.mem_toFinset.2 (List.mem_map_of_mem hy))

abbrev opsPre_W : List (Ref sig .tc) :=
  [main_v0, main_v1, main_v2, main_v3, main_v4, main_v5, main_v6, main_cst,
    main_v7, main_cst_0, main_v8, main_v9, main_v10, main_cst_1, main_v11, main_v12,
    main_v13, main_cst_2, main_call0.v0.ref, main_call0.v1.ref, main_call0.v2.ref, main_c, main_v15, main_v16,
    main_c_3, main_v17, main_v18, main_v19, main_v20, main_v21, main_c_4, main_v22,
    main_v23, main_c_5, main_v24, main_v25, main_v26, main_v27, main_v28, main_v29]

set_option maxHeartbeats 4000000 in
theorem opsPre_writes : (opsPre : List (HloOp τ sig (Elt F))).Forall fun op => op.writes ⊆ (opsPre_W.map (Proc.devRef (τ := τ) .tc)).toFinset :=
  ⟨writes_sub_of_mem main_v0 rfl (by decide), writes_sub_of_mem main_v1 rfl (by decide), writes_sub_of_mem main_v2 rfl (by decide),
    writes_sub_of_mem main_v3 rfl (by decide), writes_sub_of_mem main_v4 rfl (by decide), writes_sub_of_mem main_v5 rfl (by decide),
    writes_sub_of_mem main_v6 rfl (by decide), writes_sub_of_mem main_cst rfl (by decide), writes_sub_of_mem main_v7 rfl (by decide),
    writes_sub_of_mem main_cst_0 rfl (by decide), writes_sub_of_mem main_v8 rfl (by decide), writes_sub_of_mem main_v9 rfl (by decide),
    writes_sub_of_mem main_v10 rfl (by decide), writes_sub_of_mem main_cst_1 rfl (by decide), writes_sub_of_mem main_v11 rfl (by decide),
    writes_sub_of_mem main_v12 rfl (by decide), writes_sub_of_mem main_v13 rfl (by decide), writes_sub_of_mem main_cst_2 rfl (by decide),
    writes_sub_of_mem (main_call0.v0.ref) rfl (by decide), writes_sub_of_mem (main_call0.v1.ref) rfl (by decide), writes_sub_of_mem (main_call0.v2.ref) rfl (by decide),
    writes_sub_of_mem main_c rfl (by decide), writes_sub_of_mem main_v15 rfl (by decide), writes_sub_of_mem main_v16 rfl (by decide),
    writes_sub_of_mem main_c_3 rfl (by decide), writes_sub_of_mem main_v17 rfl (by decide), writes_sub_of_mem main_v18 rfl (by decide),
    writes_sub_of_mem main_v19 rfl (by decide), writes_sub_of_mem main_v20 rfl (by decide), writes_sub_of_mem main_v21 rfl (by decide),
    writes_sub_of_mem main_c_4 rfl (by decide), writes_sub_of_mem main_v22 rfl (by decide), writes_sub_of_mem main_v23 rfl (by decide),
    writes_sub_of_mem main_c_5 rfl (by decide), writes_sub_of_mem main_v24 rfl (by decide), writes_sub_of_mem main_v25 rfl (by decide),
    writes_sub_of_mem main_v26 rfl (by decide), writes_sub_of_mem main_v27 rfl (by decide), writes_sub_of_mem main_v28 rfl (by decide),
    writes_sub_of_mem main_v29 rfl (by decide)⟩

theorem after_opsPre_of (V : Valuation τ sig (Elt F)) (r : Ref sig .tc) (h : r ∉ opsPre_W) :
    StableHlo.after opsPre V (Proc.devRef .tc r) = V (Proc.devRef .tc r) :=
  StableHlo.after_of_writes_sub opsPre V opsPre_writes h

abbrev opsL0_W : List (Ref sig .tc) :=
  [main_v30, main_v31, main_c_6, main_v32, main_v33, main_c_7, main_v34, main_v35,
    main_v36, main_v37, main_v38, main_v39, main_v40, main_v41, main_cst_8, main_v42,
    main_v43, main_v44, main_v45, main_v46, main_v47, main_call1.cst.ref, main_call1.v0.ref, main_call1.v1.ref,
    main_cst_9, main_v49, main_cst_10, main_v50, main_v51, main_c_11, main_call2.cst.ref, main_call2.v0.ref,
    main_call2.v1.ref, main_call2.cst_0.ref, main_call2.v2.ref, main_call2.v3.ref, main_call2.v4.ref, main_call2.v5.ref, main_call2.v6.ref, main_call2.v7.ref,
    main_call2.cst_1.ref, main_call2.v8.ref, main_call2.cst_2.ref, main_call2.v9.ref, main_call2.v10.ref, main_call2.v11.ref, main_call2.cst_3.ref, main_call2.v12.ref,
    main_call2.cst_4.ref, main_call2.call0.v0.ref, main_call2.call0.v1.ref, main_call2.call0.v2.ref, main_v53, main_v54, main_v55, main_v56,
    main_v57, main_v58, main_cst_12, main_v59, main_v60, main_v61, main_v62, main_v63,
    main_v64, main_v65, main_v66, main_v67]

set_option maxHeartbeats 4000000 in
theorem opsL0_writes : (opsL0 : List (HloOp τ sig (Elt F))).Forall fun op => op.writes ⊆ (opsL0_W.map (Proc.devRef (τ := τ) .tc)).toFinset :=
  ⟨writes_sub_of_mem main_v30 rfl (by decide), writes_sub_of_mem main_v31 rfl (by decide), writes_sub_of_mem main_c_6 rfl (by decide),
    writes_sub_of_mem main_v32 rfl (by decide), writes_sub_of_mem main_v33 rfl (by decide), writes_sub_of_mem main_c_7 rfl (by decide),
    writes_sub_of_mem main_v34 rfl (by decide), writes_sub_of_mem main_v35 rfl (by decide), writes_sub_of_mem main_v36 rfl (by decide),
    writes_sub_of_mem main_v37 rfl (by decide), writes_sub_of_mem main_v38 rfl (by decide), writes_sub_of_mem main_v39 rfl (by decide),
    writes_sub_of_mem main_v40 rfl (by decide), writes_sub_of_mem main_v41 rfl (by decide), writes_sub_of_mem main_cst_8 rfl (by decide),
    writes_sub_of_mem main_v42 rfl (by decide), writes_sub_of_mem main_v43 rfl (by decide), writes_sub_of_mem main_v44 rfl (by decide),
    writes_sub_of_mem main_v45 rfl (by decide), writes_sub_of_mem main_v46 rfl (by decide), writes_sub_of_mem main_v47 rfl (by decide),
    writes_sub_of_mem (main_call1.cst.ref) rfl (by decide), writes_sub_of_mem (main_call1.v0.ref) rfl (by decide), writes_sub_of_mem (main_call1.v1.ref) rfl (by decide),
    writes_sub_of_mem main_cst_9 rfl (by decide), writes_sub_of_mem main_v49 rfl (by decide), writes_sub_of_mem main_cst_10 rfl (by decide),
    writes_sub_of_mem main_v50 rfl (by decide), writes_sub_of_mem main_v51 rfl (by decide), writes_sub_of_mem main_c_11 rfl (by decide),
    writes_sub_of_mem (main_call2.cst.ref) rfl (by decide), writes_sub_of_mem (main_call2.v0.ref) rfl (by decide), writes_sub_of_mem (main_call2.v1.ref) rfl (by decide),
    writes_sub_of_mem (main_call2.cst_0.ref) rfl (by decide), writes_sub_of_mem (main_call2.v2.ref) rfl (by decide), writes_sub_of_mem (main_call2.v3.ref) rfl (by decide),
    writes_sub_of_mem (main_call2.v4.ref) rfl (by decide), writes_sub_of_mem (main_call2.v5.ref) rfl (by decide), writes_sub_of_mem (main_call2.v6.ref) rfl (by decide),
    writes_sub_of_mem (main_call2.v7.ref) rfl (by decide), writes_sub_of_mem (main_call2.cst_1.ref) rfl (by decide), writes_sub_of_mem (main_call2.v8.ref) rfl (by decide),
    writes_sub_of_mem (main_call2.cst_2.ref) rfl (by decide), writes_sub_of_mem (main_call2.v9.ref) rfl (by decide), writes_sub_of_mem (main_call2.v10.ref) rfl (by decide),
    writes_sub_of_mem (main_call2.v11.ref) rfl (by decide), writes_sub_of_mem (main_call2.cst_3.ref) rfl (by decide), writes_sub_of_mem (main_call2.v12.ref) rfl (by decide),
    writes_sub_of_mem (main_call2.cst_4.ref) rfl (by decide), writes_sub_of_mem (main_call2.call0.v0.ref) rfl (by decide), writes_sub_of_mem (main_call2.call0.v1.ref) rfl (by decide),
    writes_sub_of_mem (main_call2.call0.v2.ref) rfl (by decide), writes_sub_of_mem main_v53 rfl (by decide), writes_sub_of_mem main_v54 rfl (by decide),
    writes_sub_of_mem main_v55 rfl (by decide), writes_sub_of_mem main_v56 rfl (by decide), writes_sub_of_mem main_v57 rfl (by decide),
    writes_sub_of_mem main_v58 rfl (by decide), writes_sub_of_mem main_cst_12 rfl (by decide), writes_sub_of_mem main_v59 rfl (by decide),
    writes_sub_of_mem main_v60 rfl (by decide), writes_sub_of_mem main_v61 rfl (by decide), writes_sub_of_mem main_v62 rfl (by decide),
    writes_sub_of_mem main_v63 rfl (by decide), writes_sub_of_mem main_v64 rfl (by decide), writes_sub_of_mem main_v65 rfl (by decide),
    writes_sub_of_mem main_v66 rfl (by decide), writes_sub_of_mem main_v67 rfl (by decide)⟩

theorem after_opsL0_of (V : Valuation τ sig (Elt F)) (r : Ref sig .tc) (h : r ∉ opsL0_W) :
    StableHlo.after opsL0 V (Proc.devRef .tc r) = V (Proc.devRef .tc r) :=
  StableHlo.after_of_writes_sub opsL0 V opsL0_writes h

abbrev opsL1_W : List (Ref sig .tc) :=
  [main_v68, main_v69, main_c_13, main_v70, main_v71, main_c_14, main_v72, main_v73,
    main_v74, main_v75, main_v76, main_v77, main_v78, main_v79, main_cst_15, main_v80,
    main_v81, main_v82, main_v83, main_v84, main_v85, main_call3.cst.ref, main_call3.v0.ref, main_call3.v1.ref,
    main_cst_16, main_v87, main_cst_17, main_v88, main_v89, main_c_18, main_call4.cst.ref, main_call4.v0.ref,
    main_call4.v1.ref, main_call4.cst_0.ref, main_call4.v2.ref, main_call4.v3.ref, main_call4.v4.ref, main_call4.v5.ref, main_call4.v6.ref, main_call4.v7.ref,
    main_call4.cst_1.ref, main_call4.v8.ref, main_call4.cst_2.ref, main_call4.v9.ref, main_call4.v10.ref, main_call4.v11.ref, main_call4.cst_3.ref, main_call4.v12.ref,
    main_call4.cst_4.ref, main_call4.call0.v0.ref, main_call4.call0.v1.ref, main_call4.call0.v2.ref, main_v91, main_v92, main_v93, main_v94,
    main_v95, main_v96, main_cst_19, main_v97, main_v98, main_v99, main_v100, main_v101,
    main_v102, main_v103, main_v104, main_v105]

set_option maxHeartbeats 4000000 in
theorem opsL1_writes : (opsL1 : List (HloOp τ sig (Elt F))).Forall fun op => op.writes ⊆ (opsL1_W.map (Proc.devRef (τ := τ) .tc)).toFinset :=
  ⟨writes_sub_of_mem main_v68 rfl (by decide), writes_sub_of_mem main_v69 rfl (by decide), writes_sub_of_mem main_c_13 rfl (by decide),
    writes_sub_of_mem main_v70 rfl (by decide), writes_sub_of_mem main_v71 rfl (by decide), writes_sub_of_mem main_c_14 rfl (by decide),
    writes_sub_of_mem main_v72 rfl (by decide), writes_sub_of_mem main_v73 rfl (by decide), writes_sub_of_mem main_v74 rfl (by decide),
    writes_sub_of_mem main_v75 rfl (by decide), writes_sub_of_mem main_v76 rfl (by decide), writes_sub_of_mem main_v77 rfl (by decide),
    writes_sub_of_mem main_v78 rfl (by decide), writes_sub_of_mem main_v79 rfl (by decide), writes_sub_of_mem main_cst_15 rfl (by decide),
    writes_sub_of_mem main_v80 rfl (by decide), writes_sub_of_mem main_v81 rfl (by decide), writes_sub_of_mem main_v82 rfl (by decide),
    writes_sub_of_mem main_v83 rfl (by decide), writes_sub_of_mem main_v84 rfl (by decide), writes_sub_of_mem main_v85 rfl (by decide),
    writes_sub_of_mem (main_call3.cst.ref) rfl (by decide), writes_sub_of_mem (main_call3.v0.ref) rfl (by decide), writes_sub_of_mem (main_call3.v1.ref) rfl (by decide),
    writes_sub_of_mem main_cst_16 rfl (by decide), writes_sub_of_mem main_v87 rfl (by decide), writes_sub_of_mem main_cst_17 rfl (by decide),
    writes_sub_of_mem main_v88 rfl (by decide), writes_sub_of_mem main_v89 rfl (by decide), writes_sub_of_mem main_c_18 rfl (by decide),
    writes_sub_of_mem (main_call4.cst.ref) rfl (by decide), writes_sub_of_mem (main_call4.v0.ref) rfl (by decide), writes_sub_of_mem (main_call4.v1.ref) rfl (by decide),
    writes_sub_of_mem (main_call4.cst_0.ref) rfl (by decide), writes_sub_of_mem (main_call4.v2.ref) rfl (by decide), writes_sub_of_mem (main_call4.v3.ref) rfl (by decide),
    writes_sub_of_mem (main_call4.v4.ref) rfl (by decide), writes_sub_of_mem (main_call4.v5.ref) rfl (by decide), writes_sub_of_mem (main_call4.v6.ref) rfl (by decide),
    writes_sub_of_mem (main_call4.v7.ref) rfl (by decide), writes_sub_of_mem (main_call4.cst_1.ref) rfl (by decide), writes_sub_of_mem (main_call4.v8.ref) rfl (by decide),
    writes_sub_of_mem (main_call4.cst_2.ref) rfl (by decide), writes_sub_of_mem (main_call4.v9.ref) rfl (by decide), writes_sub_of_mem (main_call4.v10.ref) rfl (by decide),
    writes_sub_of_mem (main_call4.v11.ref) rfl (by decide), writes_sub_of_mem (main_call4.cst_3.ref) rfl (by decide), writes_sub_of_mem (main_call4.v12.ref) rfl (by decide),
    writes_sub_of_mem (main_call4.cst_4.ref) rfl (by decide), writes_sub_of_mem (main_call4.call0.v0.ref) rfl (by decide), writes_sub_of_mem (main_call4.call0.v1.ref) rfl (by decide),
    writes_sub_of_mem (main_call4.call0.v2.ref) rfl (by decide), writes_sub_of_mem main_v91 rfl (by decide), writes_sub_of_mem main_v92 rfl (by decide),
    writes_sub_of_mem main_v93 rfl (by decide), writes_sub_of_mem main_v94 rfl (by decide), writes_sub_of_mem main_v95 rfl (by decide),
    writes_sub_of_mem main_v96 rfl (by decide), writes_sub_of_mem main_cst_19 rfl (by decide), writes_sub_of_mem main_v97 rfl (by decide),
    writes_sub_of_mem main_v98 rfl (by decide), writes_sub_of_mem main_v99 rfl (by decide), writes_sub_of_mem main_v100 rfl (by decide),
    writes_sub_of_mem main_v101 rfl (by decide), writes_sub_of_mem main_v102 rfl (by decide), writes_sub_of_mem main_v103 rfl (by decide),
    writes_sub_of_mem main_v104 rfl (by decide), writes_sub_of_mem main_v105 rfl (by decide)⟩

theorem after_opsL1_of (V : Valuation τ sig (Elt F)) (r : Ref sig .tc) (h : r ∉ opsL1_W) :
    StableHlo.after opsL1 V (Proc.devRef .tc r) = V (Proc.devRef .tc r) :=
  StableHlo.after_of_writes_sub opsL1 V opsL1_writes h

abbrev opsL2_W : List (Ref sig .tc) :=
  [main_v106, main_v107, main_c_20, main_v108, main_v109, main_c_21, main_v110, main_v111,
    main_v112, main_v113, main_v114, main_v115, main_v116, main_v117, main_cst_22, main_v118,
    main_v119, main_v120, main_v121, main_v122, main_v123, main_call5.cst.ref, main_call5.v0.ref, main_call5.v1.ref,
    main_cst_23, main_v125, main_cst_24, main_v126, main_v127, main_c_25, main_call6.cst.ref, main_call6.v0.ref,
    main_call6.v1.ref, main_call6.cst_0.ref, main_call6.v2.ref, main_call6.v3.ref, main_call6.v4.ref, main_call6.v5.ref, main_call6.v6.ref, main_call6.v7.ref,
    main_call6.cst_1.ref, main_call6.v8.ref, main_call6.cst_2.ref, main_call6.v9.ref, main_call6.v10.ref, main_call6.v11.ref, main_call6.cst_3.ref, main_call6.v12.ref,
    main_call6.cst_4.ref, main_call6.call0.v0.ref, main_call6.call0.v1.ref, main_call6.call0.v2.ref, main_v129, main_v130, main_v131, main_v132,
    main_v133, main_v134, main_cst_26, main_v135, main_v136, main_v137, main_v138, main_v139,
    main_v140, main_v141, main_v142, main_v143]

set_option maxHeartbeats 4000000 in
theorem opsL2_writes : (opsL2 : List (HloOp τ sig (Elt F))).Forall fun op => op.writes ⊆ (opsL2_W.map (Proc.devRef (τ := τ) .tc)).toFinset :=
  ⟨writes_sub_of_mem main_v106 rfl (by decide), writes_sub_of_mem main_v107 rfl (by decide), writes_sub_of_mem main_c_20 rfl (by decide),
    writes_sub_of_mem main_v108 rfl (by decide), writes_sub_of_mem main_v109 rfl (by decide), writes_sub_of_mem main_c_21 rfl (by decide),
    writes_sub_of_mem main_v110 rfl (by decide), writes_sub_of_mem main_v111 rfl (by decide), writes_sub_of_mem main_v112 rfl (by decide),
    writes_sub_of_mem main_v113 rfl (by decide), writes_sub_of_mem main_v114 rfl (by decide), writes_sub_of_mem main_v115 rfl (by decide),
    writes_sub_of_mem main_v116 rfl (by decide), writes_sub_of_mem main_v117 rfl (by decide), writes_sub_of_mem main_cst_22 rfl (by decide),
    writes_sub_of_mem main_v118 rfl (by decide), writes_sub_of_mem main_v119 rfl (by decide), writes_sub_of_mem main_v120 rfl (by decide),
    writes_sub_of_mem main_v121 rfl (by decide), writes_sub_of_mem main_v122 rfl (by decide), writes_sub_of_mem main_v123 rfl (by decide),
    writes_sub_of_mem (main_call5.cst.ref) rfl (by decide), writes_sub_of_mem (main_call5.v0.ref) rfl (by decide), writes_sub_of_mem (main_call5.v1.ref) rfl (by decide),
    writes_sub_of_mem main_cst_23 rfl (by decide), writes_sub_of_mem main_v125 rfl (by decide), writes_sub_of_mem main_cst_24 rfl (by decide),
    writes_sub_of_mem main_v126 rfl (by decide), writes_sub_of_mem main_v127 rfl (by decide), writes_sub_of_mem main_c_25 rfl (by decide),
    writes_sub_of_mem (main_call6.cst.ref) rfl (by decide), writes_sub_of_mem (main_call6.v0.ref) rfl (by decide), writes_sub_of_mem (main_call6.v1.ref) rfl (by decide),
    writes_sub_of_mem (main_call6.cst_0.ref) rfl (by decide), writes_sub_of_mem (main_call6.v2.ref) rfl (by decide), writes_sub_of_mem (main_call6.v3.ref) rfl (by decide),
    writes_sub_of_mem (main_call6.v4.ref) rfl (by decide), writes_sub_of_mem (main_call6.v5.ref) rfl (by decide), writes_sub_of_mem (main_call6.v6.ref) rfl (by decide),
    writes_sub_of_mem (main_call6.v7.ref) rfl (by decide), writes_sub_of_mem (main_call6.cst_1.ref) rfl (by decide), writes_sub_of_mem (main_call6.v8.ref) rfl (by decide),
    writes_sub_of_mem (main_call6.cst_2.ref) rfl (by decide), writes_sub_of_mem (main_call6.v9.ref) rfl (by decide), writes_sub_of_mem (main_call6.v10.ref) rfl (by decide),
    writes_sub_of_mem (main_call6.v11.ref) rfl (by decide), writes_sub_of_mem (main_call6.cst_3.ref) rfl (by decide), writes_sub_of_mem (main_call6.v12.ref) rfl (by decide),
    writes_sub_of_mem (main_call6.cst_4.ref) rfl (by decide), writes_sub_of_mem (main_call6.call0.v0.ref) rfl (by decide), writes_sub_of_mem (main_call6.call0.v1.ref) rfl (by decide),
    writes_sub_of_mem (main_call6.call0.v2.ref) rfl (by decide), writes_sub_of_mem main_v129 rfl (by decide), writes_sub_of_mem main_v130 rfl (by decide),
    writes_sub_of_mem main_v131 rfl (by decide), writes_sub_of_mem main_v132 rfl (by decide), writes_sub_of_mem main_v133 rfl (by decide),
    writes_sub_of_mem main_v134 rfl (by decide), writes_sub_of_mem main_cst_26 rfl (by decide), writes_sub_of_mem main_v135 rfl (by decide),
    writes_sub_of_mem main_v136 rfl (by decide), writes_sub_of_mem main_v137 rfl (by decide), writes_sub_of_mem main_v138 rfl (by decide),
    writes_sub_of_mem main_v139 rfl (by decide), writes_sub_of_mem main_v140 rfl (by decide), writes_sub_of_mem main_v141 rfl (by decide),
    writes_sub_of_mem main_v142 rfl (by decide), writes_sub_of_mem main_v143 rfl (by decide)⟩

theorem after_opsL2_of (V : Valuation τ sig (Elt F)) (r : Ref sig .tc) (h : r ∉ opsL2_W) :
    StableHlo.after opsL2 V (Proc.devRef .tc r) = V (Proc.devRef .tc r) :=
  StableHlo.after_of_writes_sub opsL2 V opsL2_writes h

abbrev opsPool_W : List (Ref sig .tc) :=
  [main_cst_27, main_v144, main_v145, main_v146, main_cst_28, main_v147, main_v148, main_v149,
    main_cst_29, main_v150, main_v151, main_v152, main_v153]

set_option maxHeartbeats 4000000 in
theorem opsPool_writes : (opsPool : List (HloOp τ sig (Elt F))).Forall fun op => op.writes ⊆ (opsPool_W.map (Proc.devRef (τ := τ) .tc)).toFinset :=
  ⟨writes_sub_of_mem main_cst_27 rfl (by decide), writes_sub_of_mem main_v144 rfl (by decide), writes_sub_of_mem main_v145 rfl (by decide),
    writes_sub_of_mem main_v146 rfl (by decide), writes_sub_of_mem main_cst_28 rfl (by decide), writes_sub_of_mem main_v147 rfl (by decide),
    writes_sub_of_mem main_v148 rfl (by decide), writes_sub_of_mem main_v149 rfl (by decide), writes_sub_of_mem main_cst_29 rfl (by decide),
    writes_sub_of_mem main_v150 rfl (by decide), writes_sub_of_mem main_v151 rfl (by decide), writes_sub_of_mem main_v152 rfl (by decide),
    writes_sub_of_mem main_v153 rfl (by decide)⟩

theorem after_opsPool_of (V : Valuation τ sig (Elt F)) (r : Ref sig .tc) (h : r ∉ opsPool_W) :
    StableHlo.after opsPool V (Proc.devRef .tc r) = V (Proc.devRef .tc r) :=
  StableHlo.after_of_writes_sub opsPool V opsPool_writes h

theorem after_ops (V : Valuation τ sig (Elt F)) :
    StableHlo.after ops V = StableHlo.after opsPool (StableHlo.after opsL2 (StableHlo.after opsL1 (StableHlo.after opsL0 (StableHlo.after opsPre V)))) :=
  (StableHlo.after_append (opsPre ++ opsL0 ++ opsL1 ++ opsL2) opsPool V).trans <|
    congrArg (StableHlo.after opsPool) <| (StableHlo.after_append (opsPre ++ opsL0 ++ opsL1) opsL2 V).trans <|
      congrArg (StableHlo.after opsL2) <| (StableHlo.after_append (opsPre ++ opsL0) opsL1 V).trans <|
        congrArg (StableHlo.after opsL1) (StableHlo.after_append opsPre opsL0 V)

theorem after_ops_of (V : Valuation τ sig (Elt F)) (r : Ref sig .tc) (h0 : r ∉ opsPre_W) (h1 : r ∉ opsL0_W) (h2 : r ∉ opsL1_W)
    (h3 : r ∉ opsL2_W) (h4 : r ∉ opsPool_W) : StableHlo.after ops V (Proc.devRef .tc r) = V (Proc.devRef .tc r) :=
  (congrFun (after_ops V) _).trans <| (after_opsPool_of _ r h4).trans <| (after_opsL2_of _ r h3).trans <|
    (after_opsL1_of _ r h2).trans <| (after_opsL0_of _ r h1).trans (after_opsPre_of V r h0)

theorem after_ops_arg0 (V : Valuation τ sig (Elt F)) : StableHlo.after ops V (Proc.devRef .tc main_arg0) = V (Proc.devRef .tc main_arg0) :=
  after_ops_of V main_arg0 (by decide) (by decide) (by decide) (by decide) (by decide)

theorem after_ops_arg1 (V : Valuation τ sig (Elt F)) : StableHlo.after ops V (Proc.devRef .tc main_arg1) = V (Proc.devRef .tc main_arg1) :=
  after_ops_of V main_arg1 (by decide) (by decide) (by decide) (by decide) (by decide)

theorem after_ops_arg2 (V : Valuation τ sig (Elt F)) : StableHlo.after ops V (Proc.devRef .tc main_arg2) = V (Proc.devRef .tc main_arg2) :=
  after_ops_of V main_arg2 (by decide) (by decide) (by decide) (by decide) (by decide)

theorem after_ops_arg3 (V : Valuation τ sig (Elt F)) : StableHlo.after ops V (Proc.devRef .tc main_arg3) = V (Proc.devRef .tc main_arg3) :=
  after_ops_of V main_arg3 (by decide) (by decide) (by decide) (by decide) (by decide)

theorem after_ops_arg4 (V : Valuation τ sig (Elt F)) : StableHlo.after ops V (Proc.devRef .tc main_arg4) = V (Proc.devRef .tc main_arg4) :=
  after_ops_of V main_arg4 (by decide) (by decide) (by decide) (by decide) (by decide)

theorem after_ops_arg5 (V : Valuation τ sig (Elt F)) : StableHlo.after ops V (Proc.devRef .tc main_arg5) = V (Proc.devRef .tc main_arg5) :=
  after_ops_of V main_arg5 (by decide) (by decide) (by decide) (by decide) (by decide)

theorem after_ops_arg6 (V : Valuation τ sig (Elt F)) : StableHlo.after ops V (Proc.devRef .tc main_arg6) = V (Proc.devRef .tc main_arg6) :=
  after_ops_of V main_arg6 (by decide) (by decide) (by decide) (by decide) (by decide)

theorem after_ops_arg7 (V : Valuation τ sig (Elt F)) : StableHlo.after ops V (Proc.devRef .tc main_arg7) = V (Proc.devRef .tc main_arg7) :=
  after_ops_of V main_arg7 (by decide) (by decide) (by decide) (by decide) (by decide)

theorem after_ops_arg8 (V : Valuation τ sig (Elt F)) : StableHlo.after ops V (Proc.devRef .tc main_arg8) = V (Proc.devRef .tc main_arg8) :=
  after_ops_of V main_arg8 (by decide) (by decide) (by decide) (by decide) (by decide)

theorem after_ops_arg9 (V : Valuation τ sig (Elt F)) : StableHlo.after ops V (Proc.devRef .tc main_arg9) = V (Proc.devRef .tc main_arg9) :=
  after_ops_of V main_arg9 (by decide) (by decide) (by decide) (by decide) (by decide)

theorem after_ops_arg10 (V : Valuation τ sig (Elt F)) : StableHlo.after ops V (Proc.devRef .tc main_arg10) = V (Proc.devRef .tc main_arg10) :=
  after_ops_of V main_arg10 (by decide) (by decide) (by decide) (by decide) (by decide)

theorem after_ops_arg11 (V : Valuation τ sig (Elt F)) : StableHlo.after ops V (Proc.devRef .tc main_arg11) = V (Proc.devRef .tc main_arg11) :=
  after_ops_of V main_arg11 (by decide) (by decide) (by decide) (by decide) (by decide)

theorem after_ops_arg12 (V : Valuation τ sig (Elt F)) : StableHlo.after ops V (Proc.devRef .tc main_arg12) = V (Proc.devRef .tc main_arg12) :=
  after_ops_of V main_arg12 (by decide) (by decide) (by decide) (by decide) (by decide)

theorem after_ops_arg13 (V : Valuation τ sig (Elt F)) : StableHlo.after ops V (Proc.devRef .tc main_arg13) = V (Proc.devRef .tc main_arg13) :=
  after_ops_of V main_arg13 (by decide) (by decide) (by decide) (by decide) (by decide)

theorem after_ops_arg14 (V : Valuation τ sig (Elt F)) : StableHlo.after ops V (Proc.devRef .tc main_arg14) = V (Proc.devRef .tc main_arg14) :=
  after_ops_of V main_arg14 (by decide) (by decide) (by decide) (by decide) (by decide)

end Cert.ReferenceIdeal.Hand

end
-- ==== Proof.Ref.Run.lean ====
import proofs.«424828_j6554120094214_2_alg».proof.Proof.Ref.Writes
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo
variable {F : FTy → Type} [FloatOps F]

theorem take_drop_append {α : Type _} (i : Nat) (A X : List α) : A.take i ++ (A.drop i ++ X) = A ++ X := by
  rw [← List.append_assoc, List.take_append_drop]

theorem windows_join {α : Type _} (P A B C Q : List α) (i j k : Nat) :
    (P ++ A.take i) ++ ((A.drop i ++ B.take j) ++ ((B.drop j ++ C ++ Q.take k) ++ Q.drop k)) = P ++ A ++ B ++ C ++ Q := by
  simp only [List.append_assoc, take_drop_append, List.take_append_drop]

theorem seq_four {n : Nat} {t : Topo} {s : RefSig} {V : EltTy → Type} {L : Labels} (a b c d : List (HloOp t s V)) :
    ((seq a : Prog (TpuEff n t s V L .tc) PUnit) >>= fun _ => seq b >>= fun _ => seq c >>= fun _ => seq d)
      = seq (a ++ (b ++ (c ++ d))) := by
  rw [seq_append, seq_append, seq_append]

set_option maxRecDepth 100000 in
set_option maxHeartbeats 4000000 in
theorem part0_eq (d : Dev nD) : main_part0 (F := F) d = seq (opsPre ++ opsL0.take 24) := by chain_rfl

set_option maxRecDepth 100000 in
set_option maxHeartbeats 4000000 in
theorem part1_eq (d : Dev nD) : main_part1 (F := F) d = seq (opsL0.drop 24 ++ opsL1.take 60) := by chain_rfl

set_option maxRecDepth 100000 in
set_option maxHeartbeats 4000000 in
theorem part2_eq (d : Dev nD) : main_part2 (F := F) d = seq (opsL1.drop 60 ++ opsL2 ++ opsPool.take 7) := by chain_rfl

set_option maxRecDepth 100000 in
set_option maxHeartbeats 4000000 in
theorem part3_eq (d : Dev nD) : main_part3 (F := F) d = seq (opsPool.drop 7) := by chain_rfl

theorem main_eq (c : Dev nD) : main (F := F) c = seq ops := by
  have h : main (F := F) c
      = (main_part0 (F := F) c >>= fun _ => main_part1 (F := F) c >>= fun _ => main_part2 (F := F) c >>= fun _ => main_part3 (F := F) c) := rfl
  rw [h, part0_eq, part1_eq, part2_eq, part3_eq, seq_four]
  exact congrArg seq (windows_join (opsPre (F := F)) opsL0 opsL1 opsL2 opsPool 24 60 7)

theorem scopedRefs_eq : (Finset.univ.filter fun b : Ref sig .tc => b.isScoped) = ∅ := by decide

theorem scopedSems_eq : (Finset.univ.filter fun sm : SemLoc sig => sm.isScoped .tc) = ∅ := by decide

theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = StableHlo.after ops (StableHlo.launchContents m d) (Proc.devRef .tc b) :=
  run_seq scopedRefs_eq scopedSems_eq defs main (fun _ => ops) main_eq (fun _ => ops_sub) m ρ (fun _ => ops_fresh)

theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨(h c main_arg0).trans (after_ops_arg0 _),
      (h c main_arg1).trans (after_ops_arg1 _),
      (h c main_arg2).trans (after_ops_arg2 _),
      (h c main_arg3).trans (after_ops_arg3 _),
      (h c main_arg4).trans (after_ops_arg4 _),
      (h c main_arg5).trans (after_ops_arg5 _),
      (h c main_arg6).trans (after_ops_arg6 _),
      (h c main_arg7).trans (after_ops_arg7 _),
      (h c main_arg8).trans (after_ops_arg8 _),
      (h c main_arg9).trans (after_ops_arg9 _),
      (h c main_arg10).trans (after_ops_arg10 _),
      (h c main_arg11).trans (after_ops_arg11 _),
      (h c main_arg12).trans (after_ops_arg12 _),
      (h c main_arg13).trans (after_ops_arg13 _),
      (h c main_arg14).trans (after_ops_arg14 _)⟩)
    (run_all m ρ)

end Cert.ReferenceIdeal.Hand

end
-- ==== Proof.Spec.lean ====
import Idealize.ShloMosaic.PureOps.Ideal
import Idealize.ShloMosaic.Lib.ValueIdx

noncomputable section

namespace Cert.Spec

open Idealize.ShloMosaic

abbrev Nn : ℕ := 100000

abbrev Ee : ℕ := 1100000

abbrev Gg : ℕ := 512

abbrev Mat (r c : ℕ) : Type := Fin r → Fin c → EReal

def eps : EReal := Ideal.ofBits .f32 0x3727C5AC#32

def cN : EReal := Ideal.ofBits .f32 0x47C35000#32

def lin (h : Mat Nn 64) (W : Mat 64 64) : Mat Nn 64 := fun n o => ∑ k : Fin 64, h n k * W o k

def msg (sel : Fin Ee → Fin Nn) (nrm : Fin Ee → EReal) (hl : Mat Nn 64) : Mat Ee 64 := fun e f => hl (sel e) f * nrm e

def agg (tgt : Fin Ee → Option (Fin Nn)) (ms : Mat Ee 64) : Mat Nn 64 :=
  fun n f => ∑ e ∈ Finset.univ.filter (fun e => tgt e = some n), ms e f

def relu (a : Mat Nn 64) (b : Fin 64 → EReal) : Mat Nn 64 := fun n f => max (a n f + b f) 0

def colsum (x : Mat Nn 64) : Fin 64 → EReal := fun f => ∑ n : Fin Nn, x n f

def mean (x : Mat Nn 64) : Fin 64 → EReal := fun f => Ideal.div (colsum x f) cN

def varMoment (x : Mat Nn 64) : Fin 64 → EReal :=
  fun f => Ideal.div (colsum (fun n f => x n f * x n f) f) cN - mean x f * mean x f

def varDev (x : Mat Nn 64) : Fin 64 → EReal :=
  fun f => Ideal.div (colsum (fun n f => (x n f - mean x f) * (x n f - mean x f)) f) cN

def bn (x : Mat Nn 64) (mu var g beta : Fin 64 → EReal) : Mat Nn 64 :=
  fun n f => g f * (x n f - mu f) * Ideal.rsqrt (var f + eps) + beta f

def act (sel : Fin Ee → Fin Nn) (tgt : Fin Ee → Option (Fin Nn)) (nrm : Fin Ee → EReal)
    (h : Mat Nn 64) (W : Mat 64 64) (b : Fin 64 → EReal) : Mat Nn 64 :=
  relu (agg tgt (msg sel nrm (lin h W))) b

def layerM (sel : Fin Ee → Fin Nn) (tgt : Fin Ee → Option (Fin Nn)) (nrm : Fin Ee → EReal)
    (h : Mat Nn 64) (W : Mat 64 64) (b g beta : Fin 64 → EReal) : Mat Nn 64 :=
  bn (act sel tgt nrm h W b) (mean (act sel tgt nrm h W b)) (varMoment (act sel tgt nrm h W b)) g beta

def layerD (sel : Fin Ee → Fin Nn) (tgt : Fin Ee → Option (Fin Nn)) (nrm : Fin Ee → EReal)
    (h : Mat Nn 64) (W : Mat 64 64) (b g beta : Fin 64 → EReal) : Mat Nn 64 :=
  bn (act sel tgt nrm h W b) (mean (act sel tgt nrm h W b)) (varDev (act sel tgt nrm h W b)) g beta

def poolHot (seg : Fin Nn → Option (Fin Gg)) (x : Mat Nn 64) : Mat Gg 64 :=
  fun q f => ∑ n : Fin Nn, (if seg n = some q then (1 : EReal) else 0) * x n f

def poolSeg (seg : Fin Nn → Option (Fin Gg)) (x : Mat Nn 64) : Mat Gg 64 :=
  fun q f => ∑ n ∈ Finset.univ.filter (fun n => seg n = some q), x n f

def FinMat {r c : ℕ} (x : Mat r c) : Prop := ∀ i j, ∃ v : ℝ, x i j = (v : EReal)

def FinVec {c : ℕ} (x : Fin c → EReal) : Prop := ∀ j, ∃ v : ℝ, x j = (v : EReal)

end Cert.Spec

end
-- ==== Proof.KI.HostRead.lean ====
import proofs.«424828_j6554120094214_2_alg».proof.Proof.Gen.KernelIdeal.Launch
import proofs.«424828_j6554120094214_2_alg».proof.Proof.Gen.KernelIdeal.Regions
import Idealize.ShloMosaic.Lib.StableHlo.Run
set_option maxRecDepth 1524

noncomputable section

namespace Cert.KernelIdeal.Hand

open Idealize.ShloMosaic Idealize.ShloMosaic.TcCoe
open Cert.KernelIdeal Cert.KernelIdeal.Gen
variable {F : FTy → Type} [FloatOps F]

def normIdx (i : IVec S1100000 32) : IVec S1100000x1 32 :=
  broadcastInDim S1100000x1 ![0] bcast_S1100000_S1100000x1_0
    (select (cmpi .slt i (broadcastInDim S1100000 ![] bcast_S_S1100000 (constantI S_ 32 0#32)))
      (addi i (broadcastInDim S1100000 ![] bcast_S_S1100000 (constantI S_ 32 100000#32))) i)

def rowCount : FVec F S1x64 .f32 :=
  broadcastInDim S1x64 ![] bcast_S_S1x64 (constant (F := F) S_ .f32 0x47C35000#32)

set_option maxHeartbeats 1000000 in
theorem host0_2_weights (W : Valuation τ sig (Elt F)) :
    StableHlo.after hostOps0_2 W (Proc.devRef .tc main_v29)
      = mulf (Host.gather gather_S100000_S1100000x1_S1100000_n_0_n_n_0_1_1 (W (Proc.devRef .tc main_v14)) (normIdx (W (Proc.devRef .tc main_v3))))
          (Host.gather gather_S100000_S1100000x1_S1100000_n_0_n_n_0_1_1 (W (Proc.devRef .tc main_v14)) (normIdx (W (Proc.devRef .tc main_v6)))) := by
  after_results_simp <;> rfl

set_option maxHeartbeats 1000000 in
theorem host0_2_weights_col (W : Valuation τ sig (Elt F)) :
    StableHlo.after hostOps0_2 W (Proc.devRef .tc main_v30)
      = shapeCast S1100000x1
          (mulf (Host.gather gather_S100000_S1100000x1_S1100000_n_0_n_n_0_1_1 (W (Proc.devRef .tc main_v14)) (normIdx (W (Proc.devRef .tc main_v3))))
            (Host.gather gather_S100000_S1100000x1_S1100000_n_0_n_n_0_1_1 (W (Proc.devRef .tc main_v14)) (normIdx (W (Proc.devRef .tc main_v6)))))
          shapeCasts_S1100000_S1100000x1 := by
  after_results_simp <;> rfl

theorem host0_2_norm_col (W : Valuation τ sig (Elt F)) :
    StableHlo.after hostOps0_2 W (Proc.devRef .tc main_v31) = shapeCast S100000x1 (W (Proc.devRef .tc main_arg2)) shapeCasts_S100000_S100000x1 := by
  after_results; rfl

theorem host0_2_keep (W : Valuation τ sig (Elt F)) (r : Ref sig .tc) (h : r ∉ hostOps0_2_W) :
    StableHlo.after hostOps0_2 W (Proc.devRef .tc r) = W (Proc.devRef .tc r) :=
  StableHlo.after_of_writes_sub hostOps0_2 W hostOps0_2_writes h

theorem host1_rows (W : Valuation τ sig (Elt F)) :
    StableHlo.after hostOps1 W (Proc.devRef .tc main_v39)
      = Host.gather gather_S100000x64_S1100000x1_S1100000x64_1_0_n_n_0_1_164 (W (Proc.devRef .tc main_v32)) (normIdx (W (Proc.devRef .tc main_v3))) := by
  after_results; rfl

theorem host2_agg (W : Valuation τ sig (Elt F)) :
    StableHlo.after hostOps2 W (Proc.devRef .tc main_v43)
      = Host.scatterAdd scatter_S100000x64_S1100000x1_S1100000x64_1_0_0_1
          (broadcastInDim S100000x64 ![] bcast_S_S100000x64 (constant (F := F) S_ .f32 0x00000000#32))
          (broadcastInDim S1100000x1 ![0] bcast_S1100000_S1100000x1_0 (W (Proc.devRef .tc main_v6)))
          (W (Proc.devRef .tc main_v40)) := by
  after_results

theorem host2_bias (W : Valuation τ sig (Elt F)) :
    StableHlo.after hostOps2 W (Proc.devRef .tc main_v44) = shapeCast S1x64 (W (Proc.devRef .tc main_arg4)) shapeCasts_S64_S1x64 := by
  after_results; rfl

theorem host3_mean (W : Valuation τ sig (Elt F)) :
    StableHlo.after hostOps3 W (Proc.devRef .tc main_v47) = Host.divf (W (Proc.devRef .tc main_v45_1)) (rowCount (F := F)) := by
  after_results; rfl

theorem host3_var (W : Valuation τ sig (Elt F)) :
    StableHlo.after hostOps3 W (Proc.devRef .tc main_v51)
      = subf (Host.divf (W (Proc.devRef .tc main_v45_2)) (rowCount (F := F)))
          (mulf (Host.divf (W (Proc.devRef .tc main_v45_1)) (rowCount (F := F))) (Host.divf (W (Proc.devRef .tc main_v45_1)) (rowCount (F := F)))) := by
  after_results; rfl

theorem host3_scale (W : Valuation τ sig (Elt F)) :
    StableHlo.after hostOps3 W (Proc.devRef .tc main_v52) = shapeCast S1x64 (W (Proc.devRef .tc main_arg5)) shapeCasts_S64_S1x64 := by
  after_results; rfl

theorem host3_shift (W : Valuation τ sig (Elt F)) :
    StableHlo.after hostOps3 W (Proc.devRef .tc main_v53) = shapeCast S1x64 (W (Proc.devRef .tc main_arg6)) shapeCasts_S64_S1x64 := by
  after_results; rfl

theorem host3_keep (W : Valuation τ sig (Elt F)) (r : Ref sig .tc) (h : r ∉ hostOps3_W) :
    StableHlo.after hostOps3 W (Proc.devRef .tc r) = W (Proc.devRef .tc r) :=
  StableHlo.after_of_writes_sub hostOps3 W hostOps3_writes h

theorem host5_rows (W : Valuation τ sig (Elt F)) :
    StableHlo.after hostOps5 W (Proc.devRef .tc main_v62)
      = Host.gather gather_S100000x64_S1100000x1_S1100000x64_1_0_n_n_0_1_164 (W (Proc.devRef .tc main_v55)) (normIdx (W (Proc.devRef .tc main_v3))) := by
  after_results; rfl

theorem host6_agg (W : Valuation τ sig (Elt F)) :
    StableHlo.after hostOps6 W (Proc.devRef .tc main_v66)
      = Host.scatterAdd scatter_S100000x64_S1100000x1_S1100000x64_1_0_0_1
          (broadcastInDim S100000x64 ![] bcast_S_S100000x64 (constant (F := F) S_ .f32 0x00000000#32))
          (broadcastInDim S1100000x1 ![0] bcast_S1100000_S1100000x1_0 (W (Proc.devRef .tc main_v6)))
          (W (Proc.devRef .tc main_v63)) := by
  after_results

theorem host6_bias (W : Valuation τ sig (Elt F)) :
    StableHlo.after hostOps6 W (Proc.devRef .tc main_v67) = shapeCast S1x64 (W (Proc.devRef .tc main_arg8)) shapeCasts_S64_S1x64 := by
  after_results; rfl

theorem host7_mean (W : Valuation τ sig (Elt F)) :
    StableHlo.after hostOps7 W (Proc.devRef .tc main_v70) = Host.divf (W (Proc.devRef .tc main_v68_1)) (rowCount (F := F)) := by
  after_results; rfl

theorem host7_var (W : Valuation τ sig (Elt F)) :
    StableHlo.after hostOps7 W (Proc.devRef .tc main_v74)
      = subf (Host.divf (W (Proc.devRef .tc main_v68_2)) (rowCount (F := F)))
          (mulf (Host.divf (W (Proc.devRef .tc main_v68_1)) (rowCount (F := F))) (Host.divf (W (Proc.devRef .tc main_v68_1)) (rowCount (F := F)))) := by
  after_results; rfl

theorem host7_scale (W : Valuation τ sig (Elt F)) :
    StableHlo.after hostOps7 W (Proc.devRef .tc main_v75) = shapeCast S1x64 (W (Proc.devRef .tc main_arg9)) shapeCasts_S64_S1x64 := by
  after_results; rfl

theorem host7_shift (W : Valuation τ sig (Elt F)) :
    StableHlo.after hostOps7 W (Proc.devRef .tc main_v76) = shapeCast S1x64 (W (Proc.devRef .tc main_arg10)) shapeCasts_S64_S1x64 := by
  after_results; rfl

theorem host7_keep (W : Valuation τ sig (Elt F)) (r : Ref sig .tc) (h : r ∉ hostOps7_W) :
    StableHlo.after hostOps7 W (Proc.devRef .tc r) = W (Proc.devRef .tc r) :=
  StableHlo.after_of_writes_sub hostOps7 W hostOps7_writes h

theorem host9_rows (W : Valuation τ sig (Elt F)) :
    StableHlo.after hostOps9 W (Proc.devRef .tc main_v85)
      = Host.gather gather_S100000x64_S1100000x1_S1100000x64_1_0_n_n_0_1_164 (W (Proc.devRef .tc main_v78)) (normIdx (W (Proc.devRef .tc main_v3))) := by
  after_results; rfl

theorem host10_agg (W : Valuation τ sig (Elt F)) :
    StableHlo.after hostOps10 W (Proc.devRef .tc main_v89)
      = Host.scatterAdd scatter_S100000x64_S1100000x1_S1100000x64_1_0_0_1
          (broadcastInDim S100000x64 ![] bcast_S_S100000x64 (constant (F := F) S_ .f32 0x00000000#32))
          (broadcastInDim S1100000x1 ![0] bcast_S1100000_S1100000x1_0 (W (Proc.devRef .tc main_v6)))
          (W (Proc.devRef .tc main_v86)) := by
  after_results

theorem host10_bias (W : Valuation τ sig (Elt F)) :
    StableHlo.after hostOps10 W (Proc.devRef .tc main_v90) = shapeCast S1x64 (W (Proc.devRef .tc main_arg12)) shapeCasts_S64_S1x64 := by
  after_results; rfl

theorem host11_mean (W : Valuation τ sig (Elt F)) :
    StableHlo.after hostOps11 W (Proc.devRef .tc main_v93) = Host.divf (W (Proc.devRef .tc main_v91_1)) (rowCount (F := F)) := by
  after_results; rfl

theorem host11_var (W : Valuation τ sig (Elt F)) :
    StableHlo.after hostOps11 W (Proc.devRef .tc main_v97)
      = subf (Host.divf (W (Proc.devRef .tc main_v91_2)) (rowCount (F := F)))
          (mulf (Host.divf (W (Proc.devRef .tc main_v91_1)) (rowCount (F := F))) (Host.divf (W (Proc.devRef .tc main_v91_1)) (rowCount (F := F)))) := by
  after_results; rfl

theorem host11_scale (W : Valuation τ sig (Elt F)) :
    StableHlo.after hostOps11 W (Proc.devRef .tc main_v98) = shapeCast S1x64 (W (Proc.devRef .tc main_arg13)) shapeCasts_S64_S1x64 := by
  after_results; rfl

theorem host11_shift (W : Valuation τ sig (Elt F)) :
    StableHlo.after hostOps11 W (Proc.devRef .tc main_v99) = shapeCast S1x64 (W (Proc.devRef .tc main_arg14)) shapeCasts_S64_S1x64 := by
  after_results; rfl

theorem host11_keep (W : Valuation τ sig (Elt F)) (r : Ref sig .tc) (h : r ∉ hostOps11_W) :
    StableHlo.after hostOps11 W (Proc.devRef .tc r) = W (Proc.devRef .tc r) :=
  StableHlo.after_of_writes_sub hostOps11 W hostOps11_writes h

end Cert.KernelIdeal.Hand
-- ==== Proof.Math.HostIdx.lean ====
import Idealize.ShloMosaic.PureOps.Ideal
import Idealize.ShloMosaic.PureOps.Ideal.Laws
import Idealize.ShloMosaic.PureOps.ShapeOps
import Idealize.ShloMosaic.PureOps.Contract
import Idealize.ShloMosaic.Lib.ValueIdx
import Idealize.ShloMosaic.Lib.ValueLayout
import proofs.«424828_j6554120094214_2_alg».proof.Proof.Spec

noncomputable section

open scoped BigOperators

namespace Cert.HostIdx

open Idealize.ShloMosaic Idealize.ShloMosaic.ValueIdx

abbrev scatDims (r m c : ℕ) (wf : ScatterDims.WF ⟨2, ![r, c]⟩ ⟨2, ![m, 1]⟩ ⟨2, ![m, c]⟩ [1] [0] [0] 1) :
    ScatterDims ⟨2, ![r, c]⟩ ⟨2, ![m, 1]⟩ ⟨2, ![m, c]⟩ where
  updateWindowDims := [1]
  insertedWindowDims := [0]
  scatterDimsToOperandDims := [0]
  indexVectorDim := 1
  wf := wf

section Scatter

variable {r m c w : ℕ} (wf : ScatterDims.WF ⟨2, ![r, c]⟩ ⟨2, ![m, 1]⟩ ⟨2, ![m, c]⟩ [1] [0] [0] 1)

theorem scat_siIdx (e : Fin m) (f : Fin c) :
    (scatDims r m c wf).siIdx (ix2 e f) ⟨List.idxOf (0 : Fin 2) (scatDims r m c wf).scatterDimsToOperandDims,
      List.idxOf_lt_length_iff.2 (List.mem_singleton.mpr rfl)⟩ = ix2 e (0 : Fin 1) := by
  funext b; refine Fin.ext ?_
  match b with
  | ⟨0, _⟩ => rfl
  | ⟨1, _⟩ => rfl

theorem scat_start0 (idx : IVec ⟨2, ![m, 1]⟩ w) (e : Fin m) (f : Fin c) :
    (scatDims r m c wf).start (ix2 e f) idx 0 = (idx (ix2 e (0 : Fin 1))).toInt := by
  unfold ScatterDims.start
  rw [dif_pos (show (0 : Fin 2) ∈ (scatDims r m c wf).scatterDimsToOperandDims from List.mem_singleton.mpr rfl)]
  rw [scat_siIdx]

theorem scat_start1 (idx : IVec ⟨2, ![m, 1]⟩ w) (e : Fin m) (f : Fin c) :
    (scatDims r m c wf).start (ix2 e f) idx 1 = 0 := by
  unfold ScatterDims.start
  have h : ¬ (1 : Fin 2) ∈ (scatDims r m c wf).scatterDimsToOperandDims := by
    show ¬ (1 : Fin 2) ∈ ([0] : List (Fin 2)); decide
  rw [dif_neg h]

theorem scat_window0 (e : Fin m) (f : Fin c) : (scatDims r m c wf).window (ix2 e f) 0 = 0 := by
  unfold ScatterDims.window
  have h : ¬ (0 : Fin 2) ∈ (scatDims r m c wf).sKept := by
    show ¬ (0 : Fin 2) ∈ ([1] : List (Fin 2)); decide
  rw [dif_neg h]

theorem scat_window1 (e : Fin m) (f : Fin c) : (scatDims r m c wf).window (ix2 e f) 1 = f.val := by
  unfold ScatterDims.window
  have h : (1 : Fin 2) ∈ (scatDims r m c wf).sKept := by
    show (1 : Fin 2) ∈ ([1] : List (Fin 2)); decide
  rw [dif_pos h]
  rfl

end Scatter

def tgtOf {r m w : ℕ} (idx : IVec ⟨2, ![m, 1]⟩ w) (e : Fin m) : Option (Fin r) :=
  if h : 0 ≤ (idx (ix2 e (0 : Fin 1))).toInt ∧ (idx (ix2 e (0 : Fin 1))).toInt < (r : ℤ) then
    some ⟨(idx (ix2 e (0 : Fin 1))).toInt.toNat, by omega⟩
  else none

section Scatter

variable {r m c w : ℕ} (wf : ScatterDims.WF ⟨2, ![r, c]⟩ ⟨2, ![m, 1]⟩ ⟨2, ![m, c]⟩ [1] [0] [0] 1)

theorem scat_inRange_iff (idx : IVec ⟨2, ![m, 1]⟩ w) (e : Fin m) (f : Fin c) :
    (∀ a, 0 ≤ (scatDims r m c wf).start (ix2 e f) idx a + (scatDims r m c wf).window (ix2 e f) a ∧
        (scatDims r m c wf).start (ix2 e f) idx a + (scatDims r m c wf).window (ix2 e f) a
          < ((⟨2, ![r, c]⟩ : Shape).size a : ℤ))
      ↔ (0 ≤ (idx (ix2 e (0 : Fin 1))).toInt ∧ (idx (ix2 e (0 : Fin 1))).toInt < (r : ℤ)) := by
  rw [Fin.forall_fin_two, scat_start0, scat_start1, scat_window0, scat_window1]
  have hf := f.isLt
  constructor
  · rintro ⟨⟨h0, h1⟩, _⟩
    exact ⟨by simpa using h0, by simpa using h1⟩
  · rintro ⟨h0, h1⟩
    refine ⟨⟨by simpa using h0, by simpa using h1⟩, by simp, ?_⟩
    show (0 : ℤ) + (f.val : ℤ) < (c : ℤ)
    omega

theorem scat_resultIdx (idx : IVec ⟨2, ![m, 1]⟩ w) (e : Fin m) (f : Fin c) :
    (scatDims r m c wf).resultIdx? (ix2 e f) idx = (tgtOf (r := r) idx e).map fun n => ix2 n f := by
  unfold ScatterDims.resultIdx? tgtOf
  by_cases ht : 0 ≤ (idx (ix2 e (0 : Fin 1))).toInt ∧ (idx (ix2 e (0 : Fin 1))).toInt < (r : ℤ)
  · rw [dif_pos ((scat_inRange_iff wf idx e f).mpr ht), dif_pos ht, Option.map_some]
    refine congrArg some ?_
    funext a; refine Fin.ext ?_
    match a with
    | ⟨0, _⟩ =>
      show ((scatDims r m c wf).start (ix2 e f) idx 0 + (scatDims r m c wf).window (ix2 e f) 0).toNat
        = (idx (ix2 e (0 : Fin 1))).toInt.toNat
      rw [scat_start0, scat_window0]; simp
    | ⟨1, _⟩ =>
      show ((scatDims r m c wf).start (ix2 e f) idx 1 + (scatDims r m c wf).window (ix2 e f) 1).toNat = f.val
      rw [scat_start1, scat_window1]; simp
  · rw [dif_neg (fun h => ht ((scat_inRange_iff wf idx e f).mp h)), dif_neg ht, Option.map_none]

theorem hostScatterAdd_rows (x : (⟨2, ![r, c]⟩ : Shape).Idx → EReal) (idx : IVec ⟨2, ![m, 1]⟩ w)
    (u : (⟨2, ![m, c]⟩ : Shape).Idx → EReal) (n : Fin r) (f : Fin c) :
    Ideal.hostScatterAdd (scatDims r m c wf) x idx u (ix2 n f)
      = x (ix2 n f) + ∑ e ∈ Finset.univ.filter (fun e => tgtOf (r := r) idx e = some n), u (ix2 e f) := by
  unfold Ideal.hostScatterAdd
  refine congrArg (x (ix2 n f) + ·) ?_
  rw [Finset.sum_filter, sum_idx2, Finset.sum_filter]
  refine Finset.sum_congr rfl fun e _ => ?_
  simp only [scat_resultIdx]
  by_cases h : tgtOf (r := r) idx e = some n
  · rw [if_pos h, h]
    simp only [Option.map_some]
    rw [Finset.sum_eq_single f]
    · rw [if_pos rfl]
    · intro b _ hb
      rw [if_neg]
      intro heq
      exact hb (congrFun (Option.some.inj heq) 1)
    · intro hf; exact absurd (Finset.mem_univ _) hf
  · rw [if_neg h]
    refine Finset.sum_eq_zero fun b _ => ?_
    rw [if_neg]
    intro heq
    obtain ⟨n', hn', hix⟩ := Option.map_eq_some_iff.mp heq
    exact h (hn'.trans (congrArg some (congrFun hix 0)))

theorem tgtOf_eq_some_iff (hr : r ≤ 2 ^ 31) (idx : IVec ⟨2, ![m, 1]⟩ 32) (e : Fin m) (n : Fin r) :
    tgtOf (r := r) idx e = some n ↔ idx (ix2 e (0 : Fin 1)) = BitVec.ofNat 32 n.val := by
  have hn := n.isLt
  unfold tgtOf
  constructor
  · intro h
    split at h
    · next ht =>
      have hv : (idx (ix2 e (0 : Fin 1))).toInt.toNat = n.val := congrArg Fin.val (Option.some.inj h)
      have hi : (idx (ix2 e (0 : Fin 1))).toInt = (n.val : ℤ) := by omega
      rw [← BitVec.ofInt_toInt (x := idx (ix2 e (0 : Fin 1))), hi, BitVec.ofInt_natCast]
    · exact absurd h (by simp)
  · intro h
    have hi : (idx (ix2 e (0 : Fin 1))).toInt = (n.val : ℤ) := by
      rw [h, BitVec.toInt_eq_toNat_of_lt, BitVec.toNat_ofNat, Nat.mod_eq_of_lt (by omega)]
      rw [BitVec.toNat_ofNat, Nat.mod_eq_of_lt (by omega)]; omega
    rw [dif_pos ⟨by omega, by omega⟩]
    refine congrArg some (Fin.ext ?_)
    show (idx (ix2 e (0 : Fin 1))).toInt.toNat = n.val
    omega

end Scatter

abbrev gathDims (r m c : ℕ)
    (wf : GatherDims.WF ⟨2, ![r, c]⟩ ⟨2, ![m, 1]⟩ ⟨2, ![m, c]⟩ [1] [0] [] [0] [] 1 ![1, c]) :
    GatherDims ⟨2, ![r, c]⟩ ⟨2, ![m, 1]⟩ ⟨2, ![m, c]⟩ where
  offsetDims := [1]
  collapsedSliceDims := [0]
  operandBatchingDims := []
  startIndicesBatchingDims := []
  startIndexMap := [0]
  indexVectorDim := 1
  sliceSizes := ![1, c]
  wf := wf

def selOf {r m w : ℕ} (hr : 0 < r) (idx : IVec ⟨2, ![m, 1]⟩ w) (e : Fin m) : Fin r :=
  ⟨min (idx (ix2 e (0 : Fin 1))).toInt.toNat (r - 1), by omega⟩

section Gather

variable {α : Type} {r m c w : ℕ}
  (wf : GatherDims.WF ⟨2, ![r, c]⟩ ⟨2, ![m, 1]⟩ ⟨2, ![m, c]⟩ [1] [0] [] [0] [] 1 ![1, c])

theorem gath_siIdx (e : Fin m) (f : Fin c) :
    (gathDims r m c wf).siIdx (ix2 e f) ⟨List.idxOf (0 : Fin 2) (gathDims r m c wf).startIndexMap,
      List.idxOf_lt_length_iff.2 (List.mem_singleton.mpr rfl)⟩ = ix2 e (0 : Fin 1) := by
  funext b; refine Fin.ext ?_
  match b with
  | ⟨0, _⟩ => rfl
  | ⟨1, _⟩ => rfl

theorem gath_start0 (idx : IVec ⟨2, ![m, 1]⟩ w) (e : Fin m) (f : Fin c) :
    (gathDims r m c wf).start (ix2 e f) idx 0 = min (idx (ix2 e (0 : Fin 1))).toInt.toNat (r - 1) := by
  unfold GatherDims.start
  rw [dif_pos (show (0 : Fin 2) ∈ (gathDims r m c wf).startIndexMap from List.mem_singleton.mpr rfl)]
  rw [gath_siIdx]
  rfl

theorem gath_start1 (idx : IVec ⟨2, ![m, 1]⟩ w) (e : Fin m) (f : Fin c) :
    (gathDims r m c wf).start (ix2 e f) idx 1 = 0 := by
  unfold GatherDims.start
  have h : ¬ (1 : Fin 2) ∈ (gathDims r m c wf).startIndexMap := by
    show ¬ (1 : Fin 2) ∈ ([0] : List (Fin 2)); decide
  rw [dif_neg h]

theorem gath_off0 (e : Fin m) (f : Fin c) : (gathDims r m c wf).offCoord (ix2 e f) 0 = 0 :=
  GatherDims.offCoord_eq_zero _ _ _ fun h => ((GatherDims.mem_sKept _ _).mp h).1 (List.mem_singleton.mpr rfl)

theorem gath_off1 (e : Fin m) (f : Fin c) : (gathDims r m c wf).offCoord (ix2 e f) 1 = f.val := by
  unfold GatherDims.offCoord
  have h : (1 : Fin 2) ∈ (gathDims r m c wf).sKept := by
    show (1 : Fin 2) ∈ ([1] : List (Fin 2)); decide
  rw [dif_pos h]
  rfl

theorem gather_rows (hr : 0 < r) (x : (⟨2, ![r, c]⟩ : Shape).Idx → α) (idx : IVec ⟨2, ![m, 1]⟩ w)
    (e : Fin m) (f : Fin c) :
    Host.gather (gathDims r m c wf) x idx (ix2 e f) = x (ix2 (selOf hr idx e) f) := by
  unfold Host.gather
  refine congrArg x ?_
  funext a; refine Fin.ext ?_
  match a with
  | ⟨0, _⟩ =>
    show (gathDims r m c wf).start (ix2 e f) idx 0 + (gathDims r m c wf).batchCoord (ix2 e f) 0
      + (gathDims r m c wf).offCoord (ix2 e f) 0 = min (idx (ix2 e (0 : Fin 1))).toInt.toNat (r - 1)
    rw [gath_start0, GatherDims.batchCoord_eq_zero _ _ _ List.not_mem_nil, gath_off0]
    rfl
  | ⟨1, _⟩ =>
    show (gathDims r m c wf).start (ix2 e f) idx 1 + (gathDims r m c wf).batchCoord (ix2 e f) 1
      + (gathDims r m c wf).offCoord (ix2 e f) 1 = f.val
    rw [gath_start1, GatherDims.batchCoord_eq_zero _ _ _ List.not_mem_nil, gath_off1]
    omega

end Gather

section Reduce

variable {r c : ℕ}

theorem hostReduceAdd_rows (h' : Shape.ReducesTo ⟨2, ![r, c]⟩ [0] ⟨1, ![c]⟩)
    (x : (⟨2, ![r, c]⟩ : Shape).Idx → EReal) (init : EReal) (f : Fin c) :
    Ideal.hostReduceAdd h' x init (ix1 f) = init + ∑ n : Fin r, x (ix2 n f) := by
  have h : Shape.Reduces ⟨2, ![r, c]⟩ [0] ⟨1, ![c]⟩ := ⟨h'.1, Nat.one_pos, h'.2⟩
  rw [Ideal.hostReduceAdd_single h' h]
  refine congrArg (init + ·) ?_
  show ∑ n : Fin r, x (h.lift (ix1 f) n) = ∑ n : Fin r, x (ix2 n f)
  refine Finset.sum_congr rfl fun n _ => congrArg x ?_
  funext a; refine Fin.ext ?_
  match a with
  | ⟨0, _⟩ => rfl
  | ⟨1, _⟩ => rfl

theorem reduceAdd_rows {φ : FTy} (h' : Shape.ReducesTo ⟨2, ![r, c]⟩ [0] ⟨1, ![c]⟩)
    (x : FVec Ideal ⟨2, ![r, c]⟩ φ) (v : (⟨0, ![]⟩ : Shape).Idx → Ideal φ) (hu : 0 < (⟨0, ![]⟩ : Shape).numel)
    (f : Fin c) :
    Host.reduceAdd (F := Ideal) x v h' hu (ix1 f) = v ix0 + ∑ n : Fin r, x (ix2 n f) := by
  show Ideal.hostReduceAdd h' x (v (Shape.Idx.first hu)) (ix1 f) = _
  rw [hostReduceAdd_rows, eq_ix0 (Shape.Idx.first hu)]

end Reduce

abbrev dotDims (r k c : ℕ) (wf : DotDims.WF ⟨2, ![r, k]⟩ ⟨2, ![k, c]⟩ ⟨2, ![r, c]⟩ [1] [0] [0] [1] [] []) :
    DotDims ⟨2, ![r, k]⟩ ⟨2, ![k, c]⟩ ⟨2, ![r, c]⟩ where
  lhsContracting := [1]
  rhsContracting := [0]
  lhsNonContracting := [0]
  rhsNonContracting := [1]
  lhsBatch := []
  rhsBatch := []
  wf := wf

section Dot

variable {r k c : ℕ} (wf : DotDims.WF ⟨2, ![r, k]⟩ ⟨2, ![k, c]⟩ ⟨2, ![r, c]⟩ [1] [0] [0] [1] [] [])

theorem dot_lhs0 (n : Fin r) (o : Fin c) (κ : (dotDims r k c wf).contr.Idx) :
    ((dotDims r k c wf).lhsIdx (ix2 n o) κ 0).val = n.val := rfl

theorem dot_lhs1 (n : Fin r) (o : Fin c) (κ : (dotDims r k c wf).contr.Idx) :
    ((dotDims r k c wf).lhsIdx (ix2 n o) κ 1).val = (κ ⟨0, Nat.one_pos⟩).val :=
  DotDims.lhsIdx_val_of_single (dotDims r k c wf) rfl (ix2 n o) κ

theorem dot_rhs0 (n : Fin r) (o : Fin c) (κ : (dotDims r k c wf).contr.Idx) :
    ((dotDims r k c wf).rhsIdx (ix2 n o) κ 0).val = (κ ⟨0, Nat.one_pos⟩).val :=
  DotDims.rhsIdx_val_of_single (dotDims r k c wf) rfl (ix2 n o) κ

theorem dot_rhs1 (n : Fin r) (o : Fin c) (κ : (dotDims r k c wf).contr.Idx) :
    ((dotDims r k c wf).rhsIdx (ix2 n o) κ 1).val = o.val := rfl

theorem dotGeneral_apply {φ₁ φ₂ : FTy} (prec : Option ContractPrecision) (sched : HostSchedule)
    (lhs : FVec Ideal ⟨2, ![r, k]⟩ φ₁) (rhs : FVec Ideal ⟨2, ![k, c]⟩ φ₂) (n : Fin r) (o : Fin c) :
    FloatOps.dotGeneral (dotDims r k c wf) prec sched lhs rhs (ix2 n o) = ∑ q : Fin k, lhs (ix2 n q) * rhs (ix2 q o) := by
  rw [Ideal.dotGeneral_apply, ← Equiv.sum_comp (contrEquiv1 (dotDims r k c wf) k rfl rfl).symm]
  refine Finset.sum_congr rfl fun q _ => ?_
  have hq := contrEquiv1_symm_val (dotDims r k c wf) k rfl rfl q
  have hl : (dotDims r k c wf).lhsIdx (ix2 n o) ((contrEquiv1 (dotDims r k c wf) k rfl rfl).symm q) = ix2 n q := by
    funext a; refine Fin.ext ?_
    match a with
    | ⟨0, _⟩ => exact dot_lhs0 wf _ _ _
    | ⟨1, _⟩ => exact (dot_lhs1 wf _ _ _).trans hq
  have hr : (dotDims r k c wf).rhsIdx (ix2 n o) ((contrEquiv1 (dotDims r k c wf) k rfl rfl).symm q) = ix2 q o := by
    funext a; refine Fin.ext ?_
    match a with
    | ⟨0, _⟩ => exact (dot_rhs0 wf _ _ _).trans hq
    | ⟨1, _⟩ => exact dot_rhs1 wf _ _ _
  rw [hl, hr]

theorem dotGeneral_transpose_apply {φ₁ φ₂ : FTy} (prec : Option ContractPrecision)
    (h : FVec Ideal ⟨2, ![r, k]⟩ φ₁) (W : FVec Ideal ⟨2, ![c, k]⟩ φ₂)
    (tr : (⟨2, ![c, k]⟩ : Shape).Transposes [1, 0] ⟨2, ![k, c]⟩) (n : Fin r) (o : Fin c) :
    Host.dotGeneral (F := Ideal) (dotDims r k c wf) prec h (transpose ⟨2, ![k, c]⟩ [1, 0] W tr) (ix2 n o)
      = ∑ q : Fin k, h (ix2 n q) * W (ix2 o q) := by
  show FloatOps.dotGeneral (dotDims r k c wf) prec .single h (transpose ⟨2, ![k, c]⟩ [1, 0] W tr) (ix2 n o) = _
  rw [dotGeneral_apply]
  refine Finset.sum_congr rfl fun q _ => ?_
  rw [transpose_ix2_apply]

end Dot

def idxEquiv1 {n : ℕ} : (⟨1, ![n]⟩ : Shape).Idx ≃ Fin n where
  toFun i := i 0
  invFun a := ix1 a
  left_inv i := (eq_ix1 i).symm
  right_inv _ := rfl

theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

abbrev gath1Dims (r m : ℕ) (wf : GatherDims.WF ⟨1, ![r]⟩ ⟨2, ![m, 1]⟩ ⟨1, ![m]⟩ [] [0] [] [0] [] 1 ![1]) :
    GatherDims ⟨1, ![r]⟩ ⟨2, ![m, 1]⟩ ⟨1, ![m]⟩ where
  offsetDims := []
  collapsedSliceDims := [0]
  operandBatchingDims := []
  startIndicesBatchingDims := []
  startIndexMap := [0]
  indexVectorDim := 1
  sliceSizes := ![1]
  wf := wf

theorem gather_vec {α : Type} {r m w : ℕ}
    (wf : GatherDims.WF ⟨1, ![r]⟩ ⟨2, ![m, 1]⟩ ⟨1, ![m]⟩ [] [0] [] [0] [] 1 ![1]) (hr : 0 < r)
    (x : (⟨1, ![r]⟩ : Shape).Idx → α) (idx : IVec ⟨2, ![m, 1]⟩ w) (e : Fin m) :
    Host.gather (gath1Dims r m wf) x idx (ix1 e) = x (ix1 (selOf hr idx e)) := by
  unfold Host.gather
  refine congrArg x ?_
  funext a
  obtain rfl : a = 0 := Subsingleton.elim _ _
  refine Fin.ext ?_
  show (gath1Dims r m wf).start (ix1 e) idx 0 + (gath1Dims r m wf).batchCoord (ix1 e) 0
    + (gath1Dims r m wf).offCoord (ix1 e) 0 = min (idx (ix2 e (0 : Fin 1))).toInt.toNat (r - 1)
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gath1Dims r m wf).startIndexMap from List.mem_singleton.mpr rfl)]
  have hsi : (gath1Dims r m wf).siIdx (ix1 e) ⟨List.idxOf (0 : Fin 1) (gath1Dims r m wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

abbrev scat1Dims (r m : ℕ) (wf : ScatterDims.WF ⟨1, ![r]⟩ ⟨2, ![m, 1]⟩ ⟨1, ![m]⟩ [] [0] [0] 1) :
    ScatterDims ⟨1, ![r]⟩ ⟨2, ![m, 1]⟩ ⟨1, ![m]⟩ where
  updateWindowDims := []
  insertedWindowDims := [0]
  scatterDimsToOperandDims := [0]
  indexVectorDim := 1
  wf := wf

section Scatter1

variable {r m w : ℕ} (wf : ScatterDims.WF ⟨1, ![r]⟩ ⟨2, ![m, 1]⟩ ⟨1, ![m]⟩ [] [0] [0] 1)

theorem scat1_start0 (idx : IVec ⟨2, ![m, 1]⟩ w) (e : Fin m) :
    (scat1Dims r m wf).start (ix1 e) idx 0 = (idx (ix2 e (0 : Fin 1))).toInt := by
  unfold ScatterDims.start
  rw [dif_pos (show (0 : Fin 1) ∈ (scat1Dims r m wf).scatterDimsToOperandDims from List.mem_singleton.mpr rfl)]
  have hsi : (scat1Dims r m wf).siIdx (ix1 e) ⟨List.idxOf (0 : Fin 1) (scat1Dims r m wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scat1_window0 (e : Fin m) : (scat1Dims r m wf).window (ix1 e) 0 = 0 := by
  unfold ScatterDims.window
  have h : ¬ (0 : Fin 1) ∈ (scat1Dims r m wf).sKept := by
    show ¬ (0 : Fin 1) ∈ ([] : List (Fin 1)); decide
  rw [dif_neg h]

theorem scat1_resultIdx (idx : IVec ⟨2, ![m, 1]⟩ w) (e : Fin m) :
    (scat1Dims r m wf).resultIdx? (ix1 e) idx = (tgtOf (r := r) idx e).map fun n => ix1 n := by
  have hiff : (∀ a, 0 ≤ (scat1Dims r m wf).start (ix1 e) idx a + (scat1Dims r m wf).window (ix1 e) a ∧
        (scat1Dims r m wf).start (ix1 e) idx a + (scat1Dims r m wf).window (ix1 e) a
          < ((⟨1, ![r]⟩ : Shape).size a : ℤ))
      ↔ (0 ≤ (idx (ix2 e (0 : Fin 1))).toInt ∧ (idx (ix2 e (0 : Fin 1))).toInt < (r : ℤ)) := by
    rw [Fin.forall_fin_one, scat1_start0, scat1_window0]
    constructor
    · rintro ⟨h0, h1⟩
      exact ⟨by simpa using h0, by simpa using h1⟩
    · rintro ⟨h0, h1⟩
      exact ⟨by simpa using h0, by simpa using h1⟩
  unfold ScatterDims.resultIdx? tgtOf
  by_cases ht : 0 ≤ (idx (ix2 e (0 : Fin 1))).toInt ∧ (idx (ix2 e (0 : Fin 1))).toInt < (r : ℤ)
  · rw [dif_pos (hiff.mpr ht), dif_pos ht, Option.map_some]
    refine congrArg some ?_
    funext a
    obtain rfl : a = 0 := Subsingleton.elim _ _
    refine Fin.ext ?_
    show ((scat1Dims r m wf).start (ix1 e) idx 0 + (scat1Dims r m wf).window (ix1 e) 0).toNat
      = (idx (ix2 e (0 : Fin 1))).toInt.toNat
    rw [scat1_start0, scat1_window0]; simp
  · rw [dif_neg (fun h => ht (hiff.mp h)), dif_neg ht, Option.map_none]

theorem hostScatterAdd_vec (x : (⟨1, ![r]⟩ : Shape).Idx → EReal) (idx : IVec ⟨2, ![m, 1]⟩ w)
    (u : (⟨1, ![m]⟩ : Shape).Idx → EReal) (n : Fin r) :
    Ideal.hostScatterAdd (scat1Dims r m wf) x idx u (ix1 n)
      = x (ix1 n) + ∑ e ∈ Finset.univ.filter (fun e => tgtOf (r := r) idx e = some n), u (ix1 e) := by
  unfold Ideal.hostScatterAdd
  refine congrArg (x (ix1 n) + ·) ?_
  rw [Finset.sum_filter, sum_idx1, Finset.sum_filter]
  refine Finset.sum_congr rfl fun e _ => ?_
  simp only [scat1_resultIdx]
  by_cases h : tgtOf (r := r) idx e = some n
  · rw [if_pos h, if_pos (by rw [h]; rfl)]
  · rw [if_neg h, if_neg]
    intro heq
    obtain ⟨n', hn', hix⟩ := Option.map_eq_some_iff.mp heq
    exact h (hn'.trans (congrArg some (congrFun hix 0)))

end Scatter1

section HostForms

variable {r m c w : ℕ} {φ : FTy}

end HostForms

open Cert.Spec

def toMat {r c : ℕ} (x : (⟨2, ![r, c]⟩ : Shape).Idx → EReal) : Mat r c := fun i j => x (ix2 i j)

def ofMat {r c : ℕ} (M : Mat r c) : (⟨2, ![r, c]⟩ : Shape).Idx → EReal := fun i => M (i 0) (i 1)

def toVec {c : ℕ} (x : (⟨1, ![c]⟩ : Shape).Idx → EReal) : Fin c → EReal := fun j => x (ix1 j)

section Mat

variable {r c : ℕ}

theorem toMat_apply (x : (⟨2, ![r, c]⟩ : Shape).Idx → EReal) (i : Fin r) (j : Fin c) : toMat x i j = x (ix2 i j) := rfl

theorem toVec_apply (x : (⟨1, ![c]⟩ : Shape).Idx → EReal) (j : Fin c) : toVec x j = x (ix1 j) := rfl

theorem apply_eq_toMat (x : (⟨2, ![r, c]⟩ : Shape).Idx → EReal) (i : (⟨2, ![r, c]⟩ : Shape).Idx) :
    x i = toMat x (i 0) (i 1) := congrArg x (eq_ix2 i)

theorem apply_eq_toVec (x : (⟨1, ![c]⟩ : Shape).Idx → EReal) (i : (⟨1, ![c]⟩ : Shape).Idx) :
    x i = toVec x (i 0) := congrArg x (eq_ix1 i)

theorem eq_of_toMat_eq {x y : (⟨2, ![r, c]⟩ : Shape).Idx → EReal} (h : toMat x = toMat y) : x = y :=
  funext fun i => by rw [apply_eq_toMat x i, apply_eq_toMat y i, h]

theorem finMat_toMat_iff (x : (⟨2, ![r, c]⟩ : Shape).Idx → EReal) :
    FinMat (toMat x) ↔ ∀ i, ∃ v : ℝ, x i = (v : EReal) :=
  ⟨fun h i => by rw [apply_eq_toMat x i]; exact h _ _, fun h i j => h (ix2 i j)⟩

theorem finVec_toVec_iff (x : (⟨1, ![c]⟩ : Shape).Idx → EReal) :
    FinVec (toVec x) ↔ ∀ i, ∃ v : ℝ, x i = (v : EReal) :=
  ⟨fun h i => by rw [apply_eq_toVec x i]; exact h _, fun h j => h (ix1 j)⟩

end Mat

section SpecForms

variable {w : ℕ}

end SpecForms

end Cert.HostIdx

end
-- ==== Proof.Math.EdgeIdx.lean ====
import Idealize.ShloMosaic.PureOps
import Idealize.ShloMosaic.Lib.ValueIdx
import Idealize.ShloMosaic.Lib.ValueLayout

noncomputable section

namespace Cert.EdgeIdx

open Idealize.ShloMosaic Idealize.ShloMosaic.ValueIdx

theorem bcastCol_apply {α : Type} {m : ℕ} (hm : m ≠ 1)
    (h : (⟨1, ![m]⟩ : Shape).BroadcastsInDim ⟨2, ![m, 1]⟩ ![0])
    (v : (⟨1, ![m]⟩ : Shape).Idx → α) (e : Fin m) (u : Fin 1) :
    broadcastInDim ⟨2, ![m, 1]⟩ ![0] h v (ix2 e u) = v (ix1 e) :=
  broadcastInDim_apply _ h v _ _ fun a => match a with
    | ⟨0, _⟩ => (if_neg hm).symm

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

theorem bcast_edge : (⟨1, ![1100000]⟩ : Shape).BroadcastsInDim ⟨2, ![1100000, 1]⟩ (![0] : Fin 1 → Fin 2) := by decide

theorem bcast_word : (⟨0, ![]⟩ : Shape).BroadcastsInDim ⟨1, ![1100000]⟩ (![] : Fin 0 → Fin 1) := by decide

theorem bcast_row : (⟨1, ![100000]⟩ : Shape).BroadcastsInDim ⟨2, ![100000, 1]⟩ (![0] : Fin 1 → Fin 2) := by decide

def gidxOf (s : IVec ⟨1, ![1100000]⟩ 32) : IVec ⟨2, ![1100000, 1]⟩ 32 :=
  broadcastInDim ⟨2, ![1100000, 1]⟩ ![0] bcast_edge
    (select (cmpi .slt s (broadcastInDim ⟨1, ![1100000]⟩ ![] bcast_word (constantI ⟨0, ![]⟩ 32 0#32)))
      (addi s (broadcastInDim ⟨1, ![1100000]⟩ ![] bcast_word (constantI ⟨0, ![]⟩ 32 100000#32))) s)

def sidxOf (t : IVec ⟨1, ![1100000]⟩ 32) : IVec ⟨2, ![1100000, 1]⟩ 32 :=
  broadcastInDim ⟨2, ![1100000, 1]⟩ ![0] bcast_edge t

def bidxOf (b : IVec ⟨1, ![100000]⟩ 32) : IVec ⟨2, ![100000, 1]⟩ 32 :=
  broadcastInDim ⟨2, ![100000, 1]⟩ ![0] bcast_row b

theorem bidxOf_apply (b : IVec ⟨1, ![100000]⟩ 32) (n : Fin 100000) (u : Fin 1) : bidxOf b (ix2 n u) = b (ix1 n) :=
  bcastCol_apply (show (100000 : ℕ) ≠ 1 by decide) _ b n u

theorem shapeCast_eq_bidxOf (b : IVec ⟨1, ![100000]⟩ 32)
    (h : (⟨1, ![100000]⟩ : Shape).ShapeCasts ⟨2, ![100000, 1]⟩) :
    shapeCast ⟨2, ![100000, 1]⟩ b h = bidxOf b := by
  funext j
  obtain ⟨n, u, rfl⟩ : ∃ (n : Fin 100000) (u : Fin 1), j = ix2 n u := ⟨j 0, j 1, eq_ix2 j⟩
  rw [shapeCast_a_a1_apply, bidxOf_apply]

end Cert.EdgeIdx

end
-- ==== Proof.Math.Layer.lean ====
import proofs.«424828_j6554120094214_2_alg».proof.Proof.Spec
import Idealize.ShloMosaic.PureOps.Ideal
import Mathlib.Data.EReal.Basic
import Mathlib.Data.EReal.Operations
import Mathlib.Data.EReal.Inv
import Mathlib.Algebra.BigOperators.Group.Finset.Basic
import Mathlib.Algebra.Order.BigOperators.Group.Finset
import Mathlib.Analysis.SpecialFunctions.Pow.Real
import Mathlib.Tactic.FieldSimp
import Mathlib.Tactic.Ring
import Mathlib.Tactic.Positivity
import Mathlib.Tactic.NormNum

noncomputable section

namespace Cert.Spec

open Idealize.ShloMosaic

theorem cN_eq : cN = ((100000 : ℝ) : EReal) := by
  simp [cN, Ideal.ofBits, Ideal.ieee, -EReal.coe_mul]; norm_num

theorem eps_pos : ∃ v : ℝ, 0 < v ∧ eps = (v : EReal) := by
  refine ⟨10995116 * (2 : ℝ) ^ (-40 : ℤ), by positivity, ?_⟩
  simp [eps, Ideal.ofBits, Ideal.ieee, -EReal.coe_mul]

theorem coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

theorem real_add {a b : EReal} (ha : ∃ v : ℝ, a = (v : EReal)) (hb : ∃ v : ℝ, b = (v : EReal)) :
    ∃ v : ℝ, a + b = (v : EReal) := by
  obtain ⟨u, rfl⟩ := ha
  obtain ⟨w, rfl⟩ := hb
  exact ⟨u + w, (EReal.coe_add u w).symm⟩

theorem real_sub {a b : EReal} (ha : ∃ v : ℝ, a = (v : EReal)) (hb : ∃ v : ℝ, b = (v : EReal)) :
    ∃ v : ℝ, a - b = (v : EReal) := by
  obtain ⟨u, rfl⟩ := ha
  obtain ⟨w, rfl⟩ := hb
  exact ⟨u - w, (EReal.coe_sub u w).symm⟩

theorem real_mul {a b : EReal} (ha : ∃ v : ℝ, a = (v : EReal)) (hb : ∃ v : ℝ, b = (v : EReal)) :
    ∃ v : ℝ, a * b = (v : EReal) := by
  obtain ⟨u, rfl⟩ := ha
  obtain ⟨w, rfl⟩ := hb
  exact ⟨u * w, (EReal.coe_mul u w).symm⟩

theorem real_sum {ι : Type*} (s : Finset ι) (f : ι → EReal) (hf : ∀ i ∈ s, ∃ v : ℝ, f i = (v : EReal)) :
    ∃ v : ℝ, ∑ i ∈ s, f i = (v : EReal) := by
  induction s using Finset.cons_induction with
  | empty => exact ⟨0, by simp⟩
  | cons a s ha ih =>
    rw [Finset.sum_cons]
    exact real_add (hf a (Finset.mem_cons_self a s)) (ih fun i hi => hf i (Finset.mem_cons.mpr (Or.inr hi)))

theorem real_max_zero {a : EReal} (ha : ∃ v : ℝ, a = (v : EReal)) : ∃ v : ℝ, max a 0 = (v : EReal) := by
  rcases le_total a 0 with h | h
  · exact ⟨0, by rw [max_eq_right h, EReal.coe_zero]⟩
  · rw [max_eq_left h]; exact ha

theorem div_cN (a : ℝ) : Ideal.div (a : EReal) cN = ((a * (1 / 100000) : ℝ) : EReal) := by
  rw [cN_eq, Ideal.div_coe (by norm_num : (100000 : ℝ) ≠ 0), ← EReal.coe_mul]

theorem real_div_cN {a : EReal} (ha : ∃ v : ℝ, a = (v : EReal)) : ∃ v : ℝ, Ideal.div a cN = (v : EReal) := by
  obtain ⟨u, rfl⟩ := ha
  exact ⟨u * (1 / 100000), div_cN u⟩

theorem exists_real {r c : ℕ} {x : Mat r c} (hx : FinMat x) :
    ∃ v : Fin r → Fin c → ℝ, x = fun i j => ((v i j : ℝ) : EReal) := by
  have hx' : ∀ i j, ∃ v : ℝ, x i j = (v : EReal) := hx
  choose v hv using hx'
  exact ⟨v, funext fun i => funext fun j => hv i j⟩

theorem finMat_lin {h : Mat Nn 64} {W : Mat 64 64} (hh : FinMat h) (hW : FinMat W) : FinMat (lin h W) := by
  intro n o
  exact real_sum _ _ fun k _ => real_mul (hh n k) (hW o k)

theorem finMat_msg {sel : Fin Ee → Fin Nn} {nrm : Fin Ee → EReal} {hl : Mat Nn 64}
    (hn : FinVec nrm) (hh : FinMat hl) : FinMat (msg sel nrm hl) := by
  intro e f
  exact real_mul (hh (sel e) f) (hn e)

theorem finMat_agg {tgt : Fin Ee → Option (Fin Nn)} {ms : Mat Ee 64} (hm : FinMat ms) : FinMat (agg tgt ms) := by
  intro n f
  exact real_sum _ _ fun e _ => hm e f

theorem finMat_relu {a : Mat Nn 64} {b : Fin 64 → EReal} (ha : FinMat a) (hb : FinVec b) : FinMat (relu a b) := by
  intro n f
  exact real_max_zero (real_add (ha n f) (hb f))

theorem finMat_act {sel : Fin Ee → Fin Nn} {tgt : Fin Ee → Option (Fin Nn)} {nrm : Fin Ee → EReal}
    {h : Mat Nn 64} {W : Mat 64 64} {b : Fin 64 → EReal}
    (hn : FinVec nrm) (hh : FinMat h) (hW : FinMat W) (hb : FinVec b) : FinMat (act sel tgt nrm h W b) :=
  finMat_relu (finMat_agg (finMat_msg hn (finMat_lin hh hW))) hb

theorem finVec_mean {x : Mat Nn 64} (hx : FinMat x) : FinVec (mean x) := by
  intro f
  exact real_div_cN (real_sum _ _ fun n _ => hx n f)

theorem real_var {ι : Type*} [Fintype ι] (c : ℝ) (hc : (Fintype.card ι : ℝ) = c) (hc0 : c ≠ 0) (x : ι → ℝ) :
    (∑ i, x i * x i) * (1 / c) - ((∑ i, x i) * (1 / c)) * ((∑ i, x i) * (1 / c))
      = (∑ i, (x i - (∑ j, x j) * (1 / c)) * (x i - (∑ j, x j) * (1 / c))) * (1 / c) := by
  generalize hS : (∑ i, x i) = S
  generalize hm : S * (1 / c) = m
  have h1 : ∑ i, (x i - m) * (x i - m) = (∑ i, x i * x i) - 2 * m * S + c * (m * m) := by
    have h2 : ∀ i, (x i - m) * (x i - m) = x i * x i - 2 * m * x i + m * m := fun i => by ring
    rw [Finset.sum_congr rfl fun i _ => h2 i, Finset.sum_add_distrib, Finset.sum_sub_distrib, ← Finset.mul_sum,
      Finset.sum_const, Finset.card_univ, nsmul_eq_mul, hc, hS]
  rw [h1, ← hm]
  field_simp
  ring

theorem card_rows : (Fintype.card (Fin Nn) : ℝ) = 100000 := by
  rw [Fintype.card_fin]; norm_num

theorem colsum_coe (w : Fin Nn → Fin 64 → ℝ) (f : Fin 64) :
    colsum (fun n f => ((w n f : ℝ) : EReal)) f = ((∑ n, w n f : ℝ) : EReal) := by
  rw [coe_sum]; rfl

theorem mean_coe (w : Fin Nn → Fin 64 → ℝ) (f : Fin 64) :
    mean (fun n f => ((w n f : ℝ) : EReal)) f = (((∑ n, w n f) * (1 / 100000) : ℝ) : EReal) := by
  unfold mean
  rw [colsum_coe, div_cN]

theorem varMoment_coe (w : Fin Nn → Fin 64 → ℝ) (f : Fin 64) :
    varMoment (fun n f => ((w n f : ℝ) : EReal)) f
      = (((∑ n, w n f * w n f) * (1 / 100000)
          - ((∑ n, w n f) * (1 / 100000)) * ((∑ n, w n f) * (1 / 100000)) : ℝ) : EReal) := by
  have hsq : (fun (n : Fin Nn) (f : Fin 64) => ((w n f : ℝ) : EReal) * ((w n f : ℝ) : EReal))
      = fun n f => ((w n f * w n f : ℝ) : EReal) := by
    funext n f; rw [EReal.coe_mul]
  unfold varMoment
  rw [hsq, colsum_coe, div_cN, mean_coe, ← EReal.coe_mul, ← EReal.coe_sub]

theorem varDev_coe (w : Fin Nn → Fin 64 → ℝ) (f : Fin 64) :
    varDev (fun n f => ((w n f : ℝ) : EReal)) f
      = (((∑ n, (w n f - (∑ j, w j f) * (1 / 100000)) * (w n f - (∑ j, w j f) * (1 / 100000)))
          * (1 / 100000) : ℝ) : EReal) := by
  have hdev : (fun (n : Fin Nn) (f : Fin 64) =>
        (((w n f : ℝ) : EReal) - mean (fun n f => ((w n f : ℝ) : EReal)) f)
          * (((w n f : ℝ) : EReal) - mean (fun n f => ((w n f : ℝ) : EReal)) f))
      = fun n f => (((w n f - (∑ j, w j f) * (1 / 100000)) * (w n f - (∑ j, w j f) * (1 / 100000)) : ℝ) : EReal) := by
    funext n f; rw [mean_coe, ← EReal.coe_sub, ← EReal.coe_mul]
  unfold varDev
  rw [hdev, colsum_coe, div_cN]

theorem varMoment_eq_varDev {x : Mat Nn 64} (hx : FinMat x) : varMoment x = varDev x := by
  obtain ⟨v, rfl⟩ := exists_real hx
  funext f
  rw [varMoment_coe, varDev_coe]
  exact congrArg (fun r : ℝ => (r : EReal)) (real_var 100000 card_rows (by norm_num) fun n => v n f)

theorem varDev_nonneg_real {x : Mat Nn 64} (hx : FinMat x) : ∀ f, ∃ v : ℝ, 0 ≤ v ∧ varDev x f = (v : EReal) := by
  obtain ⟨v, rfl⟩ := exists_real hx
  intro f
  refine ⟨_, ?_, varDev_coe v f⟩
  exact mul_nonneg (Finset.sum_nonneg fun n _ => mul_self_nonneg _) (by norm_num)

theorem real_rsqrt_pos {r : ℝ} (hr : 0 < r) : ∃ v : ℝ, Ideal.rsqrt (r : EReal) = (v : EReal) :=
  ⟨(Real.sqrt r)⁻¹, by rw [Ideal.rsqrt_coe, if_neg (not_lt.mpr hr.le), if_neg hr.ne']⟩

theorem finMat_bn {x : Mat Nn 64} {mu var g beta : Fin 64 → EReal} (hx : FinMat x) (hmu : FinVec mu)
    (hg : FinVec g) (hb : FinVec beta) (hv : ∀ f, ∃ v : ℝ, 0 ≤ v ∧ var f = (v : EReal)) :
    FinMat (bn x mu var g beta) := by
  intro n f
  obtain ⟨v, hv0, hvf⟩ := hv f
  obtain ⟨e, he0, hee⟩ := eps_pos
  have hr : ∃ u : ℝ, Ideal.rsqrt (var f + eps) = (u : EReal) := by
    rw [hvf, hee, ← EReal.coe_add]
    exact real_rsqrt_pos (add_pos_of_nonneg_of_pos hv0 he0)
  exact real_add (real_mul (real_mul (hg f) (real_sub (hx n f) (hmu f))) hr) (hb f)

theorem layerM_eq_layerD {sel : Fin Ee → Fin Nn} {tgt : Fin Ee → Option (Fin Nn)} {nrm : Fin Ee → EReal}
    {h : Mat Nn 64} {W : Mat 64 64} {b g beta : Fin 64 → EReal}
    (hn : FinVec nrm) (hh : FinMat h) (hW : FinMat W) (hb : FinVec b) :
    layerM sel tgt nrm h W b g beta = layerD sel tgt nrm h W b g beta :=
  congrArg (fun V => bn (act sel tgt nrm h W b) (mean (act sel tgt nrm h W b)) V g beta)
    (varMoment_eq_varDev (finMat_act hn hh hW hb))

theorem finMat_layerD {sel : Fin Ee → Fin Nn} {tgt : Fin Ee → Option (Fin Nn)} {nrm : Fin Ee → EReal}
    {h : Mat Nn 64} {W : Mat 64 64} {b g beta : Fin 64 → EReal}
    (hn : FinVec nrm) (hh : FinMat h) (hW : FinMat W) (hb : FinVec b) (hg : FinVec g) (hbeta : FinVec beta) :
    FinMat (layerD sel tgt nrm h W b g beta) :=
  finMat_bn (finMat_act hn hh hW hb) (finVec_mean (finMat_act hn hh hW hb)) hg hbeta
    (varDev_nonneg_real (finMat_act hn hh hW hb))

theorem poolHot_eq_poolSeg (seg : Fin Nn → Option (Fin Gg)) (x : Mat Nn 64) : poolHot seg x = poolSeg seg x := by
  funext q f
  unfold poolHot poolSeg
  rw [Finset.sum_filter]
  refine Finset.sum_congr rfl fun n _ => ?_
  by_cases hp : seg n = some q
  · rw [if_pos hp, if_pos hp, one_mul]
  · rw [if_neg hp, if_neg hp, zero_mul]

end Cert.Spec

end
-- ==== Proof.Math.Net.lean ====
import proofs.«424828_j6554120094214_2_alg».proof.Proof.Math.Layer

noncomputable section

namespace Cert.Spec

def netM (sel : Fin Ee → Fin Nn) (tgt : Fin Ee → Option (Fin Nn)) (nrm : Fin Ee → EReal) (x : Mat Nn 64)
    (W0 : Mat 64 64) (b0 g0 e0 : Fin 64 → EReal) (W1 : Mat 64 64) (b1 g1 e1 : Fin 64 → EReal)
    (W2 : Mat 64 64) (b2 g2 e2 : Fin 64 → EReal) : Mat Nn 64 × Mat Nn 64 × Mat Nn 64 :=
  let h1 := layerM sel tgt nrm x W0 b0 g0 e0
  let h2 := layerM sel tgt nrm h1 W1 b1 g1 e1
  let h3 := layerM sel tgt nrm h2 W2 b2 g2 e2
  (h1, h2, h3)

def netD (sel : Fin Ee → Fin Nn) (tgt : Fin Ee → Option (Fin Nn)) (nrm : Fin Ee → EReal) (x : Mat Nn 64)
    (W0 : Mat 64 64) (b0 g0 e0 : Fin 64 → EReal) (W1 : Mat 64 64) (b1 g1 e1 : Fin 64 → EReal)
    (W2 : Mat 64 64) (b2 g2 e2 : Fin 64 → EReal) : Mat Nn 64 × Mat Nn 64 × Mat Nn 64 :=
  let h1 := layerD sel tgt nrm x W0 b0 g0 e0
  let h2 := layerD sel tgt nrm h1 W1 b1 g1 e1
  let h3 := layerD sel tgt nrm h2 W2 b2 g2 e2
  (h1, h2, h3)

theorem netD_fst (sel : Fin Ee → Fin Nn) (tgt : Fin Ee → Option (Fin Nn)) (nrm : Fin Ee → EReal) (x : Mat Nn 64)
    (W0 : Mat 64 64) (b0 g0 e0 : Fin 64 → EReal) (W1 : Mat 64 64) (b1 g1 e1 : Fin 64 → EReal)
    (W2 : Mat 64 64) (b2 g2 e2 : Fin 64 → EReal) :
    (netD sel tgt nrm x W0 b0 g0 e0 W1 b1 g1 e1 W2 b2 g2 e2).1 = layerD sel tgt nrm x W0 b0 g0 e0 := rfl

theorem netD_snd_fst (sel : Fin Ee → Fin Nn) (tgt : Fin Ee → Option (Fin Nn)) (nrm : Fin Ee → EReal) (x : Mat Nn 64)
    (W0 : Mat 64 64) (b0 g0 e0 : Fin 64 → EReal) (W1 : Mat 64 64) (b1 g1 e1 : Fin 64 → EReal)
    (W2 : Mat 64 64) (b2 g2 e2 : Fin 64 → EReal) :
    (netD sel tgt nrm x W0 b0 g0 e0 W1 b1 g1 e1 W2 b2 g2 e2).2.1 = layerD sel tgt nrm (layerD sel tgt nrm x W0 b0 g0 e0) W1 b1 g1 e1 := rfl

theorem netD_snd_snd (sel : Fin Ee → Fin Nn) (tgt : Fin Ee → Option (Fin Nn)) (nrm : Fin Ee → EReal) (x : Mat Nn 64)
    (W0 : Mat 64 64) (b0 g0 e0 : Fin 64 → EReal) (W1 : Mat 64 64) (b1 g1 e1 : Fin 64 → EReal)
    (W2 : Mat 64 64) (b2 g2 e2 : Fin 64 → EReal) :
    (netD sel tgt nrm x W0 b0 g0 e0 W1 b1 g1 e1 W2 b2 g2 e2).2.2
      = layerD sel tgt nrm (layerD sel tgt nrm (layerD sel tgt nrm x W0 b0 g0 e0) W1 b1 g1 e1) W2 b2 g2 e2 := rfl

theorem netM_eq_netD {sel : Fin Ee → Fin Nn} {tgt : Fin Ee → Option (Fin Nn)} {nrm : Fin Ee → EReal} {x : Mat Nn 64}
    {W0 : Mat 64 64} {b0 g0 e0 : Fin 64 → EReal} {W1 : Mat 64 64} {b1 g1 e1 : Fin 64 → EReal}
    {W2 : Mat 64 64} {b2 g2 e2 : Fin 64 → EReal}
    (hn : FinVec nrm) (hx : FinMat x)
    (hW0 : FinMat W0) (hb0 : FinVec b0) (hg0 : FinVec g0) (he0 : FinVec e0)
    (hW1 : FinMat W1) (hb1 : FinVec b1) (hg1 : FinVec g1) (he1 : FinVec e1)
    (hW2 : FinMat W2) (hb2 : FinVec b2) (hg2 : FinVec g2) (he2 : FinVec e2) :
    netM sel tgt nrm x W0 b0 g0 e0 W1 b1 g1 e1 W2 b2 g2 e2 = netD sel tgt nrm x W0 b0 g0 e0 W1 b1 g1 e1 W2 b2 g2 e2 := by
  have f1 : FinMat (layerD sel tgt nrm x W0 b0 g0 e0) := finMat_layerD hn hx hW0 hb0 hg0 he0
  have f2 : FinMat (layerD sel tgt nrm (layerD sel tgt nrm x W0 b0 g0 e0) W1 b1 g1 e1) :=
    finMat_layerD hn f1 hW1 hb1 hg1 he1
  have q1 : layerM sel tgt nrm x W0 b0 g0 e0 = layerD sel tgt nrm x W0 b0 g0 e0 :=
    layerM_eq_layerD hn hx hW0 hb0
  have q2 : layerM sel tgt nrm (layerD sel tgt nrm x W0 b0 g0 e0) W1 b1 g1 e1
      = layerD sel tgt nrm (layerD sel tgt nrm x W0 b0 g0 e0) W1 b1 g1 e1 :=
    layerM_eq_layerD hn f1 hW1 hb1
  have q3 : layerM sel tgt nrm (layerD sel tgt nrm (layerD sel tgt nrm x W0 b0 g0 e0) W1 b1 g1 e1) W2 b2 g2 e2
      = layerD sel tgt nrm (layerD sel tgt nrm (layerD sel tgt nrm x W0 b0 g0 e0) W1 b1 g1 e1) W2 b2 g2 e2 :=
    layerM_eq_layerD hn f2 hW2 hb2
  show (layerM sel tgt nrm x W0 b0 g0 e0,
      layerM sel tgt nrm (layerM sel tgt nrm x W0 b0 g0 e0) W1 b1 g1 e1,
      layerM sel tgt nrm (layerM sel tgt nrm (layerM sel tgt nrm x W0 b0 g0 e0) W1 b1 g1 e1) W2 b2 g2 e2)
    = (layerD sel tgt nrm x W0 b0 g0 e0,
      layerD sel tgt nrm (layerD sel tgt nrm x W0 b0 g0 e0) W1 b1 g1 e1,
      layerD sel tgt nrm (layerD sel tgt nrm (layerD sel tgt nrm x W0 b0 g0 e0) W1 b1 g1 e1) W2 b2 g2 e2)
  rw [q1, q2, q3]

theorem pools_eq (seg : Fin Nn → Option (Fin Gg)) {sel : Fin Ee → Fin Nn} {tgt : Fin Ee → Option (Fin Nn)} {nrm : Fin Ee → EReal} {x : Mat Nn 64}
    {W0 : Mat 64 64} {b0 g0 e0 : Fin 64 → EReal} {W1 : Mat 64 64} {b1 g1 e1 : Fin 64 → EReal}
    {W2 : Mat 64 64} {b2 g2 e2 : Fin 64 → EReal}
    (hn : FinVec nrm) (hx : FinMat x)
    (hW0 : FinMat W0) (hb0 : FinVec b0) (hg0 : FinVec g0) (he0 : FinVec e0)
    (hW1 : FinMat W1) (hb1 : FinVec b1) (hg1 : FinVec g1) (he1 : FinVec e1)
    (hW2 : FinMat W2) (hb2 : FinVec b2) (hg2 : FinVec g2) (he2 : FinVec e2) :
    poolHot seg (netM sel tgt nrm x W0 b0 g0 e0 W1 b1 g1 e1 W2 b2 g2 e2).1 = poolSeg seg (netD sel tgt nrm x W0 b0 g0 e0 W1 b1 g1 e1 W2 b2 g2 e2).1
      ∧ poolHot seg (netM sel tgt nrm x W0 b0 g0 e0 W1 b1 g1 e1 W2 b2 g2 e2).2.1 = poolSeg seg (netD sel tgt nrm x W0 b0 g0 e0 W1 b1 g1 e1 W2 b2 g2 e2).2.1
      ∧ poolHot seg (netM sel tgt nrm x W0 b0 g0 e0 W1 b1 g1 e1 W2 b2 g2 e2).2.2 = poolSeg seg (netD sel tgt nrm x W0 b0 g0 e0 W1 b1 g1 e1 W2 b2 g2 e2).2.2 := by
  rw [netM_eq_netD hn hx hW0 hb0 hg0 he0 hW1 hb1 hg1 he1 hW2 hb2 hg2 he2]
  exact ⟨poolHot_eq_poolSeg _ _, poolHot_eq_poolSeg _ _, poolHot_eq_poolSeg _ _⟩

end Cert.Spec

end
-- ==== Proof.LibNary3.lean ====
import Idealize.ShloMosaic.Lib.StableHlo.Run

noncomputable section

namespace Idealize.ShloMosaic.StableHlo

variable {τ : Topo} {sig : RefSig} {Val : EltTy → Type}
variable {x a b y : Ref sig .tc}

theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a))
          (Fin.cons (F (Proc.devRef .tc b)) (fun i => i.elim0)))) := by
  rw [nary_result]; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a))
          (Fin.cons (F (Proc.devRef .tc b)) (fun i => i.elim0)))) :=
  nary3_result f hxs hy F

end Idealize.ShloMosaic.StableHlo

end
-- ==== Proof.KI.Value.lean ====
import proofs.«424828_j6554120094214_2_alg».proof.Proof.Gen.KernelIdeal.Launch
import proofs.«424828_j6554120094214_2_alg».proof.Proof.Spec
import proofs.«424828_j6554120094214_2_alg».proof.Proof.KI.HostRead
import proofs.«424828_j6554120094214_2_alg».proof.Proof.Math.HostIdx
import proofs.«424828_j6554120094214_2_alg».proof.Proof.Math.EdgeIdx
import proofs.«424828_j6554120094214_2_alg».proof.Proof.Math.Net
import proofs.«424828_j6554120094214_2_alg».proof.Proof.LibNary3
import Idealize.ShloMosaic.Lib.ValueIdx
import Idealize.ShloMosaic.Lib.IdealHost
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.TcCoe
open Idealize.ShloMosaic.ValueIdx
open Cert.KernelIdeal Cert.KernelIdeal.Gen
open Cert.Spec (Nn Ee Gg)

theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem act_spec (sel : Fin Ee → Fin Nn) (tgt : Fin Ee → Option (Fin Nn)) (nrm : Fin Ee → EReal) (b : Fin 64 → EReal)
    (hin hl : S100000x64.Idx → EReal) (Wt : S64x64.Idx → EReal)
    (hsrc ms : S1100000x64.Idx → EReal) (nrm2 : S1100000x1.Idx → EReal)
    (ag hr : S100000x64.Idx → EReal) (b2 : S1x64.Idx → EReal)
    (hlin : ∀ n o, hl (ix2 n o) = ∑ k : Fin 64, hin (ix2 n k) * Wt (ix2 o k))
    (hgat : ∀ e f, hsrc (ix2 e f) = hl (ix2 (sel e) f))
    (hnrm : ∀ e, nrm2 (ix2 e 0) = nrm e)
    (hscale : ∀ e f, ms (ix2 e f) = hsrc (ix2 e f) * nrm2 (ix2 e 0))
    (hagg : ∀ n f, ag (ix2 n f) = ∑ e ∈ Finset.univ.filter (fun e => tgt e = some n), ms (ix2 e f))
    (hb : ∀ f, b2 (ix2 0 f) = b f)
    (hrelu : ∀ n f, hr (ix2 n f) = max (ag (ix2 n f) + b2 (ix2 0 f)) 0) :
    (fun n f => hr (ix2 n f)) = Cert.Spec.act sel tgt nrm (fun n f => hin (ix2 n f)) (fun o k => Wt (ix2 o k)) b := by
  funext n f
  show hr (ix2 n f)
    = max ((∑ e ∈ Finset.univ.filter (fun e => tgt e = some n), (∑ k : Fin 64, hin (ix2 (sel e) k) * Wt (ix2 f k)) * nrm e) + b f) 0
  rw [hrelu n f, hagg n f, hb f]
  refine congrArg (fun t => max (t + b f) 0) (Finset.sum_congr rfl fun e _ => ?_)
  rw [hscale e f, hgat e f, hnrm e, hlin (sel e) f]

theorem layer_spec (sel : Fin Ee → Fin Nn) (tgt : Fin Ee → Option (Fin Nn)) (nrm : Fin Ee → EReal) (b g beta : Fin 64 → EReal)
    (hin hl : S100000x64.Idx → EReal) (Wt : S64x64.Idx → EReal)
    (hsrc ms : S1100000x64.Idx → EReal) (nrm2 : S1100000x1.Idx → EReal)
    (ag hr out : S100000x64.Idx → EReal) (b2 s1 s2 mu var g2 beta2 : S1x64.Idx → EReal)
    (hlin : ∀ n o, hl (ix2 n o) = ∑ k : Fin 64, hin (ix2 n k) * Wt (ix2 o k))
    (hgat : ∀ e f, hsrc (ix2 e f) = hl (ix2 (sel e) f))
    (hnrm : ∀ e, nrm2 (ix2 e 0) = nrm e)
    (hscale : ∀ e f, ms (ix2 e f) = hsrc (ix2 e f) * nrm2 (ix2 e 0))
    (hagg : ∀ n f, ag (ix2 n f) = ∑ e ∈ Finset.univ.filter (fun e => tgt e = some n), ms (ix2 e f))
    (hb : ∀ f, b2 (ix2 0 f) = b f)
    (hrelu : ∀ n f, hr (ix2 n f) = max (ag (ix2 n f) + b2 (ix2 0 f)) 0)
    (hs1 : ∀ f, s1 (ix2 0 f) = ∑ n : Fin 100000, hr (ix2 n f))
    (hs2 : ∀ f, s2 (ix2 0 f) = ∑ n : Fin 100000, hr (ix2 n f) * hr (ix2 n f))
    (hmu : ∀ f, mu (ix2 0 f) = Ideal.div (s1 (ix2 0 f)) Cert.Spec.cN)
    (hvar : ∀ f, var (ix2 0 f) = Ideal.div (s2 (ix2 0 f)) Cert.Spec.cN - mu (ix2 0 f) * mu (ix2 0 f))
    (hg : ∀ f, g2 (ix2 0 f) = g f) (hbeta : ∀ f, beta2 (ix2 0 f) = beta f)
    (hbn : ∀ n f, out (ix2 n f)
        = g2 (ix2 0 f) * (hr (ix2 n f) - mu (ix2 0 f)) * Ideal.rsqrt (var (ix2 0 f) + Cert.Spec.eps) + beta2 (ix2 0 f)) :
    (fun n f => out (ix2 n f))
      = Cert.Spec.layerM sel tgt nrm (fun n f => hin (ix2 n f)) (fun o k => Wt (ix2 o k)) b g beta := by
  have hact := act_spec sel tgt nrm b hin hl Wt hsrc ms nrm2 ag hr b2 hlin hgat hnrm hscale hagg hb hrelu
  have hmean : ∀ f, mu (ix2 0 f) = Cert.Spec.mean (fun n f => hr (ix2 n f)) f := fun f => by
    rw [hmu f, hs1 f]; rfl
  have hvarM : ∀ f, var (ix2 0 f) = Cert.Spec.varMoment (fun n f => hr (ix2 n f)) f := fun f => by
    rw [hvar f, hs2 f, hmean f]; rfl
  unfold Cert.Spec.layerM
  rw [← hact]
  funext n f
  rw [hbn n f, hg f, hbeta f, hmean f, hvarM f]
  rfl

def zeros : FVec Ideal S100000x64 .f32 :=
  broadcastInDim S100000x64 ![] bcast_S_S100000x64 (constant (F := Ideal) S_ .f32 0x00000000#32)

def cNrow : FVec Ideal S1x64 .f32 :=
  broadcastInDim S1x64 ![] bcast_S_S1x64 (constant (F := Ideal) S_ .f32 0x47C35000#32)

theorem zeros_apply (i : S100000x64.Idx) : zeros i = 0 := by
  unfold zeros
  rw [broadcastInDim_scalar_apply, constant_apply, Ideal.ofBits_zero_f32]

theorem cNrow_apply (i : S1x64.Idx) : cNrow i = Cert.Spec.cN := by
  unfold cNrow Cert.Spec.cN
  rw [broadcastInDim_scalar_apply, constant_apply]

def meanRow (s1 : FVec Ideal S1x64 .f32) : FVec Ideal S1x64 .f32 := Host.divf (F := Ideal) s1 cNrow

def varRow (s1 s2 : FVec Ideal S1x64 .f32) : FVec Ideal S1x64 .f32 :=
  subf (Host.divf (F := Ideal) s2 cNrow) (mulf (meanRow s1) (meanRow s1))

theorem meanRow_apply (s1 : FVec Ideal S1x64 .f32) (i : S1x64.Idx) : meanRow s1 i = Ideal.div (s1 i) Cert.Spec.cN := by
  unfold meanRow; rw [hostDivf_apply, cNrow_apply]

theorem varRow_apply (s1 s2 : FVec Ideal S1x64 .f32) (i : S1x64.Idx) :
    varRow s1 s2 i = Ideal.div (s2 i) Cert.Spec.cN - meanRow s1 i * meanRow s1 i := by
  unfold varRow; rw [subf_apply, mulf_apply, hostDivf_apply, cNrow_apply]

theorem pool_spec (seg : Fin Nn → Option (Fin Gg)) (h : S100000x64.Idx → EReal) (po : S512x64.Idx → EReal)
    (hot : Fin Nn → Fin Gg → EReal)
    (hhot : ∀ n q, hot n q = if seg n = some q then 1 else 0)
    (hpool : ∀ q f, po (ix2 q f) = ∑ n : Fin 100000, hot n q * h (ix2 n f)) :
    (fun q f => po (ix2 q f)) = Cert.Spec.poolHot seg (fun n f => h (ix2 n f)) := by
  funext q f
  show po (ix2 q f) = ∑ n : Fin Nn, (if seg n = some q then (1 : EReal) else 0) * h (ix2 n f)
  rw [hpool q f]
  exact Finset.sum_congr rfl fun n _ => by rw [hhot n q]

open Cert.HostIdx (selOf tgtOf toMat ofMat toVec)
open Cert.EdgeIdx (gidxOf sidxOf bidxOf)

theorem scatter_rows (x : FVec Ideal S100000x64 .f32) (idx : IVec S1100000x1 32) (u : FVec Ideal S1100000x64 .f32)
    (n : Fin Nn) (f : Fin 64) :
    Host.scatterAdd (F := Ideal) scatter_S100000x64_S1100000x1_S1100000x64_1_0_0_1 x idx u (ix2 n f)
      = x (ix2 n f) + ∑ e ∈ Finset.univ.filter (fun e => tgtOf (r := Nn) idx e = some n), u (ix2 e f) := by
  unfold Host.scatterAdd
  rw [Ideal.hostScatterAdd_def]
  exact Cert.HostIdx.hostScatterAdd_rows scatter_S100000x64_S1100000x1_S1100000x64_1_0_0_1_wf x idx u n f

theorem gather_rows' (x : FVec Ideal S100000x64 .f32) (idx : IVec S1100000x1 32) (e : Fin Ee) (f : Fin 64) :
    Host.gather gather_S100000x64_S1100000x1_S1100000x64_1_0_n_n_0_1_164 x idx (ix2 e f)
      = x (ix2 (selOf (r := Nn) (by decide) idx e) f) :=
  Cert.HostIdx.gather_rows gather_S100000x64_S1100000x1_S1100000x64_1_0_n_n_0_1_164_wf (by decide) x idx e f

theorem layer0_walk (Wa Wb Wc Wd We Wf Wg Wh : Valuation τ sig (Elt Ideal))
    (S T : IVec S1100000 32) (nrm : Fin Ee → EReal) (B G BE : FVec Ideal S64 .f32)
    (hc : Wc = StableHlo.after hostOps1 Wb) (he : We = StableHlo.after hostOps2 Wd) (hg : Wg = StableHlo.after hostOps3 Wf)
    (kS : (Wb (Proc.devRef .tc main_v3)) = S) (kT : (Wd (Proc.devRef .tc main_v6)) = T)
    (kN : ∀ e, toMat (r := 1100000) (c := 1) (Wc (Proc.devRef .tc main_v30)) e 0 = nrm e)
    (kB : (Wd (Proc.devRef .tc main_arg4)) = B) (kG : (Wf (Proc.devRef .tc main_arg5)) = G) (kBE : (Wf (Proc.devRef .tc main_arg6)) = BE)
    (r0 : ∀ n o, toMat (r := 100000) (c := 64) (Wb (Proc.devRef .tc main_v32)) n o = ∑ k : Fin 64, toMat (r := 100000) (c := 64) (Wa (Proc.devRef .tc main_arg0)) n k * toMat (r := 64) (c := 64) (Wa (Proc.devRef .tc main_arg3)) o k)
    (r1 : ∀ e f, toMat (r := 1100000) (c := 64) (Wd (Proc.devRef .tc main_v40)) e f = toMat (r := 1100000) (c := 64) (Wc (Proc.devRef .tc main_v39)) e f * toMat (r := 1100000) (c := 1) (Wc (Proc.devRef .tc main_v30)) e 0)
    (r2a : ∀ n f, toMat (r := 100000) (c := 64) (Wf (Proc.devRef .tc main_v45_0)) n f = max (toMat (r := 100000) (c := 64) (We (Proc.devRef .tc main_v43)) n f + toMat (r := 1) (c := 64) (We (Proc.devRef .tc main_v44)) 0 f) 0)
    (r2b : ∀ f, toMat (r := 1) (c := 64) (Wf (Proc.devRef .tc main_v45_1)) 0 f = ∑ n : Fin 100000, toMat (r := 100000) (c := 64) (Wf (Proc.devRef .tc main_v45_0)) n f)
    (r2c : ∀ f, toMat (r := 1) (c := 64) (Wf (Proc.devRef .tc main_v45_2)) 0 f = ∑ n : Fin 100000, toMat (r := 100000) (c := 64) (Wf (Proc.devRef .tc main_v45_0)) n f * toMat (r := 100000) (c := 64) (Wf (Proc.devRef .tc main_v45_0)) n f)
    (r3 : ∀ n f, toMat (r := 100000) (c := 64) (Wh (Proc.devRef .tc main_v54)) n f
        = toMat (r := 1) (c := 64) (Wg (Proc.devRef .tc main_v52)) 0 f * (toMat (r := 100000) (c := 64) (Wg (Proc.devRef .tc main_v45_0)) n f - toMat (r := 1) (c := 64) (Wg (Proc.devRef .tc main_v47)) 0 f)
            * Ideal.rsqrt (toMat (r := 1) (c := 64) (Wg (Proc.devRef .tc main_v51)) 0 f + Cert.Spec.eps) + toMat (r := 1) (c := 64) (Wg (Proc.devRef .tc main_v53)) 0 f) :
    toMat (r := 100000) (c := 64) (Wh (Proc.devRef .tc main_v54))
      = Cert.Spec.layerM (selOf (r := Nn) (by decide) (gidxOf S)) (tgtOf (r := Nn) (sidxOf T)) nrm
          (toMat (r := 100000) (c := 64) (Wa (Proc.devRef .tc main_arg0))) (toMat (r := 64) (c := 64) (Wa (Proc.devRef .tc main_arg3))) (toVec B) (toVec G) (toVec BE) := by
  have e_g : (Wc (Proc.devRef .tc main_v39)) = Host.gather gather_S100000x64_S1100000x1_S1100000x64_1_0_n_n_0_1_164 (Wb (Proc.devRef .tc main_v32)) (gidxOf S) := by
    rw [hc, host1_rows, kS]; rfl
  have e_a : (We (Proc.devRef .tc main_v43)) = Host.scatterAdd (F := Ideal) scatter_S100000x64_S1100000x1_S1100000x64_1_0_0_1 zeros (sidxOf T) (Wd (Proc.devRef .tc main_v40)) := by
    rw [he, host2_agg, kT]; rfl
  have e_b : (We (Proc.devRef .tc main_v44)) = shapeCast S1x64 B shapeCasts_S64_S1x64 := by rw [he, host2_bias, kB]
  have e_m : (Wg (Proc.devRef .tc main_v47)) = meanRow (Wf (Proc.devRef .tc main_v45_1)) := by rw [hg, host3_mean]; rfl
  have e_v : (Wg (Proc.devRef .tc main_v51)) = varRow (Wf (Proc.devRef .tc main_v45_1)) (Wf (Proc.devRef .tc main_v45_2)) := by rw [hg, host3_var]; rfl
  have e_s : (Wg (Proc.devRef .tc main_v52)) = shapeCast S1x64 G shapeCasts_S64_S1x64 := by rw [hg, host3_scale, kG]
  have e_t : (Wg (Proc.devRef .tc main_v53)) = shapeCast S1x64 BE shapeCasts_S64_S1x64 := by rw [hg, host3_shift, kBE]
  have e_h : (Wg (Proc.devRef .tc main_v45_0)) = (Wf (Proc.devRef .tc main_v45_0)) := by rw [hg]; exact host3_keep _ _ (by decide)
  exact layer_spec (selOf (r := Nn) (by decide) (gidxOf S)) (tgtOf (r := Nn) (sidxOf T)) nrm (toVec B) (toVec G) (toVec BE)
    (Wa (Proc.devRef .tc main_arg0)) (Wb (Proc.devRef .tc main_v32)) (Wa (Proc.devRef .tc main_arg3)) (Wc (Proc.devRef .tc main_v39)) (Wd (Proc.devRef .tc main_v40)) (Wc (Proc.devRef .tc main_v30))
    (We (Proc.devRef .tc main_v43)) (Wf (Proc.devRef .tc main_v45_0)) (Wh (Proc.devRef .tc main_v54)) (We (Proc.devRef .tc main_v44)) (Wf (Proc.devRef .tc main_v45_1)) (Wf (Proc.devRef .tc main_v45_2))
    (Wg (Proc.devRef .tc main_v47)) (Wg (Proc.devRef .tc main_v51)) (Wg (Proc.devRef .tc main_v52)) (Wg (Proc.devRef .tc main_v53))
    r0
    (fun e f => by rw [e_g]; exact gather_rows' _ _ e f)
    kN r1
    (fun n f => by
      rw [e_a]
      exact (scatter_rows _ _ _ n f).trans (by rw [zeros_apply, zero_add]))
    (fun f => by rw [e_b]; exact shapeCast_a_1a_apply _ _ 0 f)
    r2a r2b r2c
    (fun f => by rw [e_m]; exact meanRow_apply _ _)
    (fun f => by rw [e_v, e_m]; exact varRow_apply _ _ _)
    (fun f => by rw [e_s]; exact shapeCast_a_1a_apply _ _ 0 f)
    (fun f => by rw [e_t]; exact shapeCast_a_1a_apply _ _ 0 f)
    (fun n f => by rw [← e_h]; exact r3 n f)

theorem layer1_walk (Wa Wb Wc Wd We Wf Wg Wh : Valuation τ sig (Elt Ideal))
    (S T : IVec S1100000 32) (nrm : Fin Ee → EReal) (B G BE : FVec Ideal S64 .f32)
    (hc : Wc = StableHlo.after hostOps5 Wb) (he : We = StableHlo.after hostOps6 Wd) (hg : Wg = StableHlo.after hostOps7 Wf)
    (kS : (Wb (Proc.devRef .tc main_v3)) = S) (kT : (Wd (Proc.devRef .tc main_v6)) = T)
    (kN : ∀ e, toMat (r := 1100000) (c := 1) (Wc (Proc.devRef .tc main_v30)) e 0 = nrm e)
    (kB : (Wd (Proc.devRef .tc main_arg8)) = B) (kG : (Wf (Proc.devRef .tc main_arg9)) = G) (kBE : (Wf (Proc.devRef .tc main_arg10)) = BE)
    (r0 : ∀ n o, toMat (r := 100000) (c := 64) (Wb (Proc.devRef .tc main_v55)) n o = ∑ k : Fin 64, toMat (r := 100000) (c := 64) (Wa (Proc.devRef .tc main_v54)) n k * toMat (r := 64) (c := 64) (Wa (Proc.devRef .tc main_arg7)) o k)
    (r1 : ∀ e f, toMat (r := 1100000) (c := 64) (Wd (Proc.devRef .tc main_v63)) e f = toMat (r := 1100000) (c := 64) (Wc (Proc.devRef .tc main_v62)) e f * toMat (r := 1100000) (c := 1) (Wc (Proc.devRef .tc main_v30)) e 0)
    (r2a : ∀ n f, toMat (r := 100000) (c := 64) (Wf (Proc.devRef .tc main_v68_0)) n f = max (toMat (r := 100000) (c := 64) (We (Proc.devRef .tc main_v66)) n f + toMat (r := 1) (c := 64) (We (Proc.devRef .tc main_v67)) 0 f) 0)
    (r2b : ∀ f, toMat (r := 1) (c := 64) (Wf (Proc.devRef .tc main_v68_1)) 0 f = ∑ n : Fin 100000, toMat (r := 100000) (c := 64) (Wf (Proc.devRef .tc main_v68_0)) n f)
    (r2c : ∀ f, toMat (r := 1) (c := 64) (Wf (Proc.devRef .tc main_v68_2)) 0 f = ∑ n : Fin 100000, toMat (r := 100000) (c := 64) (Wf (Proc.devRef .tc main_v68_0)) n f * toMat (r := 100000) (c := 64) (Wf (Proc.devRef .tc main_v68_0)) n f)
    (r3 : ∀ n f, toMat (r := 100000) (c := 64) (Wh (Proc.devRef .tc main_v77)) n f
        = toMat (r := 1) (c := 64) (Wg (Proc.devRef .tc main_v75)) 0 f * (toMat (r := 100000) (c := 64) (Wg (Proc.devRef .tc main_v68_0)) n f - toMat (r := 1) (c := 64) (Wg (Proc.devRef .tc main_v70)) 0 f)
            * Ideal.rsqrt (toMat (r := 1) (c := 64) (Wg (Proc.devRef .tc main_v74)) 0 f + Cert.Spec.eps) + toMat (r := 1) (c := 64) (Wg (Proc.devRef .tc main_v76)) 0 f) :
    toMat (r := 100000) (c := 64) (Wh (Proc.devRef .tc main_v77))
      = Cert.Spec.layerM (selOf (r := Nn) (by decide) (gidxOf S)) (tgtOf (r := Nn) (sidxOf T)) nrm
          (toMat (r := 100000) (c := 64) (Wa (Proc.devRef .tc main_v54))) (toMat (r := 64) (c := 64) (Wa (Proc.devRef .tc main_arg7))) (toVec B) (toVec G) (toVec BE) := by
  have e_g : (Wc (Proc.devRef .tc main_v62)) = Host.gather gather_S100000x64_S1100000x1_S1100000x64_1_0_n_n_0_1_164 (Wb (Proc.devRef .tc main_v55)) (gidxOf S) := by
    rw [hc, host5_rows, kS]; rfl
  have e_a : (We (Proc.devRef .tc main_v66)) = Host.scatterAdd (F := Ideal) scatter_S100000x64_S1100000x1_S1100000x64_1_0_0_1 zeros (sidxOf T) (Wd (Proc.devRef .tc main_v63)) := by
    rw [he, host6_agg, kT]; rfl
  have e_b : (We (Proc.devRef .tc main_v67)) = shapeCast S1x64 B shapeCasts_S64_S1x64 := by rw [he, host6_bias, kB]
  have e_m : (Wg (Proc.devRef .tc main_v70)) = meanRow (Wf (Proc.devRef .tc main_v68_1)) := by rw [hg, host7_mean]; rfl
  have e_v : (Wg (Proc.devRef .tc main_v74)) = varRow (Wf (Proc.devRef .tc main_v68_1)) (Wf (Proc.devRef .tc main_v68_2)) := by rw [hg, host7_var]; rfl
  have e_s : (Wg (Proc.devRef .tc main_v75)) = shapeCast S1x64 G shapeCasts_S64_S1x64 := by rw [hg, host7_scale, kG]
  have e_t : (Wg (Proc.devRef .tc main_v76)) = shapeCast S1x64 BE shapeCasts_S64_S1x64 := by rw [hg, host7_shift, kBE]
  have e_h : (Wg (Proc.devRef .tc main_v68_0)) = (Wf (Proc.devRef .tc main_v68_0)) := by rw [hg]; exact host7_keep _ _ (by decide)
  exact layer_spec (selOf (r := Nn) (by decide) (gidxOf S)) (tgtOf (r := Nn) (sidxOf T)) nrm (toVec B) (toVec G) (toVec BE)
    (Wa (Proc.devRef .tc main_v54)) (Wb (Proc.devRef .tc main_v55)) (Wa (Proc.devRef .tc main_arg7)) (Wc (Proc.devRef .tc main_v62)) (Wd (Proc.devRef .tc main_v63)) (Wc (Proc.devRef .tc main_v30))
    (We (Proc.devRef .tc main_v66)) (Wf (Proc.devRef .tc main_v68_0)) (Wh (Proc.devRef .tc main_v77)) (We (Proc.devRef .tc main_v67)) (Wf (Proc.devRef .tc main_v68_1)) (Wf (Proc.devRef .tc main_v68_2))
    (Wg (Proc.devRef .tc main_v70)) (Wg (Proc.devRef .tc main_v74)) (Wg (Proc.devRef .tc main_v75)) (Wg (Proc.devRef .tc main_v76))
    r0
    (fun e f => by rw [e_g]; exact gather_rows' _ _ e f)
    kN r1
    (fun n f => by
      rw [e_a]
      exact (scatter_rows _ _ _ n f).trans (by rw [zeros_apply, zero_add]))
    (fun f => by rw [e_b]; exact shapeCast_a_1a_apply _ _ 0 f)
    r2a r2b r2c
    (fun f => by rw [e_m]; exact meanRow_apply _ _)
    (fun f => by rw [e_v, e_m]; exact varRow_apply _ _ _)
    (fun f => by rw [e_s]; exact shapeCast_a_1a_apply _ _ 0 f)
    (fun f => by rw [e_t]; exact shapeCast_a_1a_apply _ _ 0 f)
    (fun n f => by rw [← e_h]; exact r3 n f)

theorem layer2_walk (Wa Wb Wc Wd We Wf Wg Wh : Valuation τ sig (Elt Ideal))
    (S T : IVec S1100000 32) (nrm : Fin Ee → EReal) (B G BE : FVec Ideal S64 .f32)
    (hc : Wc = StableHlo.after hostOps9 Wb) (he : We = StableHlo.after hostOps10 Wd) (hg : Wg = StableHlo.after hostOps11 Wf)
    (kS : (Wb (Proc.devRef .tc main_v3)) = S) (kT : (Wd (Proc.devRef .tc main_v6)) = T)
    (kN : ∀ e, toMat (r := 1100000) (c := 1) (Wc (Proc.devRef .tc main_v30)) e 0 = nrm e)
    (kB : (Wd (Proc.devRef .tc main_arg12)) = B) (kG : (Wf (Proc.devRef .tc main_arg13)) = G) (kBE : (Wf (Proc.devRef .tc main_arg14)) = BE)
    (r0 : ∀ n o, toMat (r := 100000) (c := 64) (Wb (Proc.devRef .tc main_v78)) n o = ∑ k : Fin 64, toMat (r := 100000) (c := 64) (Wa (Proc.devRef .tc main_v77)) n k * toMat (r := 64) (c := 64) (Wa (Proc.devRef .tc main_arg11)) o k)
    (r1 : ∀ e f, toMat (r := 1100000) (c := 64) (Wd (Proc.devRef .tc main_v86)) e f = toMat (r := 1100000) (c := 64) (Wc (Proc.devRef .tc main_v85)) e f * toMat (r := 1100000) (c := 1) (Wc (Proc.devRef .tc main_v30)) e 0)
    (r2a : ∀ n f, toMat (r := 100000) (c := 64) (Wf (Proc.devRef .tc main_v91_0)) n f = max (toMat (r := 100000) (c := 64) (We (Proc.devRef .tc main_v89)) n f + toMat (r := 1) (c := 64) (We (Proc.devRef .tc main_v90)) 0 f) 0)
    (r2b : ∀ f, toMat (r := 1) (c := 64) (Wf (Proc.devRef .tc main_v91_1)) 0 f = ∑ n : Fin 100000, toMat (r := 100000) (c := 64) (Wf (Proc.devRef .tc main_v91_0)) n f)
    (r2c : ∀ f, toMat (r := 1) (c := 64) (Wf (Proc.devRef .tc main_v91_2)) 0 f = ∑ n : Fin 100000, toMat (r := 100000) (c := 64) (Wf (Proc.devRef .tc main_v91_0)) n f * toMat (r := 100000) (c := 64) (Wf (Proc.devRef .tc main_v91_0)) n f)
    (r3 : ∀ n f, toMat (r := 100000) (c := 64) (Wh (Proc.devRef .tc main_v100)) n f
        = toMat (r := 1) (c := 64) (Wg (Proc.devRef .tc main_v98)) 0 f * (toMat (r := 100000) (c := 64) (Wg (Proc.devRef .tc main_v91_0)) n f - toMat (r := 1) (c := 64) (Wg (Proc.devRef .tc main_v93)) 0 f)
            * Ideal.rsqrt (toMat (r := 1) (c := 64) (Wg (Proc.devRef .tc main_v97)) 0 f + Cert.Spec.eps) + toMat (r := 1) (c := 64) (Wg (Proc.devRef .tc main_v99)) 0 f) :
    toMat (r := 100000) (c := 64) (Wh (Proc.devRef .tc main_v100))
      = Cert.Spec.layerM (selOf (r := Nn) (by decide) (gidxOf S)) (tgtOf (r := Nn) (sidxOf T)) nrm
          (toMat (r := 100000) (c := 64) (Wa (Proc.devRef .tc main_v77))) (toMat (r := 64) (c := 64) (Wa (Proc.devRef .tc main_arg11))) (toVec B) (toVec G) (toVec BE) := by
  have e_g : (Wc (Proc.devRef .tc main_v85)) = Host.gather gather_S100000x64_S1100000x1_S1100000x64_1_0_n_n_0_1_164 (Wb (Proc.devRef .tc main_v78)) (gidxOf S) := by
    rw [hc, host9_rows, kS]; rfl
  have e_a : (We (Proc.devRef .tc main_v89)) = Host.scatterAdd (F := Ideal) scatter_S100000x64_S1100000x1_S1100000x64_1_0_0_1 zeros (sidxOf T) (Wd (Proc.devRef .tc main_v86)) := by
    rw [he, host10_agg, kT]; rfl
  have e_b : (We (Proc.devRef .tc main_v90)) = shapeCast S1x64 B shapeCasts_S64_S1x64 := by rw [he, host10_bias, kB]
  have e_m : (Wg (Proc.devRef .tc main_v93)) = meanRow (Wf (Proc.devRef .tc main_v91_1)) := by rw [hg, host11_mean]; rfl
  have e_v : (Wg (Proc.devRef .tc main_v97)) = varRow (Wf (Proc.devRef .tc main_v91_1)) (Wf (Proc.devRef .tc main_v91_2)) := by rw [hg, host11_var]; rfl
  have e_s : (Wg (Proc.devRef .tc main_v98)) = shapeCast S1x64 G shapeCasts_S64_S1x64 := by rw [hg, host11_scale, kG]
  have e_t : (Wg (Proc.devRef .tc main_v99)) = shapeCast S1x64 BE shapeCasts_S64_S1x64 := by rw [hg, host11_shift, kBE]
  have e_h : (Wg (Proc.devRef .tc main_v91_0)) = (Wf (Proc.devRef .tc main_v91_0)) := by rw [hg]; exact host11_keep _ _ (by decide)
  exact layer_spec (selOf (r := Nn) (by decide) (gidxOf S)) (tgtOf (r := Nn) (sidxOf T)) nrm (toVec B) (toVec G) (toVec BE)
    (Wa (Proc.devRef .tc main_v77)) (Wb (Proc.devRef .tc main_v78)) (Wa (Proc.devRef .tc main_arg11)) (Wc (Proc.devRef .tc main_v85)) (Wd (Proc.devRef .tc main_v86)) (Wc (Proc.devRef .tc main_v30))
    (We (Proc.devRef .tc main_v89)) (Wf (Proc.devRef .tc main_v91_0)) (Wh (Proc.devRef .tc main_v100)) (We (Proc.devRef .tc main_v90)) (Wf (Proc.devRef .tc main_v91_1)) (Wf (Proc.devRef .tc main_v91_2))
    (Wg (Proc.devRef .tc main_v93)) (Wg (Proc.devRef .tc main_v97)) (Wg (Proc.devRef .tc main_v98)) (Wg (Proc.devRef .tc main_v99))
    r0
    (fun e f => by rw [e_g]; exact gather_rows' _ _ e f)
    kN r1
    (fun n f => by
      rw [e_a]
      exact (scatter_rows _ _ _ n f).trans (by rw [zeros_apply, zero_add]))
    (fun f => by rw [e_b]; exact shapeCast_a_1a_apply _ _ 0 f)
    r2a r2b r2c
    (fun f => by rw [e_m]; exact meanRow_apply _ _)
    (fun f => by rw [e_v, e_m]; exact varRow_apply _ _ _)
    (fun f => by rw [e_s]; exact shapeCast_a_1a_apply _ _ 0 f)
    (fun f => by rw [e_t]; exact shapeCast_a_1a_apply _ _ 0 f)
    (fun n f => by rw [← e_h]; exact r3 n f)

def wr : ℕ → List (Ref sig .tc)
  | 1 => hostOps0_W | 2 => hostOps0_1_W | 3 => hostOps0_2_W
  | 4 => [main_v32] | 5 => hostOps1_W | 6 => [main_v40] | 7 => hostOps2_W
  | 8 => [main_v45_0, main_v45_1, main_v45_2] | 9 => hostOps3_W | 10 => [main_v54]
  | 11 => [main_v55] | 12 => hostOps5_W | 13 => [main_v63] | 14 => hostOps6_W
  | 15 => [main_v68_0, main_v68_1, main_v68_2] | 16 => hostOps7_W | 17 => [main_v77]
  | 18 => [main_v78] | 19 => hostOps9_W | 20 => [main_v86] | 21 => hostOps10_W
  | 22 => [main_v91_0, main_v91_1, main_v91_2] | 23 => hostOps11_W | 24 => [main_v100]
  | 25 => [main_v101] | 26 => [main_v102] | 27 => [main_v103] | 28 => hostOps15_W
  | _ => []

theorem keep_range (Ws : ℕ → Valuation τ sig (Elt Ideal))
    (hkeep : ∀ J r, r ∉ wr (J + 1) → Ws (J + 1) (Proc.devRef .tc r) = Ws J (Proc.devRef .tc r))
    (r : Ref sig .tc) (a : ℕ) :
    ∀ d : ℕ, (∀ J, J < a + d + 1 → a < J → r ∉ wr J) → Ws (a + d) (Proc.devRef .tc r) = Ws a (Proc.devRef .tc r)
  | 0, _ => rfl
  | d + 1, h => (hkeep (a + d) r (h (a + d + 1) (by omega) (by omega))).trans
      (keep_range Ws hkeep r a d fun J h1 h2 => h J (by omega) h2)

def cat3 (a b c : FVec Ideal S512x64 .f32) : FVec Ideal S512x192 .f32 :=
  concatenate S512x192 1 [⟨S512x64, a⟩, ⟨S512x64, b⟩, ⟨S512x64, c⟩] concatenates_S512x64_S512x64_S512x64_S512x192_d1

theorem host15_cat (W : Valuation τ sig (Elt Ideal)) :
    StableHlo.after (hostOps15 (F := Ideal)) W (Proc.devRef .tc main_v104)
      = cat3 (W (Proc.devRef .tc main_v101)) (W (Proc.devRef .tc main_v102)) (W (Proc.devRef .tc main_v103)) := by
  simp only [StableHlo.after_cons, StableHlo.after_nil]
  rw [StableHlo.nary3_result]; rfl

structure FoldFacts (Ws : ℕ → Valuation τ sig (Elt Ideal)) (hot : IVec S100000x1 32 → Fin Nn → Fin Gg → EReal) : Prop where
  keep : ∀ J r, r ∉ wr (J + 1) → Ws (J + 1) (Proc.devRef .tc r) = Ws J (Proc.devRef .tc r)
  s3 : Ws 3 = StableHlo.after hostOps0_2 (Ws 2)
  s5 : Ws 5 = StableHlo.after hostOps1 (Ws 4)
  s7 : Ws 7 = StableHlo.after hostOps2 (Ws 6)
  s9 : Ws 9 = StableHlo.after hostOps3 (Ws 8)
  s12 : Ws 12 = StableHlo.after hostOps5 (Ws 11)
  s14 : Ws 14 = StableHlo.after hostOps6 (Ws 13)
  s16 : Ws 16 = StableHlo.after hostOps7 (Ws 15)
  s19 : Ws 19 = StableHlo.after hostOps9 (Ws 18)
  s21 : Ws 21 = StableHlo.after hostOps10 (Ws 20)
  s23 : Ws 23 = StableHlo.after hostOps11 (Ws 22)
  s28 : Ws 28 = StableHlo.after hostOps15 (Ws 27)
  lin0 : ∀ n o, toMat (r := 100000) (c := 64) ((Ws 4) (Proc.devRef .tc main_v32)) n o = ∑ k : Fin 64, toMat (r := 100000) (c := 64) ((Ws 3) (Proc.devRef .tc main_arg0)) n k * toMat (r := 64) (c := 64) ((Ws 3) (Proc.devRef .tc main_arg3)) o k
  scale0 : ∀ e f, toMat (r := 1100000) (c := 64) ((Ws 6) (Proc.devRef .tc main_v40)) e f = toMat (r := 1100000) (c := 64) ((Ws 5) (Proc.devRef .tc main_v39)) e f * toMat (r := 1100000) (c := 1) ((Ws 5) (Proc.devRef .tc main_v30)) e 0
  relu0 : ∀ n f, toMat (r := 100000) (c := 64) ((Ws 8) (Proc.devRef .tc main_v45_0)) n f = max (toMat (r := 100000) (c := 64) ((Ws 7) (Proc.devRef .tc main_v43)) n f + toMat (r := 1) (c := 64) ((Ws 7) (Proc.devRef .tc main_v44)) 0 f) 0
  sum0 : ∀ f, toMat (r := 1) (c := 64) ((Ws 8) (Proc.devRef .tc main_v45_1)) 0 f = ∑ n : Fin 100000, toMat (r := 100000) (c := 64) ((Ws 8) (Proc.devRef .tc main_v45_0)) n f
  sq0 : ∀ f, toMat (r := 1) (c := 64) ((Ws 8) (Proc.devRef .tc main_v45_2)) 0 f = ∑ n : Fin 100000, toMat (r := 100000) (c := 64) ((Ws 8) (Proc.devRef .tc main_v45_0)) n f * toMat (r := 100000) (c := 64) ((Ws 8) (Proc.devRef .tc main_v45_0)) n f
  bn0 : ∀ n f, toMat (r := 100000) (c := 64) ((Ws 10) (Proc.devRef .tc main_v54)) n f
      = toMat (r := 1) (c := 64) ((Ws 9) (Proc.devRef .tc main_v52)) 0 f * (toMat (r := 100000) (c := 64) ((Ws 9) (Proc.devRef .tc main_v45_0)) n f - toMat (r := 1) (c := 64) ((Ws 9) (Proc.devRef .tc main_v47)) 0 f)
          * Ideal.rsqrt (toMat (r := 1) (c := 64) ((Ws 9) (Proc.devRef .tc main_v51)) 0 f + Cert.Spec.eps) + toMat (r := 1) (c := 64) ((Ws 9) (Proc.devRef .tc main_v53)) 0 f
  lin1 : ∀ n o, toMat (r := 100000) (c := 64) ((Ws 11) (Proc.devRef .tc main_v55)) n o = ∑ k : Fin 64, toMat (r := 100000) (c := 64) ((Ws 10) (Proc.devRef .tc main_v54)) n k * toMat (r := 64) (c := 64) ((Ws 10) (Proc.devRef .tc main_arg7)) o k
  scale1 : ∀ e f, toMat (r := 1100000) (c := 64) ((Ws 13) (Proc.devRef .tc main_v63)) e f = toMat (r := 1100000) (c := 64) ((Ws 12) (Proc.devRef .tc main_v62)) e f * toMat (r := 1100000) (c := 1) ((Ws 12) (Proc.devRef .tc main_v30)) e 0
  relu1 : ∀ n f, toMat (r := 100000) (c := 64) ((Ws 15) (Proc.devRef .tc main_v68_0)) n f = max (toMat (r := 100000) (c := 64) ((Ws 14) (Proc.devRef .tc main_v66)) n f + toMat (r := 1) (c := 64) ((Ws 14) (Proc.devRef .tc main_v67)) 0 f) 0
  sum1 : ∀ f, toMat (r := 1) (c := 64) ((Ws 15) (Proc.devRef .tc main_v68_1)) 0 f = ∑ n : Fin 100000, toMat (r := 100000) (c := 64) ((Ws 15) (Proc.devRef .tc main_v68_0)) n f
  sq1 : ∀ f, toMat (r := 1) (c := 64) ((Ws 15) (Proc.devRef .tc main_v68_2)) 0 f = ∑ n : Fin 100000, toMat (r := 100000) (c := 64) ((Ws 15) (Proc.devRef .tc main_v68_0)) n f * toMat (r := 100000) (c := 64) ((Ws 15) (Proc.devRef .tc main_v68_0)) n f
  bn1 : ∀ n f, toMat (r := 100000) (c := 64) ((Ws 17) (Proc.devRef .tc main_v77)) n f
      = toMat (r := 1) (c := 64) ((Ws 16) (Proc.devRef .tc main_v75)) 0 f * (toMat (r := 100000) (c := 64) ((Ws 16) (Proc.devRef .tc main_v68_0)) n f - toMat (r := 1) (c := 64) ((Ws 16) (Proc.devRef .tc main_v70)) 0 f)
          * Ideal.rsqrt (toMat (r := 1) (c := 64) ((Ws 16) (Proc.devRef .tc main_v74)) 0 f + Cert.Spec.eps) + toMat (r := 1) (c := 64) ((Ws 16) (Proc.devRef .tc main_v76)) 0 f
  lin2 : ∀ n o, toMat (r := 100000) (c := 64) ((Ws 18) (Proc.devRef .tc main_v78)) n o = ∑ k : Fin 64, toMat (r := 100000) (c := 64) ((Ws 17) (Proc.devRef .tc main_v77)) n k * toMat (r := 64) (c := 64) ((Ws 17) (Proc.devRef .tc main_arg11)) o k
  scale2 : ∀ e f, toMat (r := 1100000) (c := 64) ((Ws 20) (Proc.devRef .tc main_v86)) e f = toMat (r := 1100000) (c := 64) ((Ws 19) (Proc.devRef .tc main_v85)) e f * toMat (r := 1100000) (c := 1) ((Ws 19) (Proc.devRef .tc main_v30)) e 0
  relu2 : ∀ n f, toMat (r := 100000) (c := 64) ((Ws 22) (Proc.devRef .tc main_v91_0)) n f = max (toMat (r := 100000) (c := 64) ((Ws 21) (Proc.devRef .tc main_v89)) n f + toMat (r := 1) (c := 64) ((Ws 21) (Proc.devRef .tc main_v90)) 0 f) 0
  sum2 : ∀ f, toMat (r := 1) (c := 64) ((Ws 22) (Proc.devRef .tc main_v91_1)) 0 f = ∑ n : Fin 100000, toMat (r := 100000) (c := 64) ((Ws 22) (Proc.devRef .tc main_v91_0)) n f
  sq2 : ∀ f, toMat (r := 1) (c := 64) ((Ws 22) (Proc.devRef .tc main_v91_2)) 0 f = ∑ n : Fin 100000, toMat (r := 100000) (c := 64) ((Ws 22) (Proc.devRef .tc main_v91_0)) n f * toMat (r := 100000) (c := 64) ((Ws 22) (Proc.devRef .tc main_v91_0)) n f
  bn2 : ∀ n f, toMat (r := 100000) (c := 64) ((Ws 24) (Proc.devRef .tc main_v100)) n f
      = toMat (r := 1) (c := 64) ((Ws 23) (Proc.devRef .tc main_v98)) 0 f * (toMat (r := 100000) (c := 64) ((Ws 23) (Proc.devRef .tc main_v91_0)) n f - toMat (r := 1) (c := 64) ((Ws 23) (Proc.devRef .tc main_v93)) 0 f)
          * Ideal.rsqrt (toMat (r := 1) (c := 64) ((Ws 23) (Proc.devRef .tc main_v97)) 0 f + Cert.Spec.eps) + toMat (r := 1) (c := 64) ((Ws 23) (Proc.devRef .tc main_v99)) 0 f
  pool0 : ∀ q f, toMat (r := 512) (c := 64) ((Ws 25) (Proc.devRef .tc main_v101)) q f = ∑ n : Fin 100000, hot ((Ws 24) (Proc.devRef .tc main_v31)) n q * toMat (r := 100000) (c := 64) ((Ws 24) (Proc.devRef .tc main_v54)) n f
  pool1 : ∀ q f, toMat (r := 512) (c := 64) ((Ws 26) (Proc.devRef .tc main_v102)) q f = ∑ n : Fin 100000, hot ((Ws 25) (Proc.devRef .tc main_v31)) n q * toMat (r := 100000) (c := 64) ((Ws 25) (Proc.devRef .tc main_v77)) n f
  pool2 : ∀ q f, toMat (r := 512) (c := 64) ((Ws 27) (Proc.devRef .tc main_v103)) q f = ∑ n : Fin 100000, hot ((Ws 26) (Proc.devRef .tc main_v31)) n q * toMat (r := 100000) (c := 64) ((Ws 26) (Proc.devRef .tc main_v100)) n f
  hot_eq : ∀ bt n q, hot bt n q = if bt (ix2 n 0) = BitVec.ofNat 32 q.val then 1 else 0

section Net

variable (Ws : ℕ → Valuation τ sig (Elt Ideal))

def selK : Fin Ee → Fin Nn := selOf (r := Nn) (by decide) (gidxOf ((Ws 3) (Proc.devRef .tc main_v3)))

def tgtK : Fin Ee → Option (Fin Nn) := tgtOf (r := Nn) (sidxOf ((Ws 3) (Proc.devRef .tc main_v6)))

def segK : Fin Nn → Option (Fin Gg) := tgtOf (r := Gg) (bidxOf ((Ws 0) (Proc.devRef .tc main_arg2)))

def nrmK : Fin Ee → EReal := fun e => toVec (c := 1100000) ((Ws 3) (Proc.devRef .tc main_v29)) e

def h1K : Cert.Spec.Mat Nn 64 :=
  Cert.Spec.layerM (selK Ws) (tgtK Ws) (nrmK Ws) (toMat (r := 100000) (c := 64) ((Ws 0) (Proc.devRef .tc main_arg0))) (toMat (r := 64) (c := 64) ((Ws 0) (Proc.devRef .tc main_arg3)))
    (toVec (c := 64) ((Ws 0) (Proc.devRef .tc main_arg4))) (toVec (c := 64) ((Ws 0) (Proc.devRef .tc main_arg5))) (toVec (c := 64) ((Ws 0) (Proc.devRef .tc main_arg6)))

def h2K : Cert.Spec.Mat Nn 64 :=
  Cert.Spec.layerM (selK Ws) (tgtK Ws) (nrmK Ws) (h1K Ws) (toMat (r := 64) (c := 64) ((Ws 0) (Proc.devRef .tc main_arg7)))
    (toVec (c := 64) ((Ws 0) (Proc.devRef .tc main_arg8))) (toVec (c := 64) ((Ws 0) (Proc.devRef .tc main_arg9))) (toVec (c := 64) ((Ws 0) (Proc.devRef .tc main_arg10)))

def h3K : Cert.Spec.Mat Nn 64 :=
  Cert.Spec.layerM (selK Ws) (tgtK Ws) (nrmK Ws) (h2K Ws) (toMat (r := 64) (c := 64) ((Ws 0) (Proc.devRef .tc main_arg11)))
    (toVec (c := 64) ((Ws 0) (Proc.devRef .tc main_arg12))) (toVec (c := 64) ((Ws 0) (Proc.devRef .tc main_arg13))) (toVec (c := 64) ((Ws 0) (Proc.devRef .tc main_arg14)))

theorem netK_eq : (h1K Ws, h2K Ws, h3K Ws)
    = Cert.Spec.netM (selK Ws) (tgtK Ws) (nrmK Ws) (toMat (r := 100000) (c := 64) ((Ws 0) (Proc.devRef .tc main_arg0)))
        (toMat (r := 64) (c := 64) ((Ws 0) (Proc.devRef .tc main_arg3))) (toVec (c := 64) ((Ws 0) (Proc.devRef .tc main_arg4))) (toVec (c := 64) ((Ws 0) (Proc.devRef .tc main_arg5))) (toVec (c := 64) ((Ws 0) (Proc.devRef .tc main_arg6)))
        (toMat (r := 64) (c := 64) ((Ws 0) (Proc.devRef .tc main_arg7))) (toVec (c := 64) ((Ws 0) (Proc.devRef .tc main_arg8))) (toVec (c := 64) ((Ws 0) (Proc.devRef .tc main_arg9))) (toVec (c := 64) ((Ws 0) (Proc.devRef .tc main_arg10)))
        (toMat (r := 64) (c := 64) ((Ws 0) (Proc.devRef .tc main_arg11))) (toVec (c := 64) ((Ws 0) (Proc.devRef .tc main_arg12))) (toVec (c := 64) ((Ws 0) (Proc.devRef .tc main_arg13))) (toVec (c := 64) ((Ws 0) (Proc.devRef .tc main_arg14))) := rfl

end Net

theorem kernel_results_of (Ws : ℕ → Valuation τ sig (Elt Ideal)) (hot : IVec S100000x1 32 → Fin Nn → Fin Gg → EReal)
    (H : FoldFacts Ws hot) :
    toMat (r := 100000) (c := 64) ((Ws 28) (Proc.devRef .tc main_v100)) = h3K Ws ∧
    ((Ws 28) (Proc.devRef .tc main_v104))
      = cat3 ((Ws 25) (Proc.devRef .tc main_v101)) ((Ws 26) (Proc.devRef .tc main_v102)) ((Ws 27) (Proc.devRef .tc main_v103)) ∧
    toMat (r := 512) (c := 64) ((Ws 25) (Proc.devRef .tc main_v101)) = Cert.Spec.poolHot (segK Ws) (h1K Ws) ∧
    toMat (r := 512) (c := 64) ((Ws 26) (Proc.devRef .tc main_v102)) = Cert.Spec.poolHot (segK Ws) (h2K Ws) ∧
    toMat (r := 512) (c := 64) ((Ws 27) (Proc.devRef .tc main_v103)) = Cert.Spec.poolHot (segK Ws) (h3K Ws) := by
  have k3_4 : ((Ws 4) (Proc.devRef .tc main_v3)) = ((Ws 3) (Proc.devRef .tc main_v3)) := keep_range Ws H.keep main_v3 3 1 (by decide)
  have k3_11 : ((Ws 11) (Proc.devRef .tc main_v3)) = ((Ws 3) (Proc.devRef .tc main_v3)) := keep_range Ws H.keep main_v3 3 8 (by decide)
  have k3_18 : ((Ws 18) (Proc.devRef .tc main_v3)) = ((Ws 3) (Proc.devRef .tc main_v3)) := keep_range Ws H.keep main_v3 3 15 (by decide)
  have k6_6 : ((Ws 6) (Proc.devRef .tc main_v6)) = ((Ws 3) (Proc.devRef .tc main_v6)) := keep_range Ws H.keep main_v6 3 3 (by decide)
  have k6_13 : ((Ws 13) (Proc.devRef .tc main_v6)) = ((Ws 3) (Proc.devRef .tc main_v6)) := keep_range Ws H.keep main_v6 3 10 (by decide)
  have k6_20 : ((Ws 20) (Proc.devRef .tc main_v6)) = ((Ws 3) (Proc.devRef .tc main_v6)) := keep_range Ws H.keep main_v6 3 17 (by decide)
  have k30_5 : ((Ws 5) (Proc.devRef .tc main_v30)) = ((Ws 3) (Proc.devRef .tc main_v30)) := keep_range Ws H.keep main_v30 3 2 (by decide)
  have k30_12 : ((Ws 12) (Proc.devRef .tc main_v30)) = ((Ws 3) (Proc.devRef .tc main_v30)) := keep_range Ws H.keep main_v30 3 9 (by decide)
  have k30_19 : ((Ws 19) (Proc.devRef .tc main_v30)) = ((Ws 3) (Proc.devRef .tc main_v30)) := keep_range Ws H.keep main_v30 3 16 (by decide)
  have k31_24 : ((Ws 24) (Proc.devRef .tc main_v31)) = ((Ws 3) (Proc.devRef .tc main_v31)) := keep_range Ws H.keep main_v31 3 21 (by decide)
  have k31_25 : ((Ws 25) (Proc.devRef .tc main_v31)) = ((Ws 3) (Proc.devRef .tc main_v31)) := keep_range Ws H.keep main_v31 3 22 (by decide)
  have k31_26 : ((Ws 26) (Proc.devRef .tc main_v31)) = ((Ws 3) (Proc.devRef .tc main_v31)) := keep_range Ws H.keep main_v31 3 23 (by decide)
  have ka0 : ((Ws 3) (Proc.devRef .tc main_arg0)) = ((Ws 0) (Proc.devRef .tc main_arg0)) := keep_range Ws H.keep main_arg0 0 3 (by decide)
  have ka2 : ((Ws 2) (Proc.devRef .tc main_arg2)) = ((Ws 0) (Proc.devRef .tc main_arg2)) := keep_range Ws H.keep main_arg2 0 2 (by decide)
  have ka3 : ((Ws 3) (Proc.devRef .tc main_arg3)) = ((Ws 0) (Proc.devRef .tc main_arg3)) := keep_range Ws H.keep main_arg3 0 3 (by decide)
  have ka4 : ((Ws 6) (Proc.devRef .tc main_arg4)) = ((Ws 0) (Proc.devRef .tc main_arg4)) := keep_range Ws H.keep main_arg4 0 6 (by decide)
  have ka5 : ((Ws 8) (Proc.devRef .tc main_arg5)) = ((Ws 0) (Proc.devRef .tc main_arg5)) := keep_range Ws H.keep main_arg5 0 8 (by decide)
  have ka6 : ((Ws 8) (Proc.devRef .tc main_arg6)) = ((Ws 0) (Proc.devRef .tc main_arg6)) := keep_range Ws H.keep main_arg6 0 8 (by decide)
  have ka7 : ((Ws 10) (Proc.devRef .tc main_arg7)) = ((Ws 0) (Proc.devRef .tc main_arg7)) := keep_range Ws H.keep main_arg7 0 10 (by decide)
  have ka8 : ((Ws 13) (Proc.devRef .tc main_arg8)) = ((Ws 0) (Proc.devRef .tc main_arg8)) := keep_range Ws H.keep main_arg8 0 13 (by decide)
  have ka9 : ((Ws 15) (Proc.devRef .tc main_arg9)) = ((Ws 0) (Proc.devRef .tc main_arg9)) := keep_range Ws H.keep main_arg9 0 15 (by decide)
  have ka10 : ((Ws 15) (Proc.devRef .tc main_arg10)) = ((Ws 0) (Proc.devRef .tc main_arg10)) := keep_range Ws H.keep main_arg10 0 15 (by decide)
  have ka11 : ((Ws 17) (Proc.devRef .tc main_arg11)) = ((Ws 0) (Proc.devRef .tc main_arg11)) := keep_range Ws H.keep main_arg11 0 17 (by decide)
  have ka12 : ((Ws 20) (Proc.devRef .tc main_arg12)) = ((Ws 0) (Proc.devRef .tc main_arg12)) := keep_range Ws H.keep main_arg12 0 20 (by decide)
  have ka13 : ((Ws 22) (Proc.devRef .tc main_arg13)) = ((Ws 0) (Proc.devRef .tc main_arg13)) := keep_range Ws H.keep main_arg13 0 22 (by decide)
  have ka14 : ((Ws 22) (Proc.devRef .tc main_arg14)) = ((Ws 0) (Proc.devRef .tc main_arg14)) := keep_range Ws H.keep main_arg14 0 22 (by decide)
  have k54_24 : ((Ws 24) (Proc.devRef .tc main_v54)) = ((Ws 10) (Proc.devRef .tc main_v54)) := keep_range Ws H.keep main_v54 10 14 (by decide)
  have k77_25 : ((Ws 25) (Proc.devRef .tc main_v77)) = ((Ws 17) (Proc.devRef .tc main_v77)) := keep_range Ws H.keep main_v77 17 8 (by decide)
  have k100_26 : ((Ws 26) (Proc.devRef .tc main_v100)) = ((Ws 24) (Proc.devRef .tc main_v100)) := keep_range Ws H.keep main_v100 24 2 (by decide)
  have k100_28 : ((Ws 28) (Proc.devRef .tc main_v100)) = ((Ws 24) (Proc.devRef .tc main_v100)) := keep_range Ws H.keep main_v100 24 4 (by decide)
  have k101_27 : ((Ws 27) (Proc.devRef .tc main_v101)) = ((Ws 25) (Proc.devRef .tc main_v101)) := keep_range Ws H.keep main_v101 25 2 (by decide)
  have k102_27 : ((Ws 27) (Proc.devRef .tc main_v102)) = ((Ws 26) (Proc.devRef .tc main_v102)) := keep_range Ws H.keep main_v102 26 1 (by decide)
  have e30 : ∀ e, toMat (r := 1100000) (c := 1) ((Ws 3) (Proc.devRef .tc main_v30)) e 0 = nrmK Ws e := fun e => by
    have h : ((Ws 3) (Proc.devRef .tc main_v30)) = shapeCast S1100000x1 ((Ws 3) (Proc.devRef .tc main_v29)) shapeCasts_S1100000_S1100000x1 := by
      rw [H.s3, host0_2_weights_col, host0_2_weights]
    rw [h]; exact shapeCast_a_a1_apply _ _ e 0
  have e31 : ((Ws 3) (Proc.devRef .tc main_v31)) = bidxOf ((Ws 0) (Proc.devRef .tc main_arg2)) := by
    rw [H.s3, host0_2_norm_col, ka2]; exact Cert.EdgeIdx.shapeCast_eq_bidxOf _ _
  have L0 : toMat (r := 100000) (c := 64) ((Ws 10) (Proc.devRef .tc main_v54)) = h1K Ws := by
    have h := layer0_walk (Ws 3) (Ws 4) (Ws 5) (Ws 6) (Ws 7) (Ws 8) (Ws 9) (Ws 10) ((Ws 3) (Proc.devRef .tc main_v3)) ((Ws 3) (Proc.devRef .tc main_v6)) (nrmK Ws)
      ((Ws 0) (Proc.devRef .tc main_arg4)) ((Ws 0) (Proc.devRef .tc main_arg5)) ((Ws 0) (Proc.devRef .tc main_arg6))
      H.s5 H.s7 H.s9 k3_4 k6_6 (fun e => by rw [k30_5]; exact e30 e) ka4 ka5 ka6
      H.lin0 H.scale0 H.relu0 H.sum0 H.sq0 H.bn0
    rw [ka0, ka3] at h; exact h
  have L1 : toMat (r := 100000) (c := 64) ((Ws 17) (Proc.devRef .tc main_v77)) = h2K Ws := by
    have h := layer1_walk (Ws 10) (Ws 11) (Ws 12) (Ws 13) (Ws 14) (Ws 15) (Ws 16) (Ws 17) ((Ws 3) (Proc.devRef .tc main_v3)) ((Ws 3) (Proc.devRef .tc main_v6)) (nrmK Ws)
      ((Ws 0) (Proc.devRef .tc main_arg8)) ((Ws 0) (Proc.devRef .tc main_arg9)) ((Ws 0) (Proc.devRef .tc main_arg10))
      H.s12 H.s14 H.s16 k3_11 k6_13 (fun e => by rw [k30_12]; exact e30 e) ka8 ka9 ka10
      H.lin1 H.scale1 H.relu1 H.sum1 H.sq1 H.bn1
    rw [L0, ka7] at h; exact h
  have L2 : toMat (r := 100000) (c := 64) ((Ws 24) (Proc.devRef .tc main_v100)) = h3K Ws := by
    have h := layer2_walk (Ws 17) (Ws 18) (Ws 19) (Ws 20) (Ws 21) (Ws 22) (Ws 23) (Ws 24) ((Ws 3) (Proc.devRef .tc main_v3)) ((Ws 3) (Proc.devRef .tc main_v6)) (nrmK Ws)
      ((Ws 0) (Proc.devRef .tc main_arg12)) ((Ws 0) (Proc.devRef .tc main_arg13)) ((Ws 0) (Proc.devRef .tc main_arg14))
      H.s19 H.s21 H.s23 k3_18 k6_20 (fun e => by rw [k30_19]; exact e30 e) ka12 ka13 ka14
      H.lin2 H.scale2 H.relu2 H.sum2 H.sq2 H.bn2
    rw [L1, ka11] at h; exact h
  have hhot : ∀ bt : IVec S100000x1 32, bt = bidxOf ((Ws 0) (Proc.devRef .tc main_arg2)) →
      ∀ n q, hot bt n q = if segK Ws n = some q then 1 else 0 := by
    rintro _ rfl n q
    rw [H.hot_eq]
    by_cases hq : segK Ws n = some q
    · rw [if_pos hq, if_pos ((Cert.HostIdx.tgtOf_eq_some_iff (by decide) _ n q).mp hq)]
    · rw [if_neg hq, if_neg (fun hb => hq ((Cert.HostIdx.tgtOf_eq_some_iff (by decide) _ n q).mpr hb))]
  have P0 : toMat (r := 512) (c := 64) ((Ws 25) (Proc.devRef .tc main_v101)) = Cert.Spec.poolHot (segK Ws) (h1K Ws) := by
    rw [← L0, ← k54_24]
    exact pool_spec (segK Ws) ((Ws 24) (Proc.devRef .tc main_v54)) ((Ws 25) (Proc.devRef .tc main_v101)) (hot ((Ws 24) (Proc.devRef .tc main_v31)))
      (hhot _ (k31_24.trans e31)) H.pool0
  have P1 : toMat (r := 512) (c := 64) ((Ws 26) (Proc.devRef .tc main_v102)) = Cert.Spec.poolHot (segK Ws) (h2K Ws) := by
    rw [← L1, ← k77_25]
    exact pool_spec (segK Ws) ((Ws 25) (Proc.devRef .tc main_v77)) ((Ws 26) (Proc.devRef .tc main_v102)) (hot ((Ws 25) (Proc.devRef .tc main_v31)))
      (hhot _ (k31_25.trans e31)) H.pool1
  have P2 : toMat (r := 512) (c := 64) ((Ws 27) (Proc.devRef .tc main_v103)) = Cert.Spec.poolHot (segK Ws) (h3K Ws) := by
    rw [← L2, ← k100_26]
    exact pool_spec (segK Ws) ((Ws 26) (Proc.devRef .tc main_v100)) ((Ws 27) (Proc.devRef .tc main_v103)) (hot ((Ws 26) (Proc.devRef .tc main_v31)))
      (hhot _ (k31_26.trans e31)) H.pool2
  refine ⟨by rw [k100_28]; exact L2, ?_, P0, P1, P2⟩
  rw [H.s28, host15_cat, k101_27, k102_27]

end Cert.KernelIdeal.Hand
-- ==== Proof.Math.HostIdxProg.lean ====
import proofs.«424828_j6554120094214_2_alg».proof.KernelIdeal
import proofs.«424828_j6554120094214_2_alg».proof.ReferenceIdeal
import proofs.«424828_j6554120094214_2_alg».proof.Proof.Math.HostIdx

noncomputable section

open scoped BigOperators

namespace Cert.HostIdxProg

open Idealize.ShloMosaic Idealize.ShloMosaic.ValueIdx Cert.HostIdx

section Reference

variable [Cert.ReferenceIdeal.Facts₀]
open Cert.ReferenceIdeal Cert.ReferenceIdeal.Facts₀

theorem ref_gather_rows_apply {α : Type} {w : ℕ} (x : S100000x64.Idx → α) (idx : IVec S1100000x1 w)
    (e : Fin 1100000) (f : Fin 64) :
    Host.gather gather_S100000x64_S1100000x1_S1100000x64_1_0_n_n_0_1_164 x idx (ix2 e f)
      = x (ix2 (selOf (r := 100000) (by decide) idx e) f) :=
  gather_rows _ _ x idx e f

theorem ref_scatterAdd_rows_apply {φ : FTy} {w : ℕ} (x : FVec Ideal S100000x64 φ) (idx : IVec S1100000x1 w)
    (u : FVec Ideal S1100000x64 φ) (n : Fin 100000) (f : Fin 64) :
    Host.scatterAdd (F := Ideal) scatter_S100000x64_S1100000x1_S1100000x64_1_0_0_1 x idx u (ix2 n f)
      = x (ix2 n f) + ∑ e ∈ Finset.univ.filter (fun e => tgtOf (r := 100000) idx e = some n), u (ix2 e f) :=
  hostScatterAdd_rows _ x idx u n f

theorem ref_scatterAdd_pool_apply {φ : FTy} {w : ℕ} (x : FVec Ideal S512x64 φ) (idx : IVec S100000x1 w)
    (u : FVec Ideal S100000x64 φ) (q : Fin 512) (f : Fin 64) :
    Host.scatterAdd (F := Ideal) scatter_S512x64_S100000x1_S100000x64_1_0_0_1 x idx u (ix2 q f)
      = x (ix2 q f) + ∑ n ∈ Finset.univ.filter (fun n => tgtOf (r := 512) idx n = some q), u (ix2 n f) :=
  hostScatterAdd_rows _ x idx u q f

theorem ref_dot_transpose_apply {φ₁ φ₂ : FTy} (h : FVec Ideal S100000x64 φ₁) (W : FVec Ideal S64x64 φ₂)
    (n : Fin 100000) (o : Fin 64) :
    Host.dotGeneral (F := Ideal) dot_S100000x64_S64x64_S100000x64_1_0_0_1_n_n none h
        (transpose S64x64 [1, 0] W transposes_S64x64_S64x64_1_0) (ix2 n o)
      = ∑ q : Fin 64, h (ix2 n q) * W (ix2 o q) :=
  dotGeneral_transpose_apply _ none h W _ n o

theorem ref_reduceAdd_rows_apply {φ : FTy} (x : FVec Ideal S100000x64 φ) (v : S_.Idx → Ideal φ)
    (hu : 0 < S_.numel) (f : Fin 64) :
    Host.reduceAdd (F := Ideal) x v reducesTo_S100000x64_S64_d0 hu (ix1 f) = v ix0 + ∑ n : Fin 100000, x (ix2 n f) :=
  reduceAdd_rows _ x v hu f

end Reference

section Kernel

variable [Cert.KernelIdeal.Facts₀]
open Cert.KernelIdeal Cert.KernelIdeal.Facts₀

theorem ker_gather_vec_apply {α : Type} {w : ℕ} (x : S100000.Idx → α) (idx : IVec S1100000x1 w) (e : Fin 1100000) :
    Host.gather gather_S100000_S1100000x1_S1100000_n_0_n_n_0_1_1 x idx (ix1 e)
      = x (ix1 (selOf (r := 100000) (by decide) idx e)) :=
  gather_vec _ _ x idx e

theorem ker_scatterAdd_vec_apply {φ : FTy} {w : ℕ} (x : FVec Ideal S100000 φ) (idx : IVec S1100000x1 w)
    (u : FVec Ideal S1100000 φ) (n : Fin 100000) :
    Host.scatterAdd (F := Ideal) scatter_S100000_S1100000x1_S1100000_n_0_0_1 x idx u (ix1 n)
      = x (ix1 n) + ∑ e ∈ Finset.univ.filter (fun e => tgtOf (r := 100000) idx e = some n), u (ix1 e) :=
  hostScatterAdd_vec _ x idx u n

end Kernel

end Cert.HostIdxProg

end
-- ==== Proof.Math.NormFin.lean ====
import proofs.«424828_j6554120094214_2_alg».proof.Proof.Math.HostIdxProg
import proofs.«424828_j6554120094214_2_alg».proof.Proof.Math.EdgeIdx
import proofs.«424828_j6554120094214_2_alg».proof.Proof.Math.Layer
import Idealize.ShloMosaic.Lib.Pipeline.Value
import Idealize.ShloMosaic.PureOps.Ideal.Laws

noncomputable section

open scoped BigOperators

namespace Cert.NormFin

open Idealize.ShloMosaic Idealize.ShloMosaic.ValueIdx Cert.HostIdx Cert.EdgeIdx
open Cert.KernelIdeal Cert.KernelIdeal.Facts₀
variable [Cert.KernelIdeal.Facts₀]

def degT (t : IVec S1100000 32) : FVec Ideal S100000 .f32 :=
  Host.scatterAdd (F := Ideal) scatter_S100000_S1100000x1_S1100000_n_0_0_1
    (broadcastInDim S100000 ![] bcast_S_S100000 (constant (F := Ideal) S_ .f32 0x00000000#32))
    (sidxOf t)
    (broadcastInDim S1100000 ![] bcast_S_S1100000 (constant (F := Ideal) S_ .f32 0x3F800000#32))

def dinvT (t : IVec S1100000 32) : FVec Ideal S100000 .f32 :=
  select
    (cmpf (F := Ideal) .ogt (degT t)
      (broadcastInDim S100000 ![] bcast_S_S100000 (constant (F := Ideal) S_ .f32 0x00000000#32)))
    (Host.rsqrt (degT t))
    (broadcastInDim S100000 ![] bcast_S_S100000 (id (constant (F := Ideal) S_ .f32 0x00000000#32)))

def normT (s t : IVec S1100000 32) : FVec Ideal S1100000 .f32 :=
  mulf (Host.gather gather_S100000_S1100000x1_S1100000_n_0_n_n_0_1_1 (dinvT t) (gidxOf s))
    (Host.gather gather_S100000_S1100000x1_S1100000_n_0_n_n_0_1_1 (dinvT t) (gidxOf t))

theorem bcastScalar_apply {α : Type} {m : ℕ} (h : (⟨0, ![]⟩ : Shape).BroadcastsInDim ⟨1, ![m]⟩ (![] : Fin 0 → Fin 1))
    (x : (⟨0, ![]⟩ : Shape).Idx → α) (i : Fin m) :
    broadcastInDim ⟨1, ![m]⟩ ![] h x (ix1 i) = x ix0 :=
  broadcastInDim_apply _ h x _ _ fun a => a.elim0

theorem zeroRows_apply (n : Fin 100000) :
    broadcastInDim S100000 ![] bcast_S_S100000 (constant (F := Ideal) S_ .f32 0x00000000#32) (ix1 n) = 0 := by
  rw [bcastScalar_apply]
  exact Ideal.ofBits_zero_f32

theorem zeroRows_apply' (n : Fin 100000) :
    broadcastInDim S100000 ![] bcast_S_S100000 (id (constant (F := Ideal) S_ .f32 0x00000000#32)) (ix1 n) = 0 :=
  zeroRows_apply n

theorem rsqrt_apply {s : Shape} {φ : FTy} (x : FVec Ideal s φ) (i : s.Idx) : Host.rsqrt x i = Ideal.rsqrt (x i) := rfl

theorem oneEdges_apply (e : Fin 1100000) :
    broadcastInDim S1100000 ![] bcast_S_S1100000 (constant (F := Ideal) S_ .f32 0x3F800000#32) (ix1 e) = 1 := by
  rw [bcastScalar_apply]
  exact IdealRules.sign_bit.ideal_onePat .f32

theorem degT_apply (t : IVec S1100000 32) (n : Fin 100000) :
    degT t (ix1 n)
      = (((Finset.univ.filter (fun e => tgtOf (r := 100000) (sidxOf t) e = some n)).card : ℝ) : EReal) := by
  unfold degT
  rw [Cert.HostIdxProg.ker_scatterAdd_vec_apply, zeroRows_apply, zero_add,
    Finset.sum_congr rfl (fun e _ => oneEdges_apply e)]
  rw [← EReal.coe_one, ← Cert.Spec.coe_sum, Finset.sum_const, nsmul_eq_mul, mul_one]

theorem dinvT_real (t : IVec S1100000 32) (n : Fin 100000) : ∃ v : ℝ, dinvT t (ix1 n) = (v : EReal) := by
  unfold dinvT
  rw [select_apply, cmpf_apply, Ideal.cmpf_def, rsqrt_apply, zeroRows_apply, zeroRows_apply', degT_apply]
  generalize (Finset.univ.filter (fun e => tgtOf (r := 100000) (sidxOf t) e = some n)).card = k
  rcases Nat.eq_zero_or_pos k with hk | hk
  · subst hk
    refine ⟨0, ?_⟩
    have hc : Ideal.cmp .ogt (((0 : ℕ) : ℝ) : EReal) 0 = 0#1 := by simp [Ideal.cmp]
    rw [hc, select_zero, EReal.coe_zero]
  · have hpos : (0 : ℝ) < (k : ℝ) := by exact_mod_cast hk
    unfold Scalar.select
    split
    · exact Cert.Spec.real_rsqrt_pos hpos
    · exact ⟨0, EReal.coe_zero.symm⟩

theorem normT_apply (s t : IVec S1100000 32) (e : Fin 1100000) :
    normT s t (ix1 e)
      = dinvT t (ix1 (selOf (r := 100000) (by decide) (gidxOf s) e))
        * dinvT t (ix1 (selOf (r := 100000) (by decide) (gidxOf t) e)) := by
  unfold normT
  rw [mulf_apply, Cert.HostIdxProg.ker_gather_vec_apply, Cert.HostIdxProg.ker_gather_vec_apply]

theorem normT_fin (s t : IVec S1100000 32) : Cert.Spec.FinVec (fun e => normT s t (ix1 e)) := fun e => by
  have h := Cert.Spec.real_mul (dinvT_real t (selOf (r := 100000) (by decide) (gidxOf s) e))
    (dinvT_real t (selOf (r := 100000) (by decide) (gidxOf t) e))
  rw [← normT_apply] at h
  exact h

end Cert.NormFin

end
-- ==== Proof.LibCast.lean ====
import Idealize.ShloMosaic.Lib.StableHlo

namespace Idealize.ShloMosaic.StableHlo.TRef

theorem ofBuf_toBuf {sig : RefSig} {Val : EltTy → Type} {T : BufTy} (x : TRef sig T) (v : T.Contents Val) :
    x.ofBuf (x.toBuf v) = v := by
  obtain ⟨r, h, h2, h3⟩ := x
  subst h
  rfl

theorem toBuf_ofBuf {sig : RefSig} {Val : EltTy → Type} {T : BufTy} (x : TRef sig T) (v : x.ref.ty.Contents Val) :
    x.toBuf (x.ofBuf v) = v := by
  obtain ⟨r, h, h2, h3⟩ := x
  subst h
  rfl

end Idealize.ShloMosaic.StableHlo.TRef
-- ==== Proof.Math.PrefixK.lean ====
import proofs.«424828_j6554120094214_2_alg».proof.Proof.Math.NormFin
import proofs.«424828_j6554120094214_2_alg».proof.Proof.Gen.KernelIdeal.Launch
import proofs.«424828_j6554120094214_2_alg».proof.Proof.Gen.KernelIdeal.Regions
import proofs.«424828_j6554120094214_2_alg».proof.Proof.KI.HostRead
import proofs.«424828_j6554120094214_2_alg».proof.Proof.LibCast
import Idealize.ShloMosaic.Lib.StableHlo.Run
set_option maxRecDepth 1524

noncomputable section

namespace Cert.PrefixK

open Idealize.ShloMosaic Idealize.ShloMosaic.TcCoe
open Cert.KernelIdeal Cert.KernelIdeal.Gen Cert.KernelIdeal.Hand
open Cert.EdgeIdx Cert.NormFin

def srcT (e : IVec S2x1000000 32) : IVec S1100000 32 :=
  concatenate S1100000 0
    [⟨S1000000, shapeCast S1000000 (extractStridedSlice S1x1000000 ![0, 0] e slices_S2x1000000_S1x1000000_0_0)
        shapeCasts_S1x1000000_S1000000⟩,
     ⟨S100000, iotaInDim S100000 32 0⟩]
    concatenates_S1000000_S100000_S1100000_d0

def dstT (e : IVec S2x1000000 32) : IVec S1100000 32 :=
  concatenate S1100000 0
    [⟨S1000000, shapeCast S1000000 (extractStridedSlice S1x1000000 ![1, 0] e slices_S2x1000000_S1x1000000_1_0)
        shapeCasts_S1x1000000_S1000000⟩,
     ⟨S100000, iotaInDim S100000 32 0⟩]
    concatenates_S1000000_S100000_S1100000_d0

section First

variable (W : Valuation τ sig (Elt Ideal))
set_option maxHeartbeats 2000000 in
theorem pre0_src :
    StableHlo.after hostOps0 W (Proc.devRef .tc main_v3) = srcT (W (Proc.devRef .tc main_arg1)) := by
  after_results; rfl

set_option maxHeartbeats 2000000 in
theorem pre0_dst :
    StableHlo.after hostOps0 W (Proc.devRef .tc main_v6) = dstT (W (Proc.devRef .tc main_arg1)) := by
  after_results; rfl

set_option maxHeartbeats 4000000 in
theorem pre0_pos :
    StableHlo.after hostOps0 W (Proc.devRef .tc main_v12)
      = cmpf (F := Ideal) .ogt (degT (dstT (W (Proc.devRef .tc main_arg1))))
          (broadcastInDim S100000 ![] bcast_S_S100000 (constant (F := Ideal) S_ .f32 0x00000000#32)) := by
  after_results; rfl

set_option maxHeartbeats 4000000 in
theorem pre0_rsqrt :
    StableHlo.after hostOps0 W (Proc.devRef .tc main_v13) = Host.rsqrt (degT (dstT (W (Proc.devRef .tc main_arg1)))) := by
  after_results; rfl

theorem pre0_zero :
    StableHlo.after hostOps0 W (Proc.devRef .tc main_cst_2) = constant (F := Ideal) S_ .f32 0x00000000#32 := by
  after_results

end First

theorem host0_1_sel (V : Valuation τ sig (Elt Ideal)) :
    StableHlo.after hostOps0_1 V (Proc.devRef .tc main_v14)
      = select (V (Proc.devRef .tc main_v12)) (V (Proc.devRef .tc main_v13))
          (broadcastInDim S100000 ![] bcast_S_S100000 (id (V (Proc.devRef .tc main_cst_2)))) := by
  after_results; rfl

theorem host0_1_keep (V : Valuation τ sig (Elt Ideal)) (r : Ref sig .tc) (h : r ∉ hostOps0_1_W) :
    StableHlo.after hostOps0_1 V (Proc.devRef .tc r) = V (Proc.devRef .tc r) :=
  StableHlo.after_of_writes_sub hostOps0_1 V hostOps0_1_writes h

section Chain

variable (W : Valuation τ sig (Elt Ideal))

theorem pre1_dinv :
    StableHlo.after hostOps0_1 (StableHlo.after hostOps0 W) (Proc.devRef .tc main_v14)
      = dinvT (dstT (W (Proc.devRef .tc main_arg1))) := by
  rw [host0_1_sel, pre0_pos, pre0_rsqrt, pre0_zero]
  rfl

theorem pre1_src :
    StableHlo.after hostOps0_1 (StableHlo.after hostOps0 W) (Proc.devRef .tc main_v3)
      = srcT (W (Proc.devRef .tc main_arg1)) := by
  rw [host0_1_keep _ _ (by decide), pre0_src]

theorem pre1_dst :
    StableHlo.after hostOps0_1 (StableHlo.after hostOps0 W) (Proc.devRef .tc main_v6)
      = dstT (W (Proc.devRef .tc main_arg1)) := by
  rw [host0_1_keep _ _ (by decide), pre0_dst]

theorem pre2_norm :
    StableHlo.after hostOps0_2 (StableHlo.after hostOps0_1 (StableHlo.after hostOps0 W)) (Proc.devRef .tc main_v29)
      = normT (srcT (W (Proc.devRef .tc main_arg1))) (dstT (W (Proc.devRef .tc main_arg1))) := by
  rw [host0_2_weights, pre1_dinv, pre1_src, pre1_dst]
  rfl

theorem pre2_src :
    StableHlo.after hostOps0_2 (StableHlo.after hostOps0_1 (StableHlo.after hostOps0 W)) (Proc.devRef .tc main_v3)
      = srcT (W (Proc.devRef .tc main_arg1)) := by
  rw [host0_2_keep _ _ (by decide), pre1_src]

theorem pre2_dst :
    StableHlo.after hostOps0_2 (StableHlo.after hostOps0_1 (StableHlo.after hostOps0 W)) (Proc.devRef .tc main_v6)
      = dstT (W (Proc.devRef .tc main_arg1)) := by
  rw [host0_2_keep _ _ (by decide), pre1_dst]

end Chain

end Cert.PrefixK

end
-- ==== Proof.KI.ValueFold.lean ====
import proofs.«424828_j6554120094214_2_alg».proof.Proof.KI.Value
import proofs.«424828_j6554120094214_2_alg».proof.Proof.KI.RunFold
import proofs.«424828_j6554120094214_2_alg».proof.Proof.Math.PrefixK
set_option maxRecDepth 16384

noncomputable section

namespace Cert.KernelIdeal.Hand

open Idealize.ShloMosaic Idealize.ShloMosaic.TcCoe
open Idealize.ShloMosaic.ValueIdx
open Cert.KernelIdeal Cert.KernelIdeal.Gen
open Cert.Spec (Nn Ee Gg)
open Cert.HostIdx (selOf tgtOf toMat ofMat toVec)
open Cert.EdgeIdx (gidxOf sidxOf bidxOf)

theorem isOut_false_of_not_mem {n : ℕ} (arr : Fin n → Ref sig .tc) (isOut : Fin n → Bool) (L : List (Ref sig .tc))
    (hout : ∀ w, isOut w = true → arr w ∈ L) (b : Ref sig .tc) (hb : b ∉ L) : ∀ w, arr w = b → isOut w = false := by
  intro w e
  cases h : isOut w with
  | false => rfl
  | true => exact absurd (e ▸ hout w h) hb

variable (m : (ℓ : Loc nD τ sig) → Buf (Elt Ideal) ℓ) (ρ : Dev nD → PrngReg) (c : Dev nD)

def WsOf : ℕ → Valuation τ sig (Elt Ideal)
  | 0 => W0 (F := Ideal) m ρ c
  | 1 => W1 (F := Ideal) m ρ c
  | 2 => W2 (F := Ideal) m ρ c
  | 3 => W3 (F := Ideal) m ρ c
  | 4 => W4 (F := Ideal) m ρ c
  | 5 => W5 (F := Ideal) m ρ c
  | 6 => W6 (F := Ideal) m ρ c
  | 7 => W7 (F := Ideal) m ρ c
  | 8 => W8 (F := Ideal) m ρ c
  | 9 => W9 (F := Ideal) m ρ c
  | 10 => W10 (F := Ideal) m ρ c
  | 11 => W11 (F := Ideal) m ρ c
  | 12 => W12 (F := Ideal) m ρ c
  | 13 => W13 (F := Ideal) m ρ c
  | 14 => W14 (F := Ideal) m ρ c
  | 15 => W15 (F := Ideal) m ρ c
  | 16 => W16 (F := Ideal) m ρ c
  | 17 => W17 (F := Ideal) m ρ c
  | 18 => W18 (F := Ideal) m ρ c
  | 19 => W19 (F := Ideal) m ρ c
  | 20 => W20 (F := Ideal) m ρ c
  | 21 => W21 (F := Ideal) m ρ c
  | 22 => W22 (F := Ideal) m ρ c
  | 23 => W23 (F := Ideal) m ρ c
  | 24 => W24 (F := Ideal) m ρ c
  | 25 => W25 (F := Ideal) m ρ c
  | 26 => W26 (F := Ideal) m ρ c
  | 27 => W27 (F := Ideal) m ρ c
  | _ => W28 (F := Ideal) m ρ c

set_option maxHeartbeats 4000000 in
theorem WsOf_keep : ∀ J r, r ∉ wr (J + 1) →
    WsOf m ρ c (J + 1) (Proc.devRef .tc r) = WsOf m ρ c J (Proc.devRef .tc r)
  | 0, r, h => W1_keep m ρ c r h
  | 1, r, h => W2_keep m ρ c r h
  | 2, r, h => W3_keep m ρ c r h
  | 3, r, h => W4_keep m ρ c r (isOut_false_of_not_mem (Pipeline.arrRef spec0) (fun w => (cfg0.win w).isOut) [main_v32] (by decide) r h)
  | 4, r, h => W5_keep m ρ c r h
  | 5, r, h => W6_keep m ρ c r (isOut_false_of_not_mem (Pipeline.arrRef spec1) (fun w => (cfg1.win w).isOut) [main_v40] (by decide) r h)
  | 6, r, h => W7_keep m ρ c r h
  | 7, r, h => W8_keep m ρ c r (isOut_false_of_not_mem (Pipeline.arrRef spec2) (fun w => (cfg2.win w).isOut) [main_v45_0, main_v45_1, main_v45_2] (by decide) r h)
  | 8, r, h => W9_keep m ρ c r h
  | 9, r, h => W10_keep m ρ c r (isOut_false_of_not_mem (Pipeline.arrRef spec3) (fun w => (cfg3.win w).isOut) [main_v54] (by decide) r h)
  | 10, r, h => W11_keep m ρ c r (isOut_false_of_not_mem (Pipeline.arrRef spec4) (fun w => (cfg4.win w).isOut) [main_v55] (by decide) r h)
  | 11, r, h => W12_keep m ρ c r h
  | 12, r, h => W13_keep m ρ c r (isOut_false_of_not_mem (Pipeline.arrRef spec5) (fun w => (cfg5.win w).isOut) [main_v63] (by decide) r h)
  | 13, r, h => W14_keep m ρ c r h
  | 14, r, h => W15_keep m ρ c r (isOut_false_of_not_mem (Pipeline.arrRef spec6) (fun w => (cfg6.win w).isOut) [main_v68_0, main_v68_1, main_v68_2] (by decide) r h)
  | 15, r, h => W16_keep m ρ c r h
  | 16, r, h => W17_keep m ρ c r (isOut_false_of_not_mem (Pipeline.arrRef spec7) (fun w => (cfg7.win w).isOut) [main_v77] (by decide) r h)
  | 17, r, h => W18_keep m ρ c r (isOut_false_of_not_mem (Pipeline.arrRef spec8) (fun w => (cfg8.win w).isOut) [main_v78] (by decide) r h)
  | 18, r, h => W19_keep m ρ c r h
  | 19, r, h => W20_keep m ρ c r (isOut_false_of_not_mem (Pipeline.arrRef spec9) (fun w => (cfg9.win w).isOut) [main_v86] (by decide) r h)
  | 20, r, h => W21_keep m ρ c r h
  | 21, r, h => W22_keep m ρ c r (isOut_false_of_not_mem (Pipeline.arrRef spec10) (fun w => (cfg10.win w).isOut) [main_v91_0, main_v91_1, main_v91_2] (by decide) r h)
  | 22, r, h => W23_keep m ρ c r h
  | 23, r, h => W24_keep m ρ c r (isOut_false_of_not_mem (Pipeline.arrRef spec11) (fun w => (cfg11.win w).isOut) [main_v100] (by decide) r h)
  | 24, r, h => W25_keep m ρ c r (isOut_false_of_not_mem (Pipeline.arrRef spec12) (fun w => (cfg12.win w).isOut) [main_v101] (by decide) r h)
  | 25, r, h => W26_keep m ρ c r (isOut_false_of_not_mem (Pipeline.arrRef spec13) (fun w => (cfg13.win w).isOut) [main_v102] (by decide) r h)
  | 26, r, h => W27_keep m ρ c r (isOut_false_of_not_mem (Pipeline.arrRef spec14) (fun w => (cfg14.win w).isOut) [main_v103] (by decide) r h)
  | 27, r, h => W28_keep m ρ c r h
  | _ + 28, _, _ => rfl

set_option maxHeartbeats 4000000 in
theorem foldFacts_of (hot : IVec S100000x1 32 → Fin Nn → Fin Gg → EReal)
    (lin0 : ∀ n o, toMat (r := 100000) (c := 64) ((W4 (F := Ideal) m ρ c) (Proc.devRef .tc main_v32)) n o = ∑ k : Fin 64, toMat (r := 100000) (c := 64) ((W3 (F := Ideal) m ρ c) (Proc.devRef .tc main_arg0)) n k * toMat (r := 64) (c := 64) ((W3 (F := Ideal) m ρ c) (Proc.devRef .tc main_arg3)) o k)
    (scale0 : ∀ e f, toMat (r := 1100000) (c := 64) ((W6 (F := Ideal) m ρ c) (Proc.devRef .tc main_v40)) e f = toMat (r := 1100000) (c := 64) ((W5 (F := Ideal) m ρ c) (Proc.devRef .tc main_v39)) e f * toMat (r := 1100000) (c := 1) ((W5 (F := Ideal) m ρ c) (Proc.devRef .tc main_v30)) e 0)
    (relu0 : ∀ n f, toMat (r := 100000) (c := 64) ((W8 (F := Ideal) m ρ c) (Proc.devRef .tc main_v45_0)) n f = max (toMat (r := 100000) (c := 64) ((W7 (F := Ideal) m ρ c) (Proc.devRef .tc main_v43)) n f + toMat (r := 1) (c := 64) ((W7 (F := Ideal) m ρ c) (Proc.devRef .tc main_v44)) 0 f) 0)
    (sum0 : ∀ f, toMat (r := 1) (c := 64) ((W8 (F := Ideal) m ρ c) (Proc.devRef .tc main_v45_1)) 0 f = ∑ n : Fin 100000, toMat (r := 100000) (c := 64) ((W8 (F := Ideal) m ρ c) (Proc.devRef .tc main_v45_0)) n f)
    (sq0 : ∀ f, toMat (r := 1) (c := 64) ((W8 (F := Ideal) m ρ c) (Proc.devRef .tc main_v45_2)) 0 f = ∑ n : Fin 100000, toMat (r := 100000) (c := 64) ((W8 (F := Ideal) m ρ c) (Proc.devRef .tc main_v45_0)) n f * toMat (r := 100000) (c := 64) ((W8 (F := Ideal) m ρ c) (Proc.devRef .tc main_v45_0)) n f)
    (bn0 : ∀ n f, toMat (r := 100000) (c := 64) ((W10 (F := Ideal) m ρ c) (Proc.devRef .tc main_v54)) n f
        = toMat (r := 1) (c := 64) ((W9 (F := Ideal) m ρ c) (Proc.devRef .tc main_v52)) 0 f * (toMat (r := 100000) (c := 64) ((W9 (F := Ideal) m ρ c) (Proc.devRef .tc main_v45_0)) n f - toMat (r := 1) (c := 64) ((W9 (F := Ideal) m ρ c) (Proc.devRef .tc main_v47)) 0 f)
            * Ideal.rsqrt (toMat (r := 1) (c := 64) ((W9 (F := Ideal) m ρ c) (Proc.devRef .tc main_v51)) 0 f + Cert.Spec.eps) + toMat (r := 1) (c := 64) ((W9 (F := Ideal) m ρ c) (Proc.devRef .tc main_v53)) 0 f)
    (lin1 : ∀ n o, toMat (r := 100000) (c := 64) ((W11 (F := Ideal) m ρ c) (Proc.devRef .tc main_v55)) n o = ∑ k : Fin 64, toMat (r := 100000) (c := 64) ((W10 (F := Ideal) m ρ c) (Proc.devRef .tc main_v54)) n k * toMat (r := 64) (c := 64) ((W10 (F := Ideal) m ρ c) (Proc.devRef .tc main_arg7)) o k)
    (scale1 : ∀ e f, toMat (r := 1100000) (c := 64) ((W13 (F := Ideal) m ρ c) (Proc.devRef .tc main_v63)) e f = toMat (r := 1100000) (c := 64) ((W12 (F := Ideal) m ρ c) (Proc.devRef .tc main_v62)) e f * toMat (r := 1100000) (c := 1) ((W12 (F := Ideal) m ρ c) (Proc.devRef .tc main_v30)) e 0)
    (relu1 : ∀ n f, toMat (r := 100000) (c := 64) ((W15 (F := Ideal) m ρ c) (Proc.devRef .tc main_v68_0)) n f = max (toMat (r := 100000) (c := 64) ((W14 (F := Ideal) m ρ c) (Proc.devRef .tc main_v66)) n f + toMat (r := 1) (c := 64) ((W14 (F := Ideal) m ρ c) (Proc.devRef .tc main_v67)) 0 f) 0)
    (sum1 : ∀ f, toMat (r := 1) (c := 64) ((W15 (F := Ideal) m ρ c) (Proc.devRef .tc main_v68_1)) 0 f = ∑ n : Fin 100000, toMat (r := 100000) (c := 64) ((W15 (F := Ideal) m ρ c) (Proc.devRef .tc main_v68_0)) n f)
    (sq1 : ∀ f, toMat (r := 1) (c := 64) ((W15 (F := Ideal) m ρ c) (Proc.devRef .tc main_v68_2)) 0 f = ∑ n : Fin 100000, toMat (r := 100000) (c := 64) ((W15 (F := Ideal) m ρ c) (Proc.devRef .tc main_v68_0)) n f * toMat (r := 100000) (c := 64) ((W15 (F := Ideal) m ρ c) (Proc.devRef .tc main_v68_0)) n f)
    (bn1 : ∀ n f, toMat (r := 100000) (c := 64) ((W17 (F := Ideal) m ρ c) (Proc.devRef .tc main_v77)) n f
        = toMat (r := 1) (c := 64) ((W16 (F := Ideal) m ρ c) (Proc.devRef .tc main_v75)) 0 f * (toMat (r := 100000) (c := 64) ((W16 (F := Ideal) m ρ c) (Proc.devRef .tc main_v68_0)) n f - toMat (r := 1) (c := 64) ((W16 (F := Ideal) m ρ c) (Proc.devRef .tc main_v70)) 0 f)
            * Ideal.rsqrt (toMat (r := 1) (c := 64) ((W16 (F := Ideal) m ρ c) (Proc.devRef .tc main_v74)) 0 f + Cert.Spec.eps) + toMat (r := 1) (c := 64) ((W16 (F := Ideal) m ρ c) (Proc.devRef .tc main_v76)) 0 f)
    (lin2 : ∀ n o, toMat (r := 100000) (c := 64) ((W18 (F := Ideal) m ρ c) (Proc.devRef .tc main_v78)) n o = ∑ k : Fin 64, toMat (r := 100000) (c := 64) ((W17 (F := Ideal) m ρ c) (Proc.devRef .tc main_v77)) n k * toMat (r := 64) (c := 64) ((W17 (F := Ideal) m ρ c) (Proc.devRef .tc main_arg11)) o k)
    (scale2 : ∀ e f, toMat (r := 1100000) (c := 64) ((W20 (F := Ideal) m ρ c) (Proc.devRef .tc main_v86)) e f = toMat (r := 1100000) (c := 64) ((W19 (F := Ideal) m ρ c) (Proc.devRef .tc main_v85)) e f * toMat (r := 1100000) (c := 1) ((W19 (F := Ideal) m ρ c) (Proc.devRef .tc main_v30)) e 0)
    (relu2 : ∀ n f, toMat (r := 100000) (c := 64) ((W22 (F := Ideal) m ρ c) (Proc.devRef .tc main_v91_0)) n f = max (toMat (r := 100000) (c := 64) ((W21 (F := Ideal) m ρ c) (Proc.devRef .tc main_v89)) n f + toMat (r := 1) (c := 64) ((W21 (F := Ideal) m ρ c) (Proc.devRef .tc main_v90)) 0 f) 0)
    (sum2 : ∀ f, toMat (r := 1) (c := 64) ((W22 (F := Ideal) m ρ c) (Proc.devRef .tc main_v91_1)) 0 f = ∑ n : Fin 100000, toMat (r := 100000) (c := 64) ((W22 (F := Ideal) m ρ c) (Proc.devRef .tc main_v91_0)) n f)
    (sq2 : ∀ f, toMat (r := 1) (c := 64) ((W22 (F := Ideal) m ρ c) (Proc.devRef .tc main_v91_2)) 0 f = ∑ n : Fin 100000, toMat (r := 100000) (c := 64) ((W22 (F := Ideal) m ρ c) (Proc.devRef .tc main_v91_0)) n f * toMat (r := 100000) (c := 64) ((W22 (F := Ideal) m ρ c) (Proc.devRef .tc main_v91_0)) n f)
    (bn2 : ∀ n f, toMat (r := 100000) (c := 64) ((W24 (F := Ideal) m ρ c) (Proc.devRef .tc main_v100)) n f
        = toMat (r := 1) (c := 64) ((W23 (F := Ideal) m ρ c) (Proc.devRef .tc main_v98)) 0 f * (toMat (r := 100000) (c := 64) ((W23 (F := Ideal) m ρ c) (Proc.devRef .tc main_v91_0)) n f - toMat (r := 1) (c := 64) ((W23 (F := Ideal) m ρ c) (Proc.devRef .tc main_v93)) 0 f)
            * Ideal.rsqrt (toMat (r := 1) (c := 64) ((W23 (F := Ideal) m ρ c) (Proc.devRef .tc main_v97)) 0 f + Cert.Spec.eps) + toMat (r := 1) (c := 64) ((W23 (F := Ideal) m ρ c) (Proc.devRef .tc main_v99)) 0 f)
    (pool0 : ∀ q f, toMat (r := 512) (c := 64) ((W25 (F := Ideal) m ρ c) (Proc.devRef .tc main_v101)) q f = ∑ n : Fin 100000, hot ((W24 (F := Ideal) m ρ c) (Proc.devRef .tc main_v31)) n q * toMat (r := 100000) (c := 64) ((W24 (F := Ideal) m ρ c) (Proc.devRef .tc main_v54)) n f)
    (pool1 : ∀ q f, toMat (r := 512) (c := 64) ((W26 (F := Ideal) m ρ c) (Proc.devRef .tc main_v102)) q f = ∑ n : Fin 100000, hot ((W25 (F := Ideal) m ρ c) (Proc.devRef .tc main_v31)) n q * toMat (r := 100000) (c := 64) ((W25 (F := Ideal) m ρ c) (Proc.devRef .tc main_v77)) n f)
    (pool2 : ∀ q f, toMat (r := 512) (c := 64) ((W27 (F := Ideal) m ρ c) (Proc.devRef .tc main_v103)) q f = ∑ n : Fin 100000, hot ((W26 (F := Ideal) m ρ c) (Proc.devRef .tc main_v31)) n q * toMat (r := 100000) (c := 64) ((W26 (F := Ideal) m ρ c) (Proc.devRef .tc main_v100)) n f)
    (hot_eq : ∀ bt n q, hot bt n q = if bt (ix2 n 0) = BitVec.ofNat 32 q.val then 1 else 0) :
    FoldFacts (WsOf m ρ c) hot where
  keep := WsOf_keep m ρ c
  s3 := rfl
  s5 := rfl
  s7 := rfl
  s9 := rfl
  s12 := rfl
  s14 := rfl
  s16 := rfl
  s19 := rfl
  s21 := rfl
  s23 := rfl
  s28 := rfl
  lin0 := lin0
  scale0 := scale0
  relu0 := relu0
  sum0 := sum0
  sq0 := sq0
  bn0 := bn0
  lin1 := lin1
  scale1 := scale1
  relu1 := relu1
  sum1 := sum1
  sq1 := sq1
  bn1 := bn1
  lin2 := lin2
  scale2 := scale2
  relu2 := relu2
  sum2 := sum2
  sq2 := sq2
  bn2 := bn2
  pool0 := pool0
  pool1 := pool1
  pool2 := pool2
  hot_eq := hot_eq

theorem kernel_results_at (hot : IVec S100000x1 32 → Fin Nn → Fin Gg → EReal) (H : FoldFacts (WsOf m ρ c) hot) :
    toMat (r := 100000) (c := 64) ((W28 (F := Ideal) m ρ c) (Proc.devRef .tc main_v100)) = h3K (WsOf m ρ c) ∧
    ((W28 (F := Ideal) m ρ c) (Proc.devRef .tc main_v104))
      = cat3 ((W25 (F := Ideal) m ρ c) (Proc.devRef .tc main_v101)) ((W26 (F := Ideal) m ρ c) (Proc.devRef .tc main_v102)) ((W27 (F := Ideal) m ρ c) (Proc.devRef .tc main_v103)) ∧
    toMat (r := 512) (c := 64) ((W25 (F := Ideal) m ρ c) (Proc.devRef .tc main_v101)) = Cert.Spec.poolHot (segK (WsOf m ρ c)) (h1K (WsOf m ρ c)) ∧
    toMat (r := 512) (c := 64) ((W26 (F := Ideal) m ρ c) (Proc.devRef .tc main_v102)) = Cert.Spec.poolHot (segK (WsOf m ρ c)) (h2K (WsOf m ρ c)) ∧
    toMat (r := 512) (c := 64) ((W27 (F := Ideal) m ρ c) (Proc.devRef .tc main_v103)) = Cert.Spec.poolHot (segK (WsOf m ρ c)) (h3K (WsOf m ρ c)) :=
  kernel_results_of (WsOf m ρ c) hot H

def selF : Fin Ee → Fin Nn := selOf (r := 100000) (by decide) (gidxOf (Cert.PrefixK.srcT (m ((c : Thread nD τ).loc main_arg1))))

def tgtF : Fin Ee → Option (Fin Nn) := tgtOf (r := 100000) (sidxOf (Cert.PrefixK.dstT (m ((c : Thread nD τ).loc main_arg1))))

def nrmF : Fin Ee → EReal :=
  fun i => Cert.NormFin.normT (Cert.PrefixK.srcT (m ((c : Thread nD τ).loc main_arg1))) (Cert.PrefixK.dstT (m ((c : Thread nD τ).loc main_arg1))) (ix1 i)

def segF : Fin Nn → Option (Fin Gg) := tgtOf (r := 512) (bidxOf (m ((c : Thread nD τ).loc main_arg2)))

theorem selK_eq : selK (WsOf m ρ c) = selF m c := by
  unfold selK selF
  rw [show (WsOf m ρ c 3) (Proc.devRef .tc main_v3) = Cert.PrefixK.srcT (m ((c : Thread nD τ).loc main_arg1)) from Cert.PrefixK.pre2_src (W0 (F := Ideal) m ρ c)]

theorem tgtK_eq : tgtK (WsOf m ρ c) = tgtF m c := by
  unfold tgtK tgtF
  rw [show (WsOf m ρ c 3) (Proc.devRef .tc main_v6) = Cert.PrefixK.dstT (m ((c : Thread nD τ).loc main_arg1)) from Cert.PrefixK.pre2_dst (W0 (F := Ideal) m ρ c)]

theorem nrmK_eq : nrmK (WsOf m ρ c) = nrmF m c := by
  unfold nrmK nrmF
  rw [show (WsOf m ρ c 3) (Proc.devRef .tc main_v29)
      = Cert.NormFin.normT (Cert.PrefixK.srcT (m ((c : Thread nD τ).loc main_arg1))) (Cert.PrefixK.dstT (m ((c : Thread nD τ).loc main_arg1)))
    from Cert.PrefixK.pre2_norm (W0 (F := Ideal) m ρ c)]
  rfl

theorem segK_eq : segK (WsOf m ρ c) = segF m c := rfl

end Cert.KernelIdeal.Hand
-- ==== Proof.KI.Pay2.lean ====
import proofs.«424828_j6554120094214_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx
open Cert.KernelIdeal Cert.KernelIdeal.Gen

theorem k2_pay1_apply (f : Fin 64) : (k2_pay1 (F := Ideal)) (ix2 (0 : Fin 1) f) = 0 := by
  unfold k2_pay1
  refine (congrFun (shapeCast_self _ _) _).trans ?_
  exact Ideal.ofBits_zero_f32

theorem k2_pay2_apply (f : Fin 64) : (k2_pay2 (F := Ideal)) (ix2 (0 : Fin 1) f) = 0 := by
  unfold k2_pay2
  refine (congrFun (shapeCast_self _ _) _).trans ?_
  exact Ideal.ofBits_zero_f32

theorem k2_pay3_apply (v3 : Vec Ideal S10000x64 .f32) (v5 : Vec Ideal S1x64 .f32) (r : Fin 10000) (f : Fin 64) :
    k2_pay3 v3 v5 (ix2 r f) = max (v3 (ix2 r f) + v5 (ix2 (0 : Fin 1) f)) 0 := by
  unfold k2_pay3
  show max (shapeCast S10000x64 v3 shapeCasts_S10000x64_S10000x64 (ix2 r f)
      + broadcastTo S10000x64 (shapeCast S1x64 v5 shapeCasts_S1x64_S1x64) broadcasts_S1x64_S10000x64 (ix2 r f))
    (Ideal.ofBits .f32 0x00000000#32) = _
  rw [shapeCast_self, shapeCast_self, broadcastTo_1b_ab_apply, Ideal.ofBits_zero_f32]

theorem colsum2_apply (src : FVec Ideal S10000x64 .f32) (f : Fin 64) :
    multiReduction (F := Ideal) .add [0] S64 src 0x00000000#32 reduces_S10000x64_S64 (.inl rfl) rfl (ix1 f)
      = ∑ r : Fin 10000, src (ix2 r f) := by
  refine (Ideal.multiReduction_add_single src 0x00000000#32 reduces_S10000x64_S64 (.inl rfl) rfl (ix1 f)).trans ?_
  refine Finset.sum_congr rfl fun r _ => congrArg src ?_
  funext c
  apply Fin.ext
  rw [Shape.Reduces.lift_val]
  unfold Shape.Reduces.liftVal
  match c with
  | ⟨0, _⟩ => rfl
  | ⟨1, _⟩ => rfl

theorem k2_pay4_apply (v3 : Vec Ideal S10000x64 .f32) (v5 : Vec Ideal S1x64 .f32) (v12 : Vec Ideal S1x64 .f32) (f : Fin 64) :
    k2_pay4 v3 v5 v12 (ix2 (0 : Fin 1) f) = v12 (ix2 (0 : Fin 1) f) + ∑ r : Fin 10000, k2_pay3 v3 v5 (ix2 r f) := by
  unfold k2_pay4
  refine (congrFun (shapeCast_self _ _) _).trans ?_
  show v12 (ix2 (0 : Fin 1) f)
      + shapeCast S1x64 (multiReduction (F := Ideal) .add [0] S64 (k2_pay3 v3 v5) 0x00000000#32 reduces_S10000x64_S64 (.inl rfl) rfl)
          shapeCasts_S64_S1x64 (ix2 (0 : Fin 1) f) = _
  refine congrArg (v12 (ix2 (0 : Fin 1) f) + ·) ?_
  refine (shapeCast_a_1a_apply _ _ (0 : Fin 1) f).trans ?_
  exact colsum2_apply _ f

theorem k2_pay5_apply (v3 : Vec Ideal S10000x64 .f32) (v5 : Vec Ideal S1x64 .f32) (v19 : Vec Ideal S1x64 .f32) (f : Fin 64) :
    k2_pay5 v3 v5 v19 (ix2 (0 : Fin 1) f)
      = v19 (ix2 (0 : Fin 1) f) + ∑ r : Fin 10000, k2_pay3 v3 v5 (ix2 r f) * k2_pay3 v3 v5 (ix2 r f) := by
  unfold k2_pay5
  refine (congrFun (shapeCast_self _ _) _).trans ?_
  show v19 (ix2 (0 : Fin 1) f)
      + shapeCast S1x64 (multiReduction (F := Ideal) .add [0] S64 (mulf (k2_pay3 v3 v5) (k2_pay3 v3 v5)) 0x00000000#32 reduces_S10000x64_S64 (.inl rfl) rfl)
          shapeCasts_S64_S1x64 (ix2 (0 : Fin 1) f) = _
  refine congrArg (v19 (ix2 (0 : Fin 1) f) + ·) ?_
  refine (shapeCast_a_1a_apply _ _ (0 : Fin 1) f).trans ?_
  exact colsum2_apply _ f

end Cert.KernelIdeal.Hand
-- ==== Proof.Math.Regroup.lean ====
import proofs.«424828_j6554120094214_2_alg».proof.Proof.Spec
import Mathlib.Data.EReal.Basic
import Mathlib.Logic.Equiv.Fin.Basic
import Mathlib.Data.Fintype.BigOperators
import Mathlib.Algebra.BigOperators.Fin
import Mathlib.Algebra.BigOperators.Group.Finset.Defs
import Mathlib.Tactic.NormNum

noncomputable section

namespace Cert.Spec

theorem blk_lt {B R N : ℕ} (hN : B * R = N) (t : Fin B) (r : Fin R) : R * t.val + r.val < N := by
  have h1 : R * t.val + r.val < R * (t.val + 1) := by
    rw [Nat.mul_succ]; exact Nat.add_lt_add_left r.isLt _
  have h2 : R * (t.val + 1) ≤ R * B := Nat.mul_le_mul_left _ t.isLt
  have h3 : R * B = N := by rw [Nat.mul_comm, hN]
  exact h3 ▸ lt_of_lt_of_le h1 h2

theorem sum_blocks (B R N : ℕ) (hN : B * R = N) (f : Fin N → EReal) :
    ∑ n : Fin N, f n = ∑ t : Fin B, ∑ r : Fin R, f ⟨R * t.val + r.val, blk_lt hN t r⟩ := by
  subst hN
  rw [← Fintype.sum_prod_type' (fun (t : Fin B) (r : Fin R) => f ⟨R * t.val + r.val, blk_lt rfl t r⟩)]
  refine (Fintype.sum_equiv finProdFinEquiv _ _ fun p => ?_).symm
  refine congrArg f (Fin.ext ?_)
  show R * p.1.val + p.2.val = p.2.val + R * p.1.val
  exact Nat.add_comm _ _

theorem fold_prefix (B : ℕ) (g : Fin B → EReal) (acc : (n : ℕ) → n < B → EReal)
    (h0 : ∀ h, acc 0 h = 0 + g ⟨0, h⟩)
    (hs : ∀ n (h : n + 1 < B), acc (n + 1) h = acc n (Nat.lt_of_succ_lt h) + g ⟨n + 1, h⟩) :
    ∀ (n : ℕ) (h : n < B),
      acc n h = ∑ t : Fin (n + 1), g ⟨t.val, lt_of_lt_of_le t.isLt (Nat.succ_le_of_lt h)⟩
  | 0, h => by
    rw [h0, zero_add, Fin.sum_univ_one]; rfl
  | n + 1, h => by
    rw [Fin.sum_univ_castSucc, hs n h, fold_prefix B g acc h0 hs n (Nat.lt_of_succ_lt h)]; rfl

theorem fold_last (B : ℕ) (g : Fin B → EReal) (acc : (n : ℕ) → n < B → EReal)
    (h0 : ∀ h, acc 0 h = 0 + g ⟨0, h⟩)
    (hs : ∀ n (h : n + 1 < B), acc (n + 1) h = acc n (Nat.lt_of_succ_lt h) + g ⟨n + 1, h⟩)
    (n : ℕ) (h : n < B) (hn : n + 1 = B) : acc n h = ∑ t : Fin B, g t := by
  subst hn
  rw [fold_prefix _ g acc h0 hs n h]

theorem blocks_10 : 10 * 10000 = 100000 := by norm_num

theorem blocks_50 : 50 * 2000 = 100000 := by norm_num

theorem sum_blocks_10 (f : Fin 100000 → EReal) :
    ∑ n : Fin 100000, f n
      = ∑ t : Fin 10, ∑ r : Fin 10000, f ⟨10000 * t.val + r.val, blk_lt blocks_10 t r⟩ :=
  sum_blocks 10 10000 100000 blocks_10 f

theorem sum_blocks_50 (f : Fin 100000 → EReal) :
    ∑ n : Fin 100000, f n
      = ∑ t : Fin 50, ∑ r : Fin 2000, f ⟨2000 * t.val + r.val, blk_lt blocks_50 t r⟩ :=
  sum_blocks 50 2000 100000 blocks_50 f

theorem fold_eq_sum_10 (g : Fin 10 → EReal) (acc : (n : ℕ) → n < 10 → EReal)
    (h0 : ∀ h, acc 0 h = 0 + g ⟨0, h⟩)
    (hs : ∀ n (h : n + 1 < 10), acc (n + 1) h = acc n (Nat.lt_of_succ_lt h) + g ⟨n + 1, h⟩) :
    acc 9 (by norm_num) = ∑ t : Fin 10, g t :=
  fold_last 10 g acc h0 hs 9 (by norm_num) (by norm_num)

theorem fold_eq_sum_50 (g : Fin 50 → EReal) (acc : (n : ℕ) → n < 50 → EReal)
    (h0 : ∀ h, acc 0 h = 0 + g ⟨0, h⟩)
    (hs : ∀ n (h : n + 1 < 50), acc (n + 1) h = acc n (Nat.lt_of_succ_lt h) + g ⟨n + 1, h⟩) :
    acc 49 (by norm_num) = ∑ t : Fin 50, g t :=
  fold_last 50 g acc h0 hs 49 (by norm_num) (by norm_num)

end Cert.Spec

end
-- ==== Proof.KI.Reg2Ideal.lean ====
import proofs.«424828_j6554120094214_2_alg».proof.Proof.KI.Reg2
import proofs.«424828_j6554120094214_2_alg».proof.Proof.KI.Pay2
import proofs.«424828_j6554120094214_2_alg».proof.Proof.Math.Regroup
set_option maxRecDepth 16384

noncomputable section

namespace Cert.KernelIdeal.Hand

open Idealize.ShloMosaic Idealize.ShloMosaic.ValueIdx
open Cert.KernelIdeal Cert.KernelIdeal.Gen
open scoped BigOperators

theorem res2_2_apply (agg : Vec Ideal S100000x64 .f32) (b : Vec Ideal S1x64 .f32) (n : Fin 100000) (f : Fin 64) :
    res2_2 agg b (ix2 n f) = max (agg (ix2 n f) + b (ix2 (0 : Fin 1) f)) 0 := by
  have hn : n.val < 100000 := n.isLt
  refine (res2_2_at agg b ⟨n.val / 10000, by omega⟩ (ix2 (⟨n.val % 10000, Nat.mod_lt _ (by decide)⟩ : Fin 10000) f) (ix2 n f) ?_ rfl).trans ?_
  · show n.val = 10000 * (n.val / 10000) + n.val % 10000
    omega
  refine (k2_pay3_apply _ _ _ f).trans ?_
  have e : (⟨10000 * (n.val / 10000) + n.val % 10000, by omega⟩ : Fin 100000) = n :=
    Fin.ext (by show 10000 * (n.val / 10000) + n.val % 10000 = n.val; omega)
  show max (agg (ix2 (⟨10000 * (n.val / 10000) + n.val % 10000, _⟩ : Fin 100000) f) + b (ix2 (0 : Fin 1) f)) 0 = _
  rw [e]

theorem res2_2_block (agg : Vec Ideal S100000x64 .f32) (b : Vec Ideal S1x64 .f32) (t : Fin 10) (r : Fin 10000) (f : Fin 64) :
    res2_2 agg b (ix2 (⟨10000 * t.val + r.val, Cert.Spec.blk_lt Cert.Spec.blocks_10 t r⟩ : Fin 100000) f)
      = k2_pay3 (rows2 agg t) b (ix2 r f) :=
  res2_2_at agg b t (ix2 r f) _ rfl rfl

theorem accR2_0_apply_zero (agg : Vec Ideal S100000x64 .f32) (b : Vec Ideal S1x64 .f32) (f : Fin 64) (h : 0 < 10) :
    accR2_0 agg b 0 h (ix2 (0 : Fin 1) f) = 0 + ∑ r : Fin 10000, k2_pay3 (rows2 agg ⟨0, h⟩) b (ix2 r f) := by
  rw [accR2_0_zero]
  refine (k2_pay4_apply _ _ _ f).trans ?_
  rw [k2_pay1_apply]

theorem accR2_0_apply_succ (agg : Vec Ideal S100000x64 .f32) (b : Vec Ideal S1x64 .f32) (f : Fin 64) (n : ℕ) (h : n + 1 < 10) :
    accR2_0 agg b (n + 1) h (ix2 (0 : Fin 1) f)
      = accR2_0 agg b n (Nat.lt_of_succ_lt h) (ix2 (0 : Fin 1) f) + ∑ r : Fin 10000, k2_pay3 (rows2 agg ⟨n + 1, h⟩) b (ix2 r f) := by
  rw [accR2_0_succ]
  exact k2_pay4_apply _ _ _ f

theorem accR2_1_apply_zero (agg : Vec Ideal S100000x64 .f32) (b : Vec Ideal S1x64 .f32) (f : Fin 64) (h : 0 < 10) :
    accR2_1 agg b 0 h (ix2 (0 : Fin 1) f)
      = 0 + ∑ r : Fin 10000, k2_pay3 (rows2 agg ⟨0, h⟩) b (ix2 r f) * k2_pay3 (rows2 agg ⟨0, h⟩) b (ix2 r f) := by
  rw [accR2_1_zero]
  refine (k2_pay5_apply _ _ _ f).trans ?_
  rw [k2_pay2_apply]

theorem accR2_1_apply_succ (agg : Vec Ideal S100000x64 .f32) (b : Vec Ideal S1x64 .f32) (f : Fin 64) (n : ℕ) (h : n + 1 < 10) :
    accR2_1 agg b (n + 1) h (ix2 (0 : Fin 1) f)
      = accR2_1 agg b n (Nat.lt_of_succ_lt h) (ix2 (0 : Fin 1) f)
        + ∑ r : Fin 10000, k2_pay3 (rows2 agg ⟨n + 1, h⟩) b (ix2 r f) * k2_pay3 (rows2 agg ⟨n + 1, h⟩) b (ix2 r f) := by
  rw [accR2_1_succ]
  exact k2_pay5_apply _ _ _ f

theorem res2_3_apply (agg : Vec Ideal S100000x64 .f32) (b : Vec Ideal S1x64 .f32) (f : Fin 64) :
    res2_3 agg b (ix2 (0 : Fin 1) f) = ∑ n : Fin 100000, res2_2 agg b (ix2 n f) := by
  refine (Cert.Spec.fold_eq_sum_10 (fun t => ∑ r : Fin 10000, k2_pay3 (rows2 agg t) b (ix2 r f))
    (fun n h => accR2_0 agg b n h (ix2 (0 : Fin 1) f))
    (fun h => accR2_0_apply_zero agg b f h) (fun n h => accR2_0_apply_succ agg b f n h)).trans ?_
  rw [Cert.Spec.sum_blocks_10 (fun n => res2_2 agg b (ix2 n f))]
  exact Finset.sum_congr rfl fun t _ => Finset.sum_congr rfl fun r _ => (res2_2_block agg b t r f).symm

theorem res2_4_apply (agg : Vec Ideal S100000x64 .f32) (b : Vec Ideal S1x64 .f32) (f : Fin 64) :
    res2_4 agg b (ix2 (0 : Fin 1) f) = ∑ n : Fin 100000, res2_2 agg b (ix2 n f) * res2_2 agg b (ix2 n f) := by
  refine (Cert.Spec.fold_eq_sum_10 (fun t => ∑ r : Fin 10000, k2_pay3 (rows2 agg t) b (ix2 r f) * k2_pay3 (rows2 agg t) b (ix2 r f))
    (fun n h => accR2_1 agg b n h (ix2 (0 : Fin 1) f))
    (fun h => accR2_1_apply_zero agg b f h) (fun n h => accR2_1_apply_succ agg b f n h)).trans ?_
  rw [Cert.Spec.sum_blocks_10 (fun n => res2_2 agg b (ix2 n f) * res2_2 agg b (ix2 n f))]
  exact Finset.sum_congr rfl fun t _ => Finset.sum_congr rfl fun r _ => by rw [res2_2_block agg b t r f]

end Cert.KernelIdeal.Hand

end
-- ==== Proof.KI.Pay12.lean ====
import proofs.«424828_j6554120094214_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.ValueIdx
open Cert.KernelIdeal Cert.KernelIdeal.Gen
open scoped BigOperators

theorem k12_pay1_apply (q : Fin 512) (f : Fin 64) : (k12_pay1 (F := Ideal)) (ix2 q f) = 0 := by
  unfold k12_pay1
  simp only [shapeCast_self]
  exact Ideal.ofBits_zero_f32

theorem indicator12 (x y : BitVec 32) :
    FloatOps.sitofp (F := Ideal) .f32 ((IntOp.cmpi .eq x y).setWidth 32) = if x = y then (1 : EReal) else 0 := by
  show (((((IntOp.cmpi .eq x y).setWidth 32).toInt : ℤ) : ℝ) : EReal) = _
  by_cases h : x = y
  · rw [if_pos h]
    have hb : (x == y) = true := beq_iff_eq.mpr h
    have e : IntOp.cmpi .eq x y = 1#1 := by show BitVec.ofBool (x == y) = 1#1; rw [hb]; rfl
    rw [e, show ((1#1 : BitVec 1).setWidth 32).toInt = 1 from by decide]
    simp
  · rw [if_neg h]
    have hb : (x == y) = false := beq_eq_false_iff_ne.mpr h
    have e : IntOp.cmpi .eq x y = 0#1 := by show BitVec.ofBool (x == y) = 0#1; rw [hb]; rfl
    rw [e, show ((0#1 : BitVec 1).setWidth 32).toInt = 0 from by decide]
    simp

def onehot12 (v3 : Vec Ideal S2000x1 .i32) : FVec Ideal S2000x512 .bf16 :=
  truncf .bf16 (sitofp .f32 (extui 32 (cmpi .eq (broadcastTo S2000x512 v3 broadcasts_S2000x1_S2000x512)
    (iota .tc S2000x512 32 [1] iota_S2000x512_d1_w32)) natLt_1_32)) bitsLt_bf16_f32

theorem onehot12_apply (v3 : Vec Ideal S2000x1 .i32) (r : Fin 2000) (q : Fin 512) :
    onehot12 v3 (ix2 r q) = if v3 (ix2 r (0 : Fin 1)) = BitVec.ofNat 32 q.val then (1 : EReal) else 0 := by
  unfold onehot12
  show FloatOps.sitofp (F := Ideal) .f32 ((IntOp.cmpi .eq (broadcastTo S2000x512 v3 broadcasts_S2000x1_S2000x512 (ix2 r q))
    (iota .tc S2000x512 32 [1] iota_S2000x512_d1_w32 (ix2 r q))).setWidth 32) = _
  rw [broadcastTo_apply v3 broadcasts_S2000x1_S2000x512 (ix2 r q) (ix2 r (0 : Fin 1)) (fun a => by
      match a with
      | ⟨0, _⟩ => rfl
      | ⟨1, _⟩ => rfl),
    iota_single_apply]
  exact indicator12 _ _

theorem lhs12_0 (j : S512x64.Idx) (k : dot_S2000x512_S2000x64_S512x64_0_0_1_1_n_n.contr.Idx) :
    ((dot_S2000x512_S2000x64_S512x64_0_0_1_1_n_n.lhsIdx j k) (0 : Fin S2000x512.rank)).val = (k ⟨0, by decide⟩).val :=
  dot_S2000x512_S2000x64_S512x64_0_0_1_1_n_n.lhsIdx_val_of_single rfl j k

theorem lhs12_1 (j : S512x64.Idx) (k : dot_S2000x512_S2000x64_S512x64_0_0_1_1_n_n.contr.Idx) :
    ((dot_S2000x512_S2000x64_S512x64_0_0_1_1_n_n.lhsIdx j k) (1 : Fin S2000x512.rank)).val = (j (0 : Fin S512x64.rank)).val := by
  unfold DotDims.lhsIdx
  rw [dif_neg (show ¬(1 : Fin S2000x512.rank) ∈ dot_S2000x512_S2000x64_S512x64_0_0_1_1_n_n.lhsBatch by decide),
    dif_pos (show (1 : Fin S2000x512.rank) ∈ dot_S2000x512_S2000x64_S512x64_0_0_1_1_n_n.lhsNonContracting by decide)]
  rfl

theorem rhs12_0 (j : S512x64.Idx) (k : dot_S2000x512_S2000x64_S512x64_0_0_1_1_n_n.contr.Idx) :
    ((dot_S2000x512_S2000x64_S512x64_0_0_1_1_n_n.rhsIdx j k) (0 : Fin S2000x64.rank)).val = (k ⟨0, by decide⟩).val :=
  dot_S2000x512_S2000x64_S512x64_0_0_1_1_n_n.rhsIdx_val_of_single rfl j k

theorem rhs12_1 (j : S512x64.Idx) (k : dot_S2000x512_S2000x64_S512x64_0_0_1_1_n_n.contr.Idx) :
    ((dot_S2000x512_S2000x64_S512x64_0_0_1_1_n_n.rhsIdx j k) (1 : Fin S2000x64.rank)).val = (j (1 : Fin S512x64.rank)).val := by
  unfold DotDims.rhsIdx
  rw [dif_neg (show ¬(1 : Fin S2000x64.rank) ∈ dot_S2000x512_S2000x64_S512x64_0_0_1_1_n_n.rhsBatch by decide),
    dif_pos (show (1 : Fin S2000x64.rank) ∈ dot_S2000x512_S2000x64_S512x64_0_0_1_1_n_n.rhsNonContracting by decide)]
  rfl

theorem contract12_apply (A : FVec Ideal S2000x512 .bf16) (B : FVec Ideal S2000x64 .bf16) (q : Fin 512) (f : Fin 64) :
    FloatOps.matmul dot_S2000x512_S2000x64_S512x64_0_0_1_1_n_n none A B (constant (F := Ideal) S512x64 .f32 0x00000000#32) (ix2 q f)
      = ∑ r : Fin 2000, A (ix2 r q) * B (ix2 r f) := by
  rw [Ideal.matmul_constant_zero_apply]
  refine (Equiv.sum_comp (contrEquiv1 dot_S2000x512_S2000x64_S512x64_0_0_1_1_n_n 2000 rfl rfl).symm _).symm.trans ?_
  refine Finset.sum_congr rfl fun r _ => ?_
  have hl : dot_S2000x512_S2000x64_S512x64_0_0_1_1_n_n.lhsIdx (ix2 q f) ((contrEquiv1 dot_S2000x512_S2000x64_S512x64_0_0_1_1_n_n 2000 rfl rfl).symm r) = ix2 r q := by
    funext a; apply Fin.ext
    match a with
    | ⟨0, _⟩ => exact (lhs12_0 _ _).trans (contrEquiv1_symm_val _ 2000 rfl rfl r)
    | ⟨1, _⟩ => exact lhs12_1 _ _
  have hr : dot_S2000x512_S2000x64_S512x64_0_0_1_1_n_n.rhsIdx (ix2 q f) ((contrEquiv1 dot_S2000x512_S2000x64_S512x64_0_0_1_1_n_n 2000 rfl rfl).symm r) = ix2 r f := by
    funext a; apply Fin.ext
    match a with
    | ⟨0, _⟩ => exact (rhs12_0 _ _).trans (contrEquiv1_symm_val _ 2000 rfl rfl r)
    | ⟨1, _⟩ => exact rhs12_1 _ _
  rw [hl, hr]

theorem k12_pay2_eq (v3 : Vec Ideal S2000x1 .i32) (v11 : Vec Ideal S2000x64 .f32) (v15 : Vec Ideal S512x64 .f32) :
    k12_pay2 v3 v11 v15 = addf v15 (matmul dot_S2000x512_S2000x64_S512x64_0_0_1_1_n_n none (onehot12 v3)
      (truncf .bf16 v11 bitsLt_bf16_f32) (constant (F := Ideal) S512x64 .f32 0x00000000#32)) := by
  unfold k12_pay2 onehot12
  simp only [shapeCast_self]

theorem k12_pay2_apply (v3 : Vec Ideal S2000x1 .i32) (v11 : Vec Ideal S2000x64 .f32) (v15 : Vec Ideal S512x64 .f32)
    (q : Fin 512) (f : Fin 64) :
    k12_pay2 v3 v11 v15 (ix2 q f) = v15 (ix2 q f)
      + ∑ r : Fin 2000, (if v3 (ix2 r (0 : Fin 1)) = BitVec.ofNat 32 q.val then (1 : EReal) else 0) * v11 (ix2 r f) := by
  rw [k12_pay2_eq]
  show (v15 (ix2 q f) : EReal) + FloatOps.matmul dot_S2000x512_S2000x64_S512x64_0_0_1_1_n_n none (onehot12 v3)
    (truncf .bf16 v11 bitsLt_bf16_f32) (constant (F := Ideal) S512x64 .f32 0x00000000#32) (ix2 q f) = _
  rw [contract12_apply]
  refine congrArg (v15 (ix2 q f) + ·) (Finset.sum_congr rfl fun r _ => ?_)
  rw [onehot12_apply]
  rfl

end Cert.KernelIdeal.Hand

end
-- ==== Proof.KI.Res12.lean ====
import proofs.«424828_j6554120094214_2_alg».proof.Proof.KI.Reg12
import proofs.«424828_j6554120094214_2_alg».proof.Proof.KI.Pay12
import proofs.«424828_j6554120094214_2_alg».proof.Proof.Math.Regroup

noncomputable section

open scoped BigOperators

namespace Cert.KernelIdeal.Hand

open Idealize.ShloMosaic Idealize.ShloMosaic.ValueIdx
open Cert.KernelIdeal Cert.KernelIdeal.Gen

theorem fold12_zero_apply (h : Vec Ideal S100000x64 .f32) (b : Vec Ideal S100000x1 .i32) (g : Fin 512) (f : Fin 64) (hn : 0 < 50) :
    fold12 (F := Ideal) h b 0 hn (ix2 g f)
      = 0 + ∑ r : Fin 2000, (if b (ix2 (⟨2000 * 0 + r.val, Cert.Spec.blk_lt Cert.Spec.blocks_50 ⟨0, hn⟩ r⟩ : Fin 100000) (0 : Fin 1)) = BitVec.ofNat 32 g.val then (1 : EReal) else 0)
          * h (ix2 (⟨2000 * 0 + r.val, Cert.Spec.blk_lt Cert.Spec.blocks_50 ⟨0, hn⟩ r⟩ : Fin 100000) f) := by
  rw [fold12_zero]
  refine (k12_pay2_apply _ _ _ g f).trans ?_
  exact congrArg (fun z => z + _) (k12_pay1_apply g f)

theorem fold12_succ_apply (h : Vec Ideal S100000x64 .f32) (b : Vec Ideal S100000x1 .i32) (g : Fin 512) (f : Fin 64) (n : ℕ) (hn : n + 1 < 50) :
    fold12 (F := Ideal) h b (n + 1) hn (ix2 g f)
      = fold12 (F := Ideal) h b n (Nat.lt_of_succ_lt hn) (ix2 g f)
        + ∑ r : Fin 2000, (if b (ix2 (⟨2000 * (n + 1) + r.val, Cert.Spec.blk_lt Cert.Spec.blocks_50 ⟨n + 1, hn⟩ r⟩ : Fin 100000) (0 : Fin 1)) = BitVec.ofNat 32 g.val then (1 : EReal) else 0)
          * h (ix2 (⟨2000 * (n + 1) + r.val, Cert.Spec.blk_lt Cert.Spec.blocks_50 ⟨n + 1, hn⟩ r⟩ : Fin 100000) f) := by
  rw [fold12_succ]
  exact k12_pay2_apply _ _ _ g f

theorem res12_2_apply (h : Vec Ideal S100000x64 .f32) (b : Vec Ideal S100000x1 .i32) (g : Fin 512) (f : Fin 64) :
    res12_2 (F := Ideal) h b (ix2 g f)
      = ∑ n : Fin 100000, (if b (ix2 n (0 : Fin 1)) = BitVec.ofNat 32 g.val then (1 : EReal) else 0) * h (ix2 n f) := by
  rw [Cert.Spec.sum_blocks_50 (fun n : Fin 100000 => (if b (ix2 n (0 : Fin 1)) = BitVec.ofNat 32 g.val then (1 : EReal) else 0) * h (ix2 n f))]
  exact Cert.Spec.fold_eq_sum_50
    (fun t : Fin 50 => ∑ r : Fin 2000,
      (if b (ix2 (⟨2000 * t.val + r.val, Cert.Spec.blk_lt Cert.Spec.blocks_50 t r⟩ : Fin 100000) (0 : Fin 1)) = BitVec.ofNat 32 g.val then (1 : EReal) else 0)
        * h (ix2 (⟨2000 * t.val + r.val, Cert.Spec.blk_lt Cert.Spec.blocks_50 t r⟩ : Fin 100000) f))
    (fun n hn => fold12 (F := Ideal) h b n hn (ix2 g f))
    (fun hn => fold12_zero_apply h b g f hn)
    (fun n hn => fold12_succ_apply h b g f n hn)

end Cert.KernelIdeal.Hand

end
-- ==== Proof.KI.ValueRegs.lean ====
import proofs.«424828_j6554120094214_2_alg».proof.Proof.KI.RunFold
import proofs.«424828_j6554120094214_2_alg».proof.Proof.KI.Reg2Ideal
import proofs.«424828_j6554120094214_2_alg».proof.Proof.KI.Res12
import proofs.«424828_j6554120094214_2_alg».proof.Proof.Math.HostIdx
set_option maxRecDepth 16384

noncomputable section

open scoped BigOperators

namespace Cert.KernelIdeal.Hand

open Idealize.ShloMosaic Idealize.ShloMosaic.TcCoe
open Idealize.ShloMosaic.ValueIdx
open Cert.KernelIdeal Cert.KernelIdeal.Gen
open Cert.HostIdx (toMat)

theorem res6_2_eq (agg : Vec Ideal S100000x64 .f32) (b : Vec Ideal S1x64 .f32) : res6_2 (F := Ideal) agg b = res2_2 agg b := rfl

theorem accR6_0_eq (agg : Vec Ideal S100000x64 .f32) (b : Vec Ideal S1x64 .f32) :
    ∀ (n : ℕ) (h : n < 10), accR6_0 (F := Ideal) agg b n h = accR2_0 agg b n h
  | 0, _ => rfl
  | n + 1, h => by rw [accR6_0_succ, accR2_0_succ, accR6_0_eq agg b n]; rfl

theorem accR6_1_eq (agg : Vec Ideal S100000x64 .f32) (b : Vec Ideal S1x64 .f32) :
    ∀ (n : ℕ) (h : n < 10), accR6_1 (F := Ideal) agg b n h = accR2_1 agg b n h
  | 0, _ => rfl
  | n + 1, h => by rw [accR6_1_succ, accR2_1_succ, accR6_1_eq agg b n]; rfl

theorem res6_3_eq (agg : Vec Ideal S100000x64 .f32) (b : Vec Ideal S1x64 .f32) : res6_3 (F := Ideal) agg b = res2_3 agg b :=
  accR6_0_eq agg b 9 (by decide)

theorem res6_4_eq (agg : Vec Ideal S100000x64 .f32) (b : Vec Ideal S1x64 .f32) : res6_4 (F := Ideal) agg b = res2_4 agg b :=
  accR6_1_eq agg b 9 (by decide)

theorem res10_2_eq (agg : Vec Ideal S100000x64 .f32) (b : Vec Ideal S1x64 .f32) : res10_2 (F := Ideal) agg b = res2_2 agg b := rfl

theorem accR10_0_eq (agg : Vec Ideal S100000x64 .f32) (b : Vec Ideal S1x64 .f32) :
    ∀ (n : ℕ) (h : n < 10), accR10_0 (F := Ideal) agg b n h = accR2_0 agg b n h
  | 0, _ => rfl
  | n + 1, h => by rw [accR10_0_succ, accR2_0_succ, accR10_0_eq agg b n]; rfl

theorem accR10_1_eq (agg : Vec Ideal S100000x64 .f32) (b : Vec Ideal S1x64 .f32) :
    ∀ (n : ℕ) (h : n < 10), accR10_1 (F := Ideal) agg b n h = accR2_1 agg b n h
  | 0, _ => rfl
  | n + 1, h => by rw [accR10_1_succ, accR2_1_succ, accR10_1_eq agg b n]; rfl

theorem res10_3_eq (agg : Vec Ideal S100000x64 .f32) (b : Vec Ideal S1x64 .f32) : res10_3 (F := Ideal) agg b = res2_3 agg b :=
  accR10_0_eq agg b 9 (by decide)

theorem res10_4_eq (agg : Vec Ideal S100000x64 .f32) (b : Vec Ideal S1x64 .f32) : res10_4 (F := Ideal) agg b = res2_4 agg b :=
  accR10_1_eq agg b 9 (by decide)

theorem fold13_eq (h : Vec Ideal S100000x64 .f32) (b : Vec Ideal S100000x1 .i32) :
    ∀ (n : ℕ) (hn : n < 50), fold13 (F := Ideal) h b n hn = fold12 h b n hn
  | 0, _ => rfl
  | n + 1, hn => by rw [fold13_succ, fold12_succ, fold13_eq h b n]; rfl

theorem res13_2_eq (h : Vec Ideal S100000x64 .f32) (b : Vec Ideal S100000x1 .i32) : res13_2 (F := Ideal) h b = res12_2 h b :=
  fold13_eq h b 49 (by omega)

theorem fold14_eq (h : Vec Ideal S100000x64 .f32) (b : Vec Ideal S100000x1 .i32) :
    ∀ (n : ℕ) (hn : n < 50), fold14 (F := Ideal) h b n hn = fold12 h b n hn
  | 0, _ => rfl
  | n + 1, hn => by rw [fold14_succ, fold12_succ, fold14_eq h b n]; rfl

theorem res14_2_eq (h : Vec Ideal S100000x64 .f32) (b : Vec Ideal S100000x1 .i32) : res14_2 (F := Ideal) h b = res12_2 h b :=
  fold14_eq h b 49 (by omega)

theorem sq_core (A : Vec Ideal S100000x64 .f32) (Bv : Vec Ideal S1x64 .f32) (O2 : Vec Ideal S100000x64 .f32)
    (O4 : Vec Ideal S1x64 .f32) (h2 : O2 = res2_2 A Bv) (h4 : O4 = res2_4 A Bv) :
    ∀ f, toMat (r := 1) (c := 64) O4 0 f
      = ∑ n : Fin 100000, toMat (r := 100000) (c := 64) O2 n f * toMat (r := 100000) (c := 64) O2 n f := by
  subst h2; subst h4
  intro f
  exact res2_4_apply A Bv f

variable (m : (ℓ : Loc nD τ sig) → Buf (Elt Ideal) ℓ) (ρ : Dev nD → PrngReg) (c : Dev nD)

theorem reg_lin0 : ∀ n o, toMat (r := 100000) (c := 64) ((W4 (F := Ideal) m ρ c) (Proc.devRef .tc main_v32)) n o = ∑ k : Fin 64, toMat (r := 100000) (c := 64) ((W3 (F := Ideal) m ρ c) (Proc.devRef .tc main_arg0)) n k * toMat (r := 64) (c := 64) ((W3 (F := Ideal) m ρ c) (Proc.devRef .tc main_arg3)) o k :=
  fun n o => (congrFun ((W4_arr (F := Ideal) m ρ c 2).trans (final0_2 (VW3 (F := Ideal) m ρ) c)) (ix2 n o)).trans
    (res0_2_apply _ _ n o)

theorem reg_scale0 : ∀ e f, toMat (r := 1100000) (c := 64) ((W6 (F := Ideal) m ρ c) (Proc.devRef .tc main_v40)) e f = toMat (r := 1100000) (c := 64) ((W5 (F := Ideal) m ρ c) (Proc.devRef .tc main_v39)) e f * toMat (r := 1100000) (c := 1) ((W5 (F := Ideal) m ρ c) (Proc.devRef .tc main_v30)) e 0 :=
  fun e f => (congrFun ((W6_arr (F := Ideal) m ρ c 2).trans (final1_2 (VW5 (F := Ideal) m ρ) c)) (ix2 e f)).trans
    (res1_2_apply _ _ e f)

theorem reg_relu0 : ∀ n f, toMat (r := 100000) (c := 64) ((W8 (F := Ideal) m ρ c) (Proc.devRef .tc main_v45_0)) n f = max (toMat (r := 100000) (c := 64) ((W7 (F := Ideal) m ρ c) (Proc.devRef .tc main_v43)) n f + toMat (r := 1) (c := 64) ((W7 (F := Ideal) m ρ c) (Proc.devRef .tc main_v44)) 0 f) 0 :=
  fun n f => (congrFun ((W8_arr (F := Ideal) m ρ c 2).trans (final2_2 (VW7 (F := Ideal) m ρ) c)) (ix2 n f)).trans
    ((res2_2_apply _ _ n f))

theorem reg_sum0 : ∀ f, toMat (r := 1) (c := 64) ((W8 (F := Ideal) m ρ c) (Proc.devRef .tc main_v45_1)) 0 f = ∑ n : Fin 100000, toMat (r := 100000) (c := 64) ((W8 (F := Ideal) m ρ c) (Proc.devRef .tc main_v45_0)) n f := fun f => by
  have h3 := (W8_arr (F := Ideal) m ρ c 3).trans (final2_3 (VW7 (F := Ideal) m ρ) c)
  have h2 := (W8_arr (F := Ideal) m ρ c 2).trans (final2_2 (VW7 (F := Ideal) m ρ) c)
  refine (congrFun h3 (ix2 0 f)).trans (((res2_3_apply _ _ f).trans ?_))
  exact Finset.sum_congr rfl fun n _ => (congrFun h2 (ix2 n f)).symm

theorem reg_sq0 : ∀ f, toMat (r := 1) (c := 64) ((W8 (F := Ideal) m ρ c) (Proc.devRef .tc main_v45_2)) 0 f = ∑ n : Fin 100000, toMat (r := 100000) (c := 64) ((W8 (F := Ideal) m ρ c) (Proc.devRef .tc main_v45_0)) n f * toMat (r := 100000) (c := 64) ((W8 (F := Ideal) m ρ c) (Proc.devRef .tc main_v45_0)) n f :=
  sq_core ((W7 (F := Ideal) m ρ c) (Proc.devRef .tc main_v43)) ((W7 (F := Ideal) m ρ c) (Proc.devRef .tc main_v44)) ((W8 (F := Ideal) m ρ c) (Proc.devRef .tc main_v45_0)) ((W8 (F := Ideal) m ρ c) (Proc.devRef .tc main_v45_2))
    ((W8_arr (F := Ideal) m ρ c 2).trans (final2_2 (VW7 (F := Ideal) m ρ) c))
    ((W8_arr (F := Ideal) m ρ c 4).trans (final2_4 (VW7 (F := Ideal) m ρ) c))

theorem reg_bn0 : ∀ n f, toMat (r := 100000) (c := 64) ((W10 (F := Ideal) m ρ c) (Proc.devRef .tc main_v54)) n f
    = toMat (r := 1) (c := 64) ((W9 (F := Ideal) m ρ c) (Proc.devRef .tc main_v52)) 0 f * (toMat (r := 100000) (c := 64) ((W9 (F := Ideal) m ρ c) (Proc.devRef .tc main_v45_0)) n f - toMat (r := 1) (c := 64) ((W9 (F := Ideal) m ρ c) (Proc.devRef .tc main_v47)) 0 f)
        * Ideal.rsqrt (toMat (r := 1) (c := 64) ((W9 (F := Ideal) m ρ c) (Proc.devRef .tc main_v51)) 0 f + Cert.Spec.eps) + toMat (r := 1) (c := 64) ((W9 (F := Ideal) m ρ c) (Proc.devRef .tc main_v53)) 0 f :=
  fun n f => (congrFun ((W10_arr (F := Ideal) m ρ c 5).trans (final3_5 (VW9 (F := Ideal) m ρ) c)) (ix2 n f)).trans
    (res3_5_apply _ _ _ _ _ n f)

theorem reg_lin1 : ∀ n o, toMat (r := 100000) (c := 64) ((W11 (F := Ideal) m ρ c) (Proc.devRef .tc main_v55)) n o = ∑ k : Fin 64, toMat (r := 100000) (c := 64) ((W10 (F := Ideal) m ρ c) (Proc.devRef .tc main_v54)) n k * toMat (r := 64) (c := 64) ((W10 (F := Ideal) m ρ c) (Proc.devRef .tc main_arg7)) o k :=
  fun n o => (congrFun ((W11_arr (F := Ideal) m ρ c 2).trans (final4_2 (VW10 (F := Ideal) m ρ) c)) (ix2 n o)).trans
    (res4_2_apply _ _ n o)

theorem reg_scale1 : ∀ e f, toMat (r := 1100000) (c := 64) ((W13 (F := Ideal) m ρ c) (Proc.devRef .tc main_v63)) e f = toMat (r := 1100000) (c := 64) ((W12 (F := Ideal) m ρ c) (Proc.devRef .tc main_v62)) e f * toMat (r := 1100000) (c := 1) ((W12 (F := Ideal) m ρ c) (Proc.devRef .tc main_v30)) e 0 :=
  fun e f => (congrFun ((W13_arr (F := Ideal) m ρ c 2).trans (final5_2 (VW12 (F := Ideal) m ρ) c)) (ix2 e f)).trans
    (res5_2_apply _ _ e f)

theorem reg_relu1 : ∀ n f, toMat (r := 100000) (c := 64) ((W15 (F := Ideal) m ρ c) (Proc.devRef .tc main_v68_0)) n f = max (toMat (r := 100000) (c := 64) ((W14 (F := Ideal) m ρ c) (Proc.devRef .tc main_v66)) n f + toMat (r := 1) (c := 64) ((W14 (F := Ideal) m ρ c) (Proc.devRef .tc main_v67)) 0 f) 0 :=
  fun n f => (congrFun ((W15_arr (F := Ideal) m ρ c 2).trans (final6_2 (VW14 (F := Ideal) m ρ) c)) (ix2 n f)).trans
    ((congrFun (res6_2_eq _ _) (ix2 n f)).trans (res2_2_apply _ _ n f))

theorem reg_sum1 : ∀ f, toMat (r := 1) (c := 64) ((W15 (F := Ideal) m ρ c) (Proc.devRef .tc main_v68_1)) 0 f = ∑ n : Fin 100000, toMat (r := 100000) (c := 64) ((W15 (F := Ideal) m ρ c) (Proc.devRef .tc main_v68_0)) n f := fun f => by
  have h3 := (W15_arr (F := Ideal) m ρ c 3).trans (final6_3 (VW14 (F := Ideal) m ρ) c)
  have h2 := (W15_arr (F := Ideal) m ρ c 2).trans (final6_2 (VW14 (F := Ideal) m ρ) c)
  refine (congrFun h3 (ix2 0 f)).trans ((congrFun (res6_3_eq _ _) (ix2 0 f)).trans ((res2_3_apply _ _ f).trans ?_))
  exact Finset.sum_congr rfl fun n _ => ((congrFun h2 (ix2 n f)).trans (congrFun (res6_2_eq _ _) (ix2 n f))).symm

theorem reg_sq1 : ∀ f, toMat (r := 1) (c := 64) ((W15 (F := Ideal) m ρ c) (Proc.devRef .tc main_v68_2)) 0 f = ∑ n : Fin 100000, toMat (r := 100000) (c := 64) ((W15 (F := Ideal) m ρ c) (Proc.devRef .tc main_v68_0)) n f * toMat (r := 100000) (c := 64) ((W15 (F := Ideal) m ρ c) (Proc.devRef .tc main_v68_0)) n f :=
  sq_core ((W14 (F := Ideal) m ρ c) (Proc.devRef .tc main_v66)) ((W14 (F := Ideal) m ρ c) (Proc.devRef .tc main_v67)) ((W15 (F := Ideal) m ρ c) (Proc.devRef .tc main_v68_0)) ((W15 (F := Ideal) m ρ c) (Proc.devRef .tc main_v68_2))
    ((W15_arr (F := Ideal) m ρ c 2).trans ((final6_2 (VW14 (F := Ideal) m ρ) c).trans (res6_2_eq _ _)))
    ((W15_arr (F := Ideal) m ρ c 4).trans ((final6_4 (VW14 (F := Ideal) m ρ) c).trans (res6_4_eq _ _)))

theorem reg_bn1 : ∀ n f, toMat (r := 100000) (c := 64) ((W17 (F := Ideal) m ρ c) (Proc.devRef .tc main_v77)) n f
    = toMat (r := 1) (c := 64) ((W16 (F := Ideal) m ρ c) (Proc.devRef .tc main_v75)) 0 f * (toMat (r := 100000) (c := 64) ((W16 (F := Ideal) m ρ c) (Proc.devRef .tc main_v68_0)) n f - toMat (r := 1) (c := 64) ((W16 (F := Ideal) m ρ c) (Proc.devRef .tc main_v70)) 0 f)
        * Ideal.rsqrt (toMat (r := 1) (c := 64) ((W16 (F := Ideal) m ρ c) (Proc.devRef .tc main_v74)) 0 f + Cert.Spec.eps) + toMat (r := 1) (c := 64) ((W16 (F := Ideal) m ρ c) (Proc.devRef .tc main_v76)) 0 f :=
  fun n f => (congrFun ((W17_arr (F := Ideal) m ρ c 5).trans (final7_5 (VW16 (F := Ideal) m ρ) c)) (ix2 n f)).trans
    (res7_5_apply _ _ _ _ _ n f)

theorem reg_lin2 : ∀ n o, toMat (r := 100000) (c := 64) ((W18 (F := Ideal) m ρ c) (Proc.devRef .tc main_v78)) n o = ∑ k : Fin 64, toMat (r := 100000) (c := 64) ((W17 (F := Ideal) m ρ c) (Proc.devRef .tc main_v77)) n k * toMat (r := 64) (c := 64) ((W17 (F := Ideal) m ρ c) (Proc.devRef .tc main_arg11)) o k :=
  fun n o => (congrFun ((W18_arr (F := Ideal) m ρ c 2).trans (final8_2 (VW17 (F := Ideal) m ρ) c)) (ix2 n o)).trans
    (res8_2_apply _ _ n o)

theorem reg_scale2 : ∀ e f, toMat (r := 1100000) (c := 64) ((W20 (F := Ideal) m ρ c) (Proc.devRef .tc main_v86)) e f = toMat (r := 1100000) (c := 64) ((W19 (F := Ideal) m ρ c) (Proc.devRef .tc main_v85)) e f * toMat (r := 1100000) (c := 1) ((W19 (F := Ideal) m ρ c) (Proc.devRef .tc main_v30)) e 0 :=
  fun e f => (congrFun ((W20_arr (F := Ideal) m ρ c 2).trans (final9_2 (VW19 (F := Ideal) m ρ) c)) (ix2 e f)).trans
    (res9_2_apply _ _ e f)

theorem reg_relu2 : ∀ n f, toMat (r := 100000) (c := 64) ((W22 (F := Ideal) m ρ c) (Proc.devRef .tc main_v91_0)) n f = max (toMat (r := 100000) (c := 64) ((W21 (F := Ideal) m ρ c) (Proc.devRef .tc main_v89)) n f + toMat (r := 1) (c := 64) ((W21 (F := Ideal) m ρ c) (Proc.devRef .tc main_v90)) 0 f) 0 :=
  fun n f => (congrFun ((W22_arr (F := Ideal) m ρ c 2).trans (final10_2 (VW21 (F := Ideal) m ρ) c)) (ix2 n f)).trans
    ((congrFun (res10_2_eq _ _) (ix2 n f)).trans (res2_2_apply _ _ n f))

theorem reg_sum2 : ∀ f, toMat (r := 1) (c := 64) ((W22 (F := Ideal) m ρ c) (Proc.devRef .tc main_v91_1)) 0 f = ∑ n : Fin 100000, toMat (r := 100000) (c := 64) ((W22 (F := Ideal) m ρ c) (Proc.devRef .tc main_v91_0)) n f := fun f => by
  have h3 := (W22_arr (F := Ideal) m ρ c 3).trans (final10_3 (VW21 (F := Ideal) m ρ) c)
  have h2 := (W22_arr (F := Ideal) m ρ c 2).trans (final10_2 (VW21 (F := Ideal) m ρ) c)
  refine (congrFun h3 (ix2 0 f)).trans ((congrFun (res10_3_eq _ _) (ix2 0 f)).trans ((res2_3_apply _ _ f).trans ?_))
  exact Finset.sum_congr rfl fun n _ => ((congrFun h2 (ix2 n f)).trans (congrFun (res10_2_eq _ _) (ix2 n f))).symm

theorem reg_sq2 : ∀ f, toMat (r := 1) (c := 64) ((W22 (F := Ideal) m ρ c) (Proc.devRef .tc main_v91_2)) 0 f = ∑ n : Fin 100000, toMat (r := 100000) (c := 64) ((W22 (F := Ideal) m ρ c) (Proc.devRef .tc main_v91_0)) n f * toMat (r := 100000) (c := 64) ((W22 (F := Ideal) m ρ c) (Proc.devRef .tc main_v91_0)) n f :=
  sq_core ((W21 (F := Ideal) m ρ c) (Proc.devRef .tc main_v89)) ((W21 (F := Ideal) m ρ c) (Proc.devRef .tc main_v90)) ((W22 (F := Ideal) m ρ c) (Proc.devRef .tc main_v91_0)) ((W22 (F := Ideal) m ρ c) (Proc.devRef .tc main_v91_2))
    ((W22_arr (F := Ideal) m ρ c 2).trans ((final10_2 (VW21 (F := Ideal) m ρ) c).trans (res10_2_eq _ _)))
    ((W22_arr (F := Ideal) m ρ c 4).trans ((final10_4 (VW21 (F := Ideal) m ρ) c).trans (res10_4_eq _ _)))

theorem reg_bn2 : ∀ n f, toMat (r := 100000) (c := 64) ((W24 (F := Ideal) m ρ c) (Proc.devRef .tc main_v100)) n f
    = toMat (r := 1) (c := 64) ((W23 (F := Ideal) m ρ c) (Proc.devRef .tc main_v98)) 0 f * (toMat (r := 100000) (c := 64) ((W23 (F := Ideal) m ρ c) (Proc.devRef .tc main_v91_0)) n f - toMat (r := 1) (c := 64) ((W23 (F := Ideal) m ρ c) (Proc.devRef .tc main_v93)) 0 f)
        * Ideal.rsqrt (toMat (r := 1) (c := 64) ((W23 (F := Ideal) m ρ c) (Proc.devRef .tc main_v97)) 0 f + Cert.Spec.eps) + toMat (r := 1) (c := 64) ((W23 (F := Ideal) m ρ c) (Proc.devRef .tc main_v99)) 0 f :=
  fun n f => (congrFun ((W24_arr (F := Ideal) m ρ c 5).trans (final11_5 (VW23 (F := Ideal) m ρ) c)) (ix2 n f)).trans
    (res11_5_apply _ _ _ _ _ n f)

def hotOf (bt : IVec S100000x1 32) (n : Fin 100000) (q : Fin 512) : EReal :=
  if bt (ix2 n 0) = BitVec.ofNat 32 q.val then 1 else 0

theorem hotOf_eq (bt : IVec S100000x1 32) (n : Fin 100000) (q : Fin 512) :
    hotOf bt n q = if bt (ix2 n 0) = BitVec.ofNat 32 q.val then 1 else 0 := rfl

theorem poolHot_core (H : Vec Ideal S100000x64 .f32) (B : Vec Ideal S100000x1 .i32) (O : Vec Ideal S512x64 .f32)
    (hO : O = res12_2 H B) :
    ∀ q f, toMat (r := 512) (c := 64) O q f
      = ∑ n : Fin 100000, hotOf B n q * toMat (r := 100000) (c := 64) H n f := by
  subst hO
  intro q f
  exact res12_2_apply H B q f

theorem pool_out0 : ((W25 (F := Ideal) m ρ c) (Proc.devRef .tc main_v101) : Vec Ideal S512x64 .f32)
    = res12_2 (F := Ideal) ((W24 (F := Ideal) m ρ c) (Proc.devRef .tc main_v54)) ((W24 (F := Ideal) m ρ c) (Proc.devRef .tc main_v31)) :=
  (W25_arr (F := Ideal) m ρ c 2).trans (final12_2 (VW24 (F := Ideal) m ρ) c)

theorem pool_out1 : ((W26 (F := Ideal) m ρ c) (Proc.devRef .tc main_v102) : Vec Ideal S512x64 .f32)
    = res12_2 (F := Ideal) ((W25 (F := Ideal) m ρ c) (Proc.devRef .tc main_v77)) ((W25 (F := Ideal) m ρ c) (Proc.devRef .tc main_v31)) :=
  (W26_arr (F := Ideal) m ρ c 2).trans ((final13_2 (VW25 (F := Ideal) m ρ) c).trans (res13_2_eq _ _))

theorem pool_out2 : ((W27 (F := Ideal) m ρ c) (Proc.devRef .tc main_v103) : Vec Ideal S512x64 .f32)
    = res12_2 (F := Ideal) ((W26 (F := Ideal) m ρ c) (Proc.devRef .tc main_v100)) ((W26 (F := Ideal) m ρ c) (Proc.devRef .tc main_v31)) :=
  (W27_arr (F := Ideal) m ρ c 2).trans ((final14_2 (VW26 (F := Ideal) m ρ) c).trans (res14_2_eq _ _))

theorem reg_poolHot0 : ∀ q f, toMat (r := 512) (c := 64) ((W25 (F := Ideal) m ρ c) (Proc.devRef .tc main_v101)) q f
    = ∑ n : Fin 100000, hotOf ((W24 (F := Ideal) m ρ c) (Proc.devRef .tc main_v31)) n q * toMat (r := 100000) (c := 64) ((W24 (F := Ideal) m ρ c) (Proc.devRef .tc main_v54)) n f :=
  poolHot_core _ _ _ (pool_out0 m ρ c)

theorem reg_poolHot1 : ∀ q f, toMat (r := 512) (c := 64) ((W26 (F := Ideal) m ρ c) (Proc.devRef .tc main_v102)) q f
    = ∑ n : Fin 100000, hotOf ((W25 (F := Ideal) m ρ c) (Proc.devRef .tc main_v31)) n q * toMat (r := 100000) (c := 64) ((W25 (F := Ideal) m ρ c) (Proc.devRef .tc main_v77)) n f :=
  poolHot_core _ _ _ (pool_out1 m ρ c)

theorem reg_poolHot2 : ∀ q f, toMat (r := 512) (c := 64) ((W27 (F := Ideal) m ρ c) (Proc.devRef .tc main_v103)) q f
    = ∑ n : Fin 100000, hotOf ((W26 (F := Ideal) m ρ c) (Proc.devRef .tc main_v31)) n q * toMat (r := 100000) (c := 64) ((W26 (F := Ideal) m ρ c) (Proc.devRef .tc main_v100)) n f :=
  poolHot_core _ _ _ (pool_out2 m ρ c)

end Cert.KernelIdeal.Hand

end
-- ==== Proof.KI.ValueFinal.lean ====
import proofs.«424828_j6554120094214_2_alg».proof.Proof.KI.ValueFold
import proofs.«424828_j6554120094214_2_alg».proof.Proof.KI.ValueRegs
set_option maxRecDepth 16384

noncomputable section

namespace Cert.KernelIdeal.Hand

open Idealize.ShloMosaic Idealize.ShloMosaic.TcCoe
open Idealize.ShloMosaic.ValueIdx
open Cert.KernelIdeal Cert.KernelIdeal.Gen
open Cert.Spec (Nn Ee Gg)
open Cert.HostIdx (selOf tgtOf toMat ofMat toVec)
open Cert.EdgeIdx (gidxOf sidxOf bidxOf)
variable (m : (ℓ : Loc nD τ sig) → Buf (Elt Ideal) ℓ) (ρ : Dev nD → PrngReg) (c : Dev nD)
set_option maxHeartbeats 4000000 in
theorem foldFacts : FoldFacts (WsOf m ρ c) hotOf :=
  foldFacts_of m ρ c hotOf
    (reg_lin0 m ρ c) (reg_scale0 m ρ c) (reg_relu0 m ρ c) (reg_sum0 m ρ c) (reg_sq0 m ρ c) (reg_bn0 m ρ c)
    (reg_lin1 m ρ c) (reg_scale1 m ρ c) (reg_relu1 m ρ c) (reg_sum1 m ρ c) (reg_sq1 m ρ c) (reg_bn1 m ρ c)
    (reg_lin2 m ρ c) (reg_scale2 m ρ c) (reg_relu2 m ρ c) (reg_sum2 m ρ c) (reg_sq2 m ρ c) (reg_bn2 m ρ c)
    (reg_poolHot0 m ρ c) (reg_poolHot1 m ρ c) (reg_poolHot2 m ρ c) hotOf_eq

theorem kernel_results :
    toMat (r := 100000) (c := 64) ((W28 (F := Ideal) m ρ c) (Proc.devRef .tc main_v100)) = h3K (WsOf m ρ c) ∧
    ((W28 (F := Ideal) m ρ c) (Proc.devRef .tc main_v104))
      = cat3 ((W25 (F := Ideal) m ρ c) (Proc.devRef .tc main_v101)) ((W26 (F := Ideal) m ρ c) (Proc.devRef .tc main_v102)) ((W27 (F := Ideal) m ρ c) (Proc.devRef .tc main_v103)) ∧
    toMat (r := 512) (c := 64) ((W25 (F := Ideal) m ρ c) (Proc.devRef .tc main_v101)) = Cert.Spec.poolHot (segK (WsOf m ρ c)) (h1K (WsOf m ρ c)) ∧
    toMat (r := 512) (c := 64) ((W26 (F := Ideal) m ρ c) (Proc.devRef .tc main_v102)) = Cert.Spec.poolHot (segK (WsOf m ρ c)) (h2K (WsOf m ρ c)) ∧
    toMat (r := 512) (c := 64) ((W27 (F := Ideal) m ρ c) (Proc.devRef .tc main_v103)) = Cert.Spec.poolHot (segK (WsOf m ρ c)) (h3K (WsOf m ρ c)) :=
  kernel_results_at m ρ c hotOf (foldFacts m ρ c)

end Cert.KernelIdeal.Hand
-- ==== Proof.Ref.LayerT.lean ====
import proofs.«424828_j6554120094214_2_alg».proof.Proof.Gen.ReferenceIdeal
import proofs.«424828_j6554120094214_2_alg».proof.Proof.Math.EdgeIdx

noncomputable section

namespace Cert.ReferenceIdeal.Hand

open Cert.ReferenceIdeal Cert.ReferenceIdeal.Gen Idealize.ShloMosaic Cert.EdgeIdx

def down (v : FVec Ideal S64 .f32) : FVec Ideal S100000x64 .f32 :=
  broadcastInDim S100000x64 ![0, 1] bcast_S1x64_S100000x64_0_1 (broadcastInDim S1x64 ![1] bcast_S64_S1x64_1 v)

def actT (x : FVec Ideal S100000x64 .f32) (w : FVec Ideal S64x64 .f32) (b : FVec Ideal S64 .f32)
    (s t : IVec S1100000 32) (nrm : FVec Ideal S1100000 .f32) : FVec Ideal S100000x64 .f32 :=
  maximumf
    (addf
      (Host.scatterAdd scatter_S100000x64_S1100000x1_S1100000x64_1_0_0_1
        (broadcastInDim S100000x64 ![] bcast_S_S100000x64 (constant S_ .f32 0x00000000#32))
        (sidxOf t)
        (mulf
          (Host.gather gather_S100000x64_S1100000x1_S1100000x64_1_0_n_n_0_1_164
            (Host.dotGeneral dot_S100000x64_S64x64_S100000x64_1_0_0_1_n_n none x
              (transpose S64x64 [1, 0] w transposes_S64x64_S64x64_1_0))
            (gidxOf s))
          (broadcastInDim S1100000x64 ![0, 1] bcast_S1100000x1_S1100000x64_0_1
            (broadcastInDim S1100000x1 ![0] bcast_S1100000_S1100000x1_0 nrm))))
      (down b))
    (broadcastInDim S100000x64 ![] bcast_S_S100000x64 (constant S_ .f32 0x00000000#32))

def meanT (h : FVec Ideal S100000x64 .f32) : FVec Ideal S64 .f32 :=
  Host.divf (Host.reduceAdd h (constant S_ .f32 0x00000000#32) reducesTo_S100000x64_S64_d0 h_S_)
    (broadcastInDim S64 ![] bcast_S_S64 (constant S_ .f32 0x47C35000#32))

def varT (h : FVec Ideal S100000x64 .f32) (z : IVec S_ 32) : FVec Ideal S64 .f32 :=
  select
    (broadcastInDim S64 ![] bcast_S_S64
      (cmpf (F := Ideal) .ogt (subf (constant S_ .f32 0x47C35000#32) (sitofp (F := Ideal) .f32 z)) (constant S_ .f32 0x00000000#32)))
    (Host.divf
      (Host.reduceAdd
        (mulf
          (subf h (broadcastInDim S100000x64 ![0, 1] bcast_S1x64_S100000x64_0_1
            (Host.divf
              (broadcastInDim S1x64 ![1] bcast_S64_S1x64_1
                (Host.reduceAdd h (constant S_ .f32 0x00000000#32) reducesTo_S100000x64_S64_d0 h_S_))
              (broadcastInDim S1x64 ![] bcast_S_S1x64 (constant S_ .f32 0x47C35000#32)))))
          (subf h (broadcastInDim S100000x64 ![0, 1] bcast_S1x64_S100000x64_0_1
            (Host.divf
              (broadcastInDim S1x64 ![1] bcast_S64_S1x64_1
                (Host.reduceAdd h (constant S_ .f32 0x00000000#32) reducesTo_S100000x64_S64_d0 h_S_))
              (broadcastInDim S1x64 ![] bcast_S_S1x64 (constant S_ .f32 0x47C35000#32))))))
        (constant S_ .f32 0x00000000#32) reducesTo_S100000x64_S64_d0 h_S_)
      (broadcastInDim S64 ![] bcast_S_S64 (subf (constant S_ .f32 0x47C35000#32) (sitofp (F := Ideal) .f32 z))))
    (broadcastInDim S64 ![] bcast_S_S64 (id (constant S_ .f32 0x7FC00000#32)))

def bnT (h : FVec Ideal S100000x64 .f32) (mu var g beta : FVec Ideal S64 .f32) : FVec Ideal S100000x64 .f32 :=
  addf
    (mulf (mulf (down g) (subf h (down mu)))
      (down (Host.rsqrt (addf var (broadcastInDim S64 ![] bcast_S_S64 (constant S_ .f32 0x3727C5AC#32))))))
    (down beta)

def layerT (x : FVec Ideal S100000x64 .f32) (w : FVec Ideal S64x64 .f32) (b g beta : FVec Ideal S64 .f32)
    (s t : IVec S1100000 32) (nrm : FVec Ideal S1100000 .f32) : FVec Ideal S100000x64 .f32 :=
  bnT (actT x w b s t nrm) (meanT (actT x w b s t nrm)) (varT (actT x w b s t nrm) (constantI S_ 32 0#32)) g beta

end Cert.ReferenceIdeal.Hand

end
-- ==== Proof.Ref.ReadOps.lean ====
import proofs.«424828_j6554120094214_2_alg».proof.Proof.Ref.Writes
import proofs.«424828_j6554120094214_2_alg».proof.Proof.Ref.LayerT
import proofs.«424828_j6554120094214_2_alg».proof.Proof.LibCast

noncomputable section

namespace Cert.ReferenceIdeal.Hand

open Cert.ReferenceIdeal Cert.ReferenceIdeal.Gen Idealize.ShloMosaic Idealize.ShloMosaic.TcCoe Idealize.SL.Sem Idealize.ShloMosaic.StableHlo Cert.EdgeIdx

section AnyFloats

variable {F : FTy → Type} [FloatOps F]

def downG (v : FVec F S64 .f32) : FVec F S100000x64 .f32 :=
  broadcastInDim S100000x64 ![0, 1] bcast_S1x64_S100000x64_0_1 (broadcastInDim S1x64 ![1] bcast_S64_S1x64_1 v)

def actG (x : FVec F S100000x64 .f32) (w : FVec F S64x64 .f32) (b : FVec F S64 .f32)
    (s t : IVec S1100000 32) (nrm : FVec F S1100000 .f32) : FVec F S100000x64 .f32 :=
  maximumf
    (addf
      (Host.scatterAdd scatter_S100000x64_S1100000x1_S1100000x64_1_0_0_1
        (broadcastInDim S100000x64 ![] bcast_S_S100000x64 (constant S_ .f32 0x00000000#32))
        (sidxOf t)
        (mulf
          (Host.gather gather_S100000x64_S1100000x1_S1100000x64_1_0_n_n_0_1_164
            (Host.dotGeneral dot_S100000x64_S64x64_S100000x64_1_0_0_1_n_n none x
              (transpose S64x64 [1, 0] w transposes_S64x64_S64x64_1_0))
            (gidxOf s))
          (broadcastInDim S1100000x64 ![0, 1] bcast_S1100000x1_S1100000x64_0_1
            (broadcastInDim S1100000x1 ![0] bcast_S1100000_S1100000x1_0 nrm))))
      (downG b))
    (broadcastInDim S100000x64 ![] bcast_S_S100000x64 (constant S_ .f32 0x00000000#32))

def meanG (h : FVec F S100000x64 .f32) : FVec F S64 .f32 :=
  Host.divf (Host.reduceAdd h (constant S_ .f32 0x00000000#32) reducesTo_S100000x64_S64_d0 h_S_)
    (broadcastInDim S64 ![] bcast_S_S64 (constant S_ .f32 0x47C35000#32))

def varG (h : FVec F S100000x64 .f32) (z : IVec S_ 32) : FVec F S64 .f32 :=
  select
    (broadcastInDim S64 ![] bcast_S_S64
      (cmpf (F := F) .ogt (subf (constant S_ .f32 0x47C35000#32) (sitofp (F := F) .f32 z)) (constant S_ .f32 0x00000000#32)))
    (Host.divf
      (Host.reduceAdd
        (mulf
          (subf h (broadcastInDim S100000x64 ![0, 1] bcast_S1x64_S100000x64_0_1
            (Host.divf
              (broadcastInDim S1x64 ![1] bcast_S64_S1x64_1
                (Host.reduceAdd h (constant S_ .f32 0x00000000#32) reducesTo_S100000x64_S64_d0 h_S_))
              (broadcastInDim S1x64 ![] bcast_S_S1x64 (constant S_ .f32 0x47C35000#32)))))
          (subf h (broadcastInDim S100000x64 ![0, 1] bcast_S1x64_S100000x64_0_1
            (Host.divf
              (broadcastInDim S1x64 ![1] bcast_S64_S1x64_1
                (Host.reduceAdd h (constant S_ .f32 0x00000000#32) reducesTo_S100000x64_S64_d0 h_S_))
              (broadcastInDim S1x64 ![] bcast_S_S1x64 (constant S_ .f32 0x47C35000#32))))))
        (constant S_ .f32 0x00000000#32) reducesTo_S100000x64_S64_d0 h_S_)
      (broadcastInDim S64 ![] bcast_S_S64 (subf (constant S_ .f32 0x47C35000#32) (sitofp (F := F) .f32 z))))
    (broadcastInDim S64 ![] bcast_S_S64 (id (constant S_ .f32 0x7FC00000#32)))

def bnG (h : FVec F S100000x64 .f32) (mu var g beta : FVec F S64 .f32) : FVec F S100000x64 .f32 :=
  addf
    (mulf (mulf (downG g) (subf h (downG mu)))
      (downG (Host.rsqrt (addf var (broadcastInDim S64 ![] bcast_S_S64 (constant S_ .f32 0x3727C5AC#32))))))
    (downG beta)

def layerG (x : FVec F S100000x64 .f32) (w : FVec F S64x64 .f32) (b g beta : FVec F S64 .f32)
    (s t : IVec S1100000 32) (nrm : FVec F S1100000 .f32) : FVec F S100000x64 .f32 :=
  bnG (actG x w b s t nrm) (meanG (actG x w b s t nrm)) (varG (actG x w b s t nrm) (constantI S_ 32 0#32)) g beta

set_option maxRecDepth 100000 in
set_option maxHeartbeats 4000000 in
theorem opsL0_outG (W : Valuation τ sig (Elt F)) :
    StableHlo.after (opsL0 (F := F)) W (Proc.devRef .tc main_v67)
      = layerG (W (Proc.devRef .tc main_arg0)) (W (Proc.devRef .tc main_arg3)) (W (Proc.devRef .tc main_arg4))
          (W (Proc.devRef .tc main_arg5)) (W (Proc.devRef .tc main_arg6)) (W (Proc.devRef .tc main_v3))
          (W (Proc.devRef .tc main_v6)) (W (Proc.devRef .tc main_v29)) := by
  after_results_simp
  simp only [TRef.ofBuf_toBuf, TRef.toBuf_ofBuf]
  unfold layerG bnG meanG varG actG downG gidxOf sidxOf
  rfl

set_option maxRecDepth 100000 in
set_option maxHeartbeats 4000000 in
theorem opsL1_outG (W : Valuation τ sig (Elt F)) :
    StableHlo.after (opsL1 (F := F)) W (Proc.devRef .tc main_v105)
      = layerG (W (Proc.devRef .tc main_v67)) (W (Proc.devRef .tc main_arg7)) (W (Proc.devRef .tc main_arg8))
          (W (Proc.devRef .tc main_arg9)) (W (Proc.devRef .tc main_arg10)) (W (Proc.devRef .tc main_v3))
          (W (Proc.devRef .tc main_v6)) (W (Proc.devRef .tc main_v29)) := by
  after_results_simp
  simp only [TRef.ofBuf_toBuf, TRef.toBuf_ofBuf]
  unfold layerG bnG meanG varG actG downG gidxOf sidxOf
  rfl

set_option maxRecDepth 100000 in
set_option maxHeartbeats 4000000 in
theorem opsL2_outG (W : Valuation τ sig (Elt F)) :
    StableHlo.after (opsL2 (F := F)) W (Proc.devRef .tc main_v143)
      = layerG (W (Proc.devRef .tc main_v105)) (W (Proc.devRef .tc main_arg11)) (W (Proc.devRef .tc main_arg12))
          (W (Proc.devRef .tc main_arg13)) (W (Proc.devRef .tc main_arg14)) (W (Proc.devRef .tc main_v3))
          (W (Proc.devRef .tc main_v6)) (W (Proc.devRef .tc main_v29)) := by
  after_results_simp
  simp only [TRef.ofBuf_toBuf, TRef.toBuf_ofBuf]
  unfold layerG bnG meanG varG actG downG gidxOf sidxOf
  rfl

end AnyFloats

theorem layerG_eq (x : FVec Ideal S100000x64 .f32) (w : FVec Ideal S64x64 .f32) (b g beta : FVec Ideal S64 .f32)
    (s t : IVec S1100000 32) (nrm : FVec Ideal S1100000 .f32) :
    layerG (F := Ideal) x w b g beta s t nrm = layerT x w b g beta s t nrm := rfl

theorem opsL0_out (W : Valuation τ sig (Elt Ideal)) :
    StableHlo.after (opsL0 (F := Ideal)) W (Proc.devRef .tc main_v67)
      = layerT (W (Proc.devRef .tc main_arg0)) (W (Proc.devRef .tc main_arg3)) (W (Proc.devRef .tc main_arg4))
          (W (Proc.devRef .tc main_arg5)) (W (Proc.devRef .tc main_arg6)) (W (Proc.devRef .tc main_v3))
          (W (Proc.devRef .tc main_v6)) (W (Proc.devRef .tc main_v29)) :=
  (opsL0_outG W).trans (layerG_eq ..)

theorem opsL1_out (W : Valuation τ sig (Elt Ideal)) :
    StableHlo.after (opsL1 (F := Ideal)) W (Proc.devRef .tc main_v105)
      = layerT (W (Proc.devRef .tc main_v67)) (W (Proc.devRef .tc main_arg7)) (W (Proc.devRef .tc main_arg8))
          (W (Proc.devRef .tc main_arg9)) (W (Proc.devRef .tc main_arg10)) (W (Proc.devRef .tc main_v3))
          (W (Proc.devRef .tc main_v6)) (W (Proc.devRef .tc main_v29)) :=
  (opsL1_outG W).trans (layerG_eq ..)

theorem opsL2_out (W : Valuation τ sig (Elt Ideal)) :
    StableHlo.after (opsL2 (F := Ideal)) W (Proc.devRef .tc main_v143)
      = layerT (W (Proc.devRef .tc main_v105)) (W (Proc.devRef .tc main_arg11)) (W (Proc.devRef .tc main_arg12))
          (W (Proc.devRef .tc main_arg13)) (W (Proc.devRef .tc main_arg14)) (W (Proc.devRef .tc main_v3))
          (W (Proc.devRef .tc main_v6)) (W (Proc.devRef .tc main_v29)) :=
  (opsL2_outG W).trans (layerG_eq ..)

abbrev stage0 (V : Valuation τ sig (Elt Ideal)) : Valuation τ sig (Elt Ideal) := StableHlo.after opsPre V
abbrev stage1 (V : Valuation τ sig (Elt Ideal)) : Valuation τ sig (Elt Ideal) := StableHlo.after opsL0 (stage0 V)
abbrev stage2 (V : Valuation τ sig (Elt Ideal)) : Valuation τ sig (Elt Ideal) := StableHlo.after opsL1 (stage1 V)
abbrev stage3 (V : Valuation τ sig (Elt Ideal)) : Valuation τ sig (Elt Ideal) := StableHlo.after opsL2 (stage2 V)

theorem after_ops_stage3 (V : Valuation τ sig (Elt Ideal)) : StableHlo.after ops V = StableHlo.after opsPool (stage3 V) :=
  after_ops V

def refP3 (V : Valuation τ sig (Elt Ideal)) : IVec S1100000 32 := stage0 V (Proc.devRef .tc main_v3)
def refP6 (V : Valuation τ sig (Elt Ideal)) : IVec S1100000 32 := stage0 V (Proc.devRef .tc main_v6)
def refP29 (V : Valuation τ sig (Elt Ideal)) : FVec Ideal S1100000 .f32 := stage0 V (Proc.devRef .tc main_v29)

def refL1 (V : Valuation τ sig (Elt Ideal)) : FVec Ideal S100000x64 .f32 :=
  layerT (V (Proc.devRef .tc main_arg0)) (V (Proc.devRef .tc main_arg3)) (V (Proc.devRef .tc main_arg4))
    (V (Proc.devRef .tc main_arg5)) (V (Proc.devRef .tc main_arg6)) (refP3 V) (refP6 V) (refP29 V)
def refL2 (V : Valuation τ sig (Elt Ideal)) : FVec Ideal S100000x64 .f32 :=
  layerT (refL1 V) (V (Proc.devRef .tc main_arg7)) (V (Proc.devRef .tc main_arg8))
    (V (Proc.devRef .tc main_arg9)) (V (Proc.devRef .tc main_arg10)) (refP3 V) (refP6 V) (refP29 V)
def refL3 (V : Valuation τ sig (Elt Ideal)) : FVec Ideal S100000x64 .f32 :=
  layerT (refL2 V) (V (Proc.devRef .tc main_arg11)) (V (Proc.devRef .tc main_arg12))
    (V (Proc.devRef .tc main_arg13)) (V (Proc.devRef .tc main_arg14)) (refP3 V) (refP6 V) (refP29 V)

theorem layerT_congr {x x' : FVec Ideal S100000x64 .f32} {w w' : FVec Ideal S64x64 .f32} {b b' g g' be be' : FVec Ideal S64 .f32}
    {s s' t t' : IVec S1100000 32} {n n' : FVec Ideal S1100000 .f32}
    (hx : x = x') (hw : w = w') (hb : b = b') (hg : g = g') (hbe : be = be') (hs : s = s') (ht : t = t') (hn : n = n') :
    layerT x w b g be s t n = layerT x' w' b' g' be' s' t' n' := by
  subst hx hw hb hg hbe hs ht hn; rfl

theorem stage0_keep (V : Valuation τ sig (Elt Ideal)) (r : Ref sig .tc) (h0 : r ∉ opsPre_W) :
    stage0 V (Proc.devRef .tc r) = V (Proc.devRef .tc r) := after_opsPre_of V r h0

theorem stage1_keep (V : Valuation τ sig (Elt Ideal)) (r : Ref sig .tc) (h1 : r ∉ opsL0_W) :
    stage1 V (Proc.devRef .tc r) = stage0 V (Proc.devRef .tc r) := after_opsL0_of _ r h1

theorem stage2_keep (V : Valuation τ sig (Elt Ideal)) (r : Ref sig .tc) (h2 : r ∉ opsL1_W) :
    stage2 V (Proc.devRef .tc r) = stage1 V (Proc.devRef .tc r) := after_opsL1_of _ r h2

theorem stage3_keep (V : Valuation τ sig (Elt Ideal)) (r : Ref sig .tc) (h3 : r ∉ opsL2_W) :
    stage3 V (Proc.devRef .tc r) = stage2 V (Proc.devRef .tc r) := after_opsL2_of _ r h3

theorem stage1_v67 (V : Valuation τ sig (Elt Ideal)) : stage1 V (Proc.devRef .tc main_v67) = refL1 V :=
  (opsL0_out (stage0 V)).trans <| layerT_congr
    (stage0_keep V main_arg0 (by decide)) (stage0_keep V main_arg3 (by decide)) (stage0_keep V main_arg4 (by decide))
    (stage0_keep V main_arg5 (by decide)) (stage0_keep V main_arg6 (by decide)) rfl rfl rfl

theorem stage2_v105 (V : Valuation τ sig (Elt Ideal)) : stage2 V (Proc.devRef .tc main_v105) = refL2 V :=
  (opsL1_out (stage1 V)).trans <| layerT_congr
    (stage1_v67 V)
    ((stage1_keep V main_arg7 (by decide)).trans (stage0_keep V main_arg7 (by decide)))
    ((stage1_keep V main_arg8 (by decide)).trans (stage0_keep V main_arg8 (by decide)))
    ((stage1_keep V main_arg9 (by decide)).trans (stage0_keep V main_arg9 (by decide)))
    ((stage1_keep V main_arg10 (by decide)).trans (stage0_keep V main_arg10 (by decide)))
    (stage1_keep V main_v3 (by decide)) (stage1_keep V main_v6 (by decide)) (stage1_keep V main_v29 (by decide))

theorem stage3_v143 (V : Valuation τ sig (Elt Ideal)) : stage3 V (Proc.devRef .tc main_v143) = refL3 V :=
  (opsL2_out (stage2 V)).trans <| layerT_congr
    (stage2_v105 V)
    (((stage2_keep V main_arg11 (by decide)).trans (stage1_keep V main_arg11 (by decide))).trans (stage0_keep V main_arg11 (by decide)))
    (((stage2_keep V main_arg12 (by decide)).trans (stage1_keep V main_arg12 (by decide))).trans (stage0_keep V main_arg12 (by decide)))
    (((stage2_keep V main_arg13 (by decide)).trans (stage1_keep V main_arg13 (by decide))).trans (stage0_keep V main_arg13 (by decide)))
    (((stage2_keep V main_arg14 (by decide)).trans (stage1_keep V main_arg14 (by decide))).trans (stage0_keep V main_arg14 (by decide)))
    ((stage2_keep V main_v3 (by decide)).trans (stage1_keep V main_v3 (by decide)))
    ((stage2_keep V main_v6 (by decide)).trans (stage1_keep V main_v6 (by decide)))
    ((stage2_keep V main_v29 (by decide)).trans (stage1_keep V main_v29 (by decide)))

theorem stage3_v67 (V : Valuation τ sig (Elt Ideal)) : stage3 V (Proc.devRef .tc main_v67) = refL1 V :=
  ((stage3_keep V main_v67 (by decide)).trans (stage2_keep V main_v67 (by decide))).trans (stage1_v67 V)

theorem stage3_v105 (V : Valuation τ sig (Elt Ideal)) : stage3 V (Proc.devRef .tc main_v105) = refL2 V :=
  (stage3_keep V main_v105 (by decide)).trans (stage2_v105 V)

theorem stage3_arg2 (V : Valuation τ sig (Elt Ideal)) : stage3 V (Proc.devRef .tc main_arg2) = V (Proc.devRef .tc main_arg2) :=
  (((stage3_keep V main_arg2 (by decide)).trans (stage2_keep V main_arg2 (by decide))).trans
    (stage1_keep V main_arg2 (by decide))).trans (stage0_keep V main_arg2 (by decide))

theorem ops_out1 (V : Valuation τ sig (Elt Ideal)) : StableHlo.after ops V (Proc.devRef .tc main_v143) = refL3 V :=
  (congrFun (after_ops_stage3 V) _).trans <| (after_opsPool_of _ main_v143 (by decide)).trans (stage3_v143 V)

end Cert.ReferenceIdeal.Hand

end
-- ==== Proof.Ref.ReadPool.lean ====
import proofs.«424828_j6554120094214_2_alg».proof.Proof.Ref.Ops
import proofs.«424828_j6554120094214_2_alg».proof.Proof.Ref.Writes
import proofs.«424828_j6554120094214_2_alg».proof.Proof.LibNary3
import proofs.«424828_j6554120094214_2_alg».proof.Proof.Math.HostIdxProg
import proofs.«424828_j6554120094214_2_alg».proof.Proof.Math.EdgeIdx
import proofs.«424828_j6554120094214_2_alg».proof.Proof.Spec
import Idealize.ShloMosaic.PureOps.Ideal.Laws

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

def poolOf (b : (⟨S100000, .i32⟩ : BufTy).Contents (Elt Ideal)) (u : (⟨S100000x64, .f32⟩ : BufTy).Contents (Elt Ideal)) :
    (⟨S512x64, .f32⟩ : BufTy).Contents (Elt Ideal) :=
  Host.scatterAdd scatter_S512x64_S100000x1_S100000x64_1_0_0_1
    (broadcastInDim S512x64 ![] bcast_S_S512x64 (constant (F := Ideal) S_ .f32 0x00000000#32))
    (broadcastInDim S100000x1 ![0] bcast_S100000_S100000x1_0 b) u

set_option maxHeartbeats 4000000 in
theorem pool_read (W : Valuation τ sig (Elt Ideal)) :
    StableHlo.after (opsPool (F := Ideal)) W (Proc.devRef .tc main_v153)
      = concatenate S512x192 1 [⟨S512x64, poolOf (W (Proc.devRef .tc main_arg2)) (W (Proc.devRef .tc main_v67))⟩,
          ⟨S512x64, poolOf (W (Proc.devRef .tc main_arg2)) (W (Proc.devRef .tc main_v105))⟩,
          ⟨S512x64, poolOf (W (Proc.devRef .tc main_arg2)) (W (Proc.devRef .tc main_v143))⟩]
        concatenates_S512x64_S512x64_S512x64_S512x192_d1 := by
  simp (disch := decide) only [StableHlo.after_cons, StableHlo.after_nil,
    StableHlo.nullary_result', StableHlo.unary_result', StableHlo.ternary_result', StableHlo.nary3_result',
    StableHlo.nullary_result_ne', StableHlo.unary_result_ne', StableHlo.ternary_result_ne']
  rfl

theorem poolZero_apply (i : S512x64.Idx) :
    broadcastInDim S512x64 ![] bcast_S_S512x64 (constant (F := Ideal) S_ .f32 0x00000000#32) i = 0 :=
  Ideal.ofBits_zero_f32

theorem toMat_poolOf (b : (⟨S100000, .i32⟩ : BufTy).Contents (Elt Ideal)) (u : (⟨S100000x64, .f32⟩ : BufTy).Contents (Elt Ideal)) :
    Cert.HostIdx.toMat (poolOf b u)
      = Cert.Spec.poolSeg (Cert.HostIdx.tgtOf (r := 512) (Cert.EdgeIdx.bidxOf b)) (Cert.HostIdx.toMat u) := by
  funext q f
  show poolOf b u (ix2 q f) = _
  unfold poolOf
  rw [Cert.HostIdxProg.ref_scatterAdd_pool_apply, poolZero_apply, zero_add]
  rfl

end Cert.ReferenceIdeal.Hand

end
-- ==== Proof.Ref.Read.lean ====
import proofs.«424828_j6554120094214_2_alg».proof.Proof.Ref.LayerT
import proofs.«424828_j6554120094214_2_alg».proof.Proof.Math.HostIdx
import proofs.«424828_j6554120094214_2_alg».proof.Proof.Math.Layer
import proofs.«424828_j6554120094214_2_alg».proof.Proof.Math.Net
import Idealize.ShloMosaic.Lib.IdealHost
import Idealize.ShloMosaic.Lib.ValueLayout

noncomputable section

open scoped BigOperators

namespace Cert.ReferenceIdeal.Hand

open Cert.ReferenceIdeal Cert.ReferenceIdeal.Gen Idealize.ShloMosaic Idealize.ShloMosaic.ValueIdx Cert.HostIdx Cert.EdgeIdx

theorem ref_gather_rows_apply {α : Type} {w : ℕ} (x : S100000x64.Idx → α) (idx : IVec S1100000x1 w)
    (e : Fin 1100000) (f : Fin 64) :
    Host.gather gather_S100000x64_S1100000x1_S1100000x64_1_0_n_n_0_1_164 x idx (ix2 e f)
      = x (ix2 (selOf (r := 100000) (by decide) idx e) f) :=
  gather_rows _ _ x idx e f

theorem ref_scatterAdd_rows_apply {φ : FTy} {w : ℕ} (x : FVec Ideal S100000x64 φ) (idx : IVec S1100000x1 w)
    (u : FVec Ideal S1100000x64 φ) (n : Fin 100000) (f : Fin 64) :
    Host.scatterAdd (F := Ideal) scatter_S100000x64_S1100000x1_S1100000x64_1_0_0_1 x idx u (ix2 n f)
      = x (ix2 n f) + ∑ e ∈ Finset.univ.filter (fun e => tgtOf (r := 100000) idx e = some n), u (ix2 e f) :=
  hostScatterAdd_rows _ x idx u n f

theorem ref_scatterAdd_pool_apply {φ : FTy} {w : ℕ} (x : FVec Ideal S512x64 φ) (idx : IVec S100000x1 w)
    (u : FVec Ideal S100000x64 φ) (q : Fin 512) (f : Fin 64) :
    Host.scatterAdd (F := Ideal) scatter_S512x64_S100000x1_S100000x64_1_0_0_1 x idx u (ix2 q f)
      = x (ix2 q f) + ∑ n ∈ Finset.univ.filter (fun n => tgtOf (r := 512) idx n = some q), u (ix2 n f) :=
  hostScatterAdd_rows _ x idx u q f

theorem ref_dot_transpose_apply {φ₁ φ₂ : FTy} (h : FVec Ideal S100000x64 φ₁) (W : FVec Ideal S64x64 φ₂)
    (n : Fin 100000) (o : Fin 64) :
    Host.dotGeneral (F := Ideal) dot_S100000x64_S64x64_S100000x64_1_0_0_1_n_n none h
        (transpose S64x64 [1, 0] W transposes_S64x64_S64x64_1_0) (ix2 n o)
      = ∑ q : Fin 64, h (ix2 n q) * W (ix2 o q) :=
  dotGeneral_transpose_apply _ none h W _ n o

theorem ref_reduceAdd_rows_apply {φ : FTy} (x : FVec Ideal S100000x64 φ) (v : S_.Idx → Ideal φ)
    (hu : 0 < S_.numel) (f : Fin 64) :
    Host.reduceAdd (F := Ideal) x v reducesTo_S100000x64_S64_d0 hu (ix1 f) = v ix0 + ∑ n : Fin 100000, x (ix2 n f) :=
  reduceAdd_rows _ x v hu f

section Bcast

variable {α : Type}

theorem bcastColAcross_apply {m c : ℕ} (hm : m ≠ 1) (h : (⟨2, ![m, 1]⟩ : Shape).BroadcastsInDim ⟨2, ![m, c]⟩ ![0, 1])
    (v : (⟨2, ![m, 1]⟩ : Shape).Idx → α) (e : Fin m) (f : Fin c) :
    broadcastInDim ⟨2, ![m, c]⟩ ![0, 1] h v (ix2 e f) = v (ix2 e (0 : Fin 1)) :=
  broadcastInDim_apply _ h v _ _ fun a => match a with
    | ⟨0, _⟩ => (if_neg hm).symm
    | ⟨1, _⟩ => (if_pos rfl).symm

theorem bcastRow_apply {c : ℕ} (hc : c ≠ 1) (h : (⟨1, ![c]⟩ : Shape).BroadcastsInDim ⟨2, ![1, c]⟩ ![1])
    (v : (⟨1, ![c]⟩ : Shape).Idx → α) (u : Fin 1) (f : Fin c) :
    broadcastInDim ⟨2, ![1, c]⟩ ![1] h v (ix2 u f) = v (ix1 f) :=
  broadcastInDim_apply _ h v _ _ fun a => match a with
    | ⟨0, _⟩ => (if_neg hc).symm

theorem bcastRowDown_apply {r c : ℕ} (hc : c ≠ 1) (h : (⟨2, ![1, c]⟩ : Shape).BroadcastsInDim ⟨2, ![r, c]⟩ ![0, 1])
    (v : (⟨2, ![1, c]⟩ : Shape).Idx → α) (n : Fin r) (f : Fin c) :
    broadcastInDim ⟨2, ![r, c]⟩ ![0, 1] h v (ix2 n f) = v (ix2 (0 : Fin 1) f) :=
  broadcastInDim_apply _ h v _ _ fun a => match a with
    | ⟨0, _⟩ => (if_pos rfl).symm
    | ⟨1, _⟩ => (if_neg hc).symm

end Bcast

theorem down_apply (v : FVec Ideal S64 .f32) (n : Fin 100000) (f : Fin 64) : down v (ix2 n f) = v (ix1 f) := by
  unfold down
  rw [bcastRowDown_apply (show (64 : ℕ) ≠ 1 by decide), bcastRow_apply (show (64 : ℕ) ≠ 1 by decide)]

theorem zeros_apply {T : Shape} (h : S_.BroadcastsInDim T ![]) (j : T.Idx) :
    broadcastInDim T ![] h (constant (F := Ideal) S_ .f32 0x00000000#32) j = (0 : Ideal .f32) := by
  rw [broadcastInDim_scalar_apply, constant_apply, Ideal.ofBits_zero_f32]

theorem cNs_apply {T : Shape} (h : S_.BroadcastsInDim T ![]) (j : T.Idx) :
    broadcastInDim T ![] h (constant (F := Ideal) S_ .f32 0x47C35000#32) j = Cert.Spec.cN := by
  rw [broadcastInDim_scalar_apply, constant_apply]; rfl

theorem colsum_apply (h : FVec Ideal S100000x64 .f32) (f : Fin 64) :
    Host.reduceAdd h (constant S_ .f32 0x00000000#32) reducesTo_S100000x64_S64_d0 h_S_ (ix1 f)
      = ∑ n : Fin 100000, h (ix2 n f) := by
  rw [ref_reduceAdd_rows_apply, constant_apply, Ideal.ofBits_zero_f32, zero_add]

theorem actT_apply (x : FVec Ideal S100000x64 .f32) (w : FVec Ideal S64x64 .f32) (b : FVec Ideal S64 .f32)
    (s t : IVec S1100000 32) (nrm : FVec Ideal S1100000 .f32) (n : Fin 100000) (f : Fin 64) :
    actT x w b s t nrm (ix2 n f)
      = max ((∑ e ∈ Finset.univ.filter (fun e => tgtOf (r := 100000) (sidxOf t) e = some n),
              (∑ k : Fin 64, x (ix2 (selOf (r := 100000) (by decide) (gidxOf s) e) k) * w (ix2 f k)) * nrm (ix1 e))
            + b (ix1 f)) 0 := by
  unfold actT
  rw [maximumf_apply, addf_apply, ref_scatterAdd_rows_apply, down_apply, zeros_apply, zero_add]
  refine congrArg (fun z => max (z + b (ix1 f)) 0) (Finset.sum_congr rfl fun e _ => ?_)
  rw [mulf_apply, ref_gather_rows_apply, ref_dot_transpose_apply,
    bcastColAcross_apply (show (1100000 : ℕ) ≠ 1 by decide), bcastCol_apply (show (1100000 : ℕ) ≠ 1 by decide)]

theorem actT_eq (x : FVec Ideal S100000x64 .f32) (w : FVec Ideal S64x64 .f32) (b : FVec Ideal S64 .f32)
    (s t : IVec S1100000 32) (nrm : FVec Ideal S1100000 .f32) :
    toMat (actT x w b s t nrm)
      = Cert.Spec.act (selOf (r := 100000) (by decide) (gidxOf s)) (tgtOf (r := 100000) (sidxOf t)) (fun e => nrm (ix1 e))
          (toMat x) (toMat w) (toVec b) := by
  funext n f
  rw [toMat_apply, actT_apply]
  rfl

theorem meanT_apply (h : FVec Ideal S100000x64 .f32) (f : Fin 64) :
    meanT h (ix1 f) = Ideal.div (∑ n : Fin 100000, h (ix2 n f)) Cert.Spec.cN := by
  unfold meanT
  rw [hostDivf_apply, colsum_apply, cNs_apply]

theorem meanT_eq (h : FVec Ideal S100000x64 .f32) : toVec (meanT h) = Cert.Spec.mean (toMat h) := by
  funext f
  rw [toVec_apply, meanT_apply]
  rfl

theorem bnT_eq (h : FVec Ideal S100000x64 .f32) (mu var g beta : FVec Ideal S64 .f32) :
    toMat (bnT h mu var g beta) = Cert.Spec.bn (toMat h) (toVec mu) (toVec var) (toVec g) (toVec beta) := by
  funext n f
  rw [toMat_apply]
  unfold bnT
  rw [addf_apply, mulf_apply, mulf_apply, subf_apply, down_apply, down_apply, down_apply, down_apply]
  rfl

theorem sitofp_zero : FloatOps.sitofp (F := Ideal) .f32 (0#32 : BitVec 32) = (0 : Ideal .f32) := by
  show (((0#32 : BitVec 32).toInt : ℝ) : EReal) = 0
  have h0 : (0#32 : BitVec 32).toInt = 0 := by decide
  rw [h0, Int.cast_zero, EReal.coe_zero]

theorem cmp_ogt_of_lt {x y : EReal} (h : y < x) : Ideal.cmp .ogt x y = 1#1 :=
  congrArg BitVec.ofBool (decide_eq_true h)

theorem cN_gt_zero : FloatOps.cmpf (F := Ideal) .ogt Cert.Spec.cN (0 : Ideal .f32) = 1#1 := by
  have hp : (0 : EReal) < Cert.Spec.cN := by
    rw [Cert.Spec.cN_eq]; exact EReal.coe_pos.mpr (by norm_num)
  exact cmp_ogt_of_lt hp

theorem varDen_apply :
    subf (constant (F := Ideal) S_ .f32 0x47C35000#32) (sitofp (F := Ideal) .f32 (constantI S_ 32 0#32)) ix0 = Cert.Spec.cN := by
  rw [subf_apply, constant_apply, sitofp_apply]
  show Ideal.ofBits .f32 0x47C35000#32 - FloatOps.sitofp (F := Ideal) .f32 (0#32 : BitVec 32) = Cert.Spec.cN
  rw [sitofp_zero, sub_zero]
  rfl

theorem varT_apply (h : FVec Ideal S100000x64 .f32) (f : Fin 64) :
    varT h (constantI S_ 32 0#32) (ix1 f)
      = Ideal.div (∑ n : Fin 100000,
          (h (ix2 n f) - Ideal.div (∑ n' : Fin 100000, h (ix2 n' f)) Cert.Spec.cN)
            * (h (ix2 n f) - Ideal.div (∑ n' : Fin 100000, h (ix2 n' f)) Cert.Spec.cN)) Cert.Spec.cN := by
  unfold varT
  rw [select_apply, broadcastInDim_scalar_apply, cmpf_apply, varDen_apply, constant_apply, Ideal.ofBits_zero_f32,
    cN_gt_zero, select_one, hostDivf_apply, colsum_apply, broadcastInDim_scalar_apply, varDen_apply]
  refine congrArg (fun z => Ideal.div z Cert.Spec.cN) (Finset.sum_congr rfl fun n _ => ?_)
  rw [mulf_apply, subf_apply, bcastRowDown_apply (show (64 : ℕ) ≠ 1 by decide), hostDivf_apply,
    bcastRow_apply (show (64 : ℕ) ≠ 1 by decide), colsum_apply, cNs_apply]

theorem varT_eq (h : FVec Ideal S100000x64 .f32) :
    toVec (varT h (constantI S_ 32 0#32)) = Cert.Spec.varDev (toMat h) := by
  funext f
  rw [toVec_apply, varT_apply]
  rfl

theorem layerT_eq (x : FVec Ideal S100000x64 .f32) (w : FVec Ideal S64x64 .f32) (b g beta : FVec Ideal S64 .f32)
    (s t : IVec S1100000 32) (nrm : FVec Ideal S1100000 .f32) :
    toMat (layerT x w b g beta s t nrm)
      = Cert.Spec.layerD (selOf (r := 100000) (by decide) (gidxOf s)) (tgtOf (r := 100000) (sidxOf t))
          (fun e => nrm (ix1 e)) (toMat x) (toMat w) (toVec b) (toVec g) (toVec beta) := by
  unfold layerT Cert.Spec.layerD
  rw [bnT_eq, meanT_eq, varT_eq, actT_eq]

def netT (x : FVec Ideal S100000x64 .f32)
    (w0 : FVec Ideal S64x64 .f32) (b0 g0 e0 : FVec Ideal S64 .f32)
    (w1 : FVec Ideal S64x64 .f32) (b1 g1 e1 : FVec Ideal S64 .f32)
    (w2 : FVec Ideal S64x64 .f32) (b2 g2 e2 : FVec Ideal S64 .f32)
    (s t : IVec S1100000 32) (nrm : FVec Ideal S1100000 .f32) :
    FVec Ideal S100000x64 .f32 × FVec Ideal S100000x64 .f32 × FVec Ideal S100000x64 .f32 :=
  (layerT x w0 b0 g0 e0 s t nrm,
    layerT (layerT x w0 b0 g0 e0 s t nrm) w1 b1 g1 e1 s t nrm,
    layerT (layerT (layerT x w0 b0 g0 e0 s t nrm) w1 b1 g1 e1 s t nrm) w2 b2 g2 e2 s t nrm)

theorem netT_eq (x : FVec Ideal S100000x64 .f32)
    (w0 : FVec Ideal S64x64 .f32) (b0 g0 e0 : FVec Ideal S64 .f32)
    (w1 : FVec Ideal S64x64 .f32) (b1 g1 e1 : FVec Ideal S64 .f32)
    (w2 : FVec Ideal S64x64 .f32) (b2 g2 e2 : FVec Ideal S64 .f32)
    (s t : IVec S1100000 32) (nrm : FVec Ideal S1100000 .f32) :
    toMat (netT x w0 b0 g0 e0 w1 b1 g1 e1 w2 b2 g2 e2 s t nrm).1
        = (Cert.Spec.netD (selOf (r := 100000) (by decide) (gidxOf s)) (tgtOf (r := 100000) (sidxOf t))
            (fun e => nrm (ix1 e)) (toMat x) (toMat w0) (toVec b0) (toVec g0) (toVec e0)
            (toMat w1) (toVec b1) (toVec g1) (toVec e1) (toMat w2) (toVec b2) (toVec g2) (toVec e2)).1
      ∧ toMat (netT x w0 b0 g0 e0 w1 b1 g1 e1 w2 b2 g2 e2 s t nrm).2.1
        = (Cert.Spec.netD (selOf (r := 100000) (by decide) (gidxOf s)) (tgtOf (r := 100000) (sidxOf t))
            (fun e => nrm (ix1 e)) (toMat x) (toMat w0) (toVec b0) (toVec g0) (toVec e0)
            (toMat w1) (toVec b1) (toVec g1) (toVec e1) (toMat w2) (toVec b2) (toVec g2) (toVec e2)).2.1
      ∧ toMat (netT x w0 b0 g0 e0 w1 b1 g1 e1 w2 b2 g2 e2 s t nrm).2.2
        = (Cert.Spec.netD (selOf (r := 100000) (by decide) (gidxOf s)) (tgtOf (r := 100000) (sidxOf t))
            (fun e => nrm (ix1 e)) (toMat x) (toMat w0) (toVec b0) (toVec g0) (toVec e0)
            (toMat w1) (toVec b1) (toVec g1) (toVec e1) (toMat w2) (toVec b2) (toVec g2) (toVec e2)).2.2 := by
  rw [Cert.Spec.netD_fst, Cert.Spec.netD_snd_fst, Cert.Spec.netD_snd_snd]
  refine ⟨layerT_eq .., ?_, ?_⟩
  · show toMat (layerT (layerT x w0 b0 g0 e0 s t nrm) w1 b1 g1 e1 s t nrm) = _
    rw [layerT_eq, layerT_eq]
  · show toMat (layerT (layerT (layerT x w0 b0 g0 e0 s t nrm) w1 b1 g1 e1 s t nrm) w2 b2 g2 e2 s t nrm) = _
    rw [layerT_eq, layerT_eq, layerT_eq]

end Cert.ReferenceIdeal.Hand

end
-- ==== Proof.Ref.Results.lean ====
import proofs.«424828_j6554120094214_2_alg».proof.Proof.Ref.ReadOps
import proofs.«424828_j6554120094214_2_alg».proof.Proof.Ref.ReadPool
import proofs.«424828_j6554120094214_2_alg».proof.Proof.Ref.Read

noncomputable section

namespace Cert.ReferenceIdeal.Hand

open Cert.ReferenceIdeal Cert.ReferenceIdeal.Gen Idealize.ShloMosaic Idealize.ShloMosaic.TcCoe Idealize.SL.Sem Idealize.ShloMosaic.StableHlo
  Idealize.ShloMosaic.ValueIdx Cert.HostIdx Cert.EdgeIdx

def refSel (V : Valuation τ sig (Elt Ideal)) : Fin Cert.Spec.Ee → Fin Cert.Spec.Nn :=
  selOf (r := 100000) (by decide) (gidxOf (refP3 V))

def refTgt (V : Valuation τ sig (Elt Ideal)) : Fin Cert.Spec.Ee → Option (Fin Cert.Spec.Nn) :=
  tgtOf (r := 100000) (sidxOf (refP6 V))

def refNrm (V : Valuation τ sig (Elt Ideal)) : Fin Cert.Spec.Ee → EReal := fun e => refP29 V (ix1 e)

def refSeg (V : Valuation τ sig (Elt Ideal)) : Fin Cert.Spec.Nn → Option (Fin Cert.Spec.Gg) :=
  tgtOf (r := 512) (bidxOf (V (Proc.devRef .tc main_arg2)))

def refNet (V : Valuation τ sig (Elt Ideal)) : Cert.Spec.Mat Cert.Spec.Nn 64 × Cert.Spec.Mat Cert.Spec.Nn 64 × Cert.Spec.Mat Cert.Spec.Nn 64 :=
  Cert.Spec.netD (refSel V) (refTgt V) (refNrm V) (toMat (V (Proc.devRef .tc main_arg0)))
    (toMat (V (Proc.devRef .tc main_arg3))) (toVec (V (Proc.devRef .tc main_arg4))) (toVec (V (Proc.devRef .tc main_arg5)))
    (toVec (V (Proc.devRef .tc main_arg6)))
    (toMat (V (Proc.devRef .tc main_arg7))) (toVec (V (Proc.devRef .tc main_arg8))) (toVec (V (Proc.devRef .tc main_arg9)))
    (toVec (V (Proc.devRef .tc main_arg10)))
    (toMat (V (Proc.devRef .tc main_arg11))) (toVec (V (Proc.devRef .tc main_arg12))) (toVec (V (Proc.devRef .tc main_arg13)))
    (toVec (V (Proc.devRef .tc main_arg14)))

theorem refL_eq (V : Valuation τ sig (Elt Ideal)) :
    toMat (refL1 V) = (refNet V).1 ∧ toMat (refL2 V) = (refNet V).2.1 ∧ toMat (refL3 V) = (refNet V).2.2 :=
  netT_eq (V (Proc.devRef .tc main_arg0))
    (V (Proc.devRef .tc main_arg3)) (V (Proc.devRef .tc main_arg4)) (V (Proc.devRef .tc main_arg5)) (V (Proc.devRef .tc main_arg6))
    (V (Proc.devRef .tc main_arg7)) (V (Proc.devRef .tc main_arg8)) (V (Proc.devRef .tc main_arg9)) (V (Proc.devRef .tc main_arg10))
    (V (Proc.devRef .tc main_arg11)) (V (Proc.devRef .tc main_arg12)) (V (Proc.devRef .tc main_arg13)) (V (Proc.devRef .tc main_arg14))
    (refP3 V) (refP6 V) (refP29 V)

theorem refPool_eq (V : Valuation τ sig (Elt Ideal)) :
    toMat (poolOf (V (Proc.devRef .tc main_arg2)) (refL1 V)) = Cert.Spec.poolSeg (refSeg V) (refNet V).1
      ∧ toMat (poolOf (V (Proc.devRef .tc main_arg2)) (refL2 V)) = Cert.Spec.poolSeg (refSeg V) (refNet V).2.1
      ∧ toMat (poolOf (V (Proc.devRef .tc main_arg2)) (refL3 V)) = Cert.Spec.poolSeg (refSeg V) (refNet V).2.2 :=
  ⟨(toMat_poolOf _ _).trans (congrArg (Cert.Spec.poolSeg (refSeg V)) (refL_eq V).1),
    (toMat_poolOf _ _).trans (congrArg (Cert.Spec.poolSeg (refSeg V)) (refL_eq V).2.1),
    (toMat_poolOf _ _).trans (congrArg (Cert.Spec.poolSeg (refSeg V)) (refL_eq V).2.2)⟩

theorem ref_out (V : Valuation τ sig (Elt Ideal)) :
    toMat (StableHlo.after (ops (F := Ideal)) V (Proc.devRef .tc main_v143)) = (refNet V).2.2 :=
  (congrArg toMat (ops_out1 V)).trans (refL_eq V).2.2

theorem ref_pools (V : Valuation τ sig (Elt Ideal)) :
    StableHlo.after (ops (F := Ideal)) V (Proc.devRef .tc main_v153)
      = concatenate S512x192 1 [⟨S512x64, poolOf (V (Proc.devRef .tc main_arg2)) (refL1 V)⟩,
          ⟨S512x64, poolOf (V (Proc.devRef .tc main_arg2)) (refL2 V)⟩,
          ⟨S512x64, poolOf (V (Proc.devRef .tc main_arg2)) (refL3 V)⟩]
        concatenates_S512x64_S512x64_S512x64_S512x192_d1 := by
  have h := (congrFun (after_ops_stage3 V) (Proc.devRef .tc main_v153)).trans (pool_read (stage3 V))
  rw [stage3_arg2, stage3_v67, stage3_v105, stage3_v143] at h
  exact h

end Cert.ReferenceIdeal.Hand

end
-- ==== Proof.Math.Prefix.lean ====
import proofs.«424828_j6554120094214_2_alg».proof.Proof.Ref.Ops
import proofs.«424828_j6554120094214_2_alg».proof.Proof.Math.PrefixK
import proofs.«424828_j6554120094214_2_alg».proof.Proof.LibCast
import Idealize.ShloMosaic.Lib.StableHlo.Run
set_option maxRecDepth 4096

noncomputable section

namespace Cert.PrefixR

open Idealize.ShloMosaic Idealize.ShloMosaic.TcCoe Idealize.ShloMosaic.StableHlo
open Cert.ReferenceIdeal Cert.ReferenceIdeal.Gen Cert.ReferenceIdeal.Hand
open Cert.EdgeIdx Cert.NormFin Cert.PrefixK

theorem after_app {τ : Topo} {sig : RefSig} {Val : EltTy → Type} (l₁ l₂ : List (HloOp τ sig Val))
    (V : Valuation τ sig Val) : StableHlo.after (l₁ ++ l₂) V = StableHlo.after l₂ (StableHlo.after l₁ V) := by
  induction l₁ generalizing V with
  | nil => rfl
  | cons op l ih => exact ih (op.result V)

abbrev rA : List (HloOp τ sig (Elt Ideal)) := (opsPre (F := Ideal)).take 7

abbrev rB : List (HloOp τ sig (Elt Ideal)) := ((opsPre (F := Ideal)).drop 7).take 11

abbrev rC : List (HloOp τ sig (Elt Ideal)) := ((opsPre (F := Ideal)).drop 18).take 3

abbrev rD : List (HloOp τ sig (Elt Ideal)) := (opsPre (F := Ideal)).drop 21

theorem opsPre_cut : (opsPre (F := Ideal)) = rA ++ (rB ++ (rC ++ rD)) := rfl

theorem after_cut (W : Valuation τ sig (Elt Ideal)) :
    StableHlo.after (opsPre (F := Ideal)) W
      = StableHlo.after rD (StableHlo.after rC (StableHlo.after rB (StableHlo.after rA W))) :=
  (congrArg (fun l => StableHlo.after l W) opsPre_cut).trans
    ((after_app rA _ W).trans ((after_app rB _ _).trans (after_app rC rD _)))

set_option maxHeartbeats 2000000 in
theorem rA_src (W : Valuation τ sig (Elt Ideal)) :
    StableHlo.after rA W (Proc.devRef .tc main_v3) = srcT (W (Proc.devRef .tc main_arg1)) := by
  simp only [rA, opsPre, List.take_succ_cons, List.take_zero]
  after_results; rfl

set_option maxHeartbeats 2000000 in
theorem rA_dst (W : Valuation τ sig (Elt Ideal)) :
    StableHlo.after rA W (Proc.devRef .tc main_v6) = dstT (W (Proc.devRef .tc main_arg1)) := by
  simp only [rA, opsPre, List.take_succ_cons, List.take_zero]
  after_results; rfl

set_option maxHeartbeats 2000000 in
theorem rB_pos (V : Valuation τ sig (Elt Ideal)) :
    StableHlo.after rB V (Proc.devRef .tc main_v12)
      = cmpf (F := Ideal) .ogt (degT (V (Proc.devRef .tc main_v6)))
          (broadcastInDim S100000 ![] bcast_S_S100000 (constant (F := Ideal) S_ .f32 0x00000000#32)) := by
  simp only [rB, opsPre, List.drop_succ_cons, List.drop_zero, List.take_succ_cons, List.take_zero]
  after_results; rfl

set_option maxHeartbeats 2000000 in
theorem rB_rsqrt (V : Valuation τ sig (Elt Ideal)) :
    StableHlo.after rB V (Proc.devRef .tc main_v13) = Host.rsqrt (degT (V (Proc.devRef .tc main_v6))) := by
  simp only [rB, opsPre, List.drop_succ_cons, List.drop_zero, List.take_succ_cons, List.take_zero]
  after_results; rfl

set_option maxHeartbeats 2000000 in
theorem rB_zero (V : Valuation τ sig (Elt Ideal)) :
    StableHlo.after rB V (Proc.devRef .tc main_cst_2) = constant (F := Ideal) S_ .f32 0x00000000#32 := by
  simp only [rB, opsPre, List.drop_succ_cons, List.drop_zero, List.take_succ_cons, List.take_zero]
  after_results

set_option maxHeartbeats 2000000 in
theorem rB_keep3 (V : Valuation τ sig (Elt Ideal)) :
    StableHlo.after rB V (Proc.devRef .tc main_v3) = V (Proc.devRef .tc main_v3) := by
  simp only [rB, opsPre, List.drop_succ_cons, List.drop_zero, List.take_succ_cons, List.take_zero]
  after_results

set_option maxHeartbeats 2000000 in
theorem rB_keep6 (V : Valuation τ sig (Elt Ideal)) :
    StableHlo.after rB V (Proc.devRef .tc main_v6) = V (Proc.devRef .tc main_v6) := by
  simp only [rB, opsPre, List.drop_succ_cons, List.drop_zero, List.take_succ_cons, List.take_zero]
  after_results

set_option maxHeartbeats 2000000 in
theorem rC_sel (V : Valuation τ sig (Elt Ideal)) :
    StableHlo.after rC V (Proc.devRef .tc main_v14)
      = select (V (Proc.devRef .tc main_v12)) (V (Proc.devRef .tc main_v13))
          (broadcastInDim S100000 ![] bcast_S_S100000 (id (V (Proc.devRef .tc main_cst_2)))) := by
  simp only [rC, opsPre, List.drop_succ_cons, List.drop_zero, List.take_succ_cons, List.take_zero]
  after_results; rfl

set_option maxHeartbeats 2000000 in
theorem rC_keep3 (V : Valuation τ sig (Elt Ideal)) :
    StableHlo.after rC V (Proc.devRef .tc main_v3) = V (Proc.devRef .tc main_v3) := by
  simp only [rC, opsPre, List.drop_succ_cons, List.drop_zero, List.take_succ_cons, List.take_zero]
  after_results

set_option maxHeartbeats 2000000 in
theorem rC_keep6 (V : Valuation τ sig (Elt Ideal)) :
    StableHlo.after rC V (Proc.devRef .tc main_v6) = V (Proc.devRef .tc main_v6) := by
  simp only [rC, opsPre, List.drop_succ_cons, List.drop_zero, List.take_succ_cons, List.take_zero]
  after_results

set_option maxHeartbeats 4000000 in
theorem rD_norm (V : Valuation τ sig (Elt Ideal)) :
    StableHlo.after rD V (Proc.devRef .tc main_v29)
      = mulf (F := Ideal) (φ := .f32)
          (Host.gather gather_S100000_S1100000x1_S1100000_n_0_n_n_0_1_1
            (V (Proc.devRef .tc main_v14) : FVec Ideal S100000 .f32) (gidxOf (V (Proc.devRef .tc main_v3))))
          (Host.gather gather_S100000_S1100000x1_S1100000_n_0_n_n_0_1_1
            (V (Proc.devRef .tc main_v14) : FVec Ideal S100000 .f32) (gidxOf (V (Proc.devRef .tc main_v6)))) := by
  simp only [rD, opsPre, List.drop_succ_cons, List.drop_zero]
  after_results_simp; rfl

set_option maxHeartbeats 4000000 in
theorem rD_keep3 (V : Valuation τ sig (Elt Ideal)) :
    StableHlo.after rD V (Proc.devRef .tc main_v3) = V (Proc.devRef .tc main_v3) := by
  simp only [rD, opsPre, List.drop_succ_cons, List.drop_zero]
  after_results_simp

set_option maxHeartbeats 4000000 in
theorem rD_keep6 (V : Valuation τ sig (Elt Ideal)) :
    StableHlo.after rD V (Proc.devRef .tc main_v6) = V (Proc.devRef .tc main_v6) := by
  simp only [rD, opsPre, List.drop_succ_cons, List.drop_zero]
  after_results_simp

theorem ref_src (W : Valuation τ sig (Elt Ideal)) :
    StableHlo.after (opsPre (F := Ideal)) W (Proc.devRef .tc main_v3) = srcT (W (Proc.devRef .tc main_arg1)) := by
  rw [after_cut, rD_keep3, rC_keep3, rB_keep3, rA_src]

theorem ref_dst (W : Valuation τ sig (Elt Ideal)) :
    StableHlo.after (opsPre (F := Ideal)) W (Proc.devRef .tc main_v6) = dstT (W (Proc.devRef .tc main_arg1)) := by
  rw [after_cut, rD_keep6, rC_keep6, rB_keep6, rA_dst]

theorem ref_norm (W : Valuation τ sig (Elt Ideal)) :
    StableHlo.after (opsPre (F := Ideal)) W (Proc.devRef .tc main_v29)
      = normT (srcT (W (Proc.devRef .tc main_arg1))) (dstT (W (Proc.devRef .tc main_arg1))) := by
  rw [after_cut, rD_norm, rC_sel, rC_keep3, rC_keep6, rB_pos, rB_rsqrt, rB_zero, rB_keep3, rB_keep6, rA_src, rA_dst]
  rfl

end Cert.PrefixR

end
-- ==== Proof.Ref.Final.lean ====
import proofs.«424828_j6554120094214_2_alg».proof.Proof.Ref.Results
import proofs.«424828_j6554120094214_2_alg».proof.Proof.Math.Prefix

noncomputable section

namespace Cert.ReferenceIdeal.Hand

open Cert.ReferenceIdeal Cert.ReferenceIdeal.Gen Idealize.ShloMosaic Idealize.ShloMosaic.TcCoe Idealize.SL.Sem Idealize.ShloMosaic.StableHlo
  Idealize.ShloMosaic.ValueIdx Cert.HostIdx Cert.EdgeIdx Cert.PrefixK Cert.NormFin

theorem refP3_eq (V : Valuation τ sig (Elt Ideal)) : refP3 V = srcT (V (Proc.devRef .tc main_arg1)) := Cert.PrefixR.ref_src V

theorem refP6_eq (V : Valuation τ sig (Elt Ideal)) : refP6 V = dstT (V (Proc.devRef .tc main_arg1)) := Cert.PrefixR.ref_dst V

theorem refP29_eq (V : Valuation τ sig (Elt Ideal)) : refP29 V = normT (srcT (V (Proc.devRef .tc main_arg1))) (dstT (V (Proc.devRef .tc main_arg1))) :=
  Cert.PrefixR.ref_norm V

theorem refNet_eq (V : Valuation τ sig (Elt Ideal)) :
    refNet V
      = (Cert.Spec.netD (selOf (r := 100000) (by decide) (gidxOf (srcT (V (Proc.devRef .tc main_arg1)))))
          (tgtOf (r := 100000) (sidxOf (dstT (V (Proc.devRef .tc main_arg1)))))
          (fun i => normT (srcT (V (Proc.devRef .tc main_arg1))) (dstT (V (Proc.devRef .tc main_arg1))) (ix1 i))
          (toMat (V (Proc.devRef .tc main_arg0)))
          (toMat (V (Proc.devRef .tc main_arg3))) (toVec (V (Proc.devRef .tc main_arg4))) (toVec (V (Proc.devRef .tc main_arg5))) (toVec (V (Proc.devRef .tc main_arg6)))
          (toMat (V (Proc.devRef .tc main_arg7))) (toVec (V (Proc.devRef .tc main_arg8))) (toVec (V (Proc.devRef .tc main_arg9))) (toVec (V (Proc.devRef .tc main_arg10)))
          (toMat (V (Proc.devRef .tc main_arg11))) (toVec (V (Proc.devRef .tc main_arg12))) (toVec (V (Proc.devRef .tc main_arg13))) (toVec (V (Proc.devRef .tc main_arg14)))) := by
  unfold refNet refSel refTgt refNrm
  rw [refP3_eq, refP6_eq, refP29_eq]

theorem ref_final (V : Valuation τ sig (Elt Ideal)) :
    toMat (StableHlo.after (ops (F := Ideal)) V (Proc.devRef .tc main_v143))
        = (Cert.Spec.netD (selOf (r := 100000) (by decide) (gidxOf (srcT (V (Proc.devRef .tc main_arg1)))))
          (tgtOf (r := 100000) (sidxOf (dstT (V (Proc.devRef .tc main_arg1)))))
          (fun i => normT (srcT (V (Proc.devRef .tc main_arg1))) (dstT (V (Proc.devRef .tc main_arg1))) (ix1 i))
          (toMat (V (Proc.devRef .tc main_arg0)))
          (toMat (V (Proc.devRef .tc main_arg3))) (toVec (V (Proc.devRef .tc main_arg4))) (toVec (V (Proc.devRef .tc main_arg5))) (toVec (V (Proc.devRef .tc main_arg6)))
          (toMat (V (Proc.devRef .tc main_arg7))) (toVec (V (Proc.devRef .tc main_arg8))) (toVec (V (Proc.devRef .tc main_arg9))) (toVec (V (Proc.devRef .tc main_arg10)))
          (toMat (V (Proc.devRef .tc main_arg11))) (toVec (V (Proc.devRef .tc main_arg12))) (toVec (V (Proc.devRef .tc main_arg13))) (toVec (V (Proc.devRef .tc main_arg14)))).2.2
      ∧ StableHlo.after (ops (F := Ideal)) V (Proc.devRef .tc main_v153)
          = concatenate S512x192 1 [⟨S512x64, poolOf (V (Proc.devRef .tc main_arg2)) (refL1 V)⟩,
              ⟨S512x64, poolOf (V (Proc.devRef .tc main_arg2)) (refL2 V)⟩,
              ⟨S512x64, poolOf (V (Proc.devRef .tc main_arg2)) (refL3 V)⟩]
            concatenates_S512x64_S512x64_S512x64_S512x192_d1
      ∧ toMat (poolOf (V (Proc.devRef .tc main_arg2)) (refL1 V))
          = Cert.Spec.poolSeg (tgtOf (r := 512) (bidxOf (V (Proc.devRef .tc main_arg2))))
              (Cert.Spec.netD (selOf (r := 100000) (by decide) (gidxOf (srcT (V (Proc.devRef .tc main_arg1)))))
          (tgtOf (r := 100000) (sidxOf (dstT (V (Proc.devRef .tc main_arg1)))))
          (fun i => normT (srcT (V (Proc.devRef .tc main_arg1))) (dstT (V (Proc.devRef .tc main_arg1))) (ix1 i))
          (toMat (V (Proc.devRef .tc main_arg0)))
          (toMat (V (Proc.devRef .tc main_arg3))) (toVec (V (Proc.devRef .tc main_arg4))) (toVec (V (Proc.devRef .tc main_arg5))) (toVec (V (Proc.devRef .tc main_arg6)))
          (toMat (V (Proc.devRef .tc main_arg7))) (toVec (V (Proc.devRef .tc main_arg8))) (toVec (V (Proc.devRef .tc main_arg9))) (toVec (V (Proc.devRef .tc main_arg10)))
          (toMat (V (Proc.devRef .tc main_arg11))) (toVec (V (Proc.devRef .tc main_arg12))) (toVec (V (Proc.devRef .tc main_arg13))) (toVec (V (Proc.devRef .tc main_arg14)))).1
      ∧ toMat (poolOf (V (Proc.devRef .tc main_arg2)) (refL2 V))
          = Cert.Spec.poolSeg (tgtOf (r := 512) (bidxOf (V (Proc.devRef .tc main_arg2))))
              (Cert.Spec.netD (selOf (r := 100000) (by decide) (gidxOf (srcT (V (Proc.devRef .tc main_arg1)))))
          (tgtOf (r := 100000) (sidxOf (dstT (V (Proc.devRef .tc main_arg1)))))
          (fun i => normT (srcT (V (Proc.devRef .tc main_arg1))) (dstT (V (Proc.devRef .tc main_arg1))) (ix1 i))
          (toMat (V (Proc.devRef .tc main_arg0)))
          (toMat (V (Proc.devRef .tc main_arg3))) (toVec (V (Proc.devRef .tc main_arg4))) (toVec (V (Proc.devRef .tc main_arg5))) (toVec (V (Proc.devRef .tc main_arg6)))
          (toMat (V (Proc.devRef .tc main_arg7))) (toVec (V (Proc.devRef .tc main_arg8))) (toVec (V (Proc.devRef .tc main_arg9))) (toVec (V (Proc.devRef .tc main_arg10)))
          (toMat (V (Proc.devRef .tc main_arg11))) (toVec (V (Proc.devRef .tc main_arg12))) (toVec (V (Proc.devRef .tc main_arg13))) (toVec (V (Proc.devRef .tc main_arg14)))).2.1
      ∧ toMat (poolOf (V (Proc.devRef .tc main_arg2)) (refL3 V))
          = Cert.Spec.poolSeg (tgtOf (r := 512) (bidxOf (V (Proc.devRef .tc main_arg2))))
              (Cert.Spec.netD (selOf (r := 100000) (by decide) (gidxOf (srcT (V (Proc.devRef .tc main_arg1)))))
          (tgtOf (r := 100000) (sidxOf (dstT (V (Proc.devRef .tc main_arg1)))))
          (fun i => normT (srcT (V (Proc.devRef .tc main_arg1))) (dstT (V (Proc.devRef .tc main_arg1))) (ix1 i))
          (toMat (V (Proc.devRef .tc main_arg0)))
          (toMat (V (Proc.devRef .tc main_arg3))) (toVec (V (Proc.devRef .tc main_arg4))) (toVec (V (Proc.devRef .tc main_arg5))) (toVec (V (Proc.devRef .tc main_arg6)))
          (toMat (V (Proc.devRef .tc main_arg7))) (toVec (V (Proc.devRef .tc main_arg8))) (toVec (V (Proc.devRef .tc main_arg9))) (toVec (V (Proc.devRef .tc main_arg10)))
          (toMat (V (Proc.devRef .tc main_arg11))) (toVec (V (Proc.devRef .tc main_arg12))) (toVec (V (Proc.devRef .tc main_arg13))) (toVec (V (Proc.devRef .tc main_arg14)))).2.2 := by
  rw [← refNet_eq V]
  exact ⟨ref_out V, ref_pools V, (refPool_eq V).1, (refPool_eq V).2.1, (refPool_eq V).2.2⟩

end Cert.ReferenceIdeal.Hand

end
-- ==== Proof.Math.PreFin.lean ====
import proofs.«424828_j6554120094214_2_alg».proof.Defs
import proofs.«424828_j6554120094214_2_alg».proof.Proof.Gen.Pre_finite_inputs
import Idealize.ShloMosaic.Lib.ReduceAll
import Idealize.ShloMosaic.Lib.ValueIdx
import Idealize.ShloMosaic.Lib.IdealHost
import Idealize.ShloMosaic.PureOps.Ideal

noncomputable section

namespace Cert.PreFin

open Idealize.ShloMosaic Idealize.SL.Sem

instance subsingleton_scalar_idx : Subsingleton (⟨0, ![]⟩ : Shape).Idx :=
  ⟨fun a b => funext fun d => d.elim0⟩

theorem ofBits_inf : Ideal.ofBits .f32 0x7F800000#32 = (⊤ : EReal) := by
  simp [Ideal.ofBits, Ideal.ieee]

theorem real_of_abs_lt_top (x : EReal)
    (h : Ideal.cmp .olt (max x (-x)) (Ideal.ofBits .f32 0x7F800000#32) = 1#1) : ∃ v : ℝ, x = (v : EReal) := by
  rw [ofBits_inf] at h
  induction x using EReal.rec with
  | bot => simp [Ideal.cmp] at h
  | coe v => exact ⟨v, rfl⟩
  | top => simp [Ideal.cmp] at h

abbrev allFinite {s : Shape} {axes : List (Fin s.rank)} (hb : (⟨0, ![]⟩ : Shape).BroadcastsInDim s ![])
    (hr : s.ReducesTo axes (⟨0, ![]⟩ : Shape)) (hu : 0 < (⟨0, ![]⟩ : Shape).numel) (x : FVec Ideal s .f32) :
    IVec (⟨0, ![]⟩ : Shape) 1 :=
  Host.reduce IntOp.andi
    (cmpf .olt (Host.absf x) (broadcastInDim s ![] hb (constant (F := Ideal) (⟨0, ![]⟩ : Shape) .f32 0x7F800000#32)))
    (constantI (⟨0, ![]⟩ : Shape) 1 1#1) hr hu

theorem real_of_allFinite {s : Shape} {axes : List (Fin s.rank)} (hb : (⟨0, ![]⟩ : Shape).BroadcastsInDim s ![])
    (hr : s.ReducesTo axes (⟨0, ![]⟩ : Shape)) (hu : 0 < (⟨0, ![]⟩ : Shape).numel) (x : FVec Ideal s .f32)
    (e : allFinite hb hr hu x ValueIdx.ix0 = 1#1) (i : s.Idx) : ∃ v : ℝ, x i = (v : EReal) := by
  have e1 := Host.reduce_andi_all _ _ hr hu ValueIdx.ix0 e i
  refine real_of_abs_lt_top (x i) ?_
  rw [ValueIdx.cmpf_apply, ValueIdx.broadcastInDim_scalar_apply] at e1
  exact e1

theorem andi_ix0 (a b : IVec (⟨0, ![]⟩ : Shape) 1) (h : andi a b ValueIdx.ix0 = 1#1) :
    a ValueIdx.ix0 = 1#1 ∧ b ValueIdx.ix0 = 1#1 := IntOp.andi_eq_one.1 h

theorem fin_of_pre [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ v : ℝ, m ((c.tc : Thread Cert.KernelIdeal.nD Cert.KernelIdeal.τ).loc Cert.KernelIdeal.main_arg0) i = (v : EReal))
    ∧ (∀ i, ∃ v : ℝ, m ((c.tc : Thread Cert.KernelIdeal.nD Cert.KernelIdeal.τ).loc Cert.KernelIdeal.main_arg3) i = (v : EReal))
    ∧ (∀ i, ∃ v : ℝ, m ((c.tc : Thread Cert.KernelIdeal.nD Cert.KernelIdeal.τ).loc Cert.KernelIdeal.main_arg4) i = (v : EReal))
    ∧ (∀ i, ∃ v : ℝ, m ((c.tc : Thread Cert.KernelIdeal.nD Cert.KernelIdeal.τ).loc Cert.KernelIdeal.main_arg5) i = (v : EReal))
    ∧ (∀ i, ∃ v : ℝ, m ((c.tc : Thread Cert.KernelIdeal.nD Cert.KernelIdeal.τ).loc Cert.KernelIdeal.main_arg6) i = (v : EReal))
    ∧ (∀ i, ∃ v : ℝ, m ((c.tc : Thread Cert.KernelIdeal.nD Cert.KernelIdeal.τ).loc Cert.KernelIdeal.main_arg7) i = (v : EReal))
    ∧ (∀ i, ∃ v : ℝ, m ((c.tc : Thread Cert.KernelIdeal.nD Cert.KernelIdeal.τ).loc Cert.KernelIdeal.main_arg8) i = (v : EReal))
    ∧ (∀ i, ∃ v : ℝ, m ((c.tc : Thread Cert.KernelIdeal.nD Cert.KernelIdeal.τ).loc Cert.KernelIdeal.main_arg9) i = (v : EReal))
    ∧ (∀ i, ∃ v : ℝ, m ((c.tc : Thread Cert.KernelIdeal.nD Cert.KernelIdeal.τ).loc Cert.KernelIdeal.main_arg10) i = (v : EReal))
    ∧ (∀ i, ∃ v : ℝ, m ((c.tc : Thread Cert.KernelIdeal.nD Cert.KernelIdeal.τ).loc Cert.KernelIdeal.main_arg11) i = (v : EReal))
    ∧ (∀ i, ∃ v : ℝ, m ((c.tc : Thread Cert.KernelIdeal.nD Cert.KernelIdeal.τ).loc Cert.KernelIdeal.main_arg12) i = (v : EReal))
    ∧ (∀ i, ∃ v : ℝ, m ((c.tc : Thread Cert.KernelIdeal.nD Cert.KernelIdeal.τ).loc Cert.KernelIdeal.main_arg13) i = (v : EReal))
    ∧ (∀ i, ∃ v : ℝ, m ((c.tc : Thread Cert.KernelIdeal.nD Cert.KernelIdeal.τ).loc Cert.KernelIdeal.main_arg14) i = (v : EReal)) := by
  have H := congrFun (h c) ValueIdx.ix0
  dsimp only [Cert.Pre_finite_inputs.fn, Cert.Pre_finite_inputs.fn_part1, Cert.Pre_finite_inputs.fn_part2,
    Cert.Pre_finite_inputs.fn_part3] at H
  obtain ⟨H, h14⟩ := andi_ix0 _ _ H
  obtain ⟨H, h13⟩ := andi_ix0 _ _ H
  obtain ⟨H, h12⟩ := andi_ix0 _ _ H
  obtain ⟨H, h11⟩ := andi_ix0 _ _ H
  obtain ⟨H, h10⟩ := andi_ix0 _ _ H
  obtain ⟨H, h9⟩ := andi_ix0 _ _ H
  obtain ⟨H, h8⟩ := andi_ix0 _ _ H
  obtain ⟨H, h7⟩ := andi_ix0 _ _ H
  obtain ⟨H, h6⟩ := andi_ix0 _ _ H
  obtain ⟨H, h5⟩ := andi_ix0 _ _ H
  obtain ⟨H, h4⟩ := andi_ix0 _ _ H
  obtain ⟨H, h3⟩ := andi_ix0 _ _ H
  exact ⟨real_of_allFinite _ _ _ _ H,
    real_of_allFinite _ _ _ _ h3,
    real_of_allFinite _ _ _ _ h4,
    real_of_allFinite _ _ _ _ h5,
    real_of_allFinite _ _ _ _ h6,
    real_of_allFinite _ _ _ _ h7,
    real_of_allFinite _ _ _ _ h8,
    real_of_allFinite _ _ _ _ h9,
    real_of_allFinite _ _ _ _ h10,
    real_of_allFinite _ _ _ _ h11,
    real_of_allFinite _ _ _ _ h12,
    real_of_allFinite _ _ _ _ h13,
    real_of_allFinite _ _ _ _ h14⟩

theorem fin_arg0 [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ v : ℝ, m ((c.tc : Thread Cert.KernelIdeal.nD Cert.KernelIdeal.τ).loc Cert.KernelIdeal.main_arg0) i = (v : EReal) :=
  (fin_of_pre m h c).1

theorem fin_arg3 [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ v : ℝ, m ((c.tc : Thread Cert.KernelIdeal.nD Cert.KernelIdeal.τ).loc Cert.KernelIdeal.main_arg3) i = (v : EReal) :=
  (fin_of_pre m h c).2.1

theorem fin_arg4 [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ v : ℝ, m ((c.tc : Thread Cert.KernelIdeal.nD Cert.KernelIdeal.τ).loc Cert.KernelIdeal.main_arg4) i = (v : EReal) :=
  (fin_of_pre m h c).2.2.1

theorem fin_arg5 [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ v : ℝ, m ((c.tc : Thread Cert.KernelIdeal.nD Cert.KernelIdeal.τ).loc Cert.KernelIdeal.main_arg5) i = (v : EReal) :=
  (fin_of_pre m h c).2.2.2.1

theorem fin_arg6 [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ v : ℝ, m ((c.tc : Thread Cert.KernelIdeal.nD Cert.KernelIdeal.τ).loc Cert.KernelIdeal.main_arg6) i = (v : EReal) :=
  (fin_of_pre m h c).2.2.2.2.1

theorem fin_arg7 [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ v : ℝ, m ((c.tc : Thread Cert.KernelIdeal.nD Cert.KernelIdeal.τ).loc Cert.KernelIdeal.main_arg7) i = (v : EReal) :=
  (fin_of_pre m h c).2.2.2.2.2.1

theorem fin_arg8 [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ v : ℝ, m ((c.tc : Thread Cert.KernelIdeal.nD Cert.KernelIdeal.τ).loc Cert.KernelIdeal.main_arg8) i = (v : EReal) :=
  (fin_of_pre m h c).2.2.2.2.2.2.1

theorem fin_arg9 [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ v : ℝ, m ((c.tc : Thread Cert.KernelIdeal.nD Cert.KernelIdeal.τ).loc Cert.KernelIdeal.main_arg9) i = (v : EReal) :=
  (fin_of_pre m h c).2.2.2.2.2.2.2.1

theorem fin_arg10 [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ v : ℝ, m ((c.tc : Thread Cert.KernelIdeal.nD Cert.KernelIdeal.τ).loc Cert.KernelIdeal.main_arg10) i = (v : EReal) :=
  (fin_of_pre m h c).2.2.2.2.2.2.2.2.1

theorem fin_arg11 [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ v : ℝ, m ((c.tc : Thread Cert.KernelIdeal.nD Cert.KernelIdeal.τ).loc Cert.KernelIdeal.main_arg11) i = (v : EReal) :=
  (fin_of_pre m h c).2.2.2.2.2.2.2.2.2.1

theorem fin_arg12 [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ v : ℝ, m ((c.tc : Thread Cert.KernelIdeal.nD Cert.KernelIdeal.τ).loc Cert.KernelIdeal.main_arg12) i = (v : EReal) :=
  (fin_of_pre m h c).2.2.2.2.2.2.2.2.2.2.1

theorem fin_arg13 [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ v : ℝ, m ((c.tc : Thread Cert.KernelIdeal.nD Cert.KernelIdeal.τ).loc Cert.KernelIdeal.main_arg13) i = (v : EReal) :=
  (fin_of_pre m h c).2.2.2.2.2.2.2.2.2.2.2.1

theorem fin_arg14 [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ v : ℝ, m ((c.tc : Thread Cert.KernelIdeal.nD Cert.KernelIdeal.τ).loc Cert.KernelIdeal.main_arg14) i = (v : EReal) :=
  (fin_of_pre m h c).2.2.2.2.2.2.2.2.2.2.2.2

end Cert.PreFin

end
-- ==== Proof.Math.Join.lean ====
import proofs.«424828_j6554120094214_2_alg».proof.Proof.Math.Net
import proofs.«424828_j6554120094214_2_alg».proof.Proof.Math.HostIdx

noncomputable section

namespace Cert.Spec

open Idealize.ShloMosaic Cert.HostIdx

theorem join_out {sel : Fin Ee → Fin Nn} {tgt : Fin Ee → Option (Fin Nn)} {nrm : Fin Ee → EReal} {x : Mat Nn 64}
    {W0 : Mat 64 64} {b0 g0 e0 : Fin 64 → EReal} {W1 : Mat 64 64} {b1 g1 e1 : Fin 64 → EReal}
    {W2 : Mat 64 64} {b2 g2 e2 : Fin 64 → EReal}
    {a b : (⟨2, ![100000, 64]⟩ : Shape).Idx → EReal}
    (ha : toMat a = (netM sel tgt nrm x W0 b0 g0 e0 W1 b1 g1 e1 W2 b2 g2 e2).2.2)
    (hb : toMat b = (netD sel tgt nrm x W0 b0 g0 e0 W1 b1 g1 e1 W2 b2 g2 e2).2.2)
    (hn : FinVec nrm) (hx : FinMat x)
    (hW0 : FinMat W0) (hb0 : FinVec b0) (hg0 : FinVec g0) (he0 : FinVec e0)
    (hW1 : FinMat W1) (hb1 : FinVec b1) (hg1 : FinVec g1) (he1 : FinVec e1)
    (hW2 : FinMat W2) (hb2 : FinVec b2) (hg2 : FinVec g2) (he2 : FinVec e2) : a = b :=
  eq_of_toMat_eq (ha.trans ((congrArg (fun p => p.2.2) (netM_eq_netD hn hx hW0 hb0 hg0 he0 hW1 hb1 hg1 he1 hW2 hb2 hg2 he2)).trans hb.symm))

theorem join_pool1 {seg : Fin Nn → Option (Fin Gg)} {sel : Fin Ee → Fin Nn} {tgt : Fin Ee → Option (Fin Nn)} {nrm : Fin Ee → EReal} {x : Mat Nn 64}
    {W0 : Mat 64 64} {b0 g0 e0 : Fin 64 → EReal} {W1 : Mat 64 64} {b1 g1 e1 : Fin 64 → EReal}
    {W2 : Mat 64 64} {b2 g2 e2 : Fin 64 → EReal}
    {pa pb : (⟨2, ![512, 64]⟩ : Shape).Idx → EReal}
    (hpa : toMat pa = poolHot seg (netM sel tgt nrm x W0 b0 g0 e0 W1 b1 g1 e1 W2 b2 g2 e2).1)
    (hpb : toMat pb = poolSeg seg (netD sel tgt nrm x W0 b0 g0 e0 W1 b1 g1 e1 W2 b2 g2 e2).1)
    (hn : FinVec nrm) (hx : FinMat x)
    (hW0 : FinMat W0) (hb0 : FinVec b0) (hg0 : FinVec g0) (he0 : FinVec e0)
    (hW1 : FinMat W1) (hb1 : FinVec b1) (hg1 : FinVec g1) (he1 : FinVec e1)
    (hW2 : FinMat W2) (hb2 : FinVec b2) (hg2 : FinVec g2) (he2 : FinVec e2) : pa = pb :=
  eq_of_toMat_eq (hpa.trans ((pools_eq seg hn hx hW0 hb0 hg0 he0 hW1 hb1 hg1 he1 hW2 hb2 hg2 he2).1.trans hpb.symm))

theorem join_pool2 {seg : Fin Nn → Option (Fin Gg)} {sel : Fin Ee → Fin Nn} {tgt : Fin Ee → Option (Fin Nn)} {nrm : Fin Ee → EReal} {x : Mat Nn 64}
    {W0 : Mat 64 64} {b0 g0 e0 : Fin 64 → EReal} {W1 : Mat 64 64} {b1 g1 e1 : Fin 64 → EReal}
    {W2 : Mat 64 64} {b2 g2 e2 : Fin 64 → EReal}
    {pa pb : (⟨2, ![512, 64]⟩ : Shape).Idx → EReal}
    (hpa : toMat pa = poolHot seg (netM sel tgt nrm x W0 b0 g0 e0 W1 b1 g1 e1 W2 b2 g2 e2).2.1)
    (hpb : toMat pb = poolSeg seg (netD sel tgt nrm x W0 b0 g0 e0 W1 b1 g1 e1 W2 b2 g2 e2).2.1)
    (hn : FinVec nrm) (hx : FinMat x)
    (hW0 : FinMat W0) (hb0 : FinVec b0) (hg0 : FinVec g0) (he0 : FinVec e0)
    (hW1 : FinMat W1) (hb1 : FinVec b1) (hg1 : FinVec g1) (he1 : FinVec e1)
    (hW2 : FinMat W2) (hb2 : FinVec b2) (hg2 : FinVec g2) (he2 : FinVec e2) : pa = pb :=
  eq_of_toMat_eq (hpa.trans ((pools_eq seg hn hx hW0 hb0 hg0 he0 hW1 hb1 hg1 he1 hW2 hb2 hg2 he2).2.1.trans hpb.symm))

theorem join_pool3 {seg : Fin Nn → Option (Fin Gg)} {sel : Fin Ee → Fin Nn} {tgt : Fin Ee → Option (Fin Nn)} {nrm : Fin Ee → EReal} {x : Mat Nn 64}
    {W0 : Mat 64 64} {b0 g0 e0 : Fin 64 → EReal} {W1 : Mat 64 64} {b1 g1 e1 : Fin 64 → EReal}
    {W2 : Mat 64 64} {b2 g2 e2 : Fin 64 → EReal}
    {pa pb : (⟨2, ![512, 64]⟩ : Shape).Idx → EReal}
    (hpa : toMat pa = poolHot seg (netM sel tgt nrm x W0 b0 g0 e0 W1 b1 g1 e1 W2 b2 g2 e2).2.2)
    (hpb : toMat pb = poolSeg seg (netD sel tgt nrm x W0 b0 g0 e0 W1 b1 g1 e1 W2 b2 g2 e2).2.2)
    (hn : FinVec nrm) (hx : FinMat x)
    (hW0 : FinMat W0) (hb0 : FinVec b0) (hg0 : FinVec g0) (he0 : FinVec e0)
    (hW1 : FinMat W1) (hb1 : FinVec b1) (hg1 : FinVec g1) (he1 : FinVec e1)
    (hW2 : FinMat W2) (hb2 : FinVec b2) (hg2 : FinVec g2) (he2 : FinVec e2) : pa = pb :=
  eq_of_toMat_eq (hpa.trans ((pools_eq seg hn hx hW0 hb0 hg0 he0 hW1 hb1 hg1 he1 hW2 hb2 hg2 he2).2.2.trans hpb.symm))

theorem join_out_arr {sel : Fin Ee → Fin Nn} {tgt : Fin Ee → Option (Fin Nn)} {nrm : Fin Ee → EReal}
    {X : (⟨2, ![100000, 64]⟩ : Shape).Idx → EReal}
    {W0a : (⟨2, ![64, 64]⟩ : Shape).Idx → EReal} {B0a G0a E0a : (⟨1, ![64]⟩ : Shape).Idx → EReal}
    {W1a : (⟨2, ![64, 64]⟩ : Shape).Idx → EReal} {B1a G1a E1a : (⟨1, ![64]⟩ : Shape).Idx → EReal}
    {W2a : (⟨2, ![64, 64]⟩ : Shape).Idx → EReal} {B2a G2a E2a : (⟨1, ![64]⟩ : Shape).Idx → EReal}
    {a b : (⟨2, ![100000, 64]⟩ : Shape).Idx → EReal}
    (ha : toMat a = (netM sel tgt nrm (toMat X) (toMat W0a) (toVec B0a) (toVec G0a) (toVec E0a) (toMat W1a) (toVec B1a) (toVec G1a) (toVec E1a) (toMat W2a) (toVec B2a) (toVec G2a) (toVec E2a)).2.2)
    (hb : toMat b = (netD sel tgt nrm (toMat X) (toMat W0a) (toVec B0a) (toVec G0a) (toVec E0a) (toMat W1a) (toVec B1a) (toVec G1a) (toVec E1a) (toMat W2a) (toVec B2a) (toVec G2a) (toVec E2a)).2.2)
    (hn : FinVec nrm) (hX : ∀ i, ∃ v : ℝ, X i = (v : EReal))
    (hW0 : ∀ i, ∃ v : ℝ, W0a i = (v : EReal)) (hb0 : ∀ i, ∃ v : ℝ, B0a i = (v : EReal))
    (hg0 : ∀ i, ∃ v : ℝ, G0a i = (v : EReal)) (he0 : ∀ i, ∃ v : ℝ, E0a i = (v : EReal))
    (hW1 : ∀ i, ∃ v : ℝ, W1a i = (v : EReal)) (hb1 : ∀ i, ∃ v : ℝ, B1a i = (v : EReal))
    (hg1 : ∀ i, ∃ v : ℝ, G1a i = (v : EReal)) (he1 : ∀ i, ∃ v : ℝ, E1a i = (v : EReal))
    (hW2 : ∀ i, ∃ v : ℝ, W2a i = (v : EReal)) (hb2 : ∀ i, ∃ v : ℝ, B2a i = (v : EReal))
    (hg2 : ∀ i, ∃ v : ℝ, G2a i = (v : EReal)) (he2 : ∀ i, ∃ v : ℝ, E2a i = (v : EReal)) : a = b :=
  join_out ha hb hn ((finMat_toMat_iff X).mpr hX)
    ((finMat_toMat_iff W0a).mpr hW0) ((finVec_toVec_iff B0a).mpr hb0) ((finVec_toVec_iff G0a).mpr hg0)
    ((finVec_toVec_iff E0a).mpr he0)
    ((finMat_toMat_iff W1a).mpr hW1) ((finVec_toVec_iff B1a).mpr hb1) ((finVec_toVec_iff G1a).mpr hg1)
    ((finVec_toVec_iff E1a).mpr he1)
    ((finMat_toMat_iff W2a).mpr hW2) ((finVec_toVec_iff B2a).mpr hb2) ((finVec_toVec_iff G2a).mpr hg2)
    ((finVec_toVec_iff E2a).mpr he2)

theorem join_pool1_arr {seg : Fin Nn → Option (Fin Gg)} {sel : Fin Ee → Fin Nn} {tgt : Fin Ee → Option (Fin Nn)} {nrm : Fin Ee → EReal}
    {X : (⟨2, ![100000, 64]⟩ : Shape).Idx → EReal}
    {W0a : (⟨2, ![64, 64]⟩ : Shape).Idx → EReal} {B0a G0a E0a : (⟨1, ![64]⟩ : Shape).Idx → EReal}
    {W1a : (⟨2, ![64, 64]⟩ : Shape).Idx → EReal} {B1a G1a E1a : (⟨1, ![64]⟩ : Shape).Idx → EReal}
    {W2a : (⟨2, ![64, 64]⟩ : Shape).Idx → EReal} {B2a G2a E2a : (⟨1, ![64]⟩ : Shape).Idx → EReal}
    {pa pb : (⟨2, ![512, 64]⟩ : Shape).Idx → EReal}
    (hpa : toMat pa = poolHot seg (netM sel tgt nrm (toMat X) (toMat W0a) (toVec B0a) (toVec G0a) (toVec E0a) (toMat W1a) (toVec B1a) (toVec G1a) (toVec E1a) (toMat W2a) (toVec B2a) (toVec G2a) (toVec E2a)).1)
    (hpb : toMat pb = poolSeg seg (netD sel tgt nrm (toMat X) (toMat W0a) (toVec B0a) (toVec G0a) (toVec E0a) (toMat W1a) (toVec B1a) (toVec G1a) (toVec E1a) (toMat W2a) (toVec B2a) (toVec G2a) (toVec E2a)).1)
    (hn : FinVec nrm) (hX : ∀ i, ∃ v : ℝ, X i = (v : EReal))
    (hW0 : ∀ i, ∃ v : ℝ, W0a i = (v : EReal)) (hb0 : ∀ i, ∃ v : ℝ, B0a i = (v : EReal))
    (hg0 : ∀ i, ∃ v : ℝ, G0a i = (v : EReal)) (he0 : ∀ i, ∃ v : ℝ, E0a i = (v : EReal))
    (hW1 : ∀ i, ∃ v : ℝ, W1a i = (v : EReal)) (hb1 : ∀ i, ∃ v : ℝ, B1a i = (v : EReal))
    (hg1 : ∀ i, ∃ v : ℝ, G1a i = (v : EReal)) (he1 : ∀ i, ∃ v : ℝ, E1a i = (v : EReal))
    (hW2 : ∀ i, ∃ v : ℝ, W2a i = (v : EReal)) (hb2 : ∀ i, ∃ v : ℝ, B2a i = (v : EReal))
    (hg2 : ∀ i, ∃ v : ℝ, G2a i = (v : EReal)) (he2 : ∀ i, ∃ v : ℝ, E2a i = (v : EReal)) : pa = pb :=
  join_pool1 hpa hpb hn ((finMat_toMat_iff X).mpr hX)
    ((finMat_toMat_iff W0a).mpr hW0) ((finVec_toVec_iff B0a).mpr hb0) ((finVec_toVec_iff G0a).mpr hg0)
    ((finVec_toVec_iff E0a).mpr he0)
    ((finMat_toMat_iff W1a).mpr hW1) ((finVec_toVec_iff B1a).mpr hb1) ((finVec_toVec_iff G1a).mpr hg1)
    ((finVec_toVec_iff E1a).mpr he1)
    ((finMat_toMat_iff W2a).mpr hW2) ((finVec_toVec_iff B2a).mpr hb2) ((finVec_toVec_iff G2a).mpr hg2)
    ((finVec_toVec_iff E2a).mpr he2)

theorem join_pool2_arr {seg : Fin Nn → Option (Fin Gg)} {sel : Fin Ee → Fin Nn} {tgt : Fin Ee → Option (Fin Nn)} {nrm : Fin Ee → EReal}
    {X : (⟨2, ![100000, 64]⟩ : Shape).Idx → EReal}
    {W0a : (⟨2, ![64, 64]⟩ : Shape).Idx → EReal} {B0a G0a E0a : (⟨1, ![64]⟩ : Shape).Idx → EReal}
    {W1a : (⟨2, ![64, 64]⟩ : Shape).Idx → EReal} {B1a G1a E1a : (⟨1, ![64]⟩ : Shape).Idx → EReal}
    {W2a : (⟨2, ![64, 64]⟩ : Shape).Idx → EReal} {B2a G2a E2a : (⟨1, ![64]⟩ : Shape).Idx → EReal}
    {pa pb : (⟨2, ![512, 64]⟩ : Shape).Idx → EReal}
    (hpa : toMat pa = poolHot seg (netM sel tgt nrm (toMat X) (toMat W0a) (toVec B0a) (toVec G0a) (toVec E0a) (toMat W1a) (toVec B1a) (toVec G1a) (toVec E1a) (toMat W2a) (toVec B2a) (toVec G2a) (toVec E2a)).2.1)
    (hpb : toMat pb = poolSeg seg (netD sel tgt nrm (toMat X) (toMat W0a) (toVec B0a) (toVec G0a) (toVec E0a) (toMat W1a) (toVec B1a) (toVec G1a) (toVec E1a) (toMat W2a) (toVec B2a) (toVec G2a) (toVec E2a)).2.1)
    (hn : FinVec nrm) (hX : ∀ i, ∃ v : ℝ, X i = (v : EReal))
    (hW0 : ∀ i, ∃ v : ℝ, W0a i = (v : EReal)) (hb0 : ∀ i, ∃ v : ℝ, B0a i = (v : EReal))
    (hg0 : ∀ i, ∃ v : ℝ, G0a i = (v : EReal)) (he0 : ∀ i, ∃ v : ℝ, E0a i = (v : EReal))
    (hW1 : ∀ i, ∃ v : ℝ, W1a i = (v : EReal)) (hb1 : ∀ i, ∃ v : ℝ, B1a i = (v : EReal))
    (hg1 : ∀ i, ∃ v : ℝ, G1a i = (v : EReal)) (he1 : ∀ i, ∃ v : ℝ, E1a i = (v : EReal))
    (hW2 : ∀ i, ∃ v : ℝ, W2a i = (v : EReal)) (hb2 : ∀ i, ∃ v : ℝ, B2a i = (v : EReal))
    (hg2 : ∀ i, ∃ v : ℝ, G2a i = (v : EReal)) (he2 : ∀ i, ∃ v : ℝ, E2a i = (v : EReal)) : pa = pb :=
  join_pool2 hpa hpb hn ((finMat_toMat_iff X).mpr hX)
    ((finMat_toMat_iff W0a).mpr hW0) ((finVec_toVec_iff B0a).mpr hb0) ((finVec_toVec_iff G0a).mpr hg0)
    ((finVec_toVec_iff E0a).mpr he0)
    ((finMat_toMat_iff W1a).mpr hW1) ((finVec_toVec_iff B1a).mpr hb1) ((finVec_toVec_iff G1a).mpr hg1)
    ((finVec_toVec_iff E1a).mpr he1)
    ((finMat_toMat_iff W2a).mpr hW2) ((finVec_toVec_iff B2a).mpr hb2) ((finVec_toVec_iff G2a).mpr hg2)
    ((finVec_toVec_iff E2a).mpr he2)

theorem join_pool3_arr {seg : Fin Nn → Option (Fin Gg)} {sel : Fin Ee → Fin Nn} {tgt : Fin Ee → Option (Fin Nn)} {nrm : Fin Ee → EReal}
    {X : (⟨2, ![100000, 64]⟩ : Shape).Idx → EReal}
    {W0a : (⟨2, ![64, 64]⟩ : Shape).Idx → EReal} {B0a G0a E0a : (⟨1, ![64]⟩ : Shape).Idx → EReal}
    {W1a : (⟨2, ![64, 64]⟩ : Shape).Idx → EReal} {B1a G1a E1a : (⟨1, ![64]⟩ : Shape).Idx → EReal}
    {W2a : (⟨2, ![64, 64]⟩ : Shape).Idx → EReal} {B2a G2a E2a : (⟨1, ![64]⟩ : Shape).Idx → EReal}
    {pa pb : (⟨2, ![512, 64]⟩ : Shape).Idx → EReal}
    (hpa : toMat pa = poolHot seg (netM sel tgt nrm (toMat X) (toMat W0a) (toVec B0a) (toVec G0a) (toVec E0a) (toMat W1a) (toVec B1a) (toVec G1a) (toVec E1a) (toMat W2a) (toVec B2a) (toVec G2a) (toVec E2a)).2.2)
    (hpb : toMat pb = poolSeg seg (netD sel tgt nrm (toMat X) (toMat W0a) (toVec B0a) (toVec G0a) (toVec E0a) (toMat W1a) (toVec B1a) (toVec G1a) (toVec E1a) (toMat W2a) (toVec B2a) (toVec G2a) (toVec E2a)).2.2)
    (hn : FinVec nrm) (hX : ∀ i, ∃ v : ℝ, X i = (v : EReal))
    (hW0 : ∀ i, ∃ v : ℝ, W0a i = (v : EReal)) (hb0 : ∀ i, ∃ v : ℝ, B0a i = (v : EReal))
    (hg0 : ∀ i, ∃ v : ℝ, G0a i = (v : EReal)) (he0 : ∀ i, ∃ v : ℝ, E0a i = (v : EReal))
    (hW1 : ∀ i, ∃ v : ℝ, W1a i = (v : EReal)) (hb1 : ∀ i, ∃ v : ℝ, B1a i = (v : EReal))
    (hg1 : ∀ i, ∃ v : ℝ, G1a i = (v : EReal)) (he1 : ∀ i, ∃ v : ℝ, E1a i = (v : EReal))
    (hW2 : ∀ i, ∃ v : ℝ, W2a i = (v : EReal)) (hb2 : ∀ i, ∃ v : ℝ, B2a i = (v : EReal))
    (hg2 : ∀ i, ∃ v : ℝ, G2a i = (v : EReal)) (he2 : ∀ i, ∃ v : ℝ, E2a i = (v : EReal)) : pa = pb :=
  join_pool3 hpa hpb hn ((finMat_toMat_iff X).mpr hX)
    ((finMat_toMat_iff W0a).mpr hW0) ((finVec_toVec_iff B0a).mpr hb0) ((finVec_toVec_iff G0a).mpr hg0)
    ((finVec_toVec_iff E0a).mpr he0)
    ((finMat_toMat_iff W1a).mpr hW1) ((finVec_toVec_iff B1a).mpr hb1) ((finVec_toVec_iff G1a).mpr hg1)
    ((finVec_toVec_iff E1a).mpr he1)
    ((finMat_toMat_iff W2a).mpr hW2) ((finVec_toVec_iff B2a).mpr hb2) ((finVec_toVec_iff G2a).mpr hg2)
    ((finVec_toVec_iff E2a).mpr he2)

end Cert.Spec

end
-- ==== Proof.Bridge.lean ====
import proofs.«424828_j6554120094214_2_alg».proof.Defs
import proofs.«424828_j6554120094214_2_alg».proof.Proof.KI.ValueFinal
import proofs.«424828_j6554120094214_2_alg».proof.Proof.Ref.Final
import proofs.«424828_j6554120094214_2_alg».proof.Proof.Math.PrefixK
import proofs.«424828_j6554120094214_2_alg».proof.Proof.Math.NormFin
import proofs.«424828_j6554120094214_2_alg».proof.Proof.Math.PreFin
import proofs.«424828_j6554120094214_2_alg».proof.Proof.Math.Join

noncomputable section

namespace Cert.Bridge

open Idealize.ShloMosaic Idealize.ShloMosaic.TcCoe Idealize.ShloMosaic.ValueIdx
open Cert.Spec Cert.HostIdx Cert.EdgeIdx

theorem concat3_congr
    {hc hc' : Shape.Concatenates [(⟨2, ![512, 64]⟩ : Shape), ⟨2, ![512, 64]⟩, ⟨2, ![512, 64]⟩] ⟨2, ![512, 192]⟩ 1}
    {a1 a2 a3 b1 b2 b3 : (⟨2, ![512, 64]⟩ : Shape).Idx → EReal} (e1 : b1 = a1) (e2 : b2 = a2) (e3 : b3 = a3) :
    concatenate (⟨2, ![512, 192]⟩ : Shape) 1 [⟨⟨2, ![512, 64]⟩, b1⟩, ⟨⟨2, ![512, 64]⟩, b2⟩, ⟨⟨2, ![512, 64]⟩, b3⟩] hc'
      = concatenate (⟨2, ![512, 192]⟩ : Shape) 1 [⟨⟨2, ![512, 64]⟩, a1⟩, ⟨⟨2, ![512, 64]⟩, a2⟩, ⟨⟨2, ![512, 64]⟩, a3⟩] hc := by
  subst e1 e2 e3; rfl

theorem out1_core {sel sel' : Fin Ee → Fin Nn} {tgt tgt' : Fin Ee → Option (Fin Nn)} {nrm nrm' : Fin Ee → EReal}
    {X X' : (⟨2, ![100000, 64]⟩ : Shape).Idx → EReal}
    {W0a : (⟨2, ![64, 64]⟩ : Shape).Idx → EReal} {B0a G0a E0a : (⟨1, ![64]⟩ : Shape).Idx → EReal}
    {W1a : (⟨2, ![64, 64]⟩ : Shape).Idx → EReal} {B1a G1a E1a : (⟨1, ![64]⟩ : Shape).Idx → EReal}
    {W2a : (⟨2, ![64, 64]⟩ : Shape).Idx → EReal} {B2a G2a E2a : (⟨1, ![64]⟩ : Shape).Idx → EReal}
    {W0a' : (⟨2, ![64, 64]⟩ : Shape).Idx → EReal} {B0a' G0a' E0a' : (⟨1, ![64]⟩ : Shape).Idx → EReal}
    {W1a' : (⟨2, ![64, 64]⟩ : Shape).Idx → EReal} {B1a' G1a' E1a' : (⟨1, ![64]⟩ : Shape).Idx → EReal}
    {W2a' : (⟨2, ![64, 64]⟩ : Shape).Idx → EReal} {B2a' G2a' E2a' : (⟨1, ![64]⟩ : Shape).Idx → EReal}
    {a b : (⟨2, ![100000, 64]⟩ : Shape).Idx → EReal}
    (hsel : sel' = sel) (htgt : tgt' = tgt) (hnrm : nrm' = nrm)
    (hX : X' = X)
    (hW0 : W0a' = W0a) (hB0 : B0a' = B0a) (hG0 : G0a' = G0a) (hE0 : E0a' = E0a)
    (hW1 : W1a' = W1a) (hB1 : B1a' = B1a) (hG1 : G1a' = G1a) (hE1 : E1a' = E1a)
    (hW2 : W2a' = W2a) (hB2 : B2a' = B2a) (hG2 : G2a' = G2a) (hE2 : E2a' = E2a)
    (ha : toMat a = (netM sel tgt nrm (toMat X) (toMat W0a) (toVec B0a) (toVec G0a) (toVec E0a) (toMat W1a) (toVec B1a) (toVec G1a) (toVec E1a) (toMat W2a) (toVec B2a) (toVec G2a) (toVec E2a)).2.2)
    (hb : toMat b = (netD sel' tgt' nrm' (toMat X') (toMat W0a') (toVec B0a') (toVec G0a') (toVec E0a') (toMat W1a') (toVec B1a') (toVec G1a') (toVec E1a') (toMat W2a') (toVec B2a') (toVec G2a') (toVec E2a')).2.2)
    (hn : FinVec nrm)
    (fX : ∀ i, ∃ v : ℝ, X i = (v : EReal))
    (fW0 : ∀ i, ∃ v : ℝ, W0a i = (v : EReal)) (fB0 : ∀ i, ∃ v : ℝ, B0a i = (v : EReal)) (fG0 : ∀ i, ∃ v : ℝ, G0a i = (v : EReal)) (fE0 : ∀ i, ∃ v : ℝ, E0a i = (v : EReal))
    (fW1 : ∀ i, ∃ v : ℝ, W1a i = (v : EReal)) (fB1 : ∀ i, ∃ v : ℝ, B1a i = (v : EReal)) (fG1 : ∀ i, ∃ v : ℝ, G1a i = (v : EReal)) (fE1 : ∀ i, ∃ v : ℝ, E1a i = (v : EReal))
    (fW2 : ∀ i, ∃ v : ℝ, W2a i = (v : EReal)) (fB2 : ∀ i, ∃ v : ℝ, B2a i = (v : EReal)) (fG2 : ∀ i, ∃ v : ℝ, G2a i = (v : EReal)) (fE2 : ∀ i, ∃ v : ℝ, E2a i = (v : EReal)) : b = a := by
  subst hsel htgt hnrm hX hW0 hB0 hG0 hE0 hW1 hB1 hG1 hE1 hW2 hB2 hG2 hE2
  exact (join_out_arr ha hb hn fX fW0 fB0 fG0 fE0 fW1 fB1 fG1 fE1 fW2 fB2 fG2 fE2).symm

theorem out0_core {seg seg' : Fin Nn → Option (Fin Gg)}
    {sel sel' : Fin Ee → Fin Nn} {tgt tgt' : Fin Ee → Option (Fin Nn)} {nrm nrm' : Fin Ee → EReal}
    {X X' : (⟨2, ![100000, 64]⟩ : Shape).Idx → EReal}
    {W0a : (⟨2, ![64, 64]⟩ : Shape).Idx → EReal} {B0a G0a E0a : (⟨1, ![64]⟩ : Shape).Idx → EReal}
    {W1a : (⟨2, ![64, 64]⟩ : Shape).Idx → EReal} {B1a G1a E1a : (⟨1, ![64]⟩ : Shape).Idx → EReal}
    {W2a : (⟨2, ![64, 64]⟩ : Shape).Idx → EReal} {B2a G2a E2a : (⟨1, ![64]⟩ : Shape).Idx → EReal}
    {W0a' : (⟨2, ![64, 64]⟩ : Shape).Idx → EReal} {B0a' G0a' E0a' : (⟨1, ![64]⟩ : Shape).Idx → EReal}
    {W1a' : (⟨2, ![64, 64]⟩ : Shape).Idx → EReal} {B1a' G1a' E1a' : (⟨1, ![64]⟩ : Shape).Idx → EReal}
    {W2a' : (⟨2, ![64, 64]⟩ : Shape).Idx → EReal} {B2a' G2a' E2a' : (⟨1, ![64]⟩ : Shape).Idx → EReal}
    {pa1 pa2 pa3 pb1 pb2 pb3 : (⟨2, ![512, 64]⟩ : Shape).Idx → EReal}
    {hc hc' : Shape.Concatenates [(⟨2, ![512, 64]⟩ : Shape), ⟨2, ![512, 64]⟩, ⟨2, ![512, 64]⟩] ⟨2, ![512, 192]⟩ 1}
    (hseg : seg' = seg) (hsel : sel' = sel) (htgt : tgt' = tgt) (hnrm : nrm' = nrm)
    (hX : X' = X)
    (hW0 : W0a' = W0a) (hB0 : B0a' = B0a) (hG0 : G0a' = G0a) (hE0 : E0a' = E0a)
    (hW1 : W1a' = W1a) (hB1 : B1a' = B1a) (hG1 : G1a' = G1a) (hE1 : E1a' = E1a)
    (hW2 : W2a' = W2a) (hB2 : B2a' = B2a) (hG2 : G2a' = G2a) (hE2 : E2a' = E2a)
    (hpa1 : toMat pa1 = poolHot seg (netM sel tgt nrm (toMat X) (toMat W0a) (toVec B0a) (toVec G0a) (toVec E0a) (toMat W1a) (toVec B1a) (toVec G1a) (toVec E1a) (toMat W2a) (toVec B2a) (toVec G2a) (toVec E2a)).1)
    (hpa2 : toMat pa2 = poolHot seg (netM sel tgt nrm (toMat X) (toMat W0a) (toVec B0a) (toVec G0a) (toVec E0a) (toMat W1a) (toVec B1a) (toVec G1a) (toVec E1a) (toMat W2a) (toVec B2a) (toVec G2a) (toVec E2a)).2.1)
    (hpa3 : toMat pa3 = poolHot seg (netM sel tgt nrm (toMat X) (toMat W0a) (toVec B0a) (toVec G0a) (toVec E0a) (toMat W1a) (toVec B1a) (toVec G1a) (toVec E1a) (toMat W2a) (toVec B2a) (toVec G2a) (toVec E2a)).2.2)
    (hpb1 : toMat pb1 = poolSeg seg' (netD sel' tgt' nrm' (toMat X') (toMat W0a') (toVec B0a') (toVec G0a') (toVec E0a') (toMat W1a') (toVec B1a') (toVec G1a') (toVec E1a') (toMat W2a') (toVec B2a') (toVec G2a') (toVec E2a')).1)
    (hpb2 : toMat pb2 = poolSeg seg' (netD sel' tgt' nrm' (toMat X') (toMat W0a') (toVec B0a') (toVec G0a') (toVec E0a') (toMat W1a') (toVec B1a') (toVec G1a') (toVec E1a') (toMat W2a') (toVec B2a') (toVec G2a') (toVec E2a')).2.1)
    (hpb3 : toMat pb3 = poolSeg seg' (netD sel' tgt' nrm' (toMat X') (toMat W0a') (toVec B0a') (toVec G0a') (toVec E0a') (toMat W1a') (toVec B1a') (toVec G1a') (toVec E1a') (toMat W2a') (toVec B2a') (toVec G2a') (toVec E2a')).2.2)
    (hn : FinVec nrm)
    (fX : ∀ i, ∃ v : ℝ, X i = (v : EReal))
    (fW0 : ∀ i, ∃ v : ℝ, W0a i = (v : EReal)) (fB0 : ∀ i, ∃ v : ℝ, B0a i = (v : EReal)) (fG0 : ∀ i, ∃ v : ℝ, G0a i = (v : EReal)) (fE0 : ∀ i, ∃ v : ℝ, E0a i = (v : EReal))
    (fW1 : ∀ i, ∃ v : ℝ, W1a i = (v : EReal)) (fB1 : ∀ i, ∃ v : ℝ, B1a i = (v : EReal)) (fG1 : ∀ i, ∃ v : ℝ, G1a i = (v : EReal)) (fE1 : ∀ i, ∃ v : ℝ, E1a i = (v : EReal))
    (fW2 : ∀ i, ∃ v : ℝ, W2a i = (v : EReal)) (fB2 : ∀ i, ∃ v : ℝ, B2a i = (v : EReal)) (fG2 : ∀ i, ∃ v : ℝ, G2a i = (v : EReal)) (fE2 : ∀ i, ∃ v : ℝ, E2a i = (v : EReal)) :
    concatenate (⟨2, ![512, 192]⟩ : Shape) 1 [⟨⟨2, ![512, 64]⟩, pb1⟩, ⟨⟨2, ![512, 64]⟩, pb2⟩, ⟨⟨2, ![512, 64]⟩, pb3⟩] hc'
      = concatenate (⟨2, ![512, 192]⟩ : Shape) 1 [⟨⟨2, ![512, 64]⟩, pa1⟩, ⟨⟨2, ![512, 64]⟩, pa2⟩, ⟨⟨2, ![512, 64]⟩, pa3⟩] hc := by
  subst hseg hsel htgt hnrm hX hW0 hB0 hG0 hE0 hW1 hB1 hG1 hE1 hW2 hB2 hG2 hE2
  exact concat3_congr
    (join_pool1_arr hpa1 hpb1 hn fX fW0 fB0 fG0 fE0 fW1 fB1 fG1 fE1 fW2 fB2 fG2 fE2).symm
    (join_pool2_arr hpa2 hpb2 hn fX fW0 fB0 fG0 fE0 fW1 fB1 fG1 fE1 fW2 fB2 fG2 fE2).symm
    (join_pool3_arr hpa3 hpb3 hn fX fW0 fB0 fG0 fE0 fW1 fB1 fG1 fE1 fW2 fB2 fG2 fE2).symm

def selE (e : IVec Cert.KernelIdeal.S2x1000000 32) : Fin Ee → Fin Nn :=
  selOf (r := Nn) (by decide) (gidxOf (Cert.PrefixK.srcT e))

def tgtE (e : IVec Cert.KernelIdeal.S2x1000000 32) : Fin Ee → Option (Fin Nn) :=
  tgtOf (r := Nn) (sidxOf (Cert.PrefixK.dstT e))

def nrmE (e : IVec Cert.KernelIdeal.S2x1000000 32) : Fin Ee → EReal :=
  fun k => Cert.NormFin.normT (Cert.PrefixK.srcT e) (Cert.PrefixK.dstT e) (ix1 k)

def segE (g : IVec Cert.KernelIdeal.S100000 32) : Fin Nn → Option (Fin Gg) := tgtOf (r := Gg) (bidxOf g)

theorem nrmE_fin (e : IVec Cert.KernelIdeal.S2x1000000 32) : FinVec (nrmE e) := Cert.NormFin.normT_fin _ _

section Kernel

open Cert.KernelIdeal Cert.KernelIdeal.Hand
variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

theorem selK_eq : selK (WsOf m ρ c) = selE (m ((c.tc : Thread Cert.KernelIdeal.nD Cert.KernelIdeal.τ).loc Cert.KernelIdeal.main_arg1)) :=
  congrArg (fun s => selOf (r := Nn) (by decide) (gidxOf s)) (Cert.PrefixK.pre2_src (W0 m ρ c))

theorem tgtK_eq : tgtK (WsOf m ρ c) = tgtE (m ((c.tc : Thread Cert.KernelIdeal.nD Cert.KernelIdeal.τ).loc Cert.KernelIdeal.main_arg1)) :=
  congrArg (fun t => tgtOf (r := Nn) (sidxOf t)) (Cert.PrefixK.pre2_dst (W0 m ρ c))

theorem nrmK_eq : nrmK (WsOf m ρ c) = nrmE (m ((c.tc : Thread Cert.KernelIdeal.nD Cert.KernelIdeal.τ).loc Cert.KernelIdeal.main_arg1)) :=
  congrArg (fun (v : FVec Ideal Cert.KernelIdeal.S1100000 .f32) (k : Fin Ee) => v (ix1 k)) (Cert.PrefixK.pre2_norm (W0 m ρ c))

theorem segK_eq : segK (WsOf m ρ c) = segE (m ((c.tc : Thread Cert.KernelIdeal.nD Cert.KernelIdeal.τ).loc Cert.KernelIdeal.main_arg2)) := rfl

end Kernel

theorem out1_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (c : Dev Cert.KernelIdeal.nD) :
    StableHlo.after (Cert.ReferenceIdeal.Hand.ops (F := Ideal)) (StableHlo.launchContents m' c) (Proc.devRef .tc Cert.ReferenceIdeal.main_v143)
      = Cert.KernelIdeal.Hand.W28 m ρ c (Proc.devRef .tc Cert.KernelIdeal.main_v100) := by
  obtain ⟨a0, a1, a2, a3, a4, a5, a6, a7, a8, a9, a10, a11, a12, a13, a14⟩ := hagree c
  have hK := (Cert.KernelIdeal.Hand.kernel_results m ρ c).1
  have hR := (Cert.ReferenceIdeal.Hand.ref_final (StableHlo.launchContents m' c)).1
  have hsel : selE (StableHlo.launchContents m' c (Proc.devRef .tc Cert.ReferenceIdeal.main_arg1)) = Cert.KernelIdeal.Hand.selK (Cert.KernelIdeal.Hand.WsOf m ρ c) :=
    (congrArg selE a1).trans (selK_eq m ρ c).symm
  have htgt : tgtE (StableHlo.launchContents m' c (Proc.devRef .tc Cert.ReferenceIdeal.main_arg1)) = Cert.KernelIdeal.Hand.tgtK (Cert.KernelIdeal.Hand.WsOf m ρ c) :=
    (congrArg tgtE a1).trans (tgtK_eq m ρ c).symm
  have hnrm : nrmE (StableHlo.launchContents m' c (Proc.devRef .tc Cert.ReferenceIdeal.main_arg1)) = Cert.KernelIdeal.Hand.nrmK (Cert.KernelIdeal.Hand.WsOf m ρ c) :=
    (congrArg nrmE a1).trans (nrmK_eq m ρ c).symm
  have hn : FinVec (Cert.KernelIdeal.Hand.nrmK (Cert.KernelIdeal.Hand.WsOf m ρ c)) := by rw [nrmK_eq]; exact nrmE_fin _
  exact out1_core hsel htgt hnrm a0 a3 a4 a5 a6 a7 a8 a9 a10 a11 a12 a13 a14
    (hK.trans (congrArg (fun p => p.2.2) (Cert.KernelIdeal.Hand.netK_eq (Cert.KernelIdeal.Hand.WsOf m ρ c)))) hR hn
    (Cert.PreFin.fin_arg0 m hpre c) (Cert.PreFin.fin_arg3 m hpre c) (Cert.PreFin.fin_arg4 m hpre c) (Cert.PreFin.fin_arg5 m hpre c) (Cert.PreFin.fin_arg6 m hpre c) (Cert.PreFin.fin_arg7 m hpre c) (Cert.PreFin.fin_arg8 m hpre c) (Cert.PreFin.fin_arg9 m hpre c) (Cert.PreFin.fin_arg10 m hpre c) (Cert.PreFin.fin_arg11 m hpre c) (Cert.PreFin.fin_arg12 m hpre c) (Cert.PreFin.fin_arg13 m hpre c) (Cert.PreFin.fin_arg14 m hpre c)

theorem out0_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (c : Dev Cert.KernelIdeal.nD) :
    StableHlo.after (Cert.ReferenceIdeal.Hand.ops (F := Ideal)) (StableHlo.launchContents m' c) (Proc.devRef .tc Cert.ReferenceIdeal.main_v153)
      = Cert.KernelIdeal.Hand.W28 m ρ c (Proc.devRef .tc Cert.KernelIdeal.main_v104) := by
  obtain ⟨a0, a1, a2, a3, a4, a5, a6, a7, a8, a9, a10, a11, a12, a13, a14⟩ := hagree c
  obtain ⟨-, hK, hk1, hk2, hk3⟩ := Cert.KernelIdeal.Hand.kernel_results m ρ c
  obtain ⟨-, hR, hp1, hp2, hp3⟩ := Cert.ReferenceIdeal.Hand.ref_final (StableHlo.launchContents m' c)
  have hsel : selE (StableHlo.launchContents m' c (Proc.devRef .tc Cert.ReferenceIdeal.main_arg1)) = Cert.KernelIdeal.Hand.selK (Cert.KernelIdeal.Hand.WsOf m ρ c) :=
    (congrArg selE a1).trans (selK_eq m ρ c).symm
  have htgt : tgtE (StableHlo.launchContents m' c (Proc.devRef .tc Cert.ReferenceIdeal.main_arg1)) = Cert.KernelIdeal.Hand.tgtK (Cert.KernelIdeal.Hand.WsOf m ρ c) :=
    (congrArg tgtE a1).trans (tgtK_eq m ρ c).symm
  have hnrm : nrmE (StableHlo.launchContents m' c (Proc.devRef .tc Cert.ReferenceIdeal.main_arg1)) = Cert.KernelIdeal.Hand.nrmK (Cert.KernelIdeal.Hand.WsOf m ρ c) :=
    (congrArg nrmE a1).trans (nrmK_eq m ρ c).symm
  have hseg : segE (StableHlo.launchContents m' c (Proc.devRef .tc Cert.ReferenceIdeal.main_arg2)) = Cert.KernelIdeal.Hand.segK (Cert.KernelIdeal.Hand.WsOf m ρ c) :=
    (congrArg segE a2).trans (segK_eq m ρ c).symm
  have hn : FinVec (Cert.KernelIdeal.Hand.nrmK (Cert.KernelIdeal.Hand.WsOf m ρ c)) := by rw [nrmK_eq]; exact nrmE_fin _
  have hnet := Cert.KernelIdeal.Hand.netK_eq (Cert.KernelIdeal.Hand.WsOf m ρ c)
  have e1 := congrArg (fun p : Mat Nn 64 × Mat Nn 64 × Mat Nn 64 => poolHot (Cert.KernelIdeal.Hand.segK (Cert.KernelIdeal.Hand.WsOf m ρ c)) p.1) hnet
  have e2 := congrArg (fun p : Mat Nn 64 × Mat Nn 64 × Mat Nn 64 => poolHot (Cert.KernelIdeal.Hand.segK (Cert.KernelIdeal.Hand.WsOf m ρ c)) p.2.1) hnet
  have e3 := congrArg (fun p : Mat Nn 64 × Mat Nn 64 × Mat Nn 64 => poolHot (Cert.KernelIdeal.Hand.segK (Cert.KernelIdeal.Hand.WsOf m ρ c)) p.2.2) hnet
  have hq1 := hk1.trans e1
  have hq2 := hk2.trans e2
  have hq3 := hk3.trans e3
  have hK' : Cert.KernelIdeal.Hand.W28 (F := Ideal) m ρ c (Proc.devRef .tc Cert.KernelIdeal.main_v104)
      = concatenate Cert.KernelIdeal.S512x192 1 [⟨Cert.KernelIdeal.S512x64, Cert.KernelIdeal.Hand.W25 (F := Ideal) m ρ c (Proc.devRef .tc Cert.KernelIdeal.main_v101)⟩, ⟨Cert.KernelIdeal.S512x64, Cert.KernelIdeal.Hand.W26 (F := Ideal) m ρ c (Proc.devRef .tc Cert.KernelIdeal.main_v102)⟩,
          ⟨Cert.KernelIdeal.S512x64, Cert.KernelIdeal.Hand.W27 (F := Ideal) m ρ c (Proc.devRef .tc Cert.KernelIdeal.main_v103)⟩] Cert.KernelIdeal.Facts₀.concatenates_S512x64_S512x64_S512x64_S512x192_d1 := hK
  have key := out0_core (pa1 := Cert.KernelIdeal.Hand.W25 (F := Ideal) m ρ c (Proc.devRef .tc Cert.KernelIdeal.main_v101)) (pa2 := Cert.KernelIdeal.Hand.W26 (F := Ideal) m ρ c (Proc.devRef .tc Cert.KernelIdeal.main_v102)) (pa3 := Cert.KernelIdeal.Hand.W27 (F := Ideal) m ρ c (Proc.devRef .tc Cert.KernelIdeal.main_v103))
    (pb1 := Cert.ReferenceIdeal.Hand.poolOf ((StableHlo.launchContents m' c) (Proc.devRef .tc Cert.ReferenceIdeal.main_arg2)) (Cert.ReferenceIdeal.Hand.refL1 (StableHlo.launchContents m' c))) (pb2 := Cert.ReferenceIdeal.Hand.poolOf ((StableHlo.launchContents m' c) (Proc.devRef .tc Cert.ReferenceIdeal.main_arg2)) (Cert.ReferenceIdeal.Hand.refL2 (StableHlo.launchContents m' c))) (pb3 := Cert.ReferenceIdeal.Hand.poolOf ((StableHlo.launchContents m' c) (Proc.devRef .tc Cert.ReferenceIdeal.main_arg2)) (Cert.ReferenceIdeal.Hand.refL3 (StableHlo.launchContents m' c)))
    (hc := Cert.KernelIdeal.Facts₀.concatenates_S512x64_S512x64_S512x64_S512x192_d1)
    (hc' := Cert.ReferenceIdeal.Facts₀.concatenates_S512x64_S512x64_S512x64_S512x192_d1)
    hseg hsel htgt hnrm a0 a3 a4 a5 a6 a7 a8 a9 a10 a11 a12 a13 a14
    hq1 hq2 hq3
    hp1 hp2 hp3 hn
    (Cert.PreFin.fin_arg0 m hpre c) (Cert.PreFin.fin_arg3 m hpre c) (Cert.PreFin.fin_arg4 m hpre c) (Cert.PreFin.fin_arg5 m hpre c) (Cert.PreFin.fin_arg6 m hpre c) (Cert.PreFin.fin_arg7 m hpre c) (Cert.PreFin.fin_arg8 m hpre c) (Cert.PreFin.fin_arg9 m hpre c) (Cert.PreFin.fin_arg10 m hpre c) (Cert.PreFin.fin_arg11 m hpre c) (Cert.PreFin.fin_arg12 m hpre c) (Cert.PreFin.fin_arg13 m hpre c) (Cert.PreFin.fin_arg14 m hpre c)
  exact hR.trans (key.trans hK'.symm)

end Cert.Bridge

end
-- ==== Proof.lean ====
import proofs.«424828_j6554120094214_2_alg».proof.Defs
import proofs.«424828_j6554120094214_2_alg».proof.Proof.Gen.Kernel
import proofs.«424828_j6554120094214_2_alg».proof.Proof.Gen.KernelIdeal
import proofs.«424828_j6554120094214_2_alg».proof.Proof.Gen.ReferenceIdeal
import proofs.«424828_j6554120094214_2_alg».proof.Proof.Gen.Pre_finite_inputs
import proofs.«424828_j6554120094214_2_alg».proof.Proof.K.Run
import proofs.«424828_j6554120094214_2_alg».proof.Proof.KI.Run
import proofs.«424828_j6554120094214_2_alg».proof.Proof.Ref.Run
import proofs.«424828_j6554120094214_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_r : Cert.frame_ReferenceIdeal := fun m ρ _ => Cert.ReferenceIdeal.Hand.frame m ρ

theorem preserves : Cert.preserves_Kernel_KernelIdeal := trivial

theorem algebraic : Cert.algebraic_KernelIdeal_ReferenceIdeal := by
  intro m ρ m' ρ' hpre hagree
  refine ⟨fun c => Cert.KernelIdeal.Hand.W28 m ρ c (Proc.devRef .tc Cert.KernelIdeal.main_v104),
    fun c => Cert.KernelIdeal.Hand.W28 m ρ c (Proc.devRef .tc Cert.KernelIdeal.main_v100), ?_, ?_⟩
  ·
    refine (θ_run (Cert.KernelIdeal.defs (F := Ideal)) _ _).mono (fun r h c => ?_) (Cert.KernelIdeal.Hand.run_all m ρ)
    have rd : ∀ b : Ref Cert.KernelIdeal.sig .tc, ¬ (Proc.devRef (τ := Cert.KernelIdeal.τ) .tc b).isScoped →
        r.2.mem ((c.tc : Thread Cert.KernelIdeal.nD Cert.KernelIdeal.τ).loc b)
          = Cert.KernelIdeal.Hand.W28 m ρ c (Proc.devRef .tc b) :=
      fun b hs => h c (Proc.devRef .tc b) (Finset.mem_filter.mpr ⟨StableHlo.devRef_mem_tcRefs b, hs⟩)
    exact ⟨rd Cert.KernelIdeal.main_v104 (by decide), rd Cert.KernelIdeal.main_v100 (by decide),
      (rd Cert.KernelIdeal.main_arg0 (by decide)).trans (Cert.KernelIdeal.Hand.W28_arg m ρ c Cert.KernelIdeal.main_arg0 (by decide) (by decide)),
      (rd Cert.KernelIdeal.main_arg1 (by decide)).trans (Cert.KernelIdeal.Hand.W28_arg m ρ c Cert.KernelIdeal.main_arg1 (by decide) (by decide)),
      (rd Cert.KernelIdeal.main_arg2 (by decide)).trans (Cert.KernelIdeal.Hand.W28_arg m ρ c Cert.KernelIdeal.main_arg2 (by decide) (by decide)),
      (rd Cert.KernelIdeal.main_arg3 (by decide)).trans (Cert.KernelIdeal.Hand.W28_arg m ρ c Cert.KernelIdeal.main_arg3 (by decide) (by decide)),
      (rd Cert.KernelIdeal.main_arg4 (by decide)).trans (Cert.KernelIdeal.Hand.W28_arg m ρ c Cert.KernelIdeal.main_arg4 (by decide) (by decide)),
      (rd Cert.KernelIdeal.main_arg5 (by decide)).trans (Cert.KernelIdeal.Hand.W28_arg m ρ c Cert.KernelIdeal.main_arg5 (by decide) (by decide)),
      (rd Cert.KernelIdeal.main_arg6 (by decide)).trans (Cert.KernelIdeal.Hand.W28_arg m ρ c Cert.KernelIdeal.main_arg6 (by decide) (by decide)),
      (rd Cert.KernelIdeal.main_arg7 (by decide)).trans (Cert.KernelIdeal.Hand.W28_arg m ρ c Cert.KernelIdeal.main_arg7 (by decide) (by decide)),
      (rd Cert.KernelIdeal.main_arg8 (by decide)).trans (Cert.KernelIdeal.Hand.W28_arg m ρ c Cert.KernelIdeal.main_arg8 (by decide) (by decide)),
      (rd Cert.KernelIdeal.main_arg9 (by decide)).trans (Cert.KernelIdeal.Hand.W28_arg m ρ c Cert.KernelIdeal.main_arg9 (by decide) (by decide)),
      (rd Cert.KernelIdeal.main_arg10 (by decide)).trans (Cert.KernelIdeal.Hand.W28_arg m ρ c Cert.KernelIdeal.main_arg10 (by decide) (by decide)),
      (rd Cert.KernelIdeal.main_arg11 (by decide)).trans (Cert.KernelIdeal.Hand.W28_arg m ρ c Cert.KernelIdeal.main_arg11 (by decide) (by decide)),
      (rd Cert.KernelIdeal.main_arg12 (by decide)).trans (Cert.KernelIdeal.Hand.W28_arg m ρ c Cert.KernelIdeal.main_arg12 (by decide) (by decide)),
      (rd Cert.KernelIdeal.main_arg13 (by decide)).trans (Cert.KernelIdeal.Hand.W28_arg m ρ c Cert.KernelIdeal.main_arg13 (by decide) (by decide)),
      (rd Cert.KernelIdeal.main_arg14 (by decide)).trans (Cert.KernelIdeal.Hand.W28_arg m ρ c Cert.KernelIdeal.main_arg14 (by decide) (by decide))⟩
  ·
    refine (θ_run (Cert.ReferenceIdeal.defs (F := Ideal)) _ _).mono (fun r h c => ?_) (Cert.ReferenceIdeal.Hand.run_all m' ρ')
    exact ⟨(h c Cert.ReferenceIdeal.main_v153).trans (Cert.Bridge.out0_eq m ρ m' hpre hagree c),
      (h c Cert.ReferenceIdeal.main_v143).trans (Cert.Bridge.out1_eq m ρ m' hpre hagree c),
      (h c Cert.ReferenceIdeal.main_arg0).trans (Cert.ReferenceIdeal.Hand.after_ops_arg0 _),
      (h c Cert.ReferenceIdeal.main_arg1).trans (Cert.ReferenceIdeal.Hand.after_ops_arg1 _),
      (h c Cert.ReferenceIdeal.main_arg2).trans (Cert.ReferenceIdeal.Hand.after_ops_arg2 _),
      (h c Cert.ReferenceIdeal.main_arg3).trans (Cert.ReferenceIdeal.Hand.after_ops_arg3 _),
      (h c Cert.ReferenceIdeal.main_arg4).trans (Cert.ReferenceIdeal.Hand.after_ops_arg4 _),
      (h c Cert.ReferenceIdeal.main_arg5).trans (Cert.ReferenceIdeal.Hand.after_ops_arg5 _),
      (h c Cert.ReferenceIdeal.main_arg6).trans (Cert.ReferenceIdeal.Hand.after_ops_arg6 _),
      (h c Cert.ReferenceIdeal.main_arg7).trans (Cert.ReferenceIdeal.Hand.after_ops_arg7 _),
      (h c Cert.ReferenceIdeal.main_arg8).trans (Cert.ReferenceIdeal.Hand.after_ops_arg8 _),
      (h c Cert.ReferenceIdeal.main_arg9).trans (Cert.ReferenceIdeal.Hand.after_ops_arg9 _),
      (h c Cert.ReferenceIdeal.main_arg10).trans (Cert.ReferenceIdeal.Hand.after_ops_arg10 _),
      (h c Cert.ReferenceIdeal.main_arg11).trans (Cert.ReferenceIdeal.Hand.after_ops_arg11 _),
      (h c Cert.ReferenceIdeal.main_arg12).trans (Cert.ReferenceIdeal.Hand.after_ops_arg12 _),
      (h c Cert.ReferenceIdeal.main_arg13).trans (Cert.ReferenceIdeal.Hand.after_ops_arg13 _),
      (h c Cert.ReferenceIdeal.main_arg14).trans (Cert.ReferenceIdeal.Hand.after_ops_arg14 _)⟩

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
